-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![1024, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![1024, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S128x128 : Shape := ⟨2, ![128, 128]⟩
abbrev S128x256 : Shape := ⟨2, ![128, 256]⟩
abbrev S256x128 : Shape := ⟨2, ![256, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128x256 .f32) (main_arg6 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S128x128 .f32) (main_arg1 : FVec F S128x256 .f32) (main_arg2 : FVec F S256x128 .f32) (main_arg3 : FVec F S128x256 .f32) (main_arg4 : FVec F S256x128 .f32) (main_arg5 : FVec F S128x256 .f32) (main_arg6 : FVec F S256x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Pre_finite_inputs_ReferenceIdeal.lean ====
abbrev S1024x128 : Shape := ⟨2, ![1024, 128]⟩
abbrev S128x2048 : Shape := ⟨2, ![128, 2048]⟩
abbrev S2048x128 : Shape := ⟨2, ![2048, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x128 .f32) (main_arg5 : FVec F S128x2048 .f32) (main_arg6 : FVec F S2048x128 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048x128 .f32 := Host.absf main_arg4
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S2048x128 .f32 := Host.absf main_arg6
  let main_cst_10 : FVec F S_ .f32 := constant S_ .f32 0x7F800000#32
  let main_v30 : FVec F S2048x128 .f32 := broadcastInDim S2048x128 ![] bcast_S_S2048x128 main_cst_10
  let main_v31 : IVec S2048x128 1 := cmpf .olt main_v29 main_v30
  let main_c_11 : IVec S_ 1 := constantI S_ 1 1#1
  let main_v32 : IVec S_ 1 := (fun x v => Host.reduce IntOp.andi x v reducesTo_S2048x128_S_d0_1 h_S_) main_v31 main_c_11
  let main_v33 : IVec S_ 1 := andi main_v28 main_v32
  main_v33

def fn {F : FTy → Type} [FloatOps F] (main_arg0 : FVec F S1024x128 .f32) (main_arg1 : FVec F S128x2048 .f32) (main_arg2 : FVec F S2048x128 .f32) (main_arg3 : FVec F S128x2048 .f32) (main_arg4 : FVec F S2048x128 .f32) (main_arg5 : FVec F S128x2048 .f32) (main_arg6 : FVec F S2048x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_v13 main_v16
-- ==== Kernel.lean ====
abbrev S128x128 : Shape := ⟨2, ![128, 128]⟩
abbrev S128x256 : Shape := ⟨2, ![128, 256]⟩
abbrev S256x128 : Shape := ⟨2, ![256, 128]⟩
abbrev S2x3x128x256 : Shape := ⟨4, ![2, 3, 128, 256]⟩
abbrev S2x3x256x128 : Shape := ⟨4, ![2, 3, 256, 128]⟩
abbrev S4x128x128 : Shape := ⟨3, ![4, 128, 128]⟩
abbrev S6 : Shape := ⟨1, ![6]⟩
abbrev S_ : Shape := ⟨0, ![]⟩
abbrev S1x1x128x256 : Shape := ⟨4, ![1, 1, 128, 256]⟩
abbrev S1x1x256x128 : Shape := ⟨4, ![1, 1, 256, 128]⟩
abbrev S1x128x128 : Shape := ⟨3, ![1, 128, 128]⟩
abbrev S1 : Shape := ⟨1, ![1]⟩
abbrev S512x128 : Shape := ⟨2, ![512, 128]⟩
abbrev S512x256 : Shape := ⟨2, ![512, 256]⟩

abbrev nBuf : Space → Nat
  | .hbm => 8
  | .vmem => 19
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S2x3x128x256, .bf16⟩
  | .local _ .vmem, ⟨9, _⟩ => ⟨S2x3x256x128, .bf16⟩
  | .local _ .vmem, ⟨10, _⟩ => ⟨S4x128x128, .bf16⟩
  | .local _ .vmem, ⟨11, _⟩ => ⟨S4x128x128, .bf16⟩
  | .local _ .vmem, ⟨12, _⟩ => ⟨S4x128x128, .bf16⟩
  | .local _ .vmem, ⟨13, _⟩ => ⟨S4x128x128, .bf16⟩
  | .local _ .vmem, ⟨14, _⟩ => ⟨S4x128x128, .bf16⟩
  | .local _ .vmem, ⟨15, _⟩ => ⟨S4x128x128, .bf16⟩
  | .local _ .vmem, ⟨16, _⟩ => ⟨S4x128x128, .bf16⟩
  | .local _ .vmem, ⟨17, _⟩ => ⟨S4x128x128, .bf16⟩
  | .local _ .vmem, ⟨18, _⟩ => ⟨S4x128x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 2 → Bool
  | ⟨0, _⟩ => false
  | ⟨1, _⟩ => true
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 2 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_3 : BitVec 32 := 1#32
  let v8 : BitVec 32 := Scalar.muli v6 c1_i32_3
  let v9 : BitVec 32 := Scalar.addi c0_i32 v8
  v9.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_4 : BitVec 32 := 1#32
  let v10 : BitVec 32 := Scalar.addi v3 c1_i32_4
  let c4_i32_5 : BitVec 32 := 4#32
  let v11 : BitVec 32 := Scalar.remsi v10 c4_i32_5
  let v12 : BitVec 32 := Scalar.addi v4 v11
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32 : BitVec 32 := 2#32
  let v15 : BitVec 32 := Scalar.addi v3 c2_i32
  let c4_i32_9 : BitVec 32 := 4#32
  let v16 : BitVec 32 := Scalar.remsi v15 c4_i32_9
  let v17 : BitVec 32 := Scalar.addi v4 v16
  let c1_i32_11 : BitVec 32 := 1#32
  let v18 : BitVec 32 := Scalar.muli v17 c1_i32_11
  let v19 : BitVec 32 := Scalar.addi c0_i32_12 v18
  v19.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v20 : BitVec 32 := Scalar.addi v3 c3_i32
  let c4_i32_13 : BitVec 32 := 4#32
  let v21 : BitVec 32 := Scalar.remsi v20 c4_i32_13
  let v22 : BitVec 32 := Scalar.addi v4 v21
  let c1_i32_15 : BitVec 32 := 1#32
  let v23 : BitVec 32 := Scalar.muli v22 c1_i32_15
  let v24 : BitVec 32 := Scalar.addi c0_i32_16 v23
  v24.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v64 : Index := Scalar.indexCast v3
  let c0_52 : Index := 0#32
  let c0_53 : Index := 0#32
  ![v64.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_61 : BitVec 32 := 0#32
  let c0_i32_62 : BitVec 32 := 0#32
  ![v3.toNat, 0, 0]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_55 : BitVec 32 := 1#32
  let v68 : BitVec 32 := Scalar.addi v3 c1_i32_55
  let c4_i32_56 : BitVec 32 := 4#32
  let v69 : BitVec 32 := Scalar.remsi v68 c4_i32_56
  let v70 : BitVec 32 := Scalar.addi v4 v69
  let c1_i32_59 : BitVec 32 := 1#32
  let v71 : BitVec 32 := Scalar.muli v70 c1_i32_59
  let v72 : BitVec 32 := Scalar.addi c0_i32_60 v71
  v72.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_65 : BitVec 32 := 2#32
  let v81 : BitVec 32 := Scalar.addi v3 c2_i32_65
  let c4_i32_66 : BitVec 32 := 4#32
  let v82 : BitVec 32 := Scalar.remsi v81 c4_i32_66
  let v83 : BitVec 32 := Scalar.addi v4 v82
  let c1_i32_69 : BitVec 32 := 1#32
  let v84 : BitVec 32 := Scalar.muli v83 c1_i32_69
  let v85 : BitVec 32 := Scalar.addi c0_i32_70 v84
  v85.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_75 : BitVec 32 := 3#32
  let v94 : BitVec 32 := Scalar.addi v3 c3_i32_75
  let c4_i32_76 : BitVec 32 := 4#32
  let v95 : BitVec 32 := Scalar.remsi v94 c4_i32_76
  let v96 : BitVec 32 := Scalar.addi v4 v95
  let c1_i32_79 : BitVec 32 := 1#32
  let v97 : BitVec 32 := Scalar.muli v96 c1_i32_79
  let v98 : BitVec 32 := Scalar.addi c0_i32_80 v97
  v98.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_91 : BitVec 32 := 1#32
  let v107 : BitVec 32 := Scalar.muli v6 c1_i32_91
  let v108 : BitVec 32 := Scalar.addi c0_i32_92 v107
  v108.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_103 : BitVec 32 := 1#32
  let v117 : BitVec 32 := Scalar.muli v6 c1_i32_103
  let v118 : BitVec 32 := Scalar.addi c0_i32_104 v117
  v118.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_115 : BitVec 32 := 1#32
  let v127 : BitVec 32 := Scalar.muli v6 c1_i32_115
  let v128 : BitVec 32 := Scalar.addi c0_i32_116 v127
  v128.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_127 : BitVec 32 := 1#32
  let v137 : BitVec 32 := Scalar.muli v6 c1_i32_127
  let v138 : BitVec 32 := Scalar.addi c0_i32_128 v137
  v138.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_139 : BitVec 32 := 1#32
  let v147 : BitVec 32 := Scalar.muli v6 c1_i32_139
  let v148 : BitVec 32 := Scalar.addi c0_i32_140 v147
  v148.toNat
def k0_dev13 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_150 : BitVec 32 := 1#32
  let v157 : BitVec 32 := Scalar.muli v6 c1_i32_150
  let v158 : BitVec 32 := Scalar.addi c0_i32_151 v157
  v158.toNat
def k0_off3 (d0 : Dev nD) (c1_i32_234 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v238 : BitVec 32 := Scalar.addi v3 c1_i32_234
  let c4_i32_235 : BitVec 32 := 4#32
  let v239 : BitVec 32 := Scalar.remsi v238 c4_i32_235
  let c0_i32_242 : BitVec 32 := 0#32
  let c0_i32_243 : BitVec 32 := 0#32
  ![v239.toNat, 0, 0]
def k0_dev14 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_232 : BitVec 32 := 1#32
  let v235 : BitVec 32 := Scalar.addi v3 c1_i32_232
  let c4_i32_233 : BitVec 32 := 4#32
  let v236 : BitVec 32 := Scalar.remsi v235 c4_i32_233
  let v237 : BitVec 32 := Scalar.addi v4 v236
  let c1_i32_238 : BitVec 32 := 1#32
  let v240 : BitVec 32 := Scalar.muli v237 c1_i32_238
  let v241 : BitVec 32 := Scalar.addi c0_i32_239 v240
  v241.toNat
def k0_dev15 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_244 : BitVec 32 := 2#32
  let v250 : BitVec 32 := Scalar.addi v3 c2_i32_244
  let c4_i32_245 : BitVec 32 := 4#32
  let v251 : BitVec 32 := Scalar.remsi v250 c4_i32_245
  let v252 : BitVec 32 := Scalar.addi v4 v251
  let c1_i32_250 : BitVec 32 := 1#32
  let v255 : BitVec 32 := Scalar.muli v252 c1_i32_250
  let v256 : BitVec 32 := Scalar.addi c0_i32_251 v255
  v256.toNat
def k0_dev16 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_256 : BitVec 32 := 3#32
  let v265 : BitVec 32 := Scalar.addi v3 c3_i32_256
  let c4_i32_257 : BitVec 32 := 4#32
  let v266 : BitVec 32 := Scalar.remsi v265 c4_i32_257
  let v267 : BitVec 32 := Scalar.addi v4 v266
  let c1_i32_262 : BitVec 32 := 1#32
  let v270 : BitVec 32 := Scalar.muli v267 c1_i32_262
  let v271 : BitVec 32 := Scalar.addi c0_i32_263 v270
  v271.toNat
def k0_off4 (d0 : Dev nD) (c1_i32_294 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v308 : BitVec 32 := Scalar.addi v3 c1_i32_294
  let c4_i32_295 : BitVec 32 := 4#32
  let v309 : BitVec 32 := Scalar.remsi v308 c4_i32_295
  let v310 : Index := Scalar.indexCast v309
  let c0_296 : Index := 0#32
  let c0_297 : Index := 0#32
  ![v310.toNat, 0, 0]
def k0_dev17 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_308 : BitVec 32 := 1#32
  let v334 : BitVec 32 := Scalar.addi v3 c1_i32_308
  let c4_i32_309 : BitVec 32 := 4#32
  let v335 : BitVec 32 := Scalar.remsi v334 c4_i32_309
  let v336 : BitVec 32 := Scalar.addi v4 v335
  let c1_i32_312 : BitVec 32 := 1#32
  let v337 : BitVec 32 := Scalar.muli v336 c1_i32_312
  let v338 : BitVec 32 := Scalar.addi c0_i32_313 v337
  v338.toNat
def k0_dev18 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_318 : BitVec 32 := 2#32
  let v347 : BitVec 32 := Scalar.addi v3 c2_i32_318
  let c4_i32_319 : BitVec 32 := 4#32
  let v348 : BitVec 32 := Scalar.remsi v347 c4_i32_319
  let v349 : BitVec 32 := Scalar.addi v4 v348
  let c1_i32_322 : BitVec 32 := 1#32
  let v350 : BitVec 32 := Scalar.muli v349 c1_i32_322
  let v351 : BitVec 32 := Scalar.addi c0_i32_323 v350
  v351.toNat
def k0_dev19 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_328 : BitVec 32 := 3#32
  let v360 : BitVec 32 := Scalar.addi v3 c3_i32_328
  let c4_i32_329 : BitVec 32 := 4#32
  let v361 : BitVec 32 := Scalar.remsi v360 c4_i32_329
  let v362 : BitVec 32 := Scalar.addi v4 v361
  let c1_i32_332 : BitVec 32 := 1#32
  let v363 : BitVec 32 := Scalar.muli v362 c1_i32_332
  let v364 : BitVec 32 := Scalar.addi c0_i32_333 v363
  v364.toNat
def k0_dev20 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_415 : BitVec 32 := 1#32
  let v441 : BitVec 32 := Scalar.addi v3 c1_i32_415
  let c4_i32_416 : BitVec 32 := 4#32
  let v442 : BitVec 32 := Scalar.remsi v441 c4_i32_416
  let v443 : BitVec 32 := Scalar.addi v4 v442
  let c1_i32_421 : BitVec 32 := 1#32
  let v446 : BitVec 32 := Scalar.muli v443 c1_i32_421
  let v447 : BitVec 32 := Scalar.addi c0_i32_422 v446
  v447.toNat
def k0_dev21 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_427 : BitVec 32 := 2#32
  let v456 : BitVec 32 := Scalar.addi v3 c2_i32_427
  let c4_i32_428 : BitVec 32 := 4#32
  let v457 : BitVec 32 := Scalar.remsi v456 c4_i32_428
  let v458 : BitVec 32 := Scalar.addi v4 v457
  let c1_i32_433 : BitVec 32 := 1#32
  let v461 : BitVec 32 := Scalar.muli v458 c1_i32_433
  let v462 : BitVec 32 := Scalar.addi c0_i32_434 v461
  v462.toNat
def k0_dev22 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_439 : BitVec 32 := 3#32
  let v471 : BitVec 32 := Scalar.addi v3 c3_i32_439
  let c4_i32_440 : BitVec 32 := 4#32
  let v472 : BitVec 32 := Scalar.remsi v471 c4_i32_440
  let v473 : BitVec 32 := Scalar.addi v4 v472
  let c1_i32_445 : BitVec 32 := 1#32
  let v476 : BitVec 32 := Scalar.muli v473 c1_i32_445
  let v477 : BitVec 32 := Scalar.addi c0_i32_446 v476
  v477.toNat
def k0_dev23 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_491 : BitVec 32 := 1#32
  let v540 : BitVec 32 := Scalar.addi v3 c1_i32_491
  let c4_i32_492 : BitVec 32 := 4#32
  let v541 : BitVec 32 := Scalar.remsi v540 c4_i32_492
  let v542 : BitVec 32 := Scalar.addi v4 v541
  let c1_i32_495 : BitVec 32 := 1#32
  let v543 : BitVec 32 := Scalar.muli v542 c1_i32_495
  let v544 : BitVec 32 := Scalar.addi c0_i32_496 v543
  v544.toNat
def k0_dev24 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_501 : BitVec 32 := 2#32
  let v553 : BitVec 32 := Scalar.addi v3 c2_i32_501
  let c4_i32_502 : BitVec 32 := 4#32
  let v554 : BitVec 32 := Scalar.remsi v553 c4_i32_502
  let v555 : BitVec 32 := Scalar.addi v4 v554
  let c1_i32_505 : BitVec 32 := 1#32
  let v556 : BitVec 32 := Scalar.muli v555 c1_i32_505
  let v557 : BitVec 32 := Scalar.addi c0_i32_506 v556
  v557.toNat
def k0_dev25 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_511 : BitVec 32 := 3#32
  let v566 : BitVec 32 := Scalar.addi v3 c3_i32_511
  let c4_i32_512 : BitVec 32 := 4#32
  let v567 : BitVec 32 := Scalar.remsi v566 c4_i32_512
  let v568 : BitVec 32 := Scalar.addi v4 v567
  let c1_i32_515 : BitVec 32 := 1#32
  let v569 : BitVec 32 := Scalar.muli v568 c1_i32_515
  let v570 : BitVec 32 := Scalar.addi c0_i32_516 v569
  v570.toNat
def k0_dev26 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_598 : BitVec 32 := 1#32
  let v647 : BitVec 32 := Scalar.addi v3 c1_i32_598
  let c4_i32_599 : BitVec 32 := 4#32
  let v648 : BitVec 32 := Scalar.remsi v647 c4_i32_599
  let v649 : BitVec 32 := Scalar.addi v4 v648
  let c1_i32_604 : BitVec 32 := 1#32
  let v652 : BitVec 32 := Scalar.muli v649 c1_i32_604
  let v653 : BitVec 32 := Scalar.addi c0_i32_605 v652
  v653.toNat
def k0_dev27 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_610 : BitVec 32 := 2#32
  let v662 : BitVec 32 := Scalar.addi v3 c2_i32_610
  let c4_i32_611 : BitVec 32 := 4#32
  let v663 : BitVec 32 := Scalar.remsi v662 c4_i32_611
  let v664 : BitVec 32 := Scalar.addi v4 v663
  let c1_i32_616 : BitVec 32 := 1#32
  let v667 : BitVec 32 := Scalar.muli v664 c1_i32_616
  let v668 : BitVec 32 := Scalar.addi c0_i32_617 v667
  v668.toNat
def k0_dev28 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_622 : BitVec 32 := 3#32
  let v677 : BitVec 32 := Scalar.addi v3 c3_i32_622
  let c4_i32_623 : BitVec 32 := 4#32
  let v678 : BitVec 32 := Scalar.remsi v677 c4_i32_623
  let v679 : BitVec 32 := Scalar.addi v4 v678
  let c1_i32_628 : BitVec 32 := 1#32
  let v682 : BitVec 32 := Scalar.muli v679 c1_i32_628
  let v683 : BitVec 32 := Scalar.addi c0_i32_629 v682
  v683.toNat
def k0_dev29 (d0 : Dev nD) : Nat :=
  let c0_i32_868_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_867_r0 : BitVec 32 := 1#32
  let v887_r0 : BitVec 32 := Scalar.muli v6 c1_i32_867_r0
  let v888_r0 : BitVec 32 := Scalar.addi c0_i32_868_r0 v887_r0
  v888_r0.toNat
def k0_dev30 (d0 : Dev nD) : Nat :=
  let c0_i32_873_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_869_r0 : BitVec 32 := 1#32
  let v889_r0 : BitVec 32 := Scalar.addi v3 c1_i32_869_r0
  let c4_i32_870_r0 : BitVec 32 := 4#32
  let v890_r0 : BitVec 32 := Scalar.remsi v889_r0 c4_i32_870_r0
  let v891_r0 : BitVec 32 := Scalar.addi v4 v890_r0
  let c1_i32_872_r0 : BitVec 32 := 1#32
  let v892_r0 : BitVec 32 := Scalar.muli v891_r0 c1_i32_872_r0
  let v893_r0 : BitVec 32 := Scalar.addi c0_i32_873_r0 v892_r0
  v893_r0.toNat
def k0_dev31 (d0 : Dev nD) : Nat :=
  let c0_i32_878_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_874_r0 : BitVec 32 := 2#32
  let v894_r0 : BitVec 32 := Scalar.addi v3 c2_i32_874_r0
  let c4_i32_875_r0 : BitVec 32 := 4#32
  let v895_r0 : BitVec 32 := Scalar.remsi v894_r0 c4_i32_875_r0
  let v896_r0 : BitVec 32 := Scalar.addi v4 v895_r0
  let c1_i32_877_r0 : BitVec 32 := 1#32
  let v897_r0 : BitVec 32 := Scalar.muli v896_r0 c1_i32_877_r0
  let v898_r0 : BitVec 32 := Scalar.addi c0_i32_878_r0 v897_r0
  v898_r0.toNat
def k0_dev32 (d0 : Dev nD) : Nat :=
  let c0_i32_883_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_879_r0 : BitVec 32 := 3#32
  let v899_r0 : BitVec 32 := Scalar.addi v3 c3_i32_879_r0
  let c4_i32_880_r0 : BitVec 32 := 4#32
  let v900_r0 : BitVec 32 := Scalar.remsi v899_r0 c4_i32_880_r0
  let v901_r0 : BitVec 32 := Scalar.addi v4 v900_r0
  let c1_i32_882_r0 : BitVec 32 := 1#32
  let v902_r0 : BitVec 32 := Scalar.muli v901_r0 c1_i32_882_r0
  let v903_r0 : BitVec 32 := Scalar.addi c0_i32_883_r0 v902_r0
  v903_r0.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S2x3x128x256_S1x1x128x256_0_0_0_0 : ∀ a, (![0, 0, 0, 0] : Fin 4 → Nat) a + S1x1x128x256.size a ≤ S2x3x128x256.size a
  h_S1x1x128x256 : 0 < S1x1x128x256.numel
  shapeCasts_S1x1x128x256_S128x256 : S1x1x128x256.ShapeCasts S128x256
  shapeCasts_S128x256_S1x1x128x256 : S128x256.ShapeCasts S1x1x128x256
  packedbf16_S2x3x128x256_S1x1x128x256_0_0_0_0 : (Rect.unit (s := S2x3x128x256) ![0, 0, 0, 0] S1x1x128x256.size inb_S2x3x128x256_S1x1x128x256_0_0_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2x3x256x128_S1x1x256x128_0_0_0_0 : ∀ a, (![0, 0, 0, 0] : Fin 4 → Nat) a + S1x1x256x128.size a ≤ S2x3x256x128.size a
  h_S1x1x256x128 : 0 < S1x1x256x128.numel
  shapeCasts_S1x1x256x128_S256x128 : S1x1x256x128.ShapeCasts S256x128
  shapeCasts_S256x128_S1x1x256x128 : S256x128.ShapeCasts S1x1x256x128
  packedbf16_S2x3x256x128_S1x1x256x128_0_0_0_0 : (Rect.unit (s := S2x3x256x128) ![0, 0, 0, 0] S1x1x256x128.size inb_S2x3x256x128_S1x1x256x128_0_0_0_0).PackedRows (EltTy.packing .bf16)
  inb_S2x3x128x256_S1x1x128x256_0_1_0_0 : ∀ a, (![0, 1, 0, 0] : Fin 4 → Nat) a + S1x1x128x256.size a ≤ S2x3x128x256.size a
  packedbf16_S2x3x128x256_S1x1x128x256_0_1_0_0 : (Rect.unit (s := S2x3x128x256) ![0, 1, 0, 0] S1x1x128x256.size inb_S2x3x128x256_S1x1x128x256_0_1_0_0).PackedRows (EltTy.packing .bf16)
  inb_S2x3x256x128_S1x1x256x128_0_1_0_0 : ∀ a, (![0, 1, 0, 0] : Fin 4 → Nat) a + S1x1x256x128.size a ≤ S2x3x256x128.size a
  packedbf16_S2x3x256x128_S1x1x256x128_0_1_0_0 : (Rect.unit (s := S2x3x256x128) ![0, 1, 0, 0] S1x1x256x128.size inb_S2x3x256x128_S1x1x256x128_0_1_0_0).PackedRows (EltTy.packing .bf16)
  inb_S2x3x128x256_S1x1x128x256_0_2_0_0 : ∀ a, (![0, 2, 0, 0] : Fin 4 → Nat) a + S1x1x128x256.size a ≤ S2x3x128x256.size a
  packedbf16_S2x3x128x256_S1x1x128x256_0_2_0_0 : (Rect.unit (s := S2x3x128x256) ![0, 2, 0, 0] S1x1x128x256.size inb_S2x3x128x256_S1x1x128x256_0_2_0_0).PackedRows (EltTy.packing .bf16)
  inb_S2x3x256x128_S1x1x256x128_0_2_0_0 : ∀ a, (![0, 2, 0, 0] : Fin 4 → Nat) a + S1x1x256x128.size a ≤ S2x3x256x128.size a
  packedbf16_S2x3x256x128_S1x1x256x128_0_2_0_0 : (Rect.unit (s := S2x3x256x128) ![0, 2, 0, 0] S1x1x256x128.size inb_S2x3x256x128_S1x1x256x128_0_2_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S1x128x128 : 0 < S1x128x128.numel
  shapeCasts_S1x128x128_S128x128 : S1x128x128.ShapeCasts S128x128
  shapeCasts_S128x128_S1x128x128 : S128x128.ShapeCasts S1x128x128
  hamt_4 : (4#32 : BitVec 32).msb = false
  inb_S6_S1_0 : ∀ a, (![0] : Fin 1 → Nat) a + S1.size a ≤ S6.size a
  squeezes_S1_S_ : S1.Squeezes S_
  squeezes_S1x128x128_S128x128 : S1x128x128.Squeezes S128x128
  inb_S2x3x128x256_S1x1x128x256_1_0_0_0 : ∀ a, (![1, 0, 0, 0] : Fin 4 → Nat) a + S1x1x128x256.size a ≤ S2x3x128x256.size a
  squeezes_S1x1x128x256_S128x256 : S1x1x128x256.Squeezes S128x256
  wordsbf16_S2x3x128x256_S1x1x128x256_0_0_0_0 : (Rect.unit (s := S2x3x128x256) ![0, 0, 0, 0] S1x1x128x256.size inb_S2x3x128x256_S1x1x128x256_0_0_0_0).WholeWords (EltTy.packing .bf16)
  wordsbf16_S2x3x128x256_S1x1x128x256_1_0_0_0 : (Rect.unit (s := S2x3x128x256) ![1, 0, 0, 0] S1x1x128x256.size inb_S2x3x128x256_S1x1x128x256_1_0_0_0).WholeWords (EltTy.packing .bf16)
  inb_S6_S1_1 : ∀ a, (![1] : Fin 1 → Nat) a + S1.size a ≤ S6.size a
  inb_S2x3x256x128_S1x1x256x128_1_0_0_0 : ∀ a, (![1, 0, 0, 0] : Fin 4 → Nat) a + S1x1x256x128.size a ≤ S2x3x256x128.size a
  squeezes_S1x1x256x128_S256x128 : S1x1x256x128.Squeezes S256x128
  wordsbf16_S2x3x256x128_S1x1x256x128_0_0_0_0 : (Rect.unit (s := S2x3x256x128) ![0, 0, 0, 0] S1x1x256x128.size inb_S2x3x256x128_S1x1x256x128_0_0_0_0).WholeWords (EltTy.packing .bf16)
  wordsbf16_S2x3x256x128_S1x1x256x128_1_0_0_0 : (Rect.unit (s := S2x3x256x128) ![1, 0, 0, 0] S1x1x256x128.size inb_S2x3x256x128_S1x1x256x128_1_0_0_0).WholeWords (EltTy.packing .bf16)
  inb_S6_S1_2 : ∀ a, (![2] : Fin 1 → Nat) a + S1.size a ≤ S6.size a
  inb_S2x3x128x256_S1x1x128x256_1_1_0_0 : ∀ a, (![1, 1, 0, 0] : Fin 4 → Nat) a + S1x1x128x256.size a ≤ S2x3x128x256.size a
  wordsbf16_S2x3x128x256_S1x1x128x256_0_1_0_0 : (Rect.unit (s := S2x3x128x256) ![0, 1, 0, 0] S1x1x128x256.size inb_S2x3x128x256_S1x1x128x256_0_1_0_0).WholeWords (EltTy.packing .bf16)
  wordsbf16_S2x3x128x256_S1x1x128x256_1_1_0_0 : (Rect.unit (s := S2x3x128x256) ![1, 1, 0, 0] S1x1x128x256.size inb_S2x3x128x256_S1x1x128x256_1_1_0_0).WholeWords (EltTy.packing .bf16)
  inb_S6_S1_3 : ∀ a, (![3] : Fin 1 → Nat) a + S1.size a ≤ S6.size a
  inb_S2x3x256x128_S1x1x256x128_1_1_0_0 : ∀ a, (![1, 1, 0, 0] : Fin 4 → Nat) a + S1x1x256x128.size a ≤ S2x3x256x128.size a
  wordsbf16_S2x3x256x128_S1x1x256x128_0_1_0_0 : (Rect.unit (s := S2x3x256x128) ![0, 1, 0, 0] S1x1x256x128.size inb_S2x3x256x128_S1x1x256x128_0_1_0_0).WholeWords (EltTy.packing .bf16)
  wordsbf16_S2x3x256x128_S1x1x256x128_1_1_0_0 : (Rect.unit (s := S2x3x256x128) ![1, 1, 0, 0] S1x1x256x128.size inb_S2x3x256x128_S1x1x256x128_1_1_0_0).WholeWords (EltTy.packing .bf16)
  inb_S6_S1_4 : ∀ a, (![4] : Fin 1 → Nat) a + S1.size a ≤ S6.size a
  inb_S2x3x128x256_S1x1x128x256_1_2_0_0 : ∀ a, (![1, 2, 0, 0] : Fin 4 → Nat) a + S1x1x128x256.size a ≤ S2x3x128x256.size a
  wordsbf16_S2x3x128x256_S1x1x128x256_0_2_0_0 : (Rect.unit (s := S2x3x128x256) ![0, 2, 0, 0] S1x1x128x256.size inb_S2x3x128x256_S1x1x128x256_0_2_0_0).WholeWords (EltTy.packing .bf16)
  wordsbf16_S2x3x128x256_S1x1x128x256_1_2_0_0 : (Rect.unit (s := S2x3x128x256) ![1, 2, 0, 0] S1x1x128x256.size inb_S2x3x128x256_S1x1x128x256_1_2_0_0).WholeWords (EltTy.packing .bf16)
  inb_S6_S1_5 : ∀ a, (![5] : Fin 1 → Nat) a + S1.size a ≤ S6.size a
  inb_S2x3x256x128_S1x1x256x128_1_2_0_0 : ∀ a, (![1, 2, 0, 0] : Fin 4 → Nat) a + S1x1x256x128.size a ≤ S2x3x256x128.size a
  wordsbf16_S2x3x256x128_S1x1x256x128_0_2_0_0 : (Rect.unit (s := S2x3x256x128) ![0, 2, 0, 0] S1x1x256x128.size inb_S2x3x256x128_S1x1x256x128_0_2_0_0).WholeWords (EltTy.packing .bf16)
  wordsbf16_S2x3x256x128_S1x1x256x128_1_2_0_0 : (Rect.unit (s := S2x3x256x128) ![1, 2, 0, 0] S1x1x256x128.size inb_S2x3x256x128_S1x1x256x128_1_2_0_0).WholeWords (EltTy.packing .bf16)
  inb_S4x128x128_S4x128x128_0_0_0 : ∀ a, (![0, 0, 0] : Fin 3 → Nat) a + S4x128x128.size a ≤ S4x128x128.size a
  h_S4x128x128 : 0 < S4x128x128.numel
  shapeCasts_S4x128x128_S512x128 : S4x128x128.ShapeCasts S512x128
  shapeCasts_S512x128_S4x128x128 : S512x128.ShapeCasts S4x128x128
  shapeCasts_S4x128x128_S4x128x128 : S4x128x128.ShapeCasts S4x128x128
  packedbf16_S4x128x128_S4x128x128_0_0_0 : (Rect.unit (s := S4x128x128) ![0, 0, 0] S4x128x128.size inb_S4x128x128_S4x128x128_0_0_0).PackedRows (EltTy.packing .bf16)
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hcc0_scoped0 : 1 + S_.numel ≤ 2
  hcc0_scratch11 : 8 + S6.numel ≤ 32
  hcc0_scratch12 : 14 + S6.numel ≤ 32
  hcc0_scratch13 : 20 + S6.numel ≤ 32
  hcc0_scratch14 : 26 + S6.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ a, (k0_off1 d0) a + S1x128x128.size a ≤ S4x128x128.size a
  k0_off1_packedbf16 : ∀ d0 : Dev nD, (Rect.unit (s := S4x128x128) (k0_off1 d0) S1x128x128.size (k0_off1_inb d0)).PackedRows (EltTy.packing .bf16)
  k0_off2_inb : ∀ d0 : Dev nD, ∀ a, (k0_off2 d0) a + S1x128x128.size a ≤ S4x128x128.size a
  k0_off2_wordsbf16 : ∀ d0 : Dev nD, (Rect.unit (s := S4x128x128) (k0_off2 d0) S1x128x128.size (k0_off2_inb d0)).WholeWords (EltTy.packing .bf16)
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off3_inb : ∀ d0 : Dev nD, ∀ (r : Fin 3), ∀ a, (k0_off3 d0 (BitVec.ofNat 32 (1 + r.val))) a + S1x128x128.size a ≤ S4x128x128.size a
  k0_off3_wordsbf16 : ∀ d0 : Dev nD, ∀ (r : Fin 3), (Rect.unit (s := S4x128x128) (k0_off3 d0 (BitVec.ofNat 32 (1 + r.val))) S1x128x128.size (k0_off3_inb d0 r)).WholeWords (EltTy.packing .bf16)
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_off4_inb : ∀ d0 : Dev nD, ∀ (r : Fin 3), ∀ a, (k0_off4 d0 (BitVec.ofNat 32 (1 + r.val))) a + S1x128x128.size a ≤ S4x128x128.size a
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scoped0 : Sems sig S_ := SemArray.consecutive 1 S_ hcc0_scoped0
abbrev cc0_scratch11 : DmaSems sig S6 := SemArray.consecutive 8 S6 hcc0_scratch11
abbrev cc0_scratch12 : DmaSems sig S6 := SemArray.consecutive 14 S6 hcc0_scratch12
abbrev cc0_scratch13 : DmaSems sig S6 := SemArray.consecutive 20 S6 hcc0_scratch13
abbrev cc0_scratch14 : DmaSems sig S6 := SemArray.consecutive 26 S6 hcc0_scratch14
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x128 : Shape := ⟨2, ![1024, 128]⟩
abbrev S128x2048 : Shape := ⟨2, ![128, 2048]⟩
abbrev S2048x128 : Shape := ⟨2, ![2048, 128]⟩
abbrev S1024x2048 : Shape := ⟨2, ![1024, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x2048, .f32⟩
  | .hbm, ⟨2, _⟩ => ⟨S2048x128, .f32⟩
  | .hbm, ⟨3, _⟩ => ⟨S128x2048, .f32⟩
  | .hbm, ⟨4, _⟩ => ⟨S2048x128, .f32⟩
  | .hbm, ⟨5, _⟩ => ⟨S128x2048, .f32⟩
  | .hbm, ⟨6, _⟩ => ⟨S2048x128, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x128, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x128, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  dot_S1024x128_S128x2048_S1024x2048_1_0_0_1_n_n_wf : DotDims.WF S1024x128 S128x2048 S1024x2048 [1] [0] [0] [1] [] []
  dot_S1024x2048_S2048x128_S1024x128_1_0_0_1_n_n_wf : DotDims.WF S1024x2048 S2048x128 S1024x128 [1] [0] [0] [1] [] []

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

class Facts : Prop extends Facts₀ where

variable [Facts]
-- ==== Proof.Cells.lean ====
import proofs.«900976_g7700000000000977_dist_mlpseq_tp1d_bs_bs_b128_d128_h256_v7x_i8_bf16_1_alg».proof.Proof.Gen.KernelIdeal
import proofs.«900976_g7700000000000977_dist_mlpseq_tp1d_bs_bs_b128_d128_h256_v7x_i8_bf16_1_alg».proof.Proof.Gen.KernelIdeal.Skeleton
import proofs.«900976_g7700000000000977_dist_mlpseq_tp1d_bs_bs_b128_d128_h256_v7x_i8_bf16_1_alg».proof.Proof.Gen.KernelIdeal.Launch
import proofs.«900976_g7700000000000977_dist_mlpseq_tp1d_bs_bs_b128_d128_h256_v7x_i8_bf16_1_alg».proof.Proof.Gen.KernelIdeal.Points
import proofs.«900976_g7700000000000977_dist_mlpseq_tp1d_bs_bs_b128_d128_h256_v7x_i8_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.P

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem
abbrev extS : Sem sig := (cc0_scoped0 : Sems sig S_).sem

abbrev wsS (j : Fin 6) : DmaSem sig := ⟨8 + j.val, by have := j.isLt; show _ < 32; omega⟩
abbrev wrS (j : Fin 6) : DmaSem sig := ⟨14 + j.val, by have := j.isLt; show _ < 32; omega⟩
abbrev asS (j : Fin 6) : DmaSem sig := ⟨20 + j.val, by have := j.isLt; show _ < 32; omega⟩
abbrev arS (j : Fin 6) : DmaSem sig := ⟨26 + j.val, by have := j.isLt; show _ < 32; omega⟩

example : asS 2 = (22 : Fin 32) := by decide
example : extS = (1 : Fin 2) := by decide
example : barS = (0 : Fin 2) := by decide

abbrev barC (c : Dev nD) : GSem nD τ sig := ((c : Thread nD τ), .reg barS)
abbrev extC (c : Dev nD) : GSem nD τ sig := ((c : Thread nD τ), .reg extS)
abbrev wsC (c : Dev nD) (j : Fin 6) : GSem nD τ sig := ((c : Thread nD τ), .dma (wsS j))
abbrev wrC (c : Dev nD) (j : Fin 6) : GSem nD τ sig := ((c : Thread nD τ), .dma (wrS j))
abbrev asC (c : Dev nD) (j : Fin 6) : GSem nD τ sig := ((c : Thread nD τ), .dma (asS j))
abbrev arC (c : Dev nD) (j : Fin 6) : GSem nD τ sig := ((c : Thread nD τ), .dma (arS j))

end Cert.KernelIdeal.P

end
-- ==== Proof.Mesh.lean ====
import proofs.«900976_g7700000000000977_dist_mlpseq_tp1d_bs_bs_b128_d128_h256_v7x_i8_bf16_1_alg».proof.Proof.Gen.KernelIdeal

set_option Elab.async false

namespace Cert.KernelIdeal.Mesh

open Idealize.ShloMosaic Cert.KernelIdeal Cert.KernelIdeal.Gen

def qd (c : Dev nD) : Fin 4 := ⟨c.val % 4, Nat.mod_lt _ (by decide)⟩

def pp (c : Dev nD) (d : Fin 4) : Dev nD :=
  if d = 0 then ⟨(c.val + 4) % 8, Nat.mod_lt _ (by decide)⟩
  else ⟨c.val - c.val % 4 + (c.val % 4 + d.val) % 4, by
    have h : c.val < 8 := c.isLt
    show c.val - c.val % 4 + (c.val % 4 + d.val) % 4 < 8
    omega⟩

def inv (d : Fin 4) : Fin 4 := match d with | 0 => 0 | 1 => 3 | 2 => 2 | 3 => 1

theorem pp_pp_inv (c : Dev nD) (d : Fin 4) : pp (pp c d) (inv d) = c := by revert c d; decide +kernel

theorem inv_inv (d : Fin 4) : inv (inv d) = d := by revert d; decide

theorem qd_pp (c : Dev nD) (d : Fin 4) (hd : d ≠ 0) : (qd (pp c d)).val = ((qd c).val + d.val) % 4 := by
  revert c d; decide +kernel

theorem qd_pp_val1 (c : Dev nD) : (qd (pp c 1)).val = ((qd c).val + 1) % 4 := qd_pp c 1 (by decide)
theorem qd_pp_val2 (c : Dev nD) : (qd (pp c 2)).val = ((qd c).val + 2) % 4 := qd_pp c 2 (by decide)
theorem qd_pp_val3 (c : Dev nD) : (qd (pp c 3)).val = ((qd c).val + 3) % 4 := qd_pp c 3 (by decide)

theorem dev_eq1 (c : Dev nD) : (⟨k0_dev1 c, k0_dev1_lt c⟩ : Dev nD) = pp c 0 := by revert c; decide +kernel
theorem dev_eq2 (c : Dev nD) : (⟨k0_dev2 c, k0_dev2_lt c⟩ : Dev nD) = pp c 1 := by revert c; decide +kernel
theorem dev_eq3 (c : Dev nD) : (⟨k0_dev3 c, k0_dev3_lt c⟩ : Dev nD) = pp c 2 := by revert c; decide +kernel
theorem dev_eq4 (c : Dev nD) : (⟨k0_dev4 c, k0_dev4_lt c⟩ : Dev nD) = pp c 3 := by revert c; decide +kernel
theorem dev_eq5 (c : Dev nD) : (⟨k0_dev5 c, k0_dev5_lt c⟩ : Dev nD) = pp c 1 := by revert c; decide +kernel
theorem dev_eq6 (c : Dev nD) : (⟨k0_dev6 c, k0_dev6_lt c⟩ : Dev nD) = pp c 2 := by revert c; decide +kernel
theorem dev_eq7 (c : Dev nD) : (⟨k0_dev7 c, k0_dev7_lt c⟩ : Dev nD) = pp c 3 := by revert c; decide +kernel
theorem dev_eq8 (c : Dev nD) : (⟨k0_dev8 c, k0_dev8_lt c⟩ : Dev nD) = pp c 0 := by revert c; decide +kernel
theorem dev_eq9 (c : Dev nD) : (⟨k0_dev9 c, k0_dev9_lt c⟩ : Dev nD) = pp c 0 := by revert c; decide +kernel
theorem dev_eq10 (c : Dev nD) : (⟨k0_dev10 c, k0_dev10_lt c⟩ : Dev nD) = pp c 0 := by revert c; decide +kernel
theorem dev_eq11 (c : Dev nD) : (⟨k0_dev11 c, k0_dev11_lt c⟩ : Dev nD) = pp c 0 := by revert c; decide +kernel
theorem dev_eq12 (c : Dev nD) : (⟨k0_dev12 c, k0_dev12_lt c⟩ : Dev nD) = pp c 0 := by revert c; decide +kernel
theorem dev_eq13 (c : Dev nD) : (⟨k0_dev13 c, k0_dev13_lt c⟩ : Dev nD) = pp c 0 := by revert c; decide +kernel
theorem dev_eq14 (c : Dev nD) : (⟨k0_dev14 c, k0_dev14_lt c⟩ : Dev nD) = pp c 1 := by revert c; decide +kernel
theorem dev_eq15 (c : Dev nD) : (⟨k0_dev15 c, k0_dev15_lt c⟩ : Dev nD) = pp c 2 := by revert c; decide +kernel
theorem dev_eq16 (c : Dev nD) : (⟨k0_dev16 c, k0_dev16_lt c⟩ : Dev nD) = pp c 3 := by revert c; decide +kernel
theorem dev_eq17 (c : Dev nD) : (⟨k0_dev17 c, k0_dev17_lt c⟩ : Dev nD) = pp c 1 := by revert c; decide +kernel
theorem dev_eq18 (c : Dev nD) : (⟨k0_dev18 c, k0_dev18_lt c⟩ : Dev nD) = pp c 2 := by revert c; decide +kernel
theorem dev_eq19 (c : Dev nD) : (⟨k0_dev19 c, k0_dev19_lt c⟩ : Dev nD) = pp c 3 := by revert c; decide +kernel
theorem dev_eq20 (c : Dev nD) : (⟨k0_dev20 c, k0_dev20_lt c⟩ : Dev nD) = pp c 1 := by revert c; decide +kernel
theorem dev_eq21 (c : Dev nD) : (⟨k0_dev21 c, k0_dev21_lt c⟩ : Dev nD) = pp c 2 := by revert c; decide +kernel
theorem dev_eq22 (c : Dev nD) : (⟨k0_dev22 c, k0_dev22_lt c⟩ : Dev nD) = pp c 3 := by revert c; decide +kernel
theorem dev_eq23 (c : Dev nD) : (⟨k0_dev23 c, k0_dev23_lt c⟩ : Dev nD) = pp c 1 := by revert c; decide +kernel
theorem dev_eq24 (c : Dev nD) : (⟨k0_dev24 c, k0_dev24_lt c⟩ : Dev nD) = pp c 2 := by revert c; decide +kernel
theorem dev_eq25 (c : Dev nD) : (⟨k0_dev25 c, k0_dev25_lt c⟩ : Dev nD) = pp c 3 := by revert c; decide +kernel
theorem dev_eq26 (c : Dev nD) : (⟨k0_dev26 c, k0_dev26_lt c⟩ : Dev nD) = pp c 1 := by revert c; decide +kernel
theorem dev_eq27 (c : Dev nD) : (⟨k0_dev27 c, k0_dev27_lt c⟩ : Dev nD) = pp c 2 := by revert c; decide +kernel
theorem dev_eq28 (c : Dev nD) : (⟨k0_dev28 c, k0_dev28_lt c⟩ : Dev nD) = pp c 3 := by revert c; decide +kernel
theorem dev_eq29 (c : Dev nD) : (⟨k0_dev29 c, k0_dev29_lt c⟩ : Dev nD) = pp c 0 := by revert c; decide +kernel
theorem dev_eq30 (c : Dev nD) : (⟨k0_dev30 c, k0_dev30_lt c⟩ : Dev nD) = pp c 1 := by revert c; decide +kernel
theorem dev_eq31 (c : Dev nD) : (⟨k0_dev31 c, k0_dev31_lt c⟩ : Dev nD) = pp c 2 := by revert c; decide +kernel
theorem dev_eq32 (c : Dev nD) : (⟨k0_dev32 c, k0_dev32_lt c⟩ : Dev nD) = pp c 3 := by revert c; decide +kernel
theorem off1_eq (c : Dev nD) : k0_off1 c = ![(qd c).val, 0, 0] := k0_off1_eq c
theorem off2_eq (c : Dev nD) : k0_off2 c = ![(qd c).val, 0, 0] := k0_off2_eq c

theorem off3_eq1 (c : Dev nD) : k0_off3 c 1#32 = ![((qd c).val + 1) % 4, 0, 0] := k0_off3_eq c ⟨0, by decide⟩
theorem off3_eq2 (c : Dev nD) : k0_off3 c 2#32 = ![((qd c).val + 2) % 4, 0, 0] := k0_off3_eq c ⟨1, by decide⟩
theorem off3_eq3 (c : Dev nD) : k0_off3 c 3#32 = ![((qd c).val + 3) % 4, 0, 0] := k0_off3_eq c ⟨2, by decide⟩
theorem off4_eq1 (c : Dev nD) : k0_off4 c 1#32 = ![((qd c).val + 1) % 4, 0, 0] := k0_off4_eq c ⟨0, by decide⟩
theorem off4_eq2 (c : Dev nD) : k0_off4 c 2#32 = ![((qd c).val + 2) % 4, 0, 0] := k0_off4_eq c ⟨1, by decide⟩
theorem off4_eq3 (c : Dev nD) : k0_off4 c 3#32 = ![((qd c).val + 3) % 4, 0, 0] := k0_off4_eq c ⟨2, by decide⟩

end Cert.KernelIdeal.Mesh
-- ==== Proof.Slots.lean ====
import proofs.«900976_g7700000000000977_dist_mlpseq_tp1d_bs_bs_b128_d128_h256_v7x_i8_bf16_1_alg».proof.Proof.Cells
import proofs.«900976_g7700000000000977_dist_mlpseq_tp1d_bs_bs_b128_d128_h256_v7x_i8_bf16_1_alg».proof.Proof.Mesh

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev winsM : Memref sig .tc .vmem S2x3x128x256 .bf16 := Memref.whole cc0_scratch0
abbrev woutsM : Memref sig .tc .vmem S2x3x256x128 .bf16 := Memref.whole cc0_scratch1
abbrev xgM : Memref sig .tc .vmem S4x128x128 .bf16 := Memref.whole cc0_scratch2
abbrev prtlM : Fin 3 → Memref sig .tc .vmem S4x128x128 .bf16 := fun | 0 => Memref.whole cc0_scratch3 | 1 => Memref.whole cc0_scratch4 | 2 => Memref.whole cc0_scratch5
abbrev raccM : Fin 3 → Memref sig .tc .vmem S4x128x128 .bf16 := fun | 0 => Memref.whole cc0_scratch6 | 1 => Memref.whole cc0_scratch7 | 2 => Memref.whole cc0_scratch8
abbrev xnM : Fin 2 → Memref sig .tc .vmem S4x128x128 .bf16 := fun | 0 => Memref.whole cc0_scratch9 | 1 => Memref.whole cc0_scratch10

abbrev slot4 (b : Memref sig .tc .vmem S4x128x128 .bf16) (off : Fin 3 → Nat) (inb : ∀ a, off a + S1x128x128.size a ≤ S4x128x128.size a) :
    Memref sig .tc .vmem S128x128 .bf16 :=
  (b.slice (Rect.unit (s := S4x128x128) off S1x128x128.size inb) (fun _ => rfl)).squeeze S128x128 squeezes_S1x128x128_S128x128

abbrev wslice (b : Memref sig .tc .vmem S2x3x128x256 .bf16) (off : Fin 4 → Nat) (inb : ∀ a, off a + S1x1x128x256.size a ≤ S2x3x128x256.size a) :
    Memref sig .tc .vmem S128x256 .bf16 :=
  (b.slice (Rect.unit (s := S2x3x128x256) off S1x1x128x256.size inb) (fun _ => rfl)).squeeze S128x256 squeezes_S1x1x128x256_S128x256
abbrev oslice (b : Memref sig .tc .vmem S2x3x256x128 .bf16) (off : Fin 4 → Nat) (inb : ∀ a, off a + S1x1x256x128.size a ≤ S2x3x256x128.size a) :
    Memref sig .tc .vmem S256x128 .bf16 :=
  (b.slice (Rect.unit (s := S2x3x256x128) off S1x1x256x128.size inb) (fun _ => rfl)).squeeze S256x128 squeezes_S1x1x256x128_S256x128

theorem inb4 (j : Fin 4) : ∀ a, (![j.val, 0, 0] : Fin 3 → Nat) a + S1x128x128.size a ≤ S4x128x128.size a := by
  revert j; decide
theorem inbW (s : Fin 2) (k : Fin 3) : ∀ a, (![s.val, k.val, 0, 0] : Fin 4 → Nat) a + S1x1x128x256.size a ≤ S2x3x128x256.size a := by
  revert s k; decide
theorem inbO (s : Fin 2) (k : Fin 3) : ∀ a, (![s.val, k.val, 0, 0] : Fin 4 → Nat) a + S1x1x256x128.size a ≤ S2x3x256x128.size a := by
  revert s k; decide

abbrev slotJ (b : Memref sig .tc .vmem S4x128x128 .bf16) (j : Fin 4) : Memref sig .tc .vmem S128x128 .bf16 := slot4 b ![j.val, 0, 0] (inb4 j)
abbrev winsJ (s : Fin 2) (k : Fin 3) : Memref sig .tc .vmem S128x256 .bf16 := wslice winsM ![s.val, k.val, 0, 0] (inbW s k)
abbrev woutsJ (s : Fin 2) (k : Fin 3) : Memref sig .tc .vmem S256x128 .bf16 := oslice woutsM ![s.val, k.val, 0, 0] (inbO s k)

def holds (c : Dev nD) {s : Shape} {e : EltTy} (m : Memref sig .tc .vmem s e) (q : PosShare TreeShare) (w : s.Idx → Elt F e) : sProp 𝕄 :=
  iprop(∃ f : Buf (Elt F) (m.view.loc (c : Thread nD τ)), ⌜m.view.read (Elt F) f = w⌝ ∗ (m.view.loc (c : Thread nD τ) ↦[m.view.set]{q} f))

def holdsAny (c : Dev nD) {s : Shape} {e : EltTy} (m : Memref sig .tc .vmem s e) : sProp 𝕄 :=
  iprop(∃ f : Buf (Elt F) (m.view.loc (c : Thread nD τ)), (m.view.loc (c : Thread nD τ) ↦[m.view.set]{fullShare} f))

omit [FloatOps F] in
instance holds_storable (c : Dev nD) {s : Shape} {e : EltTy} (m : Memref sig .tc .vmem s e) (q : PosShare TreeShare) (w : s.Idx → Elt F e) :
    BI.Storable (upEmb : UEmb _ 𝕄) (holds (F := F) c m q w) := by unfold holds; infer_instance
omit [FloatOps F] in
instance holdsAny_storable (c : Dev nD) {s : Shape} {e : EltTy} (m : Memref sig .tc .vmem s e) :
    BI.Storable (upEmb : UEmb _ 𝕄) (holdsAny (F := F) c m) := by unfold holdsAny; infer_instance

end Cert.KernelIdeal.P

end
-- ==== Proof.Contents.lean ====
import proofs.«900976_g7700000000000977_dist_mlpseq_tp1d_bs_bs_b128_d128_h256_v7x_i8_bf16_1_alg».proof.Proof.Slots
import Idealize.ShloMosaic.Lib.ValueIdx

noncomputable section

namespace Cert.KernelIdeal.P

open Cert.KernelIdeal Cert.KernelIdeal.Gen Cert.KernelIdeal.Mesh
open Idealize.ShloMosaic
open Idealize.ShloMosaic.TcCoe
open Idealize.SL.Sem

variable {F : FTy → Type} [FloatOps F]

def sq3 {α : Type} (w : S1x128x128.Idx → α) : S128x128.Idx → α := fun i => w (Shape.reshapeEquiv squeezes_S1x128x128_S128x128.numel_eq i)
def unsq3 {α : Type} (w : S128x128.Idx → α) : S1x128x128.Idx → α := fun i => w ((Shape.reshapeEquiv squeezes_S1x128x128_S128x128.numel_eq).symm i)
def sqW {α : Type} (w : S1x1x128x256.Idx → α) : S128x256.Idx → α := fun i => w (Shape.reshapeEquiv squeezes_S1x1x128x256_S128x256.numel_eq i)
def unsqW {α : Type} (w : S128x256.Idx → α) : S1x1x128x256.Idx → α := fun i => w ((Shape.reshapeEquiv squeezes_S1x1x128x256_S128x256.numel_eq).symm i)
def sqO {α : Type} (w : S1x1x256x128.Idx → α) : S256x128.Idx → α := fun i => w (Shape.reshapeEquiv squeezes_S1x1x256x128_S256x128.numel_eq i)
def unsqO {α : Type} (w : S256x128.Idx → α) : S1x1x256x128.Idx → α := fun i => w ((Shape.reshapeEquiv squeezes_S1x1x256x128_S256x128.numel_eq).symm i)

def sl4 (v : S4x128x128.Idx → Elt F .bf16) (j : Fin 4) : S128x128.Idx → Elt F .bf16 := (slotJ xgM j).view.read (Elt F) v

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xin (c : Dev nD) : Vec F S128x128 .f32 := iblk m c 0 t₀
def wiIn (c : Dev nD) : Fin 3 → Vec F S128x256 .f32 := fun | 0 => iblk m c 1 t₀ | 1 => iblk m c 3 t₀ | 2 => iblk m c 5 t₀
def woIn (c : Dev nD) : Fin 3 → Vec F S256x128 .f32 := fun | 0 => iblk m c 2 t₀ | 1 => iblk m c 4 t₀ | 2 => iblk m c 6 t₀

def plane (c : Dev nD) (j : Fin 4) : Dev nD := ⟨c.val - c.val % 4 + j.val, by have h : c.val < 8 := c.isLt; have := j.isLt; show _ < 8; omega⟩
theorem plane_qd (c : Dev nD) : plane c (qd c) = c := by revert c; decide
theorem plane_pp (c : Dev nD) (d : Fin 4) (hd : d ≠ 0) : plane c (qd (pp c d)) = pp c d := by revert c d; decide
def asm4 (w : Fin 4 → S128x128.Idx → Elt F .bf16) : S4x128x128.Idx → Elt F .bf16 :=
  fun i => w (i 0) (ValueIdx.ix2 (i 1) (i 2))

def Wi (c : Dev nD) : Fin 3 → S128x256.Idx → Elt F .bf16 := fun
  | 0 => sqW (k0_pay2 (k0_pay1 (wiIn m c 0))) | 1 => sqW (k0_pay4 (wiIn m c 1)) | 2 => sqW (k0_pay6 (wiIn m c 2))
def Wo (c : Dev nD) : Fin 3 → S256x128.Idx → Elt F .bf16 := fun
  | 0 => sqO (k0_pay3 (woIn m c 0)) | 1 => sqO (k0_pay5 (woIn m c 1)) | 2 => sqO (k0_pay7 (woIn m c 2))
def X0q (c : Dev nD) : S128x128.Idx → Elt F .bf16 := sq3 (k0_pay8 (xin m c))

def acts0 (c : Dev nD) : FVec F S512x128 .bf16 := k0_pay9 (asm4 fun j => X0q m (plane c j))
def P0 (c : Dev nD) : S4x128x128.Idx → Elt F .bf16 :=
  k0_pay11 (acts0 m c) (k0_pay10 (acts0 m c) (unsqW (Wi m c 0)) (unsqO (Wo m c 0))) (unsqW (Wi m (pp c 0) 0)) (unsqO (Wo m (pp c 0) 0))
def xn0 (c : Dev nD) : S128x128.Idx → Elt F .bf16 :=
  sq3 (k0_pay13 (k0_pay12 (unsq3 (sl4 (P0 m c) (qd c))) (unsq3 (sl4 (P0 m (pp c 1)) (qd c))))
    (unsq3 (sl4 (P0 m (pp c 2)) (qd c))) (unsq3 (sl4 (P0 m (pp c 3)) (qd c))))

def acts1 (c : Dev nD) : FVec F S512x128 .bf16 := k0_pay14 (asm4 fun j => xn0 m (plane c j))
def P1 (c : Dev nD) : S4x128x128.Idx → Elt F .bf16 :=
  k0_pay18 (k0_pay15 (acts1 m c) (unsqW (Wi m c 1)) (unsqO (Wo m c 1))) (k0_pay16 (acts1 m c) (unsqW (Wi m (pp c 0) 1))) (k0_pay17 (unsqO (Wo m (pp c 0) 1)))
def xn1 (c : Dev nD) : S128x128.Idx → Elt F .bf16 :=
  sq3 (k0_pay20 (k0_pay19 (unsq3 (sl4 (P1 m c) (qd c))) (unsq3 (sl4 (P1 m (pp c 1)) (qd c))) (unsq3 (sl4 (P1 m (pp c 2)) (qd c))))
    (unsq3 (sl4 (P1 m (pp c 3)) (qd c))))

def acts2 (c : Dev nD) : FVec F S512x128 .bf16 := k0_pay21 (asm4 fun j => xn1 m (plane c j))
def P2 (c : Dev nD) : S4x128x128.Idx → Elt F .bf16 :=
  k0_pay22 (acts2 m c) (unsqW (Wi m c 2)) (unsqO (Wo m c 2)) (unsqW (Wi m (pp c 0) 2)) (unsqO (Wo m (pp c 0) 2))
def OUT (c : Dev nD) : Vec F S128x128 .f32 :=
  k0_pay23 (unsq3 (sl4 (P2 m c) (qd c))) (unsq3 (sl4 (P2 m (pp c 1)) (qd c))) (unsq3 (sl4 (P2 m (pp c 2)) (qd c))) (unsq3 (sl4 (P2 m (pp c 3)) (qd c)))

def PK (k : Fin 3) (c : Dev nD) : S4x128x128.Idx → Elt F .bf16 := match k with | 0 => P0 m c | 1 => P1 m c | 2 => P2 m c
def XN (k : Fin 2) (c : Dev nD) : S128x128.Idx → Elt F .bf16 := match k with | 0 => xn0 m c | 1 => xn1 m c

end Cert.KernelIdeal.P

end
-- ==== Proof.Sched.lean ====
import proofs.«900976_g7700000000000977_dist_mlpseq_tp1d_bs_bs_b128_d128_h256_v7x_i8_bf16_1_alg».proof.Proof.Contents

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

inductive CK where
  | bar | ext | ws (j : Fin 6) | wr (j : Fin 6) | as (j : Fin 6) | ar (j : Fin 6) | none
deriving DecidableEq

def kindOf : SemLoc sig → CK
  | .reg s => if s.val = 0 then .bar else .ext
  | .dma s =>
    if h8 : s.val < 8 then .none
    else if h14 : s.val < 14 then .ws ⟨s.val - 8, by omega⟩
    else if h20 : s.val < 20 then .wr ⟨s.val - 14, by omega⟩
    else if h26 : s.val < 26 then .as ⟨s.val - 20, by omega⟩
    else .ar ⟨s.val - 26, by have h : s.val < 32 := s.isLt; omega⟩

theorem kindOf_bar : kindOf (.reg barS) = .bar := by decide
theorem kindOf_ext : kindOf (.reg extS) = .ext := by decide
theorem kindOf_ws (j : Fin 6) : kindOf (.dma (wsS j)) = .ws j := by revert j; decide
theorem kindOf_wr (j : Fin 6) : kindOf (.dma (wrS j)) = .wr j := by revert j; decide
theorem kindOf_as (j : Fin 6) : kindOf (.dma (asS j)) = .as j := by revert j; decide
theorem kindOf_ar (j : Fin 6) : kindOf (.dma (arS j)) = .ar j := by revert j; decide

abbrev shK : PosShare TreeShare := fullShare.left
def sh (d : Fin 4) : PosShare TreeShare := match d with
  | 0 => fullShare.left | 1 => fullShare.right.left | 2 => fullShare.right.right.left | 3 => fullShare.right.right.right
abbrev shR : PosShare TreeShare := fullShare.right

abbrev dstBuf : Fin 6 → Memref sig .tc .vmem S4x128x128 .bf16 := fun
  | 0 => xgM | 1 => raccM 0 | 2 => xnM 0 | 3 => raccM 1 | 4 => xnM 1 | 5 => raccM 2
abbrev srcBuf : Fin 6 → Memref sig .tc .vmem S4x128x128 .bf16 := fun
  | 0 => xgM | 1 => prtlM 0 | 2 => xnM 0 | 3 => prtlM 1 | 4 => xnM 1 | 5 => prtlM 2
def cA (j : Fin 6) : ℕ := (slotJ (dstBuf j) 0).view.dmaCredit
def cW (j : Fin 6) : ℕ := match j with
  | 0 => (winsJ 1 0).view.dmaCredit | 1 => (woutsJ 1 0).view.dmaCredit | 2 => (winsJ 1 1).view.dmaCredit
  | 3 => (woutsJ 1 1).view.dmaCredit | 4 => (winsJ 1 2).view.dmaCredit | 5 => (woutsJ 1 2).view.dmaCredit
theorem cA_pos (j : Fin 6) : 0 < cA j := View.dmaCredit_pos _ (by decide)
theorem cW_pos (j : Fin 6) : 0 < cW j := by
  unfold cW; split <;> exact View.dmaCredit_pos _ (by decide)

variable (m : (ℓ : Loc nD τ sig) → Buf (Elt F) ℓ)

def barPay (c : Dev nD) (d : Fin 4) : sProp 𝕄 :=
  if d = 0 then
    iprop(holdsAny (pp c 0) (winsJ 1 0) ∗ holdsAny (pp c 0) (woutsJ 1 0) ∗ holdsAny (pp c 0) (winsJ 1 1) ∗ holdsAny (pp c 0) (woutsJ 1 1)
      ∗ holdsAny (pp c 0) (winsJ 1 2) ∗ holdsAny (pp c 0) (woutsJ 1 2))
  else
    iprop(holdsAny (pp c d) (slotJ xgM (qd c)) ∗ holdsAny (pp c d) (slotJ (raccM 0) (qd c)) ∗ holdsAny (pp c d) (slotJ (xnM 0) (qd c))
      ∗ holdsAny (pp c d) (slotJ (raccM 1) (qd c)) ∗ holdsAny (pp c d) (slotJ (xnM 1) (qd c)) ∗ holdsAny (pp c d) (slotJ (raccM 2) (qd c)))

def wsPay (c : Dev nD) (j : Fin 6) : sProp 𝕄 := match j with
  | 0 => holds c (winsJ 0 0) shR (Wi m c 0) | 1 => holds c (woutsJ 0 0) shR (Wo m c 0)
  | 2 => holds c (winsJ 0 1) shR (Wi m c 1) | 3 => holds c (woutsJ 0 1) shR (Wo m c 1)
  | 4 => holds c (winsJ 0 2) shR (Wi m c 2) | 5 => holds c (woutsJ 0 2) shR (Wo m c 2)
def wrPay (c : Dev nD) (j : Fin 6) : sProp 𝕄 := match j with
  | 0 => holds c (winsJ 1 0) fullShare (Wi m (pp c 0) 0) | 1 => holds c (woutsJ 1 0) fullShare (Wo m (pp c 0) 0)
  | 2 => holds c (winsJ 1 1) fullShare (Wi m (pp c 0) 1) | 3 => holds c (woutsJ 1 1) fullShare (Wo m (pp c 0) 1)
  | 4 => holds c (winsJ 1 2) fullShare (Wi m (pp c 0) 2) | 5 => holds c (woutsJ 1 2) fullShare (Wo m (pp c 0) 2)

def srcVal (c : Dev nD) (j : Fin 6) (d : Fin 4) : S128x128.Idx → Elt F .bf16 := match j with
  | 0 => X0q m c | 1 => sl4 (PK m 0 c) (qd (pp c d)) | 2 => XN m 0 c | 3 => sl4 (PK m 1 c) (qd (pp c d)) | 4 => XN m 1 c | 5 => sl4 (PK m 2 c) (qd (pp c d))
def srcSlot (c : Dev nD) (j : Fin 6) (d : Fin 4) : Fin 4 := if j.val % 2 = 0 then qd c else qd (pp c d)
def srcShare (j : Fin 6) (d : Fin 4) : PosShare TreeShare := if j.val % 2 = 0 then sh d else fullShare
def dstVal (c : Dev nD) (j : Fin 6) (d : Fin 4) : S128x128.Idx → Elt F .bf16 := match j with
  | 0 => X0q m (pp c d) | 1 => sl4 (PK m 0 (pp c d)) (qd c) | 2 => XN m 0 (pp c d) | 3 => sl4 (PK m 1 (pp c d)) (qd c) | 4 => XN m 1 (pp c d) | 5 => sl4 (PK m 2 (pp c d)) (qd c)

def asPay (c : Dev nD) (j : Fin 6) (d : Fin 4) : sProp 𝕄 := holds c (slotJ (srcBuf j) (srcSlot c j d)) (srcShare j d) (srcVal m c j d)
def arPay (c : Dev nD) (j : Fin 6) (d : Fin 4) : sProp 𝕄 := holds c (slotJ (dstBuf j) (qd (pp c d))) fullShare (dstVal m c j d)

def payK : CK → Dev nD → Fin 4 → sProp 𝕄
  | .bar, c, d => barPay c d
  | .ext, _, _ => iprop(emp)
  | .ws j, c, _ => wsPay m c j
  | .wr j, c, _ => wrPay m c j
  | .as j, c, d => asPay m c j d
  | .ar j, c, d => arPay m c j d
  | .none, _, _ => iprop(emp)

def dutK : CK → Finset (Fin 4)
  | .bar | .ext => Finset.univ
  | .ws _ | .wr _ => {0}
  | .as _ | .ar _ => {1, 2, 3}
  | .none => ∅

def amtK : CK → ℕ
  | .bar | .ext | .none => 1
  | .ws j | .wr j => cW j
  | .as j | .ar j => cA j

theorem amtK_pos (k : CK) : 0 < amtK k := by
  cases k <;> first | exact Nat.one_pos | exact cW_pos _ | exact cA_pos _

def Rd : Rounds.Schedule (GSem nD τ sig) (Fin 4) 𝕄 where
  duties g r := if r = 0 ∧ g.1.2 = .tc then dutK (kindOf g.2) else ∅
  amount g _ _ := amtK (kindOf g.2)
  payload g _ d := payK m (kindOf g.2) g.1.1 d
  amount_pos g _ _ _ := amtK_pos _

end Cert.KernelIdeal.P

end
-- ==== Proof.Inv.lean ====
import proofs.«900976_g7700000000000977_dist_mlpseq_tp1d_bs_bs_b128_d128_h256_v7x_i8_bf16_1_alg».proof.Proof.Sched

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

def s₀ : MemSt nD τ sig (Elt F) := ⟨m, fun _ => 0, ρ⟩

def cellK (i : Fin 26) : SemLoc sig :=
  if i.val = 0 then .reg barS else if i.val = 1 then .reg extS else .dma ⟨i.val + 6, by have := i.isLt; show _ < 32; omega⟩
abbrev kcell (ck : Dev nD × Fin 26) : GSem nD τ sig := ((ck.1 : Thread nD τ), cellK ck.2)

theorem cellK_bar : cellK 0 = .reg barS := by decide
theorem cellK_ext : cellK 1 = .reg extS := by decide
theorem cellK_ws (j : Fin 6) : cellK ⟨2 + j.val, by omega⟩ = .dma (wsS j) := by revert j; decide
theorem cellK_wr (j : Fin 6) : cellK ⟨8 + j.val, by omega⟩ = .dma (wrS j) := by revert j; decide
theorem cellK_as (j : Fin 6) : cellK ⟨14 + j.val, by omega⟩ = .dma (asS j) := by revert j; decide
theorem cellK_ar (j : Fin 6) : cellK ⟨20 + j.val, by omega⟩ = .dma (arS j) := by revert j; decide
theorem cellK_injective : Function.Injective cellK := by decide

abbrev osem : Fin 25 → SemLoc sig := fun i => cellK ⟨i.val + 1, by omega⟩

def owedItems (c : Dev nD) : List (GSem nD τ sig × ℕ) :=
  [(barC (pp c 0), 1), (barC (pp c 1), 1), (barC (pp c 2), 1), (barC (pp c 3), 1),
   (arC (pp c 1) 0, cA 0), (arC (pp c 2) 0, cA 0), (arC (pp c 3) 0, cA 0),
   (wrC (pp c 0) 0, cW 0), (wrC (pp c 0) 1, cW 1), (wrC (pp c 0) 2, cW 2), (wrC (pp c 0) 3, cW 3), (wrC (pp c 0) 4, cW 4), (wrC (pp c 0) 5, cW 5),
   (arC (pp c 1) 1, cA 1), (arC (pp c 2) 1, cA 1), (arC (pp c 3) 1, cA 1),
   (arC (pp c 1) 2, cA 2), (arC (pp c 2) 2, cA 2), (arC (pp c 3) 2, cA 2),
   (arC (pp c 1) 3, cA 3), (arC (pp c 2) 3, cA 3), (arC (pp c 3) 3, cA 3),
   (arC (pp c 1) 4, cA 4), (arC (pp c 2) 4, cA 4), (arC (pp c 3) 4, cA 4),
   (arC (pp c 1) 5, cA 5), (arC (pp c 2) 5, cA 5), (arC (pp c 3) 5, cA 5),
   (extC (pp c 0), 1), (extC (pp c 1), 1), (extC (pp c 2), 1), (extC (pp c 3), 1)]

def owedL : List (GSem nD τ sig × ℕ) → CellTallies nD τ sig Unit
  | [] => 0
  | x :: xs => owedL xs + tallyAt x.1 () x.2

theorem owedL_cons (x : GSem nD τ sig × ℕ) (xs : List (GSem nD τ sig × ℕ)) : owedL (x :: xs) = owedL xs + tallyAt x.1 () x.2 := rfl

def O₀ (c : Dev nD) : CellTallies nD τ sig Unit := owedL (owedItems c)

def L (g : GSem nD τ sig) : Finset Unit := if g.1.2 = .tc then {()} else ∅
def lvK : CK → ℕ
  | .none => 0 | .ws _ => 0 | .as _ => 0
  | .bar => 1
  | .ar j => match j with | 0 => 2 | 1 => 4 | 2 => 5 | 3 => 7 | 4 => 8 | 5 => 10
  | .wr j => match j with | 0 => 3 | 1 => 3 | 2 => 6 | 3 => 6 | 4 => 9 | 5 => 9
  | .ext => 11
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 26 → ℕ) : sProp 𝕄 :=
  iprop((bigSep Finset.univ fun ck : Dev nD × Fin 26 => cellInv ER (Rd m) (K ck) (kcell ck))
    ∗ bigSep Finset.univ fun ck : Dev nD × Fin 26 => reached ER (kcell ck) 0)

instance records_persistent (K : Dev nD × Fin 26 → ℕ) : BI.Persistent (records m K) := by unfold records; infer_instance

def payToks (c : Dev nD) : sProp 𝕄 :=
  iprop((bigSep Finset.univ fun i : Fin 4 => dutyTok ER (barC (pp c i)) 0 (inv i))
    ∗ (bigSep Finset.univ fun i : Fin 4 => dutyTok ER (extC (pp c i)) 0 (inv i))
    ∗ (bigSep Finset.univ fun j : Fin 6 => dutyTok ER (wsC c j) 0 0)
    ∗ (bigSep Finset.univ fun j : Fin 6 => dutyTok ER (wrC (pp c 0) j) 0 0)
    ∗ (bigSep Finset.univ fun j : Fin 6 => iprop(dutyTok ER (asC c j) 0 1 ∗ dutyTok ER (asC c j) 0 2 ∗ dutyTok ER (asC c j) 0 3))
    ∗ (bigSep Finset.univ fun j : Fin 6 => iprop(dutyTok ER (arC (pp c 1) j) 0 (inv 1) ∗ dutyTok ER (arC (pp c 2) j) 0 (inv 2) ∗ dutyTok ER (arC (pp c 3) j) 0 (inv 3))))

def positions (c : Dev nD) : sProp 𝕄 := bigSep Finset.univ fun i : Fin 26 => atPos ER (kcell (c, i)) 0 ∅ 0

def ghost (K : Dev nD × Fin 26 → ℕ) (c : Dev nD) : sProp 𝕄 := iprop(records m K ∗ positions c ∗ payToks c)

def creds (c : Dev nD) : sProp 𝕄 :=
  iprop(cred (tallyAt (barC c) () 4) ∗ cred (tallyAt (extC c) () 4)
    ∗ (bigSep Finset.univ fun j : Fin 6 => cred (tallyAt (wrC c j) () (cW j)))
    ∗ (bigSep Finset.univ fun j : Fin 6 => cred (tallyAt (arC c j) () (3 * cA j))))

def start (c : Dev nD) : sProp 𝕄 := iprop((∃ K, ghost m K c) ∗ creds c ∗ levAts L lv)

def scratch (c : Dev nD) : sProp 𝕄 := Pipeline.scopedRest cfg0.spec c

def Φ₀ (c : Dev nD) : sProp 𝕄 := iprop(start m c ∗ scratch c)
def Φ₁ (c : Dev nD) : sProp 𝕄 := iprop(scratch c ∗ bigSep Finset.univ fun i : Fin 25 => semVal ((c : Thread nD τ), osem i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t₀ | ⟨1, _⟩ => iblk m c 1 t₀ | ⟨2, _⟩ => iblk m c 2 t₀ | ⟨3, _⟩ => iblk m c 3 t₀
    | ⟨4, _⟩ => iblk m c 4 t₀ | ⟨5, _⟩ => iblk m c 5 t₀ | ⟨6, _⟩ => iblk m c 6 t₀
    | ⟨7, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.P

end
-- ==== Proof.SchedTables.lean ====
import proofs.«900976_g7700000000000977_dist_mlpseq_tp1d_bs_bs_b128_d128_h256_v7x_i8_bf16_1_alg».proof.Proof.Sched

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem Rd_duties_tc (c : Dev nD) (s : SemLoc sig) :
    (Rd m).duties ((c : Thread nD τ), s) 0 = dutK (kindOf s) := by
  dsimp only [Rd]; exact if_pos ⟨rfl, rfl⟩
theorem Rd_amount (g : GSem nD τ sig) (r : ℕ) (d : Fin 4) : (Rd m).amount g r d = amtK (kindOf g.2) := rfl
theorem Rd_payload (g : GSem nD τ sig) (r : ℕ) (d : Fin 4) : (Rd m).payload g r d = payK m (kindOf g.2) g.1.1 d := rfl

theorem duties_bar (c : Dev nD) : (Rd m).duties (barC c) 0 = Finset.univ := by
  rw [Rd_duties_tc, kindOf_bar]; rfl
theorem duties_ext (c : Dev nD) : (Rd m).duties (extC c) 0 = Finset.univ := by
  rw [Rd_duties_tc, kindOf_ext]; rfl
theorem duties_ws (c : Dev nD) (j : Fin 6) : (Rd m).duties (wsC c j) 0 = {0} := by
  rw [Rd_duties_tc, kindOf_ws j]; rfl
theorem duties_wr (c : Dev nD) (j : Fin 6) : (Rd m).duties (wrC c j) 0 = {0} := by
  rw [Rd_duties_tc, kindOf_wr j]; rfl
theorem duties_as (c : Dev nD) (j : Fin 6) : (Rd m).duties (asC c j) 0 = {1, 2, 3} := by
  rw [Rd_duties_tc, kindOf_as j]; rfl
theorem duties_ar (c : Dev nD) (j : Fin 6) : (Rd m).duties (arC c j) 0 = {1, 2, 3} := by
  rw [Rd_duties_tc, kindOf_ar j]; rfl

theorem duties_later (g : GSem nD τ sig) : ∀ r, 1 ≤ r → (Rd m).duties g r = ∅ :=
  fun r hr => by dsimp only [Rd]; rw [if_neg fun h => by omega]

theorem amount_bar' (c : Dev nD) (r : ℕ) (d : Fin 4) : (Rd m).amount (barC c) r d = 1 := by
  rw [Rd_amount]; show amtK (kindOf _) = _; rw [kindOf_bar]; rfl
theorem amount_bar (c : Dev nD) (d : Fin 4) : (Rd m).amount (barC c) 0 d = 1 := amount_bar' m c 0 d
theorem amount_ext' (c : Dev nD) (r : ℕ) (d : Fin 4) : (Rd m).amount (extC c) r d = 1 := by
  rw [Rd_amount]; show amtK (kindOf _) = _; rw [kindOf_ext]; rfl
theorem amount_ext (c : Dev nD) (d : Fin 4) : (Rd m).amount (extC c) 0 d = 1 := amount_ext' m c 0 d
theorem amount_ws' (c : Dev nD) (j : Fin 6) (r : ℕ) (d : Fin 4) : (Rd m).amount (wsC c j) r d = cW j := by
  rw [Rd_amount]; show amtK (kindOf _) = _; rw [kindOf_ws j]; rfl
theorem amount_ws (c : Dev nD) (j : Fin 6) (d : Fin 4) : (Rd m).amount (wsC c j) 0 d = cW j := amount_ws' m c j 0 d
theorem amount_wr' (c : Dev nD) (j : Fin 6) (r : ℕ) (d : Fin 4) : (Rd m).amount (wrC c j) r d = cW j := by
  rw [Rd_amount]; show amtK (kindOf _) = _; rw [kindOf_wr j]; rfl
theorem amount_wr (c : Dev nD) (j : Fin 6) (d : Fin 4) : (Rd m).amount (wrC c j) 0 d = cW j := amount_wr' m c j 0 d
theorem amount_as' (c : Dev nD) (j : Fin 6) (r : ℕ) (d : Fin 4) : (Rd m).amount (asC c j) r d = cA j := by
  rw [Rd_amount]; show amtK (kindOf _) = _; rw [kindOf_as j]; rfl
theorem amount_as (c : Dev nD) (j : Fin 6) (d : Fin 4) : (Rd m).amount (asC c j) 0 d = cA j := amount_as' m c j 0 d
theorem amount_ar' (c : Dev nD) (j : Fin 6) (r : ℕ) (d : Fin 4) : (Rd m).amount (arC c j) r d = cA j := by
  rw [Rd_amount]; show amtK (kindOf _) = _; rw [kindOf_ar j]; rfl
theorem amount_ar (c : Dev nD) (j : Fin 6) (d : Fin 4) : (Rd m).amount (arC c j) 0 d = cA j := amount_ar' m c j 0 d

theorem expect_bar (c : Dev nD) : (Rd m).expect (barC c) 0 = 4 := by
  unfold Schedule.expect Schedule.amountOf
  rw [duties_bar, Finset.sum_congr rfl fun d _ => amount_bar m c d, Finset.sum_const, Finset.card_univ, Fintype.card_fin, smul_eq_mul]
theorem expect_ext (c : Dev nD) : (Rd m).expect (extC c) 0 = 4 := by
  unfold Schedule.expect Schedule.amountOf
  rw [duties_ext, Finset.sum_congr rfl fun d _ => amount_ext m c d, Finset.sum_const, Finset.card_univ, Fintype.card_fin, smul_eq_mul]
theorem expect_ws (c : Dev nD) (j : Fin 6) : (Rd m).expect (wsC c j) 0 = cW j := by
  unfold Schedule.expect Schedule.amountOf; rw [duties_ws, Finset.sum_singleton, amount_ws]
theorem expect_wr (c : Dev nD) (j : Fin 6) : (Rd m).expect (wrC c j) 0 = cW j := by
  unfold Schedule.expect Schedule.amountOf; rw [duties_wr, Finset.sum_singleton, amount_wr]
theorem expect_as (c : Dev nD) (j : Fin 6) : (Rd m).expect (asC c j) 0 = 3 * cA j := by
  unfold Schedule.expect Schedule.amountOf
  rw [duties_as, Finset.sum_congr rfl fun d _ => amount_as m c j d, Finset.sum_const, smul_eq_mul]; rfl
theorem expect_ar (c : Dev nD) (j : Fin 6) : (Rd m).expect (arC c j) 0 = 3 * cA j := by
  unfold Schedule.expect Schedule.amountOf
  rw [duties_ar, Finset.sum_congr rfl fun d _ => amount_ar m c j d, Finset.sum_const, smul_eq_mul]; rfl

theorem payload_bar (c : Dev nD) (d : Fin 4) : (Rd m).payload (barC c) 0 d = barPay c d := by
  rw [Rd_payload]; show payK m (kindOf _) c d = _; rw [kindOf_bar]; rfl
theorem payload_ext (c : Dev nD) (d : Fin 4) : (Rd m).payload (extC c) 0 d = iprop(emp) := by
  rw [Rd_payload]; show payK m (kindOf _) c d = _; rw [kindOf_ext]; rfl
theorem payload_ws (c : Dev nD) (j : Fin 6) (d : Fin 4) : (Rd m).payload (wsC c j) 0 d = wsPay m c j := by
  rw [Rd_payload]; show payK m (kindOf _) c d = _; rw [kindOf_ws j]; rfl
theorem payload_wr (c : Dev nD) (j : Fin 6) (d : Fin 4) : (Rd m).payload (wrC c j) 0 d = wrPay m c j := by
  rw [Rd_payload]; show payK m (kindOf _) c d = _; rw [kindOf_wr j]; rfl
theorem payload_as (c : Dev nD) (j : Fin 6) (d : Fin 4) : (Rd m).payload (asC c j) 0 d = asPay m c j d := by
  rw [Rd_payload]; show payK m (kindOf _) c d = _; rw [kindOf_as j]; rfl
theorem payload_ar (c : Dev nD) (j : Fin 6) (d : Fin 4) : (Rd m).payload (arC c j) 0 d = arPay m c j d := by
  rw [Rd_payload]; show payK m (kindOf _) c d = _; rw [kindOf_ar j]; rfl

theorem mem_bar (c : Dev nD) (d : Fin 4) : d ∈ (Rd m).duties (barC c) 0 := by rw [duties_bar]; exact Finset.mem_univ d
theorem mem_ext (c : Dev nD) (d : Fin 4) : d ∈ (Rd m).duties (extC c) 0 := by rw [duties_ext]; exact Finset.mem_univ d
theorem mem_ws (c : Dev nD) (j : Fin 6) : (0 : Fin 4) ∈ (Rd m).duties (wsC c j) 0 := by rw [duties_ws]; exact Finset.mem_singleton_self 0
theorem mem_wr (c : Dev nD) (j : Fin 6) : (0 : Fin 4) ∈ (Rd m).duties (wrC c j) 0 := by rw [duties_wr]; exact Finset.mem_singleton_self 0
theorem mem_123 (d : Fin 4) (hd : d ≠ 0) : d ∈ ({1, 2, 3} : Finset (Fin 4)) := by revert d; decide
theorem mem_as (c : Dev nD) (j : Fin 6) (d : Fin 4) (hd : d ≠ 0) : d ∈ (Rd m).duties (asC c j) 0 := by rw [duties_as]; exact mem_123 d hd
theorem mem_ar (c : Dev nD) (j : Fin 6) (d : Fin 4) (hd : d ≠ 0) : d ∈ (Rd m).duties (arC c j) 0 := by rw [duties_ar]; exact mem_123 d hd

theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
theorem bigSep_123 (Φ : Fin 4 → sProp 𝕄) : bigSep ({1, 2, 3} : Finset (Fin 4)) Φ = iprop(Φ 1 ∗ Φ 2 ∗ Φ 3) := by
  rw [bigSep_insert (by decide), bigSep_insert (by decide), bigSep_singleton]; rfl

theorem rest_bar (c : Dev nD) :
    bigSep ((Rd m).duties (barC c) 0 \ ∅) (fun d => (Rd m).payload (barC c) 0 d) = iprop(barPay c 0 ∗ barPay c 1 ∗ barPay c 2 ∗ barPay c 3) := by
  rw [Finset.sdiff_empty, duties_bar, bigSep_fin4, payload_bar m c 0, payload_bar m c 1, payload_bar m c 2, payload_bar m c 3]
instance barPay_storable (c : Dev nD) (d : Fin 4) : BI.Storable (upEmb : UEmb _ 𝕄) (barPay (F := F) c d) := by
  unfold barPay; split <;> infer_instance
instance wsPay_storable (c : Dev nD) (j : Fin 6) : BI.Storable (upEmb : UEmb _ 𝕄) (wsPay m c j) := by
  unfold wsPay; split <;> infer_instance
instance wrPay_storable (c : Dev nD) (j : Fin 6) : BI.Storable (upEmb : UEmb _ 𝕄) (wrPay m c j) := by
  unfold wrPay; split <;> infer_instance
instance asPay_storable (c : Dev nD) (j : Fin 6) (d : Fin 4) : BI.Storable (upEmb : UEmb _ 𝕄) (asPay m c j d) := by
  unfold asPay; infer_instance
instance arPay_storable (c : Dev nD) (j : Fin 6) (d : Fin 4) : BI.Storable (upEmb : UEmb _ 𝕄) (arPay m c j d) := by
  unfold arPay; infer_instance
instance payK_storable (k : CK) (c : Dev nD) (d : Fin 4) : BI.Storable (upEmb : UEmb _ 𝕄) (payK m k c d) := by
  cases k <;> unfold payK <;> infer_instance
instance Rd_payload_storable (g : GSem nD τ sig) (r : ℕ) (d : Fin 4) :
    BI.Storable (upEmb : UEmb _ 𝕄) ((Rd m).payload g r d) := by
  rw [Rd_payload]; infer_instance

theorem wsPay_0 (c : Dev nD) : wsPay m c 0 = holds c (winsJ 0 0) shR (Wi m c 0) := rfl
theorem wsPay_1 (c : Dev nD) : wsPay m c 1 = holds c (woutsJ 0 0) shR (Wo m c 0) := rfl
theorem wsPay_2 (c : Dev nD) : wsPay m c 2 = holds c (winsJ 0 1) shR (Wi m c 1) := rfl
theorem wsPay_3 (c : Dev nD) : wsPay m c 3 = holds c (woutsJ 0 1) shR (Wo m c 1) := rfl
theorem wsPay_4 (c : Dev nD) : wsPay m c 4 = holds c (winsJ 0 2) shR (Wi m c 2) := rfl
theorem wsPay_5 (c : Dev nD) : wsPay m c 5 = holds c (woutsJ 0 2) shR (Wo m c 2) := rfl
theorem wrPay_0 (c : Dev nD) : wrPay m c 0 = holds c (winsJ 1 0) fullShare (Wi m (pp c 0) 0) := rfl
theorem wrPay_1 (c : Dev nD) : wrPay m c 1 = holds c (woutsJ 1 0) fullShare (Wo m (pp c 0) 0) := rfl
theorem wrPay_2 (c : Dev nD) : wrPay m c 2 = holds c (winsJ 1 1) fullShare (Wi m (pp c 0) 1) := rfl
theorem wrPay_3 (c : Dev nD) : wrPay m c 3 = holds c (woutsJ 1 1) fullShare (Wo m (pp c 0) 1) := rfl
theorem wrPay_4 (c : Dev nD) : wrPay m c 4 = holds c (winsJ 1 2) fullShare (Wi m (pp c 0) 2) := rfl
theorem wrPay_5 (c : Dev nD) : wrPay m c 5 = holds c (woutsJ 1 2) fullShare (Wo m (pp c 0) 2) := rfl

theorem srcSlot_3 (c : Dev nD) (d : Fin 4) : srcSlot c 3 d = qd (pp c d) := rfl
theorem srcSlot_4 (c : Dev nD) (d : Fin 4) : srcSlot c 4 d = qd c := rfl
theorem asPay_0 (c : Dev nD) (d : Fin 4) : asPay m c 0 d = holds c (slotJ (xgM) (qd c)) (sh d) (X0q m c) := rfl
theorem asPay_1 (c : Dev nD) (d : Fin 4) : asPay m c 1 d = holds c (slotJ (prtlM 0) (qd (pp c d))) (fullShare) (sl4 (PK m 0 c) (qd (pp c d))) := rfl
theorem asPay_2 (c : Dev nD) (d : Fin 4) : asPay m c 2 d = holds c (slotJ (xnM 0) (qd c)) (sh d) (XN m 0 c) := rfl
theorem asPay_3 (c : Dev nD) (d : Fin 4) : asPay m c 3 d = holds c (slotJ (prtlM 1) (qd (pp c d))) (fullShare) (sl4 (PK m 1 c) (qd (pp c d))) := rfl
theorem asPay_4 (c : Dev nD) (d : Fin 4) : asPay m c 4 d = holds c (slotJ (xnM 1) (qd c)) (sh d) (XN m 1 c) := rfl
theorem asPay_5 (c : Dev nD) (d : Fin 4) : asPay m c 5 d = holds c (slotJ (prtlM 2) (qd (pp c d))) (fullShare) (sl4 (PK m 2 c) (qd (pp c d))) := rfl
theorem arPay_0 (c : Dev nD) (d : Fin 4) : arPay m c 0 d = holds c (slotJ (xgM) (qd (pp c d))) fullShare (X0q m (pp c d)) := rfl
theorem arPay_1 (c : Dev nD) (d : Fin 4) : arPay m c 1 d = holds c (slotJ (raccM 0) (qd (pp c d))) fullShare (sl4 (PK m 0 (pp c d)) (qd c)) := rfl
theorem arPay_2 (c : Dev nD) (d : Fin 4) : arPay m c 2 d = holds c (slotJ (xnM 0) (qd (pp c d))) fullShare (XN m 0 (pp c d)) := rfl
theorem arPay_3 (c : Dev nD) (d : Fin 4) : arPay m c 3 d = holds c (slotJ (raccM 1) (qd (pp c d))) fullShare (sl4 (PK m 1 (pp c d)) (qd c)) := rfl
theorem arPay_4 (c : Dev nD) (d : Fin 4) : arPay m c 4 d = holds c (slotJ (xnM 1) (qd (pp c d))) fullShare (XN m 1 (pp c d)) := rfl
theorem arPay_5 (c : Dev nD) (d : Fin 4) : arPay m c 5 d = holds c (slotJ (raccM 2) (qd (pp c d))) fullShare (sl4 (PK m 2 (pp c d)) (qd c)) := rfl

theorem barPay_0 (c : Dev nD) : barPay (F := F) c 0 =
    iprop(holdsAny (pp c 0) (winsJ 1 0) ∗ holdsAny (pp c 0) (woutsJ 1 0) ∗ holdsAny (pp c 0) (winsJ 1 1) ∗ holdsAny (pp c 0) (woutsJ 1 1)
      ∗ holdsAny (pp c 0) (winsJ 1 2) ∗ holdsAny (pp c 0) (woutsJ 1 2)) := if_pos rfl
theorem barPay_peer (c : Dev nD) (d : Fin 4) (hd : d ≠ 0) : barPay (F := F) c d =
    iprop(holdsAny (pp c d) (slotJ xgM (qd c)) ∗ holdsAny (pp c d) (slotJ (raccM 0) (qd c)) ∗ holdsAny (pp c d) (slotJ (xnM 0) (qd c))
      ∗ holdsAny (pp c d) (slotJ (raccM 1) (qd c)) ∗ holdsAny (pp c d) (slotJ (xnM 1) (qd c)) ∗ holdsAny (pp c d) (slotJ (raccM 2) (qd c))) := if_neg hd

end Cert.KernelIdeal.P

end
-- ==== Proof.BodyDefs.lean ====
import proofs.«900976_g7700000000000977_dist_mlpseq_tp1d_bs_bs_b128_d128_h256_v7x_i8_bf16_1_alg».proof.Proof.Inv
import proofs.«900976_g7700000000000977_dist_mlpseq_tp1d_bs_bs_b128_d128_h256_v7x_i8_bf16_1_alg».proof.Proof.SchedTables

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

notation "ARGS " f:max => f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scoped0

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def stgIn (c : Dev nD) : sProp 𝕄 :=
  iprop(stg c cc0_stg0_0 (xin m c) ∗ stg c cc0_stg1_0 (wiIn m c 0) ∗ stg c cc0_stg2_0 (woIn m c 0) ∗ stg c cc0_stg3_0 (wiIn m c 1)
    ∗ stg c cc0_stg4_0 (woIn m c 1) ∗ stg c cc0_stg5_0 (wiIn m c 2) ∗ stg c cc0_stg6_0 (woIn m c 2))

def owesFrom (c : Dev nD) (n : ℕ) (W : Waits sig Unit) : sProp 𝕄 := owes (c : Thread nD τ) (owedL ((owedItems c).drop n)) W

def arTok (c : Dev nD) (j : Fin 6) : sProp 𝕄 :=
  iprop(dutyTok ER (arC (pp c 1) j) 0 (inv 1) ∗ dutyTok ER (arC (pp c 2) j) 0 (inv 2) ∗ dutyTok ER (arC (pp c 3) j) 0 (inv 3))
def asTok (c : Dev nD) (j : Fin 6) : sProp 𝕄 := iprop(dutyTok ER (asC c j) 0 1 ∗ dutyTok ER (asC c j) 0 2 ∗ dutyTok ER (asC c j) 0 3)
def lent (c : Dev nD) (j : Fin 6) : sProp 𝕄 :=
  iprop(holdsAny (pp c 1) (slotJ (dstBuf j) (qd c)) ∗ holdsAny (pp c 2) (slotJ (dstBuf j) (qd c)) ∗ holdsAny (pp c 3) (slotJ (dstBuf j) (qd c)))
def asCred (c : Dev nD) (j : Fin 6) : sProp 𝕄 := iprop(cred (tallyAt (asC c j) () (cA j)) ∗ cred (tallyAt (asC c j) () (cA j)) ∗ cred (tallyAt (asC c j) () (cA j)))

def any4 (c : Dev nD) (b : Memref sig .tc .vmem S4x128x128 .bf16) : sProp 𝕄 :=
  iprop(holdsAny c (slotJ b 0) ∗ holdsAny c (slotJ b 1) ∗ holdsAny c (slotJ b 2) ∗ holdsAny c (slotJ b 3))
def got3 (c : Dev nD) (j : Fin 6) : sProp 𝕄 := iprop(arPay m c j 1 ∗ arPay m c j 2 ∗ arPay m c j 3)

def done (g : GSem nD τ sig) : sProp 𝕄 := atPos ER g 1 ∅ 0
def fresh (g : GSem nD τ sig) : sProp 𝕄 := atPos ER g 0 ∅ 0

end Cert.KernelIdeal.P

end
-- ==== Proof.PhaseSpecs.lean ====
import proofs.«900976_g7700000000000977_dist_mlpseq_tp1d_bs_bs_b128_d128_h256_v7x_i8_bf16_1_alg».proof.Proof.BodyDefs

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def preA (c : Dev nD) (W : Waits sig Unit) : sProp 𝕄 :=
  iprop(owesFrom c 0 W ∗ fresh (barC c) ∗ cred (tallyAt (barC c) () 4)
    ∗ (dutyTok ER (barC (pp c 0)) 0 (inv 0) ∗ dutyTok ER (barC (pp c 1)) 0 (inv 1) ∗ dutyTok ER (barC (pp c 2)) 0 (inv 2) ∗ dutyTok ER (barC (pp c 3)) 0 (inv 3))
    ∗ arTok c 0 ∗ asTok c 0
    ∗ (bigSep Finset.univ fun j : Fin 6 => dutyTok ER (wsC c j) 0 0) ∗ (bigSep Finset.univ fun j : Fin 6 => dutyTok ER (wrC (pp c 0) j) 0 0)
    ∗ stgIn m c
    ∗ (holdsAny c (winsJ 0 0) ∗ holdsAny c (woutsJ 0 0) ∗ holdsAny c (winsJ 0 1) ∗ holdsAny c (woutsJ 0 1) ∗ holdsAny c (winsJ 0 2) ∗ holdsAny c (woutsJ 0 2))
    ∗ (holdsAny c (winsJ 1 0) ∗ holdsAny c (woutsJ 1 0) ∗ holdsAny c (winsJ 1 1) ∗ holdsAny c (woutsJ 1 1) ∗ holdsAny c (winsJ 1 2) ∗ holdsAny c (woutsJ 1 2))
    ∗ any4 c xgM ∗ any4 c (raccM 0) ∗ any4 c (xnM 0) ∗ any4 c (raccM 1) ∗ any4 c (xnM 1) ∗ any4 c (raccM 2))
def postA (c : Dev nD) : sProp 𝕄 :=
  iprop((∃ W, owesFrom c 13 W) ∗ done (barC c) ∗ asCred c 0 ∗ (bigSep Finset.univ fun j : Fin 6 => cred (tallyAt (wsC c j) () (cW j)))
    ∗ stgIn m c
    ∗ (holds c (winsJ 0 0) shK (Wi m c 0) ∗ holds c (woutsJ 0 0) shK (Wo m c 0) ∗ holds c (winsJ 0 1) shK (Wi m c 1) ∗ holds c (woutsJ 0 1) shK (Wo m c 1)
        ∗ holds c (winsJ 0 2) shK (Wi m c 2) ∗ holds c (woutsJ 0 2) shK (Wo m c 2))
    ∗ holds c (slotJ xgM (qd c)) shK (X0q m c)
    ∗ lent c 1 ∗ lent c 2 ∗ lent c 3 ∗ lent c 4 ∗ lent c 5
    ∗ holdsAny c (slotJ (raccM 0) (qd c)) ∗ holdsAny c (slotJ (xnM 0) (qd c)) ∗ holdsAny c (slotJ (raccM 1) (qd c)) ∗ holdsAny c (slotJ (xnM 1) (qd c))
    ∗ holdsAny c (slotJ (raccM 2) (qd c)))

def preLayer (k : Fin 2) (c : Dev nD) (W : Waits sig Unit) : sProp 𝕄 :=
  let r : Fin 6 := ⟨2 * k.val + 1, by omega⟩; let g : Fin 6 := ⟨2 * k.val + 2, by omega⟩
  let w0 : Fin 6 := ⟨2 * k.val, by omega⟩; let w1 : Fin 6 := ⟨2 * k.val + 1, by omega⟩; let w2 : Fin 6 := ⟨2 * k.val + 2, by omega⟩
  let kk : Fin 3 := ⟨k.val, by omega⟩
  iprop(owesFrom c (13 + 6 * k.val) W
    ∗ (fresh (wrC c w0) ∗ cred (tallyAt (wrC c w0) () (cW w0))) ∗ (fresh (wrC c w1) ∗ cred (tallyAt (wrC c w1) () (cW w1))) ∗ (fresh (wrC c w2) ∗ cred (tallyAt (wrC c w2) () (cW w2)))
    ∗ (fresh (arC c r) ∗ cred (tallyAt (arC c r) () (3 * cA r))) ∗ (fresh (arC c g) ∗ cred (tallyAt (arC c g) () (3 * cA g)))
    ∗ arTok c r ∗ asTok c r ∗ lent c r ∗ arTok c g ∗ asTok c g ∗ lent c g
    ∗ holds c (winsJ 0 kk) shK (Wi m c kk) ∗ holds c (woutsJ 0 kk) shK (Wo m c kk)
    ∗ any4 c (prtlM kk) ∗ holdsAny c (slotJ (xnM k) (qd c)))
def postLayer (k : Fin 2) (c : Dev nD) : sProp 𝕄 :=
  let r : Fin 6 := ⟨2 * k.val + 1, by omega⟩; let g : Fin 6 := ⟨2 * k.val + 2, by omega⟩
  let w0 : Fin 6 := ⟨2 * k.val, by omega⟩; let w1 : Fin 6 := ⟨2 * k.val + 1, by omega⟩; let w2 : Fin 6 := ⟨2 * k.val + 2, by omega⟩
  let kk : Fin 3 := ⟨k.val, by omega⟩
  iprop((∃ W, owesFrom c (19 + 6 * k.val) W)
    ∗ done (wrC c w0) ∗ done (wrC c w1) ∗ done (wrC c w2) ∗ done (arC c r) ∗ done (arC c g)
    ∗ asCred c r ∗ asCred c g
    ∗ holds c (winsJ 0 kk) shK (Wi m c kk) ∗ holds c (woutsJ 0 kk) shK (Wo m c kk)
    ∗ wrPay m c w0 ∗ wrPay m c w1 ∗ wrPay m c w2
    ∗ holds c (slotJ (prtlM kk) (qd c)) fullShare (sl4 (PK m kk c) (qd c))
    ∗ got3 m c r
    ∗ holds c (slotJ (xnM k) (qd c)) shK (XN m k c)
    ∗ got3 m c g)

def preXg (c : Dev nD) : sProp 𝕄 :=
  iprop((fresh (arC c 0) ∗ cred (tallyAt (arC c 0) () (3 * cA 0))) ∗ holds c (slotJ xgM (qd c)) shK (X0q m c))
def postXg (c : Dev nD) : sProp 𝕄 := iprop(done (arC c 0) ∗ holds c (slotJ xgM (qd c)) shK (X0q m c) ∗ got3 m c 0)

def preLast (c : Dev nD) (W : Waits sig Unit) : sProp 𝕄 :=
  iprop(owesFrom c 25 W
    ∗ (fresh (wrC c 5) ∗ cred (tallyAt (wrC c 5) () (cW 5))) ∗ (fresh (arC c 5) ∗ cred (tallyAt (arC c 5) () (3 * cA 5)))
    ∗ arTok c 5 ∗ asTok c 5 ∗ lent c 5
    ∗ holds c (winsJ 0 2) shK (Wi m c 2) ∗ holds c (woutsJ 0 2) shK (Wo m c 2) ∗ wrPay m c 4
    ∗ any4 c (prtlM 2) ∗ (∃ X, stg c cc0_stg7_0 X))
def postLast (c : Dev nD) : sProp 𝕄 :=
  iprop((∃ W, owesFrom c 28 W) ∗ done (wrC c 5) ∗ done (arC c 5) ∗ asCred c 5
    ∗ holds c (winsJ 0 2) shK (Wi m c 2) ∗ holds c (woutsJ 0 2) shK (Wo m c 2) ∗ wrPay m c 4 ∗ wrPay m c 5
    ∗ holds c (slotJ (prtlM 2) (qd c)) fullShare (sl4 (PK m 2 c) (qd c)) ∗ got3 m c 5
    ∗ stg c cc0_stg7_0 (OUT m c))

def preEnd (c : Dev nD) (W : Waits sig Unit) : sProp 𝕄 :=
  iprop(owesFrom c 28 W
    ∗ (bigSep Finset.univ fun j : Fin 6 => iprop(fresh (wsC c j) ∗ cred (tallyAt (wsC c j) () (cW j))))
    ∗ (bigSep Finset.univ fun j : Fin 6 => iprop(fresh (asC c j) ∗ asCred c j))
    ∗ (dutyTok ER (extC (pp c 0)) 0 (inv 0) ∗ dutyTok ER (extC (pp c 1)) 0 (inv 1) ∗ dutyTok ER (extC (pp c 2)) 0 (inv 2) ∗ dutyTok ER (extC (pp c 3)) 0 (inv 3))
    ∗ fresh (extC c) ∗ cred (tallyAt (extC c) () 4))
def postEnd (c : Dev nD) : sProp 𝕄 :=
  iprop((∃ W, owes (c : Thread nD τ) 0 W)
    ∗ (bigSep Finset.univ fun j : Fin 6 => iprop(done (wsC c j) ∗ wsPay m c j))
    ∗ (bigSep Finset.univ fun j : Fin 6 => iprop(done (asC c j) ∗ asPay m c j 1 ∗ asPay m c j 2 ∗ asPay m c j 3))
    ∗ done (extC c))

end Cert.KernelIdeal.P

end
-- ==== Proof.GlueSpecs.lean ====
import proofs.«900976_g7700000000000977_dist_mlpseq_tp1d_bs_bs_b128_d128_h256_v7x_i8_bf16_1_alg».proof.Proof.PhaseSpecs

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def wrCell (c : Dev nD) (j : Fin 6) : sProp 𝕄 := iprop(fresh (wrC c j) ∗ cred (tallyAt (wrC c j) () (cW j)))
def arCell (c : Dev nD) (j : Fin 6) : sProp 𝕄 := iprop(fresh (arC c j) ∗ cred (tallyAt (arC c j) () (3 * cA j)))

def initRest (c : Dev nD) : sProp 𝕄 :=
  iprop(arCell c 0
    ∗ (wrCell c 0 ∗ wrCell c 1 ∗ wrCell c 2 ∗ arCell c 1 ∗ arCell c 2 ∗ arTok c 1 ∗ asTok c 1 ∗ arTok c 2 ∗ asTok c 2 ∗ any4 c (prtlM 0))
    ∗ (wrCell c 3 ∗ wrCell c 4 ∗ arCell c 3 ∗ arCell c 4 ∗ arTok c 3 ∗ asTok c 3 ∗ arTok c 4 ∗ asTok c 4 ∗ any4 c (prtlM 1))
    ∗ (wrCell c 5 ∗ arCell c 5 ∗ arTok c 5 ∗ asTok c 5 ∗ any4 c (prtlM 2) ∗ (∃ X, stg c cc0_stg7_0 X))
    ∗ ((bigSep Finset.univ fun j : Fin 6 => fresh (wsC c j)) ∗ (bigSep Finset.univ fun j : Fin 6 => fresh (asC c j))
        ∗ (dutyTok ER (extC (pp c 0)) 0 (inv 0) ∗ dutyTok ER (extC (pp c 1)) 0 (inv 1) ∗ dutyTok ER (extC (pp c 2)) 0 (inv 2) ∗ dutyTok ER (extC (pp c 3)) 0 (inv 3))
        ∗ fresh (extC c) ∗ cred (tallyAt (extC c) () 4)))

def finalAll (c : Dev nD) : sProp 𝕄 :=
  iprop((∃ W, owes (c : Thread nD τ) 0 W)
    ∗ (done (extC c) ∗ (bigSep Finset.univ fun j : Fin 6 => done (wsC c j)) ∗ (bigSep Finset.univ fun j : Fin 6 => done (wrC c j))
        ∗ (bigSep Finset.univ fun j : Fin 6 => done (asC c j)) ∗ (bigSep Finset.univ fun j : Fin 6 => done (arC c j)))
    ∗ (bigSep Finset.univ fun k : Fin 3 => iprop(holds c (winsJ 0 k) shK (Wi m c k) ∗ holds c (woutsJ 0 k) shK (Wo m c k)))
    ∗ (bigSep Finset.univ fun j : Fin 6 => wsPay m c j) ∗ (bigSep Finset.univ fun j : Fin 6 => wrPay m c j)
    ∗ (holds c (slotJ xgM (qd c)) shK (X0q m c) ∗ holds c (slotJ (xnM 0) (qd c)) shK (XN m 0 c) ∗ holds c (slotJ (xnM 1) (qd c)) shK (XN m 1 c))
    ∗ (bigSep Finset.univ fun k : Fin 3 => iprop(holds c (slotJ (prtlM k) (qd c)) fullShare (sl4 (PK m k c) (qd c)) ∗ holdsAny c (slotJ (raccM k) (qd c))))
    ∗ (bigSep Finset.univ fun j : Fin 6 => iprop(asPay m c j 1 ∗ asPay m c j 2 ∗ asPay m c j 3))
    ∗ (bigSep Finset.univ fun j : Fin 6 => got3 m c j)
    ∗ stgIn m c ∗ stg c cc0_stg7_0 (OUT m c))

end Cert.KernelIdeal.P

end
-- ==== Proof.HoldsLemmas.lean ====
import proofs.«900976_g7700000000000977_dist_mlpseq_tp1d_bs_bs_b128_d128_h256_v7x_i8_bf16_1_alg».proof.Proof.Inv
import Idealize.ShloMosaic.Lib.Tactic
import Idealize.ShloMosaic.Lib.Pipeline.Value
import Idealize.ShloMosaic.Lib.ValueLayout

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
omit [FloatOps F]

theorem holds_intro (c : Dev nD) {s : Shape} {e : EltTy} (m : Memref sig .tc .vmem s e) (q : PosShare TreeShare)
    (f : Buf (Elt F) (m.view.loc (c : Thread nD τ))) :
    (m.view.loc (c : Thread nD τ) ↦[m.view.set]{q} f) ⊢ holds (F := F) c m q (m.view.read (Elt F) f) := by
  unfold holds
  iintro H
  iexists f
  isplitr
  · ipureintro; rfl
  · iexact H

theorem holds_elim (c : Dev nD) {s : Shape} {e : EltTy} (m : Memref sig .tc .vmem s e) (q : PosShare TreeShare) (w : s.Idx → Elt F e) :
    holds (F := F) c m q w ⊢ iprop(∃ f : Buf (Elt F) (m.view.loc (c : Thread nD τ)), ⌜m.view.read (Elt F) f = w⌝ ∗ (m.view.loc (c : Thread nD τ) ↦[m.view.set]{q} f)) := by
  unfold holds; exact Entails.refl _

theorem holdsAny_intro (c : Dev nD) {s : Shape} {e : EltTy} (m : Memref sig .tc .vmem s e)
    (f : Buf (Elt F) (m.view.loc (c : Thread nD τ))) :
    (m.view.loc (c : Thread nD τ) ↦[m.view.set]{fullShare} f) ⊢ holdsAny (F := F) c m := by
  unfold holdsAny
  iintro H
  iexists f
  iexact H

theorem holdsAny_elim (c : Dev nD) {s : Shape} {e : EltTy} (m : Memref sig .tc .vmem s e) :
    holdsAny (F := F) c m ⊢ iprop(∃ f : Buf (Elt F) (m.view.loc (c : Thread nD τ)), (m.view.loc (c : Thread nD τ) ↦[m.view.set]{fullShare} f)) := by
  unfold holdsAny; exact Entails.refl _

theorem set_piece {s : Shape} {e : EltTy} (b : Memref sig .tc .vmem s e) (r : Rect s) (hr : ∀ a, r.stride a = 1) (s' : Shape) (hsq : r.shape.Squeezes s') :
    ((b.slice r hr).squeeze s' hsq).view.set = (b.access r).set :=
  View.set_reshape _ _

theorem read_piece {s : Shape} {e : EltTy} (b : Memref sig .tc .vmem s e) (r : Rect s) (hr : ∀ a, r.stride a = 1) (s' : Shape) (hsq : r.shape.Squeezes s')
    (f : ((b.slice r hr).squeeze s' hsq).view.ty.Contents (Elt F)) :
    ((b.slice r hr).squeeze s' hsq).view.read (Elt F) f = fun i => (b.access r).read (Elt F) f (Shape.reshapeEquiv hsq.numel_eq i) := rfl

theorem holds_split (c : Dev nD) {s : Shape} {e : EltTy} (m : Memref sig .tc .vmem s e) (q : PosShare TreeShare) (w : s.Idx → Elt F e) :
    holds (F := F) c m q w ⊢ iprop(holds (F := F) c m q.left w ∗ holds (F := F) c m q.right w) := by
  iintro H
  ihave H' := (holds_elim c m q w) $$ H
  icases H' with ⟨%f, %hf, H⟩
  subst hf
  ihave H2 := (pointsTo_share (PosShare.mem_left_op_right q)).1 $$ H
  icases H2 with ⟨Hl, Hr⟩
  isplitl [Hl]
  · iapply (holds_intro c m q.left f) $$ Hl
  · iapply (holds_intro c m q.right f) $$ Hr

theorem holds_any (c : Dev nD) {s : Shape} {e : EltTy} (m : Memref sig .tc .vmem s e) (w : s.Idx → Elt F e) :
    holds (F := F) c m fullShare w ⊢ holdsAny (F := F) c m := by
  iintro H
  ihave H' := (holds_elim c m fullShare w) $$ H
  icases H' with ⟨%f, %hf, H⟩
  iapply (holdsAny_intro c m f) $$ H

-- Contents a view reads alike agree on the view's elements: the view's index map is injective.
theorem eqOn_of_read_eq {s : Shape} {e : EltTy} (v : View sig .tc .vmem s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

theorem holds_join (c : Dev nD) {s : Shape} {e : EltTy} (m : Memref sig .tc .vmem s e) (q : PosShare TreeShare) (w : s.Idx → Elt F e) :
    iprop(holds (F := F) c m q.left w ∗ holds (F := F) c m q.right w) ⊢ holds (F := F) c m q w := by
  iintro ⟨Hl, Hr⟩
  ihave Hl' := (holds_elim c m q.left w) $$ Hl
  ihave Hr' := (holds_elim c m q.right w) $$ Hr
  icases Hl' with ⟨%f, %hf, Hl⟩
  icases Hr' with ⟨%g, %hg, Hr⟩
  have hfg : (m.view.loc (c : Thread nD τ) ↦[m.view.set]{q.right} g : sProp 𝕄) = (m.view.loc (c : Thread nD τ) ↦[m.view.set]{q.right} f) :=
    pointsTo_congr (eqOn_of_read_eq m.view (hg.trans hf.symm))
  ihave Hr := (Entails.of_eq hfg) $$ Hr
  subst hf
  ihave H := (pointsTo_share (PosShare.mem_left_op_right q)).2 $$ [Hl Hr]
  · isplitl [Hl]
    · iexact Hl
    · iexact Hr
  iapply (holds_intro c m q f) $$ H

end

theorem wp_load_piece (c : Dev nD) {s : Shape} {e : EltTy} (b : Memref sig .tc .vmem s e) (r : Rect s) (hr : ∀ a, r.stride a = 1) (s' : Shape) (hsq : r.shape.Squeezes s')
    {hl : b.view.LoadsAt r.toLoadRect}
    {α : Type} {Q : α → sProp 𝕄} {k : (r.shape.Idx → Elt F e) → Prog (TpuEff nD τ sig (Elt F) Λ₀ .tc) α}
    (q : PosShare TreeShare) (w : s'.Idx → Elt F e) :
    holds c ((b.slice r hr).squeeze s' hsq) q w
      ⊢ iprop((holds c ((b.slice r hr).squeeze s' hsq) q w -∗ wp frame (wpE (defs₀ (F := F)) 𝒱₀ (c : Thread nD τ) none) Set.univ (k (fun i => w ((Shape.reshapeEquiv hsq.numel_eq).symm i))) Q)
      -∗ wp frame (wpE (defs₀ (F := F)) 𝒱₀ (c : Thread nD τ) none) Set.univ (.op (.load b r.toLoadRect hl) k) Q) := by
  iintro H Hk
  ihave H' := (holds_elim c ((b.slice r hr).squeeze s' hsq) q w) $$ H
  icases H' with ⟨%f, %hf, H⟩
  subst hf
  have hS : b.view.setOn r.toLoadRect.set ⊆ ((b.slice r hr).squeeze s' hsq).view.set := by
    rw [set_piece, View.set_slice]; exact Finset.Subset.refl _
  iapply (wp_load 𝒱₀ (c : Thread nD τ) none Set.univ (m := b) (r := r.toLoadRect) (hl := hl) (k := k) (q := q) (f := f) hS) $$ H
  iintro H
  have hv : b.view.readAt (Elt F) r.toLoadRect f = fun i => ((b.slice r hr).squeeze s' hsq).view.read (Elt F) f ((Shape.reshapeEquiv hsq.numel_eq).symm i) := by
    funext i; rw [read_piece]; simp only [Equiv.apply_symm_apply]; rfl
  rw [hv]
  iapply Hk
  iapply (holds_intro c ((b.slice r hr).squeeze s' hsq) q f) $$ H

theorem wp_load_piece_any (c : Dev nD) {s : Shape} {e : EltTy} (b : Memref sig .tc .vmem s e) (r : Rect s) (hr : ∀ a, r.stride a = 1) (s' : Shape) (hsq : r.shape.Squeezes s')
    {hl : b.view.LoadsAt r.toLoadRect}
    {α : Type} {Q : α → sProp 𝕄} {k : (r.shape.Idx → Elt F e) → Prog (TpuEff nD τ sig (Elt F) Λ₀ .tc) α} :
    holdsAny c ((b.slice r hr).squeeze s' hsq)
      ⊢ iprop((∀ x, holdsAny c ((b.slice r hr).squeeze s' hsq) -∗ wp frame (wpE (defs₀ (F := F)) 𝒱₀ (c : Thread nD τ) none) Set.univ (k x) Q)
      -∗ wp frame (wpE (defs₀ (F := F)) 𝒱₀ (c : Thread nD τ) none) Set.univ (.op (.load b r.toLoadRect hl) k) Q) := by
  iintro H Hk
  ihave H' := (holdsAny_elim c ((b.slice r hr).squeeze s' hsq)) $$ H
  icases H' with ⟨%f, H⟩
  have hS : b.view.setOn r.toLoadRect.set ⊆ ((b.slice r hr).squeeze s' hsq).view.set := by
    rw [set_piece, View.set_slice]; exact Finset.Subset.refl _
  iapply (wp_load 𝒱₀ (c : Thread nD τ) none Set.univ (m := b) (r := r.toLoadRect) (hl := hl) (k := k) (q := fullShare) (f := f) hS) $$ H
  iintro H
  iapply Hk
  iapply (holdsAny_intro c ((b.slice r hr).squeeze s' hsq) f) $$ H

theorem wp_store_piece (c : Dev nD) {s : Shape} {e : EltTy} (b : Memref sig .tc .vmem s e) (r : Rect s) (hr : ∀ a, r.stride a = 1) (s' : Shape) (hsq : r.shape.Squeezes s')
    {v : r.shape.Idx → Elt F e} {hx : (b.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    holdsAny c ((b.slice r hr).squeeze s' hsq)
      ⊢ iprop((holds c ((b.slice r hr).squeeze s' hsq) fullShare (fun i => v (Shape.reshapeEquiv hsq.numel_eq i)) -∗ wp frame (wpE (defs₀ (F := F)) 𝒱₀ (c : Thread nD τ) none) Set.univ (k ⟨⟩) Q)
      -∗ wp frame (wpE (defs₀ (F := F)) 𝒱₀ (c : Thread nD τ) none) Set.univ (.op (.store b r v Finset.univ hx hm) k) Q) := by
  iintro H Hk
  ihave H' := (holdsAny_elim c ((b.slice r hr).squeeze s' hsq)) $$ H
  icases H' with ⟨%f, H⟩
  have hS : (b.access r).setOn Finset.univ ⊆ ((b.slice r hr).squeeze s' hsq).view.set := by
    rw [set_piece]; exact Finset.Subset.refl _
  iapply (wp_store 𝒱₀ (c : Thread nD τ) none Set.univ (m := b) (r := r) (w := v) (Mk := Finset.univ) (hx := hx) (hm := hm) (k := k) (f := f) hS) $$ H
  iintro H
  iapply Hk
  have hv : (fun i => v (Shape.reshapeEquiv hsq.numel_eq i)) = ((b.slice r hr).squeeze s' hsq).view.read (Elt F) ((b.access r).write (Elt F) f v Finset.univ) := by
    rw [read_piece, View.read_write_univ]
  rw [hv]
  iapply (holds_intro c ((b.slice r hr).squeeze s' hsq) fullShare _) $$ H

-- A slot is the squeezed slice at rows [j, j+1): the three rules for a rectangle apply as they stand.
theorem wp_load_slot (c : Dev nD) (b : Memref sig .tc .vmem S4x128x128 .bf16) (j : Fin 4) {off : Fin 3 → Nat} (hoff : off = ![j.val, 0, 0])
    {inb : ∀ a, off a + S1x128x128.size a ≤ S4x128x128.size a}
    {hl : b.view.LoadsAt (Rect.unit (s := S4x128x128) off S1x128x128.size inb).toLoadRect}
    {α : Type} {Q : α → sProp 𝕄} {k : (S1x128x128.Idx → Elt F .bf16) → Prog (TpuEff nD τ sig (Elt F) Λ₀ .tc) α}
    (q : PosShare TreeShare) (w : S128x128.Idx → Elt F .bf16) :
    holds c (slotJ b j) q w ⊢ iprop((holds c (slotJ b j) q w -∗ wp frame (wpE (defs₀ (F := F)) 𝒱₀ (c : Thread nD τ) none) Set.univ (k (unsq3 w)) Q)
      -∗ wp frame (wpE (defs₀ (F := F)) 𝒱₀ (c : Thread nD τ) none) Set.univ (.op (.load b (Rect.unit (s := S4x128x128) off S1x128x128.size inb).toLoadRect hl) k) Q) := by
  subst hoff
  exact wp_load_piece c _ _ (fun _ => rfl) _ squeezes_S1x128x128_S128x128 q w

theorem wp_load_slot_any (c : Dev nD) (b : Memref sig .tc .vmem S4x128x128 .bf16) (j : Fin 4) {off : Fin 3 → Nat} (hoff : off = ![j.val, 0, 0])
    {inb : ∀ a, off a + S1x128x128.size a ≤ S4x128x128.size a}
    {hl : b.view.LoadsAt (Rect.unit (s := S4x128x128) off S1x128x128.size inb).toLoadRect}
    {α : Type} {Q : α → sProp 𝕄} {k : (S1x128x128.Idx → Elt F .bf16) → Prog (TpuEff nD τ sig (Elt F) Λ₀ .tc) α} :
    holdsAny c (slotJ b j) ⊢ iprop((∀ x, holdsAny c (slotJ b j) -∗ wp frame (wpE (defs₀ (F := F)) 𝒱₀ (c : Thread nD τ) none) Set.univ (k x) Q)
      -∗ wp frame (wpE (defs₀ (F := F)) 𝒱₀ (c : Thread nD τ) none) Set.univ (.op (.load b (Rect.unit (s := S4x128x128) off S1x128x128.size inb).toLoadRect hl) k) Q) := by
  subst hoff
  exact wp_load_piece_any c _ _ (fun _ => rfl) _ squeezes_S1x128x128_S128x128

theorem wp_store_slot (c : Dev nD) (b : Memref sig .tc .vmem S4x128x128 .bf16) (j : Fin 4) {off : Fin 3 → Nat} (hoff : off = ![j.val, 0, 0])
    {inb : ∀ a, off a + S1x128x128.size a ≤ S4x128x128.size a} {v : S1x128x128.Idx → Elt F .bf16}
    {hx : (b.access (Rect.unit (s := S4x128x128) off S1x128x128.size inb)).Stores Finset.univ}
    {hm : (Finset.univ : Finset (Rect.unit (s := S4x128x128) off S1x128x128.size inb).shape.Idx) = Finset.univ ∨ ∀ a, (Rect.unit (s := S4x128x128) off S1x128x128.size inb).stride a = 1}
    {α : Type} {Q : α → sProp 𝕄} {k : PUnit → Prog (TpuEff nD τ sig (Elt F) Λ₀ .tc) α} :
    holdsAny c (slotJ b j) ⊢ iprop((holds c (slotJ b j) fullShare (sq3 v) -∗ wp frame (wpE (defs₀ (F := F)) 𝒱₀ (c : Thread nD τ) none) Set.univ (k ⟨⟩) Q)
      -∗ wp frame (wpE (defs₀ (F := F)) 𝒱₀ (c : Thread nD τ) none) Set.univ (.op (.store b (Rect.unit (s := S4x128x128) off S1x128x128.size inb) v Finset.univ hx hm) k) Q) := by
  subst hoff
  exact wp_store_piece c _ _ (fun _ => rfl) _ squeezes_S1x128x128_S128x128

theorem wp_load_wslice (c : Dev nD) (s : Fin 2) (k' : Fin 3) {off : Fin 4 → Nat} (hoff : off = ![s.val, k'.val, 0, 0])
    {inb : ∀ a, off a + S1x1x128x256.size a ≤ S2x3x128x256.size a}
    {hl : (winsM).view.LoadsAt (Rect.unit (s := S2x3x128x256) off S1x1x128x256.size inb).toLoadRect}
    {α : Type} {Q : α → sProp 𝕄} {k : (S1x1x128x256.Idx → Elt F .bf16) → Prog (TpuEff nD τ sig (Elt F) Λ₀ .tc) α}
    (q : PosShare TreeShare) (w : S128x256.Idx → Elt F .bf16) :
    holds c (winsJ s k') q w ⊢ iprop((holds c (winsJ s k') q w -∗ wp frame (wpE (defs₀ (F := F)) 𝒱₀ (c : Thread nD τ) none) Set.univ (k (unsqW w)) Q)
      -∗ wp frame (wpE (defs₀ (F := F)) 𝒱₀ (c : Thread nD τ) none) Set.univ (.op (.load winsM (Rect.unit (s := S2x3x128x256) off S1x1x128x256.size inb).toLoadRect hl) k) Q) := by
  subst hoff
  exact wp_load_piece c _ _ (fun _ => rfl) _ squeezes_S1x1x128x256_S128x256 q w

theorem wp_load_wslice_any (c : Dev nD) (s : Fin 2) (k' : Fin 3) {off : Fin 4 → Nat} (hoff : off = ![s.val, k'.val, 0, 0])
    {inb : ∀ a, off a + S1x1x128x256.size a ≤ S2x3x128x256.size a}
    {hl : (winsM).view.LoadsAt (Rect.unit (s := S2x3x128x256) off S1x1x128x256.size inb).toLoadRect}
    {α : Type} {Q : α → sProp 𝕄} {k : (S1x1x128x256.Idx → Elt F .bf16) → Prog (TpuEff nD τ sig (Elt F) Λ₀ .tc) α} :
    holdsAny c (winsJ s k') ⊢ iprop((∀ x, holdsAny c (winsJ s k') -∗ wp frame (wpE (defs₀ (F := F)) 𝒱₀ (c : Thread nD τ) none) Set.univ (k x) Q)
      -∗ wp frame (wpE (defs₀ (F := F)) 𝒱₀ (c : Thread nD τ) none) Set.univ (.op (.load winsM (Rect.unit (s := S2x3x128x256) off S1x1x128x256.size inb).toLoadRect hl) k) Q) := by
  subst hoff
  exact wp_load_piece_any c _ _ (fun _ => rfl) _ squeezes_S1x1x128x256_S128x256

theorem wp_store_wslice (c : Dev nD) (s : Fin 2) (k' : Fin 3) {off : Fin 4 → Nat} (hoff : off = ![s.val, k'.val, 0, 0])
    {inb : ∀ a, off a + S1x1x128x256.size a ≤ S2x3x128x256.size a} {v : S1x1x128x256.Idx → Elt F .bf16}
    {hx : (winsM.access (Rect.unit (s := S2x3x128x256) off S1x1x128x256.size inb)).Stores Finset.univ}
    {hm : (Finset.univ : Finset (Rect.unit (s := S2x3x128x256) off S1x1x128x256.size inb).shape.Idx) = Finset.univ ∨ ∀ a, (Rect.unit (s := S2x3x128x256) off S1x1x128x256.size inb).stride a = 1}
    {α : Type} {Q : α → sProp 𝕄} {k : PUnit → Prog (TpuEff nD τ sig (Elt F) Λ₀ .tc) α} :
    holdsAny c (winsJ s k') ⊢ iprop((holds c (winsJ s k') fullShare (sqW v) -∗ wp frame (wpE (defs₀ (F := F)) 𝒱₀ (c : Thread nD τ) none) Set.univ (k ⟨⟩) Q)
      -∗ wp frame (wpE (defs₀ (F := F)) 𝒱₀ (c : Thread nD τ) none) Set.univ (.op (.store winsM (Rect.unit (s := S2x3x128x256) off S1x1x128x256.size inb) v Finset.univ hx hm) k) Q) := by
  subst hoff
  exact wp_store_piece c _ _ (fun _ => rfl) _ squeezes_S1x1x128x256_S128x256

theorem wp_load_oslice (c : Dev nD) (s : Fin 2) (k' : Fin 3) {off : Fin 4 → Nat} (hoff : off = ![s.val, k'.val, 0, 0])
    {inb : ∀ a, off a + S1x1x256x128.size a ≤ S2x3x256x128.size a}
    {hl : (woutsM).view.LoadsAt (Rect.unit (s := S2x3x256x128) off S1x1x256x128.size inb).toLoadRect}
    {α : Type} {Q : α → sProp 𝕄} {k : (S1x1x256x128.Idx → Elt F .bf16) → Prog (TpuEff nD τ sig (Elt F) Λ₀ .tc) α}
    (q : PosShare TreeShare) (w : S256x128.Idx → Elt F .bf16) :
    holds c (woutsJ s k') q w ⊢ iprop((holds c (woutsJ s k') q w -∗ wp frame (wpE (defs₀ (F := F)) 𝒱₀ (c : Thread nD τ) none) Set.univ (k (unsqO w)) Q)
      -∗ wp frame (wpE (defs₀ (F := F)) 𝒱₀ (c : Thread nD τ) none) Set.univ (.op (.load woutsM (Rect.unit (s := S2x3x256x128) off S1x1x256x128.size inb).toLoadRect hl) k) Q) := by
  subst hoff
  exact wp_load_piece c _ _ (fun _ => rfl) _ squeezes_S1x1x256x128_S256x128 q w

theorem wp_load_oslice_any (c : Dev nD) (s : Fin 2) (k' : Fin 3) {off : Fin 4 → Nat} (hoff : off = ![s.val, k'.val, 0, 0])
    {inb : ∀ a, off a + S1x1x256x128.size a ≤ S2x3x256x128.size a}
    {hl : (woutsM).view.LoadsAt (Rect.unit (s := S2x3x256x128) off S1x1x256x128.size inb).toLoadRect}
    {α : Type} {Q : α → sProp 𝕄} {k : (S1x1x256x128.Idx → Elt F .bf16) → Prog (TpuEff nD τ sig (Elt F) Λ₀ .tc) α} :
    holdsAny c (woutsJ s k') ⊢ iprop((∀ x, holdsAny c (woutsJ s k') -∗ wp frame (wpE (defs₀ (F := F)) 𝒱₀ (c : Thread nD τ) none) Set.univ (k x) Q)
      -∗ wp frame (wpE (defs₀ (F := F)) 𝒱₀ (c : Thread nD τ) none) Set.univ (.op (.load woutsM (Rect.unit (s := S2x3x256x128) off S1x1x256x128.size inb).toLoadRect hl) k) Q) := by
  subst hoff
  exact wp_load_piece_any c _ _ (fun _ => rfl) _ squeezes_S1x1x256x128_S256x128

theorem wp_store_oslice (c : Dev nD) (s : Fin 2) (k' : Fin 3) {off : Fin 4 → Nat} (hoff : off = ![s.val, k'.val, 0, 0])
    {inb : ∀ a, off a + S1x1x256x128.size a ≤ S2x3x256x128.size a} {v : S1x1x256x128.Idx → Elt F .bf16}
    {hx : (woutsM.access (Rect.unit (s := S2x3x256x128) off S1x1x256x128.size inb)).Stores Finset.univ}
    {hm : (Finset.univ : Finset (Rect.unit (s := S2x3x256x128) off S1x1x256x128.size inb).shape.Idx) = Finset.univ ∨ ∀ a, (Rect.unit (s := S2x3x256x128) off S1x1x256x128.size inb).stride a = 1}
    {α : Type} {Q : α → sProp 𝕄} {k : PUnit → Prog (TpuEff nD τ sig (Elt F) Λ₀ .tc) α} :
    holdsAny c (woutsJ s k') ⊢ iprop((holds c (woutsJ s k') fullShare (sqO v) -∗ wp frame (wpE (defs₀ (F := F)) 𝒱₀ (c : Thread nD τ) none) Set.univ (k ⟨⟩) Q)
      -∗ wp frame (wpE (defs₀ (F := F)) 𝒱₀ (c : Thread nD τ) none) Set.univ (.op (.store woutsM (Rect.unit (s := S2x3x256x128) off S1x1x256x128.size inb) v Finset.univ hx hm) k) Q) := by
  subst hoff
  exact wp_store_piece c _ _ (fun _ => rfl) _ squeezes_S1x1x256x128_S256x128

section
omit [FloatOps F]

abbrev pc {s s' : Shape} {e : EltTy} (b : Memref sig .tc .vmem s e) {ι : Type} (r : ι → Rect s) (hr : ∀ j a, (r j).stride a = 1)
    (hsq : ∀ j, (r j).shape.Squeezes s') (j : ι) : Memref sig .tc .vmem s' e :=
  (b.slice (r j) (hr j)).squeeze s' (hsq j)

-- Of a sum of existentials one summand names a witness, so the witnesses' type may be taken inhabited.
theorem bigSep_exists_pi₀ {ι Y : Type} [Fintype ι] [DecidableEq ι] (j₀ : ι) (P : ι → Y → sProp 𝕄) :
    bigSep Finset.univ (fun j => iprop(∃ y, P j y)) ⊢ iprop(∃ y : ι → Y, bigSep Finset.univ fun j => P j (y j)) := by
  by_cases hY : Nonempty Y
  · exact bigSep_exists_pi Finset.univ P
  · rw [bigSep_univ_at _ j₀]
    iintro ⟨⟨%y, H⟩, H'⟩
    exact absurd ⟨y⟩ hY

variable {s s' : Shape} {e : EltTy} (c : Dev nD) (b : Memref sig .tc .vmem s e) {ι : Type} [Fintype ι] [DecidableEq ι]
  (r : ι → Rect s) (hr : ∀ j a, (r j).stride a = 1) (hsq : ∀ j, (r j).shape.Squeezes s')
  (hd : ∀ j j', j ≠ j' → Disjoint (r j).set (r j').set) (hc : ∀ x : s.Idx, ∃ j, x ∈ (r j).set)

theorem pc_set (j : ι) : (pc b r hr hsq j).view.set = (r j).set.map b.view.emb :=
  (View.set_reshape _ _).trans (View.set_slice _ _)

include hd in
theorem pc_disjoint (j j' : ι) (h : j ≠ j') : Disjoint (pc b r hr hsq j).view.set (pc b r hr hsq j').view.set := by
  rw [pc_set, pc_set, Finset.disjoint_map]; exact hd j j' h

include hc in
theorem pc_union : (Finset.univ.biUnion fun j => (pc b r hr hsq j).view.set) = b.view.set := by
  refine Finset.Subset.antisymm (Finset.biUnion_subset.mpr fun j _ => ?_) fun i hi => ?_
  · rw [pc_set, ← View.set_slice]; exact View.set_slice_subset _ _
  · obtain ⟨x, -, rfl⟩ := Finset.mem_map.mp hi
    obtain ⟨j, hj⟩ := hc x
    refine Finset.mem_biUnion.mpr ⟨j, Finset.mem_univ _, ?_⟩
    rw [pc_set]; exact Finset.mem_map_of_mem _ hj

variable {S : Finset (Idx (b.view.loc (c : Thread nD τ)))} (hS : b.view.set = S)
include hd hc hS

-- Pairwise disjoint pieces covering the buffer, each at contents of its own: one contents of the buffer agrees with each on its piece.
theorem pts_joinG (q : PosShare TreeShare)
    (fs : ι → Buf (Elt F) (b.view.loc (c : Thread nD τ))) (j₀ : ι) :
    bigSep Finset.univ (fun j => (b.view.loc (c : Thread nD τ) ↦[(pc b r hr hsq j).view.set]{q} fs j : sProp 𝕄))
      ⊢ iprop(∃ g, ⌜∀ j, ∀ i ∈ (pc b r hr hsq j).view.set, g i = fs j i⌝ ∗ (b.view.loc (c : Thread nD τ) ↦[S]{q} g)) := by
  subst hS
  refine (pointsTo_biUnion_join Finset.univ _ fs (fs j₀) fun j _ j' _ h => pc_disjoint b r hr hsq hd j j' h).trans ?_
  rw [pc_union b r hr hsq hc]
  iintro ⟨%g, %hg, H⟩
  iexists g
  isplitr
  · ipureintro; exact fun j => hg j (Finset.mem_univ _)
  · iexact H

theorem uncutG (j₀ : ι) :
    bigSep Finset.univ (fun j => holdsAny (F := F) c (pc b r hr hsq j))
      ⊢ iprop(∃ g : Buf (Elt F) (b.view.loc (c : Thread nD τ)), (b.view.loc (c : Thread nD τ) ↦[S]{fullShare} g)) := by
  refine (bigSep_exists_pi₀ j₀ fun j f => (b.view.loc (c : Thread nD τ) ↦[(pc b r hr hsq j).view.set]{fullShare} f : sProp 𝕄)).trans ?_
  iintro ⟨%fs, H⟩
  ihave HJ := (pts_joinG c b r hr hsq hd hc hS fullShare fs j₀) $$ H
  icases HJ with ⟨%g, -, H⟩
  iexists g
  iexact H

theorem joinG (j₀ : ι) (q : PosShare TreeShare) (w : ι → s'.Idx → Elt F e) :
    bigSep Finset.univ (fun j => holds (F := F) c (pc b r hr hsq j) q (w j))
      ⊢ iprop(∃ g : Buf (Elt F) (b.view.loc (c : Thread nD τ)), ⌜∀ j, (pc b r hr hsq j).view.read (Elt F) g = w j⌝ ∗ (b.view.loc (c : Thread nD τ) ↦[S]{q} g)) := by
  refine (bigSep_exists_pi₀ j₀ fun j (f : Buf (Elt F) (b.view.loc (c : Thread nD τ))) => (iprop(⌜(pc b r hr hsq j).view.read (Elt F) f = w j⌝
    ∗ (b.view.loc (c : Thread nD τ) ↦[(pc b r hr hsq j).view.set]{q} f)) : sProp 𝕄)).trans ?_
  iintro ⟨%fs, H⟩
  ihave H' := (bigSep_pure_sep Finset.univ _ _) $$ H
  icases H' with ⟨%hw, H⟩
  ihave HJ := (pts_joinG c b r hr hsq hd hc hS q fs j₀) $$ H
  icases HJ with ⟨%g, %hg, H⟩
  iexists g
  isplitr
  · ipureintro; exact fun j => (View.read_congr (hg j)).trans (hw j (Finset.mem_univ _))
  · iexact H

theorem splitG (q : PosShare TreeShare)
    (g : Buf (Elt F) (b.view.loc (c : Thread nD τ))) (w : ι → s'.Idx → Elt F e) (hw : ∀ j, (pc b r hr hsq j).view.read (Elt F) g = w j) :
    (b.view.loc (c : Thread nD τ) ↦[S]{q} g : sProp 𝕄) ⊢ bigSep Finset.univ (fun j => holds (F := F) c (pc b r hr hsq j) q (w j)) := by
  subst hS
  rw [← pc_union b r hr hsq hc, pointsTo_biUnion _ _ fun j _ j' _ h => pc_disjoint b r hr hsq hd j j' h]
  exact bigSep_mono fun j _ => (holds_intro c (pc b r hr hsq j) q g).trans (Entails.of_eq (congrArg (holds (F := F) c (pc b r hr hsq j) q) (hw j)))

theorem cutG :
    iprop(∃ g : Buf (Elt F) (b.view.loc (c : Thread nD τ)), (b.view.loc (c : Thread nD τ) ↦[S]{fullShare} g))
      ⊢ bigSep Finset.univ (fun j => holdsAny (F := F) c (pc b r hr hsq j)) := by
  iintro ⟨%g, H⟩
  iapply ((splitG c b r hr hsq hd hc hS fullShare g _ fun _ => rfl).trans (bigSep_mono fun j _ => holds_any c (pc b r hr hsq j) _)) $$ H

end

section
omit [FloatOps F]

theorem hl_bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_six (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

abbrev r4 (j : Fin 4) : Rect S4x128x128 := Rect.unit ![j.val, 0, 0] S1x128x128.size (inb4 j)

theorem r4_disjoint (j j' : Fin 4) (h : j ≠ j') : Disjoint (r4 j).set (r4 j').set := by
  refine Rect.unit_disjoint (0 : Fin 3) ?_
  have hv : j.val ≠ j'.val := Fin.val_ne_of_ne h
  show j.val + 1 ≤ j'.val ∨ j'.val + 1 ≤ j.val
  omega

theorem r4_cover (x : S4x128x128.Idx) : ∃ j, x ∈ (r4 j).set := by
  refine ⟨x 0, Rect.mem_set_unit.mpr fun a => ?_⟩
  have h1 : (x 1).val < 128 := (x 1).isLt
  have h2 : (x 2).val < 128 := (x 2).isLt
  match a with
  | ⟨0, _⟩ => exact ⟨Nat.le_refl _, Nat.lt_succ_self _⟩
  | ⟨1, _⟩ => exact ⟨Nat.zero_le _, by show (x 1).val < 0 + 128; omega⟩
  | ⟨2, _⟩ => exact ⟨Nat.zero_le _, by show (x 2).val < 0 + 128; omega⟩

-- The six unit rectangles (stage, layer) of a [2, 3, n2, n3] buffer, whatever the trailing extents.
abbrev r6 {n2 n3 : ℕ} (inb : ∀ (s : Fin 2) (k : Fin 3) a, (![s.val, k.val, 0, 0] : Fin 4 → ℕ) a + (![1, 1, n2, n3] : Fin 4 → ℕ) a ≤ (⟨4, ![2, 3, n2, n3]⟩ : Shape).size a)
    (p : Fin 2 × Fin 3) : Rect ⟨4, ![2, 3, n2, n3]⟩ :=
  Rect.unit ![p.1.val, p.2.val, 0, 0] ![1, 1, n2, n3] (inb p.1 p.2)

theorem r6_disjoint {n2 n3 : ℕ} (inb) (p p' : Fin 2 × Fin 3) (h : p ≠ p') : Disjoint (r6 (n2 := n2) (n3 := n3) inb p).set (r6 inb p').set := by
  by_cases h1 : p.1 = p'.1
  · have h2 : p.2.val ≠ p'.2.val := fun e => h (Prod.ext h1 (Fin.ext e))
    refine Rect.unit_disjoint (1 : Fin 4) ?_
    show p.2.val + 1 ≤ p'.2.val ∨ p'.2.val + 1 ≤ p.2.val
    omega
  · have h2 : p.1.val ≠ p'.1.val := fun e => h1 (Fin.ext e)
    refine Rect.unit_disjoint (0 : Fin 4) ?_
    show p.1.val + 1 ≤ p'.1.val ∨ p'.1.val + 1 ≤ p.1.val
    omega

theorem r6_cover {n2 n3 : ℕ} (inb) (x : Shape.Idx ⟨4, ![2, 3, n2, n3]⟩) : ∃ p, x ∈ (r6 (n2 := n2) (n3 := n3) inb p).set := by
  refine ⟨(x 0, x 1), Rect.mem_set_unit.mpr fun a => ?_⟩
  have h2 : (x 2).val < n2 := (x 2).isLt
  have h3 : (x 3).val < n3 := (x 3).isLt
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (x 2).val < 0 + n2; omega⟩
  | ⟨3, _⟩ => exact ⟨Nat.zero_le _, by show (x 3).val < 0 + n3; omega⟩

theorem slot_emb_ix3 (j : Fin 4) (x : Fin 128) (y : Fin 128) :
    (Rect.unit (s := S4x128x128) ![j.val, 0, 0] S1x128x128.size (inb4 j)).emb (ValueIdx.ix3 (⟨0, Nat.one_pos⟩ : Fin 1) x y)
      = (ValueIdx.ix3 j x y : S4x128x128.Idx) := by
  funext a; apply Fin.ext
  rw [Rect.emb_apply]
  match a with
  | ⟨0, _⟩ => show j.val + 1 * 0 = j.val; omega
  | ⟨1, _⟩ => show 0 + 1 * x.val = x.val; omega
  | ⟨2, _⟩ => show 0 + 1 * y.val = y.val; omega

theorem slot_emb_at (i : S4x128x128.Idx) :
    (Rect.unit (s := S4x128x128) ![(i 0).val, 0, 0] S1x128x128.size (inb4 (i 0))).emb
      (Shape.reshapeEquiv squeezes_S1x128x128_S128x128.numel_eq (ValueIdx.ix2 (i 1) (i 2))) = i := by
  have h := ValueIdx.reshapeEquiv_ix2_1ab (a := 128) (b := 128) squeezes_S1x128x128_S128x128.numel_eq (i 1) (i 2)
  rw [h]
  exact (slot_emb_ix3 (i 0) (i 1) (i 2)).trans (ValueIdx.eq_ix3 i).symm

theorem unit_zero_emb {s : Shape} {off : Fin s.rank → Nat} (h : off = fun _ => 0) (inb : ∀ a, off a + s.size a ≤ s.size a)
    (y : (Rect.unit (s := s) off s.size inb).shape.Idx) : (Rect.unit (s := s) off s.size inb).emb y = y := by
  subst h; exact Rect.emb_whole_apply s y

theorem hz3 : (![0, 0, 0] : Fin 3 → Nat) = fun _ => 0 := funext fun a => by fin_cases a <;> rfl

theorem read_whole4 (b : Memref sig .tc .vmem S4x128x128 .bf16) {off : Fin 3 → Nat} (hoff : off = ![0, 0, 0])
    (inb : ∀ a, off a + S4x128x128.size a ≤ S4x128x128.size a) (g : b.view.ty.Contents (Elt F)) :
    b.view.readAt (Elt F) (Rect.unit (s := S4x128x128) off S4x128x128.size inb).toLoadRect g
      = asm4 (fun j => (slotJ b j).view.read (Elt F) g) := by
  subst hoff
  funext i
  show b.view.read (Elt F) g ((Rect.unit (s := S4x128x128) ![0, 0, 0] S4x128x128.size inb).emb i)
    = b.view.read (Elt F) g ((Rect.unit (s := S4x128x128) ![(i 0).val, 0, 0] S1x128x128.size (inb4 (i 0))).emb
        (Shape.reshapeEquiv squeezes_S1x128x128_S128x128.numel_eq (ValueIdx.ix2 (i 1) (i 2))))
  rw [slot_emb_at, unit_zero_emb hz3]

theorem read_slot_write_whole (b : Memref sig .tc .vmem S4x128x128 .bf16) (j : Fin 4) {off : Fin 3 → Nat} (hoff : off = ![0, 0, 0])
    (inb : ∀ a, off a + S4x128x128.size a ≤ S4x128x128.size a) (g : b.view.ty.Contents (Elt F)) (v : S4x128x128.Idx → Elt F .bf16) :
    (slotJ b j).view.read (Elt F) ((b.access (Rect.unit (s := S4x128x128) off S4x128x128.size inb)).write (Elt F) g v Finset.univ) = sl4 v j := by
  subst hoff
  funext x
  have h := View.read_slice_write_emb (v := b.view) (Rect.unit (s := S4x128x128) ![0, 0, 0] S4x128x128.size inb) g v (M := Finset.univ)
    (x := (Rect.unit (s := S4x128x128) ![j.val, 0, 0] S1x128x128.size (inb4 j)).emb (Shape.reshapeEquiv squeezes_S1x128x128_S128x128.numel_eq x)) (Finset.mem_univ _)
  rw [unit_zero_emb hz3] at h
  exact h

theorem cut4 (c : Dev nD) (b : Memref sig .tc .vmem S4x128x128 .bf16) {S : Finset (Idx (b.view.loc (c : Thread nD τ)))} (hS : b.view.set = S) :
    iprop(∃ g : Buf (Elt F) (b.view.loc (c : Thread nD τ)), (b.view.loc (c : Thread nD τ) ↦[S]{fullShare} g))
      ⊢ iprop(holdsAny (F := F) c (slotJ b 0) ∗ holdsAny (F := F) c (slotJ b 1) ∗ holdsAny (F := F) c (slotJ b 2) ∗ holdsAny (F := F) c (slotJ b 3)) :=
  (cutG c b r4 (fun _ _ => rfl) (fun _ => squeezes_S1x128x128_S128x128) r4_disjoint r4_cover hS).trans (Entails.of_eq (hl_bigSep_fin4 _))

theorem uncut4 (c : Dev nD) (b : Memref sig .tc .vmem S4x128x128 .bf16) {S : Finset (Idx (b.view.loc (c : Thread nD τ)))} (hS : b.view.set = S) :
    iprop(holdsAny (F := F) c (slotJ b 0) ∗ holdsAny (F := F) c (slotJ b 1) ∗ holdsAny (F := F) c (slotJ b 2) ∗ holdsAny (F := F) c (slotJ b 3))
      ⊢ iprop(∃ g : Buf (Elt F) (b.view.loc (c : Thread nD τ)), (b.view.loc (c : Thread nD τ) ↦[S]{fullShare} g)) :=
  (Entails.of_eq (hl_bigSep_fin4 fun j => holdsAny (F := F) c (slotJ b j)).symm).trans (uncutG c b r4 (fun _ _ => rfl) (fun _ => squeezes_S1x128x128_S128x128) r4_disjoint r4_cover hS 0)

end

theorem wp_load_whole4 (c : Dev nD) (b : Memref sig .tc .vmem S4x128x128 .bf16) {off : Fin 3 → Nat} (hoff : off = ![0, 0, 0])
    {inb : ∀ a, off a + S4x128x128.size a ≤ S4x128x128.size a}
    {hl : b.view.LoadsAt (Rect.unit (s := S4x128x128) off S4x128x128.size inb).toLoadRect}
    {α : Type} {Q : α → sProp 𝕄} {k : (S4x128x128.Idx → Elt F .bf16) → Prog (TpuEff nD τ sig (Elt F) Λ₀ .tc) α}
    (q : PosShare TreeShare) (w : Fin 4 → S128x128.Idx → Elt F .bf16) :
    iprop(holds c (slotJ b 0) q (w 0) ∗ holds c (slotJ b 1) q (w 1) ∗ holds c (slotJ b 2) q (w 2) ∗ holds c (slotJ b 3) q (w 3))
      ⊢ iprop((iprop(holds c (slotJ b 0) q (w 0) ∗ holds c (slotJ b 1) q (w 1) ∗ holds c (slotJ b 2) q (w 2) ∗ holds c (slotJ b 3) q (w 3))
          -∗ wp frame (wpE (defs₀ (F := F)) 𝒱₀ (c : Thread nD τ) none) Set.univ (k (asm4 w)) Q)
        -∗ wp frame (wpE (defs₀ (F := F)) 𝒱₀ (c : Thread nD τ) none) Set.univ (.op (.load b (Rect.unit (s := S4x128x128) off S4x128x128.size inb).toLoadRect hl) k) Q) := by
  rw [← hl_bigSep_fin4 fun j => holds c (slotJ b j) q (w j)]
  iintro H4 Hk
  ihave HJ := (joinG c b r4 (fun _ _ => rfl) (fun _ => squeezes_S1x128x128_S128x128) r4_disjoint r4_cover rfl 0 q w) $$ H4
  icases HJ with ⟨%g, %hg, H⟩
  iapply (wp_load 𝒱₀ (c : Thread nD τ) none Set.univ (m := b) (r := (Rect.unit (s := S4x128x128) off S4x128x128.size inb).toLoadRect) (hl := hl) (k := k) (q := q) (f := g) (View.setOn_subset_set _ _)) $$ H
  iintro H
  have hv : b.view.readAt (Elt F) (Rect.unit (s := S4x128x128) off S4x128x128.size inb).toLoadRect g = asm4 w := by
    rw [read_whole4 b hoff inb g]; exact congrArg asm4 (funext hg)
  rw [hv]
  iapply Hk
  iapply (splitG c b r4 (fun _ _ => rfl) (fun _ => squeezes_S1x128x128_S128x128) r4_disjoint r4_cover rfl q g w hg) $$ H

theorem wp_load_whole4_any (c : Dev nD) (b : Memref sig .tc .vmem S4x128x128 .bf16) {off : Fin 3 → Nat} (hoff : off = ![0, 0, 0])
    {inb : ∀ a, off a + S4x128x128.size a ≤ S4x128x128.size a}
    {hl : b.view.LoadsAt (Rect.unit (s := S4x128x128) off S4x128x128.size inb).toLoadRect}
    {α : Type} {Q : α → sProp 𝕄} {k : (S4x128x128.Idx → Elt F .bf16) → Prog (TpuEff nD τ sig (Elt F) Λ₀ .tc) α} :
    iprop(holdsAny c (slotJ b 0) ∗ holdsAny c (slotJ b 1) ∗ holdsAny c (slotJ b 2) ∗ holdsAny c (slotJ b 3))
      ⊢ iprop((∀ x, iprop(holdsAny c (slotJ b 0) ∗ holdsAny c (slotJ b 1) ∗ holdsAny c (slotJ b 2) ∗ holdsAny c (slotJ b 3)) -∗ wp frame (wpE (defs₀ (F := F)) 𝒱₀ (c : Thread nD τ) none) Set.univ (k x) Q)
        -∗ wp frame (wpE (defs₀ (F := F)) 𝒱₀ (c : Thread nD τ) none) Set.univ (.op (.load b (Rect.unit (s := S4x128x128) off S4x128x128.size inb).toLoadRect hl) k) Q) := by
  iintro H4 Hk
  ihave HU := (uncut4 c b rfl) $$ H4
  icases HU with ⟨%g, H⟩
  iapply (wp_load 𝒱₀ (c : Thread nD τ) none Set.univ (m := b) (r := (Rect.unit (s := S4x128x128) off S4x128x128.size inb).toLoadRect) (hl := hl) (k := k) (q := fullShare) (f := g) (View.setOn_subset_set _ _)) $$ H
  iintro H
  iapply Hk
  iapply (cut4 c b rfl)
  iexists g
  iexact H

theorem wp_store_whole4 (c : Dev nD) (b : Memref sig .tc .vmem S4x128x128 .bf16) {off : Fin 3 → Nat} (hoff : off = ![0, 0, 0])
    {inb : ∀ a, off a + S4x128x128.size a ≤ S4x128x128.size a} {v : S4x128x128.Idx → Elt F .bf16}
    {hx : (b.access (Rect.unit (s := S4x128x128) off S4x128x128.size inb)).Stores Finset.univ}
    {hm : (Finset.univ : Finset (Rect.unit (s := S4x128x128) off S4x128x128.size inb).shape.Idx) = Finset.univ ∨ ∀ a, (Rect.unit (s := S4x128x128) off S4x128x128.size inb).stride a = 1}
    {α : Type} {Q : α → sProp 𝕄} {k : PUnit → Prog (TpuEff nD τ sig (Elt F) Λ₀ .tc) α} :
    iprop(holdsAny c (slotJ b 0) ∗ holdsAny c (slotJ b 1) ∗ holdsAny c (slotJ b 2) ∗ holdsAny c (slotJ b 3))
      ⊢ iprop((iprop(holds c (slotJ b 0) fullShare (sl4 v 0) ∗ holds c (slotJ b 1) fullShare (sl4 v 1) ∗ holds c (slotJ b 2) fullShare (sl4 v 2) ∗ holds c (slotJ b 3) fullShare (sl4 v 3))
          -∗ wp frame (wpE (defs₀ (F := F)) 𝒱₀ (c : Thread nD τ) none) Set.univ (k ⟨⟩) Q)
        -∗ wp frame (wpE (defs₀ (F := F)) 𝒱₀ (c : Thread nD τ) none) Set.univ (.op (.store b (Rect.unit (s := S4x128x128) off S4x128x128.size inb) v Finset.univ hx hm) k) Q) := by
  rw [← hl_bigSep_fin4 fun j => holds c (slotJ b j) fullShare (sl4 v j)]
  iintro H4 Hk
  ihave HU := (uncut4 c b rfl) $$ H4
  icases HU with ⟨%g, H⟩
  iapply (wp_store 𝒱₀ (c : Thread nD τ) none Set.univ (m := b) (r := Rect.unit (s := S4x128x128) off S4x128x128.size inb) (w := v) (Mk := Finset.univ) (hx := hx) (hm := hm) (k := k) (f := g) (View.set_slice_subset _ _)) $$ H
  iintro H
  iapply Hk
  iapply (splitG c b r4 (fun _ _ => rfl) (fun _ => squeezes_S1x128x128_S128x128) r4_disjoint r4_cover rfl fullShare _ (sl4 v) fun j => read_slot_write_whole b j hoff inb g v) $$ H

section
omit [FloatOps F]

theorem cut4_scratch2 (c : Dev nD) :
    iprop(∃ f : Buf (Elt F) ((c : Thread nD τ).loc cc0_scratch2), (((c : Thread nD τ).loc cc0_scratch2) ↦{fullShare} f))
      ⊢ iprop(holdsAny (F := F) c (slotJ (Memref.whole cc0_scratch2 : Memref sig .tc .vmem S4x128x128 .bf16) 0) ∗ holdsAny (F := F) c (slotJ (Memref.whole cc0_scratch2 : Memref sig .tc .vmem S4x128x128 .bf16) 1) ∗ holdsAny (F := F) c (slotJ (Memref.whole cc0_scratch2 : Memref sig .tc .vmem S4x128x128 .bf16) 2) ∗ holdsAny (F := F) c (slotJ (Memref.whole cc0_scratch2 : Memref sig .tc .vmem S4x128x128 .bf16) 3)) :=
  cut4 c (Memref.whole cc0_scratch2) (View.set_whole _)

theorem uncut4_scratch2 (c : Dev nD) :
    iprop(holdsAny (F := F) c (slotJ (Memref.whole cc0_scratch2 : Memref sig .tc .vmem S4x128x128 .bf16) 0) ∗ holdsAny (F := F) c (slotJ (Memref.whole cc0_scratch2 : Memref sig .tc .vmem S4x128x128 .bf16) 1) ∗ holdsAny (F := F) c (slotJ (Memref.whole cc0_scratch2 : Memref sig .tc .vmem S4x128x128 .bf16) 2) ∗ holdsAny (F := F) c (slotJ (Memref.whole cc0_scratch2 : Memref sig .tc .vmem S4x128x128 .bf16) 3))
      ⊢ iprop(∃ f : Buf (Elt F) ((c : Thread nD τ).loc cc0_scratch2), (((c : Thread nD τ).loc cc0_scratch2) ↦{fullShare} f)) :=
  uncut4 c (Memref.whole cc0_scratch2) (View.set_whole _)

theorem cut4_scratch3 (c : Dev nD) :
    iprop(∃ f : Buf (Elt F) ((c : Thread nD τ).loc cc0_scratch3), (((c : Thread nD τ).loc cc0_scratch3) ↦{fullShare} f))
      ⊢ iprop(holdsAny (F := F) c (slotJ (Memref.whole cc0_scratch3 : Memref sig .tc .vmem S4x128x128 .bf16) 0) ∗ holdsAny (F := F) c (slotJ (Memref.whole cc0_scratch3 : Memref sig .tc .vmem S4x128x128 .bf16) 1) ∗ holdsAny (F := F) c (slotJ (Memref.whole cc0_scratch3 : Memref sig .tc .vmem S4x128x128 .bf16) 2) ∗ holdsAny (F := F) c (slotJ (Memref.whole cc0_scratch3 : Memref sig .tc .vmem S4x128x128 .bf16) 3)) :=
  cut4 c (Memref.whole cc0_scratch3) (View.set_whole _)

theorem uncut4_scratch3 (c : Dev nD) :
    iprop(holdsAny (F := F) c (slotJ (Memref.whole cc0_scratch3 : Memref sig .tc .vmem S4x128x128 .bf16) 0) ∗ holdsAny (F := F) c (slotJ (Memref.whole cc0_scratch3 : Memref sig .tc .vmem S4x128x128 .bf16) 1) ∗ holdsAny (F := F) c (slotJ (Memref.whole cc0_scratch3 : Memref sig .tc .vmem S4x128x128 .bf16) 2) ∗ holdsAny (F := F) c (slotJ (Memref.whole cc0_scratch3 : Memref sig .tc .vmem S4x128x128 .bf16) 3))
      ⊢ iprop(∃ f : Buf (Elt F) ((c : Thread nD τ).loc cc0_scratch3), (((c : Thread nD τ).loc cc0_scratch3) ↦{fullShare} f)) :=
  uncut4 c (Memref.whole cc0_scratch3) (View.set_whole _)

theorem cut4_scratch4 (c : Dev nD) :
    iprop(∃ f : Buf (Elt F) ((c : Thread nD τ).loc cc0_scratch4), (((c : Thread nD τ).loc cc0_scratch4) ↦{fullShare} f))
      ⊢ iprop(holdsAny (F := F) c (slotJ (Memref.whole cc0_scratch4 : Memref sig .tc .vmem S4x128x128 .bf16) 0) ∗ holdsAny (F := F) c (slotJ (Memref.whole cc0_scratch4 : Memref sig .tc .vmem S4x128x128 .bf16) 1) ∗ holdsAny (F := F) c (slotJ (Memref.whole cc0_scratch4 : Memref sig .tc .vmem S4x128x128 .bf16) 2) ∗ holdsAny (F := F) c (slotJ (Memref.whole cc0_scratch4 : Memref sig .tc .vmem S4x128x128 .bf16) 3)) :=
  cut4 c (Memref.whole cc0_scratch4) (View.set_whole _)

theorem uncut4_scratch4 (c : Dev nD) :
    iprop(holdsAny (F := F) c (slotJ (Memref.whole cc0_scratch4 : Memref sig .tc .vmem S4x128x128 .bf16) 0) ∗ holdsAny (F := F) c (slotJ (Memref.whole cc0_scratch4 : Memref sig .tc .vmem S4x128x128 .bf16) 1) ∗ holdsAny (F := F) c (slotJ (Memref.whole cc0_scratch4 : Memref sig .tc .vmem S4x128x128 .bf16) 2) ∗ holdsAny (F := F) c (slotJ (Memref.whole cc0_scratch4 : Memref sig .tc .vmem S4x128x128 .bf16) 3))
      ⊢ iprop(∃ f : Buf (Elt F) ((c : Thread nD τ).loc cc0_scratch4), (((c : Thread nD τ).loc cc0_scratch4) ↦{fullShare} f)) :=
  uncut4 c (Memref.whole cc0_scratch4) (View.set_whole _)

theorem cut4_scratch5 (c : Dev nD) :
    iprop(∃ f : Buf (Elt F) ((c : Thread nD τ).loc cc0_scratch5), (((c : Thread nD τ).loc cc0_scratch5) ↦{fullShare} f))
      ⊢ iprop(holdsAny (F := F) c (slotJ (Memref.whole cc0_scratch5 : Memref sig .tc .vmem S4x128x128 .bf16) 0) ∗ holdsAny (F := F) c (slotJ (Memref.whole cc0_scratch5 : Memref sig .tc .vmem S4x128x128 .bf16) 1) ∗ holdsAny (F := F) c (slotJ (Memref.whole cc0_scratch5 : Memref sig .tc .vmem S4x128x128 .bf16) 2) ∗ holdsAny (F := F) c (slotJ (Memref.whole cc0_scratch5 : Memref sig .tc .vmem S4x128x128 .bf16) 3)) :=
  cut4 c (Memref.whole cc0_scratch5) (View.set_whole _)

theorem uncut4_scratch5 (c : Dev nD) :
    iprop(holdsAny (F := F) c (slotJ (Memref.whole cc0_scratch5 : Memref sig .tc .vmem S4x128x128 .bf16) 0) ∗ holdsAny (F := F) c (slotJ (Memref.whole cc0_scratch5 : Memref sig .tc .vmem S4x128x128 .bf16) 1) ∗ holdsAny (F := F) c (slotJ (Memref.whole cc0_scratch5 : Memref sig .tc .vmem S4x128x128 .bf16) 2) ∗ holdsAny (F := F) c (slotJ (Memref.whole cc0_scratch5 : Memref sig .tc .vmem S4x128x128 .bf16) 3))
      ⊢ iprop(∃ f : Buf (Elt F) ((c : Thread nD τ).loc cc0_scratch5), (((c : Thread nD τ).loc cc0_scratch5) ↦{fullShare} f)) :=
  uncut4 c (Memref.whole cc0_scratch5) (View.set_whole _)

theorem cut4_scratch6 (c : Dev nD) :
    iprop(∃ f : Buf (Elt F) ((c : Thread nD τ).loc cc0_scratch6), (((c : Thread nD τ).loc cc0_scratch6) ↦{fullShare} f))
      ⊢ iprop(holdsAny (F := F) c (slotJ (Memref.whole cc0_scratch6 : Memref sig .tc .vmem S4x128x128 .bf16) 0) ∗ holdsAny (F := F) c (slotJ (Memref.whole cc0_scratch6 : Memref sig .tc .vmem S4x128x128 .bf16) 1) ∗ holdsAny (F := F) c (slotJ (Memref.whole cc0_scratch6 : Memref sig .tc .vmem S4x128x128 .bf16) 2) ∗ holdsAny (F := F) c (slotJ (Memref.whole cc0_scratch6 : Memref sig .tc .vmem S4x128x128 .bf16) 3)) :=
  cut4 c (Memref.whole cc0_scratch6) (View.set_whole _)

theorem uncut4_scratch6 (c : Dev nD) :
    iprop(holdsAny (F := F) c (slotJ (Memref.whole cc0_scratch6 : Memref sig .tc .vmem S4x128x128 .bf16) 0) ∗ holdsAny (F := F) c (slotJ (Memref.whole cc0_scratch6 : Memref sig .tc .vmem S4x128x128 .bf16) 1) ∗ holdsAny (F := F) c (slotJ (Memref.whole cc0_scratch6 : Memref sig .tc .vmem S4x128x128 .bf16) 2) ∗ holdsAny (F := F) c (slotJ (Memref.whole cc0_scratch6 : Memref sig .tc .vmem S4x128x128 .bf16) 3))
      ⊢ iprop(∃ f : Buf (Elt F) ((c : Thread nD τ).loc cc0_scratch6), (((c : Thread nD τ).loc cc0_scratch6) ↦{fullShare} f)) :=
  uncut4 c (Memref.whole cc0_scratch6) (View.set_whole _)

theorem cut4_scratch7 (c : Dev nD) :
    iprop(∃ f : Buf (Elt F) ((c : Thread nD τ).loc cc0_scratch7), (((c : Thread nD τ).loc cc0_scratch7) ↦{fullShare} f))
      ⊢ iprop(holdsAny (F := F) c (slotJ (Memref.whole cc0_scratch7 : Memref sig .tc .vmem S4x128x128 .bf16) 0) ∗ holdsAny (F := F) c (slotJ (Memref.whole cc0_scratch7 : Memref sig .tc .vmem S4x128x128 .bf16) 1) ∗ holdsAny (F := F) c (slotJ (Memref.whole cc0_scratch7 : Memref sig .tc .vmem S4x128x128 .bf16) 2) ∗ holdsAny (F := F) c (slotJ (Memref.whole cc0_scratch7 : Memref sig .tc .vmem S4x128x128 .bf16) 3)) :=
  cut4 c (Memref.whole cc0_scratch7) (View.set_whole _)

theorem uncut4_scratch7 (c : Dev nD) :
    iprop(holdsAny (F := F) c (slotJ (Memref.whole cc0_scratch7 : Memref sig .tc .vmem S4x128x128 .bf16) 0) ∗ holdsAny (F := F) c (slotJ (Memref.whole cc0_scratch7 : Memref sig .tc .vmem S4x128x128 .bf16) 1) ∗ holdsAny (F := F) c (slotJ (Memref.whole cc0_scratch7 : Memref sig .tc .vmem S4x128x128 .bf16) 2) ∗ holdsAny (F := F) c (slotJ (Memref.whole cc0_scratch7 : Memref sig .tc .vmem S4x128x128 .bf16) 3))
      ⊢ iprop(∃ f : Buf (Elt F) ((c : Thread nD τ).loc cc0_scratch7), (((c : Thread nD τ).loc cc0_scratch7) ↦{fullShare} f)) :=
  uncut4 c (Memref.whole cc0_scratch7) (View.set_whole _)

theorem cut4_scratch8 (c : Dev nD) :
    iprop(∃ f : Buf (Elt F) ((c : Thread nD τ).loc cc0_scratch8), (((c : Thread nD τ).loc cc0_scratch8) ↦{fullShare} f))
      ⊢ iprop(holdsAny (F := F) c (slotJ (Memref.whole cc0_scratch8 : Memref sig .tc .vmem S4x128x128 .bf16) 0) ∗ holdsAny (F := F) c (slotJ (Memref.whole cc0_scratch8 : Memref sig .tc .vmem S4x128x128 .bf16) 1) ∗ holdsAny (F := F) c (slotJ (Memref.whole cc0_scratch8 : Memref sig .tc .vmem S4x128x128 .bf16) 2) ∗ holdsAny (F := F) c (slotJ (Memref.whole cc0_scratch8 : Memref sig .tc .vmem S4x128x128 .bf16) 3)) :=
  cut4 c (Memref.whole cc0_scratch8) (View.set_whole _)

theorem uncut4_scratch8 (c : Dev nD) :
    iprop(holdsAny (F := F) c (slotJ (Memref.whole cc0_scratch8 : Memref sig .tc .vmem S4x128x128 .bf16) 0) ∗ holdsAny (F := F) c (slotJ (Memref.whole cc0_scratch8 : Memref sig .tc .vmem S4x128x128 .bf16) 1) ∗ holdsAny (F := F) c (slotJ (Memref.whole cc0_scratch8 : Memref sig .tc .vmem S4x128x128 .bf16) 2) ∗ holdsAny (F := F) c (slotJ (Memref.whole cc0_scratch8 : Memref sig .tc .vmem S4x128x128 .bf16) 3))
      ⊢ iprop(∃ f : Buf (Elt F) ((c : Thread nD τ).loc cc0_scratch8), (((c : Thread nD τ).loc cc0_scratch8) ↦{fullShare} f)) :=
  uncut4 c (Memref.whole cc0_scratch8) (View.set_whole _)

theorem cut4_scratch9 (c : Dev nD) :
    iprop(∃ f : Buf (Elt F) ((c : Thread nD τ).loc cc0_scratch9), (((c : Thread nD τ).loc cc0_scratch9) ↦{fullShare} f))
      ⊢ iprop(holdsAny (F := F) c (slotJ (Memref.whole cc0_scratch9 : Memref sig .tc .vmem S4x128x128 .bf16) 0) ∗ holdsAny (F := F) c (slotJ (Memref.whole cc0_scratch9 : Memref sig .tc .vmem S4x128x128 .bf16) 1) ∗ holdsAny (F := F) c (slotJ (Memref.whole cc0_scratch9 : Memref sig .tc .vmem S4x128x128 .bf16) 2) ∗ holdsAny (F := F) c (slotJ (Memref.whole cc0_scratch9 : Memref sig .tc .vmem S4x128x128 .bf16) 3)) :=
  cut4 c (Memref.whole cc0_scratch9) (View.set_whole _)

theorem uncut4_scratch9 (c : Dev nD) :
    iprop(holdsAny (F := F) c (slotJ (Memref.whole cc0_scratch9 : Memref sig .tc .vmem S4x128x128 .bf16) 0) ∗ holdsAny (F := F) c (slotJ (Memref.whole cc0_scratch9 : Memref sig .tc .vmem S4x128x128 .bf16) 1) ∗ holdsAny (F := F) c (slotJ (Memref.whole cc0_scratch9 : Memref sig .tc .vmem S4x128x128 .bf16) 2) ∗ holdsAny (F := F) c (slotJ (Memref.whole cc0_scratch9 : Memref sig .tc .vmem S4x128x128 .bf16) 3))
      ⊢ iprop(∃ f : Buf (Elt F) ((c : Thread nD τ).loc cc0_scratch9), (((c : Thread nD τ).loc cc0_scratch9) ↦{fullShare} f)) :=
  uncut4 c (Memref.whole cc0_scratch9) (View.set_whole _)

theorem cut4_scratch10 (c : Dev nD) :
    iprop(∃ f : Buf (Elt F) ((c : Thread nD τ).loc cc0_scratch10), (((c : Thread nD τ).loc cc0_scratch10) ↦{fullShare} f))
      ⊢ iprop(holdsAny (F := F) c (slotJ (Memref.whole cc0_scratch10 : Memref sig .tc .vmem S4x128x128 .bf16) 0) ∗ holdsAny (F := F) c (slotJ (Memref.whole cc0_scratch10 : Memref sig .tc .vmem S4x128x128 .bf16) 1) ∗ holdsAny (F := F) c (slotJ (Memref.whole cc0_scratch10 : Memref sig .tc .vmem S4x128x128 .bf16) 2) ∗ holdsAny (F := F) c (slotJ (Memref.whole cc0_scratch10 : Memref sig .tc .vmem S4x128x128 .bf16) 3)) :=
  cut4 c (Memref.whole cc0_scratch10) (View.set_whole _)

theorem uncut4_scratch10 (c : Dev nD) :
    iprop(holdsAny (F := F) c (slotJ (Memref.whole cc0_scratch10 : Memref sig .tc .vmem S4x128x128 .bf16) 0) ∗ holdsAny (F := F) c (slotJ (Memref.whole cc0_scratch10 : Memref sig .tc .vmem S4x128x128 .bf16) 1) ∗ holdsAny (F := F) c (slotJ (Memref.whole cc0_scratch10 : Memref sig .tc .vmem S4x128x128 .bf16) 2) ∗ holdsAny (F := F) c (slotJ (Memref.whole cc0_scratch10 : Memref sig .tc .vmem S4x128x128 .bf16) 3))
      ⊢ iprop(∃ f : Buf (Elt F) ((c : Thread nD τ).loc cc0_scratch10), (((c : Thread nD τ).loc cc0_scratch10) ↦{fullShare} f)) :=
  uncut4 c (Memref.whole cc0_scratch10) (View.set_whole _)

theorem cutW (c : Dev nD) :
    iprop(∃ f : Buf (Elt F) ((c : Thread nD τ).loc cc0_scratch0), (((c : Thread nD τ).loc cc0_scratch0) ↦{fullShare} f))
      ⊢ iprop(holdsAny (F := F) c (winsJ 0 0) ∗ holdsAny (F := F) c (winsJ 0 1) ∗ holdsAny (F := F) c (winsJ 0 2) ∗ holdsAny (F := F) c (winsJ 1 0) ∗ holdsAny (F := F) c (winsJ 1 1) ∗ holdsAny (F := F) c (winsJ 1 2)) :=
  (cutG c winsM (r6 inbW) (fun _ _ => rfl) (fun _ => squeezes_S1x1x128x256_S128x256) (r6_disjoint _) (r6_cover _) (View.set_whole _)).trans (Entails.of_eq (bigSep_six _))

theorem uncutW (c : Dev nD) :
    iprop(holdsAny (F := F) c (winsJ 0 0) ∗ holdsAny (F := F) c (winsJ 0 1) ∗ holdsAny (F := F) c (winsJ 0 2) ∗ holdsAny (F := F) c (winsJ 1 0) ∗ holdsAny (F := F) c (winsJ 1 1) ∗ holdsAny (F := F) c (winsJ 1 2))
      ⊢ iprop(∃ f : Buf (Elt F) ((c : Thread nD τ).loc cc0_scratch0), (((c : Thread nD τ).loc cc0_scratch0) ↦{fullShare} f)) :=
  (Entails.of_eq (bigSep_six fun p => holdsAny (F := F) c (winsJ p.1 p.2)).symm).trans
    (uncutG c winsM (r6 inbW) (fun _ _ => rfl) (fun _ => squeezes_S1x1x128x256_S128x256) (r6_disjoint _) (r6_cover _) (View.set_whole _) (0, 0))

theorem cutO (c : Dev nD) :
    iprop(∃ f : Buf (Elt F) ((c : Thread nD τ).loc cc0_scratch1), (((c : Thread nD τ).loc cc0_scratch1) ↦{fullShare} f))
      ⊢ iprop(holdsAny (F := F) c (woutsJ 0 0) ∗ holdsAny (F := F) c (woutsJ 0 1) ∗ holdsAny (F := F) c (woutsJ 0 2) ∗ holdsAny (F := F) c (woutsJ 1 0) ∗ holdsAny (F := F) c (woutsJ 1 1) ∗ holdsAny (F := F) c (woutsJ 1 2)) :=
  (cutG c woutsM (r6 inbO) (fun _ _ => rfl) (fun _ => squeezes_S1x1x256x128_S256x128) (r6_disjoint _) (r6_cover _) (View.set_whole _)).trans (Entails.of_eq (bigSep_six _))

theorem uncutO (c : Dev nD) :
    iprop(holdsAny (F := F) c (woutsJ 0 0) ∗ holdsAny (F := F) c (woutsJ 0 1) ∗ holdsAny (F := F) c (woutsJ 0 2) ∗ holdsAny (F := F) c (woutsJ 1 0) ∗ holdsAny (F := F) c (woutsJ 1 1) ∗ holdsAny (F := F) c (woutsJ 1 2))
      ⊢ iprop(∃ f : Buf (Elt F) ((c : Thread nD τ).loc cc0_scratch1), (((c : Thread nD τ).loc cc0_scratch1) ↦{fullShare} f)) :=
  (Entails.of_eq (bigSep_six fun p => holdsAny (F := F) c (woutsJ p.1 p.2)).symm).trans
    (uncutG c woutsM (r6 inbO) (fun _ _ => rfl) (fun _ => squeezes_S1x1x256x128_S256x128) (r6_disjoint _) (r6_cover _) (View.set_whole _) (0, 0))

end

end Cert.KernelIdeal.P

end
-- ==== Proof.LaunchGhost.lean ====
import proofs.«900976_g7700000000000977_dist_mlpseq_tp1d_bs_bs_b128_d128_h256_v7x_i8_bf16_1_alg».proof.Proof.Inv
import proofs.«900976_g7700000000000977_dist_mlpseq_tp1d_bs_bs_b128_d128_h256_v7x_i8_bf16_1_alg».proof.Proof.SchedTables
import Idealize.ShloMosaic.Lib.Pipeline.Launch
import Idealize.ShloMosaic.Lib.Pipeline.Kit
import Idealize.ShloMosaic.Lib.Tactic

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem kcell_injective : Function.Injective (kcell : Dev nD × Fin 26 → GSem nD τ sig) := by
  rintro ⟨c, k⟩ ⟨c', k'⟩ h
  have h1 : c = c' := by have := congrArg (fun g : GSem nD τ sig => g.1.1) h; exact this
  subst h1
  have h2 : cellK k = cellK k' := congrArg Prod.snd h
  have : k = k' := cellK_injective h2
  subst this; rfl

def protoCells : Finset (GSem nD τ sig) := Finset.univ.map ⟨kcell, kcell_injective⟩

abbrev TI : Type := Fin 4 ⊕ Fin 4 ⊕ Fin 6 ⊕ Fin 6 ⊕ (Fin 6 × Fin 3) ⊕ (Fin 6 × Fin 3)

def tokSem : TI → SemLoc sig × Fin 4
  | .inl d => (.reg barS, d)
  | .inr (.inl d) => (.reg extS, d)
  | .inr (.inr (.inl j)) => (.dma (wsS j), 0)
  | .inr (.inr (.inr (.inl j))) => (.dma (wrS j), 0)
  | .inr (.inr (.inr (.inr (.inl jk)))) => (.dma (asS jk.1), jk.2.succ)
  | .inr (.inr (.inr (.inr (.inr jk)))) => (.dma (arS jk.1), jk.2.succ)

theorem tokSem_injective : Function.Injective tokSem := by decide

abbrev tokOf (ct : Dev nD × TI) : GSem nD τ sig × ℕ × Fin 4 := (((ct.1 : Thread nD τ), (tokSem ct.2).1), 0, (tokSem ct.2).2)

theorem tokOf_injective : Function.Injective (tokOf : Dev nD × TI → GSem nD τ sig × ℕ × Fin 4) := by
  rintro ⟨c, t⟩ ⟨c', t'⟩ h
  have h1 : c = c' := congrArg (fun x : GSem nD τ sig × ℕ × Fin 4 => x.1.1.1) h
  subst h1
  have h2 : tokSem t = tokSem t' :=
    Prod.ext (congrArg (fun x : GSem nD τ sig × ℕ × Fin 4 => x.1.2) h) (congrArg (fun x : GSem nD τ sig × ℕ × Fin 4 => x.2.2) h)
  rw [tokSem_injective h2]

def protoToks : Finset (GSem nD τ sig × ℕ × Fin 4) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun d : Fin 4 => dutyTok ER (barC c) 0 d)
    ∗ (bigSep Finset.univ fun d : Fin 4 => dutyTok ER (extC c) 0 d)
    ∗ (bigSep Finset.univ fun j : Fin 6 => dutyTok ER (wsC c j) 0 0)
    ∗ (bigSep Finset.univ fun j : Fin 6 => dutyTok ER (wrC c j) 0 0)
    ∗ (bigSep Finset.univ fun j : Fin 6 => iprop(dutyTok ER (asC c j) 0 1 ∗ dutyTok ER (asC c j) 0 2 ∗ dutyTok ER (asC c j) 0 3))
    ∗ (bigSep Finset.univ fun j : Fin 6 => iprop(dutyTok ER (arC c j) 0 1 ∗ dutyTok ER (arC c j) 0 2 ∗ dutyTok ER (arC c j) 0 3)))

def G (c : Dev nD) : sProp 𝕄 :=
  iprop((bigSep Finset.univ fun k : Fin 26 => roundState ER (Rd m) (kcell (c, k)) 0)
    ∗ (bigSep Finset.univ fun k : Fin 26 => iprop(atPos ER (kcell (c, k)) 0 ∅ 0 ∗ reached ER (kcell (c, k)) 0)) ∗ toks c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 26 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks
      rw [bigSep_univ_sum, bigSep_univ_sum, bigSep_univ_sum, bigSep_univ_sum, bigSep_univ_sum, bigSep_univ_prod, bigSep_univ_prod]
      simp only [bigSep_fin3]
      rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']; iframe

theorem hu₀ : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave ⟨HP, HX⟩ := (ownU_pair _ _) $$ Hu
  imod (fund_proto m) $$ HX with HG
  imodintro; iframe

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 25 => semVal ((c : Thread nD τ), osem i) 0 := rfl

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem bigSep_fin_succ (n : ℕ) (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 26 => semVal (kcell (c, k)) 0 : sProp 𝕄) := by
  rw [ownSems0_eq, unscopedSems0_eq, bigSep_fin_succ 25]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 26 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]; · iframe
  imod (show iprop((bigSep Finset.univ fun k : Fin 26 => semVal (kcell (c, k)) 0) ∗ bigSep Finset.univ fun k : Fin 26 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv; · iframe
  imodintro; iframe

theorem ghost_intro (K : Dev nD × Fin 26 → ℕ) (c : Dev nD) : iprop(records m K ∗ positions c ∗ payToks c) ⊢ G' m c := by
  unfold G' ghost
  iintro H; iexists K; iexact H

def ppEquiv (i : Fin 4) : Dev nD ≃ Dev nD where
  toFun c := pp c i
  invFun c := pp c (inv i)
  left_inv c := pp_pp_inv c i
  right_inv c := by have h := pp_pp_inv c (inv i); rwa [inv_inv] at h

def dealEquiv : Dev nD × Fin 4 ≃ Dev nD × Fin 4 where
  toFun x := (pp x.1 x.2, inv x.2)
  invFun x := (pp x.1 x.2, inv x.2)
  left_inv x := Prod.ext (pp_pp_inv x.1 x.2) (inv_inv x.2)
  right_inv x := Prod.ext (pp_pp_inv x.1 x.2) (inv_inv x.2)

omit [FloatOps F] in
theorem deal4 (Φ : Dev nD → Fin 4 → sProp 𝕄) :
    (bigSep Finset.univ fun c => bigSep Finset.univ fun d => Φ c d) = bigSep Finset.univ fun c => bigSep Finset.univ fun i => Φ (pp c i) (inv i) :=
  (bigSep_univ_prod (fun x : Dev nD × Fin 4 => Φ x.1 x.2)).symm.trans
    ((bigSep_univ_equiv dealEquiv _).trans (bigSep_univ_prod _))

omit [FloatOps F] in
theorem deal1 (i : Fin 4) (Φ : Dev nD → sProp 𝕄) : bigSep Finset.univ Φ = bigSep Finset.univ fun c => Φ (pp c i) :=
  bigSep_univ_equiv (ppEquiv i) Φ

omit [FloatOps F] in
theorem toks_around : (bigSep Finset.univ fun c : Dev nD => (toks c : sProp 𝕄)) ⊢ bigSep Finset.univ fun c : Dev nD => payToks c := by
  unfold toks payToks
  simp only [bigSep_sep']
  rw [deal4 (fun c d => (dutyTok ER (barC c) 0 d : sProp 𝕄)), deal4 (fun c d => (dutyTok ER (extC c) 0 d : sProp 𝕄)),
    deal1 0 (fun c => bigSep Finset.univ fun j : Fin 6 => (dutyTok ER (wrC c j) 0 0 : sProp 𝕄)),
    deal1 3 (fun c => bigSep Finset.univ fun j : Fin 6 => (dutyTok ER (arC c j) 0 1 : sProp 𝕄)),
    deal1 2 (fun c => bigSep Finset.univ fun j : Fin 6 => (dutyTok ER (arC c j) 0 2 : sProp 𝕄)),
    deal1 1 (fun c => bigSep Finset.univ fun j : Fin 6 => (dutyTok ER (arC c j) 0 3 : sProp 𝕄))]
  iintro ⟨H1, H2, H3, H4, ⟨Hs1, Hs2, Hs3⟩, Ha1, Ha2, Ha3⟩
  iframe H1 H2 H3 H4 Hs1 Hs2 Hs3
  isplitl [Ha3]; · iexact Ha3
  isplitl [Ha2]; · iexact Ha2
  iexact Ha1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 26 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 26 => iprop(∃ κ : ℕ, cellInv ER (Rd m) κ (kcell ck))),
    bigSep_congr (s := Finset.univ) (fun (c : Dev nD) _ => bigSep_sep' Finset.univ (fun k : Fin 26 => (atPos ER (kcell (c, k)) 0 ∅ 0 : sProp 𝕄)) (fun k => reached ER (kcell (c, k)) 0)),
    bigSep_sep', ← bigSep_univ_prod (fun ck : Dev nD × Fin 26 => (reached ER (kcell ck) 0 : sProp 𝕄))]
  iintro ⟨HI, ⟨Hat, #HR⟩, Htok⟩
  ihave HK := (BI.bigSep_exists_pi Finset.univ (fun (ck : Dev nD × Fin 26) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl <;> iassumption
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.P

end
-- ==== Proof.Reindex.lean ====
import proofs.«900976_g7700000000000977_dist_mlpseq_tp1d_bs_bs_b128_d128_h256_v7x_i8_bf16_1_alg».proof.Proof.BodyDefs

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem X_bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem X_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem X_plane_rotation (c : Dev nD) :
    (qd c = 0 ∧ qd (pp c 1) = 1 ∧ qd (pp c 2) = 2 ∧ qd (pp c 3) = 3) ∨ (qd c = 1 ∧ qd (pp c 1) = 2 ∧ qd (pp c 2) = 3 ∧ qd (pp c 3) = 0)
      ∨ (qd c = 2 ∧ qd (pp c 1) = 3 ∧ qd (pp c 2) = 0 ∧ qd (pp c 3) = 1) ∨ (qd c = 3 ∧ qd (pp c 1) = 0 ∧ qd (pp c 2) = 1 ∧ qd (pp c 3) = 2) := by
  revert c; decide

omit [FloatOps F] in
theorem X_reindex4 (c : Dev nD) (Φ : Fin 4 → sProp 𝕄) :
    iprop(Φ (qd c) ∗ Φ (qd (pp c 1)) ∗ Φ (qd (pp c 2)) ∗ Φ (qd (pp c 3))) ⊣⊢ iprop(Φ 0 ∗ Φ 1 ∗ Φ 2 ∗ Φ 3) := by
  rcases X_plane_rotation c with ⟨h0, h1, h2, h3⟩ | ⟨h0, h1, h2, h3⟩ | ⟨h0, h1, h2, h3⟩ | ⟨h0, h1, h2, h3⟩ <;>
    (simp only [h0, h1, h2, h3]; exact ⟨by iintro ⟨A, B, C, D⟩; iframe, by iintro ⟨A, B, C, D⟩; iframe⟩)

end Cert.KernelIdeal.P

end
-- ==== Proof.BodyGlue.lean ====
import proofs.«900976_g7700000000000977_dist_mlpseq_tp1d_bs_bs_b128_d128_h256_v7x_i8_bf16_1_alg».proof.Proof.GlueSpecs
import proofs.«900976_g7700000000000977_dist_mlpseq_tp1d_bs_bs_b128_d128_h256_v7x_i8_bf16_1_alg».proof.Proof.HoldsLemmas
import proofs.«900976_g7700000000000977_dist_mlpseq_tp1d_bs_bs_b128_d128_h256_v7x_i8_bf16_1_alg».proof.Proof.LaunchGhost
import proofs.«900976_g7700000000000977_dist_mlpseq_tp1d_bs_bs_b128_d128_h256_v7x_i8_bf16_1_alg».proof.Proof.Reindex
import Idealize.ShloMosaic.Lib.Pipeline.FrameBody

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev wholeAny (c : Dev nD) (r : Ref sig .tc) : sProp 𝕄 :=
  iprop(∃ f : Buf (Elt F) ((c : Thread nD τ).loc r), ((c : Thread nD τ).loc r) ↦{fullShare} f)

abbrev piecesW (c : Dev nD) : sProp 𝕄 :=
  iprop(holdsAny c (winsJ 0 0) ∗ holdsAny c (winsJ 0 1) ∗ holdsAny c (winsJ 0 2) ∗ holdsAny c (winsJ 1 0) ∗ holdsAny c (winsJ 1 1) ∗ holdsAny c (winsJ 1 2))
abbrev piecesO (c : Dev nD) : sProp 𝕄 :=
  iprop(holdsAny c (woutsJ 0 0) ∗ holdsAny c (woutsJ 0 1) ∗ holdsAny c (woutsJ 0 2) ∗ holdsAny c (woutsJ 1 0) ∗ holdsAny c (woutsJ 1 1) ∗ holdsAny c (woutsJ 1 2))

def Cuts (c : Dev nD) : Prop :=
  (wholeAny (F := F) c cc0_scratch0 ⊢ piecesW c) ∧ (wholeAny (F := F) c cc0_scratch1 ⊢ piecesO c)
  ∧ (wholeAny (F := F) c cc0_scratch2 ⊢ any4 c xgM) ∧ (wholeAny (F := F) c cc0_scratch3 ⊢ any4 c (prtlM 0)) ∧ (wholeAny (F := F) c cc0_scratch4 ⊢ any4 c (prtlM 1)) ∧ (wholeAny (F := F) c cc0_scratch5 ⊢ any4 c (prtlM 2)) ∧ (wholeAny (F := F) c cc0_scratch6 ⊢ any4 c (raccM 0)) ∧ (wholeAny (F := F) c cc0_scratch7 ⊢ any4 c (raccM 1)) ∧ (wholeAny (F := F) c cc0_scratch8 ⊢ any4 c (raccM 2)) ∧ (wholeAny (F := F) c cc0_scratch9 ⊢ any4 c (xnM 0)) ∧ (wholeAny (F := F) c cc0_scratch10 ⊢ any4 c (xnM 1))

def Uncuts (c : Dev nD) : Prop :=
  (piecesW (F := F) c ⊢ wholeAny c cc0_scratch0) ∧ (piecesO (F := F) c ⊢ wholeAny c cc0_scratch1)
  ∧ (any4 (F := F) c xgM ⊢ wholeAny c cc0_scratch2) ∧ (any4 (F := F) c (prtlM 0) ⊢ wholeAny c cc0_scratch3) ∧ (any4 (F := F) c (prtlM 1) ⊢ wholeAny c cc0_scratch4) ∧ (any4 (F := F) c (prtlM 2) ⊢ wholeAny c cc0_scratch5) ∧ (any4 (F := F) c (raccM 0) ⊢ wholeAny c cc0_scratch6) ∧ (any4 (F := F) c (raccM 1) ⊢ wholeAny c cc0_scratch7) ∧ (any4 (F := F) c (raccM 2) ⊢ wholeAny c cc0_scratch8) ∧ (any4 (F := F) c (xnM 0) ⊢ wholeAny c cc0_scratch9) ∧ (any4 (F := F) c (xnM 1) ⊢ wholeAny c cc0_scratch10)

theorem X_bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

theorem X_positions_eq (c : Dev nD) : positions (F := F) c = iprop(fresh (barC c) ∗ fresh (extC c) ∗ fresh (wsC c 0) ∗ fresh (wsC c 1) ∗ fresh (wsC c 2) ∗ fresh (wsC c 3) ∗ fresh (wsC c 4) ∗ fresh (wsC c 5) ∗ fresh (wrC c 0) ∗ fresh (wrC c 1) ∗ fresh (wrC c 2) ∗ fresh (wrC c 3) ∗ fresh (wrC c 4) ∗ fresh (wrC c 5) ∗ fresh (asC c 0) ∗ fresh (asC c 1) ∗ fresh (asC c 2) ∗ fresh (asC c 3) ∗ fresh (asC c 4) ∗ fresh (asC c 5) ∗ fresh (arC c 0) ∗ fresh (arC c 1) ∗ fresh (arC c 2) ∗ fresh (arC c 3) ∗ fresh (arC c 4) ∗ fresh (arC c 5)) :=
  (X_bigSep_fin26 _).trans rfl

theorem X_half_any (c : Dev nD) {s : Shape} {e : EltTy} (b : Memref sig .tc .vmem s e) (w : s.Idx → Elt F e) :
    iprop(holds c b shK w ∗ holds c b shR w) ⊢ holdsAny (F := F) c b :=
  (holds_join c b fullShare w).trans (holds_any c b w)

/-- Four quarter shares join to the whole, two at a time from the last. -/
theorem X_quarter_any (c : Dev nD) {s : Shape} {e : EltTy} (b : Memref sig .tc .vmem s e) (w : s.Idx → Elt F e) :
    iprop(holds c b shK w ∗ holds c b (sh 1) w ∗ holds c b (sh 2) w ∗ holds c b (sh 3) w) ⊢ holdsAny (F := F) c b :=
  (sep_mono_right ((sep_mono_right (holds_join c b fullShare.right.right w)).trans (holds_join c b fullShare.right w))).trans (X_half_any c b w)

theorem X_any4_of_plane (c : Dev nD) (b : Memref sig .tc .vmem S4x128x128 .bf16) :
    iprop(holdsAny (F := F) c (slotJ b (qd c)) ∗ holdsAny (F := F) c (slotJ b (qd (pp c 1))) ∗ holdsAny (F := F) c (slotJ b (qd (pp c 2))) ∗ holdsAny (F := F) c (slotJ b (qd (pp c 3))))
      ⊢ any4 (F := F) c b :=
  (X_reindex4 c (fun j => holdsAny (F := F) c (slotJ b j))).1

/-- The slots at the plane indices of the device and its three peers are the buffer's four slots. -/
theorem X_buf_own_any (c : Dev nD) (b : Memref sig .tc .vmem S4x128x128 .bf16) (v : Dev nD → S128x128.Idx → Elt F .bf16) :
    iprop(holdsAny (F := F) c (slotJ b (qd c)) ∗ holds c (slotJ b (qd (pp c 1))) fullShare (v (pp c 1)) ∗ holds c (slotJ b (qd (pp c 2))) fullShare (v (pp c 2))
      ∗ holds c (slotJ b (qd (pp c 3))) fullShare (v (pp c 3))) ⊢ any4 (F := F) c b :=
  (sep_mono_right (BIClass.sep_mono (holds_any c _ _) (BIClass.sep_mono (holds_any c _ _) (holds_any c _ _)))).trans (X_any4_of_plane c b)

theorem X_buf_full (c : Dev nD) (b : Memref sig .tc .vmem S4x128x128 .bf16) (v : Fin 4 → S128x128.Idx → Elt F .bf16) :
    iprop(holds c (slotJ b (qd c)) fullShare (v (qd c)) ∗ holds c (slotJ b (qd (pp c 1))) fullShare (v (qd (pp c 1))) ∗ holds c (slotJ b (qd (pp c 2))) fullShare (v (qd (pp c 2)))
      ∗ holds c (slotJ b (qd (pp c 3))) fullShare (v (qd (pp c 3)))) ⊢ any4 (F := F) c b :=
  (sep_mono_left (holds_any c _ _)).trans (X_buf_own_any c b fun p => v (qd p))

theorem X_buf_gather (c : Dev nD) (b : Memref sig .tc .vmem S4x128x128 .bf16) (v : Dev nD → S128x128.Idx → Elt F .bf16) :
    iprop(holds c (slotJ b (qd c)) shK (v c)
      ∗ (holds c (slotJ b (qd c)) (sh 1) (v c) ∗ holds c (slotJ b (qd c)) (sh 2) (v c) ∗ holds c (slotJ b (qd c)) (sh 3) (v c))
      ∗ (holds c (slotJ b (qd (pp c 1))) fullShare (v (pp c 1)) ∗ holds c (slotJ b (qd (pp c 2))) fullShare (v (pp c 2)) ∗ holds c (slotJ b (qd (pp c 3))) fullShare (v (pp c 3))))
      ⊢ any4 (F := F) c b :=
  sep_assoc.2.trans ((sep_mono_left (X_quarter_any c _ _)).trans (X_buf_own_any c b v))

set_option maxRecDepth 4000 in
set_option maxHeartbeats 1600000 in
theorem body_open (m : (ℓ : Loc nD τ sig) → Buf (Elt F) ℓ) (ρ : Dev nD → PrngReg) (c : Dev nD) (hcut : Cuts (F := F) c) :
    iprop((dats m ρ 0 c).Φ t₀.castSucc ∗ (dats m ρ 0 c).owesAt () t₀.castSucc
      ∗ (∃ d, stg c cc0_stg0_0 ((dats m ρ 0 c).before (0 : Fin 8) t₀ d))
      ∗ (∃ d, stg c cc0_stg1_0 ((dats m ρ 0 c).before (1 : Fin 8) t₀ d))
      ∗ (∃ d, stg c cc0_stg2_0 ((dats m ρ 0 c).before (2 : Fin 8) t₀ d))
      ∗ (∃ d, stg c cc0_stg3_0 ((dats m ρ 0 c).before (3 : Fin 8) t₀ d))
      ∗ (∃ d, stg c cc0_stg4_0 ((dats m ρ 0 c).before (4 : Fin 8) t₀ d))
      ∗ (∃ d, stg c cc0_stg5_0 ((dats m ρ 0 c).before (5 : Fin 8) t₀ d))
      ∗ (∃ d, stg c cc0_stg6_0 ((dats m ρ 0 c).before (6 : Fin 8) t₀ d))
      ∗ (∃ d, stg c cc0_stg7_0 ((dats m ρ 0 c).before (7 : Fin 8) t₀ d)))
    ⊢ iprop(∃ K W, records m K ∗ levAts L lv ∗ preA m c W ∗ initRest c) := by
  obtain ⟨hW, hO, h2, h3, h4, h5, h6, h7, h8, h9, h10⟩ := hcut
  show iprop(Φ₀ m c ∗ (∃ W, ⌜_⌝ ∗ owesFrom c 0 W) ∗ (∃ d, stg c cc0_stg0_0 (xin m c)) ∗ (∃ d, stg c cc0_stg1_0 (wiIn m c 0)) ∗ (∃ d, stg c cc0_stg2_0 (woIn m c 0))
    ∗ (∃ d, stg c cc0_stg3_0 (wiIn m c 1)) ∗ (∃ d, stg c cc0_stg4_0 (woIn m c 1)) ∗ (∃ d, stg c cc0_stg5_0 (wiIn m c 2)) ∗ (∃ d, stg c cc0_stg6_0 (woIn m c 2)) ∗ _) ⊢ _
  unfold Φ₀ start ghost payToks creds preA initRest wrCell arCell stgIn asTok arTok
  rw [X_positions_eq, show scratch (F := F) c = _ from scopedRest0_eq c]
  simp only [X_bigSep_fin4, X_bigSep_fin6]
  iintro ⟨⟨⟨⟨%K, Hrec, ⟨P0, P1, P2, P3, P4, P5, P6, P7, P8, P9, P10, P11, P12, P13, P14, P15, P16, P17, P18, P19, P20, P21, P22, P23, P24, P25⟩, ⟨Tb, Te, Tws, Twr, ⟨Tas0, Tas1, Tas2, Tas3, Tas4, Tas5⟩, ⟨Tar0, Tar1, Tar2, Tar3, Tar4, Tar5⟩⟩⟩, ⟨Cbar, Cext, ⟨Cwr0, Cwr1, Cwr2, Cwr3, Cwr4, Cwr5⟩, ⟨Car0, Car1, Car2, Car3, Car4, Car5⟩⟩, Hlev⟩, ⟨S0, S1, S2, S3, S4, S5, S6, S7, S8, S9, S10⟩⟩, ⟨%W, %hWB, Howes⟩, ⟨%d0, I0⟩, ⟨%d1, I1⟩, ⟨%d2, I2⟩, ⟨%d3, I3⟩, ⟨%d4, I4⟩, ⟨%d5, I5⟩, ⟨%d6, I6⟩, ⟨%d7, I7⟩⟩
  ihave ⟨Wi00, Wi01, Wi02, Wi10, Wi11, Wi12⟩ := hW $$ S0
  ihave ⟨Wo00, Wo01, Wo02, Wo10, Wo11, Wo12⟩ := hO $$ S1
  ihave S2 := h2 $$ S2
  ihave S3 := h3 $$ S3
  ihave S4 := h4 $$ S4
  ihave S5 := h5 $$ S5
  ihave S6 := h6 $$ S6
  ihave S7 := h7 $$ S7
  ihave S8 := h8 $$ S8
  ihave S9 := h9 $$ S9
  ihave S10 := h10 $$ S10
  ihave I7 : iprop(∃ X, stg c cc0_stg7_0 X) $$ [I7]
  · iexists _; iexact I7
  iexists K, W
  iframe

/-- Every piece of every scratch buffer is back, so each buffer is whole again. -/
theorem X_scratch_rebuild (m : (ℓ : Loc nD τ sig) → Buf (Elt F) ℓ) (c : Dev nD) (hun : Uncuts (F := F) c) :
    iprop((bigSep Finset.univ fun k : Fin 3 => iprop(holds c (winsJ 0 k) shK (Wi m c k) ∗ holds c (woutsJ 0 k) shK (Wo m c k)))
      ∗ (bigSep Finset.univ fun j : Fin 6 => wsPay m c j) ∗ (bigSep Finset.univ fun j : Fin 6 => wrPay m c j)
      ∗ (holds c (slotJ xgM (qd c)) shK (X0q m c) ∗ holds c (slotJ (xnM 0) (qd c)) shK (XN m 0 c) ∗ holds c (slotJ (xnM 1) (qd c)) shK (XN m 1 c))
      ∗ (bigSep Finset.univ fun k : Fin 3 => iprop(holds c (slotJ (prtlM k) (qd c)) fullShare (sl4 (PK m k c) (qd c)) ∗ holdsAny c (slotJ (raccM k) (qd c))))
      ∗ (bigSep Finset.univ fun j : Fin 6 => iprop(asPay m c j 1 ∗ asPay m c j 2 ∗ asPay m c j 3))
      ∗ (bigSep Finset.univ fun j : Fin 6 => got3 m c j))
    ⊢ scratch c := by
  obtain ⟨uW, uO, u2, u3, u4, u5, u6, u7, u8, u9, u10⟩ := hun
  unfold piecesW at uW
  unfold piecesO at uO
  rw [show scratch (F := F) c = _ from scopedRest0_eq c]
  unfold got3
  simp only [bigSep_fin3, X_bigSep_fin6, wsPay_0, wsPay_1, wsPay_2, wsPay_3, wsPay_4, wsPay_5, wrPay_0, wrPay_1, wrPay_2, wrPay_3, wrPay_4, wrPay_5, asPay_0, asPay_1, asPay_2, asPay_3, asPay_4, asPay_5, arPay_0, arPay_1, arPay_2, arPay_3, arPay_4, arPay_5]
  iintro ⟨⟨⟨K0i, K0o⟩, ⟨K1i, K1o⟩, ⟨K2i, K2o⟩⟩, ⟨R0, R1, R2, R3, R4, R5⟩, ⟨V0, V1, V2, V3, V4, V5⟩, ⟨G0, G1, G2⟩, ⟨⟨Pr0, Q0⟩, ⟨Pr1, Q1⟩, ⟨Pr2, Q2⟩⟩, ⟨A0, A1, A2, A3, A4, A5⟩, ⟨B0, B1, B2, B3, B4, B5⟩⟩
  ihave Wi00 := (X_half_any c (winsJ 0 0) (Wi m c 0)) $$ [$]
  ihave Wo00 := (X_half_any c (woutsJ 0 0) (Wo m c 0)) $$ [$]
  ihave Wi01 := (X_half_any c (winsJ 0 1) (Wi m c 1)) $$ [$]
  ihave Wo01 := (X_half_any c (woutsJ 0 1) (Wo m c 1)) $$ [$]
  ihave Wi02 := (X_half_any c (winsJ 0 2) (Wi m c 2)) $$ [$]
  ihave Wo02 := (X_half_any c (woutsJ 0 2) (Wo m c 2)) $$ [$]
  ihave Wi10 := (holds_any c _ _) $$ V0
  ihave Wo10 := (holds_any c _ _) $$ V1
  ihave Wi11 := (holds_any c _ _) $$ V2
  ihave Wo11 := (holds_any c _ _) $$ V3
  ihave Wi12 := (holds_any c _ _) $$ V4
  ihave Wo12 := (holds_any c _ _) $$ V5
  ihave T0 := uW $$ [$]
  ihave T1 := uO $$ [$]
  ihave T2 := ((X_buf_gather c xgM (X0q m)).trans u2) $$ [$]
  ihave T3 := ((X_buf_full c (prtlM 0) (sl4 (PK m 0 c))).trans u3) $$ [$]
  ihave T4 := ((X_buf_full c (prtlM 1) (sl4 (PK m 1 c))).trans u4) $$ [$]
  ihave T5 := ((X_buf_full c (prtlM 2) (sl4 (PK m 2 c))).trans u5) $$ [$]
  ihave T6 := ((X_buf_own_any c (raccM 0) fun p => sl4 (PK m 0 p) (qd c)).trans u6) $$ [$]
  ihave T7 := ((X_buf_own_any c (raccM 1) fun p => sl4 (PK m 1 p) (qd c)).trans u7) $$ [$]
  ihave T8 := ((X_buf_own_any c (raccM 2) fun p => sl4 (PK m 2 p) (qd c)).trans u8) $$ [$]
  ihave T9 := ((X_buf_gather c (xnM 0) (XN m 0)).trans u9) $$ [$]
  ihave T10 := ((X_buf_gather c (xnM 1) (XN m 1)).trans u10) $$ [$]
  iframe

theorem body_close (m : (ℓ : Loc nD τ sig) → Buf (Elt F) ℓ) (ρ : Dev nD → PrngReg) (K : Dev nD × Fin 26 → ℕ) (c : Dev nD) (hun : Uncuts (F := F) c)
    (hclose : iprop(records m K ∗ done (extC c) ∗ (bigSep Finset.univ fun j : Fin 6 => done (wsC c j)) ∗ (bigSep Finset.univ fun j : Fin 6 => done (wrC c j))
        ∗ (bigSep Finset.univ fun j : Fin 6 => done (asC c j)) ∗ (bigSep Finset.univ fun j : Fin 6 => done (arC c j)))
      ⊢ |={Set.univ}=> (bigSep Finset.univ fun i : Fin 25 => semVal ((c : Thread nD τ), osem i) 0 : sProp 𝕄)) :
    iprop(records m K ∗ finalAll m c) ⊢ |={Set.univ}=> iprop((dats m ρ 0 c).Φ t₀.succ ∗ (dats m ρ 0 c).owesAt () t₀.succ
      ∗ stg c cc0_stg0_0 ((dats m ρ 0 c).after (0 : Fin 8) t₀)
      ∗ stg c cc0_stg1_0 ((dats m ρ 0 c).after (1 : Fin 8) t₀)
      ∗ stg c cc0_stg2_0 ((dats m ρ 0 c).after (2 : Fin 8) t₀)
      ∗ stg c cc0_stg3_0 ((dats m ρ 0 c).after (3 : Fin 8) t₀)
      ∗ stg c cc0_stg4_0 ((dats m ρ 0 c).after (4 : Fin 8) t₀)
      ∗ stg c cc0_stg5_0 ((dats m ρ 0 c).after (5 : Fin 8) t₀)
      ∗ stg c cc0_stg6_0 ((dats m ρ 0 c).after (6 : Fin 8) t₀)
      ∗ stg c cc0_stg7_0 ((dats m ρ 0 c).after (7 : Fin 8) t₀)) := by
  show _ ⊢ |={Set.univ}=> iprop(Φ₁ (F := F) c ∗ (∃ W, ⌜_⌝ ∗ owes (c : Thread nD τ) 0 W) ∗ stg c cc0_stg0_0 (xin m c) ∗ stg c cc0_stg1_0 (wiIn m c 0) ∗ stg c cc0_stg2_0 (woIn m c 0) ∗ stg c cc0_stg3_0 (wiIn m c 1) ∗ stg c cc0_stg4_0 (woIn m c 1) ∗ stg c cc0_stg5_0 (wiIn m c 2) ∗ stg c cc0_stg6_0 (woIn m c 2) ∗ stg c cc0_stg7_0 (OUT m c))
  unfold finalAll Φ₁ stgIn
  iintro ⟨#Hrec, ⟨%W, Howes⟩, Hcells, Hwk, Hws, Hwr, Hg, Hpr, Has, Hgot, ⟨I0, I1, I2, I3, I4, I5, I6⟩, I7⟩
  imod hclose $$ [$] with Hsem
  imodintro
  ihave Hs := (X_scratch_rebuild m c hun) $$ [$]
  iframe
  iexists W
  isplitr; · ipureintro; exact fun _ _ => Or.inl trivial
  iexact Howes

end Cert.KernelIdeal.P

end
-- ==== Proof.BodyCuts.lean ====
import proofs.«900976_g7700000000000977_dist_mlpseq_tp1d_bs_bs_b128_d128_h256_v7x_i8_bf16_1_alg».proof.Proof.PhaseSpecs

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def E_tail32 (c : Dev nD) (v3 v4 v6 : BitVec 32) : Prog (TpuEff nD τ sig (Elt F) Λ₀ .tc) (Σ' (d0 : Dev nD), BitVec 32) := do
  ARGS k0_part26
  (ARGS k0_part27) c
  (ARGS k0_part28) c
  (ARGS k0_part29) c
  (ARGS k0_part30) c
  (ARGS k0_part31) c v6
  semSignalWord (⟨k0_dev29 c, k0_dev29_lt c⟩ : Dev nD) (cc0_scoped0 : Sems sig S_).sem 1#32 hamt_1
  semSignalWord (⟨k0_dev30 c, k0_dev30_lt c⟩ : Dev nD) (cc0_scoped0 : Sems sig S_).sem 1#32 hamt_1
  semSignalWord (⟨k0_dev31 c, k0_dev31_lt c⟩ : Dev nD) (cc0_scoped0 : Sems sig S_).sem 1#32 hamt_1
  let v899_r0 : BitVec 32 := Scalar.addi v3 3#32
  let v900_r0 : BitVec 32 := Scalar.remsi v899_r0 4#32
  let v901_r0 : BitVec 32 := Scalar.addi v4 v900_r0
  pure ⟨c, v901_r0⟩

def E_tailBody (c : Dev nD) : Prog (TpuEff nD τ sig (Elt F) Λ₀ .tc) PUnit := do
  semSignalWord (⟨k0_dev32 c, k0_dev32_lt c⟩ : Dev nD) (cc0_scoped0 : Sems sig S_).sem 1#32 hamt_1
  semWaitWord (cc0_scoped0 : Sems sig S_).sem 4#32 hamt_4
  pure ⟨⟩

def restD (c : Dev nD) (v3 v4 v6 : BitVec 32) (v604 : FVec F S512x128 .bf16) :
    Prog (TpuEff nD τ sig (Elt F) Λ₀ .tc) (Σ' (d0 : Dev nD), BitVec 32) := do
  let ⟨v647, c4_i32_599⟩ : Σ' (v647 : BitVec 32), BitVec 32 ← (ARGS k0_part22) v3 v604
  let ⟨v649, v664, v679, v680⟩ : Σ' (v649 : BitVec 32) (v664 : BitVec 32) (v679 : BitVec 32), BitVec 32 ← (ARGS k0_part23) c v3 v4 v647 c4_i32_599
  let ⟨v708, c0_i32_653⟩ : Σ' (v708 : BitVec 32), BitVec 32 ← (ARGS k0_part24) c v649 v664 v679 v680
  (ARGS k0_part25) c v3 v708 c0_i32_653
  E_tail32 c v3 v4 v6

def restC (c : Dev nD) (v3 v4 v6 : BitVec 32) (v398 : FVec F S512x128 .bf16) :
    Prog (TpuEff nD τ sig (Elt F) Λ₀ .tc) (Σ' (d0 : Dev nD), BitVec 32) := do
  let ⟨v425, v431, v433⟩ : Σ' (v425 : FVec F S512x128 .f32) (v431 : FVec F S512x256 .bf16), FVec F S256x128 .bf16 ← (ARGS k0_part15) v6 v398
  let ⟨v443, v458⟩ : Σ' (v443 : BitVec 32), BitVec 32 ← (ARGS k0_part16) c v3 v4 v425 v431 v433
  let v473 : BitVec 32 ← (ARGS k0_part17) c v3 v4 v443 v458
  let v527 : FVec F S128x128 .f32 ← (ARGS k0_part18) c v3 v473
  let ⟨v542, v555⟩ : Σ' (v542 : BitVec 32), BitVec 32 ← (ARGS k0_part19) c v3 v4 v527
  let v568 : BitVec 32 ← (ARGS k0_part20) c v3 v4 v542 v555
  let v604 : FVec F S512x128 .bf16 ← (ARGS k0_part21) c v6 v568
  restD c v3 v4 v6 v604

def restB (c : Dev nD) (v3 v4 v6 v83 v96 v167 : BitVec 32) :
    Prog (TpuEff nD τ sig (Elt F) Λ₀ .tc) (Σ' (d0 : Dev nD), BitVec 32) := do
  let ⟨v192, v193⟩ : Σ' (v192 : FVec F S512x128 .bf16), BitVec 32 ← (ARGS k0_part7) c v6 v83 v96 v167
  let v219 : FVec F S512x128 .f32 ← (ARGS k0_part8) v6 v192 v193
  let ⟨v237, v252⟩ : Σ' (v237 : BitVec 32), BitVec 32 ← (ARGS k0_part9) c v3 v4 v192 v219
  let v267 : BitVec 32 ← (ARGS k0_part10) c v3 v4 v237 v252
  let ⟨v314, c2_i32_298⟩ : Σ' (v314 : FVec F S128x128 .f32), BitVec 32 ← (ARGS k0_part11) c v3 v252 v267
  let ⟨v336, v349⟩ : Σ' (v336 : BitVec 32), BitVec 32 ← (ARGS k0_part12) c v3 v4 v314 c2_i32_298
  let v362 : BitVec 32 ← (ARGS k0_part13) c v3 v4 v336 v349
  let v398 : FVec F S512x128 .bf16 ← (ARGS k0_part14) c v6 v349 v362
  restC c v3 v4 v6 v398

set_option maxRecDepth 65536 in
theorem part32_eq : ARGS (k0_part32_skel (F := F)) = (do
  let ⟨d0, v3, v4, v6, v7, v27⟩ : Σ' (d0 : Dev nD) (v3 : BitVec 32) (v4 : BitVec 32) (v6 : BitVec 32) (v7 : Sems sig S_), FVec F S128x256 .bf16 ← (ARGS k0_part1)
  (ARGS k0_part2) v27
  let ⟨v70, v83, v84, c0_i32_70⟩ : Σ' (v70 : BitVec 32) (v83 : BitVec 32) (v84 : BitVec 32), BitVec 32 ← (ARGS k0_part3) d0 v3 v4 v7
  let v96 : BitVec 32 ← (ARGS k0_part4) d0 v3 v4 v6 v84 c0_i32_70
  (ARGS k0_part5) d0 v6
  let v167 : BitVec 32 ← (ARGS k0_part6) d0 v6 v70
  restB d0 v3 v4 v6 v83 v96 v167) := rfl

set_option maxRecDepth 65536 in
theorem E_body_split : ARGS (cc0_body_skel (F := F)) = (do
  let ⟨d0, _⟩ : Σ' (d0 : Dev nD), BitVec 32 ← ARGS k0_part32
  E_tailBody d0) := rfl

end Cert.KernelIdeal.P

end
-- ==== Proof.Levels.lean ====
import proofs.«900976_g7700000000000977_dist_mlpseq_tp1d_bs_bs_b128_d128_h256_v7x_i8_bf16_1_alg».proof.Proof.Inv
import Idealize.ShloMosaic.Lib.Pipeline.Launch
import Idealize.ShloMosaic.Lib.Tactic

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

theorem owedL_pos (xs : List (GSem nD τ sig × ℕ)) {g : GSem nD τ sig} {u : Unit} (h : 0 < owedL xs g u) : ∃ x ∈ xs, g = x.1 := by
  induction xs with
  | nil => exact absurd h (Nat.lt_irrefl 0)
  | cons x xs ih =>
    rw [owedL_cons, Pi.add_apply, Finsupp.add_apply, tallyAt_apply] at h
    by_cases hg : g = x.1 ∧ u = ()
    · exact ⟨x, List.mem_cons_self, hg.1⟩
    · rw [if_neg hg, Nat.add_zero] at h
      obtain ⟨y, hy, hgy⟩ := ih h
      exact ⟨y, List.mem_cons_of_mem _ hy, hgy⟩

theorem mayWait_of_lt (c : Dev nD) (sm : SemLoc sig) (xs : List (GSem nD τ sig × ℕ))
    (hxs : ∀ x ∈ xs, x.1.1.2 = .tc ∧ lv ((c : Thread nD τ), sm) () < lv x.1 ()) :
    (levAts L lv : sProp 𝕄) ⊢ MayWait (c : Thread nD τ) sm () (owedL xs) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := owedL_pos xs hg
      unfold L; rw [if_pos (hxs x hx).1]; exact Finset.mem_singleton_self _)
    (fun p hp => by rw [Finset.mem_singleton.mp hp])
    (fun g u hg => by
      obtain ⟨x, hx, rfl⟩ := owedL_pos xs hg
      exact (hxs x hx).2)

def owedSems : List (SemLoc sig) :=
  [.reg barS, .reg barS, .reg barS, .reg barS,
   .dma (arS 0), .dma (arS 0), .dma (arS 0),
   .dma (wrS 0), .dma (wrS 1), .dma (wrS 2), .dma (wrS 3), .dma (wrS 4), .dma (wrS 5),
   .dma (arS 1), .dma (arS 1), .dma (arS 1),
   .dma (arS 2), .dma (arS 2), .dma (arS 2),
   .dma (arS 3), .dma (arS 3), .dma (arS 3),
   .dma (arS 4), .dma (arS 4), .dma (arS 4),
   .dma (arS 5), .dma (arS 5), .dma (arS 5),
   .reg extS, .reg extS, .reg extS, .reg extS]

theorem owedItems_sems (c : Dev nD) : (owedItems c).map (fun x => x.1.2) = owedSems := rfl
theorem owedItems_tc (c : Dev nD) : ∀ x ∈ owedItems c, x.1.1.2 = .tc := by
  intro x hx
  have : x.1.1.2 ∈ (owedItems c).map (fun x => x.1.1.2) := List.mem_map_of_mem hx
  rw [show (owedItems c).map (fun x => x.1.1.2) = List.replicate 32 (Proc.tc : Proc τ) from rfl] at this
  exact List.eq_of_mem_replicate this

theorem mayWait_drop (c : Dev nD) (sm : SemLoc sig) (n : ℕ) (h : ∀ s ∈ owedSems.drop n, lvK (kindOf sm) < lvK (kindOf s)) :
    (levAts L lv : sProp 𝕄) ⊢ MayWait (c : Thread nD τ) sm () (owedL ((owedItems c).drop n)) :=
  mayWait_of_lt c sm _ fun x hx =>
    ⟨owedItems_tc c x (List.mem_of_mem_drop hx), h x.1.2 (by
      rw [← owedItems_sems c, ← List.map_drop]; exact List.mem_map_of_mem hx)⟩

theorem mayWait_bar (c : Dev nD) : (levAts L lv : sProp 𝕄) ⊢ MayWait (c : Thread nD τ) (.reg barS) () (owedL ((owedItems c).drop 4)) :=
  mayWait_drop c _ 4 (by decide)
theorem mayWait_ar0 (c : Dev nD) : (levAts L lv : sProp 𝕄) ⊢ MayWait (c : Thread nD τ) (.dma (arS 0)) () (owedL ((owedItems c).drop 13)) :=
  mayWait_drop c _ 13 (by decide)
theorem mayWait_wr0 (c : Dev nD) : (levAts L lv : sProp 𝕄) ⊢ MayWait (c : Thread nD τ) (.dma (wrS 0)) () (owedL ((owedItems c).drop 13)) :=
  mayWait_drop c _ 13 (by decide)
theorem mayWait_wr1 (c : Dev nD) : (levAts L lv : sProp 𝕄) ⊢ MayWait (c : Thread nD τ) (.dma (wrS 1)) () (owedL ((owedItems c).drop 13)) :=
  mayWait_drop c _ 13 (by decide)
theorem mayWait_ar1 (c : Dev nD) : (levAts L lv : sProp 𝕄) ⊢ MayWait (c : Thread nD τ) (.dma (arS 1)) () (owedL ((owedItems c).drop 16)) :=
  mayWait_drop c _ 16 (by decide)
theorem mayWait_ar2 (c : Dev nD) : (levAts L lv : sProp 𝕄) ⊢ MayWait (c : Thread nD τ) (.dma (arS 2)) () (owedL ((owedItems c).drop 19)) :=
  mayWait_drop c _ 19 (by decide)
theorem mayWait_wr2 (c : Dev nD) : (levAts L lv : sProp 𝕄) ⊢ MayWait (c : Thread nD τ) (.dma (wrS 2)) () (owedL ((owedItems c).drop 19)) :=
  mayWait_drop c _ 19 (by decide)
theorem mayWait_wr3 (c : Dev nD) : (levAts L lv : sProp 𝕄) ⊢ MayWait (c : Thread nD τ) (.dma (wrS 3)) () (owedL ((owedItems c).drop 19)) :=
  mayWait_drop c _ 19 (by decide)
theorem mayWait_ar3 (c : Dev nD) : (levAts L lv : sProp 𝕄) ⊢ MayWait (c : Thread nD τ) (.dma (arS 3)) () (owedL ((owedItems c).drop 22)) :=
  mayWait_drop c _ 22 (by decide)
theorem mayWait_ar4 (c : Dev nD) : (levAts L lv : sProp 𝕄) ⊢ MayWait (c : Thread nD τ) (.dma (arS 4)) () (owedL ((owedItems c).drop 25)) :=
  mayWait_drop c _ 25 (by decide)
theorem mayWait_wr4 (c : Dev nD) : (levAts L lv : sProp 𝕄) ⊢ MayWait (c : Thread nD τ) (.dma (wrS 4)) () (owedL ((owedItems c).drop 25)) :=
  mayWait_drop c _ 25 (by decide)
theorem mayWait_wr5 (c : Dev nD) : (levAts L lv : sProp 𝕄) ⊢ MayWait (c : Thread nD τ) (.dma (wrS 5)) () (owedL ((owedItems c).drop 25)) :=
  mayWait_drop c _ 25 (by decide)
theorem mayWait_ar5 (c : Dev nD) : (levAts L lv : sProp 𝕄) ⊢ MayWait (c : Thread nD τ) (.dma (arS 5)) () (owedL ((owedItems c).drop 28)) :=
  mayWait_drop c _ 28 (by decide)
theorem mayWait_send (c : Dev nD) (sm : SemLoc sig) (hsm : (∃ j, sm = .dma (wsS j)) ∨ ∃ j, sm = .dma (asS j)) :
    (levAts L lv : sProp 𝕄) ⊢ MayWait (c : Thread nD τ) sm () (owedL ((owedItems c).drop 28)) := by
  rcases hsm with ⟨j, rfl⟩ | ⟨j, rfl⟩
  · exact mayWait_drop c _ 28 (by rw [kindOf_ws]; show ∀ s ∈ List.drop 28 owedSems, 0 < lvK (kindOf s); decide)
  · exact mayWait_drop c _ 28 (by rw [kindOf_as]; show ∀ s ∈ List.drop 28 owedSems, 0 < lvK (kindOf s); decide)
theorem mayWait_ext (c : Dev nD) : (levAts L lv : sProp 𝕄) ⊢ MayWait (c : Thread nD τ) (.reg extS) () (owedL []) := by
  rw [show owedL ([] : List (GSem nD τ sig × ℕ)) = 0 from rfl, MayWait_zero]; iintro -; iempintro

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · have hk : kindOf (.dma q) = .none := by unfold kindOf; exact dif_pos hq
    have := mayWait_drop (F := F) c (.dma q) 0 (by rw [hk]; decide)
    exact this
  · rw [MayWait_zero]; iintro -; iempintro

end Cert.KernelIdeal.P

end
-- ==== Proof.RoundSteps.lean ====
import proofs.«900976_g7700000000000977_dist_mlpseq_tp1d_bs_bs_b128_d128_h256_v7x_i8_bf16_1_alg».proof.Proof.Inv
import proofs.«900976_g7700000000000977_dist_mlpseq_tp1d_bs_bs_b128_d128_h256_v7x_i8_bf16_1_alg».proof.Proof.SchedTables
import Idealize.ShloMosaic.Lib.Pipeline.Launch
import Idealize.ShloMosaic.Lib.Tactic

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- A piece held at a share holds what it reads. -/
theorem rs_holds_intro {s : Shape} {e : EltTy} (r : Memref sig .tc .vmem s e) (q : PosShare TreeShare) (w : s.Idx → Elt F e)
    (f : Buf (Elt F) (r.view.loc (c : Thread nD τ))) (hf : r.view.read (Elt F) f = w) :
    (r.view.loc (c : Thread nD τ) ↦[r.view.set]{q} f) ⊢ holds c r q w := by
  unfold holds; iintro H; iexists f; isplitr; · ipureintro; exact hf
  iexact H

theorem wp_send_holds (n : Dev nD) {s : Shape} {e : EltTy}
    {src dst : Memref sig .tc .vmem s e}
    {hsc : (dst : Memref sig (Dev.tc n : Thread nD τ).2.kind .vmem s e).view.ref.isScScratch = false}
    {sS rS : DmaSem sig} {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    {κ₁ κ₂ : ℕ} (d₁ d₂ : Fin 4) (N : ℕ) (w : s.Idx → Elt F e) (q : PosShare TreeShare)
    (xs : List (GSem nD τ sig × ℕ)) (W : Waits sig Unit)
    (hd₁ : d₁ ∈ (Rd m).duties ((c : Thread nD τ), .dma sS) 0)
    (hd₂ : d₂ ∈ (Rd m).duties ((n : Thread nD τ), .dma rS) 0)
    (hN : dst.view.amount (.dma rS) = N)
    (hk₁ : (Rd m).amount ((c : Thread nD τ), .dma sS) 0 d₁ = N)
    (hk₂ : (Rd m).amount ((n : Thread nD τ), .dma rS) 0 d₂ = N)
    (hp₁ : (Rd m).payload ((c : Thread nD τ), .dma sS) 0 d₁ = holds c src q w)
    (hp₂ : (Rd m).payload ((n : Thread nD τ), .dma rS) 0 d₂ = holds n dst fullShare w)
    (hr : τ.routes (c : Thread nD τ) (n : Thread nD τ) = true) :
    iprop(cellInv ER (Rd m) κ₁ ((c : Thread nD τ), .dma sS) ∗ cellInv ER (Rd m) κ₂ ((n : Thread nD τ), .dma rS)
        ∗ holds c src q w ∗ holdsAny n dst
        ∗ owes (c : Thread nD τ) (owedL ((((n : Thread nD τ), .dma rS), N) :: xs)) W
        ∗ dutyTok ER ((c : Thread nD τ), .dma sS) 0 d₁ ∗ reached ER ((c : Thread nD τ), .dma sS) 0
        ∗ dutyTok ER ((n : Thread nD τ), .dma rS) 0 d₂ ∗ reached ER ((n : Thread nD τ), .dma rS) 0)
      ⊢ iprop(((cred (tallyAt ((c : Thread nD τ), .dma sS) () N) ∗ owes (c : Thread nD τ) (owedL xs) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  unfold holds holdsAny
  iintro ⟨HI₁, HI₂, ⟨%fs, %hfs, Hs⟩, ⟨%fd, Hd⟩, Hrest⟩
  iapply (Rounds.wp_send_pointsTo 𝒱₀ ER (Rd m) (c : Thread nD τ) none (c' := (n : Thread nD τ)) (hsc := hsc) (hsrc := hsrc)
      (hdst := hdst) (hsem := hsem) (k := k) (Q := Q) (κ₁ := κ₁) (κ₂ := κ₂) (r₁ := 0) (r₂ := 0) (q := q) (fs := fs) (fd := fd)
      hd₁ hd₂ () () N hN hk₁ hk₂ (owedL xs) (owedL_cons (((n : Thread nD τ), .dma rS), N) xs) (W := W) (by rw [hp₁]; exact rs_holds_intro c src q w fs hfs)
      (by rw [hp₂]; exact rs_holds_intro n dst fullShare w _ (by rw [View.read_write_univ, hfs])) hr) $$ [HI₁ HI₂ Hs Hd Hrest]
  iframe

theorem routes_pp : ∀ (c : Dev nD) (i : Fin 4), τ.routes (c : Thread nD τ) (pp c i : Thread nD τ) = true := by decide +kernel

theorem wp_sig_bar (n : Dev nD) (i : Fin 4) (hn : n = pp c i) {a : ℕ} (ha : a = 1)
    {α : Type} {Q : α → sProp 𝕄} {k : PUnit → Prog (TpuEff nD τ sig (Elt F) Λ₀ .tc) α} {κ : ℕ}
    (xs : List (GSem nD τ sig × ℕ)) (W : Waits sig Unit) :
    iprop(cellInv ER (Rd m) κ (barC (pp c i))
        ∗ owes (c : Thread nD τ) (owedL ((barC (pp c i), 1) :: xs)) W
        ∗ dutyTok ER (barC (pp c i)) 0 (inv i) ∗ barPay (pp c i) (inv i)
        ∗ reached ER (barC (pp c i)) 0)
      ⊢ iprop((owes (c : Thread nD τ) (owedL xs) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS a) k) Q) := by
  subst hn ha
  rw [← payload_bar m (pp c i) (inv i)]
  exact Rounds.wp_signal 𝒱₀ ER (Rd m) (c : Thread nD τ) none (mem_bar m _ _) (amount_bar m _ _) () (owedL xs) (owedL_cons _ _)
    (routes_pp c i)

theorem wp_sig_ext (n : Dev nD) (i : Fin 4) (hn : n = pp c i) {a : ℕ} (ha : a = 1)
    {α : Type} {Q : α → sProp 𝕄} {k : PUnit → Prog (TpuEff nD τ sig (Elt F) Λ₀ .tc) α} {κ : ℕ}
    (xs : List (GSem nD τ sig × ℕ)) (W : Waits sig Unit) :
    iprop(cellInv ER (Rd m) κ (extC (pp c i))
        ∗ owes (c : Thread nD τ) (owedL ((extC (pp c i), 1) :: xs)) W
        ∗ dutyTok ER (extC (pp c i)) 0 (inv i)
        ∗ reached ER (extC (pp c i)) 0)
      ⊢ iprop((owes (c : Thread nD τ) (owedL xs) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) extS a) k) Q) := by
  subst hn ha
  iintro ⟨HI, HO, Ht, Hr⟩
  iapply (Rounds.wp_signal 𝒱₀ ER (Rd m) (c : Thread nD τ) none (dst := (pp c i : Thread nD τ)) (sem := extS) (r := 0) (d := inv i)
    (κ := κ) (mem_ext m _ _) (amount_ext m _ _) () (owedL xs) (owedL_cons (extC (pp c i), 1) xs) (W := W) (routes_pp c i)) $$ [HI HO Ht Hr]
  rw [payload_ext m (pp c i) (inv i)]; iframe

theorem barPay_to0 : barPay (F := F) (pp c 0) (inv 0) =
    iprop(holdsAny c (winsJ 1 0) ∗ holdsAny c (woutsJ 1 0) ∗ holdsAny c (winsJ 1 1) ∗ holdsAny c (woutsJ 1 1)
      ∗ holdsAny c (winsJ 1 2) ∗ holdsAny c (woutsJ 1 2)) := by
  rw [show inv 0 = 0 from rfl, barPay_0, show pp (pp c 0) 0 = c from pp_pp_inv c 0]

theorem barPay_to (i : Fin 4) (hi : i ≠ 0) : barPay (F := F) (pp c i) (inv i) =
    iprop(holdsAny c (slotJ xgM (qd (pp c i))) ∗ holdsAny c (slotJ (raccM 0) (qd (pp c i))) ∗ holdsAny c (slotJ (xnM 0) (qd (pp c i)))
      ∗ holdsAny c (slotJ (raccM 1) (qd (pp c i))) ∗ holdsAny c (slotJ (xnM 1) (qd (pp c i))) ∗ holdsAny c (slotJ (raccM 2) (qd (pp c i)))) := by
  rw [barPay_peer (pp c i) (inv i) (by revert i; decide), pp_pp_inv]

/-- A wait that takes the rest of a cell's one round: its owner stands at round 1 with the payloads P of the duties not yet taken. -/
theorem wp_wait_rest0 (sm : SemLoc sig) {w : TpuEff nD τ sig (Elt F) Λ₀ .tc PUnit} {N a : ℕ} {T : Finset (Fin 4)} {P : sProp 𝕄}
    (hw : ∀ K : PUnit → sProp 𝕄, wpE (defs₀ (F := F)) 𝒱₀ (c : Thread nD τ) none Set.univ w K = waitSpec (c : Thread nD τ) Set.univ sm N K)
    {α : Type} {Q : α → sProp 𝕄} {k : PUnit → Prog (TpuEff nD τ sig (Elt F) Λ₀ .tc) α} {κ : ℕ}
    (O : CellTallies nD τ sig Unit) (W : Waits sig Unit) (hexp : a + N = (Rd m).expect ((c : Thread nD τ), sm) 0)
    (hP : bigSep ((Rd m).duties ((c : Thread nD τ), sm) 0 \ T) (fun d => (Rd m).payload ((c : Thread nD τ), sm) 0 d) = P) :
    iprop(cellInv ER (Rd m) κ ((c : Thread nD τ), sm) ∗ cred (tallyAt ((c : Thread nD τ), sm) () N) ∗ owes (c : Thread nD τ) O W
        ∗ MayWait (c : Thread nD τ) sm () O ∗ atPos ER ((c : Thread nD τ), sm) 0 T a)
      ⊢ iprop(((owes (c : Thread nD τ) O (insert (sm, ()) W) ∗ atPos ER ((c : Thread nD τ), sm) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hP
  iintro H Hk
  iapply (Rounds.wp_wait_rest_token 𝒱₀ ER (Rd m) (c : Thread nD τ) none hw (Set.mem_univ κ) () hexp) $$ H
  iintro ⟨HO, Hat, -, Hpay⟩
  iapply Hk; iframe

theorem wp_wait_bar (sem : Sem sig) (hs : sem = barS) {a : ℕ} (ha : a = 4)
    {α : Type} {Q : α → sProp 𝕄} {k : PUnit → Prog (TpuEff nD τ sig (Elt F) Λ₀ .tc) α} {κ : ℕ}
    (O : CellTallies nD τ sig Unit) (W : Waits sig Unit) :
    iprop(cellInv ER (Rd m) κ (barC c) ∗ cred (tallyAt (barC c) () 4) ∗ owes (c : Thread nD τ) O W
        ∗ MayWait (c : Thread nD τ) (.reg barS) () O ∗ atPos ER (barC c) 0 ∅ 0)
      ⊢ iprop(((owes (c : Thread nD τ) O (insert (SemLoc.reg barS, ()) W) ∗ atPos ER (barC c) 1 ∅ 0
              ∗ barPay c 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem a) k) Q) := by
  subst hs ha
  exact wp_wait_rest0 m c _ (wpE_semWait_eq 𝒱₀ _ none Set.univ) O W (by rw [expect_bar]) (rest_bar m c)

theorem wp_wait_ext (sem : Sem sig) (hs : sem = extS) {a : ℕ} (ha : a = 4)
    {α : Type} {Q : α → sProp 𝕄} {k : PUnit → Prog (TpuEff nD τ sig (Elt F) Λ₀ .tc) α} {κ : ℕ}
    (O : CellTallies nD τ sig Unit) (W : Waits sig Unit) :
    iprop(cellInv ER (Rd m) κ (extC c) ∗ cred (tallyAt (extC c) () 4) ∗ owes (c : Thread nD τ) O W
        ∗ MayWait (c : Thread nD τ) (.reg extS) () O ∗ atPos ER (extC c) 0 ∅ 0)
      ⊢ iprop(((owes (c : Thread nD τ) O (insert (SemLoc.reg extS, ()) W) ∗ atPos ER (extC c) 1 ∅ 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem a) k) Q) := by
  subst hs ha
  iintro H Hk
  iapply (wp_wait_rest0 m c _ (wpE_semWait_eq 𝒱₀ _ none Set.univ) (κ := κ) O W (by rw [expect_ext]) rfl) $$ H
  iintro ⟨HO, Hat, -⟩
  iapply Hk; iframe

theorem wp_wait_ws (j : Fin 6) (sm : DmaSem sig) (hs : sm = wsS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cW j) :
    iprop(cellInv ER (Rd m) κ (wsC c j) ∗ cred (tallyAt (wsC c j) () (cW j)) ∗ owes (c : Thread nD τ) O W
        ∗ MayWait (c : Thread nD τ) (.dma (wsS j)) () O ∗ atPos ER (wsC c j) 0 ∅ 0)
      ⊢ iprop(((owes (c : Thread nD τ) O (insert (SemLoc.dma (wsS j), ()) W) ∗ atPos ER (wsC c j) 1 ∅ 0 ∗ wsPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← hamt]
  exact wp_wait_rest0 m c _ (wpE_waitDma2_eq 𝒱₀ _ none Set.univ) O W (by rw [expect_ws, hamt, Nat.zero_add])
    (by rw [Finset.sdiff_empty, duties_ws, bigSep_singleton, payload_ws])

theorem wp_wait_wr (j : Fin 6) (sm : DmaSem sig) (hs : sm = wrS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cW j) :
    iprop(cellInv ER (Rd m) κ (wrC c j) ∗ cred (tallyAt (wrC c j) () (cW j)) ∗ owes (c : Thread nD τ) O W
        ∗ MayWait (c : Thread nD τ) (.dma (wrS j)) () O ∗ atPos ER (wrC c j) 0 ∅ 0)
      ⊢ iprop(((owes (c : Thread nD τ) O (insert (SemLoc.dma (wrS j), ()) W) ∗ atPos ER (wrC c j) 1 ∅ 0 ∗ wrPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← hamt]
  exact wp_wait_rest0 m c _ (wpE_waitDma2_eq 𝒱₀ _ none Set.univ) O W (by rw [expect_wr, hamt, Nat.zero_add])
    (by rw [Finset.sdiff_empty, duties_wr, bigSep_singleton, payload_wr])

def midWait (g : GSem nD τ sig) (a : ℕ) : sProp 𝕄 :=
  iprop(∃ S : Finset (Fin 4), ⌜S ⊆ (Rd m).duties g 0⌝ ∗ atPos ER g 0 S a ∗ bigSep S (fun d => (Rd m).payload g 0 d))

theorem midWait_zero (g : GSem nD τ sig) : atPos ER g 0 ∅ 0 ⊢ midWait m g 0 := by
  unfold midWait
  iintro Hat
  iexists (∅ : Finset (Fin 4))
  isplitr; · ipureintro; exact Finset.empty_subset _
  rw [bigSep_empty]; iframe; iempintro

/-- A set of duties is split into an earlier part and the rest. -/
theorem payload_join (Φ : Fin 4 → sProp 𝕄) {T S : Finset (Fin 4)} (h : T ⊆ S) :
    iprop(bigSep T Φ ∗ bigSep (S \ T) Φ) ⊢ bigSep S Φ := Entails.of_eq (bigSep_sdiff_split h).symm

theorem wp_wait3_step (sm : DmaSem sig) (N a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = N) :
    iprop(cellInv ER (Rd m) κ ((c : Thread nD τ), .dma sm) ∗ cred (tallyAt ((c : Thread nD τ), .dma sm) () N)
        ∗ owes (c : Thread nD τ) O W ∗ MayWait (c : Thread nD τ) (.dma sm) () O ∗ midWait m ((c : Thread nD τ), .dma sm) a)
      ⊢ iprop(((owes (c : Thread nD τ) O (insert (SemLoc.dma sm, ()) W) ∗ midWait m ((c : Thread nD τ), .dma sm) (a + N))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hamt
  rw [Finset.insert_eq, Finset.union_comm]
  unfold midWait
  iintro ⟨HI, Hc, HO, Hm, %T, %hT, Hat, HT⟩ Hk
  iapply (Rounds.wp_wait 𝒱₀ ER (Rd m) (c : Thread nD τ) none (κ := κ) (wpE_waitDma2_eq 𝒱₀ _ none Set.univ) (Set.mem_univ _)
      (cr := Finsupp.single () dst.view.dmaCredit) (O := O) (W := W) {(SemLoc.dma sm, ())} (T := T)
      (by rw [Util.total_single]) (image_single_subset _ _ _)) $$ [HI Hc HO Hm Hat]
  · iframe HI HO Hat; isplitl [Hc]; · iexact Hc
    iexact Hm
  iintro %S ⟨%hS, HO, Hat, Hpay⟩
  iapply Hk
  iframe HO; iexists S; iframe Hat
  isplitr; · ipureintro; exact hS.2.1
  iapply (payload_join _ hS.1); iframe

theorem wp_wait3_last (sm : DmaSem sig) (N a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = N)
    (hdut : (Rd m).duties ((c : Thread nD τ), .dma sm) 0 = {1, 2, 3})
    (hexp : a + N = (Rd m).expect ((c : Thread nD τ), .dma sm) 0) :
    iprop(cellInv ER (Rd m) κ ((c : Thread nD τ), .dma sm) ∗ cred (tallyAt ((c : Thread nD τ), .dma sm) () N)
        ∗ owes (c : Thread nD τ) O W ∗ MayWait (c : Thread nD τ) (.dma sm) () O ∗ midWait m ((c : Thread nD τ), .dma sm) a)
      ⊢ iprop(((owes (c : Thread nD τ) O (insert (SemLoc.dma sm, ()) W) ∗ atPos ER ((c : Thread nD τ), .dma sm) 1 ∅ 0
              ∗ (Rd m).payload ((c : Thread nD τ), .dma sm) 0 1 ∗ (Rd m).payload ((c : Thread nD τ), .dma sm) 0 2
              ∗ (Rd m).payload ((c : Thread nD τ), .dma sm) 0 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hamt
  unfold midWait
  iintro ⟨HI, Hc, HO, Hm, %T, %hT, Hat, HT⟩ Hk
  iapply (wp_wait_rest0 m c _ (wpE_waitDma2_eq 𝒱₀ _ none Set.univ) (κ := κ) O W hexp rfl) $$ [HI Hc HO Hm Hat]; · iframe
  iintro ⟨HO, Hat, Hpay⟩
  iapply Hk; iframe HO Hat
  rw [← bigSep_123 ((Rd m).payload _ 0), ← hdut]
  iapply (payload_join _ hT); iframe

theorem cred_three (g : GSem nD τ sig) (N : ℕ) :
    (cred (tallyAt g () (3 * N)) : sProp 𝕄) ⊣⊢ iprop(cred (tallyAt g () N) ∗ cred (tallyAt g () N) ∗ cred (tallyAt g () N)) := by
  rw [show 3 * N = N + (N + N) by omega, ← tallyAt_add, ← tallyAt_add]
  exact (cred_add _ _).trans (sep_congr_right (cred_add _ _))

theorem wp_close (sm : SemLoc sig) {κ : ℕ} :
    iprop(cellInv ER (Rd m) κ ((c : Thread nD τ), sm) ∗ atPos ER ((c : Thread nD τ), sm) 1 ∅ 0)
      ⊢ iprop(|={Set.univ}=> semVal ((c : Thread nD τ), sm) 0) :=
  Rounds.cell_close ER (Rd m) (Set.mem_univ _) (fun h => h) (duties_later m _)

theorem wp_wait_as_last (j : Fin 6) (sm : DmaSem sig) (hs : sm = asS j) (a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cA j) (ha : a + cA j = 3 * cA j) :
    iprop(cellInv ER (Rd m) κ (asC c j) ∗ cred (tallyAt (asC c j) () (cA j))
        ∗ owes (c : Thread nD τ) O W ∗ MayWait (c : Thread nD τ) (.dma (asS j)) () O ∗ midWait m (asC c j) a)
      ⊢ iprop(((owes (c : Thread nD τ) O (insert (SemLoc.dma (asS j), ()) W) ∗ atPos ER (asC c j) 1 ∅ 0
              ∗ asPay m c j 1 ∗ asPay m c j 2 ∗ asPay m c j 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← payload_as m c j 1, ← payload_as m c j 2, ← payload_as m c j 3]
  exact wp_wait3_last m c (asS j) (cA j) a O W hamt (duties_as m c j) (by rw [expect_as]; exact ha)

theorem wp_wait_ar_last (j : Fin 6) (sm : DmaSem sig) (hs : sm = arS j) (a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cA j) (ha : a + cA j = 3 * cA j) :
    iprop(cellInv ER (Rd m) κ (arC c j) ∗ cred (tallyAt (arC c j) () (cA j))
        ∗ owes (c : Thread nD τ) O W ∗ MayWait (c : Thread nD τ) (.dma (arS j)) () O ∗ midWait m (arC c j) a)
      ⊢ iprop(((owes (c : Thread nD τ) O (insert (SemLoc.dma (arS j), ()) W) ∗ atPos ER (arC c j) 1 ∅ 0
              ∗ arPay m c j 1 ∗ arPay m c j 2 ∗ arPay m c j 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← payload_ar m c j 1, ← payload_ar m c j 2, ← payload_ar m c j 3]
  exact wp_wait3_last m c (arS j) (cA j) a O W hamt (duties_ar m c j) (by rw [expect_ar]; exact ha)

end Cert.KernelIdeal.P

end
-- ==== Proof.BodyA.lean ====
import proofs.«900976_g7700000000000977_dist_mlpseq_tp1d_bs_bs_b128_d128_h256_v7x_i8_bf16_1_alg».proof.Proof.PhaseSpecs
import proofs.«900976_g7700000000000977_dist_mlpseq_tp1d_bs_bs_b128_d128_h256_v7x_i8_bf16_1_alg».proof.Proof.Levels
import proofs.«900976_g7700000000000977_dist_mlpseq_tp1d_bs_bs_b128_d128_h256_v7x_i8_bf16_1_alg».proof.Proof.HoldsLemmas
import proofs.«900976_g7700000000000977_dist_mlpseq_tp1d_bs_bs_b128_d128_h256_v7x_i8_bf16_1_alg».proof.Proof.RoundSteps
import proofs.«900976_g7700000000000977_dist_mlpseq_tp1d_bs_bs_b128_d128_h256_v7x_i8_bf16_1_alg».proof.Proof.Reindex

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ ((c : Dev nD) : Thread nD τ) none) Set.univ

theorem A_hz2 : (![0, 0] : Fin 2 → Nat) = fun _ => 0 := funext fun a => by fin_cases a <;> rfl

theorem A_ret {α : Type} (c : Dev nD) (a : α) (Q : α → sProp 𝕄) : Q a ⊢ wpX[c] (.ret a) Q := fupd_intro (PROP := sProp 𝕄)

abbrev A_vm (i : Fin (sig.nNear .tc .vmem)) (h : sig.names .tc .vmem i = true) : Ref sig .tc := ⟨.vmem, i, h⟩

-- A buffer held whole is read whole: the box of its own sizes at zero offsets is the whole buffer.
theorem A_load_stg (c : Dev nD) (i : Fin (sig.nNear .tc .vmem)) (h : sig.names .tc .vmem i = true) (X : (A_vm i h).ty.Contents (Elt F))
    {off : Fin (A_vm i h).ty.shape.rank → Nat} (h0 : off = fun _ => 0)
    {inb : ∀ a, off a + (A_vm i h).ty.shape.size a ≤ (A_vm i h).ty.shape.size a}
    {hl : (Memref.whole (A_vm i h) : Memref sig .tc .vmem _ _).view.LoadsAt (Rect.unit off (A_vm i h).ty.shape.size inb).toLoadRect}
    {α : Type} {Q : α → sProp 𝕄} {k : (A_vm i h).ty.Contents (Elt F) → Prog (TpuEff nD τ sig (Elt F) Λ₀ .tc) α} :
    stg c (A_vm i h) X ⊢ iprop((stg c (A_vm i h) X -∗ wpX[c] (k X) Q)
      -∗ wpX[c] (.op (.load (Memref.whole (A_vm i h)) (Rect.unit off (A_vm i h).ty.shape.size inb).toLoadRect hl) k) Q) := by
  iintro H Hk
  icases H with ⟨%f, %hf, Hx⟩
  subst hf
  iapply (wp_load 𝒱₀ (c : Thread nD τ) none Set.univ (m := (Memref.whole (A_vm i h) : Memref sig .tc .vmem _ _)) (Finset.subset_univ _)) $$ Hx
  iintro Hx
  have hr := Memref.readAt_unit_zero (Elt F) (A_vm i h) h0 inb f
  ihave Hk' := (Entails.of_eq (congrArg (fun z => iprop(stg c (A_vm i h) f -∗ wpX[c] (k z) Q)) hr.symm)) $$ Hk
  iapply Hk'
  iexists f
  isplitr
  · ipureintro <;> rfl
  iexact Hx

theorem A_bind {α β : Type} (c : Dev nD) (p : Prog (TpuEff nD τ sig (Elt F) Λ₀ .tc) α) (k : α → Prog (TpuEff nD τ sig (Elt F) Λ₀ .tc) β) (Q : β → sProp 𝕄) :
    wpX[c] p (fun a => wpX[c] (k a) Q) ⊢ wpX[c] (p >>= k) Q := by
  rw [wp_bind]

theorem A_wsS (j : Fin 6) {inb} : ((cc0_scratch11.slice (Rect.unit (s := S6) ![j.val] S1.size inb)).squeeze S_ squeezes_S1_S_).sem = wsS j := by
  revert j; decide
theorem A_wrS (j : Fin 6) {inb} : ((cc0_scratch12.slice (Rect.unit (s := S6) ![j.val] S1.size inb)).squeeze S_ squeezes_S1_S_).sem = wrS j := by
  revert j; decide
theorem A_asS0 : ((cc0_scratch13.slice (Rect.unit (s := S6) ![0] S1.size inb_S6_S1_0)).squeeze S_ squeezes_S1_S_).sem = asS 0 := by decide
theorem A_arS0 : ((cc0_scratch14.slice (Rect.unit (s := S6) ![0] S1.size inb_S6_S1_0)).squeeze S_ squeezes_S1_S_).sem = arS 0 := by decide

theorem A_inv_ne : ∀ d : Fin 4, d ≠ 0 → Mesh.inv d ≠ 0 := by decide

theorem A_next (c : Dev nD) (n n' : ℕ) (x : GSem nD τ sig × ℕ) (W : Waits sig Unit) (h : (owedItems c).drop n = x :: (owedItems c).drop n') :
    (owes (c : Thread nD τ) (owedL ((owedItems c).drop n)) W : sProp 𝕄) ⊢ owes (c : Thread nD τ) (owedL (x :: (owedItems c).drop n')) W := by
  rw [h]

theorem A_sh1 : sh 1 = fullShare.right.left := rfl
theorem A_sh2 : sh 2 = fullShare.right.right.left := rfl
theorem A_sh3 : sh 3 = fullShare.right.right.right := rfl
theorem A_any4 (c : Dev nD) (b : Memref sig .tc .vmem S4x128x128 .bf16) :
    any4 (F := F) c b ⊢ iprop(holdsAny c (slotJ b (qd c)) ∗ holdsAny c (slotJ b (qd (pp c 1))) ∗ holdsAny c (slotJ b (qd (pp c 2))) ∗ holdsAny c (slotJ b (qd (pp c 3)))) :=
  (X_reindex4 c (fun j => holdsAny (F := F) c (slotJ b j))).2

variable (m : (ℓ : Loc nD τ sig) → Buf (Elt F) ℓ)

-- Every cell's invariant and its first round's start are in the records; the cell is named by its index's equation.
theorem A_inv (K : Dev nD × Fin 26 → ℕ) (c' : Dev nD) {i : Fin 26} {g} (h : cellK i = g) :
    records m K ⊢ cellInv ER (Rd m) (K (c', i)) ((c' : Thread nD τ), g) := by
  subst h; unfold records
  exact (BI.Entails.trans BI.sep_and and_elimL).trans (bigSep_elim (Φ := fun ck : Dev nD × Fin 26 => cellInv ER (Rd m) (K ck) (kcell ck)) (Finset.mem_univ (c', i)))
theorem A_reached (K : Dev nD × Fin 26 → ℕ) (c' : Dev nD) {i : Fin 26} {g} (h : cellK i = g) :
    records m K ⊢ reached ER ((c' : Thread nD τ), g) 0 := by
  subst h; unfold records
  exact (BI.Entails.trans BI.sep_and and_elimR).trans (bigSep_elim (Φ := fun ck : Dev nD × Fin 26 => reached ER (kcell ck) 0) (Finset.mem_univ (c', i)))

theorem A_X0q (c : Dev nD) : X0q m c = sq3 (k0_pay8 (xin m c)) := rfl
theorem A_Wi0 (c : Dev nD) : Wi m c 0 = sqW (k0_pay2 (k0_pay1 (wiIn m c 0))) := rfl
theorem A_Wi1 (c : Dev nD) : Wi m c 1 = sqW (k0_pay4 (wiIn m c 1)) := rfl
theorem A_Wi2 (c : Dev nD) : Wi m c 2 = sqW (k0_pay6 (wiIn m c 2)) := rfl
theorem A_Wo0 (c : Dev nD) : Wo m c 0 = sqO (k0_pay3 (woIn m c 0)) := rfl
theorem A_Wo1 (c : Dev nD) : Wo m c 1 = sqO (k0_pay5 (woIn m c 1)) := rfl
theorem A_Wo2 (c : Dev nD) : Wo m c 2 = sqO (k0_pay7 (woIn m c 2)) := rfl

theorem A_cA_slot (b : Memref sig .tc .vmem S4x128x128 .bf16) (j j' : Fin 4) : (slotJ b j).view.dmaCredit = (slotJ b j').view.dmaCredit := rfl

theorem A_send_x (K : Dev nD × Fin 26 → ℕ) (c n : Dev nD) (d : Fin 4) (hn : n = pp c d) (hd : d ≠ 0) {off : Fin 3 → Nat} (hoff : off = ![(qd c).val, 0, 0])
    {inb : ∀ a, off a + S1x128x128.size a ≤ S4x128x128.size a}
    {hsc : ((slot4 xgM off inb) : Memref sig (Dev.tc n : Thread nD τ).2.kind .vmem S128x128 .bf16).view.ref.isScScratch = false}
    {sS rS : DmaSem sig} (hsS : sS = asS 0) (hrS : rS = arS 0) {hsrc : (slot4 xgM off inb).view.WordExact} {hdst : (slot4 xgM off inb).view.WordExact}
    {hsem : DmaTarget.Typed .vmem (.dma rS) (.remote (Dev.tc n : Thread nD τ) (slot4 xgM off inb) (.dma sS) hsc)}
    {α : Type} {Q : α → sProp 𝕄} {k : PUnit → Prog (TpuEff nD τ sig (Elt F) Λ₀ .tc) α}
    (a a' : ℕ) (h : (owedItems c).drop a = (arC (pp c d) 0, cA 0) :: (owedItems c).drop a') (W : Waits sig Unit) :
    iprop(records m K ∗ holds c (slotJ xgM (qd c)) (sh d) (X0q m c) ∗ holdsAny (pp c d) (slotJ xgM (qd c))
        ∗ owes (c : Thread nD τ) (owedL ((owedItems c).drop a)) W ∗ dutyTok ER (asC c 0) 0 d ∗ dutyTok ER (arC (pp c d) 0) 0 (inv d))
      ⊢ iprop(((cred (tallyAt (asC c 0) () (cA 0)) ∗ owes (c : Thread nD τ) (owedL ((owedItems c).drop a')) W) -∗ wpX[c] (k ⟨⟩) Q)
          -∗ wpX[c] (.op (.enqueueDma (slot4 xgM off inb) (.remote (Dev.tc n : Thread nD τ) (slot4 xgM off inb) (.dma sS) hsc) (.dma rS) hsrc hdst hsem) k) Q) := by
  subst hn; subst hoff; subst hsS; subst hrS
  iintro ⟨#HR, Hs, Hd, HO, Ht1, Ht2⟩
  ihave HO := (A_next c a a' _ W h) $$ HO
  have hp2 : (Rd m).payload (arC (pp c d) 0) 0 (inv d) = holds (pp c d) (slotJ xgM (qd c)) fullShare (X0q m c) := by
    rw [payload_ar, arPay_0, pp_pp_inv]
  iapply (wp_send_holds m c (pp c d) (src := slotJ xgM (qd c)) (dst := slotJ xgM (qd c)) (hsc := hsc) (hsrc := hsrc) (hdst := hdst) (hsem := hsem) (k := k) (Q := Q)
      (κ₁ := K (c, ⟨14 + (0 : Fin 6).val, by omega⟩)) (κ₂ := K (pp c d, ⟨20 + (0 : Fin 6).val, by omega⟩)) d (inv d) (cA 0) (X0q m c) (sh d) ((owedItems c).drop a') W
      (mem_as m c 0 d hd) (mem_ar m (pp c d) 0 (inv d) (A_inv_ne d hd)) (A_cA_slot xgM (qd c) 0) (amount_as m c 0 d) (amount_ar m (pp c d) 0 (inv d))
      ((payload_as m c 0 d).trans (asPay_0 m c d)) hp2 (routes_pp c d)) $$ [Hs Hd HO Ht1 Ht2]
  iframe
  isplitr; · iapply (A_inv m K c (cellK_as 0)); iexact HR
  isplitr; · iapply (A_inv m K (pp c d) (cellK_ar 0)); iexact HR
  isplitr; · iapply (A_reached m K c (cellK_as 0)); iexact HR
  iapply (A_reached m K (pp c d) (cellK_ar 0)); iexact HR

theorem A_send_w (K : Dev nD × Fin 26 → ℕ) (c n : Dev nD) (hn : n = pp c 0) (j : Fin 6) {s : Shape} {e : EltTy} {src dst : Memref sig .tc .vmem s e}
    {hsc : (dst : Memref sig (Dev.tc n : Thread nD τ).2.kind .vmem s e).view.ref.isScScratch = false}
    {sS rS : DmaSem sig} (hsS : sS = wsS j) (hrS : rS = wrS j) {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (w : s.Idx → Elt F e) (a a' : ℕ) (h : (owedItems c).drop a = (wrC (pp c 0) j, cW j) :: (owedItems c).drop a') (W : Waits sig Unit)
    (hs : wsPay m c j = holds c src shR w) (hr : wrPay m (pp c 0) j = holds (pp c 0) dst fullShare w) (hN : dst.view.dmaCredit = cW j) :
    iprop(records m K ∗ holds c src fullShare w ∗ holdsAny (pp c 0) dst ∗ owes (c : Thread nD τ) (owedL ((owedItems c).drop a)) W
        ∗ dutyTok ER (wsC c j) 0 0 ∗ dutyTok ER (wrC (pp c 0) j) 0 0)
      ⊢ iprop(((holds c src shK w ∗ cred (tallyAt (wsC c j) () (cW j)) ∗ owes (c : Thread nD τ) (owedL ((owedItems c).drop a')) W) -∗ wpX[c] (k ⟨⟩) Q)
          -∗ wpX[c] (.op (.enqueueDma src (.remote (Dev.tc n : Thread nD τ) dst (.dma sS) hsc) (.dma rS) hsrc hdst hsem) k) Q) := by
  subst hn; subst hsS; subst hrS
  iintro ⟨#HR, Hs, Hd, HO, Ht1, Ht2⟩ Hk
  ihave ⟨HsK, Hs⟩ := (holds_split c src fullShare w) $$ Hs
  ihave HO := (A_next c a a' _ W h) $$ HO
  iapply (wp_send_holds m c (pp c 0) (hsc := hsc) (hsrc := hsrc) (hdst := hdst) (hsem := hsem) (k := k) (Q := Q)
      (κ₁ := K (c, ⟨2 + j.val, by omega⟩)) (κ₂ := K (pp c 0, ⟨8 + j.val, by omega⟩)) 0 0 (cW j) w shR ((owedItems c).drop a') W
      (mem_ws m c j) (mem_wr m (pp c 0) j) hN (amount_ws m c j 0) (amount_wr m (pp c 0) j 0)
      ((payload_ws m c j 0).trans hs) ((payload_wr m (pp c 0) j 0).trans hr) (routes_pp c 0)) $$ [Hs Hd HO Ht1 Ht2]
  · iframe
    isplitr; · iapply (A_inv m K c (cellK_ws j)); iexact HR
    isplitr; · iapply (A_inv m K (pp c 0) (cellK_wr j)); iexact HR
    isplitr; · iapply (A_reached m K c (cellK_ws j)); iexact HR
    iapply (A_reached m K (pp c 0) (cellK_wr j)); iexact HR
  iintro ⟨Hcr, HO⟩
  iapply Hk
  iframe

theorem part1_spec (K : Dev nD × Fin 26 → ℕ) (c : Dev nD) (W : Waits sig Unit) (Q : _ → sProp 𝕄) :
    iprop(records m K ∗ iprop(owesFrom c 0 W
    ∗ (dutyTok ER (barC (pp c 0)) 0 (inv 0) ∗ dutyTok ER (barC (pp c 1)) 0 (inv 1) ∗ dutyTok ER (barC (pp c 2)) 0 (inv 2) ∗ dutyTok ER (barC (pp c 3)) 0 (inv 3))
    ∗ stg c cc0_stg1_0 (wiIn m c 0)
    ∗ (holdsAny c (winsJ 1 0) ∗ holdsAny c (woutsJ 1 0) ∗ holdsAny c (winsJ 1 1) ∗ holdsAny c (woutsJ 1 1) ∗ holdsAny c (winsJ 1 2) ∗ holdsAny c (woutsJ 1 2))
    ∗ any4 c xgM ∗ any4 c (raccM 0) ∗ any4 c (xnM 0) ∗ any4 c (raccM 1) ∗ any4 c (xnM 1) ∗ any4 c (raccM 2))
        ∗ (∀ v3, ∀ v4, ∀ v6, iprop(owesFrom c 4 W ∗ stg c cc0_stg1_0 (wiIn m c 0)
    ∗ holdsAny c (slotJ xgM (qd c)) ∗ holdsAny c (slotJ (raccM 0) (qd c)) ∗ holdsAny c (slotJ (xnM 0) (qd c)) ∗ holdsAny c (slotJ (raccM 1) (qd c))
    ∗ holdsAny c (slotJ (xnM 1) (qd c)) ∗ holdsAny c (slotJ (raccM 2) (qd c))) -∗ Q ⟨c, v3, v4, v6, SemArray.scalar (sig.barrier 0 rfl), k0_pay1 (wiIn m c 0)⟩))
      ⊢ wpX[c] (ARGS k0_part1) Q := by
  simp only [k0_part1_eq_skeleton]; unfold k0_part1_skel
  simp only [semSignalWord, semWaitWord, Prog.lift, Prog.bind_op, Prog.bind_ret, Prog.pure_eq_ret, wp_deviceId]
  unfold owesFrom
  iintro ⟨#HR, ⟨HO, ⟨Ht0, Ht1, Ht2, Ht3⟩, Hs1, HW1, Hxg, Hr0, Hx0, Hr1, Hx1, Hr2⟩, Hk⟩
  ihave ⟨Hxg0, Hxg1, Hxg2, Hxg3⟩ := (A_any4 c xgM) $$ Hxg
  ihave ⟨Hr00, Hr01, Hr02, Hr03⟩ := (A_any4 c (raccM 0)) $$ Hr0
  ihave ⟨Hx00, Hx01, Hx02, Hx03⟩ := (A_any4 c (xnM 0)) $$ Hx0
  ihave ⟨Hr10, Hr11, Hr12, Hr13⟩ := (A_any4 c (raccM 1)) $$ Hr1
  ihave ⟨Hx10, Hx11, Hx12, Hx13⟩ := (A_any4 c (xnM 1)) $$ Hx1
  ihave ⟨Hr20, Hr21, Hr22, Hr23⟩ := (A_any4 c (raccM 2)) $$ Hr2
  ihave HO := (A_next c 0 1 (barC (pp c 0), 1) W rfl) $$ HO
  iapply (wp_sig_bar m c _ 0 (dev_eq1 c) rfl (κ := K (pp c 0, 0)) ((owedItems c).drop 1) W) $$ [HO Ht0 HW1]
  · rw [barPay_to0]; iframe
    isplitr; · iapply (A_inv m K (pp c 0) cellK_bar); iexact HR
    iapply (A_reached m K (pp c 0) cellK_bar); iexact HR
  iintro HO
  ihave HO := (A_next c 1 2 (barC (pp c 1), 1) W rfl) $$ HO
  iapply (wp_sig_bar m c _ 1 (dev_eq2 c) rfl (κ := K (pp c 1, 0)) ((owedItems c).drop 2) W) $$ [HO Ht1 Hxg1 Hr01 Hx01 Hr11 Hx11 Hr21]
  · rw [barPay_to c 1 (by decide)]; iframe
    isplitr; · iapply (A_inv m K (pp c 1) cellK_bar); iexact HR
    iapply (A_reached m K (pp c 1) cellK_bar); iexact HR
  iintro HO
  ihave HO := (A_next c 2 3 (barC (pp c 2), 1) W rfl) $$ HO
  iapply (wp_sig_bar m c _ 2 (dev_eq3 c) rfl (κ := K (pp c 2, 0)) ((owedItems c).drop 3) W) $$ [HO Ht2 Hxg2 Hr02 Hx02 Hr12 Hx12 Hr22]
  · rw [barPay_to c 2 (by decide)]; iframe
    isplitr; · iapply (A_inv m K (pp c 2) cellK_bar); iexact HR
    iapply (A_reached m K (pp c 2) cellK_bar); iexact HR
  iintro HO
  ihave HO := (A_next c 3 4 (barC (pp c 3), 1) W rfl) $$ HO
  iapply (wp_sig_bar m c _ 3 (dev_eq4 c) rfl (κ := K (pp c 3, 0)) ((owedItems c).drop 4) W) $$ [HO Ht3 Hxg3 Hr03 Hx03 Hr13 Hx13 Hr23]
  · rw [barPay_to c 3 (by decide)]; iframe
    isplitr; · iapply (A_inv m K (pp c 3) cellK_bar); iexact HR
    iapply (A_reached m K (pp c 3) cellK_bar); iexact HR
  iintro HO
  iapply (A_load_stg c 1 rfl (wiIn m c 0) A_hz2) $$ Hs1
  iintro Hs1
  iapply (A_ret c)
  iapply Hk
  iframe

theorem part2_spec (c : Dev nD) (Q : PUnit → sProp 𝕄) :
    iprop(iprop(stg c cc0_stg2_0 (woIn m c 0) ∗ stg c cc0_stg3_0 (wiIn m c 1) ∗ stg c cc0_stg4_0 (woIn m c 1) ∗ stg c cc0_stg5_0 (wiIn m c 2)
    ∗ holdsAny c (winsJ 0 0) ∗ holdsAny c (woutsJ 0 0) ∗ holdsAny c (winsJ 0 1) ∗ holdsAny c (woutsJ 0 1) ∗ holdsAny c (winsJ 0 2))
        ∗ (iprop(stg c cc0_stg2_0 (woIn m c 0) ∗ stg c cc0_stg3_0 (wiIn m c 1) ∗ stg c cc0_stg4_0 (woIn m c 1) ∗ stg c cc0_stg5_0 (wiIn m c 2)
    ∗ holds c (winsJ 0 0) fullShare (Wi m c 0) ∗ holds c (woutsJ 0 0) fullShare (Wo m c 0) ∗ holds c (winsJ 0 1) fullShare (Wi m c 1)
    ∗ holds c (woutsJ 0 1) fullShare (Wo m c 1) ∗ holds c (winsJ 0 2) fullShare (Wi m c 2)) -∗ Q ⟨⟩)) ⊢ wpX[c] ((ARGS k0_part2) (k0_pay1 (wiIn m c 0))) Q := by
  simp only [k0_part2_eq_skeleton]; unfold k0_part2_skel
  simp only [Prog.lift, Prog.bind_op, Prog.bind_ret, Prog.pure_eq_ret]
  iintro ⟨⟨Hs2, Hs3, Hs4, Hs5, Hw0, Ho0, Hw1, Ho1, Hw2⟩, Hk⟩
  iapply (wp_load_wslice_any c 0 0 rfl) $$ Hw0
  iintro %x0 Hw0
  iapply (wp_store_wslice c 0 0 rfl) $$ Hw0
  iintro Hw0
  iapply (A_load_stg c 2 rfl (woIn m c 0) A_hz2) $$ Hs2
  iintro Hs2
  iapply (wp_load_oslice_any c 0 0 rfl) $$ Ho0
  iintro %y0 Ho0
  iapply (wp_store_oslice c 0 0 rfl) $$ Ho0
  iintro Ho0
  iapply (A_load_stg c 3 rfl (wiIn m c 1) A_hz2) $$ Hs3
  iintro Hs3
  iapply (wp_load_wslice_any c 0 1 rfl) $$ Hw1
  iintro %x1 Hw1
  iapply (wp_store_wslice c 0 1 rfl) $$ Hw1
  iintro Hw1
  iapply (A_load_stg c 4 rfl (woIn m c 1) A_hz2) $$ Hs4
  iintro Hs4
  iapply (wp_load_oslice_any c 0 1 rfl) $$ Ho1
  iintro %y1 Ho1
  iapply (wp_store_oslice c 0 1 rfl) $$ Ho1
  iintro Ho1
  iapply (A_load_stg c 5 rfl (wiIn m c 2) A_hz2) $$ Hs5
  iintro Hs5
  iapply (wp_load_wslice_any c 0 2 rfl) $$ Hw2
  iintro %x2 Hw2
  iapply (wp_store_wslice c 0 2 rfl) $$ Hw2
  iintro Hw2
  iapply (A_ret c)
  iapply Hk
  rw [A_Wi0, A_Wo0, A_Wi1, A_Wo1, A_Wi2]
  iframe

theorem part3_spec (K : Dev nD × Fin 26 → ℕ) (c : Dev nD) (v3 v4 : BitVec 32) (W : Waits sig Unit) (Q : _ → sProp 𝕄) :
    iprop(records m K ∗ levAts L lv ∗ iprop(stg c cc0_stg6_0 (woIn m c 2) ∗ stg c cc0_stg0_0 (xin m c) ∗ holdsAny c (woutsJ 0 2) ∗ holdsAny c (slotJ xgM (qd c))
    ∗ fresh (barC c) ∗ cred (tallyAt (barC c) () 4) ∗ owesFrom c 4 W ∗ dutyTok ER (asC c 0) 0 1 ∗ dutyTok ER (arC (pp c 1) 0) 0 (inv 1))
        ∗ (∀ v70, ∀ v83, ∀ v84, ∀ c0, iprop(stg c cc0_stg6_0 (woIn m c 2) ∗ stg c cc0_stg0_0 (xin m c) ∗ holds c (woutsJ 0 2) fullShare (Wo m c 2) ∗ done (barC c)
    ∗ owesFrom c 5 (insert (SemLoc.reg barS, ()) W)
    ∗ (holdsAny (pp c 0) (winsJ 1 0) ∗ holdsAny (pp c 0) (woutsJ 1 0) ∗ holdsAny (pp c 0) (winsJ 1 1) ∗ holdsAny (pp c 0) (woutsJ 1 1) ∗ holdsAny (pp c 0) (winsJ 1 2) ∗ holdsAny (pp c 0) (woutsJ 1 2))
    ∗ holdsAny (pp c 2) (slotJ xgM (qd c)) ∗ holdsAny (pp c 3) (slotJ xgM (qd c))
    ∗ lent c 1 ∗ lent c 2 ∗ lent c 3 ∗ lent c 4 ∗ lent c 5
    ∗ holds c (slotJ xgM (qd c)) shK (X0q m c) ∗ holds c (slotJ xgM (qd c)) (sh 2) (X0q m c) ∗ holds c (slotJ xgM (qd c)) (sh 3) (X0q m c)
    ∗ cred (tallyAt (asC c 0) () (cA 0))) -∗ Q ⟨v70, v83, v84, c0⟩))
      ⊢ wpX[c] ((ARGS k0_part3) c v3 v4 (SemArray.scalar (sig.barrier 0 rfl))) Q := by
  simp only [k0_part3_eq_skeleton]; unfold k0_part3_skel
  simp only [semSignalWord, semWaitWord, Prog.lift, Prog.bind_op, Prog.bind_ret, Prog.pure_eq_ret]
  unfold fresh done owesFrom
  iintro ⟨#HR, #Hlev, ⟨Hs6, Hs0, Ho2, Hxg, Hfr, Hcr, HO, Htas, Htar⟩, Hk⟩
  iapply (A_load_stg c 6 rfl (woIn m c 2) A_hz2) $$ Hs6
  iintro Hs6
  iapply (wp_load_oslice_any c 0 2 rfl) $$ Ho2
  iintro %y2 Ho2
  iapply (wp_store_oslice c 0 2 rfl) $$ Ho2
  iintro Ho2
  iapply (A_load_stg c 0 rfl (xin m c) A_hz2) $$ Hs0
  iintro Hs0
  iapply (wp_load_slot_any c xgM (qd c) (off1_eq c)) $$ Hxg
  iintro %x0 Hxg
  iapply (wp_store_slot c xgM (qd c) (off1_eq c)) $$ Hxg
  iintro Hxg
  iapply (wp_wait_bar m c _ rfl rfl (κ := K (c, 0)) (owedL ((owedItems c).drop 4)) W) $$ [Hcr HO Hfr]
  · iframe
    isplitr; · iapply (A_inv m K c cellK_bar); iexact HR
    iapply (mayWait_bar c); iexact Hlev
  iintro ⟨HO, Hdone, Hp0, Hp1, Hp2, Hp3⟩
  ihave Hp0 := (Entails.of_eq (barPay_0 (F := F) c)) $$ Hp0
  ihave ⟨Hg1, Ha1, Hb1, Hc1, Hd1, He1⟩ := (Entails.of_eq (barPay_peer (F := F) c 1 (by decide))) $$ Hp1
  ihave ⟨Hg2, Ha2, Hb2, Hc2, Hd2, He2⟩ := (Entails.of_eq (barPay_peer (F := F) c 2 (by decide))) $$ Hp2
  ihave ⟨Hg3, Ha3, Hb3, Hc3, Hd3, He3⟩ := (Entails.of_eq (barPay_peer (F := F) c 3 (by decide))) $$ Hp3
  ihave Hxg := (Entails.of_eq (congrArg (holds c (slotJ xgM (qd c)) fullShare) (A_X0q m c).symm)) $$ Hxg
  ihave ⟨HxK, Hxr⟩ := (holds_split c (slotJ xgM (qd c)) fullShare (X0q m c)) $$ Hxg
  ihave ⟨Hx1, Hxr⟩ := (holds_split c (slotJ xgM (qd c)) fullShare.right (X0q m c)) $$ Hxr
  ihave ⟨Hx2, Hx3⟩ := (holds_split c (slotJ xgM (qd c)) fullShare.right.right (X0q m c)) $$ Hxr
  iapply (A_send_x m K c _ 1 (dev_eq5 c) (by decide) (off2_eq c) A_asS0 A_arS0 4 5 rfl (insert (SemLoc.reg barS, ()) W)) $$ [Hx1 Hg1 HO Htas Htar]
  · rw [A_sh1]; iframe # ∗
  iintro ⟨Hc1', HO⟩
  iapply (A_ret c)
  iapply Hk
  rw [A_Wo2, A_sh2, A_sh3]; unfold lent
  iframe

theorem part4_spec (K : Dev nD × Fin 26 → ℕ) (c : Dev nD) (v3 v4 v6 v84 c0 : BitVec 32) (W : Waits sig Unit) (Q : BitVec 32 → sProp 𝕄) :
    iprop(records m K ∗ iprop(holds c (slotJ xgM (qd c)) (sh 2) (X0q m c) ∗ holds c (slotJ xgM (qd c)) (sh 3) (X0q m c)
    ∗ holdsAny (pp c 2) (slotJ xgM (qd c)) ∗ holdsAny (pp c 3) (slotJ xgM (qd c)) ∗ owesFrom c 5 W
    ∗ dutyTok ER (asC c 0) 0 2 ∗ dutyTok ER (asC c 0) 0 3 ∗ dutyTok ER (arC (pp c 2) 0) 0 (inv 2) ∗ dutyTok ER (arC (pp c 3) 0) 0 (inv 3))
        ∗ (∀ r, iprop(owesFrom c 7 W ∗ cred (tallyAt (asC c 0) () (cA 0)) ∗ cred (tallyAt (asC c 0) () (cA 0))) -∗ Q r)) ⊢ wpX[c] ((ARGS k0_part4) c v3 v4 v6 v84 c0) Q := by
  simp only [k0_part4_eq_skeleton]; unfold k0_part4_skel
  simp only [Prog.lift, Prog.bind_op, Prog.bind_ret, Prog.pure_eq_ret]
  unfold owesFrom
  iintro ⟨#HR, ⟨Hx2, Hx3, Hg2, Hg3, HO, Hts2, Hts3, Htr2, Htr3⟩, Hk⟩
  iapply (A_send_x m K c _ 2 (dev_eq6 c) (by decide) (off2_eq c) A_asS0 A_arS0 5 6 rfl W) $$ [Hx2 Hg2 HO Hts2 Htr2]
  · iframe # ∗
  iintro ⟨Hc2, HO⟩
  iapply (A_send_x m K c _ 3 (dev_eq7 c) (by decide) (off2_eq c) A_asS0 A_arS0 6 7 rfl W) $$ [Hx3 Hg3 HO Hts3 Htr3]
  · iframe # ∗
  iintro ⟨Hc3, HO⟩
  iapply (A_ret c)
  iapply Hk
  iframe

theorem part5_spec (K : Dev nD × Fin 26 → ℕ) (c : Dev nD) (v6 : BitVec 32) (W : Waits sig Unit) (Q : PUnit → sProp 𝕄) :
    iprop(records m K ∗ iprop(holds c (winsJ 0 0) fullShare (Wi m c 0) ∗ holds c (woutsJ 0 0) fullShare (Wo m c 0) ∗ holds c (winsJ 0 1) fullShare (Wi m c 1)
    ∗ holdsAny (pp c 0) (winsJ 1 0) ∗ holdsAny (pp c 0) (woutsJ 1 0) ∗ holdsAny (pp c 0) (winsJ 1 1) ∗ owesFrom c 7 W
    ∗ (dutyTok ER (wsC c 0) 0 0 ∗ dutyTok ER (wsC c 1) 0 0 ∗ dutyTok ER (wsC c 2) 0 0)
    ∗ (dutyTok ER (wrC (pp c 0) 0) 0 0 ∗ dutyTok ER (wrC (pp c 0) 1) 0 0 ∗ dutyTok ER (wrC (pp c 0) 2) 0 0))
        ∗ (iprop(holds c (winsJ 0 0) shK (Wi m c 0) ∗ holds c (woutsJ 0 0) shK (Wo m c 0) ∗ holds c (winsJ 0 1) shK (Wi m c 1) ∗ owesFrom c 10 W
    ∗ cred (tallyAt (wsC c 0) () (cW 0)) ∗ cred (tallyAt (wsC c 1) () (cW 1)) ∗ cred (tallyAt (wsC c 2) () (cW 2))) -∗ Q ⟨⟩)) ⊢ wpX[c] ((ARGS k0_part5) c v6) Q := by
  simp only [k0_part5_eq_skeleton]; unfold k0_part5_skel
  simp only [Prog.lift, Prog.bind_op, Prog.bind_ret, Prog.pure_eq_ret]
  unfold owesFrom
  have h0 : pp (pp c 0) 0 = c := pp_pp_inv c 0
  iintro ⟨#HR, ⟨Hw0, Ho0, Hw1, Hd0, Hd1, Hd2, HO, ⟨Hts0, Hts1, Hts2⟩, ⟨Htr0, Htr1, Htr2⟩⟩, Hk⟩
  iapply (A_send_w m K c _ (dev_eq8 c) 0 (src := winsJ 0 0) (dst := winsJ 1 0) (A_wsS 0) (A_wrS 0) (Wi m c 0) 7 8 rfl W
      (wsPay_0 m c) (by rw [wrPay_0, h0]) rfl) $$ [Hw0 Hd0 HO Hts0 Htr0]
  · iframe # ∗
  iintro ⟨Hw0K, Hcr0, HO⟩
  iapply (A_send_w m K c _ (dev_eq9 c) 1 (src := woutsJ 0 0) (dst := woutsJ 1 0) (A_wsS 1) (A_wrS 1) (Wo m c 0) 8 9 rfl W
      (wsPay_1 m c) (by rw [wrPay_1, h0]) rfl) $$ [Ho0 Hd1 HO Hts1 Htr1]
  · iframe # ∗
  iintro ⟨Ho0K, Hcr1, HO⟩
  iapply (A_send_w m K c _ (dev_eq10 c) 2 (src := winsJ 0 1) (dst := winsJ 1 1) (A_wsS 2) (A_wrS 2) (Wi m c 1) 9 10 rfl W
      (wsPay_2 m c) (by rw [wrPay_2, h0]) rfl) $$ [Hw1 Hd2 HO Hts2 Htr2]
  · iframe # ∗
  iintro ⟨Hw1K, Hcr2, HO⟩
  iapply (A_ret c)
  iapply Hk
  iframe

theorem part6_spec (K : Dev nD × Fin 26 → ℕ) (c : Dev nD) (v6 v70 : BitVec 32) (W : Waits sig Unit) (Q : BitVec 32 → sProp 𝕄) :
    iprop(records m K ∗ iprop(holds c (woutsJ 0 1) fullShare (Wo m c 1) ∗ holds c (winsJ 0 2) fullShare (Wi m c 2) ∗ holds c (woutsJ 0 2) fullShare (Wo m c 2)
    ∗ holdsAny (pp c 0) (woutsJ 1 1) ∗ holdsAny (pp c 0) (winsJ 1 2) ∗ holdsAny (pp c 0) (woutsJ 1 2) ∗ owesFrom c 10 W
    ∗ (dutyTok ER (wsC c 3) 0 0 ∗ dutyTok ER (wsC c 4) 0 0 ∗ dutyTok ER (wsC c 5) 0 0)
    ∗ (dutyTok ER (wrC (pp c 0) 3) 0 0 ∗ dutyTok ER (wrC (pp c 0) 4) 0 0 ∗ dutyTok ER (wrC (pp c 0) 5) 0 0))
        ∗ (∀ r, iprop(holds c (woutsJ 0 1) shK (Wo m c 1) ∗ holds c (winsJ 0 2) shK (Wi m c 2) ∗ holds c (woutsJ 0 2) shK (Wo m c 2) ∗ owesFrom c 13 W
    ∗ cred (tallyAt (wsC c 3) () (cW 3)) ∗ cred (tallyAt (wsC c 4) () (cW 4)) ∗ cred (tallyAt (wsC c 5) () (cW 5))) -∗ Q r)) ⊢ wpX[c] ((ARGS k0_part6) c v6 v70) Q := by
  simp only [k0_part6_eq_skeleton]; unfold k0_part6_skel
  simp only [Prog.lift, Prog.bind_op, Prog.bind_ret, Prog.pure_eq_ret]
  unfold owesFrom
  have h0 : pp (pp c 0) 0 = c := pp_pp_inv c 0
  iintro ⟨#HR, ⟨Ho1, Hw2, Ho2, Hd3, Hd4, Hd5, HO, ⟨Hts3, Hts4, Hts5⟩, ⟨Htr3, Htr4, Htr5⟩⟩, Hk⟩
  iapply (A_send_w m K c _ (dev_eq11 c) 3 (src := woutsJ 0 1) (dst := woutsJ 1 1) (A_wsS 3) (A_wrS 3) (Wo m c 1) 10 11 rfl W
      (wsPay_3 m c) (by rw [wrPay_3, h0]) rfl) $$ [Ho1 Hd3 HO Hts3 Htr3]
  · iframe # ∗
  iintro ⟨Ho1K, Hcr3, HO⟩
  iapply (A_send_w m K c _ (dev_eq12 c) 4 (src := winsJ 0 2) (dst := winsJ 1 2) (A_wsS 4) (A_wrS 4) (Wi m c 2) 11 12 rfl W
      (wsPay_4 m c) (by rw [wrPay_4, h0]) rfl) $$ [Hw2 Hd4 HO Hts4 Htr4]
  · iframe # ∗
  iintro ⟨Hw2K, Hcr4, HO⟩
  iapply (A_send_w m K c _ (dev_eq13 c) 5 (src := woutsJ 0 2) (dst := woutsJ 1 2) (A_wsS 5) (A_wrS 5) (Wo m c 2) 12 13 rfl W
      (wsPay_5 m c) (by rw [wrPay_5, h0]) rfl) $$ [Ho2 Hd5 HO Hts5 Htr5]
  · iframe # ∗
  iintro ⟨Ho2K, Hcr5, HO⟩
  iapply (A_ret c)
  iapply Hk
  iframe

theorem phaseA (K : Dev nD × Fin 26 → ℕ) (c : Dev nD) (W : Waits sig Unit) {α : Type}
    (KK' : Dev nD → BitVec 32 → BitVec 32 → BitVec 32 → BitVec 32 → BitVec 32 → BitVec 32 → Prog (TpuEff nD τ sig (Elt F) Λ₀ .tc) α) (Q : α → sProp 𝕄) :
    iprop(records m K ∗ levAts L lv ∗ preA m c W ∗ (∀ v3, ∀ v4, ∀ v6, ∀ v83, ∀ v96, ∀ v167, postA m c -∗ wpX[c] (KK' c v3 v4 v6 v83 v96 v167) Q))
      ⊢ wpX[c] (do
          let ⟨d0, v3, v4, v6, v7, v27⟩ : Σ' (d0 : Dev nD) (v3 : BitVec 32) (v4 : BitVec 32) (v6 : BitVec 32) (v7 : Sems sig S_), FVec F S128x256 .bf16 ← ARGS k0_part1
          (ARGS k0_part2) v27
          let ⟨v70, v83, v84, c0_i32_70⟩ : Σ' (v70 : BitVec 32) (v83 : BitVec 32) (v84 : BitVec 32), BitVec 32 ← (ARGS k0_part3) d0 v3 v4 v7
          let v96 : BitVec 32 ← (ARGS k0_part4) d0 v3 v4 v6 v84 c0_i32_70
          (ARGS k0_part5) d0 v6
          let v167 : BitVec 32 ← (ARGS k0_part6) d0 v6 v70
          KK' d0 v3 v4 v6 v83 v96 v167) Q := by
  unfold preA postA stgIn arTok asTok asCred
  simp only [X_bigSep_fin6]
  iintro ⟨#HR, #Hlev, ⟨HO, Hfr, Hcr, ⟨Htb0, Htb1, Htb2, Htb3⟩, ⟨Htar1, Htar2, Htar3⟩, ⟨Htas1, Htas2, Htas3⟩, ⟨Hts0, Hts1, Hts2, Hts3, Hts4, Hts5⟩,
    ⟨Htr0, Htr1, Htr2, Htr3, Htr4, Htr5⟩, ⟨Hs0, Hs1, Hs2, Hs3, Hs4, Hs5, Hs6⟩, ⟨Hw0, Ho0, Hw1, Ho1, Hw2, Ho2⟩, HW1, Hxg, Hr0, Hx0, Hr1, Hx1, Hr2⟩, Hk⟩
  iapply (A_bind c)
  iapply (part1_spec m K c W)
  iframe # ∗
  iintro %v3 %v4 %v6 ⟨HO, Hs1, Hxg0, Hr00, Hx00, Hr10, Hx10, Hr20⟩
  iapply (A_bind c)
  iapply (part2_spec m c)
  iframe
  iintro ⟨Hs2, Hs3, Hs4, Hs5, Hw0, Ho0, Hw1, Ho1, Hw2⟩
  iapply (A_bind c)
  iapply (part3_spec m K c v3 v4 W)
  iframe # ∗
  iintro %v70 %v83 %v84 %c0 ⟨Hs6, Hs0, Ho2, Hdone, HO, ⟨Hd0, Hd1, Hd2, Hd3, Hd4, Hd5⟩, Hg2, Hg3, Hl1, Hl2, Hl3, Hl4, Hl5, HxK, Hx2, Hx3, Hc1⟩
  iapply (A_bind c)
  iapply (part4_spec m K c v3 v4 v6 v84 c0 (insert (SemLoc.reg barS, ()) W))
  iframe # ∗
  iintro %v96 ⟨HO, Hc2, Hc3⟩
  iapply (A_bind c)
  iapply (part5_spec m K c v6 (insert (SemLoc.reg barS, ()) W))
  iframe # ∗
  iintro ⟨Hw0, Ho0, Hw1, HO, Hcw0, Hcw1, Hcw2⟩
  iapply (A_bind c)
  iapply (part6_spec m K c v6 v70 (insert (SemLoc.reg barS, ()) W))
  iframe # ∗
  iintro %v167 ⟨Ho1, Hw2, Ho2, HO, Hcw3, Hcw4, Hcw5⟩
  iapply Hk
  isplitl [HO]; · iexists (insert (SemLoc.reg barS, ()) W); iexact HO
  iframe

end Cert.KernelIdeal.P

end
-- ==== Proof.BodyShared.lean ====
import proofs.«900976_g7700000000000977_dist_mlpseq_tp1d_bs_bs_b128_d128_h256_v7x_i8_bf16_1_alg».proof.Proof.PhaseSpecs
import proofs.«900976_g7700000000000977_dist_mlpseq_tp1d_bs_bs_b128_d128_h256_v7x_i8_bf16_1_alg».proof.Proof.RoundSteps
import proofs.«900976_g7700000000000977_dist_mlpseq_tp1d_bs_bs_b128_d128_h256_v7x_i8_bf16_1_alg».proof.Proof.HoldsLemmas
import proofs.«900976_g7700000000000977_dist_mlpseq_tp1d_bs_bs_b128_d128_h256_v7x_i8_bf16_1_alg».proof.Proof.Levels
import Idealize.ShloMosaic.Lib.Pipeline.Launch
import Idealize.ShloMosaic.Lib.Tactic

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 26 → ℕ)

/-- The records hold the invariant of cell number i of device c and that its round 0 is reached. -/
theorem cell_at (c : Dev nD) (i : Fin 26) {sm : SemLoc sig} (h : cellK i = sm) :
    records m K ⊢ iprop(cellInv ER (Rd m) (K (c, i)) ((c : Thread nD τ), sm) ∗ reached ER ((c : Thread nD τ), sm) 0) := by
  subst h
  exact BIClass.sep_mono (bigSep_elim (Φ := fun ck : Dev nD × Fin 26 => cellInv ER (Rd m) (K ck) (kcell ck)) (Finset.mem_univ (c, i)))
    (bigSep_elim (Φ := fun ck : Dev nD × Fin 26 => (reached (ER (F := F)) (kcell ck) 0 : sProp 𝕄)) (Finset.mem_univ (c, i)))

theorem inv_wr (c' : Dev nD) (j : Fin 6) : records m K ⊢ cellInv ER (Rd m) (K (c', ⟨8 + j.val, by omega⟩)) (wrC c' j) :=
  (cell_at m K c' _ (cellK_wr j)).trans sep_elim_left

/-- The value peer number d expects from direction inv d is the one c sends in direction d. -/
theorem dstVal_peer (c : Dev nD) (j : Fin 6) (d : Fin 4) : dstVal m (pp c d) j (inv d) = srcVal m c j d := by
  unfold dstVal srcVal; rw [pp_pp_inv]

theorem inv_ne_zero (d : Fin 4) (hd : d ≠ 0) : inv d ≠ 0 := by revert d; decide

theorem cA_slot (j : Fin 6) (q : Fin 4) : (slotJ (dstBuf j) q).view.dmaCredit = cA j := by
  first | rfl | (fin_cases j <;> fin_cases q <;> rfl)

theorem wp_copy_act (c n : Dev nD) (j : Fin 6) (d : Fin 4) (hd : d ≠ 0) (hn : n = pp c d)
    {offs offd : Fin 3 → Nat} {inbs : ∀ a, offs a + S1x128x128.size a ≤ S4x128x128.size a}
    {inbd : ∀ a, offd a + S1x128x128.size a ≤ S4x128x128.size a}
    (hoffs : offs = ![(srcSlot c j d).val, 0, 0]) (hoffd : offd = ![(qd c).val, 0, 0])
    {sS rS : DmaSem sig} (hsS : sS = asS j) (hrS : rS = arS j)
    {hsc : ((slot4 (dstBuf j) offd inbd) : Memref sig (Dev.tc n : Thread nD τ).2.kind .vmem S128x128 .bf16).view.ref.isScScratch = false}
    {hsrc : (slot4 (srcBuf j) offs inbs).view.WordExact} {hdst : (slot4 (dstBuf j) offd inbd).view.WordExact}
    {hsem : DmaTarget.Typed .vmem (.dma rS) (.remote (Dev.tc n : Thread nD τ) (slot4 (dstBuf j) offd inbd) (.dma sS) hsc)}
    {α : Type} {Q : α → sProp 𝕄} {k : PUnit → Prog (TpuEff nD τ sig (Elt F) Λ₀ .tc) α}
    (xs : List (GSem nD τ sig × ℕ)) (W : Waits sig Unit) :
    iprop(records m K ∗ holds c (slotJ (srcBuf j) (srcSlot c j d)) (srcShare j d) (srcVal m c j d)
        ∗ holdsAny (pp c d) (slotJ (dstBuf j) (qd c))
        ∗ owes (c : Thread nD τ) (owedL ((arC (pp c d) j, cA j) :: xs)) W
        ∗ dutyTok ER (asC c j) 0 d ∗ dutyTok ER (arC (pp c d) j) 0 (inv d))
      ⊢ iprop(((cred (tallyAt (asC c j) () (cA j)) ∗ owes (c : Thread nD τ) (owedL xs) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot4 (srcBuf j) offs inbs) (.remote (Dev.tc n : Thread nD τ) (slot4 (dstBuf j) offd inbd) (.dma sS) hsc)
                (.dma rS) hsrc hdst hsem) k) Q) := by
  subst hoffs hoffd hsS hrS hn
  iintro ⟨#HR, Hs, Hd, HO, Ht₁, Ht₂⟩
  ihave ⟨#HI₁, #HR₁⟩ := (cell_at m K c _ (cellK_as j)) $$ HR
  ihave ⟨#HI₂, #HR₂⟩ := (cell_at m K (pp c d) _ (cellK_ar j)) $$ HR
  iapply (wp_send_holds m c (pp c d) (src := slotJ (srcBuf j) (srcSlot c j d)) (dst := slotJ (dstBuf j) (qd c))
      (κ₁ := K (c, ⟨14 + j.val, by omega⟩)) (κ₂ := K (pp c d, ⟨20 + j.val, by omega⟩))
      d (inv d) (cA j) (srcVal m c j d) (srcShare j d) xs W
      (mem_as m c j d hd) (mem_ar m (pp c d) j (inv d) (inv_ne_zero d hd)) (cA_slot j (qd c))
      (amount_as m c j d) (amount_ar m (pp c d) j (inv d)) (payload_as m c j d)
      (by rw [payload_ar, arPay, pp_pp_inv, dstVal_peer]) (routes_pp c d))
  iframe # ∗

/-- One of the three waits on phase j's receive cell that stays within the round, whatever else R is carried along. -/
theorem wait_ar (c : Dev nD) (j : Fin 6) (a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) (R : sProp 𝕄) :
    iprop(records m K ∗ levAts L lv ∗ owes (c : Thread nD τ) O W ∗ midWait m (arC c j) a
        ∗ cred (tallyAt (arC c j) () (cA j)) ∗ R)
      ⊢ iprop(((owes (c : Thread nD τ) O (insert (SemLoc.dma (arS j), ()) W) ∗ midWait m (arC c j) (a + cA j) ∗ R)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (arS j) src dst h₁ h₂) k) Q) := by
  iintro ⟨#HR, #HL, HO, Hmid, Hc, HF⟩ Hk
  iapply (wp_wait3_step m c (arS j) (cA j) a (κ := K (c, ⟨20 + j.val, by omega⟩)) O W hamt) $$ [HO Hmid Hc]
  · iframe; isplitr; · iapply ((cell_at m K c _ (cellK_ar j)).trans sep_elim_left); iexact HR
    iapply hmw; iexact HL
  iintro ⟨HO, Hmid⟩
  iapply Hk; iframe

theorem wait_ar_1 (c : Dev nD) (j : Fin 6) (sm : DmaSem sig) (hs : sm = arS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) :
    iprop(records m K ∗ levAts L lv ∗ owes (c : Thread nD τ) O W ∗ fresh (arC c j) ∗ cred (tallyAt (arC c j) () (3 * cA j)))
      ⊢ iprop(((owes (c : Thread nD τ) O (insert (SemLoc.dma (arS j), ()) W) ∗ midWait m (arC c j) (0 + cA j)
              ∗ cred (tallyAt (arC c j) () (cA j)) ∗ cred (tallyAt (arC c j) () (cA j)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  exact (sep_mono_right (sep_mono_right (sep_mono_right (sep_mono (midWait_zero m _) (cred_three _ _).1)))).trans
    (wait_ar m K c j 0 O W hamt hmw _)

theorem wait_ar_2 (c : Dev nD) (j : Fin 6) (sm : DmaSem sig) (hs : sm = arS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) :
    iprop(records m K ∗ levAts L lv ∗ owes (c : Thread nD τ) O W ∗ midWait m (arC c j) (0 + cA j)
        ∗ cred (tallyAt (arC c j) () (cA j)) ∗ cred (tallyAt (arC c j) () (cA j)))
      ⊢ iprop(((owes (c : Thread nD τ) O (insert (SemLoc.dma (arS j), ()) W) ∗ midWait m (arC c j) (0 + cA j + cA j)
              ∗ cred (tallyAt (arC c j) () (cA j)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  exact wait_ar m K c j _ O W hamt hmw _

theorem wait_ar_3 (c : Dev nD) (j : Fin 6) (sm : DmaSem sig) (hs : sm = arS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) :
    iprop(records m K ∗ levAts L lv ∗ owes (c : Thread nD τ) O W ∗ midWait m (arC c j) (0 + cA j + cA j)
        ∗ cred (tallyAt (arC c j) () (cA j)))
      ⊢ iprop(((owes (c : Thread nD τ) O (insert (SemLoc.dma (arS j), ()) W) ∗ done (arC c j) ∗ got3 m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  unfold done got3
  iintro ⟨#HR, #HL, HO, Hmid, Hc⟩
  iapply (wp_wait_ar_last m c j _ rfl (0 + cA j + cA j) (κ := K (c, ⟨20 + j.val, by omega⟩)) O W hamt (by omega)) $$ [HO Hmid Hc]
  iframe; isplitr; · iapply ((cell_at m K c _ (cellK_ar j)).trans sep_elim_left); iexact HR
  iapply hmw; iexact HL

end Cert.KernelIdeal.P

end
-- ==== Proof.BodyB.lean ====
import proofs.«900976_g7700000000000977_dist_mlpseq_tp1d_bs_bs_b128_d128_h256_v7x_i8_bf16_1_alg».proof.Proof.PhaseSpecs
import proofs.«900976_g7700000000000977_dist_mlpseq_tp1d_bs_bs_b128_d128_h256_v7x_i8_bf16_1_alg».proof.Proof.Levels
import proofs.«900976_g7700000000000977_dist_mlpseq_tp1d_bs_bs_b128_d128_h256_v7x_i8_bf16_1_alg».proof.Proof.HoldsLemmas
import proofs.«900976_g7700000000000977_dist_mlpseq_tp1d_bs_bs_b128_d128_h256_v7x_i8_bf16_1_alg».proof.Proof.RoundSteps
import proofs.«900976_g7700000000000977_dist_mlpseq_tp1d_bs_bs_b128_d128_h256_v7x_i8_bf16_1_alg».proof.Proof.Reindex
import proofs.«900976_g7700000000000977_dist_mlpseq_tp1d_bs_bs_b128_d128_h256_v7x_i8_bf16_1_alg».proof.Proof.BodyShared

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ ((c : Dev nD) : Thread nD τ) none) Set.univ

theorem B_wr0 : ((cc0_scratch12.slice (Rect.unit (s := S6) ![0] S1.size inb_S6_S1_0)).squeeze S_ squeezes_S1_S_).sem = wrS 0 := by decide
theorem B_wr1 : ((cc0_scratch12.slice (Rect.unit (s := S6) ![1] S1.size inb_S6_S1_1)).squeeze S_ squeezes_S1_S_).sem = wrS 1 := by decide
theorem B_wr2 : ((cc0_scratch12.slice (Rect.unit (s := S6) ![2] S1.size inb_S6_S1_2)).squeeze S_ squeezes_S1_S_).sem = wrS 2 := by decide
theorem B_as1 : ((cc0_scratch13.slice (Rect.unit (s := S6) ![1] S1.size inb_S6_S1_1)).squeeze S_ squeezes_S1_S_).sem = asS 1 := by decide
theorem B_as2 : ((cc0_scratch13.slice (Rect.unit (s := S6) ![2] S1.size inb_S6_S1_2)).squeeze S_ squeezes_S1_S_).sem = asS 2 := by decide
theorem B_ar0 : ((cc0_scratch14.slice (Rect.unit (s := S6) ![0] S1.size inb_S6_S1_0)).squeeze S_ squeezes_S1_S_).sem = arS 0 := by decide
theorem B_ar1 : ((cc0_scratch14.slice (Rect.unit (s := S6) ![1] S1.size inb_S6_S1_1)).squeeze S_ squeezes_S1_S_).sem = arS 1 := by decide
theorem B_ar2 : ((cc0_scratch14.slice (Rect.unit (s := S6) ![2] S1.size inb_S6_S1_2)).squeeze S_ squeezes_S1_S_).sem = arS 2 := by decide

theorem B_wp_ret (c : Dev nD) {α : Type} (a : α) (Q : α → sProp 𝕄) : Q a ⊢ wpX[c] (.ret a) Q := by
  rw [wp_ret]; iintro H; imodintro; iexact H

/-- A proved part followed by the rest: the part's postcondition carries the rest. -/
theorem B_seq (c : Dev nD) {α β : Type} {p : Prog (TpuEff nD τ sig (Elt F) Λ₀ .tc) α} {k : α → Prog (TpuEff nD τ sig (Elt F) Λ₀ .tc) β}
    {P : sProp 𝕄} {Φ : α → sProp 𝕄} {Q : β → sProp 𝕄} (h : P ⊢ wpX[c] p Φ) :
    P ⊢ iprop((∀ a, Φ a -∗ wpX[c] (k a) Q) -∗ wpX[c] (p >>= k) Q) := by
  rw [wp_bind]
  exact h.trans (wp_wand _ _ _)

/-- Any slot of phase j's destination buffer carries the phase's credit. -/
theorem B_cA (j : Fin 6) (off : Fin 3 → Nat) (inb : ∀ a, off a + S1x128x128.size a ≤ S4x128x128.size a) :
    (slot4 (dstBuf j) off inb).view.dmaCredit = cA j := rfl

omit [FloatOps F] in
/-- The own slot and the three peers' slots are the four slots, each holding its plane device's value. -/
theorem B_reindex (c : Dev nD) (b : Memref sig .tc .vmem S4x128x128 .bf16) (q : PosShare TreeShare) (f : Dev nD → S128x128.Idx → Elt F .bf16) :
    iprop(holds c (slotJ b (qd c)) q (f c) ∗ holds c (slotJ b (qd (pp c 1))) q (f (pp c 1))
        ∗ holds c (slotJ b (qd (pp c 2))) q (f (pp c 2)) ∗ holds c (slotJ b (qd (pp c 3))) q (f (pp c 3)))
      ⊣⊢ iprop(holds c (slotJ b 0) q (f (plane c 0)) ∗ holds c (slotJ b 1) q (f (plane c 1))
        ∗ holds c (slotJ b 2) q (f (plane c 2)) ∗ holds c (slotJ b 3) q (f (plane c 3))) := by
  have h := X_reindex4 c fun i => holds c (slotJ b i) q (f (plane c i))
  simp only [plane_qd, plane_pp c 1 (by decide), plane_pp c 2 (by decide), plane_pp c 3 (by decide)] at h
  exact h

section Parts
variable (m : (ℓ : Loc nD τ sig) → Buf (Elt F) ℓ) (K : Dev nD × Fin 26 → ℕ) (c : Dev nD)

/-- The four slots of a gathered buffer read whole, each at the left half of the full share. -/
theorem B_load4 (j : Fin 6) (f : Dev nD → S128x128.Idx → Elt F .bf16)
    (hf : ∀ d, dstVal m c j d = f (pp c d)) {b : Memref sig .tc .vmem S4x128x128 .bf16} (hb : b = dstBuf j)
    {off : Fin 3 → Nat} (hoff : off = ![0, 0, 0]) {inb : ∀ a, off a + S4x128x128.size a ≤ S4x128x128.size a}
    {hl : b.view.LoadsAt (Rect.unit (s := S4x128x128) off S4x128x128.size inb).toLoadRect}
    {α : Type} {Q : α → sProp 𝕄} {k : (S4x128x128.Idx → Elt F .bf16) → Prog (TpuEff nD τ sig (Elt F) Λ₀ .tc) α} :
    iprop(holds c (slotJ (dstBuf j) (qd c)) shK (f c) ∗ got3 m c j)
      ⊢ iprop((iprop(holds c (slotJ (dstBuf j) (qd c)) shK (f c) ∗ got3 m c j) -∗ wpX[c] (k (asm4 fun i => f (plane c i))) Q)
          -∗ wpX[c] (.op (.load b (Rect.unit (s := S4x128x128) off S4x128x128.size inb).toLoadRect hl) k) Q) := by
  subst hb
  unfold got3 arPay
  rw [hf 1, hf 2, hf 3]
  iintro ⟨Hx, Hp1, Hp2, Hp3⟩ Hk
  ihave ⟨Hl1, Hr1⟩ := (holds_split c _ fullShare _) $$ Hp1
  ihave ⟨Hl2, Hr2⟩ := (holds_split c _ fullShare _) $$ Hp2
  ihave ⟨Hl3, Hr3⟩ := (holds_split c _ fullShare _) $$ Hp3
  ihave H4 := (B_reindex c (dstBuf j) shK f).1 $$ [$Hx $Hl1 $Hl2 $Hl3]
  iapply (wp_load_whole4 c (dstBuf j) hoff shK fun i => f (plane c i)) $$ H4
  iintro H4
  ihave ⟨Hx, Hl1, Hl2, Hl3⟩ := (B_reindex c (dstBuf j) shK f).2 $$ H4
  ihave Hp1 := (holds_join c _ fullShare _) $$ [$Hl1 $Hr1]
  ihave Hp2 := (holds_join c _ fullShare _) $$ [$Hl2 $Hr2]
  ihave Hp3 := (holds_join c _ fullShare _) $$ [$Hl3 $Hr3]
  iapply Hk
  iframe

theorem B_preLayer0 (W : Waits sig Unit) : preLayer m 0 c W =
    iprop(owesFrom c 13 W
      ∗ (fresh (wrC c 0) ∗ cred (tallyAt (wrC c 0) () (cW 0))) ∗ (fresh (wrC c 1) ∗ cred (tallyAt (wrC c 1) () (cW 1))) ∗ (fresh (wrC c 2) ∗ cred (tallyAt (wrC c 2) () (cW 2)))
      ∗ (fresh (arC c 1) ∗ cred (tallyAt (arC c 1) () (3 * cA 1))) ∗ (fresh (arC c 2) ∗ cred (tallyAt (arC c 2) () (3 * cA 2)))
      ∗ arTok c 1 ∗ asTok c 1 ∗ lent c 1 ∗ arTok c 2 ∗ asTok c 2 ∗ lent c 2
      ∗ holds c (winsJ 0 0) shK (Wi m c 0) ∗ holds c (woutsJ 0 0) shK (Wo m c 0)
      ∗ any4 c (prtlM 0) ∗ holdsAny c (slotJ (xnM 0) (qd c))) := rfl

theorem B_postLayer0 : postLayer m 0 c =
    iprop((∃ W, owesFrom c 19 W)
      ∗ done (wrC c 0) ∗ done (wrC c 1) ∗ done (wrC c 2) ∗ done (arC c 1) ∗ done (arC c 2)
      ∗ asCred c 1 ∗ asCred c 2
      ∗ holds c (winsJ 0 0) shK (Wi m c 0) ∗ holds c (woutsJ 0 0) shK (Wo m c 0)
      ∗ wrPay m c 0 ∗ wrPay m c 1 ∗ wrPay m c 2
      ∗ holds c (slotJ (prtlM 0) (qd c)) fullShare (sl4 (P0 m c) (qd c))
      ∗ got3 m c 1
      ∗ holds c (slotJ (xnM 0) (qd c)) shK (xn0 m c)
      ∗ got3 m c 2) := rfl

theorem B_part7_spec (v6 v83 v96 v167 : BitVec 32) (W : Waits sig Unit) :
    iprop(records m K ∗ levAts L lv ∗ owesFrom c 13 W ∗ preXg m c)
      ⊢ wpX[c] ((ARGS k0_part7) c v6 v83 v96 v167)
          (fun r => iprop(⌜r.1 = acts0 m c⌝ ∗ (∃ W', owesFrom c 13 W') ∗ postXg m c)) := by
  simp only [k0_part7_eq_skeleton, k0_part7_skel, semSignalWord, semWaitWord, Prog.lift, Prog.bind_op, Prog.bind_ret, Prog.pure_eq_ret]
  unfold preXg postXg owesFrom
  iintro ⟨#HR, #HL, HO, ⟨Hf, Hc⟩, Hx⟩
  iapply (wait_ar_1 m K c 0 _ B_ar0 _ W (B_cA 0 _ _) (mayWait_ar0 c)) $$ [$]
  iintro ⟨HO, Hm, Hc2, Hc3⟩
  iapply (wait_ar_2 m K c 0 _ B_ar0 _ _ (B_cA 0 _ _) (mayWait_ar0 c)) $$ [$]
  iintro ⟨HO, Hm, Hc3⟩
  iapply (wait_ar_3 m K c 0 _ B_ar0 _ _ (B_cA 0 _ _) (mayWait_ar0 c)) $$ [$]
  iintro ⟨HO, Hd, Hg⟩
  iapply (B_load4 m c 0 (X0q m) (fun _ => rfl) rfl rfl) $$ [$]
  iintro ⟨Hx, Hg⟩
  iapply (B_wp_ret c)
  isplitr; · ipureintro; rfl
  isplitl [HO]; · iexists _; iexact HO
  iframe

theorem B_part8_spec (v6 v193 : BitVec 32) (v192 : FVec F S512x128 .bf16) (W : Waits sig Unit) :
    iprop(records m K ∗ levAts L lv ∗ owesFrom c 13 W
        ∗ (fresh (wrC c 0) ∗ cred (tallyAt (wrC c 0) () (cW 0))) ∗ (fresh (wrC c 1) ∗ cred (tallyAt (wrC c 1) () (cW 1)))
        ∗ holds c (winsJ 0 0) shK (Wi m c 0) ∗ holds c (woutsJ 0 0) shK (Wo m c 0))
      ⊢ wpX[c] ((ARGS k0_part8) v6 v192 v193)
          (fun r => iprop(⌜r = k0_pay10 v192 (unsqW (Wi m c 0)) (unsqO (Wo m c 0))⌝ ∗ (∃ W', owesFrom c 13 W')
            ∗ done (wrC c 0) ∗ done (wrC c 1) ∗ wrPay m c 0 ∗ wrPay m c 1
            ∗ holds c (winsJ 0 0) shK (Wi m c 0) ∗ holds c (woutsJ 0 0) shK (Wo m c 0))) := by
  simp only [k0_part8_eq_skeleton, k0_part8_skel, semSignalWord, semWaitWord, Prog.lift, Prog.bind_op, Prog.bind_ret, Prog.pure_eq_ret]
  unfold owesFrom fresh done
  iintro ⟨#HR, #HL, HO, ⟨Hf0, Hc0⟩, ⟨Hf1, Hc1⟩, Hwi, Hwo⟩
  ihave HI := (inv_wr m K c 0) $$ HR
  ihave HM := (mayWait_wr0 c) $$ HL
  iapply (wp_wait_wr m c 0 _ B_wr0 _ W rfl) $$ [$]
  iintro ⟨HO, Hd0, Hp0⟩
  ihave HI := (inv_wr m K c 1) $$ HR
  ihave HM := (mayWait_wr1 c) $$ HL
  iapply (wp_wait_wr m c 1 _ B_wr1 _ _ rfl) $$ [$]
  iintro ⟨HO, Hd1, Hp1⟩
  iapply (wp_load_wslice c 0 0 rfl _ _) $$ Hwi
  iintro Hwi
  iapply (wp_load_oslice c 0 0 rfl _ _) $$ Hwo
  iintro Hwo
  iapply (B_wp_ret c)
  isplitr; · ipureintro; rfl
  isplitl [HO]; · iexists _; iexact HO
  iframe

theorem B_part9_spec (v3 v4 : BitVec 32) (W : Waits sig Unit) :
    iprop(records m K ∗ levAts L lv ∗ owesFrom c 13 W ∗ wrPay m c 0 ∗ wrPay m c 1 ∗ any4 c (prtlM 0)
        ∗ dutyTok ER (arC (pp c 1) 1) 0 (inv 1) ∗ dutyTok ER (asC c 1) 0 1 ∗ holdsAny (pp c 1) (slotJ (dstBuf 1) (qd c)))
      ⊢ wpX[c] ((ARGS k0_part9) c v3 v4 (acts0 m c) (k0_pay10 (acts0 m c) (unsqW (Wi m c 0)) (unsqO (Wo m c 0))))
          (fun r => iprop(owesFrom c 14 W ∗ wrPay m c 0 ∗ wrPay m c 1
            ∗ holds c (slotJ (prtlM 0) (qd c)) fullShare (sl4 (P0 m c) (qd c))
            ∗ asPay m c 1 2 ∗ asPay m c 1 3 ∗ cred (tallyAt (asC c 1) () (cA 1)))) := by
  simp only [k0_part9_eq_skeleton, k0_part9_skel, semSignalWord, semWaitWord, Prog.lift, Prog.bind_op, Prog.bind_ret, Prog.pure_eq_ret]
  unfold owesFrom any4 P0 asPay
  rw [wrPay_0, wrPay_1]
  iintro ⟨#HR, #HL, HO, Hp0, Hp1, H4, Htr1, Hts1, Hd1⟩
  iapply (wp_load_wslice c 1 0 rfl _ _) $$ Hp0
  iintro Hp0
  iapply (wp_load_oslice c 1 0 rfl _ _) $$ Hp1
  iintro Hp1
  iapply (wp_load_whole4_any c (prtlM 0) rfl) $$ H4
  iintro %x H4
  iapply (wp_store_whole4 c (prtlM 0) rfl) $$ H4
  iintro H4
  ihave ⟨Hs0, Hs1, Hs2, Hs3⟩ := (X_reindex4 c (fun j => holds c (slotJ (prtlM 0) j) fullShare (sl4 _ j))).2 $$ H4
  iapply (wp_copy_act m K c _ 1 1 (by decide) (dev_eq14 c) (by rw [off3_eq1, qd_pp_val1] : k0_off3 c 1#32 = ![(qd (pp c 1)).val, 0, 0]) (off2_eq c) B_as1 B_ar1 ((owedItems c).drop 14) W) $$ [$HR $Hd1 $Hts1 $Htr1 Hs1 HO]
  · isplitl [Hs1]; · iexact Hs1
    iexact HO
  iintro ⟨Hcr1, HO⟩
  iapply (B_wp_ret c)
  iframe
  isplitl [Hs2]; · iexact Hs2
  iexact Hs3

theorem B_part10_spec (v3 v4 v237 v252 : BitVec 32) (W : Waits sig Unit) :
    iprop(records m K ∗ levAts L lv ∗ owesFrom c 14 W ∗ asPay m c 1 2 ∗ asPay m c 1 3
        ∗ dutyTok ER (arC (pp c 2) 1) 0 (inv 2) ∗ dutyTok ER (arC (pp c 3) 1) 0 (inv 3)
        ∗ dutyTok ER (asC c 1) 0 2 ∗ dutyTok ER (asC c 1) 0 3
        ∗ holdsAny (pp c 2) (slotJ (dstBuf 1) (qd c)) ∗ holdsAny (pp c 3) (slotJ (dstBuf 1) (qd c)))
      ⊢ wpX[c] ((ARGS k0_part10) c v3 v4 v237 v252)
          (fun r => iprop(owesFrom c 16 W ∗ cred (tallyAt (asC c 1) () (cA 1)) ∗ cred (tallyAt (asC c 1) () (cA 1)))) := by
  simp only [k0_part10_eq_skeleton, k0_part10_skel, semSignalWord, semWaitWord, Prog.lift, Prog.bind_op, Prog.bind_ret, Prog.pure_eq_ret]
  unfold owesFrom asPay
  iintro ⟨#HR, #HL, HO, Hs2, Hs3, Htr2, Htr3, Hts2, Hts3, Hd2, Hd3⟩
  iapply (wp_copy_act m K c _ 1 2 (by decide) (dev_eq15 c) (by rw [off3_eq2, qd_pp_val2] : k0_off3 c 2#32 = ![(qd (pp c 2)).val, 0, 0]) (off2_eq c) B_as1 B_ar1 ((owedItems c).drop 15) W) $$ [$HR $Hs2 $Hd2 $Hts2 $Htr2 HO]
  · iexact HO
  iintro ⟨Hcr2, HO⟩
  iapply (wp_copy_act m K c _ 1 3 (by decide) (dev_eq16 c) (by rw [off3_eq3, qd_pp_val3] : k0_off3 c 3#32 = ![(qd (pp c 3)).val, 0, 0]) (off2_eq c) B_as1 B_ar1 ((owedItems c).drop 16) W) $$ [$HR $Hs3 $Hd3 $Hts3 $Htr3 HO]
  · iexact HO
  iintro ⟨Hcr3, HO⟩
  iapply (B_wp_ret c)
  iframe

theorem B_part11_spec (v3 v252 v267 : BitVec 32) (W : Waits sig Unit) :
    iprop(records m K ∗ levAts L lv ∗ owesFrom c 16 W
        ∗ (fresh (arC c 1) ∗ cred (tallyAt (arC c 1) () (3 * cA 1)))
        ∗ holds c (slotJ (prtlM 0) (qd c)) fullShare (sl4 (P0 m c) (qd c)))
      ⊢ wpX[c] ((ARGS k0_part11) c v3 v252 v267)
          (fun r => iprop(⌜r.1 = k0_pay12 (unsq3 (sl4 (P0 m c) (qd c))) (unsq3 (sl4 (P0 m (pp c 1)) (qd c)))⌝
            ∗ (∃ W', owesFrom c 16 W') ∗ done (arC c 1) ∗ got3 m c 1
            ∗ holds c (slotJ (prtlM 0) (qd c)) fullShare (sl4 (P0 m c) (qd c)))) := by
  simp only [k0_part11_eq_skeleton, k0_part11_skel, semSignalWord, semWaitWord, Prog.lift, Prog.bind_op, Prog.bind_ret, Prog.pure_eq_ret]
  unfold owesFrom
  iintro ⟨#HR, #HL, HO, ⟨Hf, Hc⟩, Hs0⟩
  iapply (wait_ar_1 m K c 1 _ B_ar1 _ W (B_cA 1 _ _) (mayWait_ar1 c)) $$ [$]
  iintro ⟨HO, Hm, Hc2, Hc3⟩
  iapply (wait_ar_2 m K c 1 _ B_ar1 _ _ (B_cA 1 _ _) (mayWait_ar1 c)) $$ [$]
  iintro ⟨HO, Hm, Hc3⟩
  iapply (wait_ar_3 m K c 1 _ B_ar1 _ _ (B_cA 1 _ _) (mayWait_ar1 c)) $$ [$]
  unfold got3
  rw [arPay_1 m c 1]
  iintro ⟨HO, Hd, Hp1, Hp2, Hp3⟩
  iapply (wp_load_slot c (prtlM 0) (qd c) (off1_eq c) _ _) $$ Hs0
  iintro Hs0
  iapply (wp_load_slot c (raccM 0) (qd (pp c 1)) ((off4_eq1 c).trans (by rw [qd_pp_val1])) _ _) $$ Hp1
  iintro Hp1
  iapply (B_wp_ret c)
  isplitr; · ipureintro; rfl
  isplitl [HO]; · iexists _; iexact HO
  iframe

theorem B_part12_spec (v3 v4 cc : BitVec 32) (W : Waits sig Unit) :
    iprop(records m K ∗ levAts L lv ∗ owesFrom c 16 W ∗ got3 m c 1 ∗ holdsAny c (slotJ (xnM 0) (qd c))
        ∗ dutyTok ER (arC (pp c 1) 2) 0 (inv 1) ∗ dutyTok ER (asC c 2) 0 1 ∗ holdsAny (pp c 1) (slotJ (dstBuf 2) (qd c)))
      ⊢ wpX[c] ((ARGS k0_part12) c v3 v4 (k0_pay12 (unsq3 (sl4 (P0 m c) (qd c))) (unsq3 (sl4 (P0 m (pp c 1)) (qd c)))) cc)
          (fun r => iprop(owesFrom c 17 W ∗ got3 m c 1
            ∗ holds c (slotJ (xnM 0) (qd c)) shK (xn0 m c) ∗ asPay m c 2 2 ∗ asPay m c 2 3 ∗ cred (tallyAt (asC c 2) () (cA 2)))) := by
  simp only [k0_part12_eq_skeleton, k0_part12_skel, semSignalWord, semWaitWord, Prog.lift, Prog.bind_op, Prog.bind_ret, Prog.pure_eq_ret]
  have e (d : Fin 4) : arPay m c 1 d = holds c (slotJ (raccM 0) (qd (pp c d))) fullShare (sl4 (P0 m (pp c d)) (qd c)) := rfl
  unfold owesFrom got3 xn0 asPay
  rw [e 2, e 3]
  iintro ⟨#HR, #HL, HO, ⟨Hg1, Hg2, Hg3⟩, Hxn, Htr1, Hts1, Hd1⟩
  iapply (wp_load_slot c (raccM 0) (qd (pp c 2)) ((off4_eq2 c).trans (by rw [qd_pp_val2])) _ _) $$ Hg2
  iintro Hg2
  iapply (wp_load_slot c (raccM 0) (qd (pp c 3)) ((off4_eq3 c).trans (by rw [qd_pp_val3])) _ _) $$ Hg3
  iintro Hg3
  iapply (wp_load_slot_any c (xnM 0) (qd c) (off1_eq c)) $$ Hxn
  iintro %x Hxn
  iapply (wp_store_slot c (xnM 0) (qd c) (off1_eq c)) $$ Hxn
  iintro Hxn
  ihave ⟨HxK, HxR⟩ := (holds_split c _ fullShare _) $$ Hxn
  ihave ⟨Hx1, HxR⟩ := (holds_split c _ fullShare.right _) $$ HxR
  ihave ⟨Hx2, Hx3⟩ := (holds_split c _ fullShare.right.right _) $$ HxR
  iapply (wp_copy_act m K c _ 2 1 (by decide) (dev_eq17 c) (off2_eq c) (off2_eq c) B_as2 B_ar2 ((owedItems c).drop 17) W) $$ [$HR $Hd1 $Hts1 $Htr1 Hx1 HO]
  · isplitl [Hx1]; · iexact Hx1
    iexact HO
  iintro ⟨Hcr1, HO⟩
  iapply (B_wp_ret c)
  iframe
  isplitl [Hx2]; · iexact Hx2
  iexact Hx3

theorem B_part13_spec (v3 v4 v336 v349 : BitVec 32) (W : Waits sig Unit) :
    iprop(records m K ∗ levAts L lv ∗ owesFrom c 17 W ∗ asPay m c 2 2 ∗ asPay m c 2 3
        ∗ dutyTok ER (arC (pp c 2) 2) 0 (inv 2) ∗ dutyTok ER (arC (pp c 3) 2) 0 (inv 3)
        ∗ dutyTok ER (asC c 2) 0 2 ∗ dutyTok ER (asC c 2) 0 3
        ∗ holdsAny (pp c 2) (slotJ (dstBuf 2) (qd c)) ∗ holdsAny (pp c 3) (slotJ (dstBuf 2) (qd c))
        ∗ (fresh (arC c 2) ∗ cred (tallyAt (arC c 2) () (3 * cA 2))))
      ⊢ wpX[c] ((ARGS k0_part13) c v3 v4 v336 v349)
          (fun r => iprop((∃ W', owesFrom c 19 W') ∗ cred (tallyAt (asC c 2) () (cA 2)) ∗ cred (tallyAt (asC c 2) () (cA 2)) ∗ midWait m (arC c 2) (0 + cA 2)
            ∗ cred (tallyAt (arC c 2) () (cA 2)) ∗ cred (tallyAt (arC c 2) () (cA 2)))) := by
  simp only [k0_part13_eq_skeleton, k0_part13_skel, semSignalWord, semWaitWord, Prog.lift, Prog.bind_op, Prog.bind_ret, Prog.pure_eq_ret]
  unfold owesFrom asPay
  iintro ⟨#HR, #HL, HO, Hx2, Hx3, Htr2, Htr3, Hts2, Hts3, Hd2, Hd3, ⟨Hf, Hc⟩⟩
  iapply (wp_copy_act m K c _ 2 2 (by decide) (dev_eq18 c) (off2_eq c) (off2_eq c) B_as2 B_ar2 ((owedItems c).drop 18) W) $$ [$HR $Hx2 $Hd2 $Hts2 $Htr2 HO]
  · iexact HO
  iintro ⟨Hcr2, HO⟩
  iapply (wp_copy_act m K c _ 2 3 (by decide) (dev_eq19 c) (off2_eq c) (off2_eq c) B_as2 B_ar2 ((owedItems c).drop 19) W) $$ [$HR $Hx3 $Hd3 $Hts3 $Htr3 HO]
  · iexact HO
  iintro ⟨Hcr3, HO⟩
  iapply (wait_ar_1 m K c 2 _ B_ar2 _ W (B_cA 2 _ _) (mayWait_ar2 c)) $$ [$]
  iintro ⟨HO, Hm, Hc2, Hc3⟩
  iapply (B_wp_ret c)
  isplitl [HO]; · iexists _; iexact HO
  iframe

theorem B_part14_spec (v6 v349 v362 : BitVec 32) (W : Waits sig Unit) :
    iprop(records m K ∗ levAts L lv ∗ owesFrom c 19 W ∗ midWait m (arC c 2) (0 + cA 2) ∗ cred (tallyAt (arC c 2) () (cA 2)) ∗ cred (tallyAt (arC c 2) () (cA 2))
        ∗ holds c (slotJ (xnM 0) (qd c)) shK (xn0 m c) ∗ (fresh (wrC c 2) ∗ cred (tallyAt (wrC c 2) () (cW 2))))
      ⊢ wpX[c] ((ARGS k0_part14) c v6 v349 v362)
          (fun r => iprop(⌜r = acts1 m c⌝ ∗ (∃ W', owesFrom c 19 W') ∗ done (arC c 2) ∗ got3 m c 2
            ∗ holds c (slotJ (xnM 0) (qd c)) shK (xn0 m c) ∗ done (wrC c 2) ∗ wrPay m c 2)) := by
  simp only [k0_part14_eq_skeleton, k0_part14_skel, semSignalWord, semWaitWord, Prog.lift, Prog.bind_op, Prog.bind_ret, Prog.pure_eq_ret]
  unfold owesFrom fresh
  iintro ⟨#HR, #HL, HO, Hm, Hc2, Hc3, Hx, ⟨Hfw, Hcw⟩⟩
  iapply (wait_ar_2 m K c 2 _ B_ar2 _ W (B_cA 2 _ _) (mayWait_ar2 c)) $$ [$]
  iintro ⟨HO, Hm, Hc3⟩
  iapply (wait_ar_3 m K c 2 _ B_ar2 _ _ (B_cA 2 _ _) (mayWait_ar2 c)) $$ [$]
  iintro ⟨HO, Hd, Hg⟩
  iapply (B_load4 m c 2 (xn0 m) (fun _ => rfl) rfl rfl) $$ [$]
  iintro ⟨Hx, Hg⟩
  ihave HI := (inv_wr m K c 2) $$ HR
  ihave HM := (mayWait_wr2 c) $$ HL
  iapply (wp_wait_wr m c 2 _ B_wr2 _ _ rfl) $$ [$]
  iintro ⟨HO, Hdw, Hpw⟩
  unfold done
  iapply (B_wp_ret c)
  isplitr; · ipureintro; rfl
  isplitl [HO]; · iexists _; iexact HO
  iframe

end Parts

theorem B_stretch (m : (ℓ : Loc nD τ sig) → Buf (Elt F) ℓ) (K : Dev nD × Fin 26 → ℕ) (c : Dev nD) (v3 v4 v6 v83 v96 v167 : BitVec 32) (W : Waits sig Unit)
    {α : Type} (Q : α → sProp 𝕄) (KK : FVec F S512x128 .bf16 → Prog (TpuEff nD τ sig (Elt F) Λ₀ .tc) α) :
    iprop(records m K ∗ levAts L lv ∗ preXg m c ∗ preLayer m 0 c W
        ∗ ((postXg m c ∗ postLayer m 0 c) -∗ wpX[c] (KK (acts1 m c)) Q))
      ⊢ wpX[c] (do
          let ⟨v192, v193⟩ : Σ' (v192 : FVec F S512x128 .bf16), BitVec 32 ← (ARGS k0_part7) c v6 v83 v96 v167
          let v219 : FVec F S512x128 .f32 ← (ARGS k0_part8) v6 v192 v193
          let ⟨v237, v252⟩ : Σ' (v237 : BitVec 32), BitVec 32 ← (ARGS k0_part9) c v3 v4 v192 v219
          let v267 : BitVec 32 ← (ARGS k0_part10) c v3 v4 v237 v252
          let ⟨v314, c2_i32_298⟩ : Σ' (v314 : FVec F S128x128 .f32), BitVec 32 ← (ARGS k0_part11) c v3 v252 v267
          let ⟨v336, v349⟩ : Σ' (v336 : BitVec 32), BitVec 32 ← (ARGS k0_part12) c v3 v4 v314 c2_i32_298
          let v362 : BitVec 32 ← (ARGS k0_part13) c v3 v4 v336 v349
          let v398 : FVec F S512x128 .bf16 ← (ARGS k0_part14) c v6 v349 v362
          KK v398) Q := by
  rw [B_preLayer0, B_postLayer0]
  unfold arTok asTok lent asCred
  iintro ⟨#HR, #HL, HXg, ⟨HO, Hw0, Hw1, Hw2, Ha1, Ha2, ⟨Htr11, Htr12, Htr13⟩, ⟨Hts11, Hts12, Hts13⟩, ⟨Hl11, Hl12, Hl13⟩, ⟨Htr21, Htr22, Htr23⟩, ⟨Hts21, Hts22, Hts23⟩, ⟨Hl21, Hl22, Hl23⟩, Hwi, Hwo, H4, Hxn⟩, HK⟩
  iapply (B_seq c (B_part7_spec m K c v6 v83 v96 v167 W)) $$ [$]
  iintro %r
  obtain ⟨v192, v193⟩ := r
  iintro ⟨%h7, ⟨%W1, HO⟩, HXg⟩
  cases h7
  iapply (B_seq c (B_part8_spec m K c v6 v193 (acts0 m c) W1)) $$ [$]
  iintro %v219 ⟨%h8, ⟨%W2, HO⟩, Hd0, Hd1, Hp0, Hp1, Hwi, Hwo⟩
  subst h8
  iapply (B_seq c (B_part9_spec m K c v3 v4 W2)) $$ [$]
  iintro %r
  obtain ⟨v237, v252⟩ := r
  iintro ⟨HO, Hp0, Hp1, Hs0, Hs2, Hs3, Hcr1⟩
  iapply (B_seq c (B_part10_spec m K c v3 v4 v237 v252 W2)) $$ [$]
  iintro %v267 ⟨HO, Hcr2, Hcr3⟩
  iapply (B_seq c (B_part11_spec m K c v3 v252 v267 W2)) $$ [$]
  iintro %r
  obtain ⟨v314, cc⟩ := r
  iintro ⟨%h11, ⟨%W3, HO⟩, Hda1, Hg1, Hs0⟩
  cases h11
  iapply (B_seq c (B_part12_spec m K c v3 v4 cc W3)) $$ [$]
  iintro %r
  obtain ⟨v336, v349⟩ := r
  iintro ⟨HO, Hg1, HxK, Hx2, Hx3, Hcs1⟩
  iapply (B_seq c (B_part13_spec m K c v3 v4 v336 v349 W3)) $$ [$]
  iintro %v362 ⟨⟨%W4, HO⟩, Hcs2, Hcs3, Hm, Hc2, Hc3⟩
  iapply (B_seq c (B_part14_spec m K c v6 v349 v362 W4)) $$ [$]
  iintro %v398 ⟨%h14, HO, Hda2, Hg2, HxK, Hdw2, Hpw2⟩
  subst h14
  iapply HK
  iframe

end Cert.KernelIdeal.P

#print axioms Cert.KernelIdeal.P.B_stretch

end
-- ==== Proof.BodyC.lean ====
import proofs.«900976_g7700000000000977_dist_mlpseq_tp1d_bs_bs_b128_d128_h256_v7x_i8_bf16_1_alg».proof.Proof.BodyShared
import proofs.«900976_g7700000000000977_dist_mlpseq_tp1d_bs_bs_b128_d128_h256_v7x_i8_bf16_1_alg».proof.Proof.Reindex

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A program under its specification, then the continuation from the postcondition it leaves.
theorem C_seq (c : Dev nD) {α β : Type} {p : Prog (TpuEff nD τ sig (Elt F) Λ₀ .tc) α} {k : α → Prog (TpuEff nD τ sig (Elt F) Λ₀ .tc) β} {P : sProp 𝕄} {Φ : α → sProp 𝕄} {Q : β → sProp 𝕄}
    (h : P ⊢ wp frame (wpE (defs₀ (F := F)) 𝒱₀ (c : Thread nD τ) none) Set.univ p Φ) :
    P ⊢ iprop((∀ a, Φ a -∗ wp frame (wpE (defs₀ (F := F)) 𝒱₀ (c : Thread nD τ) none) Set.univ (k a) Q) -∗ wp frame (wpE (defs₀ (F := F)) 𝒱₀ (c : Thread nD τ) none) Set.univ (p >>= k) Q) := by
  rw [wp_bind]; exact h.trans (wp_wand _ _ _)

theorem C_asS3 : ((cc0_scratch13.slice (Rect.unit (s := S6) ![3] S1.size inb_S6_S1_3)).squeeze S_ squeezes_S1_S_).sem = asS 3 := by decide
theorem C_asS4 : ((cc0_scratch13.slice (Rect.unit (s := S6) ![4] S1.size inb_S6_S1_4)).squeeze S_ squeezes_S1_S_).sem = asS 4 := by decide
theorem C_arS3 : ((cc0_scratch14.slice (Rect.unit (s := S6) ![3] S1.size inb_S6_S1_3)).squeeze S_ squeezes_S1_S_).sem = arS 3 := by decide
theorem C_arS4 : ((cc0_scratch14.slice (Rect.unit (s := S6) ![4] S1.size inb_S6_S1_4)).squeeze S_ squeezes_S1_S_).sem = arS 4 := by decide

-- The credit of a destination slot of phase j is the same at every slot.
theorem C_cA (j : Fin 6) (c : Dev nD) : (slot4 (dstBuf j) (k0_off2 c) (k0_off2_inb c)).view.dmaCredit = cA j := cA_slot j 0

def preC (m : (ℓ : Loc nD τ sig) → Buf (Elt F) ℓ) (c : Dev nD) (W : Waits sig Unit) : sProp 𝕄 :=
  iprop(owesFrom c 19 W
    ∗ wrPay m c 2 ∗ (fresh (wrC c 3) ∗ cred (tallyAt (wrC c 3) () (cW 3))) ∗ (fresh (wrC c 4) ∗ cred (tallyAt (wrC c 4) () (cW 4)))
    ∗ (fresh (arC c 3) ∗ cred (tallyAt (arC c 3) () (3 * cA 3))) ∗ (fresh (arC c 4) ∗ cred (tallyAt (arC c 4) () (3 * cA 4)))
    ∗ arTok c 3 ∗ asTok c 3 ∗ lent c 3 ∗ arTok c 4 ∗ asTok c 4 ∗ lent c 4
    ∗ holds c (winsJ 0 1) shK (Wi m c 1) ∗ holds c (woutsJ 0 1) shK (Wo m c 1)
    ∗ any4 c (prtlM 1) ∗ holdsAny c (slotJ (xnM 1) (qd c)))
def postC (m : (ℓ : Loc nD τ sig) → Buf (Elt F) ℓ) (c : Dev nD) : sProp 𝕄 :=
  iprop((∃ W, owesFrom c 25 W)
    ∗ done (wrC c 3) ∗ done (wrC c 4) ∗ done (arC c 3) ∗ done (arC c 4)
    ∗ asCred c 3 ∗ asCred c 4
    ∗ holds c (winsJ 0 1) shK (Wi m c 1) ∗ holds c (woutsJ 0 1) shK (Wo m c 1)
    ∗ wrPay m c 2 ∗ wrPay m c 3 ∗ wrPay m c 4
    ∗ holds c (slotJ (prtlM 1) (qd c)) fullShare (sl4 (PK m 1 c) (qd c))
    ∗ got3 m c 3
    ∗ holds c (slotJ (xnM 1) (qd c)) shK (XN m 1 c)
    ∗ got3 m c 4)

section
variable (m : (ℓ : Loc nD τ sig) → Buf (Elt F) ℓ) (K : Dev nD × Fin 26 → ℕ) (c : Dev nD)

-- Parts 15 to 21 of the body, each from what it consumes to what it leaves.
theorem part15_spec (v6 : BitVec 32) (W : Waits sig Unit) :
    iprop(records m K ∗ levAts L lv ∗ owesFrom c 19 W ∗ (fresh (wrC c 3) ∗ cred (tallyAt (wrC c 3) () (cW 3)))
        ∗ holds c (winsJ 0 1) shK (Wi m c 1) ∗ holds c (woutsJ 0 1) shK (Wo m c 1) ∗ wrPay m c 2)
      ⊢ wp frame (wpE (defs₀ (F := F)) 𝒱₀ (c : Thread nD τ) none) Set.univ ((ARGS k0_part15) v6 (acts1 m c))
          (fun r => iprop(⌜k0_pay18 r.1 r.2.1 r.2.2 = PK m 1 c⌝
            ∗ (∃ W', owesFrom c 19 W') ∗ done (wrC c 3) ∗ wrPay m c 3
            ∗ holds c (winsJ 0 1) shK (Wi m c 1) ∗ holds c (woutsJ 0 1) shK (Wo m c 1) ∗ wrPay m c 2)) := by
  simp only [k0_part15_eq_skeleton, k0_part15_skel, owesFrom, fresh, done, Prog.lift, Prog.bind_op, Prog.bind_ret, Prog.pure_eq_ret]
  rw [wrPay_2, wrPay_3]
  iintro ⟨#Hrec, #Hlev, HO, ⟨Hf, Hc⟩, Hwi, Hwo, Hp2⟩
  ihave HI := (inv_wr m K c 3) $$ Hrec
  ihave HM := (mayWait_wr3 c) $$ Hlev
  iapply (wp_wait_wr m c 3 _ (by decide) (owedL ((owedItems c).drop 19)) W (rfl : (woutsJ 1 1).view.dmaCredit = cW 3)) $$ [$]
  iintro ⟨HO, Hd, Hp3⟩
  ihave Hp3 := (Entails.of_eq (wrPay_3 m c)) $$ Hp3
  iapply (wp_load_wslice c 0 1 rfl shK (Wi m c 1)) $$ Hwi
  iintro Hwi
  iapply (wp_load_oslice c 0 1 rfl shK (Wo m c 1)) $$ Hwo
  iintro Hwo
  iapply (wp_load_wslice c 1 1 rfl fullShare (Wi m (pp c 0) 1)) $$ Hp2
  iintro Hp2
  iapply (wp_load_oslice c 1 1 rfl fullShare (Wo m (pp c 0) 1)) $$ Hp3
  iintro Hp3
  iapply (le_wp_ret _ _ _ _ _)
  isplitr; · ipureintro; rfl
  isplitl [HO]; · iexists _; iexact HO
  iframe

theorem part16_spec (v3 v4 : BitVec 32) (W : Waits sig Unit)
    (v425 : FVec F S512x128 .f32) (v431 : FVec F S512x256 .bf16) (v433 : FVec F S256x128 .bf16) (hV : k0_pay18 v425 v431 v433 = PK m 1 c) :
    iprop(records m K ∗ levAts L lv ∗ owesFrom c 19 W ∗ any4 c (prtlM 1)
        ∗ dutyTok ER (asC c 3) 0 1 ∗ dutyTok ER (arC (pp c 1) 3) 0 (inv 1) ∗ holdsAny (pp c 1) (slotJ (dstBuf 3) (qd c)))
      ⊢ wp frame (wpE (defs₀ (F := F)) 𝒱₀ (c : Thread nD τ) none) Set.univ ((ARGS k0_part16) c v3 v4 v425 v431 v433)
          (fun _ => iprop(owesFrom c 20 W ∗ cred (tallyAt (asC c 3) () (cA 3))
            ∗ holds c (slotJ (prtlM 1) (qd c)) fullShare (sl4 (PK m 1 c) (qd c)) ∗ asPay m c 3 2 ∗ asPay m c 3 3)) := by
  simp only [k0_part16_eq_skeleton, k0_part16_skel, owesFrom, any4, asPay, Prog.lift, Prog.bind_op, Prog.bind_ret, Prog.pure_eq_ret]
  rw [hV]
  iintro ⟨#Hrec, #Hlev, HO, Hany, Hts, Htr, Hlent⟩
  iapply (wp_load_whole4_any c (prtlM 1) rfl) $$ Hany
  iintro %x Hany
  iapply (wp_store_whole4 c (prtlM 1) rfl) $$ Hany
  iintro H4
  icases (X_reindex4 c (fun j => holds c (slotJ (prtlM 1) j) fullShare (sl4 (PK m 1 c) j))).2 $$ H4 with ⟨H0, H1, H2, H3⟩
  iapply (wp_copy_act m K c _ 3 1 (by decide) (dev_eq20 c) (by rw [off3_eq1, srcSlot_3, qd_pp_val1]) (off2_eq c) C_asS3 C_arS3 ((owedItems c).drop 20) W) $$ [H1 Hlent HO Hts Htr]
  · iframe # ∗
    isplitl [H1]; · iexact H1
    iexact HO
  iintro ⟨Hc, HO⟩
  iapply (le_wp_ret _ _ _ _ _)
  iframe
  isplitl [H2]; · iexact H2
  iexact H3

theorem part17_spec (v3 v4 v443 v458 : BitVec 32) (W : Waits sig Unit) :
    iprop(records m K ∗ levAts L lv ∗ owesFrom c 20 W ∗ asPay m c 3 2 ∗ asPay m c 3 3
        ∗ dutyTok ER (asC c 3) 0 2 ∗ dutyTok ER (asC c 3) 0 3 ∗ dutyTok ER (arC (pp c 2) 3) 0 (inv 2) ∗ dutyTok ER (arC (pp c 3) 3) 0 (inv 3)
        ∗ holdsAny (pp c 2) (slotJ (dstBuf 3) (qd c)) ∗ holdsAny (pp c 3) (slotJ (dstBuf 3) (qd c))
        ∗ (fresh (arC c 3) ∗ cred (tallyAt (arC c 3) () (3 * cA 3))))
      ⊢ wp frame (wpE (defs₀ (F := F)) 𝒱₀ (c : Thread nD τ) none) Set.univ ((ARGS k0_part17) c v3 v4 v443 v458)
          (fun _ => iprop((∃ W', owesFrom c 22 W') ∗ cred (tallyAt (asC c 3) () (cA 3)) ∗ cred (tallyAt (asC c 3) () (cA 3))
            ∗ midWait m (arC c 3) (0 + cA 3) ∗ cred (tallyAt (arC c 3) () (cA 3)) ∗ cred (tallyAt (arC c 3) () (cA 3)))) := by
  simp only [k0_part17_eq_skeleton, k0_part17_skel, owesFrom, asPay, Prog.lift, Prog.bind_op, Prog.bind_ret, Prog.pure_eq_ret]
  iintro ⟨#Hrec, #Hlev, HO, H2, H3, Hts2, Hts3, Htr2, Htr3, Hl2, Hl3, Hf, Hc⟩
  iapply (wp_copy_act m K c _ 3 2 (by decide) (dev_eq21 c) (by rw [off3_eq2, srcSlot_3, qd_pp_val2]) (off2_eq c) C_asS3 C_arS3 ((owedItems c).drop 21) W) $$ [H2 Hl2 HO Hts2 Htr2]
  · iframe # ∗; iexact HO
  iintro ⟨Hc2, HO⟩
  iapply (wp_copy_act m K c _ 3 3 (by decide) (dev_eq22 c) (by rw [off3_eq3, srcSlot_3, qd_pp_val3]) (off2_eq c) C_asS3 C_arS3 ((owedItems c).drop 22) W) $$ [H3 Hl3 HO Hts3 Htr3]
  · iframe # ∗; iexact HO
  iintro ⟨Hc3, HO⟩
  iapply (wait_ar_1 m K c 3 _ C_arS3 _ W (C_cA 3 c) (mayWait_ar3 c)) $$ [$]
  iintro ⟨HO, Hmid, Hcb, Hcc⟩
  iapply (le_wp_ret _ _ _ _ _)
  isplitl [HO]; · iexists _; iexact HO
  iframe

theorem part18_spec (v3 v473 : BitVec 32) (W : Waits sig Unit) :
    iprop(records m K ∗ levAts L lv ∗ owesFrom c 22 W
        ∗ midWait m (arC c 3) (0 + cA 3) ∗ cred (tallyAt (arC c 3) () (cA 3)) ∗ cred (tallyAt (arC c 3) () (cA 3))
        ∗ holds c (slotJ (prtlM 1) (qd c)) fullShare (sl4 (PK m 1 c) (qd c)))
      ⊢ wp frame (wpE (defs₀ (F := F)) 𝒱₀ (c : Thread nD τ) none) Set.univ ((ARGS k0_part18) c v3 v473)
          (fun r => iprop(⌜r = k0_pay19 (unsq3 (sl4 (PK m 1 c) (qd c))) (unsq3 (sl4 (PK m 1 (pp c 1)) (qd c))) (unsq3 (sl4 (PK m 1 (pp c 2)) (qd c)))⌝
            ∗ (∃ W', owesFrom c 22 W') ∗ done (arC c 3)
            ∗ holds c (slotJ (prtlM 1) (qd c)) fullShare (sl4 (PK m 1 c) (qd c)) ∗ got3 m c 3)) := by
  simp only [k0_part18_eq_skeleton, k0_part18_skel, owesFrom, got3, arPay, Prog.lift, Prog.bind_op, Prog.bind_ret, Prog.pure_eq_ret]
  iintro ⟨#Hrec, #Hlev, HO, Hmid, Hca, Hcb, H0⟩
  iapply (wait_ar_2 m K c 3 _ C_arS3 _ W (C_cA 3 c) (mayWait_ar3 c)) $$ [$]
  iintro ⟨HO, Hmid, Hcb⟩
  iapply (wait_ar_3 m K c 3 _ C_arS3 _ _ (C_cA 3 c) (mayWait_ar3 c)) $$ [$]
  iintro ⟨HO, Hd, Hg⟩
  icases (Entails.of_eq (show got3 m c 3 = iprop(holds _ _ _ _ ∗ holds _ _ _ _ ∗ holds _ _ _ _) from rfl)) $$ Hg with ⟨Hg1, Hg2, Hg3⟩
  iapply (wp_load_slot c (prtlM 1) (qd c) (off1_eq c) fullShare (sl4 (PK m 1 c) (qd c))) $$ H0
  iintro H0
  iapply (wp_load_slot c (dstBuf 3) (qd (pp c 1)) (by rw [off4_eq1, qd_pp_val1]) fullShare _) $$ Hg1
  iintro Hg1
  iapply (wp_load_slot c (dstBuf 3) (qd (pp c 2)) (by rw [off4_eq2, qd_pp_val2]) fullShare _) $$ Hg2
  iintro Hg2
  iapply (le_wp_ret _ _ _ _ _)
  isplitr; · ipureintro; rfl
  isplitl [HO]; · iexists _; iexact HO
  iframe

theorem part19_spec (v3 v4 : BitVec 32) (W : Waits sig Unit) (v527 : FVec F S128x128 .f32)
    (h527 : v527 = k0_pay19 (unsq3 (sl4 (PK m 1 c) (qd c))) (unsq3 (sl4 (PK m 1 (pp c 1)) (qd c))) (unsq3 (sl4 (PK m 1 (pp c 2)) (qd c)))) :
    iprop(records m K ∗ levAts L lv ∗ owesFrom c 22 W ∗ got3 m c 3 ∗ holdsAny c (slotJ (xnM 1) (qd c))
        ∗ dutyTok ER (asC c 4) 0 1 ∗ dutyTok ER (arC (pp c 1) 4) 0 (inv 1) ∗ holdsAny (pp c 1) (slotJ (dstBuf 4) (qd c)))
      ⊢ wp frame (wpE (defs₀ (F := F)) 𝒱₀ (c : Thread nD τ) none) Set.univ ((ARGS k0_part19) c v3 v4 v527)
          (fun _ => iprop(owesFrom c 23 W ∗ got3 m c 3 ∗ cred (tallyAt (asC c 4) () (cA 4))
            ∗ holds c (slotJ (xnM 1) (qd c)) shK (XN m 1 c) ∗ asPay m c 4 2 ∗ asPay m c 4 3)) := by
  simp only [k0_part19_eq_skeleton, k0_part19_skel, owesFrom, got3, arPay, asPay, Prog.lift, Prog.bind_op, Prog.bind_ret, Prog.pure_eq_ret]
  subst h527
  iintro ⟨#Hrec, #Hlev, HO, ⟨Hg1, Hg2, Hg3⟩, Hx, Hts, Htr, Hlent⟩
  iapply (wp_load_slot c (dstBuf 3) (qd (pp c 3)) (by rw [off4_eq3, qd_pp_val3]) fullShare _) $$ Hg3
  iintro Hg3
  iapply (wp_load_slot_any c (xnM 1) (qd c) (off1_eq c)) $$ Hx
  iintro %x Hx
  iapply (wp_store_slot c (xnM 1) (qd c) (off1_eq c)) $$ Hx
  iintro Hx
  icases (holds_split c _ fullShare _) $$ Hx with ⟨HxK, HxR⟩
  icases (holds_split c _ fullShare.right _) $$ HxR with ⟨Hx1, HxR⟩
  icases (holds_split c _ fullShare.right.right _) $$ HxR with ⟨Hx2, Hx3⟩
  iapply (wp_copy_act m K c _ 4 1 (by decide) (dev_eq23 c) (by rw [off2_eq, srcSlot_4]) (off2_eq c) C_asS4 C_arS4 ((owedItems c).drop 23) W) $$ [Hx1 Hlent HO Hts Htr]
  · iframe # ∗
    isplitl [Hx1]; · iexact Hx1
    iexact HO
  iintro ⟨Hc, HO⟩
  iapply (le_wp_ret _ _ _ _ _)
  iframe
  isplitl [HxK]; · iexact HxK
  isplitl [Hx2]; · iexact Hx2
  iexact Hx3

theorem part20_spec (v3 v4 v542 v555 : BitVec 32) (W : Waits sig Unit) :
    iprop(records m K ∗ levAts L lv ∗ owesFrom c 23 W ∗ asPay m c 4 2 ∗ asPay m c 4 3
        ∗ dutyTok ER (asC c 4) 0 2 ∗ dutyTok ER (asC c 4) 0 3 ∗ dutyTok ER (arC (pp c 2) 4) 0 (inv 2) ∗ dutyTok ER (arC (pp c 3) 4) 0 (inv 3)
        ∗ holdsAny (pp c 2) (slotJ (dstBuf 4) (qd c)) ∗ holdsAny (pp c 3) (slotJ (dstBuf 4) (qd c))
        ∗ (fresh (arC c 4) ∗ cred (tallyAt (arC c 4) () (3 * cA 4))))
      ⊢ wp frame (wpE (defs₀ (F := F)) 𝒱₀ (c : Thread nD τ) none) Set.univ ((ARGS k0_part20) c v3 v4 v542 v555)
          (fun _ => iprop((∃ W', owesFrom c 25 W') ∗ cred (tallyAt (asC c 4) () (cA 4)) ∗ cred (tallyAt (asC c 4) () (cA 4))
            ∗ midWait m (arC c 4) (0 + cA 4 + cA 4) ∗ cred (tallyAt (arC c 4) () (cA 4)))) := by
  simp only [k0_part20_eq_skeleton, k0_part20_skel, owesFrom, asPay, Prog.lift, Prog.bind_op, Prog.bind_ret, Prog.pure_eq_ret]
  iintro ⟨#Hrec, #Hlev, HO, Hx2, Hx3, Hts2, Hts3, Htr2, Htr3, Hl2, Hl3, Hf, Hc⟩
  iapply (wp_copy_act m K c _ 4 2 (by decide) (dev_eq24 c) (by rw [off2_eq, srcSlot_4]) (off2_eq c) C_asS4 C_arS4 ((owedItems c).drop 24) W) $$ [Hx2 Hl2 HO Hts2 Htr2]
  · iframe # ∗; iexact HO
  iintro ⟨Hc2, HO⟩
  iapply (wp_copy_act m K c _ 4 3 (by decide) (dev_eq25 c) (by rw [off2_eq, srcSlot_4]) (off2_eq c) C_asS4 C_arS4 ((owedItems c).drop 25) W) $$ [Hx3 Hl3 HO Hts3 Htr3]
  · iframe # ∗; iexact HO
  iintro ⟨Hc3, HO⟩
  iapply (wait_ar_1 m K c 4 _ C_arS4 _ W (C_cA 4 c) (mayWait_ar4 c)) $$ [$]
  iintro ⟨HO, Hmid, Hcb, Hcc⟩
  iapply (wait_ar_2 m K c 4 _ C_arS4 _ _ (C_cA 4 c) (mayWait_ar4 c)) $$ [$]
  iintro ⟨HO, Hmid, Hcc⟩
  iapply (le_wp_ret _ _ _ _ _)
  isplitl [HO]; · iexists _; iexact HO
  iframe

theorem part21_spec (v6 v568 : BitVec 32) (W : Waits sig Unit) :
    iprop(records m K ∗ levAts L lv ∗ owesFrom c 25 W
        ∗ midWait m (arC c 4) (0 + cA 4 + cA 4) ∗ cred (tallyAt (arC c 4) () (cA 4))
        ∗ holds c (slotJ (xnM 1) (qd c)) shK (XN m 1 c) ∗ (fresh (wrC c 4) ∗ cred (tallyAt (wrC c 4) () (cW 4))))
      ⊢ wp frame (wpE (defs₀ (F := F)) 𝒱₀ (c : Thread nD τ) none) Set.univ ((ARGS k0_part21) c v6 v568)
          (fun r => iprop(⌜r = acts2 m c⌝ ∗ (∃ W', owesFrom c 25 W') ∗ done (arC c 4) ∗ got3 m c 4
            ∗ holds c (slotJ (xnM 1) (qd c)) shK (XN m 1 c) ∗ done (wrC c 4) ∗ wrPay m c 4)) := by
  simp only [k0_part21_eq_skeleton, k0_part21_skel, owesFrom, fresh, got3, arPay_4, Prog.lift, Prog.bind_op, Prog.bind_ret, Prog.pure_eq_ret]
  have h := X_reindex4 c (fun j => holds c (slotJ (xnM 1) j) shK (XN m 1 (plane c j)))
  simp only [plane_qd, plane_pp c 1 (by decide), plane_pp c 2 (by decide), plane_pp c 3 (by decide)] at h
  iintro ⟨#Hrec, #Hlev, HO, Hmid, Hcc, HxK, Hf, Hc⟩
  iapply (wait_ar_3 m K c 4 _ C_arS4 _ W (C_cA 4 c) (mayWait_ar4 c)) $$ [$]
  iintro ⟨HO, Hd, Hg⟩
  icases (Entails.of_eq (show got3 m c 4 = iprop(holds c (slotJ (xnM 1) _) _ (XN m 1 _) ∗ holds c (slotJ (xnM 1) _) _ (XN m 1 _) ∗ holds c (slotJ (xnM 1) _) _ (XN m 1 _)) from rfl)) $$ Hg with ⟨Hg1, Hg2, Hg3⟩
  icases (holds_split c _ fullShare _) $$ Hg1 with ⟨Hg1l, Hg1r⟩
  icases (holds_split c _ fullShare _) $$ Hg2 with ⟨Hg2l, Hg2r⟩
  icases (holds_split c _ fullShare _) $$ Hg3 with ⟨Hg3l, Hg3r⟩
  ihave H4 := h.1 $$ [HxK Hg1l Hg2l Hg3l]
  · iframe
  iapply (wp_load_whole4 c (xnM 1) rfl shK (fun j => XN m 1 (plane c j))) $$ H4
  iintro H4
  icases h.2 $$ H4 with ⟨HxK, Hg1l, Hg2l, Hg3l⟩
  ihave HI := (inv_wr m K c 4) $$ Hrec
  ihave HM := (mayWait_wr4 c) $$ Hlev
  iapply (wp_wait_wr m c 4 _ (by decide) (owedL ((owedItems c).drop 25)) _ (rfl : (winsJ 1 2).view.dmaCredit = cW 4)) $$ [$]
  iintro ⟨HO, Hdw, Hp4⟩
  ihave Hdw := (Entails.of_eq (show (atPos ER (wrC c 4) 1 ∅ 0 : sProp 𝕄) = done (wrC c 4) from rfl)) $$ Hdw
  iapply (le_wp_ret _ _ _ _ _)
  isplitr; · ipureintro; rfl
  isplitl [HO]; · iexists _; iexact HO
  iframe
  isplitl [Hg1l Hg1r]; · iapply (holds_join c _ fullShare _); iframe
  isplitl [Hg2l Hg2r]; · iapply (holds_join c _ fullShare _); iframe
  iapply (holds_join c _ fullShare _); iframe

end

-- Parts 15 to 21 in sequence.
theorem C_stretch (m : (ℓ : Loc nD τ sig) → Buf (Elt F) ℓ) (K : Dev nD × Fin 26 → ℕ) (c : Dev nD) (v3 v4 v6 : BitVec 32) (W : Waits sig Unit)
    {α : Type} (Q : α → sProp 𝕄) (KK : FVec F S512x128 .bf16 → Prog (TpuEff nD τ sig (Elt F) Λ₀ .tc) α) :
    iprop(records m K ∗ levAts L lv ∗ preC m c W ∗ (postC m c -∗ wp frame (wpE (defs₀ (F := F)) 𝒱₀ (c : Thread nD τ) none) Set.univ (KK (acts2 m c)) Q))
      ⊢ wp frame (wpE (defs₀ (F := F)) 𝒱₀ (c : Thread nD τ) none) Set.univ (do
          let ⟨v425, v431, v433⟩ : Σ' (v425 : FVec F S512x128 .f32) (v431 : FVec F S512x256 .bf16), FVec F S256x128 .bf16 ← (ARGS k0_part15) v6 (acts1 m c)
          let ⟨v443, v458⟩ : Σ' (v443 : BitVec 32), BitVec 32 ← (ARGS k0_part16) c v3 v4 v425 v431 v433
          let v473 : BitVec 32 ← (ARGS k0_part17) c v3 v4 v443 v458
          let v527 : FVec F S128x128 .f32 ← (ARGS k0_part18) c v3 v473
          let ⟨v542, v555⟩ : Σ' (v542 : BitVec 32), BitVec 32 ← (ARGS k0_part19) c v3 v4 v527
          let v568 : BitVec 32 ← (ARGS k0_part20) c v3 v4 v542 v555
          let v604 : FVec F S512x128 .bf16 ← (ARGS k0_part21) c v6 v568
          KK v604) Q := by
  unfold preC postC arTok asTok lent asCred
  iintro ⟨#Hrec, #Hlev, ⟨HO, Hp2, ⟨Hf3, Hc3⟩, ⟨Hf4, Hc4⟩, ⟨Hfa3, Hca3⟩, ⟨Hfa4, Hca4⟩, ⟨Tr31, Tr32, Tr33⟩, ⟨Ts31, Ts32, Ts33⟩, ⟨L31, L32, L33⟩,
    ⟨Tr41, Tr42, Tr43⟩, ⟨Ts41, Ts42, Ts43⟩, ⟨L41, L42, L43⟩, Hwi, Hwo, Hany, Hx⟩, HK⟩
  iapply (C_seq c (part15_spec m K c v6 W)) $$ [$]
  iintro %r
  obtain ⟨v425, v431, v433⟩ := r
  iintro ⟨%hV, ⟨%W1, HO⟩, Hd3, Hp3, Hwi, Hwo, Hp2⟩
  iapply (C_seq c (part16_spec m K c v3 v4 W1 v425 v431 v433 hV)) $$ [$]
  iintro %r
  obtain ⟨v443, v458⟩ := r
  iintro ⟨HO, Hcs1, H0, H2, H3⟩
  iapply (C_seq c (part17_spec m K c v3 v4 v443 v458 W1)) $$ [$]
  iintro %v473 ⟨⟨%W2, HO⟩, Hcs2, Hcs3, Hmid, Hca, Hcb⟩
  iapply (C_seq c (part18_spec m K c v3 v473 W2)) $$ [$]
  iintro %v527 ⟨%h18, ⟨%W3, HO⟩, Hd, H0, Hg⟩
  iapply (C_seq c (part19_spec m K c v3 v4 W3 v527 h18)) $$ [$]
  iintro %r
  obtain ⟨v542, v555⟩ := r
  iintro ⟨HO, Hg, Hcs41, HxK, Hx2, Hx3⟩
  iapply (C_seq c (part20_spec m K c v3 v4 v542 v555 W3)) $$ [$]
  iintro %v568 ⟨⟨%W4, HO⟩, Hcs42, Hcs43, Hmid4, Hc4c⟩
  iapply (C_seq c (part21_spec m K c v6 v568 W4)) $$ [$]
  iintro %v604 ⟨%h21, ⟨%W5, HO⟩, Hd4, Hg4, HxK, Hdw4, Hp4⟩
  subst h21
  iapply HK
  isplitl [HO]; · iexists W5; iexact HO
  iframe

end Cert.KernelIdeal.P

end
-- ==== Proof.BodyD.lean ====
import proofs.«900976_g7700000000000977_dist_mlpseq_tp1d_bs_bs_b128_d128_h256_v7x_i8_bf16_1_alg».proof.Proof.PhaseSpecs
import proofs.«900976_g7700000000000977_dist_mlpseq_tp1d_bs_bs_b128_d128_h256_v7x_i8_bf16_1_alg».proof.Proof.Levels
import proofs.«900976_g7700000000000977_dist_mlpseq_tp1d_bs_bs_b128_d128_h256_v7x_i8_bf16_1_alg».proof.Proof.HoldsLemmas
import proofs.«900976_g7700000000000977_dist_mlpseq_tp1d_bs_bs_b128_d128_h256_v7x_i8_bf16_1_alg».proof.Proof.RoundSteps
import proofs.«900976_g7700000000000977_dist_mlpseq_tp1d_bs_bs_b128_d128_h256_v7x_i8_bf16_1_alg».proof.Proof.Reindex
import proofs.«900976_g7700000000000977_dist_mlpseq_tp1d_bs_bs_b128_d128_h256_v7x_i8_bf16_1_alg».proof.Proof.BodyShared

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ (c : Thread nD τ) none) Set.univ

variable (m : (ℓ : Loc nD τ sig) → Buf (Elt F) ℓ)

theorem D_wrS5 : ((cc0_scratch12.slice (Rect.unit (s := S6) ![5] S1.size inb_S6_S1_5)).squeeze S_ squeezes_S1_S_).sem = wrS 5 := by decide
theorem D_asS5 : ((cc0_scratch13.slice (Rect.unit (s := S6) ![5] S1.size inb_S6_S1_5)).squeeze S_ squeezes_S1_S_).sem = asS 5 := by decide
theorem D_arS5 : ((cc0_scratch14.slice (Rect.unit (s := S6) ![5] S1.size inb_S6_S1_5)).squeeze S_ squeezes_S1_S_).sem = arS 5 := by decide

/-- An offset at the device's plane index shifted by n is at the plane index of the peer that far round. -/
theorem D_peer (c : Dev nD) (d : Fin 4) {n : ℕ} {off : Fin 3 → ℕ} (h : off = ![((qd c).val + n) % 4, 0, 0])
    (hq : (qd (pp c d)).val = ((qd c).val + n) % 4) : off = ![(qd (pp c d)).val, 0, 0] := by rw [h, hq]

/-- A slot's credit does not depend on which of the four slots it is. -/
theorem D_credit {off : Fin 3 → ℕ} {inb : ∀ a, off a + S1x128x128.size a ≤ S4x128x128.size a} {j : Fin 4} (h : off = ![j.val, 0, 0]) :
    (slot4 (raccM 2) off inb).view.dmaCredit = cA 5 := by subst h; exact cA_slot 5 j

theorem D_ret (c : Dev nD) {α : Type} (a : α) (Q : α → sProp 𝕄) : Q a ⊢ wpX[c] (.ret a) Q := by
  rw [wp_ret]; iintro H; imodintro; iexact H

/-- If R gives p its postcondition P, and every P a gives the rest its own, then R gives p followed by the rest. -/
theorem D_bind (c : Dev nD) {α β : Type} {p : Prog (TpuEff nD τ sig (Elt F) Λ₀ .tc) α} {k : α → Prog (TpuEff nD τ sig (Elt F) Λ₀ .tc) β}
    {R : sProp 𝕄} {P : α → sProp 𝕄} {Q : β → sProp 𝕄} (h : R ⊢ wpX[c] p P) :
    R ⊢ iprop((∀ a, P a -∗ wpX[c] (k a) Q) -∗ wpX[c] (p >>= k) Q) := by
  rw [wp_bind]; exact h.trans (BIClass.wand_intro (wp_wand_r _ _ _))

/-- What is still owed from item n on, with the list from there written out. -/
theorem D_next (c : Dev nD) (n : ℕ) (l : List (GSem nD τ sig × ℕ)) (W : Waits sig Unit) (h : (owedItems c).drop n = l) :
    (owes (c : Thread nD τ) (owedL ((owedItems c).drop n)) W : sProp 𝕄) ⊢ owes (c : Thread nD τ) (owedL l) W := by
  subst h; exact .rfl

def post22 (c : Dev nD) (W : Waits sig Unit) : sProp 𝕄 :=
  iprop(owesFrom c 25 (insert (SemLoc.dma (wrS 5), ()) W) ∗ done (wrC c 5)
    ∗ holds c (winsJ 0 2) shK (Wi m c 2) ∗ holds c (woutsJ 0 2) shK (Wo m c 2) ∗ wrPay m c 4 ∗ wrPay m c 5
    ∗ holds c (slotJ (prtlM 2) (qd c)) fullShare (sl4 (PK m 2 c) (qd c))
    ∗ asPay m c 5 1 ∗ asPay m c 5 2 ∗ asPay m c 5 3)
def post23 (c : Dev nD) (W : Waits sig Unit) : sProp 𝕄 :=
  iprop(owesFrom c 27 W ∗ cred (tallyAt (asC c 5) () (cA 5)) ∗ cred (tallyAt (asC c 5) () (cA 5)))
def post24 (c : Dev nD) : sProp 𝕄 :=
  iprop((∃ W', owesFrom c 28 W') ∗ cred (tallyAt (asC c 5) () (cA 5)) ∗ midWait m (arC c 5) (0 + cA 5 + cA 5) ∗ cred (tallyAt (arC c 5) () (cA 5)))
def post25 (c : Dev nD) : sProp 𝕄 :=
  iprop((∃ W', owesFrom c 28 W') ∗ done (arC c 5)
    ∗ holds c (slotJ (prtlM 2) (qd c)) fullShare (sl4 (PK m 2 c) (qd c)) ∗ got3 m c 5 ∗ stg c cc0_stg7_0 (OUT m c))

theorem part22_spec (K : Dev nD × Fin 26 → ℕ) (c : Dev nD) (v3 : BitVec 32) (W : Waits sig Unit) :
    iprop(records m K ∗ levAts L lv ∗ owesFrom c 25 W ∗ (fresh (wrC c 5) ∗ cred (tallyAt (wrC c 5) () (cW 5)))
        ∗ holds c (winsJ 0 2) shK (Wi m c 2) ∗ holds c (woutsJ 0 2) shK (Wo m c 2) ∗ wrPay m c 4 ∗ any4 c (prtlM 2))
      ⊢ wpX[c] ((ARGS k0_part22) v3 (acts2 m c)) (fun _ => post22 m c W) := by
  simp only [k0_part22_eq_skeleton]; unfold k0_part22_skel
  simp only [semSignalWord, semWaitWord, Prog.lift, Prog.bind_op, Prog.bind_ret, Prog.pure_eq_ret, D_wrS5]
  unfold post22 owesFrom any4 fresh done
  simp only [wrPay_4, wrPay_5, asPay_5]
  iintro ⟨#Hrec, #Hlev, HO, ⟨Hat, Hc⟩, Hwi, Hwo, Hw4, Hp⟩
  ihave Hi := (inv_wr m K c 5) $$ Hrec
  ihave Hm := (mayWait_wr5 c) $$ Hlev
  iapply (wp_wait_wr m c 5 (wrS 5) rfl (dst := woutsJ 1 2) (owedL ((owedItems c).drop 25)) W rfl) $$ [$]
  iintro ⟨HO, Hat, Hw5⟩
  ihave Hw5 := (Entails.of_eq (wrPay_5 m c)) $$ Hw5
  iapply (wp_load_wslice c 0 2 (off := ![0, 2, 0, 0]) rfl shK (Wi m c 2)) $$ Hwi; iintro Hwi
  iapply (wp_load_oslice c 0 2 (off := ![0, 2, 0, 0]) rfl shK (Wo m c 2)) $$ Hwo; iintro Hwo
  iapply (wp_load_wslice c 1 2 (off := ![1, 2, 0, 0]) rfl fullShare (Wi m (pp c 0) 2)) $$ Hw4; iintro Hw4
  iapply (wp_load_oslice c 1 2 (off := ![1, 2, 0, 0]) rfl fullShare (Wo m (pp c 0) 2)) $$ Hw5; iintro Hw5
  iapply (wp_load_whole4_any c (prtlM 2) (off := ![0, 0, 0]) rfl) $$ Hp; iintro %x Hp
  iapply (wp_store_whole4 c (prtlM 2) (off := ![0, 0, 0]) (v := PK m 2 c) rfl) $$ Hp; iintro Hp
  ihave Hq := (X_reindex4 c fun j => holds c (slotJ (prtlM 2) j) fullShare (sl4 (PK m 2 c) j)).2 $$ Hp
  iapply (D_ret c _ _)
  iframe

theorem part23_spec (K : Dev nD × Fin 26 → ℕ) (c : Dev nD) (v3 v4 v647 c4 : BitVec 32) (W : Waits sig Unit) :
    iprop(records m K ∗ owesFrom c 25 W ∗ (asPay m c 5 1 ∗ asPay m c 5 2)
        ∗ (holdsAny (pp c 1) (slotJ (dstBuf 5) (qd c)) ∗ holdsAny (pp c 2) (slotJ (dstBuf 5) (qd c)))
        ∗ (dutyTok ER (asC c 5) 0 1 ∗ dutyTok ER (asC c 5) 0 2)
        ∗ (dutyTok ER (arC (pp c 1) 5) 0 (inv 1) ∗ dutyTok ER (arC (pp c 2) 5) 0 (inv 2)))
      ⊢ wpX[c] ((ARGS k0_part23) c v3 v4 v647 c4) (fun _ => post23 c W) := by
  simp only [k0_part23_eq_skeleton]; unfold k0_part23_skel
  simp only [semSignalWord, semWaitWord, Prog.lift, Prog.bind_op, Prog.bind_ret, Prog.pure_eq_ret]
  unfold post23 asPay owesFrom
  iintro ⟨#Hrec, HO, ⟨Hs1, Hs2⟩, ⟨Hl1, Hl2⟩, ⟨Ht1, Ht2⟩, ⟨Hr1, Hr2⟩⟩
  ihave HO := (D_next c 25 ((arC (pp c 1) 5, cA 5) :: (owedItems c).drop 26) W rfl) $$ HO
  iapply (wp_copy_act m K c _ 5 1 (by decide) (dev_eq26 c) (D_peer c 1 (off3_eq1 c) (qd_pp_val1 c)) (off2_eq c) D_asS5 D_arS5 ((owedItems c).drop 26) W) $$ [$]
  iintro ⟨Hc1, HO⟩
  ihave HO := (D_next c 26 ((arC (pp c 2) 5, cA 5) :: (owedItems c).drop 27) W rfl) $$ HO
  iapply (wp_copy_act m K c _ 5 2 (by decide) (dev_eq27 c) (D_peer c 2 (off3_eq2 c) (qd_pp_val2 c)) (off2_eq c) D_asS5 D_arS5 ((owedItems c).drop 27) W) $$ [$]
  iintro ⟨Hc2, HO⟩
  iapply (D_ret c _ _)
  iframe

theorem part24_spec (K : Dev nD × Fin 26 → ℕ) (c : Dev nD) (v649 v664 v679 v680 : BitVec 32) (W : Waits sig Unit) :
    iprop(records m K ∗ levAts L lv ∗ owesFrom c 27 W ∗ asPay m c 5 3 ∗ holdsAny (pp c 3) (slotJ (dstBuf 5) (qd c))
        ∗ dutyTok ER (asC c 5) 0 3 ∗ dutyTok ER (arC (pp c 3) 5) 0 (inv 3)
        ∗ fresh (arC c 5) ∗ cred (tallyAt (arC c 5) () (3 * cA 5)))
      ⊢ wpX[c] ((ARGS k0_part24) c v649 v664 v679 v680) (fun _ => post24 m c) := by
  simp only [k0_part24_eq_skeleton]; unfold k0_part24_skel
  simp only [semSignalWord, semWaitWord, Prog.lift, Prog.bind_op, Prog.bind_ret, Prog.pure_eq_ret]
  unfold post24 asPay owesFrom
  iintro ⟨#Hrec, #Hlev, HO, Hs3, Hl3, Ht3, Hr3, Hat, Hca⟩
  ihave HO := (D_next c 27 ((arC (pp c 3) 5, cA 5) :: (owedItems c).drop 28) W rfl) $$ HO
  iapply (wp_copy_act m K c _ 5 3 (by decide) (dev_eq28 c) (D_peer c 3 (off3_eq3 c) (qd_pp_val3 c)) (off2_eq c) D_asS5 D_arS5 ((owedItems c).drop 28) W) $$ [$]
  iintro ⟨Hc3, HO⟩
  iapply (wait_ar_1 m K c 5 _ D_arS5 (owedL ((owedItems c).drop 28)) W (D_credit (off2_eq c)) (mayWait_ar5 c)) $$ [$]
  iintro ⟨HO, Hmid, Hca, Hcb⟩
  iapply (wait_ar_2 m K c 5 _ D_arS5 (owedL ((owedItems c).drop 28)) (insert (SemLoc.dma (arS 5), ()) W) (D_credit (off2_eq c)) (mayWait_ar5 c)) $$ [$]
  iintro ⟨HO, Hmid, Hcc⟩
  iapply (D_ret c _ _)
  isplitl [HO]; · iexists _; iexact HO
  iframe

theorem D_write_out (f w : (cc0_stg7_0 : Ref sig .tc).ty.Contents (Elt F)) :
    (((Memref.whole cc0_stg7_0 : Memref sig .tc .vmem S128x128 .f32).access
        (Rect.unit (s := S128x128) ![0, 0] S128x128.size inb_S128x128_S128x128_0_0) : View sig .tc _ _ _).write (Elt F) f w Finset.univ) = w :=
  Memref.write_access_unit_zero_univ (Elt F) cc0_stg7_0 (funext fun a => by fin_cases a <;> rfl) _ f w

theorem part25_spec (K : Dev nD × Fin 26 → ℕ) (c : Dev nD) (v3 v708 c0 : BitVec 32) (W : Waits sig Unit) :
    iprop(records m K ∗ levAts L lv ∗ owesFrom c 28 W ∗ midWait m (arC c 5) (0 + cA 5 + cA 5) ∗ cred (tallyAt (arC c 5) () (cA 5))
        ∗ holds c (slotJ (prtlM 2) (qd c)) fullShare (sl4 (PK m 2 c) (qd c)) ∗ (∃ X, stg c cc0_stg7_0 X))
      ⊢ wpX[c] ((ARGS k0_part25) c v3 v708 c0) (fun _ => post25 m c) := by
  simp only [k0_part25_eq_skeleton]; unfold k0_part25_skel
  simp only [semSignalWord, semWaitWord, Prog.lift, Prog.bind_op, Prog.bind_ret, Prog.pure_eq_ret]
  unfold post25 owesFrom
  iintro ⟨#Hrec, #Hlev, HO, Hmid, Hcc, Hown, ⟨%X, %g, %hg, Hout⟩⟩
  iapply (wait_ar_3 m K c 5 _ D_arS5 (owedL ((owedItems c).drop 28)) W (D_credit (off2_eq c)) (mayWait_ar5 c)) $$ [$]
  iintro ⟨HO, Hat, Hg⟩
  simp only [got3, arPay_5]
  icases Hg with ⟨Hg1, Hg2, Hg3⟩
  iapply (wp_load_slot c (prtlM 2) (qd c) (off1_eq c) fullShare (sl4 (PK m 2 c) (qd c))) $$ Hown; iintro Hown
  iapply (wp_load_slot c (raccM 2) (qd (pp c 1)) (D_peer c 1 (off4_eq1 c) (qd_pp_val1 c)) fullShare (sl4 (PK m 2 (pp c 1)) (qd c))) $$ Hg1; iintro Hg1
  iapply (wp_load_slot c (raccM 2) (qd (pp c 2)) (D_peer c 2 (off4_eq2 c) (qd_pp_val2 c)) fullShare (sl4 (PK m 2 (pp c 2)) (qd c))) $$ Hg2; iintro Hg2
  iapply (wp_load_slot c (raccM 2) (qd (pp c 3)) (D_peer c 3 (off4_eq3 c) (qd_pp_val3 c)) fullShare (sl4 (PK m 2 (pp c 3)) (qd c))) $$ Hg3; iintro Hg3
  iapply (wp_load 𝒱₀ (c : Thread nD τ) none Set.univ (m := (Memref.whole cc0_stg7_0 : Memref sig .tc .vmem S128x128 .f32)) (Finset.subset_univ _)) $$ Hout; iintro Hout
  iapply (wp_store 𝒱₀ (c : Thread nD τ) none Set.univ (m := (Memref.whole cc0_stg7_0 : Memref sig .tc .vmem S128x128 .f32))
      (r := Rect.unit (s := S128x128) ![0, 0] S128x128.size inb_S128x128_S128x128_0_0) (Mk := Finset.univ) (Finset.subset_univ _)) $$ Hout; iintro Hout
  iapply (D_ret c _ _)
  isplitl [HO]; · iexists _; iexact HO
  iframe
  iexists _
  isplitr; swap
  · iexact Hout
  · ipureintro; exact D_write_out _ _

theorem D_stretch (K : Dev nD × Fin 26 → ℕ) (c : Dev nD) (v3 v4 : BitVec 32) (W : Waits sig Unit)
    {α : Type} (Q : α → sProp 𝕄) (KK : Prog (TpuEff nD τ sig (Elt F) Λ₀ .tc) α) :
    iprop(records m K ∗ levAts L lv ∗ preLast m c W ∗ (postLast m c -∗ wpX[c] KK Q))
      ⊢ wpX[c] ((do
          let ⟨v647, c4_i32_599⟩ : Σ' (v647 : BitVec 32), BitVec 32 ← (ARGS k0_part22) v3 (acts2 m c)
          let ⟨v649, v664, v679, v680⟩ : Σ' (v649 : BitVec 32) (v664 : BitVec 32) (v679 : BitVec 32), BitVec 32 ← (ARGS k0_part23) c v3 v4 v647 c4_i32_599
          let ⟨v708, c0_i32_653⟩ : Σ' (v708 : BitVec 32), BitVec 32 ← (ARGS k0_part24) c v649 v664 v679 v680
          (ARGS k0_part25) c v3 v708 c0_i32_653
          KK) : Prog (TpuEff nD τ sig (Elt F) Λ₀ .tc) α) Q := by
  unfold preLast postLast arTok asTok lent asCred
  iintro ⟨#Hrec, #Hlev, ⟨HO, ⟨Hatw, Hcw⟩, ⟨Hata, Hca⟩, ⟨Hr1, Hr2, Hr3⟩, ⟨Ht1, Ht2, Ht3⟩, ⟨Hl1, Hl2, Hl3⟩, Hwi, Hwo, Hw4, Hany, Hstg⟩, Hk⟩
  iapply (D_bind c (part22_spec m K c v3 W)) $$ [$]
  iintro %r H22; obtain ⟨v647, c4⟩ := r; unfold post22
  icases H22 with ⟨HO, Hdw, Hwi, Hwo, Hw4, Hw5, Hown, Hs1, Hs2, Hs3⟩
  iapply (D_bind c (part23_spec m K c v3 v4 v647 c4 (insert (SemLoc.dma (wrS 5), ()) W))) $$ [$]
  iintro %r H23; obtain ⟨v649, v664, v679, v680⟩ := r; unfold post23
  icases H23 with ⟨HO, Hc1, Hc2⟩
  iapply (D_bind c (part24_spec m K c v649 v664 v679 v680 (insert (SemLoc.dma (wrS 5), ()) W))) $$ [$]
  iintro %r H24; obtain ⟨v708, c0⟩ := r; unfold post24
  icases H24 with ⟨⟨%W', HO⟩, Hc3, Hmid, Hcc⟩
  iapply (D_bind c (part25_spec m K c v3 v708 c0 W')) $$ [$]
  iintro %r H25; unfold post25
  icases H25 with ⟨HO, Hda, Hown, Hgot, Hout⟩
  iapply Hk
  iframe

end Cert.KernelIdeal.P

end
-- ==== Proof.BodyE.lean ====
import proofs.«900976_g7700000000000977_dist_mlpseq_tp1d_bs_bs_b128_d128_h256_v7x_i8_bf16_1_alg».proof.Proof.PhaseSpecs
import proofs.«900976_g7700000000000977_dist_mlpseq_tp1d_bs_bs_b128_d128_h256_v7x_i8_bf16_1_alg».proof.Proof.BodyCuts
import proofs.«900976_g7700000000000977_dist_mlpseq_tp1d_bs_bs_b128_d128_h256_v7x_i8_bf16_1_alg».proof.Proof.Levels
import proofs.«900976_g7700000000000977_dist_mlpseq_tp1d_bs_bs_b128_d128_h256_v7x_i8_bf16_1_alg».proof.Proof.RoundSteps

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "wpX[" c "]" => wp frame (wpE (defs₀ (F := F)) 𝒱₀ (c : Thread nD τ) none) Set.univ

variable (m : (ℓ : Loc nD τ sig) → Buf (Elt F) ℓ)

theorem E_inv (K : Dev nD × Fin 26 → ℕ) (c' : Dev nD) (i : Fin 26) {g : SemLoc sig} (h : cellK i = g) :
    records m K ⊢ cellInv ER (Rd m) (K (c', i)) ((c' : Thread nD τ), g) := by
  subst h
  exact sep_elim_left.trans (bigSep_elim (Finset.mem_univ (c', i)) (Φ := fun ck : Dev nD × Fin 26 => cellInv ER (Rd m) (K ck) (kcell ck)))

theorem E_reached (K : Dev nD × Fin 26 → ℕ) (c' : Dev nD) (i : Fin 26) {g : SemLoc sig} (h : cellK i = g) :
    records m K ⊢ reached ER ((c' : Thread nD τ), g) 0 := by
  subst h
  exact sep_elim_right.trans (bigSep_elim (Finset.mem_univ (c', i)) (Φ := fun ck : Dev nD × Fin 26 => reached ER (kcell ck) 0))

variable (K : Dev nD × Fin 26 → ℕ) (c : Dev nD)

abbrev E_wsPre (j : Fin 6) : sProp 𝕄 := iprop(fresh (wsC c j) ∗ cred (tallyAt (wsC c j) () (cW j)))
abbrev E_wsPost (j : Fin 6) : sProp 𝕄 := iprop(done (wsC c j) ∗ wsPay m c j)
abbrev E_asPre (j : Fin 6) : sProp 𝕄 := iprop(fresh (asC c j) ∗ asCred c j)
abbrev E_asMid1 (j : Fin 6) : sProp 𝕄 :=
  iprop(midWait m (asC c j) (0 + cA j) ∗ cred (tallyAt (asC c j) () (cA j)) ∗ cred (tallyAt (asC c j) () (cA j)))
abbrev E_asMid2 (j : Fin 6) : sProp 𝕄 := iprop(midWait m (asC c j) (0 + cA j + cA j) ∗ cred (tallyAt (asC c j) () (cA j)))
abbrev E_asPost (j : Fin 6) : sProp 𝕄 := iprop(done (asC c j) ∗ asPay m c j 1 ∗ asPay m c j 2 ∗ asPay m c j 3)

/-- From A to B by the program p on device c, whatever is still owed from item 28 on and whatever follows. -/
def E_run (A : sProp 𝕄) (p : Prog (TpuEff nD τ sig (Elt F) Λ₀ .tc) PUnit) (B : sProp 𝕄) : Prop :=
  ∀ (W : Waits sig Unit) (Q : PUnit → sProp 𝕄),
    iprop(records m K ∗ levAts L lv ∗ owesFrom c 28 W ∗ A) ⊢ iprop((∀ W', (owesFrom c 28 W' ∗ B) -∗ Q ⟨⟩) -∗ wpX[c] p Q)

section
variable {m K c} {A B C R : sProp (MT nD τ sig Unit (Elt F) ℕ UU ℕ)} {p q : Prog (TpuEff nD τ sig (Elt F) Λ₀ .tc) PUnit}

theorem E_seq (hp : E_run m K c A p B) (hq : E_run m K c B q C) : E_run m K c A (p >>= fun _ => q) C := by
  intro W Q
  rw [wp_bind]
  iintro ⟨#HR, #Hlev, HO, HA⟩ Hk
  iapply (hp W _) $$ [$]
  iintro %W1 ⟨HO, HB⟩
  iapply (hq W1 Q) $$ [$]
  iexact Hk

/-- What the program does not touch may stand to the right of its state, or to the left. -/
theorem E_frame (hp : E_run m K c A p B) : E_run m K c iprop(A ∗ R) p iprop(B ∗ R) := by
  intro W Q
  iintro ⟨#HR, #Hlev, HO, HA, HF⟩ Hk
  iapply (hp W Q) $$ [$]
  iintro %W1 ⟨HO, HB⟩
  iapply Hk $$ %W1 [$]
theorem E_frame' (hp : E_run m K c A p B) : E_run m K c iprop(R ∗ A) p iprop(R ∗ B) := by
  intro W Q
  iintro ⟨#HR, #Hlev, HO, HF, HA⟩ Hk
  iapply (hp W Q) $$ [$]
  iintro %W1 ⟨HO, HB⟩
  iapply Hk $$ %W1 [$]

end

section
variable {m K c} {sp sp' : Space} {s s' : Shape} {e e' : EltTy}
  {src : Memref sig .tc sp' s' e'} {κ' : Kind} {dst : Memref sig κ' sp s e} {h₁ : src.view.WordExact} {h₂ : dst.view.WordExact}

theorem E_wait_ws (j : Fin 6) {sm : DmaSem sig} (hs : sm = wsS j := by decide) (hamt : dst.view.dmaCredit = cW j := by rfl) :
    E_run m K c (E_wsPre c j) (Prog.lift (.waitDma2 sm src dst h₁ h₂)) (E_wsPost m c j) := by
  intro W Q
  unfold owesFrom E_wsPre E_wsPost fresh done Prog.lift
  iintro ⟨#HR, #Hlev, HO, Hat, Hc⟩ Hk
  ihave HI := (E_inv m K c _ (cellK_ws j)) $$ HR
  ihave HM := (mayWait_send c (.dma (wsS j)) (Or.inl ⟨j, rfl⟩)) $$ Hlev
  iapply (wp_wait_ws m c j sm hs (owedL ((owedItems c).drop 28)) W hamt) $$ [$]
  iintro H
  rw [wp_ret]; imodintro
  iapply Hk $$ %(insert (SemLoc.dma (wsS j), ()) W) H

/-- One of the first two waits of a phase: a units consumed become a + cA j; R is whatever else is held. -/
theorem E_wait_as (j : Fin 6) {sm : DmaSem sig} {a : ℕ} {R : sProp 𝕄} (hs : sm = asS j := by decide)
    (hamt : dst.view.dmaCredit = cA j := by rfl) :
    E_run m K c iprop(midWait m (asC c j) a ∗ cred (tallyAt (asC c j) () (cA j)) ∗ R) (Prog.lift (.waitDma2 sm src dst h₁ h₂))
      iprop(midWait m (asC c j) (a + cA j) ∗ R) := by
  intro W Q
  subst hs
  unfold owesFrom Prog.lift
  iintro ⟨#HR, #Hlev, HO, Hmid, Hc, Hrest⟩ Hk
  ihave HI := (E_inv m K c _ (cellK_as j)) $$ HR
  ihave HM := (mayWait_send c (.dma (asS j)) (Or.inr ⟨j, rfl⟩)) $$ Hlev
  iapply (wp_wait3_step m c (asS j) (cA j) a (owedL ((owedItems c).drop 28)) W hamt) $$ [$]
  iintro ⟨HO, Hmid⟩
  rw [wp_ret]; imodintro
  iapply Hk $$ %(insert (SemLoc.dma (asS j), ()) W) [$]

theorem E_wait_as1 (j : Fin 6) {sm : DmaSem sig} (hs : sm = asS j := by decide) (hamt : dst.view.dmaCredit = cA j := by rfl) :
    E_run m K c (E_asPre c j) (Prog.lift (.waitDma2 sm src dst h₁ h₂)) (E_asMid1 m c j) := fun W Q =>
  (sep_mono_right <| sep_mono_right <| sep_mono_right <| sep_mono_left <| midWait_zero m (asC c j)).trans
    (E_wait_as j hs hamt W Q)

theorem E_wait_as3 (j : Fin 6) {sm : DmaSem sig} (hs : sm = asS j := by decide) (hamt : dst.view.dmaCredit = cA j := by rfl) :
    E_run m K c (E_asMid2 m c j) (Prog.lift (.waitDma2 sm src dst h₁ h₂)) (E_asPost m c j) := by
  intro W Q
  unfold owesFrom E_asMid2 E_asPost done Prog.lift
  iintro ⟨#HR, #Hlev, HO, Hmid, Hc⟩ Hk
  ihave HI := (E_inv m K c _ (cellK_as j)) $$ HR
  ihave HM := (mayWait_send c (.dma (asS j)) (Or.inr ⟨j, rfl⟩)) $$ Hlev
  iapply (wp_wait_as_last m c j sm hs (0 + cA j + cA j) (owedL ((owedItems c).drop 28)) W hamt (by omega)) $$ [$]
  iintro H
  rw [wp_ret]; imodintro
  iapply Hk $$ %(insert (SemLoc.dma (asS j), ()) W) H

end

/-- The exit signal to peer number i pays the head of what is still owed. -/
theorem E_sig (n : Dev nD) (i : Fin 4) (hn : n = pp c i) {a : ℕ} (ha : a = 1) (x : ℕ)
    (xs : List (GSem nD τ sig × ℕ)) (h : (owedItems c).drop x = (extC (pp c i), 1) :: xs) (W : Waits sig Unit)
    {α : Type} {Q : α → sProp 𝕄} {k : PUnit → Prog (TpuEff nD τ sig (Elt F) Λ₀ .tc) α} :
    iprop(records m K ∗ owes (c : Thread nD τ) (owedL ((owedItems c).drop x)) W ∗ dutyTok ER (extC (pp c i)) 0 (inv i))
      ⊢ iprop((owes (c : Thread nD τ) (owedL xs) W -∗ wpX[c] (k ⟨⟩) Q)
          -∗ wpX[c] (.op (.semSignal (Dev.tc n : Thread nD τ) extS a) k) Q) := by
  rw [h]
  iintro ⟨#HR, HO, Ht⟩
  ihave HI := (E_inv m K (pp c i) 1 cellK_ext) $$ HR
  ihave Hr := (E_reached m K (pp c i) 1 cellK_ext) $$ HR
  iapply (wp_sig_ext m c n i hn ha xs W) $$ [$]

theorem part26_k : E_run m K c iprop(E_wsPre c 0 ∗ E_wsPre c 1 ∗ E_wsPre c 2) (ARGS k0_part26)
    iprop(E_wsPost m c 0 ∗ E_wsPost m c 1 ∗ E_wsPost m c 2) :=
  E_seq (E_frame (E_wait_ws 0))
    (E_seq (E_frame' (E_frame (E_wait_ws 1)))
      (E_frame' (E_frame' (E_wait_ws 2))))

theorem part27_k : E_run m K c iprop(E_wsPre c 3 ∗ E_wsPre c 4 ∗ E_wsPre c 5 ∗ E_asPre c 0) ((ARGS k0_part27) c)
    iprop(E_wsPost m c 3 ∗ E_wsPost m c 4 ∗ E_wsPost m c 5 ∗ E_asMid1 m c 0) :=
  E_seq (E_frame (E_wait_ws 3))
    (E_seq (E_frame' (E_frame (E_wait_ws 4)))
      (E_seq (E_frame' (E_frame' (E_frame (E_wait_ws 5))))
        (E_frame' (E_frame' (E_frame' (E_wait_as1 0))))))

theorem part28_k : E_run m K c iprop(E_asMid1 m c 0 ∗ E_asPre c 1) ((ARGS k0_part28) c) iprop(E_asPost m c 0 ∗ E_asMid2 m c 1) :=
  E_seq (E_frame (E_wait_as 0))
    (E_seq (E_frame (E_wait_as3 0))
      (E_seq (E_frame' (E_wait_as1 1))
        (E_frame' (E_wait_as 1))))

theorem part29_k : E_run m K c iprop(E_asMid2 m c 1 ∗ E_asPre c 2) ((ARGS k0_part29) c) iprop(E_asPost m c 1 ∗ E_asPost m c 2) :=
  E_seq (E_frame (E_wait_as3 1))
    (E_seq (E_frame' (E_wait_as1 2))
      (E_seq (E_frame' (E_wait_as 2))
        (E_frame' (E_wait_as3 2))))

theorem part30_k : E_run m K c iprop(E_asPre c 3 ∗ E_asPre c 4) ((ARGS k0_part30) c) iprop(E_asPost m c 3 ∗ E_asMid2 m c 4) :=
  E_seq (E_frame (E_wait_as1 3))
    (E_seq (E_frame (E_wait_as 3))
      (E_seq (E_frame (E_wait_as3 3))
        (E_seq (E_frame' (E_wait_as1 4))
          (E_frame' (E_wait_as 4)))))

theorem part31_k (v6 : BitVec 32) : E_run m K c iprop(E_asMid2 m c 4 ∗ E_asPre c 5) ((ARGS k0_part31) c v6)
    iprop(E_asPost m c 4 ∗ E_asPost m c 5) :=
  E_seq (E_frame (E_wait_as3 4))
    (E_seq (E_frame' (E_wait_as1 5))
      (E_seq (E_frame' (E_wait_as 5))
        (E_frame' (E_wait_as3 5))))

theorem E_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

def E_postE1 (c : Dev nD) : sProp 𝕄 :=
  iprop((∃ W, owesFrom c 31 W)
    ∗ (bigSep Finset.univ fun j : Fin 6 => iprop(done (wsC c j) ∗ wsPay m c j))
    ∗ (bigSep Finset.univ fun j : Fin 6 => iprop(done (asC c j) ∗ asPay m c j 1 ∗ asPay m c j 2 ∗ asPay m c j 3))
    ∗ dutyTok ER (extC (pp c 3)) 0 (inv 3) ∗ fresh (extC c) ∗ cred (tallyAt (extC c) () 4))

theorem E1_k (K : Dev nD × Fin 26 → ℕ) (c : Dev nD) (v3 v4 v6 : BitVec 32) (W : Waits sig Unit)
    (Q : (Σ' (d0 : Dev nD), BitVec 32) → sProp 𝕄) :
    iprop(records m K ∗ levAts L lv ∗ preEnd c W ∗ (∀ r, iprop(⌜r.1 = c⌝ ∗ E_postE1 m c) -∗ Q r))
      ⊢ wpX[c] (E_tail32 c v3 v4 v6) Q := by
  unfold E_tail32 preEnd E_postE1
  simp only [semSignalWord, Prog.bind_op, Prog.bind_ret, Prog.pure_eq_ret, wp_bind, E_bigSep_fin6]
  iintro ⟨#HR, #Hlev, ⟨HO, ⟨S0, S1, S2, S3, S4, S5⟩, ⟨A0, A1, A2, A3, A4, A5⟩, ⟨Ht0, Ht1, Ht2, Ht3⟩, Hfe, Hce⟩, Hk⟩
  iapply (part26_k m K c W _) $$ [$]
  iintro %W1 ⟨HO, S0, S1, S2⟩
  iapply (part27_k m K c W1 _) $$ [$]
  iintro %W2 ⟨HO, S3, S4, S5, A0⟩
  iapply (part28_k m K c W2 _) $$ [$]
  iintro %W3 ⟨HO, A0, A1⟩
  iapply (part29_k m K c W3 _) $$ [$]
  iintro %W4 ⟨HO, A1, A2⟩
  iapply (part30_k m K c W4 _) $$ [$]
  iintro %W5 ⟨HO, A3, A4⟩
  iapply (part31_k m K c v6 W5 _) $$ [$]
  iintro %W6 ⟨HO, A4, A5⟩
  unfold owesFrom
  iapply (E_sig m K c _ 0 (dev_eq29 c) rfl 28 ((owedItems c).drop 29) rfl W6) $$ [$]
  iintro HO
  iapply (E_sig m K c _ 1 (dev_eq30 c) rfl 29 ((owedItems c).drop 30) rfl W6) $$ [$]
  iintro HO
  iapply (E_sig m K c _ 2 (dev_eq31 c) rfl 30 ((owedItems c).drop 31) rfl W6) $$ [$]
  iintro HO
  rw [wp_ret]; imodintro
  iapply Hk
  isplitr; · ipureintro; rfl
  isplitl [HO]; · iexists W6; iexact HO
  iframe

theorem E2_k (K : Dev nD × Fin 26 → ℕ) (c : Dev nD) (Q : PUnit → sProp 𝕄) :
    iprop(records m K ∗ levAts L lv ∗ E_postE1 m c ∗ (∀ r, postEnd m c -∗ Q r)) ⊢ wpX[c] (E_tailBody c) Q := by
  unfold E_tailBody E_postE1 owesFrom
  simp only [semSignalWord, semWaitWord, Prog.bind_op, Prog.bind_ret, Prog.pure_eq_ret]
  iintro ⟨#HR, #Hlev, ⟨⟨%W, HO⟩, Pws, Pas, Ht3, Hfe, Hce⟩, Hk⟩
  iapply (E_sig m K c _ 3 (dev_eq32 c) rfl 31 [] rfl W) $$ [$]
  iintro HO
  unfold fresh
  ihave HI := (E_inv m K c 1 cellK_ext) $$ HR
  ihave HM := (mayWait_ext c) $$ Hlev
  iapply (wp_wait_ext m c _ rfl rfl (owedL []) W) $$ [$]
  iintro ⟨HO, Hat⟩
  rw [wp_ret]; imodintro
  iapply Hk
  unfold postEnd done
  isplitl [HO]; · iexists (insert (SemLoc.reg extS, ()) W); iexact HO
  iframe

/-- P is persistent, so it can be spent once for every i. -/
theorem E_bigSep_pers {I : Type} [DecidableEq I] (s : Finset I) (P : sProp 𝕄) [BI.Persistent P] (Φ Ψ : I → sProp 𝕄)
    (h : ∀ i, iprop(P ∗ Φ i) ⊢ Ψ i) : iprop(P ∗ bigSep s Φ) ⊢ bigSep s Ψ := by
  induction s using Finset.induction_on with
  | empty => rw [bigSep_empty, bigSep_empty]; iintro ⟨-, -⟩; iempintro
  | insert i s hi ih =>
    rw [bigSep_insert hi, bigSep_insert hi]
    show iprop(P ∗ (Φ i ∗ bigSep s Φ)) ⊢ iprop(Ψ i ∗ bigSep s Ψ)
    iintro ⟨#HP, Hi, Hs⟩
    isplitl [Hi]
    · iapply (h i); iframe # ∗
    · iapply ih; iframe # ∗

theorem close_all' :
    iprop(records m K ∗ bigSep Finset.univ fun i : Fin 25 => done (((c : Thread nD τ), osem i) : GSem nD τ sig))
      ⊢ iprop(|={Set.univ}=> bigSep Finset.univ fun i : Fin 25 => semVal ((c : Thread nD τ), osem i) 0) := by
  refine BIBase.Entails.trans ?_ (bigSep_fupd Finset.univ _)
  refine E_bigSep_pers Finset.univ _ _ _ fun i => ?_
  unfold done
  iintro ⟨#HR, Hat⟩
  ihave HI := (E_inv m K c ⟨i.val + 1, by omega⟩ rfl) $$ HR
  iapply (wp_close m c (osem i)) $$ [$]

theorem E_bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

/-- Twenty-five factors grouped as one, six, six, six and six are the product over their numbers. -/
theorem E_regroup (Φ : Fin 25 → sProp 𝕄) :
    iprop(Φ 0 ∗ (Φ 1 ∗ Φ 2 ∗ Φ 3 ∗ Φ 4 ∗ Φ 5 ∗ Φ 6) ∗ (Φ 7 ∗ Φ 8 ∗ Φ 9 ∗ Φ 10 ∗ Φ 11 ∗ Φ 12) ∗ (Φ 13 ∗ Φ 14 ∗ Φ 15 ∗ Φ 16 ∗ Φ 17 ∗ Φ 18)
      ∗ Φ 19 ∗ Φ 20 ∗ Φ 21 ∗ Φ 22 ∗ Φ 23 ∗ Φ 24) ⊢ bigSep Finset.univ Φ := by
  rw [E_bigSep_fin25]
  iintro ⟨H0, ⟨H1, H2, H3, H4, H5, H6⟩, ⟨H7, H8, H9, H10, H11, H12⟩, ⟨H13, H14, H15, H16, H17, H18⟩, H19, H20, H21, H22, H23, H24⟩
  iframe

def E_allDone (c : Dev nD) : sProp 𝕄 :=
  iprop(done (extC c) ∗ (bigSep Finset.univ fun j : Fin 6 => done (wsC c j)) ∗ (bigSep Finset.univ fun j : Fin 6 => done (wrC c j))
    ∗ (bigSep Finset.univ fun j : Fin 6 => done (asC c j)) ∗ (bigSep Finset.univ fun j : Fin 6 => done (arC c j)))

theorem close_all (K : Dev nD × Fin 26 → ℕ) (c : Dev nD) :
    iprop(records m K ∗ E_allDone c)
      ⊢ iprop(|={Set.univ}=> bigSep Finset.univ fun i : Fin 25 => semVal ((c : Thread nD τ), osem i) 0) := by
  refine BIBase.Entails.trans ?_ (close_all' m K c)
  unfold E_allDone; simp only [E_bigSep_fin6]
  exact sep_mono_right (E_regroup fun i => done (((c : Thread nD τ), osem i) : GSem nD τ sig))

end Cert.KernelIdeal.P

end
-- ==== Proof.Body.lean ====
import proofs.«900976_g7700000000000977_dist_mlpseq_tp1d_bs_bs_b128_d128_h256_v7x_i8_bf16_1_alg».proof.Proof.BodyGlue
import proofs.«900976_g7700000000000977_dist_mlpseq_tp1d_bs_bs_b128_d128_h256_v7x_i8_bf16_1_alg».proof.Proof.BodyCuts
import proofs.«900976_g7700000000000977_dist_mlpseq_tp1d_bs_bs_b128_d128_h256_v7x_i8_bf16_1_alg».proof.Proof.BodyA
import proofs.«900976_g7700000000000977_dist_mlpseq_tp1d_bs_bs_b128_d128_h256_v7x_i8_bf16_1_alg».proof.Proof.BodyB
import proofs.«900976_g7700000000000977_dist_mlpseq_tp1d_bs_bs_b128_d128_h256_v7x_i8_bf16_1_alg».proof.Proof.BodyC
import proofs.«900976_g7700000000000977_dist_mlpseq_tp1d_bs_bs_b128_d128_h256_v7x_i8_bf16_1_alg».proof.Proof.BodyD
import proofs.«900976_g7700000000000977_dist_mlpseq_tp1d_bs_bs_b128_d128_h256_v7x_i8_bf16_1_alg».proof.Proof.BodyE
import Idealize.ShloMosaic.Lib.Tactic

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ ((c : Dev nD) : Thread nD τ) none) Set.univ

variable (m : (ℓ : Loc nD τ sig) → Buf (Elt F) ℓ)

theorem cuts (c : Dev nD) : Cuts (F := F) c :=
  ⟨cutW c, cutO c, cut4_scratch2 c, cut4_scratch3 c, cut4_scratch4 c, cut4_scratch5 c, cut4_scratch6 c, cut4_scratch7 c, cut4_scratch8 c, cut4_scratch9 c, cut4_scratch10 c⟩

theorem uncuts (c : Dev nD) : Uncuts (F := F) c :=
  ⟨uncutW c, uncutO c, uncut4_scratch2 c, uncut4_scratch3 c, uncut4_scratch4 c, uncut4_scratch5 c, uncut4_scratch6 c, uncut4_scratch7 c, uncut4_scratch8 c, uncut4_scratch9 c, uncut4_scratch10 c⟩

theorem X_preXg (c : Dev nD) : preXg m c = iprop(arCell c 0 ∗ holds c (slotJ xgM (qd c)) shK (X0q m c)) := rfl

theorem X_preLayer0 (c : Dev nD) (W : Waits sig Unit) : preLayer m 0 c W =
    iprop(owesFrom c 13 W ∗ wrCell c 0 ∗ wrCell c 1 ∗ wrCell c 2 ∗ arCell c 1 ∗ arCell c 2
      ∗ arTok c 1 ∗ asTok c 1 ∗ lent c 1 ∗ arTok c 2 ∗ asTok c 2 ∗ lent c 2
      ∗ holds c (winsJ 0 0) shK (Wi m c 0) ∗ holds c (woutsJ 0 0) shK (Wo m c 0)
      ∗ any4 c (prtlM 0) ∗ holdsAny c (slotJ (xnM 0) (qd c))) := rfl

theorem X_postLayer0 (c : Dev nD) : postLayer m 0 c =
    iprop((∃ W, owesFrom c 19 W)
      ∗ done (wrC c 0) ∗ done (wrC c 1) ∗ done (wrC c 2) ∗ done (arC c 1) ∗ done (arC c 2)
      ∗ asCred c 1 ∗ asCred c 2
      ∗ holds c (winsJ 0 0) shK (Wi m c 0) ∗ holds c (woutsJ 0 0) shK (Wo m c 0)
      ∗ wrPay m c 0 ∗ wrPay m c 1 ∗ wrPay m c 2
      ∗ holds c (slotJ (prtlM 0) (qd c)) fullShare (sl4 (PK m 0 c) (qd c))
      ∗ got3 m c 1
      ∗ holds c (slotJ (xnM 0) (qd c)) shK (XN m 0 c)
      ∗ got3 m c 2) := rfl

theorem X_preC (c : Dev nD) (W : Waits sig Unit) : preC m c W =
    iprop(owesFrom c 19 W ∗ wrPay m c 2 ∗ wrCell c 3 ∗ wrCell c 4 ∗ arCell c 3 ∗ arCell c 4
      ∗ arTok c 3 ∗ asTok c 3 ∗ lent c 3 ∗ arTok c 4 ∗ asTok c 4 ∗ lent c 4
      ∗ holds c (winsJ 0 1) shK (Wi m c 1) ∗ holds c (woutsJ 0 1) shK (Wo m c 1)
      ∗ any4 c (prtlM 1) ∗ holdsAny c (slotJ (xnM 1) (qd c))) := rfl

theorem X_preLast (c : Dev nD) (W : Waits sig Unit) : preLast m c W =
    iprop(owesFrom c 25 W ∗ wrCell c 5 ∗ arCell c 5 ∗ arTok c 5 ∗ asTok c 5 ∗ lent c 5
      ∗ holds c (winsJ 0 2) shK (Wi m c 2) ∗ holds c (woutsJ 0 2) shK (Wo m c 2) ∗ wrPay m c 4
      ∗ any4 c (prtlM 2) ∗ (∃ X, stg c cc0_stg7_0 X)) := rfl

set_option maxRecDepth 65536 in
set_option maxHeartbeats 4000000 in
theorem sound_body (K : Dev nD × Fin 26 → ℕ) (c : Dev nD) (W : Waits sig Unit) :
    iprop(records m K ∗ levAts L lv ∗ preA m c W ∗ initRest c) ⊢ wpX[c] (ARGS cc0_body) (fun _ => finalAll m c) := by
  rw [cc0_body_eq_skeleton, E_body_split, wp_bind, k0_part32_eq_skeleton, part32_eq]
  iintro ⟨#HR, #HL, HA, Hrest⟩
  iapply (phaseA m K c W restB _)
  isplitr; · iexact HR
  isplitr; · iexact HL
  isplitl [HA]; · iexact HA
  iintro %v3 %v4 %v6 %v83 %v96 %v167 HpA
  rw [restB]
  unfold postA initRest
  simp only [X_bigSep_fin6]
  icases HpA with ⟨⟨%W1, HO1⟩, Dbar, Cas0, ⟨Cws0, Cws1, Cws2, Cws3, Cws4, Cws5⟩, Hin, ⟨K00i, K00o, K01i, K01o, K02i, K02o⟩, Gx, L1, L2, L3, L4, L5, Q0, Xn0, Q1, Xn1, Q2⟩
  icases Hrest with ⟨Ar0, ⟨Wr0, Wr1, Wr2, Ar1, Ar2, TAr1, TAs1, TAr2, TAs2, P0any⟩, ⟨Wr3, Wr4, Ar3, Ar4, TAr3, TAs3, TAr4, TAs4, P1any⟩, ⟨Wr5, Ar5, TAr5, TAs5, P2any, Iout0⟩, ⟨⟨Fws0, Fws1, Fws2, Fws3, Fws4, Fws5⟩, ⟨Fas0, Fas1, Fas2, Fas3, Fas4, Fas5⟩, ⟨Te0, Te1, Te2, Te3⟩, Fext, Cext⟩⟩
  iapply (B_stretch m K c v3 v4 v6 v83 v96 v167 W1 _ (restC c v3 v4 v6))
  rw [X_preXg, X_preLayer0, X_postLayer0]
  unfold postXg
  isplitr; · iexact HR
  isplitr; · iexact HL
  iframe
  iintro ⟨⟨Dar0, Gx', Got0⟩, ⟨%W2, HO2⟩, Dwr0, Dwr1, Dwr2, Dar1, Dar2, Cas1, Cas2, K00i', K00o', V0, V1, V2, Pr0, Got1, Xn0', Got2⟩
  rw [restC]
  iapply (C_stretch m K c v3 v4 v6 W2 _ (restD c v3 v4 v6))
  rw [X_preC]
  unfold postC
  isplitr; · iexact HR
  isplitr; · iexact HL
  iframe
  iintro ⟨⟨%W3, HO3⟩, Dwr3, Dwr4, Dar3, Dar4, Cas3, Cas4, K01i', K01o', V2', V3, V4, Pr1, Got3, Xn1', Got4⟩
  rw [restD]
  iapply (D_stretch m K c v3 v4 W3 _ (E_tail32 c v3 v4 v6))
  rw [X_preLast]
  unfold postLast
  isplitr; · iexact HR
  isplitr; · iexact HL
  iframe
  iintro ⟨⟨%W4, HO4⟩, Dwr5, Dar5, Cas5, K02i', K02o', V4', V5, Pr2, Got5, Iout⟩
  iapply (E1_k m K c v3 v4 v6 W4 _)
  unfold preEnd
  simp only [X_bigSep_fin6]
  isplitr; · iexact HR
  isplitr; · iexact HL
  iframe
  iintro %r ⟨%hr, HE1⟩
  obtain ⟨d0, v901⟩ := r
  have hr' : c = d0 := hr.symm
  subst hr'
  iapply (E2_k m K c _)
  isplitr; · iexact HR
  isplitr; · iexact HL
  isplitl [HE1]; · iexact HE1
  iintro %u HpE
  unfold postEnd finalAll
  simp only [X_bigSep_fin6, bigSep_fin3]
  icases HpE with ⟨HO5, ⟨⟨Dws0, Rws0⟩, ⟨Dws1, Rws1⟩, ⟨Dws2, Rws2⟩, ⟨Dws3, Rws3⟩, ⟨Dws4, Rws4⟩, ⟨Dws5, Rws5⟩⟩, ⟨⟨Das0, A01, A02, A03⟩, ⟨Das1, A11, A12, A13⟩, ⟨Das2, A21, A22, A23⟩, ⟨Das3, A31, A32, A33⟩, ⟨Das4, A41, A42, A43⟩, ⟨Das5, A51, A52, A53⟩⟩, Dext⟩
  iframe

omit [FloatOps F] in
theorem X_bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
theorem X_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
set_option maxHeartbeats 4000000 in
theorem body_obligation (ρ : Dev nD → PrngReg) (c : Dev nD) :
    BodyObligation (dats (F := F) m ρ 0 c) (defs₀ (F := F)) 𝒱₀ () Set.univ := fun t => by
  rw [fin_N t]
  rw [X_bigSep_W, X_bigSep_W]
  simp only [X_owns_whole_eq]
  show iprop((dats m ρ 0 c).Φ t₀.castSucc ∗ (dats m ρ 0 c).owesAt () t₀.castSucc
      ∗ (∃ d, stg c cc0_stg0_0 ((dats m ρ 0 c).before (0 : Fin 8) t₀ d))
      ∗ (∃ d, stg c cc0_stg1_0 ((dats m ρ 0 c).before (1 : Fin 8) t₀ d))
      ∗ (∃ d, stg c cc0_stg2_0 ((dats m ρ 0 c).before (2 : Fin 8) t₀ d))
      ∗ (∃ d, stg c cc0_stg3_0 ((dats m ρ 0 c).before (3 : Fin 8) t₀ d))
      ∗ (∃ d, stg c cc0_stg4_0 ((dats m ρ 0 c).before (4 : Fin 8) t₀ d))
      ∗ (∃ d, stg c cc0_stg5_0 ((dats m ρ 0 c).before (5 : Fin 8) t₀ d))
      ∗ (∃ d, stg c cc0_stg6_0 ((dats m ρ 0 c).before (6 : Fin 8) t₀ d))
      ∗ (∃ d, stg c cc0_stg7_0 ((dats m ρ 0 c).before (7 : Fin 8) t₀ d)))
    ⊢ wpX[c] (ARGS cc0_body) (fun _ => iprop((dats m ρ 0 c).Φ t₀.succ ∗ (dats m ρ 0 c).owesAt () t₀.succ
        ∗ stg c cc0_stg0_0 ((dats m ρ 0 c).after (0 : Fin 8) t₀)
        ∗ stg c cc0_stg1_0 ((dats m ρ 0 c).after (1 : Fin 8) t₀)
        ∗ stg c cc0_stg2_0 ((dats m ρ 0 c).after (2 : Fin 8) t₀)
        ∗ stg c cc0_stg3_0 ((dats m ρ 0 c).after (3 : Fin 8) t₀)
        ∗ stg c cc0_stg4_0 ((dats m ρ 0 c).after (4 : Fin 8) t₀)
        ∗ stg c cc0_stg5_0 ((dats m ρ 0 c).after (5 : Fin 8) t₀)
        ∗ stg c cc0_stg6_0 ((dats m ρ 0 c).after (6 : Fin 8) t₀)
        ∗ stg c cc0_stg7_0 ((dats m ρ 0 c).after (7 : Fin 8) t₀)))
  iintro H
  ihave H1 := (body_open m ρ c (cuts c)) $$ H
  icases H1 with ⟨%K, %W, #HR, #HL, HA, Hrest⟩
  iapply (wp_fupd _ _ _ _ _)
  iapply (wp_wand_r _ _ _ (Q := fun _ => finalAll m c))
  isplitl [HA Hrest]
  · iapply (sound_body m K c W)
    isplitr; · iexact HR
    isplitr; · iexact HL
    isplitl [HA]; · iexact HA
    iexact Hrest
  · iintro %u Hfin
    iapply (body_close m ρ K c (uncuts c) (close_all m K c))
    isplitr [Hfin]
    · iexact HR
    · iexact Hfin

end Cert.KernelIdeal.P

end
-- ==== Proof.Bits.Cells.lean ====
import proofs.«900976_g7700000000000977_dist_mlpseq_tp1d_bs_bs_b128_d128_h256_v7x_i8_bf16_1_alg».proof.Proof.Gen.Kernel
import proofs.«900976_g7700000000000977_dist_mlpseq_tp1d_bs_bs_b128_d128_h256_v7x_i8_bf16_1_alg».proof.Proof.Gen.Kernel.Skeleton
import proofs.«900976_g7700000000000977_dist_mlpseq_tp1d_bs_bs_b128_d128_h256_v7x_i8_bf16_1_alg».proof.Proof.Gen.Kernel.Launch
import proofs.«900976_g7700000000000977_dist_mlpseq_tp1d_bs_bs_b128_d128_h256_v7x_i8_bf16_1_alg».proof.Proof.Gen.Kernel.Points
import proofs.«900976_g7700000000000977_dist_mlpseq_tp1d_bs_bs_b128_d128_h256_v7x_i8_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.P

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem
abbrev extS : Sem sig := (cc0_scoped0 : Sems sig S_).sem

abbrev wsS (j : Fin 6) : DmaSem sig := ⟨8 + j.val, by have := j.isLt; show _ < 32; omega⟩
abbrev wrS (j : Fin 6) : DmaSem sig := ⟨14 + j.val, by have := j.isLt; show _ < 32; omega⟩
abbrev asS (j : Fin 6) : DmaSem sig := ⟨20 + j.val, by have := j.isLt; show _ < 32; omega⟩
abbrev arS (j : Fin 6) : DmaSem sig := ⟨26 + j.val, by have := j.isLt; show _ < 32; omega⟩

example : asS 2 = (22 : Fin 32) := by decide
example : extS = (1 : Fin 2) := by decide
example : barS = (0 : Fin 2) := by decide

abbrev barC (c : Dev nD) : GSem nD τ sig := ((c : Thread nD τ), .reg barS)
abbrev extC (c : Dev nD) : GSem nD τ sig := ((c : Thread nD τ), .reg extS)
abbrev wsC (c : Dev nD) (j : Fin 6) : GSem nD τ sig := ((c : Thread nD τ), .dma (wsS j))
abbrev wrC (c : Dev nD) (j : Fin 6) : GSem nD τ sig := ((c : Thread nD τ), .dma (wrS j))
abbrev asC (c : Dev nD) (j : Fin 6) : GSem nD τ sig := ((c : Thread nD τ), .dma (asS j))
abbrev arC (c : Dev nD) (j : Fin 6) : GSem nD τ sig := ((c : Thread nD τ), .dma (arS j))

end Cert.Kernel.P

end
-- ==== Proof.Bits.Mesh.lean ====
import proofs.«900976_g7700000000000977_dist_mlpseq_tp1d_bs_bs_b128_d128_h256_v7x_i8_bf16_1_alg».proof.Proof.Gen.Kernel

set_option Elab.async false

namespace Cert.Kernel.Mesh

open Idealize.ShloMosaic Cert.Kernel Cert.Kernel.Gen

def qd (c : Dev nD) : Fin 4 := ⟨c.val % 4, Nat.mod_lt _ (by decide)⟩

def pp (c : Dev nD) (d : Fin 4) : Dev nD :=
  if d = 0 then ⟨(c.val + 4) % 8, Nat.mod_lt _ (by decide)⟩
  else ⟨c.val - c.val % 4 + (c.val % 4 + d.val) % 4, by
    have h : c.val < 8 := c.isLt
    show c.val - c.val % 4 + (c.val % 4 + d.val) % 4 < 8
    omega⟩

def inv (d : Fin 4) : Fin 4 := match d with | 0 => 0 | 1 => 3 | 2 => 2 | 3 => 1

theorem pp_pp_inv (c : Dev nD) (d : Fin 4) : pp (pp c d) (inv d) = c := by revert c d; decide +kernel

theorem inv_inv (d : Fin 4) : inv (inv d) = d := by revert d; decide

theorem qd_pp (c : Dev nD) (d : Fin 4) (hd : d ≠ 0) : (qd (pp c d)).val = ((qd c).val + d.val) % 4 := by
  revert c d; decide +kernel

theorem qd_pp_val1 (c : Dev nD) : (qd (pp c 1)).val = ((qd c).val + 1) % 4 := qd_pp c 1 (by decide)
theorem qd_pp_val2 (c : Dev nD) : (qd (pp c 2)).val = ((qd c).val + 2) % 4 := qd_pp c 2 (by decide)
theorem qd_pp_val3 (c : Dev nD) : (qd (pp c 3)).val = ((qd c).val + 3) % 4 := qd_pp c 3 (by decide)

theorem dev_eq1 (c : Dev nD) : (⟨k0_dev1 c, k0_dev1_lt c⟩ : Dev nD) = pp c 0 := by revert c; decide +kernel
theorem dev_eq2 (c : Dev nD) : (⟨k0_dev2 c, k0_dev2_lt c⟩ : Dev nD) = pp c 1 := by revert c; decide +kernel
theorem dev_eq3 (c : Dev nD) : (⟨k0_dev3 c, k0_dev3_lt c⟩ : Dev nD) = pp c 2 := by revert c; decide +kernel
theorem dev_eq4 (c : Dev nD) : (⟨k0_dev4 c, k0_dev4_lt c⟩ : Dev nD) = pp c 3 := by revert c; decide +kernel
theorem dev_eq5 (c : Dev nD) : (⟨k0_dev5 c, k0_dev5_lt c⟩ : Dev nD) = pp c 1 := by revert c; decide +kernel
theorem dev_eq6 (c : Dev nD) : (⟨k0_dev6 c, k0_dev6_lt c⟩ : Dev nD) = pp c 2 := by revert c; decide +kernel
theorem dev_eq7 (c : Dev nD) : (⟨k0_dev7 c, k0_dev7_lt c⟩ : Dev nD) = pp c 3 := by revert c; decide +kernel
theorem dev_eq8 (c : Dev nD) : (⟨k0_dev8 c, k0_dev8_lt c⟩ : Dev nD) = pp c 0 := by revert c; decide +kernel
theorem dev_eq9 (c : Dev nD) : (⟨k0_dev9 c, k0_dev9_lt c⟩ : Dev nD) = pp c 0 := by revert c; decide +kernel
theorem dev_eq10 (c : Dev nD) : (⟨k0_dev10 c, k0_dev10_lt c⟩ : Dev nD) = pp c 0 := by revert c; decide +kernel
theorem dev_eq11 (c : Dev nD) : (⟨k0_dev11 c, k0_dev11_lt c⟩ : Dev nD) = pp c 0 := by revert c; decide +kernel
theorem dev_eq12 (c : Dev nD) : (⟨k0_dev12 c, k0_dev12_lt c⟩ : Dev nD) = pp c 0 := by revert c; decide +kernel
theorem dev_eq13 (c : Dev nD) : (⟨k0_dev13 c, k0_dev13_lt c⟩ : Dev nD) = pp c 0 := by revert c; decide +kernel
theorem dev_eq14 (c : Dev nD) : (⟨k0_dev14 c, k0_dev14_lt c⟩ : Dev nD) = pp c 1 := by revert c; decide +kernel
theorem dev_eq15 (c : Dev nD) : (⟨k0_dev15 c, k0_dev15_lt c⟩ : Dev nD) = pp c 2 := by revert c; decide +kernel
theorem dev_eq16 (c : Dev nD) : (⟨k0_dev16 c, k0_dev16_lt c⟩ : Dev nD) = pp c 3 := by revert c; decide +kernel
theorem dev_eq17 (c : Dev nD) : (⟨k0_dev17 c, k0_dev17_lt c⟩ : Dev nD) = pp c 1 := by revert c; decide +kernel
theorem dev_eq18 (c : Dev nD) : (⟨k0_dev18 c, k0_dev18_lt c⟩ : Dev nD) = pp c 2 := by revert c; decide +kernel
theorem dev_eq19 (c : Dev nD) : (⟨k0_dev19 c, k0_dev19_lt c⟩ : Dev nD) = pp c 3 := by revert c; decide +kernel
theorem dev_eq20 (c : Dev nD) : (⟨k0_dev20 c, k0_dev20_lt c⟩ : Dev nD) = pp c 1 := by revert c; decide +kernel
theorem dev_eq21 (c : Dev nD) : (⟨k0_dev21 c, k0_dev21_lt c⟩ : Dev nD) = pp c 2 := by revert c; decide +kernel
theorem dev_eq22 (c : Dev nD) : (⟨k0_dev22 c, k0_dev22_lt c⟩ : Dev nD) = pp c 3 := by revert c; decide +kernel
theorem dev_eq23 (c : Dev nD) : (⟨k0_dev23 c, k0_dev23_lt c⟩ : Dev nD) = pp c 1 := by revert c; decide +kernel
theorem dev_eq24 (c : Dev nD) : (⟨k0_dev24 c, k0_dev24_lt c⟩ : Dev nD) = pp c 2 := by revert c; decide +kernel
theorem dev_eq25 (c : Dev nD) : (⟨k0_dev25 c, k0_dev25_lt c⟩ : Dev nD) = pp c 3 := by revert c; decide +kernel
theorem dev_eq26 (c : Dev nD) : (⟨k0_dev26 c, k0_dev26_lt c⟩ : Dev nD) = pp c 1 := by revert c; decide +kernel
theorem dev_eq27 (c : Dev nD) : (⟨k0_dev27 c, k0_dev27_lt c⟩ : Dev nD) = pp c 2 := by revert c; decide +kernel
theorem dev_eq28 (c : Dev nD) : (⟨k0_dev28 c, k0_dev28_lt c⟩ : Dev nD) = pp c 3 := by revert c; decide +kernel
theorem dev_eq29 (c : Dev nD) : (⟨k0_dev29 c, k0_dev29_lt c⟩ : Dev nD) = pp c 0 := by revert c; decide +kernel
theorem dev_eq30 (c : Dev nD) : (⟨k0_dev30 c, k0_dev30_lt c⟩ : Dev nD) = pp c 1 := by revert c; decide +kernel
theorem dev_eq31 (c : Dev nD) : (⟨k0_dev31 c, k0_dev31_lt c⟩ : Dev nD) = pp c 2 := by revert c; decide +kernel
theorem dev_eq32 (c : Dev nD) : (⟨k0_dev32 c, k0_dev32_lt c⟩ : Dev nD) = pp c 3 := by revert c; decide +kernel
theorem off1_eq (c : Dev nD) : k0_off1 c = ![(qd c).val, 0, 0] := k0_off1_eq c
theorem off2_eq (c : Dev nD) : k0_off2 c = ![(qd c).val, 0, 0] := k0_off2_eq c

theorem off3_eq1 (c : Dev nD) : k0_off3 c 1#32 = ![((qd c).val + 1) % 4, 0, 0] := k0_off3_eq c ⟨0, by decide⟩
theorem off3_eq2 (c : Dev nD) : k0_off3 c 2#32 = ![((qd c).val + 2) % 4, 0, 0] := k0_off3_eq c ⟨1, by decide⟩
theorem off3_eq3 (c : Dev nD) : k0_off3 c 3#32 = ![((qd c).val + 3) % 4, 0, 0] := k0_off3_eq c ⟨2, by decide⟩
theorem off4_eq1 (c : Dev nD) : k0_off4 c 1#32 = ![((qd c).val + 1) % 4, 0, 0] := k0_off4_eq c ⟨0, by decide⟩
theorem off4_eq2 (c : Dev nD) : k0_off4 c 2#32 = ![((qd c).val + 2) % 4, 0, 0] := k0_off4_eq c ⟨1, by decide⟩
theorem off4_eq3 (c : Dev nD) : k0_off4 c 3#32 = ![((qd c).val + 3) % 4, 0, 0] := k0_off4_eq c ⟨2, by decide⟩

end Cert.Kernel.Mesh
-- ==== Proof.Bits.Slots.lean ====
import proofs.«900976_g7700000000000977_dist_mlpseq_tp1d_bs_bs_b128_d128_h256_v7x_i8_bf16_1_alg».proof.Proof.Bits.Cells
import proofs.«900976_g7700000000000977_dist_mlpseq_tp1d_bs_bs_b128_d128_h256_v7x_i8_bf16_1_alg».proof.Proof.Bits.Mesh

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev winsM : Memref sig .tc .vmem S2x3x128x256 .bf16 := Memref.whole cc0_scratch0
abbrev woutsM : Memref sig .tc .vmem S2x3x256x128 .bf16 := Memref.whole cc0_scratch1
abbrev xgM : Memref sig .tc .vmem S4x128x128 .bf16 := Memref.whole cc0_scratch2
abbrev prtlM : Fin 3 → Memref sig .tc .vmem S4x128x128 .bf16 := fun | 0 => Memref.whole cc0_scratch3 | 1 => Memref.whole cc0_scratch4 | 2 => Memref.whole cc0_scratch5
abbrev raccM : Fin 3 → Memref sig .tc .vmem S4x128x128 .bf16 := fun | 0 => Memref.whole cc0_scratch6 | 1 => Memref.whole cc0_scratch7 | 2 => Memref.whole cc0_scratch8
abbrev xnM : Fin 2 → Memref sig .tc .vmem S4x128x128 .bf16 := fun | 0 => Memref.whole cc0_scratch9 | 1 => Memref.whole cc0_scratch10

abbrev slot4 (b : Memref sig .tc .vmem S4x128x128 .bf16) (off : Fin 3 → Nat) (inb : ∀ a, off a + S1x128x128.size a ≤ S4x128x128.size a) :
    Memref sig .tc .vmem S128x128 .bf16 :=
  (b.slice (Rect.unit (s := S4x128x128) off S1x128x128.size inb) (fun _ => rfl)).squeeze S128x128 squeezes_S1x128x128_S128x128

abbrev wslice (b : Memref sig .tc .vmem S2x3x128x256 .bf16) (off : Fin 4 → Nat) (inb : ∀ a, off a + S1x1x128x256.size a ≤ S2x3x128x256.size a) :
    Memref sig .tc .vmem S128x256 .bf16 :=
  (b.slice (Rect.unit (s := S2x3x128x256) off S1x1x128x256.size inb) (fun _ => rfl)).squeeze S128x256 squeezes_S1x1x128x256_S128x256
abbrev oslice (b : Memref sig .tc .vmem S2x3x256x128 .bf16) (off : Fin 4 → Nat) (inb : ∀ a, off a + S1x1x256x128.size a ≤ S2x3x256x128.size a) :
    Memref sig .tc .vmem S256x128 .bf16 :=
  (b.slice (Rect.unit (s := S2x3x256x128) off S1x1x256x128.size inb) (fun _ => rfl)).squeeze S256x128 squeezes_S1x1x256x128_S256x128

theorem inb4 (j : Fin 4) : ∀ a, (![j.val, 0, 0] : Fin 3 → Nat) a + S1x128x128.size a ≤ S4x128x128.size a := by
  revert j; decide
theorem inbW (s : Fin 2) (k : Fin 3) : ∀ a, (![s.val, k.val, 0, 0] : Fin 4 → Nat) a + S1x1x128x256.size a ≤ S2x3x128x256.size a := by
  revert s k; decide
theorem inbO (s : Fin 2) (k : Fin 3) : ∀ a, (![s.val, k.val, 0, 0] : Fin 4 → Nat) a + S1x1x256x128.size a ≤ S2x3x256x128.size a := by
  revert s k; decide

abbrev slotJ (b : Memref sig .tc .vmem S4x128x128 .bf16) (j : Fin 4) : Memref sig .tc .vmem S128x128 .bf16 := slot4 b ![j.val, 0, 0] (inb4 j)
abbrev winsJ (s : Fin 2) (k : Fin 3) : Memref sig .tc .vmem S128x256 .bf16 := wslice winsM ![s.val, k.val, 0, 0] (inbW s k)
abbrev woutsJ (s : Fin 2) (k : Fin 3) : Memref sig .tc .vmem S256x128 .bf16 := oslice woutsM ![s.val, k.val, 0, 0] (inbO s k)

def holds (c : Dev nD) {s : Shape} {e : EltTy} (m : Memref sig .tc .vmem s e) (q : PosShare TreeShare) (w : s.Idx → Elt F e) : sProp 𝕄 :=
  iprop(∃ f : Buf (Elt F) (m.view.loc (c : Thread nD τ)), ⌜m.view.read (Elt F) f = w⌝ ∗ (m.view.loc (c : Thread nD τ) ↦[m.view.set]{q} f))

def holdsAny (c : Dev nD) {s : Shape} {e : EltTy} (m : Memref sig .tc .vmem s e) : sProp 𝕄 :=
  iprop(∃ f : Buf (Elt F) (m.view.loc (c : Thread nD τ)), (m.view.loc (c : Thread nD τ) ↦[m.view.set]{fullShare} f))

omit [FloatOps F] in
instance holds_storable (c : Dev nD) {s : Shape} {e : EltTy} (m : Memref sig .tc .vmem s e) (q : PosShare TreeShare) (w : s.Idx → Elt F e) :
    BI.Storable (upEmb : UEmb _ 𝕄) (holds (F := F) c m q w) := by unfold holds; infer_instance
omit [FloatOps F] in
instance holdsAny_storable (c : Dev nD) {s : Shape} {e : EltTy} (m : Memref sig .tc .vmem s e) :
    BI.Storable (upEmb : UEmb _ 𝕄) (holdsAny (F := F) c m) := by unfold holdsAny; infer_instance

end Cert.Kernel.P

end
-- ==== Proof.Bits.Contents.lean ====
import proofs.«900976_g7700000000000977_dist_mlpseq_tp1d_bs_bs_b128_d128_h256_v7x_i8_bf16_1_alg».proof.Proof.Bits.Slots
import Idealize.ShloMosaic.Lib.ValueIdx

noncomputable section

namespace Cert.Kernel.P

open Cert.Kernel Cert.Kernel.Gen Cert.Kernel.Mesh
open Idealize.ShloMosaic
open Idealize.ShloMosaic.TcCoe
open Idealize.SL.Sem

variable {F : FTy → Type} [FloatOps F]

def sq3 {α : Type} (w : S1x128x128.Idx → α) : S128x128.Idx → α := fun i => w (Shape.reshapeEquiv squeezes_S1x128x128_S128x128.numel_eq i)
def unsq3 {α : Type} (w : S128x128.Idx → α) : S1x128x128.Idx → α := fun i => w ((Shape.reshapeEquiv squeezes_S1x128x128_S128x128.numel_eq).symm i)
def sqW {α : Type} (w : S1x1x128x256.Idx → α) : S128x256.Idx → α := fun i => w (Shape.reshapeEquiv squeezes_S1x1x128x256_S128x256.numel_eq i)
def unsqW {α : Type} (w : S128x256.Idx → α) : S1x1x128x256.Idx → α := fun i => w ((Shape.reshapeEquiv squeezes_S1x1x128x256_S128x256.numel_eq).symm i)
def sqO {α : Type} (w : S1x1x256x128.Idx → α) : S256x128.Idx → α := fun i => w (Shape.reshapeEquiv squeezes_S1x1x256x128_S256x128.numel_eq i)
def unsqO {α : Type} (w : S256x128.Idx → α) : S1x1x256x128.Idx → α := fun i => w ((Shape.reshapeEquiv squeezes_S1x1x256x128_S256x128.numel_eq).symm i)

def sl4 (v : S4x128x128.Idx → Elt F .bf16) (j : Fin 4) : S128x128.Idx → Elt F .bf16 := (slotJ xgM j).view.read (Elt F) v

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xin (c : Dev nD) : Vec F S128x128 .f32 := iblk m c 0 t₀
def wiIn (c : Dev nD) : Fin 3 → Vec F S128x256 .f32 := fun | 0 => iblk m c 1 t₀ | 1 => iblk m c 3 t₀ | 2 => iblk m c 5 t₀
def woIn (c : Dev nD) : Fin 3 → Vec F S256x128 .f32 := fun | 0 => iblk m c 2 t₀ | 1 => iblk m c 4 t₀ | 2 => iblk m c 6 t₀

def plane (c : Dev nD) (j : Fin 4) : Dev nD := ⟨c.val - c.val % 4 + j.val, by have h : c.val < 8 := c.isLt; have := j.isLt; show _ < 8; omega⟩
theorem plane_qd (c : Dev nD) : plane c (qd c) = c := by revert c; decide
theorem plane_pp (c : Dev nD) (d : Fin 4) (hd : d ≠ 0) : plane c (qd (pp c d)) = pp c d := by revert c d; decide
def asm4 (w : Fin 4 → S128x128.Idx → Elt F .bf16) : S4x128x128.Idx → Elt F .bf16 :=
  fun i => w (i 0) (ValueIdx.ix2 (i 1) (i 2))

def Wi (c : Dev nD) : Fin 3 → S128x256.Idx → Elt F .bf16 := fun
  | 0 => sqW (k0_pay2 (k0_pay1 (wiIn m c 0))) | 1 => sqW (k0_pay4 (wiIn m c 1)) | 2 => sqW (k0_pay6 (wiIn m c 2))
def Wo (c : Dev nD) : Fin 3 → S256x128.Idx → Elt F .bf16 := fun
  | 0 => sqO (k0_pay3 (woIn m c 0)) | 1 => sqO (k0_pay5 (woIn m c 1)) | 2 => sqO (k0_pay7 (woIn m c 2))
def X0q (c : Dev nD) : S128x128.Idx → Elt F .bf16 := sq3 (k0_pay8 (xin m c))

def acts0 (c : Dev nD) : FVec F S512x128 .bf16 := k0_pay9 (asm4 fun j => X0q m (plane c j))
def P0 (c : Dev nD) : S4x128x128.Idx → Elt F .bf16 :=
  k0_pay11 (acts0 m c) (k0_pay10 (acts0 m c) (unsqW (Wi m c 0)) (unsqO (Wo m c 0))) (unsqW (Wi m (pp c 0) 0)) (unsqO (Wo m (pp c 0) 0))
def xn0 (c : Dev nD) : S128x128.Idx → Elt F .bf16 :=
  sq3 (k0_pay13 (k0_pay12 (unsq3 (sl4 (P0 m c) (qd c))) (unsq3 (sl4 (P0 m (pp c 1)) (qd c))))
    (unsq3 (sl4 (P0 m (pp c 2)) (qd c))) (unsq3 (sl4 (P0 m (pp c 3)) (qd c))))

def acts1 (c : Dev nD) : FVec F S512x128 .bf16 := k0_pay14 (asm4 fun j => xn0 m (plane c j))
def P1 (c : Dev nD) : S4x128x128.Idx → Elt F .bf16 :=
  k0_pay18 (k0_pay15 (acts1 m c) (unsqW (Wi m c 1)) (unsqO (Wo m c 1))) (k0_pay16 (acts1 m c) (unsqW (Wi m (pp c 0) 1))) (k0_pay17 (unsqO (Wo m (pp c 0) 1)))
def xn1 (c : Dev nD) : S128x128.Idx → Elt F .bf16 :=
  sq3 (k0_pay20 (k0_pay19 (unsq3 (sl4 (P1 m c) (qd c))) (unsq3 (sl4 (P1 m (pp c 1)) (qd c))) (unsq3 (sl4 (P1 m (pp c 2)) (qd c))))
    (unsq3 (sl4 (P1 m (pp c 3)) (qd c))))

def acts2 (c : Dev nD) : FVec F S512x128 .bf16 := k0_pay21 (asm4 fun j => xn1 m (plane c j))
def P2 (c : Dev nD) : S4x128x128.Idx → Elt F .bf16 :=
  k0_pay22 (acts2 m c) (unsqW (Wi m c 2)) (unsqO (Wo m c 2)) (unsqW (Wi m (pp c 0) 2)) (unsqO (Wo m (pp c 0) 2))
def OUT (c : Dev nD) : Vec F S128x128 .f32 :=
  k0_pay23 (unsq3 (sl4 (P2 m c) (qd c))) (unsq3 (sl4 (P2 m (pp c 1)) (qd c))) (unsq3 (sl4 (P2 m (pp c 2)) (qd c))) (unsq3 (sl4 (P2 m (pp c 3)) (qd c)))

def PK (k : Fin 3) (c : Dev nD) : S4x128x128.Idx → Elt F .bf16 := match k with | 0 => P0 m c | 1 => P1 m c | 2 => P2 m c
def XN (k : Fin 2) (c : Dev nD) : S128x128.Idx → Elt F .bf16 := match k with | 0 => xn0 m c | 1 => xn1 m c

end Cert.Kernel.P

end
-- ==== Proof.Bits.Sched.lean ====
import proofs.«900976_g7700000000000977_dist_mlpseq_tp1d_bs_bs_b128_d128_h256_v7x_i8_bf16_1_alg».proof.Proof.Bits.Contents

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

inductive CK where
  | bar | ext | ws (j : Fin 6) | wr (j : Fin 6) | as (j : Fin 6) | ar (j : Fin 6) | none
deriving DecidableEq

def kindOf : SemLoc sig → CK
  | .reg s => if s.val = 0 then .bar else .ext
  | .dma s =>
    if h8 : s.val < 8 then .none
    else if h14 : s.val < 14 then .ws ⟨s.val - 8, by omega⟩
    else if h20 : s.val < 20 then .wr ⟨s.val - 14, by omega⟩
    else if h26 : s.val < 26 then .as ⟨s.val - 20, by omega⟩
    else .ar ⟨s.val - 26, by have h : s.val < 32 := s.isLt; omega⟩

theorem kindOf_bar : kindOf (.reg barS) = .bar := by decide
theorem kindOf_ext : kindOf (.reg extS) = .ext := by decide
theorem kindOf_ws (j : Fin 6) : kindOf (.dma (wsS j)) = .ws j := by revert j; decide
theorem kindOf_wr (j : Fin 6) : kindOf (.dma (wrS j)) = .wr j := by revert j; decide
theorem kindOf_as (j : Fin 6) : kindOf (.dma (asS j)) = .as j := by revert j; decide
theorem kindOf_ar (j : Fin 6) : kindOf (.dma (arS j)) = .ar j := by revert j; decide

abbrev shK : PosShare TreeShare := fullShare.left
def sh (d : Fin 4) : PosShare TreeShare := match d with
  | 0 => fullShare.left | 1 => fullShare.right.left | 2 => fullShare.right.right.left | 3 => fullShare.right.right.right
abbrev shR : PosShare TreeShare := fullShare.right

abbrev dstBuf : Fin 6 → Memref sig .tc .vmem S4x128x128 .bf16 := fun
  | 0 => xgM | 1 => raccM 0 | 2 => xnM 0 | 3 => raccM 1 | 4 => xnM 1 | 5 => raccM 2
abbrev srcBuf : Fin 6 → Memref sig .tc .vmem S4x128x128 .bf16 := fun
  | 0 => xgM | 1 => prtlM 0 | 2 => xnM 0 | 3 => prtlM 1 | 4 => xnM 1 | 5 => prtlM 2
def cA (j : Fin 6) : ℕ := (slotJ (dstBuf j) 0).view.dmaCredit
def cW (j : Fin 6) : ℕ := match j with
  | 0 => (winsJ 1 0).view.dmaCredit | 1 => (woutsJ 1 0).view.dmaCredit | 2 => (winsJ 1 1).view.dmaCredit
  | 3 => (woutsJ 1 1).view.dmaCredit | 4 => (winsJ 1 2).view.dmaCredit | 5 => (woutsJ 1 2).view.dmaCredit
theorem cA_pos (j : Fin 6) : 0 < cA j := View.dmaCredit_pos _ (by decide)
theorem cW_pos (j : Fin 6) : 0 < cW j := by
  unfold cW; split <;> exact View.dmaCredit_pos _ (by decide)

variable (m : (ℓ : Loc nD τ sig) → Buf (Elt F) ℓ)

def barPay (c : Dev nD) (d : Fin 4) : sProp 𝕄 :=
  if d = 0 then
    iprop(holdsAny (pp c 0) (winsJ 1 0) ∗ holdsAny (pp c 0) (woutsJ 1 0) ∗ holdsAny (pp c 0) (winsJ 1 1) ∗ holdsAny (pp c 0) (woutsJ 1 1)
      ∗ holdsAny (pp c 0) (winsJ 1 2) ∗ holdsAny (pp c 0) (woutsJ 1 2))
  else
    iprop(holdsAny (pp c d) (slotJ xgM (qd c)) ∗ holdsAny (pp c d) (slotJ (raccM 0) (qd c)) ∗ holdsAny (pp c d) (slotJ (xnM 0) (qd c))
      ∗ holdsAny (pp c d) (slotJ (raccM 1) (qd c)) ∗ holdsAny (pp c d) (slotJ (xnM 1) (qd c)) ∗ holdsAny (pp c d) (slotJ (raccM 2) (qd c)))

def wsPay (c : Dev nD) (j : Fin 6) : sProp 𝕄 := match j with
  | 0 => holds c (winsJ 0 0) shR (Wi m c 0) | 1 => holds c (woutsJ 0 0) shR (Wo m c 0)
  | 2 => holds c (winsJ 0 1) shR (Wi m c 1) | 3 => holds c (woutsJ 0 1) shR (Wo m c 1)
  | 4 => holds c (winsJ 0 2) shR (Wi m c 2) | 5 => holds c (woutsJ 0 2) shR (Wo m c 2)
def wrPay (c : Dev nD) (j : Fin 6) : sProp 𝕄 := match j with
  | 0 => holds c (winsJ 1 0) fullShare (Wi m (pp c 0) 0) | 1 => holds c (woutsJ 1 0) fullShare (Wo m (pp c 0) 0)
  | 2 => holds c (winsJ 1 1) fullShare (Wi m (pp c 0) 1) | 3 => holds c (woutsJ 1 1) fullShare (Wo m (pp c 0) 1)
  | 4 => holds c (winsJ 1 2) fullShare (Wi m (pp c 0) 2) | 5 => holds c (woutsJ 1 2) fullShare (Wo m (pp c 0) 2)

def srcVal (c : Dev nD) (j : Fin 6) (d : Fin 4) : S128x128.Idx → Elt F .bf16 := match j with
  | 0 => X0q m c | 1 => sl4 (PK m 0 c) (qd (pp c d)) | 2 => XN m 0 c | 3 => sl4 (PK m 1 c) (qd (pp c d)) | 4 => XN m 1 c | 5 => sl4 (PK m 2 c) (qd (pp c d))
def srcSlot (c : Dev nD) (j : Fin 6) (d : Fin 4) : Fin 4 := if j.val % 2 = 0 then qd c else qd (pp c d)
def srcShare (j : Fin 6) (d : Fin 4) : PosShare TreeShare := if j.val % 2 = 0 then sh d else fullShare
def dstVal (c : Dev nD) (j : Fin 6) (d : Fin 4) : S128x128.Idx → Elt F .bf16 := match j with
  | 0 => X0q m (pp c d) | 1 => sl4 (PK m 0 (pp c d)) (qd c) | 2 => XN m 0 (pp c d) | 3 => sl4 (PK m 1 (pp c d)) (qd c) | 4 => XN m 1 (pp c d) | 5 => sl4 (PK m 2 (pp c d)) (qd c)

def asPay (c : Dev nD) (j : Fin 6) (d : Fin 4) : sProp 𝕄 := holds c (slotJ (srcBuf j) (srcSlot c j d)) (srcShare j d) (srcVal m c j d)
def arPay (c : Dev nD) (j : Fin 6) (d : Fin 4) : sProp 𝕄 := holds c (slotJ (dstBuf j) (qd (pp c d))) fullShare (dstVal m c j d)

def payK : CK → Dev nD → Fin 4 → sProp 𝕄
  | .bar, c, d => barPay c d
  | .ext, _, _ => iprop(emp)
  | .ws j, c, _ => wsPay m c j
  | .wr j, c, _ => wrPay m c j
  | .as j, c, d => asPay m c j d
  | .ar j, c, d => arPay m c j d
  | .none, _, _ => iprop(emp)

def dutK : CK → Finset (Fin 4)
  | .bar | .ext => Finset.univ
  | .ws _ | .wr _ => {0}
  | .as _ | .ar _ => {1, 2, 3}
  | .none => ∅

def amtK : CK → ℕ
  | .bar | .ext | .none => 1
  | .ws j | .wr j => cW j
  | .as j | .ar j => cA j

theorem amtK_pos (k : CK) : 0 < amtK k := by
  cases k <;> first | exact Nat.one_pos | exact cW_pos _ | exact cA_pos _

def Rd : Rounds.Schedule (GSem nD τ sig) (Fin 4) 𝕄 where
  duties g r := if r = 0 ∧ g.1.2 = .tc then dutK (kindOf g.2) else ∅
  amount g _ _ := amtK (kindOf g.2)
  payload g _ d := payK m (kindOf g.2) g.1.1 d
  amount_pos g _ _ _ := amtK_pos _

end Cert.Kernel.P

end
-- ==== Proof.Bits.Inv.lean ====
import proofs.«900976_g7700000000000977_dist_mlpseq_tp1d_bs_bs_b128_d128_h256_v7x_i8_bf16_1_alg».proof.Proof.Bits.Sched

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

def s₀ : MemSt nD τ sig (Elt F) := ⟨m, fun _ => 0, ρ⟩

def cellK (i : Fin 26) : SemLoc sig :=
  if i.val = 0 then .reg barS else if i.val = 1 then .reg extS else .dma ⟨i.val + 6, by have := i.isLt; show _ < 32; omega⟩
abbrev kcell (ck : Dev nD × Fin 26) : GSem nD τ sig := ((ck.1 : Thread nD τ), cellK ck.2)

theorem cellK_bar : cellK 0 = .reg barS := by decide
theorem cellK_ext : cellK 1 = .reg extS := by decide
theorem cellK_ws (j : Fin 6) : cellK ⟨2 + j.val, by omega⟩ = .dma (wsS j) := by revert j; decide
theorem cellK_wr (j : Fin 6) : cellK ⟨8 + j.val, by omega⟩ = .dma (wrS j) := by revert j; decide
theorem cellK_as (j : Fin 6) : cellK ⟨14 + j.val, by omega⟩ = .dma (asS j) := by revert j; decide
theorem cellK_ar (j : Fin 6) : cellK ⟨20 + j.val, by omega⟩ = .dma (arS j) := by revert j; decide
theorem cellK_injective : Function.Injective cellK := by decide

abbrev osem : Fin 25 → SemLoc sig := fun i => cellK ⟨i.val + 1, by omega⟩

def owedItems (c : Dev nD) : List (GSem nD τ sig × ℕ) :=
  [(barC (pp c 0), 1), (barC (pp c 1), 1), (barC (pp c 2), 1), (barC (pp c 3), 1),
   (arC (pp c 1) 0, cA 0), (arC (pp c 2) 0, cA 0), (arC (pp c 3) 0, cA 0),
   (wrC (pp c 0) 0, cW 0), (wrC (pp c 0) 1, cW 1), (wrC (pp c 0) 2, cW 2), (wrC (pp c 0) 3, cW 3), (wrC (pp c 0) 4, cW 4), (wrC (pp c 0) 5, cW 5),
   (arC (pp c 1) 1, cA 1), (arC (pp c 2) 1, cA 1), (arC (pp c 3) 1, cA 1),
   (arC (pp c 1) 2, cA 2), (arC (pp c 2) 2, cA 2), (arC (pp c 3) 2, cA 2),
   (arC (pp c 1) 3, cA 3), (arC (pp c 2) 3, cA 3), (arC (pp c 3) 3, cA 3),
   (arC (pp c 1) 4, cA 4), (arC (pp c 2) 4, cA 4), (arC (pp c 3) 4, cA 4),
   (arC (pp c 1) 5, cA 5), (arC (pp c 2) 5, cA 5), (arC (pp c 3) 5, cA 5),
   (extC (pp c 0), 1), (extC (pp c 1), 1), (extC (pp c 2), 1), (extC (pp c 3), 1)]

def owedL : List (GSem nD τ sig × ℕ) → CellTallies nD τ sig Unit
  | [] => 0
  | x :: xs => owedL xs + tallyAt x.1 () x.2

theorem owedL_cons (x : GSem nD τ sig × ℕ) (xs : List (GSem nD τ sig × ℕ)) : owedL (x :: xs) = owedL xs + tallyAt x.1 () x.2 := rfl

def O₀ (c : Dev nD) : CellTallies nD τ sig Unit := owedL (owedItems c)

def L (g : GSem nD τ sig) : Finset Unit := if g.1.2 = .tc then {()} else ∅
def lvK : CK → ℕ
  | .none => 0 | .ws _ => 0 | .as _ => 0
  | .bar => 1
  | .ar j => match j with | 0 => 2 | 1 => 4 | 2 => 5 | 3 => 7 | 4 => 8 | 5 => 10
  | .wr j => match j with | 0 => 3 | 1 => 3 | 2 => 6 | 3 => 6 | 4 => 9 | 5 => 9
  | .ext => 11
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 26 → ℕ) : sProp 𝕄 :=
  iprop((bigSep Finset.univ fun ck : Dev nD × Fin 26 => cellInv ER (Rd m) (K ck) (kcell ck))
    ∗ bigSep Finset.univ fun ck : Dev nD × Fin 26 => reached ER (kcell ck) 0)

instance records_persistent (K : Dev nD × Fin 26 → ℕ) : BI.Persistent (records m K) := by unfold records; infer_instance

def payToks (c : Dev nD) : sProp 𝕄 :=
  iprop((bigSep Finset.univ fun i : Fin 4 => dutyTok ER (barC (pp c i)) 0 (inv i))
    ∗ (bigSep Finset.univ fun i : Fin 4 => dutyTok ER (extC (pp c i)) 0 (inv i))
    ∗ (bigSep Finset.univ fun j : Fin 6 => dutyTok ER (wsC c j) 0 0)
    ∗ (bigSep Finset.univ fun j : Fin 6 => dutyTok ER (wrC (pp c 0) j) 0 0)
    ∗ (bigSep Finset.univ fun j : Fin 6 => iprop(dutyTok ER (asC c j) 0 1 ∗ dutyTok ER (asC c j) 0 2 ∗ dutyTok ER (asC c j) 0 3))
    ∗ (bigSep Finset.univ fun j : Fin 6 => iprop(dutyTok ER (arC (pp c 1) j) 0 (inv 1) ∗ dutyTok ER (arC (pp c 2) j) 0 (inv 2) ∗ dutyTok ER (arC (pp c 3) j) 0 (inv 3))))

def positions (c : Dev nD) : sProp 𝕄 := bigSep Finset.univ fun i : Fin 26 => atPos ER (kcell (c, i)) 0 ∅ 0

def ghost (K : Dev nD × Fin 26 → ℕ) (c : Dev nD) : sProp 𝕄 := iprop(records m K ∗ positions c ∗ payToks c)

def creds (c : Dev nD) : sProp 𝕄 :=
  iprop(cred (tallyAt (barC c) () 4) ∗ cred (tallyAt (extC c) () 4)
    ∗ (bigSep Finset.univ fun j : Fin 6 => cred (tallyAt (wrC c j) () (cW j)))
    ∗ (bigSep Finset.univ fun j : Fin 6 => cred (tallyAt (arC c j) () (3 * cA j))))

def start (c : Dev nD) : sProp 𝕄 := iprop((∃ K, ghost m K c) ∗ creds c ∗ levAts L lv)

def scratch (c : Dev nD) : sProp 𝕄 := Pipeline.scopedRest cfg0.spec c

def Φ₀ (c : Dev nD) : sProp 𝕄 := iprop(start m c ∗ scratch c)
def Φ₁ (c : Dev nD) : sProp 𝕄 := iprop(scratch c ∗ bigSep Finset.univ fun i : Fin 25 => semVal ((c : Thread nD τ), osem i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t₀ | ⟨1, _⟩ => iblk m c 1 t₀ | ⟨2, _⟩ => iblk m c 2 t₀ | ⟨3, _⟩ => iblk m c 3 t₀
    | ⟨4, _⟩ => iblk m c 4 t₀ | ⟨5, _⟩ => iblk m c 5 t₀ | ⟨6, _⟩ => iblk m c 6 t₀
    | ⟨7, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.P

end
-- ==== Proof.Bits.SchedTables.lean ====
import proofs.«900976_g7700000000000977_dist_mlpseq_tp1d_bs_bs_b128_d128_h256_v7x_i8_bf16_1_alg».proof.Proof.Bits.Sched

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem Rd_duties_tc (c : Dev nD) (s : SemLoc sig) :
    (Rd m).duties ((c : Thread nD τ), s) 0 = dutK (kindOf s) := by
  dsimp only [Rd]; exact if_pos ⟨rfl, rfl⟩
theorem Rd_amount (g : GSem nD τ sig) (r : ℕ) (d : Fin 4) : (Rd m).amount g r d = amtK (kindOf g.2) := rfl
theorem Rd_payload (g : GSem nD τ sig) (r : ℕ) (d : Fin 4) : (Rd m).payload g r d = payK m (kindOf g.2) g.1.1 d := rfl

theorem duties_bar (c : Dev nD) : (Rd m).duties (barC c) 0 = Finset.univ := by
  rw [Rd_duties_tc, kindOf_bar]; rfl
theorem duties_ext (c : Dev nD) : (Rd m).duties (extC c) 0 = Finset.univ := by
  rw [Rd_duties_tc, kindOf_ext]; rfl
theorem duties_ws (c : Dev nD) (j : Fin 6) : (Rd m).duties (wsC c j) 0 = {0} := by
  rw [Rd_duties_tc, kindOf_ws j]; rfl
theorem duties_wr (c : Dev nD) (j : Fin 6) : (Rd m).duties (wrC c j) 0 = {0} := by
  rw [Rd_duties_tc, kindOf_wr j]; rfl
theorem duties_as (c : Dev nD) (j : Fin 6) : (Rd m).duties (asC c j) 0 = {1, 2, 3} := by
  rw [Rd_duties_tc, kindOf_as j]; rfl
theorem duties_ar (c : Dev nD) (j : Fin 6) : (Rd m).duties (arC c j) 0 = {1, 2, 3} := by
  rw [Rd_duties_tc, kindOf_ar j]; rfl

theorem duties_later (g : GSem nD τ sig) : ∀ r, 1 ≤ r → (Rd m).duties g r = ∅ :=
  fun r hr => by dsimp only [Rd]; rw [if_neg fun h => by omega]

theorem amount_bar' (c : Dev nD) (r : ℕ) (d : Fin 4) : (Rd m).amount (barC c) r d = 1 := by
  rw [Rd_amount]; show amtK (kindOf _) = _; rw [kindOf_bar]; rfl
theorem amount_bar (c : Dev nD) (d : Fin 4) : (Rd m).amount (barC c) 0 d = 1 := amount_bar' m c 0 d
theorem amount_ext' (c : Dev nD) (r : ℕ) (d : Fin 4) : (Rd m).amount (extC c) r d = 1 := by
  rw [Rd_amount]; show amtK (kindOf _) = _; rw [kindOf_ext]; rfl
theorem amount_ext (c : Dev nD) (d : Fin 4) : (Rd m).amount (extC c) 0 d = 1 := amount_ext' m c 0 d
theorem amount_ws' (c : Dev nD) (j : Fin 6) (r : ℕ) (d : Fin 4) : (Rd m).amount (wsC c j) r d = cW j := by
  rw [Rd_amount]; show amtK (kindOf _) = _; rw [kindOf_ws j]; rfl
theorem amount_ws (c : Dev nD) (j : Fin 6) (d : Fin 4) : (Rd m).amount (wsC c j) 0 d = cW j := amount_ws' m c j 0 d
theorem amount_wr' (c : Dev nD) (j : Fin 6) (r : ℕ) (d : Fin 4) : (Rd m).amount (wrC c j) r d = cW j := by
  rw [Rd_amount]; show amtK (kindOf _) = _; rw [kindOf_wr j]; rfl
theorem amount_wr (c : Dev nD) (j : Fin 6) (d : Fin 4) : (Rd m).amount (wrC c j) 0 d = cW j := amount_wr' m c j 0 d
theorem amount_as' (c : Dev nD) (j : Fin 6) (r : ℕ) (d : Fin 4) : (Rd m).amount (asC c j) r d = cA j := by
  rw [Rd_amount]; show amtK (kindOf _) = _; rw [kindOf_as j]; rfl
theorem amount_as (c : Dev nD) (j : Fin 6) (d : Fin 4) : (Rd m).amount (asC c j) 0 d = cA j := amount_as' m c j 0 d
theorem amount_ar' (c : Dev nD) (j : Fin 6) (r : ℕ) (d : Fin 4) : (Rd m).amount (arC c j) r d = cA j := by
  rw [Rd_amount]; show amtK (kindOf _) = _; rw [kindOf_ar j]; rfl
theorem amount_ar (c : Dev nD) (j : Fin 6) (d : Fin 4) : (Rd m).amount (arC c j) 0 d = cA j := amount_ar' m c j 0 d

theorem expect_bar (c : Dev nD) : (Rd m).expect (barC c) 0 = 4 := by
  unfold Schedule.expect Schedule.amountOf
  rw [duties_bar, Finset.sum_congr rfl fun d _ => amount_bar m c d, Finset.sum_const, Finset.card_univ, Fintype.card_fin, smul_eq_mul]
theorem expect_ext (c : Dev nD) : (Rd m).expect (extC c) 0 = 4 := by
  unfold Schedule.expect Schedule.amountOf
  rw [duties_ext, Finset.sum_congr rfl fun d _ => amount_ext m c d, Finset.sum_const, Finset.card_univ, Fintype.card_fin, smul_eq_mul]
theorem expect_ws (c : Dev nD) (j : Fin 6) : (Rd m).expect (wsC c j) 0 = cW j := by
  unfold Schedule.expect Schedule.amountOf; rw [duties_ws, Finset.sum_singleton, amount_ws]
theorem expect_wr (c : Dev nD) (j : Fin 6) : (Rd m).expect (wrC c j) 0 = cW j := by
  unfold Schedule.expect Schedule.amountOf; rw [duties_wr, Finset.sum_singleton, amount_wr]
theorem expect_as (c : Dev nD) (j : Fin 6) : (Rd m).expect (asC c j) 0 = 3 * cA j := by
  unfold Schedule.expect Schedule.amountOf
  rw [duties_as, Finset.sum_congr rfl fun d _ => amount_as m c j d, Finset.sum_const, smul_eq_mul]; rfl
theorem expect_ar (c : Dev nD) (j : Fin 6) : (Rd m).expect (arC c j) 0 = 3 * cA j := by
  unfold Schedule.expect Schedule.amountOf
  rw [duties_ar, Finset.sum_congr rfl fun d _ => amount_ar m c j d, Finset.sum_const, smul_eq_mul]; rfl

theorem payload_bar (c : Dev nD) (d : Fin 4) : (Rd m).payload (barC c) 0 d = barPay c d := by
  rw [Rd_payload]; show payK m (kindOf _) c d = _; rw [kindOf_bar]; rfl
theorem payload_ext (c : Dev nD) (d : Fin 4) : (Rd m).payload (extC c) 0 d = iprop(emp) := by
  rw [Rd_payload]; show payK m (kindOf _) c d = _; rw [kindOf_ext]; rfl
theorem payload_ws (c : Dev nD) (j : Fin 6) (d : Fin 4) : (Rd m).payload (wsC c j) 0 d = wsPay m c j := by
  rw [Rd_payload]; show payK m (kindOf _) c d = _; rw [kindOf_ws j]; rfl
theorem payload_wr (c : Dev nD) (j : Fin 6) (d : Fin 4) : (Rd m).payload (wrC c j) 0 d = wrPay m c j := by
  rw [Rd_payload]; show payK m (kindOf _) c d = _; rw [kindOf_wr j]; rfl
theorem payload_as (c : Dev nD) (j : Fin 6) (d : Fin 4) : (Rd m).payload (asC c j) 0 d = asPay m c j d := by
  rw [Rd_payload]; show payK m (kindOf _) c d = _; rw [kindOf_as j]; rfl
theorem payload_ar (c : Dev nD) (j : Fin 6) (d : Fin 4) : (Rd m).payload (arC c j) 0 d = arPay m c j d := by
  rw [Rd_payload]; show payK m (kindOf _) c d = _; rw [kindOf_ar j]; rfl

theorem mem_bar (c : Dev nD) (d : Fin 4) : d ∈ (Rd m).duties (barC c) 0 := by rw [duties_bar]; exact Finset.mem_univ d
theorem mem_ext (c : Dev nD) (d : Fin 4) : d ∈ (Rd m).duties (extC c) 0 := by rw [duties_ext]; exact Finset.mem_univ d
theorem mem_ws (c : Dev nD) (j : Fin 6) : (0 : Fin 4) ∈ (Rd m).duties (wsC c j) 0 := by rw [duties_ws]; exact Finset.mem_singleton_self 0
theorem mem_wr (c : Dev nD) (j : Fin 6) : (0 : Fin 4) ∈ (Rd m).duties (wrC c j) 0 := by rw [duties_wr]; exact Finset.mem_singleton_self 0
theorem mem_123 (d : Fin 4) (hd : d ≠ 0) : d ∈ ({1, 2, 3} : Finset (Fin 4)) := by revert d; decide
theorem mem_as (c : Dev nD) (j : Fin 6) (d : Fin 4) (hd : d ≠ 0) : d ∈ (Rd m).duties (asC c j) 0 := by rw [duties_as]; exact mem_123 d hd
theorem mem_ar (c : Dev nD) (j : Fin 6) (d : Fin 4) (hd : d ≠ 0) : d ∈ (Rd m).duties (arC c j) 0 := by rw [duties_ar]; exact mem_123 d hd

theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
theorem bigSep_123 (Φ : Fin 4 → sProp 𝕄) : bigSep ({1, 2, 3} : Finset (Fin 4)) Φ = iprop(Φ 1 ∗ Φ 2 ∗ Φ 3) := by
  rw [bigSep_insert (by decide), bigSep_insert (by decide), bigSep_singleton]; rfl

theorem rest_bar (c : Dev nD) :
    bigSep ((Rd m).duties (barC c) 0 \ ∅) (fun d => (Rd m).payload (barC c) 0 d) = iprop(barPay c 0 ∗ barPay c 1 ∗ barPay c 2 ∗ barPay c 3) := by
  rw [Finset.sdiff_empty, duties_bar, bigSep_fin4, payload_bar m c 0, payload_bar m c 1, payload_bar m c 2, payload_bar m c 3]
instance barPay_storable (c : Dev nD) (d : Fin 4) : BI.Storable (upEmb : UEmb _ 𝕄) (barPay (F := F) c d) := by
  unfold barPay; split <;> infer_instance
instance wsPay_storable (c : Dev nD) (j : Fin 6) : BI.Storable (upEmb : UEmb _ 𝕄) (wsPay m c j) := by
  unfold wsPay; split <;> infer_instance
instance wrPay_storable (c : Dev nD) (j : Fin 6) : BI.Storable (upEmb : UEmb _ 𝕄) (wrPay m c j) := by
  unfold wrPay; split <;> infer_instance
instance asPay_storable (c : Dev nD) (j : Fin 6) (d : Fin 4) : BI.Storable (upEmb : UEmb _ 𝕄) (asPay m c j d) := by
  unfold asPay; infer_instance
instance arPay_storable (c : Dev nD) (j : Fin 6) (d : Fin 4) : BI.Storable (upEmb : UEmb _ 𝕄) (arPay m c j d) := by
  unfold arPay; infer_instance
instance payK_storable (k : CK) (c : Dev nD) (d : Fin 4) : BI.Storable (upEmb : UEmb _ 𝕄) (payK m k c d) := by
  cases k <;> unfold payK <;> infer_instance
instance Rd_payload_storable (g : GSem nD τ sig) (r : ℕ) (d : Fin 4) :
    BI.Storable (upEmb : UEmb _ 𝕄) ((Rd m).payload g r d) := by
  rw [Rd_payload]; infer_instance

theorem wsPay_0 (c : Dev nD) : wsPay m c 0 = holds c (winsJ 0 0) shR (Wi m c 0) := rfl
theorem wsPay_1 (c : Dev nD) : wsPay m c 1 = holds c (woutsJ 0 0) shR (Wo m c 0) := rfl
theorem wsPay_2 (c : Dev nD) : wsPay m c 2 = holds c (winsJ 0 1) shR (Wi m c 1) := rfl
theorem wsPay_3 (c : Dev nD) : wsPay m c 3 = holds c (woutsJ 0 1) shR (Wo m c 1) := rfl
theorem wsPay_4 (c : Dev nD) : wsPay m c 4 = holds c (winsJ 0 2) shR (Wi m c 2) := rfl
theorem wsPay_5 (c : Dev nD) : wsPay m c 5 = holds c (woutsJ 0 2) shR (Wo m c 2) := rfl
theorem wrPay_0 (c : Dev nD) : wrPay m c 0 = holds c (winsJ 1 0) fullShare (Wi m (pp c 0) 0) := rfl
theorem wrPay_1 (c : Dev nD) : wrPay m c 1 = holds c (woutsJ 1 0) fullShare (Wo m (pp c 0) 0) := rfl
theorem wrPay_2 (c : Dev nD) : wrPay m c 2 = holds c (winsJ 1 1) fullShare (Wi m (pp c 0) 1) := rfl
theorem wrPay_3 (c : Dev nD) : wrPay m c 3 = holds c (woutsJ 1 1) fullShare (Wo m (pp c 0) 1) := rfl
theorem wrPay_4 (c : Dev nD) : wrPay m c 4 = holds c (winsJ 1 2) fullShare (Wi m (pp c 0) 2) := rfl
theorem wrPay_5 (c : Dev nD) : wrPay m c 5 = holds c (woutsJ 1 2) fullShare (Wo m (pp c 0) 2) := rfl

theorem srcSlot_3 (c : Dev nD) (d : Fin 4) : srcSlot c 3 d = qd (pp c d) := rfl
theorem srcSlot_4 (c : Dev nD) (d : Fin 4) : srcSlot c 4 d = qd c := rfl
theorem asPay_0 (c : Dev nD) (d : Fin 4) : asPay m c 0 d = holds c (slotJ (xgM) (qd c)) (sh d) (X0q m c) := rfl
theorem asPay_1 (c : Dev nD) (d : Fin 4) : asPay m c 1 d = holds c (slotJ (prtlM 0) (qd (pp c d))) (fullShare) (sl4 (PK m 0 c) (qd (pp c d))) := rfl
theorem asPay_2 (c : Dev nD) (d : Fin 4) : asPay m c 2 d = holds c (slotJ (xnM 0) (qd c)) (sh d) (XN m 0 c) := rfl
theorem asPay_3 (c : Dev nD) (d : Fin 4) : asPay m c 3 d = holds c (slotJ (prtlM 1) (qd (pp c d))) (fullShare) (sl4 (PK m 1 c) (qd (pp c d))) := rfl
theorem asPay_4 (c : Dev nD) (d : Fin 4) : asPay m c 4 d = holds c (slotJ (xnM 1) (qd c)) (sh d) (XN m 1 c) := rfl
theorem asPay_5 (c : Dev nD) (d : Fin 4) : asPay m c 5 d = holds c (slotJ (prtlM 2) (qd (pp c d))) (fullShare) (sl4 (PK m 2 c) (qd (pp c d))) := rfl
theorem arPay_0 (c : Dev nD) (d : Fin 4) : arPay m c 0 d = holds c (slotJ (xgM) (qd (pp c d))) fullShare (X0q m (pp c d)) := rfl
theorem arPay_1 (c : Dev nD) (d : Fin 4) : arPay m c 1 d = holds c (slotJ (raccM 0) (qd (pp c d))) fullShare (sl4 (PK m 0 (pp c d)) (qd c)) := rfl
theorem arPay_2 (c : Dev nD) (d : Fin 4) : arPay m c 2 d = holds c (slotJ (xnM 0) (qd (pp c d))) fullShare (XN m 0 (pp c d)) := rfl
theorem arPay_3 (c : Dev nD) (d : Fin 4) : arPay m c 3 d = holds c (slotJ (raccM 1) (qd (pp c d))) fullShare (sl4 (PK m 1 (pp c d)) (qd c)) := rfl
theorem arPay_4 (c : Dev nD) (d : Fin 4) : arPay m c 4 d = holds c (slotJ (xnM 1) (qd (pp c d))) fullShare (XN m 1 (pp c d)) := rfl
theorem arPay_5 (c : Dev nD) (d : Fin 4) : arPay m c 5 d = holds c (slotJ (raccM 2) (qd (pp c d))) fullShare (sl4 (PK m 2 (pp c d)) (qd c)) := rfl

theorem barPay_0 (c : Dev nD) : barPay (F := F) c 0 =
    iprop(holdsAny (pp c 0) (winsJ 1 0) ∗ holdsAny (pp c 0) (woutsJ 1 0) ∗ holdsAny (pp c 0) (winsJ 1 1) ∗ holdsAny (pp c 0) (woutsJ 1 1)
      ∗ holdsAny (pp c 0) (winsJ 1 2) ∗ holdsAny (pp c 0) (woutsJ 1 2)) := if_pos rfl
theorem barPay_peer (c : Dev nD) (d : Fin 4) (hd : d ≠ 0) : barPay (F := F) c d =
    iprop(holdsAny (pp c d) (slotJ xgM (qd c)) ∗ holdsAny (pp c d) (slotJ (raccM 0) (qd c)) ∗ holdsAny (pp c d) (slotJ (xnM 0) (qd c))
      ∗ holdsAny (pp c d) (slotJ (raccM 1) (qd c)) ∗ holdsAny (pp c d) (slotJ (xnM 1) (qd c)) ∗ holdsAny (pp c d) (slotJ (raccM 2) (qd c))) := if_neg hd

end Cert.Kernel.P

end
-- ==== Proof.Bits.BodyDefs.lean ====
import proofs.«900976_g7700000000000977_dist_mlpseq_tp1d_bs_bs_b128_d128_h256_v7x_i8_bf16_1_alg».proof.Proof.Bits.Inv
import proofs.«900976_g7700000000000977_dist_mlpseq_tp1d_bs_bs_b128_d128_h256_v7x_i8_bf16_1_alg».proof.Proof.Bits.SchedTables

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

notation "ARGS " f:max => f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scoped0

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def stgIn (c : Dev nD) : sProp 𝕄 :=
  iprop(stg c cc0_stg0_0 (xin m c) ∗ stg c cc0_stg1_0 (wiIn m c 0) ∗ stg c cc0_stg2_0 (woIn m c 0) ∗ stg c cc0_stg3_0 (wiIn m c 1)
    ∗ stg c cc0_stg4_0 (woIn m c 1) ∗ stg c cc0_stg5_0 (wiIn m c 2) ∗ stg c cc0_stg6_0 (woIn m c 2))

def owesFrom (c : Dev nD) (n : ℕ) (W : Waits sig Unit) : sProp 𝕄 := owes (c : Thread nD τ) (owedL ((owedItems c).drop n)) W

def arTok (c : Dev nD) (j : Fin 6) : sProp 𝕄 :=
  iprop(dutyTok ER (arC (pp c 1) j) 0 (inv 1) ∗ dutyTok ER (arC (pp c 2) j) 0 (inv 2) ∗ dutyTok ER (arC (pp c 3) j) 0 (inv 3))
def asTok (c : Dev nD) (j : Fin 6) : sProp 𝕄 := iprop(dutyTok ER (asC c j) 0 1 ∗ dutyTok ER (asC c j) 0 2 ∗ dutyTok ER (asC c j) 0 3)
def lent (c : Dev nD) (j : Fin 6) : sProp 𝕄 :=
  iprop(holdsAny (pp c 1) (slotJ (dstBuf j) (qd c)) ∗ holdsAny (pp c 2) (slotJ (dstBuf j) (qd c)) ∗ holdsAny (pp c 3) (slotJ (dstBuf j) (qd c)))
def asCred (c : Dev nD) (j : Fin 6) : sProp 𝕄 := iprop(cred (tallyAt (asC c j) () (cA j)) ∗ cred (tallyAt (asC c j) () (cA j)) ∗ cred (tallyAt (asC c j) () (cA j)))

def any4 (c : Dev nD) (b : Memref sig .tc .vmem S4x128x128 .bf16) : sProp 𝕄 :=
  iprop(holdsAny c (slotJ b 0) ∗ holdsAny c (slotJ b 1) ∗ holdsAny c (slotJ b 2) ∗ holdsAny c (slotJ b 3))
def got3 (c : Dev nD) (j : Fin 6) : sProp 𝕄 := iprop(arPay m c j 1 ∗ arPay m c j 2 ∗ arPay m c j 3)

def done (g : GSem nD τ sig) : sProp 𝕄 := atPos ER g 1 ∅ 0
def fresh (g : GSem nD τ sig) : sProp 𝕄 := atPos ER g 0 ∅ 0

end Cert.Kernel.P

end
-- ==== Proof.Bits.PhaseSpecs.lean ====
import proofs.«900976_g7700000000000977_dist_mlpseq_tp1d_bs_bs_b128_d128_h256_v7x_i8_bf16_1_alg».proof.Proof.Bits.BodyDefs

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def preA (c : Dev nD) (W : Waits sig Unit) : sProp 𝕄 :=
  iprop(owesFrom c 0 W ∗ fresh (barC c) ∗ cred (tallyAt (barC c) () 4)
    ∗ (dutyTok ER (barC (pp c 0)) 0 (inv 0) ∗ dutyTok ER (barC (pp c 1)) 0 (inv 1) ∗ dutyTok ER (barC (pp c 2)) 0 (inv 2) ∗ dutyTok ER (barC (pp c 3)) 0 (inv 3))
    ∗ arTok c 0 ∗ asTok c 0
    ∗ (bigSep Finset.univ fun j : Fin 6 => dutyTok ER (wsC c j) 0 0) ∗ (bigSep Finset.univ fun j : Fin 6 => dutyTok ER (wrC (pp c 0) j) 0 0)
    ∗ stgIn m c
    ∗ (holdsAny c (winsJ 0 0) ∗ holdsAny c (woutsJ 0 0) ∗ holdsAny c (winsJ 0 1) ∗ holdsAny c (woutsJ 0 1) ∗ holdsAny c (winsJ 0 2) ∗ holdsAny c (woutsJ 0 2))
    ∗ (holdsAny c (winsJ 1 0) ∗ holdsAny c (woutsJ 1 0) ∗ holdsAny c (winsJ 1 1) ∗ holdsAny c (woutsJ 1 1) ∗ holdsAny c (winsJ 1 2) ∗ holdsAny c (woutsJ 1 2))
    ∗ any4 c xgM ∗ any4 c (raccM 0) ∗ any4 c (xnM 0) ∗ any4 c (raccM 1) ∗ any4 c (xnM 1) ∗ any4 c (raccM 2))
def postA (c : Dev nD) : sProp 𝕄 :=
  iprop((∃ W, owesFrom c 13 W) ∗ done (barC c) ∗ asCred c 0 ∗ (bigSep Finset.univ fun j : Fin 6 => cred (tallyAt (wsC c j) () (cW j)))
    ∗ stgIn m c
    ∗ (holds c (winsJ 0 0) shK (Wi m c 0) ∗ holds c (woutsJ 0 0) shK (Wo m c 0) ∗ holds c (winsJ 0 1) shK (Wi m c 1) ∗ holds c (woutsJ 0 1) shK (Wo m c 1)
        ∗ holds c (winsJ 0 2) shK (Wi m c 2) ∗ holds c (woutsJ 0 2) shK (Wo m c 2))
    ∗ holds c (slotJ xgM (qd c)) shK (X0q m c)
    ∗ lent c 1 ∗ lent c 2 ∗ lent c 3 ∗ lent c 4 ∗ lent c 5
    ∗ holdsAny c (slotJ (raccM 0) (qd c)) ∗ holdsAny c (slotJ (xnM 0) (qd c)) ∗ holdsAny c (slotJ (raccM 1) (qd c)) ∗ holdsAny c (slotJ (xnM 1) (qd c))
    ∗ holdsAny c (slotJ (raccM 2) (qd c)))

def preLayer (k : Fin 2) (c : Dev nD) (W : Waits sig Unit) : sProp 𝕄 :=
  let r : Fin 6 := ⟨2 * k.val + 1, by omega⟩; let g : Fin 6 := ⟨2 * k.val + 2, by omega⟩
  let w0 : Fin 6 := ⟨2 * k.val, by omega⟩; let w1 : Fin 6 := ⟨2 * k.val + 1, by omega⟩; let w2 : Fin 6 := ⟨2 * k.val + 2, by omega⟩
  let kk : Fin 3 := ⟨k.val, by omega⟩
  iprop(owesFrom c (13 + 6 * k.val) W
    ∗ (fresh (wrC c w0) ∗ cred (tallyAt (wrC c w0) () (cW w0))) ∗ (fresh (wrC c w1) ∗ cred (tallyAt (wrC c w1) () (cW w1))) ∗ (fresh (wrC c w2) ∗ cred (tallyAt (wrC c w2) () (cW w2)))
    ∗ (fresh (arC c r) ∗ cred (tallyAt (arC c r) () (3 * cA r))) ∗ (fresh (arC c g) ∗ cred (tallyAt (arC c g) () (3 * cA g)))
    ∗ arTok c r ∗ asTok c r ∗ lent c r ∗ arTok c g ∗ asTok c g ∗ lent c g
    ∗ holds c (winsJ 0 kk) shK (Wi m c kk) ∗ holds c (woutsJ 0 kk) shK (Wo m c kk)
    ∗ any4 c (prtlM kk) ∗ holdsAny c (slotJ (xnM k) (qd c)))
def postLayer (k : Fin 2) (c : Dev nD) : sProp 𝕄 :=
  let r : Fin 6 := ⟨2 * k.val + 1, by omega⟩; let g : Fin 6 := ⟨2 * k.val + 2, by omega⟩
  let w0 : Fin 6 := ⟨2 * k.val, by omega⟩; let w1 : Fin 6 := ⟨2 * k.val + 1, by omega⟩; let w2 : Fin 6 := ⟨2 * k.val + 2, by omega⟩
  let kk : Fin 3 := ⟨k.val, by omega⟩
  iprop((∃ W, owesFrom c (19 + 6 * k.val) W)
    ∗ done (wrC c w0) ∗ done (wrC c w1) ∗ done (wrC c w2) ∗ done (arC c r) ∗ done (arC c g)
    ∗ asCred c r ∗ asCred c g
    ∗ holds c (winsJ 0 kk) shK (Wi m c kk) ∗ holds c (woutsJ 0 kk) shK (Wo m c kk)
    ∗ wrPay m c w0 ∗ wrPay m c w1 ∗ wrPay m c w2
    ∗ holds c (slotJ (prtlM kk) (qd c)) fullShare (sl4 (PK m kk c) (qd c))
    ∗ got3 m c r
    ∗ holds c (slotJ (xnM k) (qd c)) shK (XN m k c)
    ∗ got3 m c g)

def preXg (c : Dev nD) : sProp 𝕄 :=
  iprop((fresh (arC c 0) ∗ cred (tallyAt (arC c 0) () (3 * cA 0))) ∗ holds c (slotJ xgM (qd c)) shK (X0q m c))
def postXg (c : Dev nD) : sProp 𝕄 := iprop(done (arC c 0) ∗ holds c (slotJ xgM (qd c)) shK (X0q m c) ∗ got3 m c 0)

def preLast (c : Dev nD) (W : Waits sig Unit) : sProp 𝕄 :=
  iprop(owesFrom c 25 W
    ∗ (fresh (wrC c 5) ∗ cred (tallyAt (wrC c 5) () (cW 5))) ∗ (fresh (arC c 5) ∗ cred (tallyAt (arC c 5) () (3 * cA 5)))
    ∗ arTok c 5 ∗ asTok c 5 ∗ lent c 5
    ∗ holds c (winsJ 0 2) shK (Wi m c 2) ∗ holds c (woutsJ 0 2) shK (Wo m c 2) ∗ wrPay m c 4
    ∗ any4 c (prtlM 2) ∗ (∃ X, stg c cc0_stg7_0 X))
def postLast (c : Dev nD) : sProp 𝕄 :=
  iprop((∃ W, owesFrom c 28 W) ∗ done (wrC c 5) ∗ done (arC c 5) ∗ asCred c 5
    ∗ holds c (winsJ 0 2) shK (Wi m c 2) ∗ holds c (woutsJ 0 2) shK (Wo m c 2) ∗ wrPay m c 4 ∗ wrPay m c 5
    ∗ holds c (slotJ (prtlM 2) (qd c)) fullShare (sl4 (PK m 2 c) (qd c)) ∗ got3 m c 5
    ∗ stg c cc0_stg7_0 (OUT m c))

def preEnd (c : Dev nD) (W : Waits sig Unit) : sProp 𝕄 :=
  iprop(owesFrom c 28 W
    ∗ (bigSep Finset.univ fun j : Fin 6 => iprop(fresh (wsC c j) ∗ cred (tallyAt (wsC c j) () (cW j))))
    ∗ (bigSep Finset.univ fun j : Fin 6 => iprop(fresh (asC c j) ∗ asCred c j))
    ∗ (dutyTok ER (extC (pp c 0)) 0 (inv 0) ∗ dutyTok ER (extC (pp c 1)) 0 (inv 1) ∗ dutyTok ER (extC (pp c 2)) 0 (inv 2) ∗ dutyTok ER (extC (pp c 3)) 0 (inv 3))
    ∗ fresh (extC c) ∗ cred (tallyAt (extC c) () 4))
def postEnd (c : Dev nD) : sProp 𝕄 :=
  iprop((∃ W, owes (c : Thread nD τ) 0 W)
    ∗ (bigSep Finset.univ fun j : Fin 6 => iprop(done (wsC c j) ∗ wsPay m c j))
    ∗ (bigSep Finset.univ fun j : Fin 6 => iprop(done (asC c j) ∗ asPay m c j 1 ∗ asPay m c j 2 ∗ asPay m c j 3))
    ∗ done (extC c))

end Cert.Kernel.P

end
-- ==== Proof.Bits.GlueSpecs.lean ====
import proofs.«900976_g7700000000000977_dist_mlpseq_tp1d_bs_bs_b128_d128_h256_v7x_i8_bf16_1_alg».proof.Proof.Bits.PhaseSpecs

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def wrCell (c : Dev nD) (j : Fin 6) : sProp 𝕄 := iprop(fresh (wrC c j) ∗ cred (tallyAt (wrC c j) () (cW j)))
def arCell (c : Dev nD) (j : Fin 6) : sProp 𝕄 := iprop(fresh (arC c j) ∗ cred (tallyAt (arC c j) () (3 * cA j)))

def initRest (c : Dev nD) : sProp 𝕄 :=
  iprop(arCell c 0
    ∗ (wrCell c 0 ∗ wrCell c 1 ∗ wrCell c 2 ∗ arCell c 1 ∗ arCell c 2 ∗ arTok c 1 ∗ asTok c 1 ∗ arTok c 2 ∗ asTok c 2 ∗ any4 c (prtlM 0))
    ∗ (wrCell c 3 ∗ wrCell c 4 ∗ arCell c 3 ∗ arCell c 4 ∗ arTok c 3 ∗ asTok c 3 ∗ arTok c 4 ∗ asTok c 4 ∗ any4 c (prtlM 1))
    ∗ (wrCell c 5 ∗ arCell c 5 ∗ arTok c 5 ∗ asTok c 5 ∗ any4 c (prtlM 2) ∗ (∃ X, stg c cc0_stg7_0 X))
    ∗ ((bigSep Finset.univ fun j : Fin 6 => fresh (wsC c j)) ∗ (bigSep Finset.univ fun j : Fin 6 => fresh (asC c j))
        ∗ (dutyTok ER (extC (pp c 0)) 0 (inv 0) ∗ dutyTok ER (extC (pp c 1)) 0 (inv 1) ∗ dutyTok ER (extC (pp c 2)) 0 (inv 2) ∗ dutyTok ER (extC (pp c 3)) 0 (inv 3))
        ∗ fresh (extC c) ∗ cred (tallyAt (extC c) () 4)))

def finalAll (c : Dev nD) : sProp 𝕄 :=
  iprop((∃ W, owes (c : Thread nD τ) 0 W)
    ∗ (done (extC c) ∗ (bigSep Finset.univ fun j : Fin 6 => done (wsC c j)) ∗ (bigSep Finset.univ fun j : Fin 6 => done (wrC c j))
        ∗ (bigSep Finset.univ fun j : Fin 6 => done (asC c j)) ∗ (bigSep Finset.univ fun j : Fin 6 => done (arC c j)))
    ∗ (bigSep Finset.univ fun k : Fin 3 => iprop(holds c (winsJ 0 k) shK (Wi m c k) ∗ holds c (woutsJ 0 k) shK (Wo m c k)))
    ∗ (bigSep Finset.univ fun j : Fin 6 => wsPay m c j) ∗ (bigSep Finset.univ fun j : Fin 6 => wrPay m c j)
    ∗ (holds c (slotJ xgM (qd c)) shK (X0q m c) ∗ holds c (slotJ (xnM 0) (qd c)) shK (XN m 0 c) ∗ holds c (slotJ (xnM 1) (qd c)) shK (XN m 1 c))
    ∗ (bigSep Finset.univ fun k : Fin 3 => iprop(holds c (slotJ (prtlM k) (qd c)) fullShare (sl4 (PK m k c) (qd c)) ∗ holdsAny c (slotJ (raccM k) (qd c))))
    ∗ (bigSep Finset.univ fun j : Fin 6 => iprop(asPay m c j 1 ∗ asPay m c j 2 ∗ asPay m c j 3))
    ∗ (bigSep Finset.univ fun j : Fin 6 => got3 m c j)
    ∗ stgIn m c ∗ stg c cc0_stg7_0 (OUT m c))

end Cert.Kernel.P

end
-- ==== Proof.Bits.HoldsLemmas.lean ====
import proofs.«900976_g7700000000000977_dist_mlpseq_tp1d_bs_bs_b128_d128_h256_v7x_i8_bf16_1_alg».proof.Proof.Bits.Inv
import Idealize.ShloMosaic.Lib.Tactic
import Idealize.ShloMosaic.Lib.Pipeline.Value
import Idealize.ShloMosaic.Lib.ValueLayout

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
omit [FloatOps F]

theorem holds_intro (c : Dev nD) {s : Shape} {e : EltTy} (m : Memref sig .tc .vmem s e) (q : PosShare TreeShare)
    (f : Buf (Elt F) (m.view.loc (c : Thread nD τ))) :
    (m.view.loc (c : Thread nD τ) ↦[m.view.set]{q} f) ⊢ holds (F := F) c m q (m.view.read (Elt F) f) := by
  unfold holds
  iintro H
  iexists f
  isplitr
  · ipureintro; rfl
  · iexact H

theorem holds_elim (c : Dev nD) {s : Shape} {e : EltTy} (m : Memref sig .tc .vmem s e) (q : PosShare TreeShare) (w : s.Idx → Elt F e) :
    holds (F := F) c m q w ⊢ iprop(∃ f : Buf (Elt F) (m.view.loc (c : Thread nD τ)), ⌜m.view.read (Elt F) f = w⌝ ∗ (m.view.loc (c : Thread nD τ) ↦[m.view.set]{q} f)) := by
  unfold holds; exact Entails.refl _

theorem holdsAny_intro (c : Dev nD) {s : Shape} {e : EltTy} (m : Memref sig .tc .vmem s e)
    (f : Buf (Elt F) (m.view.loc (c : Thread nD τ))) :
    (m.view.loc (c : Thread nD τ) ↦[m.view.set]{fullShare} f) ⊢ holdsAny (F := F) c m := by
  unfold holdsAny
  iintro H
  iexists f
  iexact H

theorem holdsAny_elim (c : Dev nD) {s : Shape} {e : EltTy} (m : Memref sig .tc .vmem s e) :
    holdsAny (F := F) c m ⊢ iprop(∃ f : Buf (Elt F) (m.view.loc (c : Thread nD τ)), (m.view.loc (c : Thread nD τ) ↦[m.view.set]{fullShare} f)) := by
  unfold holdsAny; exact Entails.refl _

theorem set_piece {s : Shape} {e : EltTy} (b : Memref sig .tc .vmem s e) (r : Rect s) (hr : ∀ a, r.stride a = 1) (s' : Shape) (hsq : r.shape.Squeezes s') :
    ((b.slice r hr).squeeze s' hsq).view.set = (b.access r).set :=
  View.set_reshape _ _

theorem read_piece {s : Shape} {e : EltTy} (b : Memref sig .tc .vmem s e) (r : Rect s) (hr : ∀ a, r.stride a = 1) (s' : Shape) (hsq : r.shape.Squeezes s')
    (f : ((b.slice r hr).squeeze s' hsq).view.ty.Contents (Elt F)) :
    ((b.slice r hr).squeeze s' hsq).view.read (Elt F) f = fun i => (b.access r).read (Elt F) f (Shape.reshapeEquiv hsq.numel_eq i) := rfl

theorem holds_split (c : Dev nD) {s : Shape} {e : EltTy} (m : Memref sig .tc .vmem s e) (q : PosShare TreeShare) (w : s.Idx → Elt F e) :
    holds (F := F) c m q w ⊢ iprop(holds (F := F) c m q.left w ∗ holds (F := F) c m q.right w) := by
  iintro H
  ihave H' := (holds_elim c m q w) $$ H
  icases H' with ⟨%f, %hf, H⟩
  subst hf
  ihave H2 := (pointsTo_share (PosShare.mem_left_op_right q)).1 $$ H
  icases H2 with ⟨Hl, Hr⟩
  isplitl [Hl]
  · iapply (holds_intro c m q.left f) $$ Hl
  · iapply (holds_intro c m q.right f) $$ Hr

theorem holds_any (c : Dev nD) {s : Shape} {e : EltTy} (m : Memref sig .tc .vmem s e) (w : s.Idx → Elt F e) :
    holds (F := F) c m fullShare w ⊢ holdsAny (F := F) c m := by
  iintro H
  ihave H' := (holds_elim c m fullShare w) $$ H
  icases H' with ⟨%f, %hf, H⟩
  iapply (holdsAny_intro c m f) $$ H

-- Contents a view reads alike agree on the view's elements: the view's index map is injective.
theorem eqOn_of_read_eq {s : Shape} {e : EltTy} (v : View sig .tc .vmem s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

theorem holds_join (c : Dev nD) {s : Shape} {e : EltTy} (m : Memref sig .tc .vmem s e) (q : PosShare TreeShare) (w : s.Idx → Elt F e) :
    iprop(holds (F := F) c m q.left w ∗ holds (F := F) c m q.right w) ⊢ holds (F := F) c m q w := by
  iintro ⟨Hl, Hr⟩
  ihave Hl' := (holds_elim c m q.left w) $$ Hl
  ihave Hr' := (holds_elim c m q.right w) $$ Hr
  icases Hl' with ⟨%f, %hf, Hl⟩
  icases Hr' with ⟨%g, %hg, Hr⟩
  have hfg : (m.view.loc (c : Thread nD τ) ↦[m.view.set]{q.right} g : sProp 𝕄) = (m.view.loc (c : Thread nD τ) ↦[m.view.set]{q.right} f) :=
    pointsTo_congr (eqOn_of_read_eq m.view (hg.trans hf.symm))
  ihave Hr := (Entails.of_eq hfg) $$ Hr
  subst hf
  ihave H := (pointsTo_share (PosShare.mem_left_op_right q)).2 $$ [Hl Hr]
  · isplitl [Hl]
    · iexact Hl
    · iexact Hr
  iapply (holds_intro c m q f) $$ H

end

theorem wp_load_piece (c : Dev nD) {s : Shape} {e : EltTy} (b : Memref sig .tc .vmem s e) (r : Rect s) (hr : ∀ a, r.stride a = 1) (s' : Shape) (hsq : r.shape.Squeezes s')
    {hl : b.view.LoadsAt r.toLoadRect}
    {α : Type} {Q : α → sProp 𝕄} {k : (r.shape.Idx → Elt F e) → Prog (TpuEff nD τ sig (Elt F) Λ₀ .tc) α}
    (q : PosShare TreeShare) (w : s'.Idx → Elt F e) :
    holds c ((b.slice r hr).squeeze s' hsq) q w
      ⊢ iprop((holds c ((b.slice r hr).squeeze s' hsq) q w -∗ wp frame (wpE (defs₀ (F := F)) 𝒱₀ (c : Thread nD τ) none) Set.univ (k (fun i => w ((Shape.reshapeEquiv hsq.numel_eq).symm i))) Q)
      -∗ wp frame (wpE (defs₀ (F := F)) 𝒱₀ (c : Thread nD τ) none) Set.univ (.op (.load b r.toLoadRect hl) k) Q) := by
  iintro H Hk
  ihave H' := (holds_elim c ((b.slice r hr).squeeze s' hsq) q w) $$ H
  icases H' with ⟨%f, %hf, H⟩
  subst hf
  have hS : b.view.setOn r.toLoadRect.set ⊆ ((b.slice r hr).squeeze s' hsq).view.set := by
    rw [set_piece, View.set_slice]; exact Finset.Subset.refl _
  iapply (wp_load 𝒱₀ (c : Thread nD τ) none Set.univ (m := b) (r := r.toLoadRect) (hl := hl) (k := k) (q := q) (f := f) hS) $$ H
  iintro H
  have hv : b.view.readAt (Elt F) r.toLoadRect f = fun i => ((b.slice r hr).squeeze s' hsq).view.read (Elt F) f ((Shape.reshapeEquiv hsq.numel_eq).symm i) := by
    funext i; rw [read_piece]; simp only [Equiv.apply_symm_apply]; rfl
  rw [hv]
  iapply Hk
  iapply (holds_intro c ((b.slice r hr).squeeze s' hsq) q f) $$ H

theorem wp_load_piece_any (c : Dev nD) {s : Shape} {e : EltTy} (b : Memref sig .tc .vmem s e) (r : Rect s) (hr : ∀ a, r.stride a = 1) (s' : Shape) (hsq : r.shape.Squeezes s')
    {hl : b.view.LoadsAt r.toLoadRect}
    {α : Type} {Q : α → sProp 𝕄} {k : (r.shape.Idx → Elt F e) → Prog (TpuEff nD τ sig (Elt F) Λ₀ .tc) α} :
    holdsAny c ((b.slice r hr).squeeze s' hsq)
      ⊢ iprop((∀ x, holdsAny c ((b.slice r hr).squeeze s' hsq) -∗ wp frame (wpE (defs₀ (F := F)) 𝒱₀ (c : Thread nD τ) none) Set.univ (k x) Q)
      -∗ wp frame (wpE (defs₀ (F := F)) 𝒱₀ (c : Thread nD τ) none) Set.univ (.op (.load b r.toLoadRect hl) k) Q) := by
  iintro H Hk
  ihave H' := (holdsAny_elim c ((b.slice r hr).squeeze s' hsq)) $$ H
  icases H' with ⟨%f, H⟩
  have hS : b.view.setOn r.toLoadRect.set ⊆ ((b.slice r hr).squeeze s' hsq).view.set := by
    rw [set_piece, View.set_slice]; exact Finset.Subset.refl _
  iapply (wp_load 𝒱₀ (c : Thread nD τ) none Set.univ (m := b) (r := r.toLoadRect) (hl := hl) (k := k) (q := fullShare) (f := f) hS) $$ H
  iintro H
  iapply Hk
  iapply (holdsAny_intro c ((b.slice r hr).squeeze s' hsq) f) $$ H

theorem wp_store_piece (c : Dev nD) {s : Shape} {e : EltTy} (b : Memref sig .tc .vmem s e) (r : Rect s) (hr : ∀ a, r.stride a = 1) (s' : Shape) (hsq : r.shape.Squeezes s')
    {v : r.shape.Idx → Elt F e} {hx : (b.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    holdsAny c ((b.slice r hr).squeeze s' hsq)
      ⊢ iprop((holds c ((b.slice r hr).squeeze s' hsq) fullShare (fun i => v (Shape.reshapeEquiv hsq.numel_eq i)) -∗ wp frame (wpE (defs₀ (F := F)) 𝒱₀ (c : Thread nD τ) none) Set.univ (k ⟨⟩) Q)
      -∗ wp frame (wpE (defs₀ (F := F)) 𝒱₀ (c : Thread nD τ) none) Set.univ (.op (.store b r v Finset.univ hx hm) k) Q) := by
  iintro H Hk
  ihave H' := (holdsAny_elim c ((b.slice r hr).squeeze s' hsq)) $$ H
  icases H' with ⟨%f, H⟩
  have hS : (b.access r).setOn Finset.univ ⊆ ((b.slice r hr).squeeze s' hsq).view.set := by
    rw [set_piece]; exact Finset.Subset.refl _
  iapply (wp_store 𝒱₀ (c : Thread nD τ) none Set.univ (m := b) (r := r) (w := v) (Mk := Finset.univ) (hx := hx) (hm := hm) (k := k) (f := f) hS) $$ H
  iintro H
  iapply Hk
  have hv : (fun i => v (Shape.reshapeEquiv hsq.numel_eq i)) = ((b.slice r hr).squeeze s' hsq).view.read (Elt F) ((b.access r).write (Elt F) f v Finset.univ) := by
    rw [read_piece, View.read_write_univ]
  rw [hv]
  iapply (holds_intro c ((b.slice r hr).squeeze s' hsq) fullShare _) $$ H

-- A slot is the squeezed slice at rows [j, j+1): the three rules for a rectangle apply as they stand.
theorem wp_load_slot (c : Dev nD) (b : Memref sig .tc .vmem S4x128x128 .bf16) (j : Fin 4) {off : Fin 3 → Nat} (hoff : off = ![j.val, 0, 0])
    {inb : ∀ a, off a + S1x128x128.size a ≤ S4x128x128.size a}
    {hl : b.view.LoadsAt (Rect.unit (s := S4x128x128) off S1x128x128.size inb).toLoadRect}
    {α : Type} {Q : α → sProp 𝕄} {k : (S1x128x128.Idx → Elt F .bf16) → Prog (TpuEff nD τ sig (Elt F) Λ₀ .tc) α}
    (q : PosShare TreeShare) (w : S128x128.Idx → Elt F .bf16) :
    holds c (slotJ b j) q w ⊢ iprop((holds c (slotJ b j) q w -∗ wp frame (wpE (defs₀ (F := F)) 𝒱₀ (c : Thread nD τ) none) Set.univ (k (unsq3 w)) Q)
      -∗ wp frame (wpE (defs₀ (F := F)) 𝒱₀ (c : Thread nD τ) none) Set.univ (.op (.load b (Rect.unit (s := S4x128x128) off S1x128x128.size inb).toLoadRect hl) k) Q) := by
  subst hoff
  exact wp_load_piece c _ _ (fun _ => rfl) _ squeezes_S1x128x128_S128x128 q w

theorem wp_load_slot_any (c : Dev nD) (b : Memref sig .tc .vmem S4x128x128 .bf16) (j : Fin 4) {off : Fin 3 → Nat} (hoff : off = ![j.val, 0, 0])
    {inb : ∀ a, off a + S1x128x128.size a ≤ S4x128x128.size a}
    {hl : b.view.LoadsAt (Rect.unit (s := S4x128x128) off S1x128x128.size inb).toLoadRect}
    {α : Type} {Q : α → sProp 𝕄} {k : (S1x128x128.Idx → Elt F .bf16) → Prog (TpuEff nD τ sig (Elt F) Λ₀ .tc) α} :
    holdsAny c (slotJ b j) ⊢ iprop((∀ x, holdsAny c (slotJ b j) -∗ wp frame (wpE (defs₀ (F := F)) 𝒱₀ (c : Thread nD τ) none) Set.univ (k x) Q)
      -∗ wp frame (wpE (defs₀ (F := F)) 𝒱₀ (c : Thread nD τ) none) Set.univ (.op (.load b (Rect.unit (s := S4x128x128) off S1x128x128.size inb).toLoadRect hl) k) Q) := by
  subst hoff
  exact wp_load_piece_any c _ _ (fun _ => rfl) _ squeezes_S1x128x128_S128x128

theorem wp_store_slot (c : Dev nD) (b : Memref sig .tc .vmem S4x128x128 .bf16) (j : Fin 4) {off : Fin 3 → Nat} (hoff : off = ![j.val, 0, 0])
    {inb : ∀ a, off a + S1x128x128.size a ≤ S4x128x128.size a} {v : S1x128x128.Idx → Elt F .bf16}
    {hx : (b.access (Rect.unit (s := S4x128x128) off S1x128x128.size inb)).Stores Finset.univ}
    {hm : (Finset.univ : Finset (Rect.unit (s := S4x128x128) off S1x128x128.size inb).shape.Idx) = Finset.univ ∨ ∀ a, (Rect.unit (s := S4x128x128) off S1x128x128.size inb).stride a = 1}
    {α : Type} {Q : α → sProp 𝕄} {k : PUnit → Prog (TpuEff nD τ sig (Elt F) Λ₀ .tc) α} :
    holdsAny c (slotJ b j) ⊢ iprop((holds c (slotJ b j) fullShare (sq3 v) -∗ wp frame (wpE (defs₀ (F := F)) 𝒱₀ (c : Thread nD τ) none) Set.univ (k ⟨⟩) Q)
      -∗ wp frame (wpE (defs₀ (F := F)) 𝒱₀ (c : Thread nD τ) none) Set.univ (.op (.store b (Rect.unit (s := S4x128x128) off S1x128x128.size inb) v Finset.univ hx hm) k) Q) := by
  subst hoff
  exact wp_store_piece c _ _ (fun _ => rfl) _ squeezes_S1x128x128_S128x128

theorem wp_load_wslice (c : Dev nD) (s : Fin 2) (k' : Fin 3) {off : Fin 4 → Nat} (hoff : off = ![s.val, k'.val, 0, 0])
    {inb : ∀ a, off a + S1x1x128x256.size a ≤ S2x3x128x256.size a}
    {hl : (winsM).view.LoadsAt (Rect.unit (s := S2x3x128x256) off S1x1x128x256.size inb).toLoadRect}
    {α : Type} {Q : α → sProp 𝕄} {k : (S1x1x128x256.Idx → Elt F .bf16) → Prog (TpuEff nD τ sig (Elt F) Λ₀ .tc) α}
    (q : PosShare TreeShare) (w : S128x256.Idx → Elt F .bf16) :
    holds c (winsJ s k') q w ⊢ iprop((holds c (winsJ s k') q w -∗ wp frame (wpE (defs₀ (F := F)) 𝒱₀ (c : Thread nD τ) none) Set.univ (k (unsqW w)) Q)
      -∗ wp frame (wpE (defs₀ (F := F)) 𝒱₀ (c : Thread nD τ) none) Set.univ (.op (.load winsM (Rect.unit (s := S2x3x128x256) off S1x1x128x256.size inb).toLoadRect hl) k) Q) := by
  subst hoff
  exact wp_load_piece c _ _ (fun _ => rfl) _ squeezes_S1x1x128x256_S128x256 q w

theorem wp_load_wslice_any (c : Dev nD) (s : Fin 2) (k' : Fin 3) {off : Fin 4 → Nat} (hoff : off = ![s.val, k'.val, 0, 0])
    {inb : ∀ a, off a + S1x1x128x256.size a ≤ S2x3x128x256.size a}
    {hl : (winsM).view.LoadsAt (Rect.unit (s := S2x3x128x256) off S1x1x128x256.size inb).toLoadRect}
    {α : Type} {Q : α → sProp 𝕄} {k : (S1x1x128x256.Idx → Elt F .bf16) → Prog (TpuEff nD τ sig (Elt F) Λ₀ .tc) α} :
    holdsAny c (winsJ s k') ⊢ iprop((∀ x, holdsAny c (winsJ s k') -∗ wp frame (wpE (defs₀ (F := F)) 𝒱₀ (c : Thread nD τ) none) Set.univ (k x) Q)
      -∗ wp frame (wpE (defs₀ (F := F)) 𝒱₀ (c : Thread nD τ) none) Set.univ (.op (.load winsM (Rect.unit (s := S2x3x128x256) off S1x1x128x256.size inb).toLoadRect hl) k) Q) := by
  subst hoff
  exact wp_load_piece_any c _ _ (fun _ => rfl) _ squeezes_S1x1x128x256_S128x256

theorem wp_store_wslice (c : Dev nD) (s : Fin 2) (k' : Fin 3) {off : Fin 4 → Nat} (hoff : off = ![s.val, k'.val, 0, 0])
    {inb : ∀ a, off a + S1x1x128x256.size a ≤ S2x3x128x256.size a} {v : S1x1x128x256.Idx → Elt F .bf16}
    {hx : (winsM.access (Rect.unit (s := S2x3x128x256) off S1x1x128x256.size inb)).Stores Finset.univ}
    {hm : (Finset.univ : Finset (Rect.unit (s := S2x3x128x256) off S1x1x128x256.size inb).shape.Idx) = Finset.univ ∨ ∀ a, (Rect.unit (s := S2x3x128x256) off S1x1x128x256.size inb).stride a = 1}
    {α : Type} {Q : α → sProp 𝕄} {k : PUnit → Prog (TpuEff nD τ sig (Elt F) Λ₀ .tc) α} :
    holdsAny c (winsJ s k') ⊢ iprop((holds c (winsJ s k') fullShare (sqW v) -∗ wp frame (wpE (defs₀ (F := F)) 𝒱₀ (c : Thread nD τ) none) Set.univ (k ⟨⟩) Q)
      -∗ wp frame (wpE (defs₀ (F := F)) 𝒱₀ (c : Thread nD τ) none) Set.univ (.op (.store winsM (Rect.unit (s := S2x3x128x256) off S1x1x128x256.size inb) v Finset.univ hx hm) k) Q) := by
  subst hoff
  exact wp_store_piece c _ _ (fun _ => rfl) _ squeezes_S1x1x128x256_S128x256

theorem wp_load_oslice (c : Dev nD) (s : Fin 2) (k' : Fin 3) {off : Fin 4 → Nat} (hoff : off = ![s.val, k'.val, 0, 0])
    {inb : ∀ a, off a + S1x1x256x128.size a ≤ S2x3x256x128.size a}
    {hl : (woutsM).view.LoadsAt (Rect.unit (s := S2x3x256x128) off S1x1x256x128.size inb).toLoadRect}
    {α : Type} {Q : α → sProp 𝕄} {k : (S1x1x256x128.Idx → Elt F .bf16) → Prog (TpuEff nD τ sig (Elt F) Λ₀ .tc) α}
    (q : PosShare TreeShare) (w : S256x128.Idx → Elt F .bf16) :
    holds c (woutsJ s k') q w ⊢ iprop((holds c (woutsJ s k') q w -∗ wp frame (wpE (defs₀ (F := F)) 𝒱₀ (c : Thread nD τ) none) Set.univ (k (unsqO w)) Q)
      -∗ wp frame (wpE (defs₀ (F := F)) 𝒱₀ (c : Thread nD τ) none) Set.univ (.op (.load woutsM (Rect.unit (s := S2x3x256x128) off S1x1x256x128.size inb).toLoadRect hl) k) Q) := by
  subst hoff
  exact wp_load_piece c _ _ (fun _ => rfl) _ squeezes_S1x1x256x128_S256x128 q w

theorem wp_load_oslice_any (c : Dev nD) (s : Fin 2) (k' : Fin 3) {off : Fin 4 → Nat} (hoff : off = ![s.val, k'.val, 0, 0])
    {inb : ∀ a, off a + S1x1x256x128.size a ≤ S2x3x256x128.size a}
    {hl : (woutsM).view.LoadsAt (Rect.unit (s := S2x3x256x128) off S1x1x256x128.size inb).toLoadRect}
    {α : Type} {Q : α → sProp 𝕄} {k : (S1x1x256x128.Idx → Elt F .bf16) → Prog (TpuEff nD τ sig (Elt F) Λ₀ .tc) α} :
    holdsAny c (woutsJ s k') ⊢ iprop((∀ x, holdsAny c (woutsJ s k') -∗ wp frame (wpE (defs₀ (F := F)) 𝒱₀ (c : Thread nD τ) none) Set.univ (k x) Q)
      -∗ wp frame (wpE (defs₀ (F := F)) 𝒱₀ (c : Thread nD τ) none) Set.univ (.op (.load woutsM (Rect.unit (s := S2x3x256x128) off S1x1x256x128.size inb).toLoadRect hl) k) Q) := by
  subst hoff
  exact wp_load_piece_any c _ _ (fun _ => rfl) _ squeezes_S1x1x256x128_S256x128

theorem wp_store_oslice (c : Dev nD) (s : Fin 2) (k' : Fin 3) {off : Fin 4 → Nat} (hoff : off = ![s.val, k'.val, 0, 0])
    {inb : ∀ a, off a + S1x1x256x128.size a ≤ S2x3x256x128.size a} {v : S1x1x256x128.Idx → Elt F .bf16}
    {hx : (woutsM.access (Rect.unit (s := S2x3x256x128) off S1x1x256x128.size inb)).Stores Finset.univ}
    {hm : (Finset.univ : Finset (Rect.unit (s := S2x3x256x128) off S1x1x256x128.size inb).shape.Idx) = Finset.univ ∨ ∀ a, (Rect.unit (s := S2x3x256x128) off S1x1x256x128.size inb).stride a = 1}
    {α : Type} {Q : α → sProp 𝕄} {k : PUnit → Prog (TpuEff nD τ sig (Elt F) Λ₀ .tc) α} :
    holdsAny c (woutsJ s k') ⊢ iprop((holds c (woutsJ s k') fullShare (sqO v) -∗ wp frame (wpE (defs₀ (F := F)) 𝒱₀ (c : Thread nD τ) none) Set.univ (k ⟨⟩) Q)
      -∗ wp frame (wpE (defs₀ (F := F)) 𝒱₀ (c : Thread nD τ) none) Set.univ (.op (.store woutsM (Rect.unit (s := S2x3x256x128) off S1x1x256x128.size inb) v Finset.univ hx hm) k) Q) := by
  subst hoff
  exact wp_store_piece c _ _ (fun _ => rfl) _ squeezes_S1x1x256x128_S256x128

section
omit [FloatOps F]

abbrev pc {s s' : Shape} {e : EltTy} (b : Memref sig .tc .vmem s e) {ι : Type} (r : ι → Rect s) (hr : ∀ j a, (r j).stride a = 1)
    (hsq : ∀ j, (r j).shape.Squeezes s') (j : ι) : Memref sig .tc .vmem s' e :=
  (b.slice (r j) (hr j)).squeeze s' (hsq j)

-- Of a sum of existentials one summand names a witness, so the witnesses' type may be taken inhabited.
theorem bigSep_exists_pi₀ {ι Y : Type} [Fintype ι] [DecidableEq ι] (j₀ : ι) (P : ι → Y → sProp 𝕄) :
    bigSep Finset.univ (fun j => iprop(∃ y, P j y)) ⊢ iprop(∃ y : ι → Y, bigSep Finset.univ fun j => P j (y j)) := by
  by_cases hY : Nonempty Y
  · exact bigSep_exists_pi Finset.univ P
  · rw [bigSep_univ_at _ j₀]
    iintro ⟨⟨%y, H⟩, H'⟩
    exact absurd ⟨y⟩ hY

variable {s s' : Shape} {e : EltTy} (c : Dev nD) (b : Memref sig .tc .vmem s e) {ι : Type} [Fintype ι] [DecidableEq ι]
  (r : ι → Rect s) (hr : ∀ j a, (r j).stride a = 1) (hsq : ∀ j, (r j).shape.Squeezes s')
  (hd : ∀ j j', j ≠ j' → Disjoint (r j).set (r j').set) (hc : ∀ x : s.Idx, ∃ j, x ∈ (r j).set)

theorem pc_set (j : ι) : (pc b r hr hsq j).view.set = (r j).set.map b.view.emb :=
  (View.set_reshape _ _).trans (View.set_slice _ _)

include hd in
theorem pc_disjoint (j j' : ι) (h : j ≠ j') : Disjoint (pc b r hr hsq j).view.set (pc b r hr hsq j').view.set := by
  rw [pc_set, pc_set, Finset.disjoint_map]; exact hd j j' h

include hc in
theorem pc_union : (Finset.univ.biUnion fun j => (pc b r hr hsq j).view.set) = b.view.set := by
  refine Finset.Subset.antisymm (Finset.biUnion_subset.mpr fun j _ => ?_) fun i hi => ?_
  · rw [pc_set, ← View.set_slice]; exact View.set_slice_subset _ _
  · obtain ⟨x, -, rfl⟩ := Finset.mem_map.mp hi
    obtain ⟨j, hj⟩ := hc x
    refine Finset.mem_biUnion.mpr ⟨j, Finset.mem_univ _, ?_⟩
    rw [pc_set]; exact Finset.mem_map_of_mem _ hj

variable {S : Finset (Idx (b.view.loc (c : Thread nD τ)))} (hS : b.view.set = S)
include hd hc hS

-- Pairwise disjoint pieces covering the buffer, each at contents of its own: one contents of the buffer agrees with each on its piece.
theorem pts_joinG (q : PosShare TreeShare)
    (fs : ι → Buf (Elt F) (b.view.loc (c : Thread nD τ))) (j₀ : ι) :
    bigSep Finset.univ (fun j => (b.view.loc (c : Thread nD τ) ↦[(pc b r hr hsq j).view.set]{q} fs j : sProp 𝕄))
      ⊢ iprop(∃ g, ⌜∀ j, ∀ i ∈ (pc b r hr hsq j).view.set, g i = fs j i⌝ ∗ (b.view.loc (c : Thread nD τ) ↦[S]{q} g)) := by
  subst hS
  refine (pointsTo_biUnion_join Finset.univ _ fs (fs j₀) fun j _ j' _ h => pc_disjoint b r hr hsq hd j j' h).trans ?_
  rw [pc_union b r hr hsq hc]
  iintro ⟨%g, %hg, H⟩
  iexists g
  isplitr
  · ipureintro; exact fun j => hg j (Finset.mem_univ _)
  · iexact H

theorem uncutG (j₀ : ι) :
    bigSep Finset.univ (fun j => holdsAny (F := F) c (pc b r hr hsq j))
      ⊢ iprop(∃ g : Buf (Elt F) (b.view.loc (c : Thread nD τ)), (b.view.loc (c : Thread nD τ) ↦[S]{fullShare} g)) := by
  refine (bigSep_exists_pi₀ j₀ fun j f => (b.view.loc (c : Thread nD τ) ↦[(pc b r hr hsq j).view.set]{fullShare} f : sProp 𝕄)).trans ?_
  iintro ⟨%fs, H⟩
  ihave HJ := (pts_joinG c b r hr hsq hd hc hS fullShare fs j₀) $$ H
  icases HJ with ⟨%g, -, H⟩
  iexists g
  iexact H

theorem joinG (j₀ : ι) (q : PosShare TreeShare) (w : ι → s'.Idx → Elt F e) :
    bigSep Finset.univ (fun j => holds (F := F) c (pc b r hr hsq j) q (w j))
      ⊢ iprop(∃ g : Buf (Elt F) (b.view.loc (c : Thread nD τ)), ⌜∀ j, (pc b r hr hsq j).view.read (Elt F) g = w j⌝ ∗ (b.view.loc (c : Thread nD τ) ↦[S]{q} g)) := by
  refine (bigSep_exists_pi₀ j₀ fun j (f : Buf (Elt F) (b.view.loc (c : Thread nD τ))) => (iprop(⌜(pc b r hr hsq j).view.read (Elt F) f = w j⌝
    ∗ (b.view.loc (c : Thread nD τ) ↦[(pc b r hr hsq j).view.set]{q} f)) : sProp 𝕄)).trans ?_
  iintro ⟨%fs, H⟩
  ihave H' := (bigSep_pure_sep Finset.univ _ _) $$ H
  icases H' with ⟨%hw, H⟩
  ihave HJ := (pts_joinG c b r hr hsq hd hc hS q fs j₀) $$ H
  icases HJ with ⟨%g, %hg, H⟩
  iexists g
  isplitr
  · ipureintro; exact fun j => (View.read_congr (hg j)).trans (hw j (Finset.mem_univ _))
  · iexact H

theorem splitG (q : PosShare TreeShare)
    (g : Buf (Elt F) (b.view.loc (c : Thread nD τ))) (w : ι → s'.Idx → Elt F e) (hw : ∀ j, (pc b r hr hsq j).view.read (Elt F) g = w j) :
    (b.view.loc (c : Thread nD τ) ↦[S]{q} g : sProp 𝕄) ⊢ bigSep Finset.univ (fun j => holds (F := F) c (pc b r hr hsq j) q (w j)) := by
  subst hS
  rw [← pc_union b r hr hsq hc, pointsTo_biUnion _ _ fun j _ j' _ h => pc_disjoint b r hr hsq hd j j' h]
  exact bigSep_mono fun j _ => (holds_intro c (pc b r hr hsq j) q g).trans (Entails.of_eq (congrArg (holds (F := F) c (pc b r hr hsq j) q) (hw j)))

theorem cutG :
    iprop(∃ g : Buf (Elt F) (b.view.loc (c : Thread nD τ)), (b.view.loc (c : Thread nD τ) ↦[S]{fullShare} g))
      ⊢ bigSep Finset.univ (fun j => holdsAny (F := F) c (pc b r hr hsq j)) := by
  iintro ⟨%g, H⟩
  iapply ((splitG c b r hr hsq hd hc hS fullShare g _ fun _ => rfl).trans (bigSep_mono fun j _ => holds_any c (pc b r hr hsq j) _)) $$ H

end

section
omit [FloatOps F]

theorem hl_bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_six (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

abbrev r4 (j : Fin 4) : Rect S4x128x128 := Rect.unit ![j.val, 0, 0] S1x128x128.size (inb4 j)

theorem r4_disjoint (j j' : Fin 4) (h : j ≠ j') : Disjoint (r4 j).set (r4 j').set := by
  refine Rect.unit_disjoint (0 : Fin 3) ?_
  have hv : j.val ≠ j'.val := Fin.val_ne_of_ne h
  show j.val + 1 ≤ j'.val ∨ j'.val + 1 ≤ j.val
  omega

theorem r4_cover (x : S4x128x128.Idx) : ∃ j, x ∈ (r4 j).set := by
  refine ⟨x 0, Rect.mem_set_unit.mpr fun a => ?_⟩
  have h1 : (x 1).val < 128 := (x 1).isLt
  have h2 : (x 2).val < 128 := (x 2).isLt
  match a with
  | ⟨0, _⟩ => exact ⟨Nat.le_refl _, Nat.lt_succ_self _⟩
  | ⟨1, _⟩ => exact ⟨Nat.zero_le _, by show (x 1).val < 0 + 128; omega⟩
  | ⟨2, _⟩ => exact ⟨Nat.zero_le _, by show (x 2).val < 0 + 128; omega⟩

-- The six unit rectangles (stage, layer) of a [2, 3, n2, n3] buffer, whatever the trailing extents.
abbrev r6 {n2 n3 : ℕ} (inb : ∀ (s : Fin 2) (k : Fin 3) a, (![s.val, k.val, 0, 0] : Fin 4 → ℕ) a + (![1, 1, n2, n3] : Fin 4 → ℕ) a ≤ (⟨4, ![2, 3, n2, n3]⟩ : Shape).size a)
    (p : Fin 2 × Fin 3) : Rect ⟨4, ![2, 3, n2, n3]⟩ :=
  Rect.unit ![p.1.val, p.2.val, 0, 0] ![1, 1, n2, n3] (inb p.1 p.2)

theorem r6_disjoint {n2 n3 : ℕ} (inb) (p p' : Fin 2 × Fin 3) (h : p ≠ p') : Disjoint (r6 (n2 := n2) (n3 := n3) inb p).set (r6 inb p').set := by
  by_cases h1 : p.1 = p'.1
  · have h2 : p.2.val ≠ p'.2.val := fun e => h (Prod.ext h1 (Fin.ext e))
    refine Rect.unit_disjoint (1 : Fin 4) ?_
    show p.2.val + 1 ≤ p'.2.val ∨ p'.2.val + 1 ≤ p.2.val
    omega
  · have h2 : p.1.val ≠ p'.1.val := fun e => h1 (Fin.ext e)
    refine Rect.unit_disjoint (0 : Fin 4) ?_
    show p.1.val + 1 ≤ p'.1.val ∨ p'.1.val + 1 ≤ p.1.val
    omega

theorem r6_cover {n2 n3 : ℕ} (inb) (x : Shape.Idx ⟨4, ![2, 3, n2, n3]⟩) : ∃ p, x ∈ (r6 (n2 := n2) (n3 := n3) inb p).set := by
  refine ⟨(x 0, x 1), Rect.mem_set_unit.mpr fun a => ?_⟩
  have h2 : (x 2).val < n2 := (x 2).isLt
  have h3 : (x 3).val < n3 := (x 3).isLt
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (x 2).val < 0 + n2; omega⟩
  | ⟨3, _⟩ => exact ⟨Nat.zero_le _, by show (x 3).val < 0 + n3; omega⟩

theorem slot_emb_ix3 (j : Fin 4) (x : Fin 128) (y : Fin 128) :
    (Rect.unit (s := S4x128x128) ![j.val, 0, 0] S1x128x128.size (inb4 j)).emb (ValueIdx.ix3 (⟨0, Nat.one_pos⟩ : Fin 1) x y)
      = (ValueIdx.ix3 j x y : S4x128x128.Idx) := by
  funext a; apply Fin.ext
  rw [Rect.emb_apply]
  match a with
  | ⟨0, _⟩ => show j.val + 1 * 0 = j.val; omega
  | ⟨1, _⟩ => show 0 + 1 * x.val = x.val; omega
  | ⟨2, _⟩ => show 0 + 1 * y.val = y.val; omega

theorem slot_emb_at (i : S4x128x128.Idx) :
    (Rect.unit (s := S4x128x128) ![(i 0).val, 0, 0] S1x128x128.size (inb4 (i 0))).emb
      (Shape.reshapeEquiv squeezes_S1x128x128_S128x128.numel_eq (ValueIdx.ix2 (i 1) (i 2))) = i := by
  have h := ValueIdx.reshapeEquiv_ix2_1ab (a := 128) (b := 128) squeezes_S1x128x128_S128x128.numel_eq (i 1) (i 2)
  rw [h]
  exact (slot_emb_ix3 (i 0) (i 1) (i 2)).trans (ValueIdx.eq_ix3 i).symm

theorem unit_zero_emb {s : Shape} {off : Fin s.rank → Nat} (h : off = fun _ => 0) (inb : ∀ a, off a + s.size a ≤ s.size a)
    (y : (Rect.unit (s := s) off s.size inb).shape.Idx) : (Rect.unit (s := s) off s.size inb).emb y = y := by
  subst h; exact Rect.emb_whole_apply s y

theorem hz3 : (![0, 0, 0] : Fin 3 → Nat) = fun _ => 0 := funext fun a => by fin_cases a <;> rfl

theorem read_whole4 (b : Memref sig .tc .vmem S4x128x128 .bf16) {off : Fin 3 → Nat} (hoff : off = ![0, 0, 0])
    (inb : ∀ a, off a + S4x128x128.size a ≤ S4x128x128.size a) (g : b.view.ty.Contents (Elt F)) :
    b.view.readAt (Elt F) (Rect.unit (s := S4x128x128) off S4x128x128.size inb).toLoadRect g
      = asm4 (fun j => (slotJ b j).view.read (Elt F) g) := by
  subst hoff
  funext i
  show b.view.read (Elt F) g ((Rect.unit (s := S4x128x128) ![0, 0, 0] S4x128x128.size inb).emb i)
    = b.view.read (Elt F) g ((Rect.unit (s := S4x128x128) ![(i 0).val, 0, 0] S1x128x128.size (inb4 (i 0))).emb
        (Shape.reshapeEquiv squeezes_S1x128x128_S128x128.numel_eq (ValueIdx.ix2 (i 1) (i 2))))
  rw [slot_emb_at, unit_zero_emb hz3]

theorem read_slot_write_whole (b : Memref sig .tc .vmem S4x128x128 .bf16) (j : Fin 4) {off : Fin 3 → Nat} (hoff : off = ![0, 0, 0])
    (inb : ∀ a, off a + S4x128x128.size a ≤ S4x128x128.size a) (g : b.view.ty.Contents (Elt F)) (v : S4x128x128.Idx → Elt F .bf16) :
    (slotJ b j).view.read (Elt F) ((b.access (Rect.unit (s := S4x128x128) off S4x128x128.size inb)).write (Elt F) g v Finset.univ) = sl4 v j := by
  subst hoff
  funext x
  have h := View.read_slice_write_emb (v := b.view) (Rect.unit (s := S4x128x128) ![0, 0, 0] S4x128x128.size inb) g v (M := Finset.univ)
    (x := (Rect.unit (s := S4x128x128) ![j.val, 0, 0] S1x128x128.size (inb4 j)).emb (Shape.reshapeEquiv squeezes_S1x128x128_S128x128.numel_eq x)) (Finset.mem_univ _)
  rw [unit_zero_emb hz3] at h
  exact h

theorem cut4 (c : Dev nD) (b : Memref sig .tc .vmem S4x128x128 .bf16) {S : Finset (Idx (b.view.loc (c : Thread nD τ)))} (hS : b.view.set = S) :
    iprop(∃ g : Buf (Elt F) (b.view.loc (c : Thread nD τ)), (b.view.loc (c : Thread nD τ) ↦[S]{fullShare} g))
      ⊢ iprop(holdsAny (F := F) c (slotJ b 0) ∗ holdsAny (F := F) c (slotJ b 1) ∗ holdsAny (F := F) c (slotJ b 2) ∗ holdsAny (F := F) c (slotJ b 3)) :=
  (cutG c b r4 (fun _ _ => rfl) (fun _ => squeezes_S1x128x128_S128x128) r4_disjoint r4_cover hS).trans (Entails.of_eq (hl_bigSep_fin4 _))

theorem uncut4 (c : Dev nD) (b : Memref sig .tc .vmem S4x128x128 .bf16) {S : Finset (Idx (b.view.loc (c : Thread nD τ)))} (hS : b.view.set = S) :
    iprop(holdsAny (F := F) c (slotJ b 0) ∗ holdsAny (F := F) c (slotJ b 1) ∗ holdsAny (F := F) c (slotJ b 2) ∗ holdsAny (F := F) c (slotJ b 3))
      ⊢ iprop(∃ g : Buf (Elt F) (b.view.loc (c : Thread nD τ)), (b.view.loc (c : Thread nD τ) ↦[S]{fullShare} g)) :=
  (Entails.of_eq (hl_bigSep_fin4 fun j => holdsAny (F := F) c (slotJ b j)).symm).trans (uncutG c b r4 (fun _ _ => rfl) (fun _ => squeezes_S1x128x128_S128x128) r4_disjoint r4_cover hS 0)

end

theorem wp_load_whole4 (c : Dev nD) (b : Memref sig .tc .vmem S4x128x128 .bf16) {off : Fin 3 → Nat} (hoff : off = ![0, 0, 0])
    {inb : ∀ a, off a + S4x128x128.size a ≤ S4x128x128.size a}
    {hl : b.view.LoadsAt (Rect.unit (s := S4x128x128) off S4x128x128.size inb).toLoadRect}
    {α : Type} {Q : α → sProp 𝕄} {k : (S4x128x128.Idx → Elt F .bf16) → Prog (TpuEff nD τ sig (Elt F) Λ₀ .tc) α}
    (q : PosShare TreeShare) (w : Fin 4 → S128x128.Idx → Elt F .bf16) :
    iprop(holds c (slotJ b 0) q (w 0) ∗ holds c (slotJ b 1) q (w 1) ∗ holds c (slotJ b 2) q (w 2) ∗ holds c (slotJ b 3) q (w 3))
      ⊢ iprop((iprop(holds c (slotJ b 0) q (w 0) ∗ holds c (slotJ b 1) q (w 1) ∗ holds c (slotJ b 2) q (w 2) ∗ holds c (slotJ b 3) q (w 3))
          -∗ wp frame (wpE (defs₀ (F := F)) 𝒱₀ (c : Thread nD τ) none) Set.univ (k (asm4 w)) Q)
        -∗ wp frame (wpE (defs₀ (F := F)) 𝒱₀ (c : Thread nD τ) none) Set.univ (.op (.load b (Rect.unit (s := S4x128x128) off S4x128x128.size inb).toLoadRect hl) k) Q) := by
  rw [← hl_bigSep_fin4 fun j => holds c (slotJ b j) q (w j)]
  iintro H4 Hk
  ihave HJ := (joinG c b r4 (fun _ _ => rfl) (fun _ => squeezes_S1x128x128_S128x128) r4_disjoint r4_cover rfl 0 q w) $$ H4
  icases HJ with ⟨%g, %hg, H⟩
  iapply (wp_load 𝒱₀ (c : Thread nD τ) none Set.univ (m := b) (r := (Rect.unit (s := S4x128x128) off S4x128x128.size inb).toLoadRect) (hl := hl) (k := k) (q := q) (f := g) (View.setOn_subset_set _ _)) $$ H
  iintro H
  have hv : b.view.readAt (Elt F) (Rect.unit (s := S4x128x128) off S4x128x128.size inb).toLoadRect g = asm4 w := by
    rw [read_whole4 b hoff inb g]; exact congrArg asm4 (funext hg)
  rw [hv]
  iapply Hk
  iapply (splitG c b r4 (fun _ _ => rfl) (fun _ => squeezes_S1x128x128_S128x128) r4_disjoint r4_cover rfl q g w hg) $$ H

theorem wp_load_whole4_any (c : Dev nD) (b : Memref sig .tc .vmem S4x128x128 .bf16) {off : Fin 3 → Nat} (hoff : off = ![0, 0, 0])
    {inb : ∀ a, off a + S4x128x128.size a ≤ S4x128x128.size a}
    {hl : b.view.LoadsAt (Rect.unit (s := S4x128x128) off S4x128x128.size inb).toLoadRect}
    {α : Type} {Q : α → sProp 𝕄} {k : (S4x128x128.Idx → Elt F .bf16) → Prog (TpuEff nD τ sig (Elt F) Λ₀ .tc) α} :
    iprop(holdsAny c (slotJ b 0) ∗ holdsAny c (slotJ b 1) ∗ holdsAny c (slotJ b 2) ∗ holdsAny c (slotJ b 3))
      ⊢ iprop((∀ x, iprop(holdsAny c (slotJ b 0) ∗ holdsAny c (slotJ b 1) ∗ holdsAny c (slotJ b 2) ∗ holdsAny c (slotJ b 3)) -∗ wp frame (wpE (defs₀ (F := F)) 𝒱₀ (c : Thread nD τ) none) Set.univ (k x) Q)
        -∗ wp frame (wpE (defs₀ (F := F)) 𝒱₀ (c : Thread nD τ) none) Set.univ (.op (.load b (Rect.unit (s := S4x128x128) off S4x128x128.size inb).toLoadRect hl) k) Q) := by
  iintro H4 Hk
  ihave HU := (uncut4 c b rfl) $$ H4
  icases HU with ⟨%g, H⟩
  iapply (wp_load 𝒱₀ (c : Thread nD τ) none Set.univ (m := b) (r := (Rect.unit (s := S4x128x128) off S4x128x128.size inb).toLoadRect) (hl := hl) (k := k) (q := fullShare) (f := g) (View.setOn_subset_set _ _)) $$ H
  iintro H
  iapply Hk
  iapply (cut4 c b rfl)
  iexists g
  iexact H

theorem wp_store_whole4 (c : Dev nD) (b : Memref sig .tc .vmem S4x128x128 .bf16) {off : Fin 3 → Nat} (hoff : off = ![0, 0, 0])
    {inb : ∀ a, off a + S4x128x128.size a ≤ S4x128x128.size a} {v : S4x128x128.Idx → Elt F .bf16}
    {hx : (b.access (Rect.unit (s := S4x128x128) off S4x128x128.size inb)).Stores Finset.univ}
    {hm : (Finset.univ : Finset (Rect.unit (s := S4x128x128) off S4x128x128.size inb).shape.Idx) = Finset.univ ∨ ∀ a, (Rect.unit (s := S4x128x128) off S4x128x128.size inb).stride a = 1}
    {α : Type} {Q : α → sProp 𝕄} {k : PUnit → Prog (TpuEff nD τ sig (Elt F) Λ₀ .tc) α} :
    iprop(holdsAny c (slotJ b 0) ∗ holdsAny c (slotJ b 1) ∗ holdsAny c (slotJ b 2) ∗ holdsAny c (slotJ b 3))
      ⊢ iprop((iprop(holds c (slotJ b 0) fullShare (sl4 v 0) ∗ holds c (slotJ b 1) fullShare (sl4 v 1) ∗ holds c (slotJ b 2) fullShare (sl4 v 2) ∗ holds c (slotJ b 3) fullShare (sl4 v 3))
          -∗ wp frame (wpE (defs₀ (F := F)) 𝒱₀ (c : Thread nD τ) none) Set.univ (k ⟨⟩) Q)
        -∗ wp frame (wpE (defs₀ (F := F)) 𝒱₀ (c : Thread nD τ) none) Set.univ (.op (.store b (Rect.unit (s := S4x128x128) off S4x128x128.size inb) v Finset.univ hx hm) k) Q) := by
  rw [← hl_bigSep_fin4 fun j => holds c (slotJ b j) fullShare (sl4 v j)]
  iintro H4 Hk
  ihave HU := (uncut4 c b rfl) $$ H4
  icases HU with ⟨%g, H⟩
  iapply (wp_store 𝒱₀ (c : Thread nD τ) none Set.univ (m := b) (r := Rect.unit (s := S4x128x128) off S4x128x128.size inb) (w := v) (Mk := Finset.univ) (hx := hx) (hm := hm) (k := k) (f := g) (View.set_slice_subset _ _)) $$ H
  iintro H
  iapply Hk
  iapply (splitG c b r4 (fun _ _ => rfl) (fun _ => squeezes_S1x128x128_S128x128) r4_disjoint r4_cover rfl fullShare _ (sl4 v) fun j => read_slot_write_whole b j hoff inb g v) $$ H

section
omit [FloatOps F]

theorem cut4_scratch2 (c : Dev nD) :
    iprop(∃ f : Buf (Elt F) ((c : Thread nD τ).loc cc0_scratch2), (((c : Thread nD τ).loc cc0_scratch2) ↦{fullShare} f))
      ⊢ iprop(holdsAny (F := F) c (slotJ (Memref.whole cc0_scratch2 : Memref sig .tc .vmem S4x128x128 .bf16) 0) ∗ holdsAny (F := F) c (slotJ (Memref.whole cc0_scratch2 : Memref sig .tc .vmem S4x128x128 .bf16) 1) ∗ holdsAny (F := F) c (slotJ (Memref.whole cc0_scratch2 : Memref sig .tc .vmem S4x128x128 .bf16) 2) ∗ holdsAny (F := F) c (slotJ (Memref.whole cc0_scratch2 : Memref sig .tc .vmem S4x128x128 .bf16) 3)) :=
  cut4 c (Memref.whole cc0_scratch2) (View.set_whole _)

theorem uncut4_scratch2 (c : Dev nD) :
    iprop(holdsAny (F := F) c (slotJ (Memref.whole cc0_scratch2 : Memref sig .tc .vmem S4x128x128 .bf16) 0) ∗ holdsAny (F := F) c (slotJ (Memref.whole cc0_scratch2 : Memref sig .tc .vmem S4x128x128 .bf16) 1) ∗ holdsAny (F := F) c (slotJ (Memref.whole cc0_scratch2 : Memref sig .tc .vmem S4x128x128 .bf16) 2) ∗ holdsAny (F := F) c (slotJ (Memref.whole cc0_scratch2 : Memref sig .tc .vmem S4x128x128 .bf16) 3))
      ⊢ iprop(∃ f : Buf (Elt F) ((c : Thread nD τ).loc cc0_scratch2), (((c : Thread nD τ).loc cc0_scratch2) ↦{fullShare} f)) :=
  uncut4 c (Memref.whole cc0_scratch2) (View.set_whole _)

theorem cut4_scratch3 (c : Dev nD) :
    iprop(∃ f : Buf (Elt F) ((c : Thread nD τ).loc cc0_scratch3), (((c : Thread nD τ).loc cc0_scratch3) ↦{fullShare} f))
      ⊢ iprop(holdsAny (F := F) c (slotJ (Memref.whole cc0_scratch3 : Memref sig .tc .vmem S4x128x128 .bf16) 0) ∗ holdsAny (F := F) c (slotJ (Memref.whole cc0_scratch3 : Memref sig .tc .vmem S4x128x128 .bf16) 1) ∗ holdsAny (F := F) c (slotJ (Memref.whole cc0_scratch3 : Memref sig .tc .vmem S4x128x128 .bf16) 2) ∗ holdsAny (F := F) c (slotJ (Memref.whole cc0_scratch3 : Memref sig .tc .vmem S4x128x128 .bf16) 3)) :=
  cut4 c (Memref.whole cc0_scratch3) (View.set_whole _)

theorem uncut4_scratch3 (c : Dev nD) :
    iprop(holdsAny (F := F) c (slotJ (Memref.whole cc0_scratch3 : Memref sig .tc .vmem S4x128x128 .bf16) 0) ∗ holdsAny (F := F) c (slotJ (Memref.whole cc0_scratch3 : Memref sig .tc .vmem S4x128x128 .bf16) 1) ∗ holdsAny (F := F) c (slotJ (Memref.whole cc0_scratch3 : Memref sig .tc .vmem S4x128x128 .bf16) 2) ∗ holdsAny (F := F) c (slotJ (Memref.whole cc0_scratch3 : Memref sig .tc .vmem S4x128x128 .bf16) 3))
      ⊢ iprop(∃ f : Buf (Elt F) ((c : Thread nD τ).loc cc0_scratch3), (((c : Thread nD τ).loc cc0_scratch3) ↦{fullShare} f)) :=
  uncut4 c (Memref.whole cc0_scratch3) (View.set_whole _)

theorem cut4_scratch4 (c : Dev nD) :
    iprop(∃ f : Buf (Elt F) ((c : Thread nD τ).loc cc0_scratch4), (((c : Thread nD τ).loc cc0_scratch4) ↦{fullShare} f))
      ⊢ iprop(holdsAny (F := F) c (slotJ (Memref.whole cc0_scratch4 : Memref sig .tc .vmem S4x128x128 .bf16) 0) ∗ holdsAny (F := F) c (slotJ (Memref.whole cc0_scratch4 : Memref sig .tc .vmem S4x128x128 .bf16) 1) ∗ holdsAny (F := F) c (slotJ (Memref.whole cc0_scratch4 : Memref sig .tc .vmem S4x128x128 .bf16) 2) ∗ holdsAny (F := F) c (slotJ (Memref.whole cc0_scratch4 : Memref sig .tc .vmem S4x128x128 .bf16) 3)) :=
  cut4 c (Memref.whole cc0_scratch4) (View.set_whole _)

theorem uncut4_scratch4 (c : Dev nD) :
    iprop(holdsAny (F := F) c (slotJ (Memref.whole cc0_scratch4 : Memref sig .tc .vmem S4x128x128 .bf16) 0) ∗ holdsAny (F := F) c (slotJ (Memref.whole cc0_scratch4 : Memref sig .tc .vmem S4x128x128 .bf16) 1) ∗ holdsAny (F := F) c (slotJ (Memref.whole cc0_scratch4 : Memref sig .tc .vmem S4x128x128 .bf16) 2) ∗ holdsAny (F := F) c (slotJ (Memref.whole cc0_scratch4 : Memref sig .tc .vmem S4x128x128 .bf16) 3))
      ⊢ iprop(∃ f : Buf (Elt F) ((c : Thread nD τ).loc cc0_scratch4), (((c : Thread nD τ).loc cc0_scratch4) ↦{fullShare} f)) :=
  uncut4 c (Memref.whole cc0_scratch4) (View.set_whole _)

theorem cut4_scratch5 (c : Dev nD) :
    iprop(∃ f : Buf (Elt F) ((c : Thread nD τ).loc cc0_scratch5), (((c : Thread nD τ).loc cc0_scratch5) ↦{fullShare} f))
      ⊢ iprop(holdsAny (F := F) c (slotJ (Memref.whole cc0_scratch5 : Memref sig .tc .vmem S4x128x128 .bf16) 0) ∗ holdsAny (F := F) c (slotJ (Memref.whole cc0_scratch5 : Memref sig .tc .vmem S4x128x128 .bf16) 1) ∗ holdsAny (F := F) c (slotJ (Memref.whole cc0_scratch5 : Memref sig .tc .vmem S4x128x128 .bf16) 2) ∗ holdsAny (F := F) c (slotJ (Memref.whole cc0_scratch5 : Memref sig .tc .vmem S4x128x128 .bf16) 3)) :=
  cut4 c (Memref.whole cc0_scratch5) (View.set_whole _)

theorem uncut4_scratch5 (c : Dev nD) :
    iprop(holdsAny (F := F) c (slotJ (Memref.whole cc0_scratch5 : Memref sig .tc .vmem S4x128x128 .bf16) 0) ∗ holdsAny (F := F) c (slotJ (Memref.whole cc0_scratch5 : Memref sig .tc .vmem S4x128x128 .bf16) 1) ∗ holdsAny (F := F) c (slotJ (Memref.whole cc0_scratch5 : Memref sig .tc .vmem S4x128x128 .bf16) 2) ∗ holdsAny (F := F) c (slotJ (Memref.whole cc0_scratch5 : Memref sig .tc .vmem S4x128x128 .bf16) 3))
      ⊢ iprop(∃ f : Buf (Elt F) ((c : Thread nD τ).loc cc0_scratch5), (((c : Thread nD τ).loc cc0_scratch5) ↦{fullShare} f)) :=
  uncut4 c (Memref.whole cc0_scratch5) (View.set_whole _)

theorem cut4_scratch6 (c : Dev nD) :
    iprop(∃ f : Buf (Elt F) ((c : Thread nD τ).loc cc0_scratch6), (((c : Thread nD τ).loc cc0_scratch6) ↦{fullShare} f))
      ⊢ iprop(holdsAny (F := F) c (slotJ (Memref.whole cc0_scratch6 : Memref sig .tc .vmem S4x128x128 .bf16) 0) ∗ holdsAny (F := F) c (slotJ (Memref.whole cc0_scratch6 : Memref sig .tc .vmem S4x128x128 .bf16) 1) ∗ holdsAny (F := F) c (slotJ (Memref.whole cc0_scratch6 : Memref sig .tc .vmem S4x128x128 .bf16) 2) ∗ holdsAny (F := F) c (slotJ (Memref.whole cc0_scratch6 : Memref sig .tc .vmem S4x128x128 .bf16) 3)) :=
  cut4 c (Memref.whole cc0_scratch6) (View.set_whole _)

theorem uncut4_scratch6 (c : Dev nD) :
    iprop(holdsAny (F := F) c (slotJ (Memref.whole cc0_scratch6 : Memref sig .tc .vmem S4x128x128 .bf16) 0) ∗ holdsAny (F := F) c (slotJ (Memref.whole cc0_scratch6 : Memref sig .tc .vmem S4x128x128 .bf16) 1) ∗ holdsAny (F := F) c (slotJ (Memref.whole cc0_scratch6 : Memref sig .tc .vmem S4x128x128 .bf16) 2) ∗ holdsAny (F := F) c (slotJ (Memref.whole cc0_scratch6 : Memref sig .tc .vmem S4x128x128 .bf16) 3))
      ⊢ iprop(∃ f : Buf (Elt F) ((c : Thread nD τ).loc cc0_scratch6), (((c : Thread nD τ).loc cc0_scratch6) ↦{fullShare} f)) :=
  uncut4 c (Memref.whole cc0_scratch6) (View.set_whole _)

theorem cut4_scratch7 (c : Dev nD) :
    iprop(∃ f : Buf (Elt F) ((c : Thread nD τ).loc cc0_scratch7), (((c : Thread nD τ).loc cc0_scratch7) ↦{fullShare} f))
      ⊢ iprop(holdsAny (F := F) c (slotJ (Memref.whole cc0_scratch7 : Memref sig .tc .vmem S4x128x128 .bf16) 0) ∗ holdsAny (F := F) c (slotJ (Memref.whole cc0_scratch7 : Memref sig .tc .vmem S4x128x128 .bf16) 1) ∗ holdsAny (F := F) c (slotJ (Memref.whole cc0_scratch7 : Memref sig .tc .vmem S4x128x128 .bf16) 2) ∗ holdsAny (F := F) c (slotJ (Memref.whole cc0_scratch7 : Memref sig .tc .vmem S4x128x128 .bf16) 3)) :=
  cut4 c (Memref.whole cc0_scratch7) (View.set_whole _)

theorem uncut4_scratch7 (c : Dev nD) :
    iprop(holdsAny (F := F) c (slotJ (Memref.whole cc0_scratch7 : Memref sig .tc .vmem S4x128x128 .bf16) 0) ∗ holdsAny (F := F) c (slotJ (Memref.whole cc0_scratch7 : Memref sig .tc .vmem S4x128x128 .bf16) 1) ∗ holdsAny (F := F) c (slotJ (Memref.whole cc0_scratch7 : Memref sig .tc .vmem S4x128x128 .bf16) 2) ∗ holdsAny (F := F) c (slotJ (Memref.whole cc0_scratch7 : Memref sig .tc .vmem S4x128x128 .bf16) 3))
      ⊢ iprop(∃ f : Buf (Elt F) ((c : Thread nD τ).loc cc0_scratch7), (((c : Thread nD τ).loc cc0_scratch7) ↦{fullShare} f)) :=
  uncut4 c (Memref.whole cc0_scratch7) (View.set_whole _)

theorem cut4_scratch8 (c : Dev nD) :
    iprop(∃ f : Buf (Elt F) ((c : Thread nD τ).loc cc0_scratch8), (((c : Thread nD τ).loc cc0_scratch8) ↦{fullShare} f))
      ⊢ iprop(holdsAny (F := F) c (slotJ (Memref.whole cc0_scratch8 : Memref sig .tc .vmem S4x128x128 .bf16) 0) ∗ holdsAny (F := F) c (slotJ (Memref.whole cc0_scratch8 : Memref sig .tc .vmem S4x128x128 .bf16) 1) ∗ holdsAny (F := F) c (slotJ (Memref.whole cc0_scratch8 : Memref sig .tc .vmem S4x128x128 .bf16) 2) ∗ holdsAny (F := F) c (slotJ (Memref.whole cc0_scratch8 : Memref sig .tc .vmem S4x128x128 .bf16) 3)) :=
  cut4 c (Memref.whole cc0_scratch8) (View.set_whole _)

theorem uncut4_scratch8 (c : Dev nD) :
    iprop(holdsAny (F := F) c (slotJ (Memref.whole cc0_scratch8 : Memref sig .tc .vmem S4x128x128 .bf16) 0) ∗ holdsAny (F := F) c (slotJ (Memref.whole cc0_scratch8 : Memref sig .tc .vmem S4x128x128 .bf16) 1) ∗ holdsAny (F := F) c (slotJ (Memref.whole cc0_scratch8 : Memref sig .tc .vmem S4x128x128 .bf16) 2) ∗ holdsAny (F := F) c (slotJ (Memref.whole cc0_scratch8 : Memref sig .tc .vmem S4x128x128 .bf16) 3))
      ⊢ iprop(∃ f : Buf (Elt F) ((c : Thread nD τ).loc cc0_scratch8), (((c : Thread nD τ).loc cc0_scratch8) ↦{fullShare} f)) :=
  uncut4 c (Memref.whole cc0_scratch8) (View.set_whole _)

theorem cut4_scratch9 (c : Dev nD) :
    iprop(∃ f : Buf (Elt F) ((c : Thread nD τ).loc cc0_scratch9), (((c : Thread nD τ).loc cc0_scratch9) ↦{fullShare} f))
      ⊢ iprop(holdsAny (F := F) c (slotJ (Memref.whole cc0_scratch9 : Memref sig .tc .vmem S4x128x128 .bf16) 0) ∗ holdsAny (F := F) c (slotJ (Memref.whole cc0_scratch9 : Memref sig .tc .vmem S4x128x128 .bf16) 1) ∗ holdsAny (F := F) c (slotJ (Memref.whole cc0_scratch9 : Memref sig .tc .vmem S4x128x128 .bf16) 2) ∗ holdsAny (F := F) c (slotJ (Memref.whole cc0_scratch9 : Memref sig .tc .vmem S4x128x128 .bf16) 3)) :=
  cut4 c (Memref.whole cc0_scratch9) (View.set_whole _)

theorem uncut4_scratch9 (c : Dev nD) :
    iprop(holdsAny (F := F) c (slotJ (Memref.whole cc0_scratch9 : Memref sig .tc .vmem S4x128x128 .bf16) 0) ∗ holdsAny (F := F) c (slotJ (Memref.whole cc0_scratch9 : Memref sig .tc .vmem S4x128x128 .bf16) 1) ∗ holdsAny (F := F) c (slotJ (Memref.whole cc0_scratch9 : Memref sig .tc .vmem S4x128x128 .bf16) 2) ∗ holdsAny (F := F) c (slotJ (Memref.whole cc0_scratch9 : Memref sig .tc .vmem S4x128x128 .bf16) 3))
      ⊢ iprop(∃ f : Buf (Elt F) ((c : Thread nD τ).loc cc0_scratch9), (((c : Thread nD τ).loc cc0_scratch9) ↦{fullShare} f)) :=
  uncut4 c (Memref.whole cc0_scratch9) (View.set_whole _)

theorem cut4_scratch10 (c : Dev nD) :
    iprop(∃ f : Buf (Elt F) ((c : Thread nD τ).loc cc0_scratch10), (((c : Thread nD τ).loc cc0_scratch10) ↦{fullShare} f))
      ⊢ iprop(holdsAny (F := F) c (slotJ (Memref.whole cc0_scratch10 : Memref sig .tc .vmem S4x128x128 .bf16) 0) ∗ holdsAny (F := F) c (slotJ (Memref.whole cc0_scratch10 : Memref sig .tc .vmem S4x128x128 .bf16) 1) ∗ holdsAny (F := F) c (slotJ (Memref.whole cc0_scratch10 : Memref sig .tc .vmem S4x128x128 .bf16) 2) ∗ holdsAny (F := F) c (slotJ (Memref.whole cc0_scratch10 : Memref sig .tc .vmem S4x128x128 .bf16) 3)) :=
  cut4 c (Memref.whole cc0_scratch10) (View.set_whole _)

theorem uncut4_scratch10 (c : Dev nD) :
    iprop(holdsAny (F := F) c (slotJ (Memref.whole cc0_scratch10 : Memref sig .tc .vmem S4x128x128 .bf16) 0) ∗ holdsAny (F := F) c (slotJ (Memref.whole cc0_scratch10 : Memref sig .tc .vmem S4x128x128 .bf16) 1) ∗ holdsAny (F := F) c (slotJ (Memref.whole cc0_scratch10 : Memref sig .tc .vmem S4x128x128 .bf16) 2) ∗ holdsAny (F := F) c (slotJ (Memref.whole cc0_scratch10 : Memref sig .tc .vmem S4x128x128 .bf16) 3))
      ⊢ iprop(∃ f : Buf (Elt F) ((c : Thread nD τ).loc cc0_scratch10), (((c : Thread nD τ).loc cc0_scratch10) ↦{fullShare} f)) :=
  uncut4 c (Memref.whole cc0_scratch10) (View.set_whole _)

theorem cutW (c : Dev nD) :
    iprop(∃ f : Buf (Elt F) ((c : Thread nD τ).loc cc0_scratch0), (((c : Thread nD τ).loc cc0_scratch0) ↦{fullShare} f))
      ⊢ iprop(holdsAny (F := F) c (winsJ 0 0) ∗ holdsAny (F := F) c (winsJ 0 1) ∗ holdsAny (F := F) c (winsJ 0 2) ∗ holdsAny (F := F) c (winsJ 1 0) ∗ holdsAny (F := F) c (winsJ 1 1) ∗ holdsAny (F := F) c (winsJ 1 2)) :=
  (cutG c winsM (r6 inbW) (fun _ _ => rfl) (fun _ => squeezes_S1x1x128x256_S128x256) (r6_disjoint _) (r6_cover _) (View.set_whole _)).trans (Entails.of_eq (bigSep_six _))

theorem uncutW (c : Dev nD) :
    iprop(holdsAny (F := F) c (winsJ 0 0) ∗ holdsAny (F := F) c (winsJ 0 1) ∗ holdsAny (F := F) c (winsJ 0 2) ∗ holdsAny (F := F) c (winsJ 1 0) ∗ holdsAny (F := F) c (winsJ 1 1) ∗ holdsAny (F := F) c (winsJ 1 2))
      ⊢ iprop(∃ f : Buf (Elt F) ((c : Thread nD τ).loc cc0_scratch0), (((c : Thread nD τ).loc cc0_scratch0) ↦{fullShare} f)) :=
  (Entails.of_eq (bigSep_six fun p => holdsAny (F := F) c (winsJ p.1 p.2)).symm).trans
    (uncutG c winsM (r6 inbW) (fun _ _ => rfl) (fun _ => squeezes_S1x1x128x256_S128x256) (r6_disjoint _) (r6_cover _) (View.set_whole _) (0, 0))

theorem cutO (c : Dev nD) :
    iprop(∃ f : Buf (Elt F) ((c : Thread nD τ).loc cc0_scratch1), (((c : Thread nD τ).loc cc0_scratch1) ↦{fullShare} f))
      ⊢ iprop(holdsAny (F := F) c (woutsJ 0 0) ∗ holdsAny (F := F) c (woutsJ 0 1) ∗ holdsAny (F := F) c (woutsJ 0 2) ∗ holdsAny (F := F) c (woutsJ 1 0) ∗ holdsAny (F := F) c (woutsJ 1 1) ∗ holdsAny (F := F) c (woutsJ 1 2)) :=
  (cutG c woutsM (r6 inbO) (fun _ _ => rfl) (fun _ => squeezes_S1x1x256x128_S256x128) (r6_disjoint _) (r6_cover _) (View.set_whole _)).trans (Entails.of_eq (bigSep_six _))

theorem uncutO (c : Dev nD) :
    iprop(holdsAny (F := F) c (woutsJ 0 0) ∗ holdsAny (F := F) c (woutsJ 0 1) ∗ holdsAny (F := F) c (woutsJ 0 2) ∗ holdsAny (F := F) c (woutsJ 1 0) ∗ holdsAny (F := F) c (woutsJ 1 1) ∗ holdsAny (F := F) c (woutsJ 1 2))
      ⊢ iprop(∃ f : Buf (Elt F) ((c : Thread nD τ).loc cc0_scratch1), (((c : Thread nD τ).loc cc0_scratch1) ↦{fullShare} f)) :=
  (Entails.of_eq (bigSep_six fun p => holdsAny (F := F) c (woutsJ p.1 p.2)).symm).trans
    (uncutG c woutsM (r6 inbO) (fun _ _ => rfl) (fun _ => squeezes_S1x1x256x128_S256x128) (r6_disjoint _) (r6_cover _) (View.set_whole _) (0, 0))

end

end Cert.Kernel.P

end
-- ==== Proof.Bits.LaunchGhost.lean ====
import proofs.«900976_g7700000000000977_dist_mlpseq_tp1d_bs_bs_b128_d128_h256_v7x_i8_bf16_1_alg».proof.Proof.Bits.Inv
import proofs.«900976_g7700000000000977_dist_mlpseq_tp1d_bs_bs_b128_d128_h256_v7x_i8_bf16_1_alg».proof.Proof.Bits.SchedTables
import Idealize.ShloMosaic.Lib.Pipeline.Launch
import Idealize.ShloMosaic.Lib.Pipeline.Kit
import Idealize.ShloMosaic.Lib.Tactic

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem kcell_injective : Function.Injective (kcell : Dev nD × Fin 26 → GSem nD τ sig) := by
  rintro ⟨c, k⟩ ⟨c', k'⟩ h
  have h1 : c = c' := by have := congrArg (fun g : GSem nD τ sig => g.1.1) h; exact this
  subst h1
  have h2 : cellK k = cellK k' := congrArg Prod.snd h
  have : k = k' := cellK_injective h2
  subst this; rfl

def protoCells : Finset (GSem nD τ sig) := Finset.univ.map ⟨kcell, kcell_injective⟩

abbrev TI : Type := Fin 4 ⊕ Fin 4 ⊕ Fin 6 ⊕ Fin 6 ⊕ (Fin 6 × Fin 3) ⊕ (Fin 6 × Fin 3)

def tokSem : TI → SemLoc sig × Fin 4
  | .inl d => (.reg barS, d)
  | .inr (.inl d) => (.reg extS, d)
  | .inr (.inr (.inl j)) => (.dma (wsS j), 0)
  | .inr (.inr (.inr (.inl j))) => (.dma (wrS j), 0)
  | .inr (.inr (.inr (.inr (.inl jk)))) => (.dma (asS jk.1), jk.2.succ)
  | .inr (.inr (.inr (.inr (.inr jk)))) => (.dma (arS jk.1), jk.2.succ)

theorem tokSem_injective : Function.Injective tokSem := by decide

abbrev tokOf (ct : Dev nD × TI) : GSem nD τ sig × ℕ × Fin 4 := (((ct.1 : Thread nD τ), (tokSem ct.2).1), 0, (tokSem ct.2).2)

theorem tokOf_injective : Function.Injective (tokOf : Dev nD × TI → GSem nD τ sig × ℕ × Fin 4) := by
  rintro ⟨c, t⟩ ⟨c', t'⟩ h
  have h1 : c = c' := congrArg (fun x : GSem nD τ sig × ℕ × Fin 4 => x.1.1.1) h
  subst h1
  have h2 : tokSem t = tokSem t' :=
    Prod.ext (congrArg (fun x : GSem nD τ sig × ℕ × Fin 4 => x.1.2) h) (congrArg (fun x : GSem nD τ sig × ℕ × Fin 4 => x.2.2) h)
  rw [tokSem_injective h2]

def protoToks : Finset (GSem nD τ sig × ℕ × Fin 4) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((bigSep Finset.univ fun d : Fin 4 => dutyTok ER (barC c) 0 d)
    ∗ (bigSep Finset.univ fun d : Fin 4 => dutyTok ER (extC c) 0 d)
    ∗ (bigSep Finset.univ fun j : Fin 6 => dutyTok ER (wsC c j) 0 0)
    ∗ (bigSep Finset.univ fun j : Fin 6 => dutyTok ER (wrC c j) 0 0)
    ∗ (bigSep Finset.univ fun j : Fin 6 => iprop(dutyTok ER (asC c j) 0 1 ∗ dutyTok ER (asC c j) 0 2 ∗ dutyTok ER (asC c j) 0 3))
    ∗ (bigSep Finset.univ fun j : Fin 6 => iprop(dutyTok ER (arC c j) 0 1 ∗ dutyTok ER (arC c j) 0 2 ∗ dutyTok ER (arC c j) 0 3)))

def G (c : Dev nD) : sProp 𝕄 :=
  iprop((bigSep Finset.univ fun k : Fin 26 => roundState ER (Rd m) (kcell (c, k)) 0)
    ∗ (bigSep Finset.univ fun k : Fin 26 => iprop(atPos ER (kcell (c, k)) 0 ∅ 0 ∗ reached ER (kcell (c, k)) 0)) ∗ toks c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 26 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks
      rw [bigSep_univ_sum, bigSep_univ_sum, bigSep_univ_sum, bigSep_univ_sum, bigSep_univ_sum, bigSep_univ_prod, bigSep_univ_prod]
      simp only [bigSep_fin3]
      rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']; iframe

theorem hu₀ : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave ⟨HP, HX⟩ := (ownU_pair _ _) $$ Hu
  imod (fund_proto m) $$ HX with HG
  imodintro; iframe

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 25 => semVal ((c : Thread nD τ), osem i) 0 := rfl

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem bigSep_fin_succ (n : ℕ) (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 26 => semVal (kcell (c, k)) 0 : sProp 𝕄) := by
  rw [ownSems0_eq, unscopedSems0_eq, bigSep_fin_succ 25]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 26 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]; · iframe
  imod (show iprop((bigSep Finset.univ fun k : Fin 26 => semVal (kcell (c, k)) 0) ∗ bigSep Finset.univ fun k : Fin 26 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv; · iframe
  imodintro; iframe

theorem ghost_intro (K : Dev nD × Fin 26 → ℕ) (c : Dev nD) : iprop(records m K ∗ positions c ∗ payToks c) ⊢ G' m c := by
  unfold G' ghost
  iintro H; iexists K; iexact H

def ppEquiv (i : Fin 4) : Dev nD ≃ Dev nD where
  toFun c := pp c i
  invFun c := pp c (inv i)
  left_inv c := pp_pp_inv c i
  right_inv c := by have h := pp_pp_inv c (inv i); rwa [inv_inv] at h

def dealEquiv : Dev nD × Fin 4 ≃ Dev nD × Fin 4 where
  toFun x := (pp x.1 x.2, inv x.2)
  invFun x := (pp x.1 x.2, inv x.2)
  left_inv x := Prod.ext (pp_pp_inv x.1 x.2) (inv_inv x.2)
  right_inv x := Prod.ext (pp_pp_inv x.1 x.2) (inv_inv x.2)

omit [FloatOps F] in
theorem deal4 (Φ : Dev nD → Fin 4 → sProp 𝕄) :
    (bigSep Finset.univ fun c => bigSep Finset.univ fun d => Φ c d) = bigSep Finset.univ fun c => bigSep Finset.univ fun i => Φ (pp c i) (inv i) :=
  (bigSep_univ_prod (fun x : Dev nD × Fin 4 => Φ x.1 x.2)).symm.trans
    ((bigSep_univ_equiv dealEquiv _).trans (bigSep_univ_prod _))

omit [FloatOps F] in
theorem deal1 (i : Fin 4) (Φ : Dev nD → sProp 𝕄) : bigSep Finset.univ Φ = bigSep Finset.univ fun c => Φ (pp c i) :=
  bigSep_univ_equiv (ppEquiv i) Φ

omit [FloatOps F] in
theorem toks_around : (bigSep Finset.univ fun c : Dev nD => (toks c : sProp 𝕄)) ⊢ bigSep Finset.univ fun c : Dev nD => payToks c := by
  unfold toks payToks
  simp only [bigSep_sep']
  rw [deal4 (fun c d => (dutyTok ER (barC c) 0 d : sProp 𝕄)), deal4 (fun c d => (dutyTok ER (extC c) 0 d : sProp 𝕄)),
    deal1 0 (fun c => bigSep Finset.univ fun j : Fin 6 => (dutyTok ER (wrC c j) 0 0 : sProp 𝕄)),
    deal1 3 (fun c => bigSep Finset.univ fun j : Fin 6 => (dutyTok ER (arC c j) 0 1 : sProp 𝕄)),
    deal1 2 (fun c => bigSep Finset.univ fun j : Fin 6 => (dutyTok ER (arC c j) 0 2 : sProp 𝕄)),
    deal1 1 (fun c => bigSep Finset.univ fun j : Fin 6 => (dutyTok ER (arC c j) 0 3 : sProp 𝕄))]
  iintro ⟨H1, H2, H3, H4, ⟨Hs1, Hs2, Hs3⟩, Ha1, Ha2, Ha3⟩
  iframe H1 H2 H3 H4 Hs1 Hs2 Hs3
  isplitl [Ha3]; · iexact Ha3
  isplitl [Ha2]; · iexact Ha2
  iexact Ha1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 26 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 26 => iprop(∃ κ : ℕ, cellInv ER (Rd m) κ (kcell ck))),
    bigSep_congr (s := Finset.univ) (fun (c : Dev nD) _ => bigSep_sep' Finset.univ (fun k : Fin 26 => (atPos ER (kcell (c, k)) 0 ∅ 0 : sProp 𝕄)) (fun k => reached ER (kcell (c, k)) 0)),
    bigSep_sep', ← bigSep_univ_prod (fun ck : Dev nD × Fin 26 => (reached ER (kcell ck) 0 : sProp 𝕄))]
  iintro ⟨HI, ⟨Hat, #HR⟩, Htok⟩
  ihave HK := (BI.bigSep_exists_pi Finset.univ (fun (ck : Dev nD × Fin 26) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl <;> iassumption
  · iapply (Entails.of_eq (bigSep_sep' Finset.univ (fun c : Dev nD => (positions c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.P

end
-- ==== Proof.Bits.Reindex.lean ====
import proofs.«900976_g7700000000000977_dist_mlpseq_tp1d_bs_bs_b128_d128_h256_v7x_i8_bf16_1_alg».proof.Proof.Bits.BodyDefs

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
theorem X_bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem X_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem X_plane_rotation (c : Dev nD) :
    (qd c = 0 ∧ qd (pp c 1) = 1 ∧ qd (pp c 2) = 2 ∧ qd (pp c 3) = 3) ∨ (qd c = 1 ∧ qd (pp c 1) = 2 ∧ qd (pp c 2) = 3 ∧ qd (pp c 3) = 0)
      ∨ (qd c = 2 ∧ qd (pp c 1) = 3 ∧ qd (pp c 2) = 0 ∧ qd (pp c 3) = 1) ∨ (qd c = 3 ∧ qd (pp c 1) = 0 ∧ qd (pp c 2) = 1 ∧ qd (pp c 3) = 2) := by
  revert c; decide

omit [FloatOps F] in
theorem X_reindex4 (c : Dev nD) (Φ : Fin 4 → sProp 𝕄) :
    iprop(Φ (qd c) ∗ Φ (qd (pp c 1)) ∗ Φ (qd (pp c 2)) ∗ Φ (qd (pp c 3))) ⊣⊢ iprop(Φ 0 ∗ Φ 1 ∗ Φ 2 ∗ Φ 3) := by
  rcases X_plane_rotation c with ⟨h0, h1, h2, h3⟩ | ⟨h0, h1, h2, h3⟩ | ⟨h0, h1, h2, h3⟩ | ⟨h0, h1, h2, h3⟩ <;>
    (simp only [h0, h1, h2, h3]; exact ⟨by iintro ⟨A, B, C, D⟩; iframe, by iintro ⟨A, B, C, D⟩; iframe⟩)

end Cert.Kernel.P

end
-- ==== Proof.Bits.BodyGlue.lean ====
import proofs.«900976_g7700000000000977_dist_mlpseq_tp1d_bs_bs_b128_d128_h256_v7x_i8_bf16_1_alg».proof.Proof.Bits.GlueSpecs
import proofs.«900976_g7700000000000977_dist_mlpseq_tp1d_bs_bs_b128_d128_h256_v7x_i8_bf16_1_alg».proof.Proof.Bits.HoldsLemmas
import proofs.«900976_g7700000000000977_dist_mlpseq_tp1d_bs_bs_b128_d128_h256_v7x_i8_bf16_1_alg».proof.Proof.Bits.LaunchGhost
import proofs.«900976_g7700000000000977_dist_mlpseq_tp1d_bs_bs_b128_d128_h256_v7x_i8_bf16_1_alg».proof.Proof.Bits.Reindex
import Idealize.ShloMosaic.Lib.Pipeline.FrameBody

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev wholeAny (c : Dev nD) (r : Ref sig .tc) : sProp 𝕄 :=
  iprop(∃ f : Buf (Elt F) ((c : Thread nD τ).loc r), ((c : Thread nD τ).loc r) ↦{fullShare} f)

abbrev piecesW (c : Dev nD) : sProp 𝕄 :=
  iprop(holdsAny c (winsJ 0 0) ∗ holdsAny c (winsJ 0 1) ∗ holdsAny c (winsJ 0 2) ∗ holdsAny c (winsJ 1 0) ∗ holdsAny c (winsJ 1 1) ∗ holdsAny c (winsJ 1 2))
abbrev piecesO (c : Dev nD) : sProp 𝕄 :=
  iprop(holdsAny c (woutsJ 0 0) ∗ holdsAny c (woutsJ 0 1) ∗ holdsAny c (woutsJ 0 2) ∗ holdsAny c (woutsJ 1 0) ∗ holdsAny c (woutsJ 1 1) ∗ holdsAny c (woutsJ 1 2))

def Cuts (c : Dev nD) : Prop :=
  (wholeAny (F := F) c cc0_scratch0 ⊢ piecesW c) ∧ (wholeAny (F := F) c cc0_scratch1 ⊢ piecesO c)
  ∧ (wholeAny (F := F) c cc0_scratch2 ⊢ any4 c xgM) ∧ (wholeAny (F := F) c cc0_scratch3 ⊢ any4 c (prtlM 0)) ∧ (wholeAny (F := F) c cc0_scratch4 ⊢ any4 c (prtlM 1)) ∧ (wholeAny (F := F) c cc0_scratch5 ⊢ any4 c (prtlM 2)) ∧ (wholeAny (F := F) c cc0_scratch6 ⊢ any4 c (raccM 0)) ∧ (wholeAny (F := F) c cc0_scratch7 ⊢ any4 c (raccM 1)) ∧ (wholeAny (F := F) c cc0_scratch8 ⊢ any4 c (raccM 2)) ∧ (wholeAny (F := F) c cc0_scratch9 ⊢ any4 c (xnM 0)) ∧ (wholeAny (F := F) c cc0_scratch10 ⊢ any4 c (xnM 1))

def Uncuts (c : Dev nD) : Prop :=
  (piecesW (F := F) c ⊢ wholeAny c cc0_scratch0) ∧ (piecesO (F := F) c ⊢ wholeAny c cc0_scratch1)
  ∧ (any4 (F := F) c xgM ⊢ wholeAny c cc0_scratch2) ∧ (any4 (F := F) c (prtlM 0) ⊢ wholeAny c cc0_scratch3) ∧ (any4 (F := F) c (prtlM 1) ⊢ wholeAny c cc0_scratch4) ∧ (any4 (F := F) c (prtlM 2) ⊢ wholeAny c cc0_scratch5) ∧ (any4 (F := F) c (raccM 0) ⊢ wholeAny c cc0_scratch6) ∧ (any4 (F := F) c (raccM 1) ⊢ wholeAny c cc0_scratch7) ∧ (any4 (F := F) c (raccM 2) ⊢ wholeAny c cc0_scratch8) ∧ (any4 (F := F) c (xnM 0) ⊢ wholeAny c cc0_scratch9) ∧ (any4 (F := F) c (xnM 1) ⊢ wholeAny c cc0_scratch10)

theorem X_bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

theorem X_positions_eq (c : Dev nD) : positions (F := F) c = iprop(fresh (barC c) ∗ fresh (extC c) ∗ fresh (wsC c 0) ∗ fresh (wsC c 1) ∗ fresh (wsC c 2) ∗ fresh (wsC c 3) ∗ fresh (wsC c 4) ∗ fresh (wsC c 5) ∗ fresh (wrC c 0) ∗ fresh (wrC c 1) ∗ fresh (wrC c 2) ∗ fresh (wrC c 3) ∗ fresh (wrC c 4) ∗ fresh (wrC c 5) ∗ fresh (asC c 0) ∗ fresh (asC c 1) ∗ fresh (asC c 2) ∗ fresh (asC c 3) ∗ fresh (asC c 4) ∗ fresh (asC c 5) ∗ fresh (arC c 0) ∗ fresh (arC c 1) ∗ fresh (arC c 2) ∗ fresh (arC c 3) ∗ fresh (arC c 4) ∗ fresh (arC c 5)) :=
  (X_bigSep_fin26 _).trans rfl

theorem X_half_any (c : Dev nD) {s : Shape} {e : EltTy} (b : Memref sig .tc .vmem s e) (w : s.Idx → Elt F e) :
    iprop(holds c b shK w ∗ holds c b shR w) ⊢ holdsAny (F := F) c b :=
  (holds_join c b fullShare w).trans (holds_any c b w)

/-- Four quarter shares join to the whole, two at a time from the last. -/
theorem X_quarter_any (c : Dev nD) {s : Shape} {e : EltTy} (b : Memref sig .tc .vmem s e) (w : s.Idx → Elt F e) :
    iprop(holds c b shK w ∗ holds c b (sh 1) w ∗ holds c b (sh 2) w ∗ holds c b (sh 3) w) ⊢ holdsAny (F := F) c b :=
  (sep_mono_right ((sep_mono_right (holds_join c b fullShare.right.right w)).trans (holds_join c b fullShare.right w))).trans (X_half_any c b w)

theorem X_any4_of_plane (c : Dev nD) (b : Memref sig .tc .vmem S4x128x128 .bf16) :
    iprop(holdsAny (F := F) c (slotJ b (qd c)) ∗ holdsAny (F := F) c (slotJ b (qd (pp c 1))) ∗ holdsAny (F := F) c (slotJ b (qd (pp c 2))) ∗ holdsAny (F := F) c (slotJ b (qd (pp c 3))))
      ⊢ any4 (F := F) c b :=
  (X_reindex4 c (fun j => holdsAny (F := F) c (slotJ b j))).1

/-- The slots at the plane indices of the device and its three peers are the buffer's four slots. -/
theorem X_buf_own_any (c : Dev nD) (b : Memref sig .tc .vmem S4x128x128 .bf16) (v : Dev nD → S128x128.Idx → Elt F .bf16) :
    iprop(holdsAny (F := F) c (slotJ b (qd c)) ∗ holds c (slotJ b (qd (pp c 1))) fullShare (v (pp c 1)) ∗ holds c (slotJ b (qd (pp c 2))) fullShare (v (pp c 2))
      ∗ holds c (slotJ b (qd (pp c 3))) fullShare (v (pp c 3))) ⊢ any4 (F := F) c b :=
  (sep_mono_right (BIClass.sep_mono (holds_any c _ _) (BIClass.sep_mono (holds_any c _ _) (holds_any c _ _)))).trans (X_any4_of_plane c b)

theorem X_buf_full (c : Dev nD) (b : Memref sig .tc .vmem S4x128x128 .bf16) (v : Fin 4 → S128x128.Idx → Elt F .bf16) :
    iprop(holds c (slotJ b (qd c)) fullShare (v (qd c)) ∗ holds c (slotJ b (qd (pp c 1))) fullShare (v (qd (pp c 1))) ∗ holds c (slotJ b (qd (pp c 2))) fullShare (v (qd (pp c 2)))
      ∗ holds c (slotJ b (qd (pp c 3))) fullShare (v (qd (pp c 3)))) ⊢ any4 (F := F) c b :=
  (sep_mono_left (holds_any c _ _)).trans (X_buf_own_any c b fun p => v (qd p))

theorem X_buf_gather (c : Dev nD) (b : Memref sig .tc .vmem S4x128x128 .bf16) (v : Dev nD → S128x128.Idx → Elt F .bf16) :
    iprop(holds c (slotJ b (qd c)) shK (v c)
      ∗ (holds c (slotJ b (qd c)) (sh 1) (v c) ∗ holds c (slotJ b (qd c)) (sh 2) (v c) ∗ holds c (slotJ b (qd c)) (sh 3) (v c))
      ∗ (holds c (slotJ b (qd (pp c 1))) fullShare (v (pp c 1)) ∗ holds c (slotJ b (qd (pp c 2))) fullShare (v (pp c 2)) ∗ holds c (slotJ b (qd (pp c 3))) fullShare (v (pp c 3))))
      ⊢ any4 (F := F) c b :=
  sep_assoc.2.trans ((sep_mono_left (X_quarter_any c _ _)).trans (X_buf_own_any c b v))

set_option maxRecDepth 4000 in
set_option maxHeartbeats 1600000 in
theorem body_open (m : (ℓ : Loc nD τ sig) → Buf (Elt F) ℓ) (ρ : Dev nD → PrngReg) (c : Dev nD) (hcut : Cuts (F := F) c) :
    iprop((dats m ρ 0 c).Φ t₀.castSucc ∗ (dats m ρ 0 c).owesAt () t₀.castSucc
      ∗ (∃ d, stg c cc0_stg0_0 ((dats m ρ 0 c).before (0 : Fin 8) t₀ d))
      ∗ (∃ d, stg c cc0_stg1_0 ((dats m ρ 0 c).before (1 : Fin 8) t₀ d))
      ∗ (∃ d, stg c cc0_stg2_0 ((dats m ρ 0 c).before (2 : Fin 8) t₀ d))
      ∗ (∃ d, stg c cc0_stg3_0 ((dats m ρ 0 c).before (3 : Fin 8) t₀ d))
      ∗ (∃ d, stg c cc0_stg4_0 ((dats m ρ 0 c).before (4 : Fin 8) t₀ d))
      ∗ (∃ d, stg c cc0_stg5_0 ((dats m ρ 0 c).before (5 : Fin 8) t₀ d))
      ∗ (∃ d, stg c cc0_stg6_0 ((dats m ρ 0 c).before (6 : Fin 8) t₀ d))
      ∗ (∃ d, stg c cc0_stg7_0 ((dats m ρ 0 c).before (7 : Fin 8) t₀ d)))
    ⊢ iprop(∃ K W, records m K ∗ levAts L lv ∗ preA m c W ∗ initRest c) := by
  obtain ⟨hW, hO, h2, h3, h4, h5, h6, h7, h8, h9, h10⟩ := hcut
  show iprop(Φ₀ m c ∗ (∃ W, ⌜_⌝ ∗ owesFrom c 0 W) ∗ (∃ d, stg c cc0_stg0_0 (xin m c)) ∗ (∃ d, stg c cc0_stg1_0 (wiIn m c 0)) ∗ (∃ d, stg c cc0_stg2_0 (woIn m c 0))
    ∗ (∃ d, stg c cc0_stg3_0 (wiIn m c 1)) ∗ (∃ d, stg c cc0_stg4_0 (woIn m c 1)) ∗ (∃ d, stg c cc0_stg5_0 (wiIn m c 2)) ∗ (∃ d, stg c cc0_stg6_0 (woIn m c 2)) ∗ _) ⊢ _
  unfold Φ₀ start ghost payToks creds preA initRest wrCell arCell stgIn asTok arTok
  rw [X_positions_eq, show scratch (F := F) c = _ from scopedRest0_eq c]
  simp only [X_bigSep_fin4, X_bigSep_fin6]
  iintro ⟨⟨⟨⟨%K, Hrec, ⟨P0, P1, P2, P3, P4, P5, P6, P7, P8, P9, P10, P11, P12, P13, P14, P15, P16, P17, P18, P19, P20, P21, P22, P23, P24, P25⟩, ⟨Tb, Te, Tws, Twr, ⟨Tas0, Tas1, Tas2, Tas3, Tas4, Tas5⟩, ⟨Tar0, Tar1, Tar2, Tar3, Tar4, Tar5⟩⟩⟩, ⟨Cbar, Cext, ⟨Cwr0, Cwr1, Cwr2, Cwr3, Cwr4, Cwr5⟩, ⟨Car0, Car1, Car2, Car3, Car4, Car5⟩⟩, Hlev⟩, ⟨S0, S1, S2, S3, S4, S5, S6, S7, S8, S9, S10⟩⟩, ⟨%W, %hWB, Howes⟩, ⟨%d0, I0⟩, ⟨%d1, I1⟩, ⟨%d2, I2⟩, ⟨%d3, I3⟩, ⟨%d4, I4⟩, ⟨%d5, I5⟩, ⟨%d6, I6⟩, ⟨%d7, I7⟩⟩
  ihave ⟨Wi00, Wi01, Wi02, Wi10, Wi11, Wi12⟩ := hW $$ S0
  ihave ⟨Wo00, Wo01, Wo02, Wo10, Wo11, Wo12⟩ := hO $$ S1
  ihave S2 := h2 $$ S2
  ihave S3 := h3 $$ S3
  ihave S4 := h4 $$ S4
  ihave S5 := h5 $$ S5
  ihave S6 := h6 $$ S6
  ihave S7 := h7 $$ S7
  ihave S8 := h8 $$ S8
  ihave S9 := h9 $$ S9
  ihave S10 := h10 $$ S10
  ihave I7 : iprop(∃ X, stg c cc0_stg7_0 X) $$ [I7]
  · iexists _; iexact I7
  iexists K, W
  iframe

/-- Every piece of every scratch buffer is back, so each buffer is whole again. -/
theorem X_scratch_rebuild (m : (ℓ : Loc nD τ sig) → Buf (Elt F) ℓ) (c : Dev nD) (hun : Uncuts (F := F) c) :
    iprop((bigSep Finset.univ fun k : Fin 3 => iprop(holds c (winsJ 0 k) shK (Wi m c k) ∗ holds c (woutsJ 0 k) shK (Wo m c k)))
      ∗ (bigSep Finset.univ fun j : Fin 6 => wsPay m c j) ∗ (bigSep Finset.univ fun j : Fin 6 => wrPay m c j)
      ∗ (holds c (slotJ xgM (qd c)) shK (X0q m c) ∗ holds c (slotJ (xnM 0) (qd c)) shK (XN m 0 c) ∗ holds c (slotJ (xnM 1) (qd c)) shK (XN m 1 c))
      ∗ (bigSep Finset.univ fun k : Fin 3 => iprop(holds c (slotJ (prtlM k) (qd c)) fullShare (sl4 (PK m k c) (qd c)) ∗ holdsAny c (slotJ (raccM k) (qd c))))
      ∗ (bigSep Finset.univ fun j : Fin 6 => iprop(asPay m c j 1 ∗ asPay m c j 2 ∗ asPay m c j 3))
      ∗ (bigSep Finset.univ fun j : Fin 6 => got3 m c j))
    ⊢ scratch c := by
  obtain ⟨uW, uO, u2, u3, u4, u5, u6, u7, u8, u9, u10⟩ := hun
  unfold piecesW at uW
  unfold piecesO at uO
  rw [show scratch (F := F) c = _ from scopedRest0_eq c]
  unfold got3
  simp only [bigSep_fin3, X_bigSep_fin6, wsPay_0, wsPay_1, wsPay_2, wsPay_3, wsPay_4, wsPay_5, wrPay_0, wrPay_1, wrPay_2, wrPay_3, wrPay_4, wrPay_5, asPay_0, asPay_1, asPay_2, asPay_3, asPay_4, asPay_5, arPay_0, arPay_1, arPay_2, arPay_3, arPay_4, arPay_5]
  iintro ⟨⟨⟨K0i, K0o⟩, ⟨K1i, K1o⟩, ⟨K2i, K2o⟩⟩, ⟨R0, R1, R2, R3, R4, R5⟩, ⟨V0, V1, V2, V3, V4, V5⟩, ⟨G0, G1, G2⟩, ⟨⟨Pr0, Q0⟩, ⟨Pr1, Q1⟩, ⟨Pr2, Q2⟩⟩, ⟨A0, A1, A2, A3, A4, A5⟩, ⟨B0, B1, B2, B3, B4, B5⟩⟩
  ihave Wi00 := (X_half_any c (winsJ 0 0) (Wi m c 0)) $$ [$]
  ihave Wo00 := (X_half_any c (woutsJ 0 0) (Wo m c 0)) $$ [$]
  ihave Wi01 := (X_half_any c (winsJ 0 1) (Wi m c 1)) $$ [$]
  ihave Wo01 := (X_half_any c (woutsJ 0 1) (Wo m c 1)) $$ [$]
  ihave Wi02 := (X_half_any c (winsJ 0 2) (Wi m c 2)) $$ [$]
  ihave Wo02 := (X_half_any c (woutsJ 0 2) (Wo m c 2)) $$ [$]
  ihave Wi10 := (holds_any c _ _) $$ V0
  ihave Wo10 := (holds_any c _ _) $$ V1
  ihave Wi11 := (holds_any c _ _) $$ V2
  ihave Wo11 := (holds_any c _ _) $$ V3
  ihave Wi12 := (holds_any c _ _) $$ V4
  ihave Wo12 := (holds_any c _ _) $$ V5
  ihave T0 := uW $$ [$]
  ihave T1 := uO $$ [$]
  ihave T2 := ((X_buf_gather c xgM (X0q m)).trans u2) $$ [$]
  ihave T3 := ((X_buf_full c (prtlM 0) (sl4 (PK m 0 c))).trans u3) $$ [$]
  ihave T4 := ((X_buf_full c (prtlM 1) (sl4 (PK m 1 c))).trans u4) $$ [$]
  ihave T5 := ((X_buf_full c (prtlM 2) (sl4 (PK m 2 c))).trans u5) $$ [$]
  ihave T6 := ((X_buf_own_any c (raccM 0) fun p => sl4 (PK m 0 p) (qd c)).trans u6) $$ [$]
  ihave T7 := ((X_buf_own_any c (raccM 1) fun p => sl4 (PK m 1 p) (qd c)).trans u7) $$ [$]
  ihave T8 := ((X_buf_own_any c (raccM 2) fun p => sl4 (PK m 2 p) (qd c)).trans u8) $$ [$]
  ihave T9 := ((X_buf_gather c (xnM 0) (XN m 0)).trans u9) $$ [$]
  ihave T10 := ((X_buf_gather c (xnM 1) (XN m 1)).trans u10) $$ [$]
  iframe

theorem body_close (m : (ℓ : Loc nD τ sig) → Buf (Elt F) ℓ) (ρ : Dev nD → PrngReg) (K : Dev nD × Fin 26 → ℕ) (c : Dev nD) (hun : Uncuts (F := F) c)
    (hclose : iprop(records m K ∗ done (extC c) ∗ (bigSep Finset.univ fun j : Fin 6 => done (wsC c j)) ∗ (bigSep Finset.univ fun j : Fin 6 => done (wrC c j))
        ∗ (bigSep Finset.univ fun j : Fin 6 => done (asC c j)) ∗ (bigSep Finset.univ fun j : Fin 6 => done (arC c j)))
      ⊢ |={Set.univ}=> (bigSep Finset.univ fun i : Fin 25 => semVal ((c : Thread nD τ), osem i) 0 : sProp 𝕄)) :
    iprop(records m K ∗ finalAll m c) ⊢ |={Set.univ}=> iprop((dats m ρ 0 c).Φ t₀.succ ∗ (dats m ρ 0 c).owesAt () t₀.succ
      ∗ stg c cc0_stg0_0 ((dats m ρ 0 c).after (0 : Fin 8) t₀)
      ∗ stg c cc0_stg1_0 ((dats m ρ 0 c).after (1 : Fin 8) t₀)
      ∗ stg c cc0_stg2_0 ((dats m ρ 0 c).after (2 : Fin 8) t₀)
      ∗ stg c cc0_stg3_0 ((dats m ρ 0 c).after (3 : Fin 8) t₀)
      ∗ stg c cc0_stg4_0 ((dats m ρ 0 c).after (4 : Fin 8) t₀)
      ∗ stg c cc0_stg5_0 ((dats m ρ 0 c).after (5 : Fin 8) t₀)
      ∗ stg c cc0_stg6_0 ((dats m ρ 0 c).after (6 : Fin 8) t₀)
      ∗ stg c cc0_stg7_0 ((dats m ρ 0 c).after (7 : Fin 8) t₀)) := by
  show _ ⊢ |={Set.univ}=> iprop(Φ₁ (F := F) c ∗ (∃ W, ⌜_⌝ ∗ owes (c : Thread nD τ) 0 W) ∗ stg c cc0_stg0_0 (xin m c) ∗ stg c cc0_stg1_0 (wiIn m c 0) ∗ stg c cc0_stg2_0 (woIn m c 0) ∗ stg c cc0_stg3_0 (wiIn m c 1) ∗ stg c cc0_stg4_0 (woIn m c 1) ∗ stg c cc0_stg5_0 (wiIn m c 2) ∗ stg c cc0_stg6_0 (woIn m c 2) ∗ stg c cc0_stg7_0 (OUT m c))
  unfold finalAll Φ₁ stgIn
  iintro ⟨#Hrec, ⟨%W, Howes⟩, Hcells, Hwk, Hws, Hwr, Hg, Hpr, Has, Hgot, ⟨I0, I1, I2, I3, I4, I5, I6⟩, I7⟩
  imod hclose $$ [$] with Hsem
  imodintro
  ihave Hs := (X_scratch_rebuild m c hun) $$ [$]
  iframe
  iexists W
  isplitr; · ipureintro; exact fun _ _ => Or.inl trivial
  iexact Howes

end Cert.Kernel.P

end
-- ==== Proof.Bits.BodyCuts.lean ====
import proofs.«900976_g7700000000000977_dist_mlpseq_tp1d_bs_bs_b128_d128_h256_v7x_i8_bf16_1_alg».proof.Proof.Bits.PhaseSpecs

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def E_tail32 (c : Dev nD) (v3 v4 v6 : BitVec 32) : Prog (TpuEff nD τ sig (Elt F) Λ₀ .tc) (Σ' (d0 : Dev nD), BitVec 32) := do
  ARGS k0_part26
  (ARGS k0_part27) c
  (ARGS k0_part28) c
  (ARGS k0_part29) c
  (ARGS k0_part30) c
  (ARGS k0_part31) c v6
  semSignalWord (⟨k0_dev29 c, k0_dev29_lt c⟩ : Dev nD) (cc0_scoped0 : Sems sig S_).sem 1#32 hamt_1
  semSignalWord (⟨k0_dev30 c, k0_dev30_lt c⟩ : Dev nD) (cc0_scoped0 : Sems sig S_).sem 1#32 hamt_1
  semSignalWord (⟨k0_dev31 c, k0_dev31_lt c⟩ : Dev nD) (cc0_scoped0 : Sems sig S_).sem 1#32 hamt_1
  let v899_r0 : BitVec 32 := Scalar.addi v3 3#32
  let v900_r0 : BitVec 32 := Scalar.remsi v899_r0 4#32
  let v901_r0 : BitVec 32 := Scalar.addi v4 v900_r0
  pure ⟨c, v901_r0⟩

def E_tailBody (c : Dev nD) : Prog (TpuEff nD τ sig (Elt F) Λ₀ .tc) PUnit := do
  semSignalWord (⟨k0_dev32 c, k0_dev32_lt c⟩ : Dev nD) (cc0_scoped0 : Sems sig S_).sem 1#32 hamt_1
  semWaitWord (cc0_scoped0 : Sems sig S_).sem 4#32 hamt_4
  pure ⟨⟩

def restD (c : Dev nD) (v3 v4 v6 : BitVec 32) (v604 : FVec F S512x128 .bf16) :
    Prog (TpuEff nD τ sig (Elt F) Λ₀ .tc) (Σ' (d0 : Dev nD), BitVec 32) := do
  let ⟨v647, c4_i32_599⟩ : Σ' (v647 : BitVec 32), BitVec 32 ← (ARGS k0_part22) v3 v604
  let ⟨v649, v664, v679, v680⟩ : Σ' (v649 : BitVec 32) (v664 : BitVec 32) (v679 : BitVec 32), BitVec 32 ← (ARGS k0_part23) c v3 v4 v647 c4_i32_599
  let ⟨v708, c0_i32_653⟩ : Σ' (v708 : BitVec 32), BitVec 32 ← (ARGS k0_part24) c v649 v664 v679 v680
  (ARGS k0_part25) c v3 v708 c0_i32_653
  E_tail32 c v3 v4 v6

def restC (c : Dev nD) (v3 v4 v6 : BitVec 32) (v398 : FVec F S512x128 .bf16) :
    Prog (TpuEff nD τ sig (Elt F) Λ₀ .tc) (Σ' (d0 : Dev nD), BitVec 32) := do
  let ⟨v425, v431, v433⟩ : Σ' (v425 : FVec F S512x128 .f32) (v431 : FVec F S512x256 .bf16), FVec F S256x128 .bf16 ← (ARGS k0_part15) v6 v398
  let ⟨v443, v458⟩ : Σ' (v443 : BitVec 32), BitVec 32 ← (ARGS k0_part16) c v3 v4 v425 v431 v433
  let v473 : BitVec 32 ← (ARGS k0_part17) c v3 v4 v443 v458
  let v527 : FVec F S128x128 .f32 ← (ARGS k0_part18) c v3 v473
  let ⟨v542, v555⟩ : Σ' (v542 : BitVec 32), BitVec 32 ← (ARGS k0_part19) c v3 v4 v527
  let v568 : BitVec 32 ← (ARGS k0_part20) c v3 v4 v542 v555
  let v604 : FVec F S512x128 .bf16 ← (ARGS k0_part21) c v6 v568
  restD c v3 v4 v6 v604

def restB (c : Dev nD) (v3 v4 v6 v83 v96 v167 : BitVec 32) :
    Prog (TpuEff nD τ sig (Elt F) Λ₀ .tc) (Σ' (d0 : Dev nD), BitVec 32) := do
  let ⟨v192, v193⟩ : Σ' (v192 : FVec F S512x128 .bf16), BitVec 32 ← (ARGS k0_part7) c v6 v83 v96 v167
  let v219 : FVec F S512x128 .f32 ← (ARGS k0_part8) v6 v192 v193
  let ⟨v237, v252⟩ : Σ' (v237 : BitVec 32), BitVec 32 ← (ARGS k0_part9) c v3 v4 v192 v219
  let v267 : BitVec 32 ← (ARGS k0_part10) c v3 v4 v237 v252
  let ⟨v314, c2_i32_298⟩ : Σ' (v314 : FVec F S128x128 .f32), BitVec 32 ← (ARGS k0_part11) c v3 v252 v267
  let ⟨v336, v349⟩ : Σ' (v336 : BitVec 32), BitVec 32 ← (ARGS k0_part12) c v3 v4 v314 c2_i32_298
  let v362 : BitVec 32 ← (ARGS k0_part13) c v3 v4 v336 v349
  let v398 : FVec F S512x128 .bf16 ← (ARGS k0_part14) c v6 v349 v362
  restC c v3 v4 v6 v398

set_option maxRecDepth 65536 in
theorem part32_eq : ARGS (k0_part32_skel (F := F)) = (do
  let ⟨d0, v3, v4, v6, v7, v27⟩ : Σ' (d0 : Dev nD) (v3 : BitVec 32) (v4 : BitVec 32) (v6 : BitVec 32) (v7 : Sems sig S_), FVec F S128x256 .bf16 ← (ARGS k0_part1)
  (ARGS k0_part2) v27
  let ⟨v70, v83, v84, c0_i32_70⟩ : Σ' (v70 : BitVec 32) (v83 : BitVec 32) (v84 : BitVec 32), BitVec 32 ← (ARGS k0_part3) d0 v3 v4 v7
  let v96 : BitVec 32 ← (ARGS k0_part4) d0 v3 v4 v6 v84 c0_i32_70
  (ARGS k0_part5) d0 v6
  let v167 : BitVec 32 ← (ARGS k0_part6) d0 v6 v70
  restB d0 v3 v4 v6 v83 v96 v167) := rfl

set_option maxRecDepth 65536 in
theorem E_body_split : ARGS (cc0_body_skel (F := F)) = (do
  let ⟨d0, _⟩ : Σ' (d0 : Dev nD), BitVec 32 ← ARGS k0_part32
  E_tailBody d0) := rfl

end Cert.Kernel.P

end
-- ==== Proof.Bits.Levels.lean ====
import proofs.«900976_g7700000000000977_dist_mlpseq_tp1d_bs_bs_b128_d128_h256_v7x_i8_bf16_1_alg».proof.Proof.Bits.Inv
import Idealize.ShloMosaic.Lib.Pipeline.Launch
import Idealize.ShloMosaic.Lib.Tactic

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

theorem owedL_pos (xs : List (GSem nD τ sig × ℕ)) {g : GSem nD τ sig} {u : Unit} (h : 0 < owedL xs g u) : ∃ x ∈ xs, g = x.1 := by
  induction xs with
  | nil => exact absurd h (Nat.lt_irrefl 0)
  | cons x xs ih =>
    rw [owedL_cons, Pi.add_apply, Finsupp.add_apply, tallyAt_apply] at h
    by_cases hg : g = x.1 ∧ u = ()
    · exact ⟨x, List.mem_cons_self, hg.1⟩
    · rw [if_neg hg, Nat.add_zero] at h
      obtain ⟨y, hy, hgy⟩ := ih h
      exact ⟨y, List.mem_cons_of_mem _ hy, hgy⟩

theorem mayWait_of_lt (c : Dev nD) (sm : SemLoc sig) (xs : List (GSem nD τ sig × ℕ))
    (hxs : ∀ x ∈ xs, x.1.1.2 = .tc ∧ lv ((c : Thread nD τ), sm) () < lv x.1 ()) :
    (levAts L lv : sProp 𝕄) ⊢ MayWait (c : Thread nD τ) sm () (owedL xs) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := owedL_pos xs hg
      unfold L; rw [if_pos (hxs x hx).1]; exact Finset.mem_singleton_self _)
    (fun p hp => by rw [Finset.mem_singleton.mp hp])
    (fun g u hg => by
      obtain ⟨x, hx, rfl⟩ := owedL_pos xs hg
      exact (hxs x hx).2)

def owedSems : List (SemLoc sig) :=
  [.reg barS, .reg barS, .reg barS, .reg barS,
   .dma (arS 0), .dma (arS 0), .dma (arS 0),
   .dma (wrS 0), .dma (wrS 1), .dma (wrS 2), .dma (wrS 3), .dma (wrS 4), .dma (wrS 5),
   .dma (arS 1), .dma (arS 1), .dma (arS 1),
   .dma (arS 2), .dma (arS 2), .dma (arS 2),
   .dma (arS 3), .dma (arS 3), .dma (arS 3),
   .dma (arS 4), .dma (arS 4), .dma (arS 4),
   .dma (arS 5), .dma (arS 5), .dma (arS 5),
   .reg extS, .reg extS, .reg extS, .reg extS]

theorem owedItems_sems (c : Dev nD) : (owedItems c).map (fun x => x.1.2) = owedSems := rfl
theorem owedItems_tc (c : Dev nD) : ∀ x ∈ owedItems c, x.1.1.2 = .tc := by
  intro x hx
  have : x.1.1.2 ∈ (owedItems c).map (fun x => x.1.1.2) := List.mem_map_of_mem hx
  rw [show (owedItems c).map (fun x => x.1.1.2) = List.replicate 32 (Proc.tc : Proc τ) from rfl] at this
  exact List.eq_of_mem_replicate this

theorem mayWait_drop (c : Dev nD) (sm : SemLoc sig) (n : ℕ) (h : ∀ s ∈ owedSems.drop n, lvK (kindOf sm) < lvK (kindOf s)) :
    (levAts L lv : sProp 𝕄) ⊢ MayWait (c : Thread nD τ) sm () (owedL ((owedItems c).drop n)) :=
  mayWait_of_lt c sm _ fun x hx =>
    ⟨owedItems_tc c x (List.mem_of_mem_drop hx), h x.1.2 (by
      rw [← owedItems_sems c, ← List.map_drop]; exact List.mem_map_of_mem hx)⟩

theorem mayWait_bar (c : Dev nD) : (levAts L lv : sProp 𝕄) ⊢ MayWait (c : Thread nD τ) (.reg barS) () (owedL ((owedItems c).drop 4)) :=
  mayWait_drop c _ 4 (by decide)
theorem mayWait_ar0 (c : Dev nD) : (levAts L lv : sProp 𝕄) ⊢ MayWait (c : Thread nD τ) (.dma (arS 0)) () (owedL ((owedItems c).drop 13)) :=
  mayWait_drop c _ 13 (by decide)
theorem mayWait_wr0 (c : Dev nD) : (levAts L lv : sProp 𝕄) ⊢ MayWait (c : Thread nD τ) (.dma (wrS 0)) () (owedL ((owedItems c).drop 13)) :=
  mayWait_drop c _ 13 (by decide)
theorem mayWait_wr1 (c : Dev nD) : (levAts L lv : sProp 𝕄) ⊢ MayWait (c : Thread nD τ) (.dma (wrS 1)) () (owedL ((owedItems c).drop 13)) :=
  mayWait_drop c _ 13 (by decide)
theorem mayWait_ar1 (c : Dev nD) : (levAts L lv : sProp 𝕄) ⊢ MayWait (c : Thread nD τ) (.dma (arS 1)) () (owedL ((owedItems c).drop 16)) :=
  mayWait_drop c _ 16 (by decide)
theorem mayWait_ar2 (c : Dev nD) : (levAts L lv : sProp 𝕄) ⊢ MayWait (c : Thread nD τ) (.dma (arS 2)) () (owedL ((owedItems c).drop 19)) :=
  mayWait_drop c _ 19 (by decide)
theorem mayWait_wr2 (c : Dev nD) : (levAts L lv : sProp 𝕄) ⊢ MayWait (c : Thread nD τ) (.dma (wrS 2)) () (owedL ((owedItems c).drop 19)) :=
  mayWait_drop c _ 19 (by decide)
theorem mayWait_wr3 (c : Dev nD) : (levAts L lv : sProp 𝕄) ⊢ MayWait (c : Thread nD τ) (.dma (wrS 3)) () (owedL ((owedItems c).drop 19)) :=
  mayWait_drop c _ 19 (by decide)
theorem mayWait_ar3 (c : Dev nD) : (levAts L lv : sProp 𝕄) ⊢ MayWait (c : Thread nD τ) (.dma (arS 3)) () (owedL ((owedItems c).drop 22)) :=
  mayWait_drop c _ 22 (by decide)
theorem mayWait_ar4 (c : Dev nD) : (levAts L lv : sProp 𝕄) ⊢ MayWait (c : Thread nD τ) (.dma (arS 4)) () (owedL ((owedItems c).drop 25)) :=
  mayWait_drop c _ 25 (by decide)
theorem mayWait_wr4 (c : Dev nD) : (levAts L lv : sProp 𝕄) ⊢ MayWait (c : Thread nD τ) (.dma (wrS 4)) () (owedL ((owedItems c).drop 25)) :=
  mayWait_drop c _ 25 (by decide)
theorem mayWait_wr5 (c : Dev nD) : (levAts L lv : sProp 𝕄) ⊢ MayWait (c : Thread nD τ) (.dma (wrS 5)) () (owedL ((owedItems c).drop 25)) :=
  mayWait_drop c _ 25 (by decide)
theorem mayWait_ar5 (c : Dev nD) : (levAts L lv : sProp 𝕄) ⊢ MayWait (c : Thread nD τ) (.dma (arS 5)) () (owedL ((owedItems c).drop 28)) :=
  mayWait_drop c _ 28 (by decide)
theorem mayWait_send (c : Dev nD) (sm : SemLoc sig) (hsm : (∃ j, sm = .dma (wsS j)) ∨ ∃ j, sm = .dma (asS j)) :
    (levAts L lv : sProp 𝕄) ⊢ MayWait (c : Thread nD τ) sm () (owedL ((owedItems c).drop 28)) := by
  rcases hsm with ⟨j, rfl⟩ | ⟨j, rfl⟩
  · exact mayWait_drop c _ 28 (by rw [kindOf_ws]; show ∀ s ∈ List.drop 28 owedSems, 0 < lvK (kindOf s); decide)
  · exact mayWait_drop c _ 28 (by rw [kindOf_as]; show ∀ s ∈ List.drop 28 owedSems, 0 < lvK (kindOf s); decide)
theorem mayWait_ext (c : Dev nD) : (levAts L lv : sProp 𝕄) ⊢ MayWait (c : Thread nD τ) (.reg extS) () (owedL []) := by
  rw [show owedL ([] : List (GSem nD τ sig × ℕ)) = 0 from rfl, MayWait_zero]; iintro -; iempintro

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · have hk : kindOf (.dma q) = .none := by unfold kindOf; exact dif_pos hq
    have := mayWait_drop (F := F) c (.dma q) 0 (by rw [hk]; decide)
    exact this
  · rw [MayWait_zero]; iintro -; iempintro

end Cert.Kernel.P

end
-- ==== Proof.Bits.RoundSteps.lean ====
import proofs.«900976_g7700000000000977_dist_mlpseq_tp1d_bs_bs_b128_d128_h256_v7x_i8_bf16_1_alg».proof.Proof.Bits.Inv
import proofs.«900976_g7700000000000977_dist_mlpseq_tp1d_bs_bs_b128_d128_h256_v7x_i8_bf16_1_alg».proof.Proof.Bits.SchedTables
import Idealize.ShloMosaic.Lib.Pipeline.Launch
import Idealize.ShloMosaic.Lib.Tactic

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- A piece held at a share holds what it reads. -/
theorem rs_holds_intro {s : Shape} {e : EltTy} (r : Memref sig .tc .vmem s e) (q : PosShare TreeShare) (w : s.Idx → Elt F e)
    (f : Buf (Elt F) (r.view.loc (c : Thread nD τ))) (hf : r.view.read (Elt F) f = w) :
    (r.view.loc (c : Thread nD τ) ↦[r.view.set]{q} f) ⊢ holds c r q w := by
  unfold holds; iintro H; iexists f; isplitr; · ipureintro; exact hf
  iexact H

theorem wp_send_holds (n : Dev nD) {s : Shape} {e : EltTy}
    {src dst : Memref sig .tc .vmem s e}
    {hsc : (dst : Memref sig (Dev.tc n : Thread nD τ).2.kind .vmem s e).view.ref.isScScratch = false}
    {sS rS : DmaSem sig} {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    {κ₁ κ₂ : ℕ} (d₁ d₂ : Fin 4) (N : ℕ) (w : s.Idx → Elt F e) (q : PosShare TreeShare)
    (xs : List (GSem nD τ sig × ℕ)) (W : Waits sig Unit)
    (hd₁ : d₁ ∈ (Rd m).duties ((c : Thread nD τ), .dma sS) 0)
    (hd₂ : d₂ ∈ (Rd m).duties ((n : Thread nD τ), .dma rS) 0)
    (hN : dst.view.amount (.dma rS) = N)
    (hk₁ : (Rd m).amount ((c : Thread nD τ), .dma sS) 0 d₁ = N)
    (hk₂ : (Rd m).amount ((n : Thread nD τ), .dma rS) 0 d₂ = N)
    (hp₁ : (Rd m).payload ((c : Thread nD τ), .dma sS) 0 d₁ = holds c src q w)
    (hp₂ : (Rd m).payload ((n : Thread nD τ), .dma rS) 0 d₂ = holds n dst fullShare w)
    (hr : τ.routes (c : Thread nD τ) (n : Thread nD τ) = true) :
    iprop(cellInv ER (Rd m) κ₁ ((c : Thread nD τ), .dma sS) ∗ cellInv ER (Rd m) κ₂ ((n : Thread nD τ), .dma rS)
        ∗ holds c src q w ∗ holdsAny n dst
        ∗ owes (c : Thread nD τ) (owedL ((((n : Thread nD τ), .dma rS), N) :: xs)) W
        ∗ dutyTok ER ((c : Thread nD τ), .dma sS) 0 d₁ ∗ reached ER ((c : Thread nD τ), .dma sS) 0
        ∗ dutyTok ER ((n : Thread nD τ), .dma rS) 0 d₂ ∗ reached ER ((n : Thread nD τ), .dma rS) 0)
      ⊢ iprop(((cred (tallyAt ((c : Thread nD τ), .dma sS) () N) ∗ owes (c : Thread nD τ) (owedL xs) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  unfold holds holdsAny
  iintro ⟨HI₁, HI₂, ⟨%fs, %hfs, Hs⟩, ⟨%fd, Hd⟩, Hrest⟩
  iapply (Rounds.wp_send_pointsTo 𝒱₀ ER (Rd m) (c : Thread nD τ) none (c' := (n : Thread nD τ)) (hsc := hsc) (hsrc := hsrc)
      (hdst := hdst) (hsem := hsem) (k := k) (Q := Q) (κ₁ := κ₁) (κ₂ := κ₂) (r₁ := 0) (r₂ := 0) (q := q) (fs := fs) (fd := fd)
      hd₁ hd₂ () () N hN hk₁ hk₂ (owedL xs) (owedL_cons (((n : Thread nD τ), .dma rS), N) xs) (W := W) (by rw [hp₁]; exact rs_holds_intro c src q w fs hfs)
      (by rw [hp₂]; exact rs_holds_intro n dst fullShare w _ (by rw [View.read_write_univ, hfs])) hr) $$ [HI₁ HI₂ Hs Hd Hrest]
  iframe

theorem routes_pp : ∀ (c : Dev nD) (i : Fin 4), τ.routes (c : Thread nD τ) (pp c i : Thread nD τ) = true := by decide +kernel

theorem wp_sig_bar (n : Dev nD) (i : Fin 4) (hn : n = pp c i) {a : ℕ} (ha : a = 1)
    {α : Type} {Q : α → sProp 𝕄} {k : PUnit → Prog (TpuEff nD τ sig (Elt F) Λ₀ .tc) α} {κ : ℕ}
    (xs : List (GSem nD τ sig × ℕ)) (W : Waits sig Unit) :
    iprop(cellInv ER (Rd m) κ (barC (pp c i))
        ∗ owes (c : Thread nD τ) (owedL ((barC (pp c i), 1) :: xs)) W
        ∗ dutyTok ER (barC (pp c i)) 0 (inv i) ∗ barPay (pp c i) (inv i)
        ∗ reached ER (barC (pp c i)) 0)
      ⊢ iprop((owes (c : Thread nD τ) (owedL xs) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS a) k) Q) := by
  subst hn ha
  rw [← payload_bar m (pp c i) (inv i)]
  exact Rounds.wp_signal 𝒱₀ ER (Rd m) (c : Thread nD τ) none (mem_bar m _ _) (amount_bar m _ _) () (owedL xs) (owedL_cons _ _)
    (routes_pp c i)

theorem wp_sig_ext (n : Dev nD) (i : Fin 4) (hn : n = pp c i) {a : ℕ} (ha : a = 1)
    {α : Type} {Q : α → sProp 𝕄} {k : PUnit → Prog (TpuEff nD τ sig (Elt F) Λ₀ .tc) α} {κ : ℕ}
    (xs : List (GSem nD τ sig × ℕ)) (W : Waits sig Unit) :
    iprop(cellInv ER (Rd m) κ (extC (pp c i))
        ∗ owes (c : Thread nD τ) (owedL ((extC (pp c i), 1) :: xs)) W
        ∗ dutyTok ER (extC (pp c i)) 0 (inv i)
        ∗ reached ER (extC (pp c i)) 0)
      ⊢ iprop((owes (c : Thread nD τ) (owedL xs) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) extS a) k) Q) := by
  subst hn ha
  iintro ⟨HI, HO, Ht, Hr⟩
  iapply (Rounds.wp_signal 𝒱₀ ER (Rd m) (c : Thread nD τ) none (dst := (pp c i : Thread nD τ)) (sem := extS) (r := 0) (d := inv i)
    (κ := κ) (mem_ext m _ _) (amount_ext m _ _) () (owedL xs) (owedL_cons (extC (pp c i), 1) xs) (W := W) (routes_pp c i)) $$ [HI HO Ht Hr]
  rw [payload_ext m (pp c i) (inv i)]; iframe

theorem barPay_to0 : barPay (F := F) (pp c 0) (inv 0) =
    iprop(holdsAny c (winsJ 1 0) ∗ holdsAny c (woutsJ 1 0) ∗ holdsAny c (winsJ 1 1) ∗ holdsAny c (woutsJ 1 1)
      ∗ holdsAny c (winsJ 1 2) ∗ holdsAny c (woutsJ 1 2)) := by
  rw [show inv 0 = 0 from rfl, barPay_0, show pp (pp c 0) 0 = c from pp_pp_inv c 0]

theorem barPay_to (i : Fin 4) (hi : i ≠ 0) : barPay (F := F) (pp c i) (inv i) =
    iprop(holdsAny c (slotJ xgM (qd (pp c i))) ∗ holdsAny c (slotJ (raccM 0) (qd (pp c i))) ∗ holdsAny c (slotJ (xnM 0) (qd (pp c i)))
      ∗ holdsAny c (slotJ (raccM 1) (qd (pp c i))) ∗ holdsAny c (slotJ (xnM 1) (qd (pp c i))) ∗ holdsAny c (slotJ (raccM 2) (qd (pp c i)))) := by
  rw [barPay_peer (pp c i) (inv i) (by revert i; decide), pp_pp_inv]

/-- A wait that takes the rest of a cell's one round: its owner stands at round 1 with the payloads P of the duties not yet taken. -/
theorem wp_wait_rest0 (sm : SemLoc sig) {w : TpuEff nD τ sig (Elt F) Λ₀ .tc PUnit} {N a : ℕ} {T : Finset (Fin 4)} {P : sProp 𝕄}
    (hw : ∀ K : PUnit → sProp 𝕄, wpE (defs₀ (F := F)) 𝒱₀ (c : Thread nD τ) none Set.univ w K = waitSpec (c : Thread nD τ) Set.univ sm N K)
    {α : Type} {Q : α → sProp 𝕄} {k : PUnit → Prog (TpuEff nD τ sig (Elt F) Λ₀ .tc) α} {κ : ℕ}
    (O : CellTallies nD τ sig Unit) (W : Waits sig Unit) (hexp : a + N = (Rd m).expect ((c : Thread nD τ), sm) 0)
    (hP : bigSep ((Rd m).duties ((c : Thread nD τ), sm) 0 \ T) (fun d => (Rd m).payload ((c : Thread nD τ), sm) 0 d) = P) :
    iprop(cellInv ER (Rd m) κ ((c : Thread nD τ), sm) ∗ cred (tallyAt ((c : Thread nD τ), sm) () N) ∗ owes (c : Thread nD τ) O W
        ∗ MayWait (c : Thread nD τ) sm () O ∗ atPos ER ((c : Thread nD τ), sm) 0 T a)
      ⊢ iprop(((owes (c : Thread nD τ) O (insert (sm, ()) W) ∗ atPos ER ((c : Thread nD τ), sm) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hP
  iintro H Hk
  iapply (Rounds.wp_wait_rest_token 𝒱₀ ER (Rd m) (c : Thread nD τ) none hw (Set.mem_univ κ) () hexp) $$ H
  iintro ⟨HO, Hat, -, Hpay⟩
  iapply Hk; iframe

theorem wp_wait_bar (sem : Sem sig) (hs : sem = barS) {a : ℕ} (ha : a = 4)
    {α : Type} {Q : α → sProp 𝕄} {k : PUnit → Prog (TpuEff nD τ sig (Elt F) Λ₀ .tc) α} {κ : ℕ}
    (O : CellTallies nD τ sig Unit) (W : Waits sig Unit) :
    iprop(cellInv ER (Rd m) κ (barC c) ∗ cred (tallyAt (barC c) () 4) ∗ owes (c : Thread nD τ) O W
        ∗ MayWait (c : Thread nD τ) (.reg barS) () O ∗ atPos ER (barC c) 0 ∅ 0)
      ⊢ iprop(((owes (c : Thread nD τ) O (insert (SemLoc.reg barS, ()) W) ∗ atPos ER (barC c) 1 ∅ 0
              ∗ barPay c 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem a) k) Q) := by
  subst hs ha
  exact wp_wait_rest0 m c _ (wpE_semWait_eq 𝒱₀ _ none Set.univ) O W (by rw [expect_bar]) (rest_bar m c)

theorem wp_wait_ext (sem : Sem sig) (hs : sem = extS) {a : ℕ} (ha : a = 4)
    {α : Type} {Q : α → sProp 𝕄} {k : PUnit → Prog (TpuEff nD τ sig (Elt F) Λ₀ .tc) α} {κ : ℕ}
    (O : CellTallies nD τ sig Unit) (W : Waits sig Unit) :
    iprop(cellInv ER (Rd m) κ (extC c) ∗ cred (tallyAt (extC c) () 4) ∗ owes (c : Thread nD τ) O W
        ∗ MayWait (c : Thread nD τ) (.reg extS) () O ∗ atPos ER (extC c) 0 ∅ 0)
      ⊢ iprop(((owes (c : Thread nD τ) O (insert (SemLoc.reg extS, ()) W) ∗ atPos ER (extC c) 1 ∅ 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem a) k) Q) := by
  subst hs ha
  iintro H Hk
  iapply (wp_wait_rest0 m c _ (wpE_semWait_eq 𝒱₀ _ none Set.univ) (κ := κ) O W (by rw [expect_ext]) rfl) $$ H
  iintro ⟨HO, Hat, -⟩
  iapply Hk; iframe

theorem wp_wait_ws (j : Fin 6) (sm : DmaSem sig) (hs : sm = wsS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cW j) :
    iprop(cellInv ER (Rd m) κ (wsC c j) ∗ cred (tallyAt (wsC c j) () (cW j)) ∗ owes (c : Thread nD τ) O W
        ∗ MayWait (c : Thread nD τ) (.dma (wsS j)) () O ∗ atPos ER (wsC c j) 0 ∅ 0)
      ⊢ iprop(((owes (c : Thread nD τ) O (insert (SemLoc.dma (wsS j), ()) W) ∗ atPos ER (wsC c j) 1 ∅ 0 ∗ wsPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← hamt]
  exact wp_wait_rest0 m c _ (wpE_waitDma2_eq 𝒱₀ _ none Set.univ) O W (by rw [expect_ws, hamt, Nat.zero_add])
    (by rw [Finset.sdiff_empty, duties_ws, bigSep_singleton, payload_ws])

theorem wp_wait_wr (j : Fin 6) (sm : DmaSem sig) (hs : sm = wrS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cW j) :
    iprop(cellInv ER (Rd m) κ (wrC c j) ∗ cred (tallyAt (wrC c j) () (cW j)) ∗ owes (c : Thread nD τ) O W
        ∗ MayWait (c : Thread nD τ) (.dma (wrS j)) () O ∗ atPos ER (wrC c j) 0 ∅ 0)
      ⊢ iprop(((owes (c : Thread nD τ) O (insert (SemLoc.dma (wrS j), ()) W) ∗ atPos ER (wrC c j) 1 ∅ 0 ∗ wrPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← hamt]
  exact wp_wait_rest0 m c _ (wpE_waitDma2_eq 𝒱₀ _ none Set.univ) O W (by rw [expect_wr, hamt, Nat.zero_add])
    (by rw [Finset.sdiff_empty, duties_wr, bigSep_singleton, payload_wr])

def midWait (g : GSem nD τ sig) (a : ℕ) : sProp 𝕄 :=
  iprop(∃ S : Finset (Fin 4), ⌜S ⊆ (Rd m).duties g 0⌝ ∗ atPos ER g 0 S a ∗ bigSep S (fun d => (Rd m).payload g 0 d))

theorem midWait_zero (g : GSem nD τ sig) : atPos ER g 0 ∅ 0 ⊢ midWait m g 0 := by
  unfold midWait
  iintro Hat
  iexists (∅ : Finset (Fin 4))
  isplitr; · ipureintro; exact Finset.empty_subset _
  rw [bigSep_empty]; iframe; iempintro

/-- A set of duties is split into an earlier part and the rest. -/
theorem payload_join (Φ : Fin 4 → sProp 𝕄) {T S : Finset (Fin 4)} (h : T ⊆ S) :
    iprop(bigSep T Φ ∗ bigSep (S \ T) Φ) ⊢ bigSep S Φ := Entails.of_eq (bigSep_sdiff_split h).symm

theorem wp_wait3_step (sm : DmaSem sig) (N a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = N) :
    iprop(cellInv ER (Rd m) κ ((c : Thread nD τ), .dma sm) ∗ cred (tallyAt ((c : Thread nD τ), .dma sm) () N)
        ∗ owes (c : Thread nD τ) O W ∗ MayWait (c : Thread nD τ) (.dma sm) () O ∗ midWait m ((c : Thread nD τ), .dma sm) a)
      ⊢ iprop(((owes (c : Thread nD τ) O (insert (SemLoc.dma sm, ()) W) ∗ midWait m ((c : Thread nD τ), .dma sm) (a + N))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hamt
  rw [Finset.insert_eq, Finset.union_comm]
  unfold midWait
  iintro ⟨HI, Hc, HO, Hm, %T, %hT, Hat, HT⟩ Hk
  iapply (Rounds.wp_wait 𝒱₀ ER (Rd m) (c : Thread nD τ) none (κ := κ) (wpE_waitDma2_eq 𝒱₀ _ none Set.univ) (Set.mem_univ _)
      (cr := Finsupp.single () dst.view.dmaCredit) (O := O) (W := W) {(SemLoc.dma sm, ())} (T := T)
      (by rw [Util.total_single]) (image_single_subset _ _ _)) $$ [HI Hc HO Hm Hat]
  · iframe HI HO Hat; isplitl [Hc]; · iexact Hc
    iexact Hm
  iintro %S ⟨%hS, HO, Hat, Hpay⟩
  iapply Hk
  iframe HO; iexists S; iframe Hat
  isplitr; · ipureintro; exact hS.2.1
  iapply (payload_join _ hS.1); iframe

theorem wp_wait3_last (sm : DmaSem sig) (N a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = N)
    (hdut : (Rd m).duties ((c : Thread nD τ), .dma sm) 0 = {1, 2, 3})
    (hexp : a + N = (Rd m).expect ((c : Thread nD τ), .dma sm) 0) :
    iprop(cellInv ER (Rd m) κ ((c : Thread nD τ), .dma sm) ∗ cred (tallyAt ((c : Thread nD τ), .dma sm) () N)
        ∗ owes (c : Thread nD τ) O W ∗ MayWait (c : Thread nD τ) (.dma sm) () O ∗ midWait m ((c : Thread nD τ), .dma sm) a)
      ⊢ iprop(((owes (c : Thread nD τ) O (insert (SemLoc.dma sm, ()) W) ∗ atPos ER ((c : Thread nD τ), .dma sm) 1 ∅ 0
              ∗ (Rd m).payload ((c : Thread nD τ), .dma sm) 0 1 ∗ (Rd m).payload ((c : Thread nD τ), .dma sm) 0 2
              ∗ (Rd m).payload ((c : Thread nD τ), .dma sm) 0 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hamt
  unfold midWait
  iintro ⟨HI, Hc, HO, Hm, %T, %hT, Hat, HT⟩ Hk
  iapply (wp_wait_rest0 m c _ (wpE_waitDma2_eq 𝒱₀ _ none Set.univ) (κ := κ) O W hexp rfl) $$ [HI Hc HO Hm Hat]; · iframe
  iintro ⟨HO, Hat, Hpay⟩
  iapply Hk; iframe HO Hat
  rw [← bigSep_123 ((Rd m).payload _ 0), ← hdut]
  iapply (payload_join _ hT); iframe

theorem cred_three (g : GSem nD τ sig) (N : ℕ) :
    (cred (tallyAt g () (3 * N)) : sProp 𝕄) ⊣⊢ iprop(cred (tallyAt g () N) ∗ cred (tallyAt g () N) ∗ cred (tallyAt g () N)) := by
  rw [show 3 * N = N + (N + N) by omega, ← tallyAt_add, ← tallyAt_add]
  exact (cred_add _ _).trans (sep_congr_right (cred_add _ _))

theorem wp_close (sm : SemLoc sig) {κ : ℕ} :
    iprop(cellInv ER (Rd m) κ ((c : Thread nD τ), sm) ∗ atPos ER ((c : Thread nD τ), sm) 1 ∅ 0)
      ⊢ iprop(|={Set.univ}=> semVal ((c : Thread nD τ), sm) 0) :=
  Rounds.cell_close ER (Rd m) (Set.mem_univ _) (fun h => h) (duties_later m _)

theorem wp_wait_as_last (j : Fin 6) (sm : DmaSem sig) (hs : sm = asS j) (a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cA j) (ha : a + cA j = 3 * cA j) :
    iprop(cellInv ER (Rd m) κ (asC c j) ∗ cred (tallyAt (asC c j) () (cA j))
        ∗ owes (c : Thread nD τ) O W ∗ MayWait (c : Thread nD τ) (.dma (asS j)) () O ∗ midWait m (asC c j) a)
      ⊢ iprop(((owes (c : Thread nD τ) O (insert (SemLoc.dma (asS j), ()) W) ∗ atPos ER (asC c j) 1 ∅ 0
              ∗ asPay m c j 1 ∗ asPay m c j 2 ∗ asPay m c j 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← payload_as m c j 1, ← payload_as m c j 2, ← payload_as m c j 3]
  exact wp_wait3_last m c (asS j) (cA j) a O W hamt (duties_as m c j) (by rw [expect_as]; exact ha)

theorem wp_wait_ar_last (j : Fin 6) (sm : DmaSem sig) (hs : sm = arS j) (a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α} {κ : ℕ}
    (O : CellTallies nD τ sig Unit) (W : Waits sig Unit) (hamt : dst.view.dmaCredit = cA j) (ha : a + cA j = 3 * cA j) :
    iprop(cellInv ER (Rd m) κ (arC c j) ∗ cred (tallyAt (arC c j) () (cA j))
        ∗ owes (c : Thread nD τ) O W ∗ MayWait (c : Thread nD τ) (.dma (arS j)) () O ∗ midWait m (arC c j) a)
      ⊢ iprop(((owes (c : Thread nD τ) O (insert (SemLoc.dma (arS j), ()) W) ∗ atPos ER (arC c j) 1 ∅ 0
              ∗ arPay m c j 1 ∗ arPay m c j 2 ∗ arPay m c j 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  rw [← payload_ar m c j 1, ← payload_ar m c j 2, ← payload_ar m c j 3]
  exact wp_wait3_last m c (arS j) (cA j) a O W hamt (duties_ar m c j) (by rw [expect_ar]; exact ha)

end Cert.Kernel.P

end
-- ==== Proof.Bits.BodyA.lean ====
import proofs.«900976_g7700000000000977_dist_mlpseq_tp1d_bs_bs_b128_d128_h256_v7x_i8_bf16_1_alg».proof.Proof.Bits.PhaseSpecs
import proofs.«900976_g7700000000000977_dist_mlpseq_tp1d_bs_bs_b128_d128_h256_v7x_i8_bf16_1_alg».proof.Proof.Bits.Levels
import proofs.«900976_g7700000000000977_dist_mlpseq_tp1d_bs_bs_b128_d128_h256_v7x_i8_bf16_1_alg».proof.Proof.Bits.HoldsLemmas
import proofs.«900976_g7700000000000977_dist_mlpseq_tp1d_bs_bs_b128_d128_h256_v7x_i8_bf16_1_alg».proof.Proof.Bits.RoundSteps
import proofs.«900976_g7700000000000977_dist_mlpseq_tp1d_bs_bs_b128_d128_h256_v7x_i8_bf16_1_alg».proof.Proof.Bits.Reindex

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ ((c : Dev nD) : Thread nD τ) none) Set.univ

theorem A_hz2 : (![0, 0] : Fin 2 → Nat) = fun _ => 0 := funext fun a => by fin_cases a <;> rfl

theorem A_ret {α : Type} (c : Dev nD) (a : α) (Q : α → sProp 𝕄) : Q a ⊢ wpX[c] (.ret a) Q := fupd_intro (PROP := sProp 𝕄)

abbrev A_vm (i : Fin (sig.nNear .tc .vmem)) (h : sig.names .tc .vmem i = true) : Ref sig .tc := ⟨.vmem, i, h⟩

-- A buffer held whole is read whole: the box of its own sizes at zero offsets is the whole buffer.
theorem A_load_stg (c : Dev nD) (i : Fin (sig.nNear .tc .vmem)) (h : sig.names .tc .vmem i = true) (X : (A_vm i h).ty.Contents (Elt F))
    {off : Fin (A_vm i h).ty.shape.rank → Nat} (h0 : off = fun _ => 0)
    {inb : ∀ a, off a + (A_vm i h).ty.shape.size a ≤ (A_vm i h).ty.shape.size a}
    {hl : (Memref.whole (A_vm i h) : Memref sig .tc .vmem _ _).view.LoadsAt (Rect.unit off (A_vm i h).ty.shape.size inb).toLoadRect}
    {α : Type} {Q : α → sProp 𝕄} {k : (A_vm i h).ty.Contents (Elt F) → Prog (TpuEff nD τ sig (Elt F) Λ₀ .tc) α} :
    stg c (A_vm i h) X ⊢ iprop((stg c (A_vm i h) X -∗ wpX[c] (k X) Q)
      -∗ wpX[c] (.op (.load (Memref.whole (A_vm i h)) (Rect.unit off (A_vm i h).ty.shape.size inb).toLoadRect hl) k) Q) := by
  iintro H Hk
  icases H with ⟨%f, %hf, Hx⟩
  subst hf
  iapply (wp_load 𝒱₀ (c : Thread nD τ) none Set.univ (m := (Memref.whole (A_vm i h) : Memref sig .tc .vmem _ _)) (Finset.subset_univ _)) $$ Hx
  iintro Hx
  have hr := Memref.readAt_unit_zero (Elt F) (A_vm i h) h0 inb f
  ihave Hk' := (Entails.of_eq (congrArg (fun z => iprop(stg c (A_vm i h) f -∗ wpX[c] (k z) Q)) hr.symm)) $$ Hk
  iapply Hk'
  iexists f
  isplitr
  · ipureintro <;> rfl
  iexact Hx

theorem A_bind {α β : Type} (c : Dev nD) (p : Prog (TpuEff nD τ sig (Elt F) Λ₀ .tc) α) (k : α → Prog (TpuEff nD τ sig (Elt F) Λ₀ .tc) β) (Q : β → sProp 𝕄) :
    wpX[c] p (fun a => wpX[c] (k a) Q) ⊢ wpX[c] (p >>= k) Q := by
  rw [wp_bind]

theorem A_wsS (j : Fin 6) {inb} : ((cc0_scratch11.slice (Rect.unit (s := S6) ![j.val] S1.size inb)).squeeze S_ squeezes_S1_S_).sem = wsS j := by
  revert j; decide
theorem A_wrS (j : Fin 6) {inb} : ((cc0_scratch12.slice (Rect.unit (s := S6) ![j.val] S1.size inb)).squeeze S_ squeezes_S1_S_).sem = wrS j := by
  revert j; decide
theorem A_asS0 : ((cc0_scratch13.slice (Rect.unit (s := S6) ![0] S1.size inb_S6_S1_0)).squeeze S_ squeezes_S1_S_).sem = asS 0 := by decide
theorem A_arS0 : ((cc0_scratch14.slice (Rect.unit (s := S6) ![0] S1.size inb_S6_S1_0)).squeeze S_ squeezes_S1_S_).sem = arS 0 := by decide

theorem A_inv_ne : ∀ d : Fin 4, d ≠ 0 → Mesh.inv d ≠ 0 := by decide

theorem A_next (c : Dev nD) (n n' : ℕ) (x : GSem nD τ sig × ℕ) (W : Waits sig Unit) (h : (owedItems c).drop n = x :: (owedItems c).drop n') :
    (owes (c : Thread nD τ) (owedL ((owedItems c).drop n)) W : sProp 𝕄) ⊢ owes (c : Thread nD τ) (owedL (x :: (owedItems c).drop n')) W := by
  rw [h]

theorem A_sh1 : sh 1 = fullShare.right.left := rfl
theorem A_sh2 : sh 2 = fullShare.right.right.left := rfl
theorem A_sh3 : sh 3 = fullShare.right.right.right := rfl
theorem A_any4 (c : Dev nD) (b : Memref sig .tc .vmem S4x128x128 .bf16) :
    any4 (F := F) c b ⊢ iprop(holdsAny c (slotJ b (qd c)) ∗ holdsAny c (slotJ b (qd (pp c 1))) ∗ holdsAny c (slotJ b (qd (pp c 2))) ∗ holdsAny c (slotJ b (qd (pp c 3)))) :=
  (X_reindex4 c (fun j => holdsAny (F := F) c (slotJ b j))).2

variable (m : (ℓ : Loc nD τ sig) → Buf (Elt F) ℓ)

-- Every cell's invariant and its first round's start are in the records; the cell is named by its index's equation.
theorem A_inv (K : Dev nD × Fin 26 → ℕ) (c' : Dev nD) {i : Fin 26} {g} (h : cellK i = g) :
    records m K ⊢ cellInv ER (Rd m) (K (c', i)) ((c' : Thread nD τ), g) := by
  subst h; unfold records
  exact (BI.Entails.trans BI.sep_and and_elimL).trans (bigSep_elim (Φ := fun ck : Dev nD × Fin 26 => cellInv ER (Rd m) (K ck) (kcell ck)) (Finset.mem_univ (c', i)))
theorem A_reached (K : Dev nD × Fin 26 → ℕ) (c' : Dev nD) {i : Fin 26} {g} (h : cellK i = g) :
    records m K ⊢ reached ER ((c' : Thread nD τ), g) 0 := by
  subst h; unfold records
  exact (BI.Entails.trans BI.sep_and and_elimR).trans (bigSep_elim (Φ := fun ck : Dev nD × Fin 26 => reached ER (kcell ck) 0) (Finset.mem_univ (c', i)))

theorem A_X0q (c : Dev nD) : X0q m c = sq3 (k0_pay8 (xin m c)) := rfl
theorem A_Wi0 (c : Dev nD) : Wi m c 0 = sqW (k0_pay2 (k0_pay1 (wiIn m c 0))) := rfl
theorem A_Wi1 (c : Dev nD) : Wi m c 1 = sqW (k0_pay4 (wiIn m c 1)) := rfl
theorem A_Wi2 (c : Dev nD) : Wi m c 2 = sqW (k0_pay6 (wiIn m c 2)) := rfl
theorem A_Wo0 (c : Dev nD) : Wo m c 0 = sqO (k0_pay3 (woIn m c 0)) := rfl
theorem A_Wo1 (c : Dev nD) : Wo m c 1 = sqO (k0_pay5 (woIn m c 1)) := rfl
theorem A_Wo2 (c : Dev nD) : Wo m c 2 = sqO (k0_pay7 (woIn m c 2)) := rfl

theorem A_cA_slot (b : Memref sig .tc .vmem S4x128x128 .bf16) (j j' : Fin 4) : (slotJ b j).view.dmaCredit = (slotJ b j').view.dmaCredit := rfl

theorem A_send_x (K : Dev nD × Fin 26 → ℕ) (c n : Dev nD) (d : Fin 4) (hn : n = pp c d) (hd : d ≠ 0) {off : Fin 3 → Nat} (hoff : off = ![(qd c).val, 0, 0])
    {inb : ∀ a, off a + S1x128x128.size a ≤ S4x128x128.size a}
    {hsc : ((slot4 xgM off inb) : Memref sig (Dev.tc n : Thread nD τ).2.kind .vmem S128x128 .bf16).view.ref.isScScratch = false}
    {sS rS : DmaSem sig} (hsS : sS = asS 0) (hrS : rS = arS 0) {hsrc : (slot4 xgM off inb).view.WordExact} {hdst : (slot4 xgM off inb).view.WordExact}
    {hsem : DmaTarget.Typed .vmem (.dma rS) (.remote (Dev.tc n : Thread nD τ) (slot4 xgM off inb) (.dma sS) hsc)}
    {α : Type} {Q : α → sProp 𝕄} {k : PUnit → Prog (TpuEff nD τ sig (Elt F) Λ₀ .tc) α}
    (a a' : ℕ) (h : (owedItems c).drop a = (arC (pp c d) 0, cA 0) :: (owedItems c).drop a') (W : Waits sig Unit) :
    iprop(records m K ∗ holds c (slotJ xgM (qd c)) (sh d) (X0q m c) ∗ holdsAny (pp c d) (slotJ xgM (qd c))
        ∗ owes (c : Thread nD τ) (owedL ((owedItems c).drop a)) W ∗ dutyTok ER (asC c 0) 0 d ∗ dutyTok ER (arC (pp c d) 0) 0 (inv d))
      ⊢ iprop(((cred (tallyAt (asC c 0) () (cA 0)) ∗ owes (c : Thread nD τ) (owedL ((owedItems c).drop a')) W) -∗ wpX[c] (k ⟨⟩) Q)
          -∗ wpX[c] (.op (.enqueueDma (slot4 xgM off inb) (.remote (Dev.tc n : Thread nD τ) (slot4 xgM off inb) (.dma sS) hsc) (.dma rS) hsrc hdst hsem) k) Q) := by
  subst hn; subst hoff; subst hsS; subst hrS
  iintro ⟨#HR, Hs, Hd, HO, Ht1, Ht2⟩
  ihave HO := (A_next c a a' _ W h) $$ HO
  have hp2 : (Rd m).payload (arC (pp c d) 0) 0 (inv d) = holds (pp c d) (slotJ xgM (qd c)) fullShare (X0q m c) := by
    rw [payload_ar, arPay_0, pp_pp_inv]
  iapply (wp_send_holds m c (pp c d) (src := slotJ xgM (qd c)) (dst := slotJ xgM (qd c)) (hsc := hsc) (hsrc := hsrc) (hdst := hdst) (hsem := hsem) (k := k) (Q := Q)
      (κ₁ := K (c, ⟨14 + (0 : Fin 6).val, by omega⟩)) (κ₂ := K (pp c d, ⟨20 + (0 : Fin 6).val, by omega⟩)) d (inv d) (cA 0) (X0q m c) (sh d) ((owedItems c).drop a') W
      (mem_as m c 0 d hd) (mem_ar m (pp c d) 0 (inv d) (A_inv_ne d hd)) (A_cA_slot xgM (qd c) 0) (amount_as m c 0 d) (amount_ar m (pp c d) 0 (inv d))
      ((payload_as m c 0 d).trans (asPay_0 m c d)) hp2 (routes_pp c d)) $$ [Hs Hd HO Ht1 Ht2]
  iframe
  isplitr; · iapply (A_inv m K c (cellK_as 0)); iexact HR
  isplitr; · iapply (A_inv m K (pp c d) (cellK_ar 0)); iexact HR
  isplitr; · iapply (A_reached m K c (cellK_as 0)); iexact HR
  iapply (A_reached m K (pp c d) (cellK_ar 0)); iexact HR

theorem A_send_w (K : Dev nD × Fin 26 → ℕ) (c n : Dev nD) (hn : n = pp c 0) (j : Fin 6) {s : Shape} {e : EltTy} {src dst : Memref sig .tc .vmem s e}
    {hsc : (dst : Memref sig (Dev.tc n : Thread nD τ).2.kind .vmem s e).view.ref.isScScratch = false}
    {sS rS : DmaSem sig} (hsS : sS = wsS j) (hrS : rS = wrS j) {hsrc : src.view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (w : s.Idx → Elt F e) (a a' : ℕ) (h : (owedItems c).drop a = (wrC (pp c 0) j, cW j) :: (owedItems c).drop a') (W : Waits sig Unit)
    (hs : wsPay m c j = holds c src shR w) (hr : wrPay m (pp c 0) j = holds (pp c 0) dst fullShare w) (hN : dst.view.dmaCredit = cW j) :
    iprop(records m K ∗ holds c src fullShare w ∗ holdsAny (pp c 0) dst ∗ owes (c : Thread nD τ) (owedL ((owedItems c).drop a)) W
        ∗ dutyTok ER (wsC c j) 0 0 ∗ dutyTok ER (wrC (pp c 0) j) 0 0)
      ⊢ iprop(((holds c src shK w ∗ cred (tallyAt (wsC c j) () (cW j)) ∗ owes (c : Thread nD τ) (owedL ((owedItems c).drop a')) W) -∗ wpX[c] (k ⟨⟩) Q)
          -∗ wpX[c] (.op (.enqueueDma src (.remote (Dev.tc n : Thread nD τ) dst (.dma sS) hsc) (.dma rS) hsrc hdst hsem) k) Q) := by
  subst hn; subst hsS; subst hrS
  iintro ⟨#HR, Hs, Hd, HO, Ht1, Ht2⟩ Hk
  ihave ⟨HsK, Hs⟩ := (holds_split c src fullShare w) $$ Hs
  ihave HO := (A_next c a a' _ W h) $$ HO
  iapply (wp_send_holds m c (pp c 0) (hsc := hsc) (hsrc := hsrc) (hdst := hdst) (hsem := hsem) (k := k) (Q := Q)
      (κ₁ := K (c, ⟨2 + j.val, by omega⟩)) (κ₂ := K (pp c 0, ⟨8 + j.val, by omega⟩)) 0 0 (cW j) w shR ((owedItems c).drop a') W
      (mem_ws m c j) (mem_wr m (pp c 0) j) hN (amount_ws m c j 0) (amount_wr m (pp c 0) j 0)
      ((payload_ws m c j 0).trans hs) ((payload_wr m (pp c 0) j 0).trans hr) (routes_pp c 0)) $$ [Hs Hd HO Ht1 Ht2]
  · iframe
    isplitr; · iapply (A_inv m K c (cellK_ws j)); iexact HR
    isplitr; · iapply (A_inv m K (pp c 0) (cellK_wr j)); iexact HR
    isplitr; · iapply (A_reached m K c (cellK_ws j)); iexact HR
    iapply (A_reached m K (pp c 0) (cellK_wr j)); iexact HR
  iintro ⟨Hcr, HO⟩
  iapply Hk
  iframe

theorem part1_spec (K : Dev nD × Fin 26 → ℕ) (c : Dev nD) (W : Waits sig Unit) (Q : _ → sProp 𝕄) :
    iprop(records m K ∗ iprop(owesFrom c 0 W
    ∗ (dutyTok ER (barC (pp c 0)) 0 (inv 0) ∗ dutyTok ER (barC (pp c 1)) 0 (inv 1) ∗ dutyTok ER (barC (pp c 2)) 0 (inv 2) ∗ dutyTok ER (barC (pp c 3)) 0 (inv 3))
    ∗ stg c cc0_stg1_0 (wiIn m c 0)
    ∗ (holdsAny c (winsJ 1 0) ∗ holdsAny c (woutsJ 1 0) ∗ holdsAny c (winsJ 1 1) ∗ holdsAny c (woutsJ 1 1) ∗ holdsAny c (winsJ 1 2) ∗ holdsAny c (woutsJ 1 2))
    ∗ any4 c xgM ∗ any4 c (raccM 0) ∗ any4 c (xnM 0) ∗ any4 c (raccM 1) ∗ any4 c (xnM 1) ∗ any4 c (raccM 2))
        ∗ (∀ v3, ∀ v4, ∀ v6, iprop(owesFrom c 4 W ∗ stg c cc0_stg1_0 (wiIn m c 0)
    ∗ holdsAny c (slotJ xgM (qd c)) ∗ holdsAny c (slotJ (raccM 0) (qd c)) ∗ holdsAny c (slotJ (xnM 0) (qd c)) ∗ holdsAny c (slotJ (raccM 1) (qd c))
    ∗ holdsAny c (slotJ (xnM 1) (qd c)) ∗ holdsAny c (slotJ (raccM 2) (qd c))) -∗ Q ⟨c, v3, v4, v6, SemArray.scalar (sig.barrier 0 rfl), k0_pay1 (wiIn m c 0)⟩))
      ⊢ wpX[c] (ARGS k0_part1) Q := by
  simp only [k0_part1_eq_skeleton]; unfold k0_part1_skel
  simp only [semSignalWord, semWaitWord, Prog.lift, Prog.bind_op, Prog.bind_ret, Prog.pure_eq_ret, wp_deviceId]
  unfold owesFrom
  iintro ⟨#HR, ⟨HO, ⟨Ht0, Ht1, Ht2, Ht3⟩, Hs1, HW1, Hxg, Hr0, Hx0, Hr1, Hx1, Hr2⟩, Hk⟩
  ihave ⟨Hxg0, Hxg1, Hxg2, Hxg3⟩ := (A_any4 c xgM) $$ Hxg
  ihave ⟨Hr00, Hr01, Hr02, Hr03⟩ := (A_any4 c (raccM 0)) $$ Hr0
  ihave ⟨Hx00, Hx01, Hx02, Hx03⟩ := (A_any4 c (xnM 0)) $$ Hx0
  ihave ⟨Hr10, Hr11, Hr12, Hr13⟩ := (A_any4 c (raccM 1)) $$ Hr1
  ihave ⟨Hx10, Hx11, Hx12, Hx13⟩ := (A_any4 c (xnM 1)) $$ Hx1
  ihave ⟨Hr20, Hr21, Hr22, Hr23⟩ := (A_any4 c (raccM 2)) $$ Hr2
  ihave HO := (A_next c 0 1 (barC (pp c 0), 1) W rfl) $$ HO
  iapply (wp_sig_bar m c _ 0 (dev_eq1 c) rfl (κ := K (pp c 0, 0)) ((owedItems c).drop 1) W) $$ [HO Ht0 HW1]
  · rw [barPay_to0]; iframe
    isplitr; · iapply (A_inv m K (pp c 0) cellK_bar); iexact HR
    iapply (A_reached m K (pp c 0) cellK_bar); iexact HR
  iintro HO
  ihave HO := (A_next c 1 2 (barC (pp c 1), 1) W rfl) $$ HO
  iapply (wp_sig_bar m c _ 1 (dev_eq2 c) rfl (κ := K (pp c 1, 0)) ((owedItems c).drop 2) W) $$ [HO Ht1 Hxg1 Hr01 Hx01 Hr11 Hx11 Hr21]
  · rw [barPay_to c 1 (by decide)]; iframe
    isplitr; · iapply (A_inv m K (pp c 1) cellK_bar); iexact HR
    iapply (A_reached m K (pp c 1) cellK_bar); iexact HR
  iintro HO
  ihave HO := (A_next c 2 3 (barC (pp c 2), 1) W rfl) $$ HO
  iapply (wp_sig_bar m c _ 2 (dev_eq3 c) rfl (κ := K (pp c 2, 0)) ((owedItems c).drop 3) W) $$ [HO Ht2 Hxg2 Hr02 Hx02 Hr12 Hx12 Hr22]
  · rw [barPay_to c 2 (by decide)]; iframe
    isplitr; · iapply (A_inv m K (pp c 2) cellK_bar); iexact HR
    iapply (A_reached m K (pp c 2) cellK_bar); iexact HR
  iintro HO
  ihave HO := (A_next c 3 4 (barC (pp c 3), 1) W rfl) $$ HO
  iapply (wp_sig_bar m c _ 3 (dev_eq4 c) rfl (κ := K (pp c 3, 0)) ((owedItems c).drop 4) W) $$ [HO Ht3 Hxg3 Hr03 Hx03 Hr13 Hx13 Hr23]
  · rw [barPay_to c 3 (by decide)]; iframe
    isplitr; · iapply (A_inv m K (pp c 3) cellK_bar); iexact HR
    iapply (A_reached m K (pp c 3) cellK_bar); iexact HR
  iintro HO
  iapply (A_load_stg c 1 rfl (wiIn m c 0) A_hz2) $$ Hs1
  iintro Hs1
  iapply (A_ret c)
  iapply Hk
  iframe

theorem part2_spec (c : Dev nD) (Q : PUnit → sProp 𝕄) :
    iprop(iprop(stg c cc0_stg2_0 (woIn m c 0) ∗ stg c cc0_stg3_0 (wiIn m c 1) ∗ stg c cc0_stg4_0 (woIn m c 1) ∗ stg c cc0_stg5_0 (wiIn m c 2)
    ∗ holdsAny c (winsJ 0 0) ∗ holdsAny c (woutsJ 0 0) ∗ holdsAny c (winsJ 0 1) ∗ holdsAny c (woutsJ 0 1) ∗ holdsAny c (winsJ 0 2))
        ∗ (iprop(stg c cc0_stg2_0 (woIn m c 0) ∗ stg c cc0_stg3_0 (wiIn m c 1) ∗ stg c cc0_stg4_0 (woIn m c 1) ∗ stg c cc0_stg5_0 (wiIn m c 2)
    ∗ holds c (winsJ 0 0) fullShare (Wi m c 0) ∗ holds c (woutsJ 0 0) fullShare (Wo m c 0) ∗ holds c (winsJ 0 1) fullShare (Wi m c 1)
    ∗ holds c (woutsJ 0 1) fullShare (Wo m c 1) ∗ holds c (winsJ 0 2) fullShare (Wi m c 2)) -∗ Q ⟨⟩)) ⊢ wpX[c] ((ARGS k0_part2) (k0_pay1 (wiIn m c 0))) Q := by
  simp only [k0_part2_eq_skeleton]; unfold k0_part2_skel
  simp only [Prog.lift, Prog.bind_op, Prog.bind_ret, Prog.pure_eq_ret]
  iintro ⟨⟨Hs2, Hs3, Hs4, Hs5, Hw0, Ho0, Hw1, Ho1, Hw2⟩, Hk⟩
  iapply (wp_load_wslice_any c 0 0 rfl) $$ Hw0
  iintro %x0 Hw0
  iapply (wp_store_wslice c 0 0 rfl) $$ Hw0
  iintro Hw0
  iapply (A_load_stg c 2 rfl (woIn m c 0) A_hz2) $$ Hs2
  iintro Hs2
  iapply (wp_load_oslice_any c 0 0 rfl) $$ Ho0
  iintro %y0 Ho0
  iapply (wp_store_oslice c 0 0 rfl) $$ Ho0
  iintro Ho0
  iapply (A_load_stg c 3 rfl (wiIn m c 1) A_hz2) $$ Hs3
  iintro Hs3
  iapply (wp_load_wslice_any c 0 1 rfl) $$ Hw1
  iintro %x1 Hw1
  iapply (wp_store_wslice c 0 1 rfl) $$ Hw1
  iintro Hw1
  iapply (A_load_stg c 4 rfl (woIn m c 1) A_hz2) $$ Hs4
  iintro Hs4
  iapply (wp_load_oslice_any c 0 1 rfl) $$ Ho1
  iintro %y1 Ho1
  iapply (wp_store_oslice c 0 1 rfl) $$ Ho1
  iintro Ho1
  iapply (A_load_stg c 5 rfl (wiIn m c 2) A_hz2) $$ Hs5
  iintro Hs5
  iapply (wp_load_wslice_any c 0 2 rfl) $$ Hw2
  iintro %x2 Hw2
  iapply (wp_store_wslice c 0 2 rfl) $$ Hw2
  iintro Hw2
  iapply (A_ret c)
  iapply Hk
  rw [A_Wi0, A_Wo0, A_Wi1, A_Wo1, A_Wi2]
  iframe

theorem part3_spec (K : Dev nD × Fin 26 → ℕ) (c : Dev nD) (v3 v4 : BitVec 32) (W : Waits sig Unit) (Q : _ → sProp 𝕄) :
    iprop(records m K ∗ levAts L lv ∗ iprop(stg c cc0_stg6_0 (woIn m c 2) ∗ stg c cc0_stg0_0 (xin m c) ∗ holdsAny c (woutsJ 0 2) ∗ holdsAny c (slotJ xgM (qd c))
    ∗ fresh (barC c) ∗ cred (tallyAt (barC c) () 4) ∗ owesFrom c 4 W ∗ dutyTok ER (asC c 0) 0 1 ∗ dutyTok ER (arC (pp c 1) 0) 0 (inv 1))
        ∗ (∀ v70, ∀ v83, ∀ v84, ∀ c0, iprop(stg c cc0_stg6_0 (woIn m c 2) ∗ stg c cc0_stg0_0 (xin m c) ∗ holds c (woutsJ 0 2) fullShare (Wo m c 2) ∗ done (barC c)
    ∗ owesFrom c 5 (insert (SemLoc.reg barS, ()) W)
    ∗ (holdsAny (pp c 0) (winsJ 1 0) ∗ holdsAny (pp c 0) (woutsJ 1 0) ∗ holdsAny (pp c 0) (winsJ 1 1) ∗ holdsAny (pp c 0) (woutsJ 1 1) ∗ holdsAny (pp c 0) (winsJ 1 2) ∗ holdsAny (pp c 0) (woutsJ 1 2))
    ∗ holdsAny (pp c 2) (slotJ xgM (qd c)) ∗ holdsAny (pp c 3) (slotJ xgM (qd c))
    ∗ lent c 1 ∗ lent c 2 ∗ lent c 3 ∗ lent c 4 ∗ lent c 5
    ∗ holds c (slotJ xgM (qd c)) shK (X0q m c) ∗ holds c (slotJ xgM (qd c)) (sh 2) (X0q m c) ∗ holds c (slotJ xgM (qd c)) (sh 3) (X0q m c)
    ∗ cred (tallyAt (asC c 0) () (cA 0))) -∗ Q ⟨v70, v83, v84, c0⟩))
      ⊢ wpX[c] ((ARGS k0_part3) c v3 v4 (SemArray.scalar (sig.barrier 0 rfl))) Q := by
  simp only [k0_part3_eq_skeleton]; unfold k0_part3_skel
  simp only [semSignalWord, semWaitWord, Prog.lift, Prog.bind_op, Prog.bind_ret, Prog.pure_eq_ret]
  unfold fresh done owesFrom
  iintro ⟨#HR, #Hlev, ⟨Hs6, Hs0, Ho2, Hxg, Hfr, Hcr, HO, Htas, Htar⟩, Hk⟩
  iapply (A_load_stg c 6 rfl (woIn m c 2) A_hz2) $$ Hs6
  iintro Hs6
  iapply (wp_load_oslice_any c 0 2 rfl) $$ Ho2
  iintro %y2 Ho2
  iapply (wp_store_oslice c 0 2 rfl) $$ Ho2
  iintro Ho2
  iapply (A_load_stg c 0 rfl (xin m c) A_hz2) $$ Hs0
  iintro Hs0
  iapply (wp_load_slot_any c xgM (qd c) (off1_eq c)) $$ Hxg
  iintro %x0 Hxg
  iapply (wp_store_slot c xgM (qd c) (off1_eq c)) $$ Hxg
  iintro Hxg
  iapply (wp_wait_bar m c _ rfl rfl (κ := K (c, 0)) (owedL ((owedItems c).drop 4)) W) $$ [Hcr HO Hfr]
  · iframe
    isplitr; · iapply (A_inv m K c cellK_bar); iexact HR
    iapply (mayWait_bar c); iexact Hlev
  iintro ⟨HO, Hdone, Hp0, Hp1, Hp2, Hp3⟩
  ihave Hp0 := (Entails.of_eq (barPay_0 (F := F) c)) $$ Hp0
  ihave ⟨Hg1, Ha1, Hb1, Hc1, Hd1, He1⟩ := (Entails.of_eq (barPay_peer (F := F) c 1 (by decide))) $$ Hp1
  ihave ⟨Hg2, Ha2, Hb2, Hc2, Hd2, He2⟩ := (Entails.of_eq (barPay_peer (F := F) c 2 (by decide))) $$ Hp2
  ihave ⟨Hg3, Ha3, Hb3, Hc3, Hd3, He3⟩ := (Entails.of_eq (barPay_peer (F := F) c 3 (by decide))) $$ Hp3
  ihave Hxg := (Entails.of_eq (congrArg (holds c (slotJ xgM (qd c)) fullShare) (A_X0q m c).symm)) $$ Hxg
  ihave ⟨HxK, Hxr⟩ := (holds_split c (slotJ xgM (qd c)) fullShare (X0q m c)) $$ Hxg
  ihave ⟨Hx1, Hxr⟩ := (holds_split c (slotJ xgM (qd c)) fullShare.right (X0q m c)) $$ Hxr
  ihave ⟨Hx2, Hx3⟩ := (holds_split c (slotJ xgM (qd c)) fullShare.right.right (X0q m c)) $$ Hxr
  iapply (A_send_x m K c _ 1 (dev_eq5 c) (by decide) (off2_eq c) A_asS0 A_arS0 4 5 rfl (insert (SemLoc.reg barS, ()) W)) $$ [Hx1 Hg1 HO Htas Htar]
  · rw [A_sh1]; iframe # ∗
  iintro ⟨Hc1', HO⟩
  iapply (A_ret c)
  iapply Hk
  rw [A_Wo2, A_sh2, A_sh3]; unfold lent
  iframe

theorem part4_spec (K : Dev nD × Fin 26 → ℕ) (c : Dev nD) (v3 v4 v6 v84 c0 : BitVec 32) (W : Waits sig Unit) (Q : BitVec 32 → sProp 𝕄) :
    iprop(records m K ∗ iprop(holds c (slotJ xgM (qd c)) (sh 2) (X0q m c) ∗ holds c (slotJ xgM (qd c)) (sh 3) (X0q m c)
    ∗ holdsAny (pp c 2) (slotJ xgM (qd c)) ∗ holdsAny (pp c 3) (slotJ xgM (qd c)) ∗ owesFrom c 5 W
    ∗ dutyTok ER (asC c 0) 0 2 ∗ dutyTok ER (asC c 0) 0 3 ∗ dutyTok ER (arC (pp c 2) 0) 0 (inv 2) ∗ dutyTok ER (arC (pp c 3) 0) 0 (inv 3))
        ∗ (∀ r, iprop(owesFrom c 7 W ∗ cred (tallyAt (asC c 0) () (cA 0)) ∗ cred (tallyAt (asC c 0) () (cA 0))) -∗ Q r)) ⊢ wpX[c] ((ARGS k0_part4) c v3 v4 v6 v84 c0) Q := by
  simp only [k0_part4_eq_skeleton]; unfold k0_part4_skel
  simp only [Prog.lift, Prog.bind_op, Prog.bind_ret, Prog.pure_eq_ret]
  unfold owesFrom
  iintro ⟨#HR, ⟨Hx2, Hx3, Hg2, Hg3, HO, Hts2, Hts3, Htr2, Htr3⟩, Hk⟩
  iapply (A_send_x m K c _ 2 (dev_eq6 c) (by decide) (off2_eq c) A_asS0 A_arS0 5 6 rfl W) $$ [Hx2 Hg2 HO Hts2 Htr2]
  · iframe # ∗
  iintro ⟨Hc2, HO⟩
  iapply (A_send_x m K c _ 3 (dev_eq7 c) (by decide) (off2_eq c) A_asS0 A_arS0 6 7 rfl W) $$ [Hx3 Hg3 HO Hts3 Htr3]
  · iframe # ∗
  iintro ⟨Hc3, HO⟩
  iapply (A_ret c)
  iapply Hk
  iframe

theorem part5_spec (K : Dev nD × Fin 26 → ℕ) (c : Dev nD) (v6 : BitVec 32) (W : Waits sig Unit) (Q : PUnit → sProp 𝕄) :
    iprop(records m K ∗ iprop(holds c (winsJ 0 0) fullShare (Wi m c 0) ∗ holds c (woutsJ 0 0) fullShare (Wo m c 0) ∗ holds c (winsJ 0 1) fullShare (Wi m c 1)
    ∗ holdsAny (pp c 0) (winsJ 1 0) ∗ holdsAny (pp c 0) (woutsJ 1 0) ∗ holdsAny (pp c 0) (winsJ 1 1) ∗ owesFrom c 7 W
    ∗ (dutyTok ER (wsC c 0) 0 0 ∗ dutyTok ER (wsC c 1) 0 0 ∗ dutyTok ER (wsC c 2) 0 0)
    ∗ (dutyTok ER (wrC (pp c 0) 0) 0 0 ∗ dutyTok ER (wrC (pp c 0) 1) 0 0 ∗ dutyTok ER (wrC (pp c 0) 2) 0 0))
        ∗ (iprop(holds c (winsJ 0 0) shK (Wi m c 0) ∗ holds c (woutsJ 0 0) shK (Wo m c 0) ∗ holds c (winsJ 0 1) shK (Wi m c 1) ∗ owesFrom c 10 W
    ∗ cred (tallyAt (wsC c 0) () (cW 0)) ∗ cred (tallyAt (wsC c 1) () (cW 1)) ∗ cred (tallyAt (wsC c 2) () (cW 2))) -∗ Q ⟨⟩)) ⊢ wpX[c] ((ARGS k0_part5) c v6) Q := by
  simp only [k0_part5_eq_skeleton]; unfold k0_part5_skel
  simp only [Prog.lift, Prog.bind_op, Prog.bind_ret, Prog.pure_eq_ret]
  unfold owesFrom
  have h0 : pp (pp c 0) 0 = c := pp_pp_inv c 0
  iintro ⟨#HR, ⟨Hw0, Ho0, Hw1, Hd0, Hd1, Hd2, HO, ⟨Hts0, Hts1, Hts2⟩, ⟨Htr0, Htr1, Htr2⟩⟩, Hk⟩
  iapply (A_send_w m K c _ (dev_eq8 c) 0 (src := winsJ 0 0) (dst := winsJ 1 0) (A_wsS 0) (A_wrS 0) (Wi m c 0) 7 8 rfl W
      (wsPay_0 m c) (by rw [wrPay_0, h0]) rfl) $$ [Hw0 Hd0 HO Hts0 Htr0]
  · iframe # ∗
  iintro ⟨Hw0K, Hcr0, HO⟩
  iapply (A_send_w m K c _ (dev_eq9 c) 1 (src := woutsJ 0 0) (dst := woutsJ 1 0) (A_wsS 1) (A_wrS 1) (Wo m c 0) 8 9 rfl W
      (wsPay_1 m c) (by rw [wrPay_1, h0]) rfl) $$ [Ho0 Hd1 HO Hts1 Htr1]
  · iframe # ∗
  iintro ⟨Ho0K, Hcr1, HO⟩
  iapply (A_send_w m K c _ (dev_eq10 c) 2 (src := winsJ 0 1) (dst := winsJ 1 1) (A_wsS 2) (A_wrS 2) (Wi m c 1) 9 10 rfl W
      (wsPay_2 m c) (by rw [wrPay_2, h0]) rfl) $$ [Hw1 Hd2 HO Hts2 Htr2]
  · iframe # ∗
  iintro ⟨Hw1K, Hcr2, HO⟩
  iapply (A_ret c)
  iapply Hk
  iframe

theorem part6_spec (K : Dev nD × Fin 26 → ℕ) (c : Dev nD) (v6 v70 : BitVec 32) (W : Waits sig Unit) (Q : BitVec 32 → sProp 𝕄) :
    iprop(records m K ∗ iprop(holds c (woutsJ 0 1) fullShare (Wo m c 1) ∗ holds c (winsJ 0 2) fullShare (Wi m c 2) ∗ holds c (woutsJ 0 2) fullShare (Wo m c 2)
    ∗ holdsAny (pp c 0) (woutsJ 1 1) ∗ holdsAny (pp c 0) (winsJ 1 2) ∗ holdsAny (pp c 0) (woutsJ 1 2) ∗ owesFrom c 10 W
    ∗ (dutyTok ER (wsC c 3) 0 0 ∗ dutyTok ER (wsC c 4) 0 0 ∗ dutyTok ER (wsC c 5) 0 0)
    ∗ (dutyTok ER (wrC (pp c 0) 3) 0 0 ∗ dutyTok ER (wrC (pp c 0) 4) 0 0 ∗ dutyTok ER (wrC (pp c 0) 5) 0 0))
        ∗ (∀ r, iprop(holds c (woutsJ 0 1) shK (Wo m c 1) ∗ holds c (winsJ 0 2) shK (Wi m c 2) ∗ holds c (woutsJ 0 2) shK (Wo m c 2) ∗ owesFrom c 13 W
    ∗ cred (tallyAt (wsC c 3) () (cW 3)) ∗ cred (tallyAt (wsC c 4) () (cW 4)) ∗ cred (tallyAt (wsC c 5) () (cW 5))) -∗ Q r)) ⊢ wpX[c] ((ARGS k0_part6) c v6 v70) Q := by
  simp only [k0_part6_eq_skeleton]; unfold k0_part6_skel
  simp only [Prog.lift, Prog.bind_op, Prog.bind_ret, Prog.pure_eq_ret]
  unfold owesFrom
  have h0 : pp (pp c 0) 0 = c := pp_pp_inv c 0
  iintro ⟨#HR, ⟨Ho1, Hw2, Ho2, Hd3, Hd4, Hd5, HO, ⟨Hts3, Hts4, Hts5⟩, ⟨Htr3, Htr4, Htr5⟩⟩, Hk⟩
  iapply (A_send_w m K c _ (dev_eq11 c) 3 (src := woutsJ 0 1) (dst := woutsJ 1 1) (A_wsS 3) (A_wrS 3) (Wo m c 1) 10 11 rfl W
      (wsPay_3 m c) (by rw [wrPay_3, h0]) rfl) $$ [Ho1 Hd3 HO Hts3 Htr3]
  · iframe # ∗
  iintro ⟨Ho1K, Hcr3, HO⟩
  iapply (A_send_w m K c _ (dev_eq12 c) 4 (src := winsJ 0 2) (dst := winsJ 1 2) (A_wsS 4) (A_wrS 4) (Wi m c 2) 11 12 rfl W
      (wsPay_4 m c) (by rw [wrPay_4, h0]) rfl) $$ [Hw2 Hd4 HO Hts4 Htr4]
  · iframe # ∗
  iintro ⟨Hw2K, Hcr4, HO⟩
  iapply (A_send_w m K c _ (dev_eq13 c) 5 (src := woutsJ 0 2) (dst := woutsJ 1 2) (A_wsS 5) (A_wrS 5) (Wo m c 2) 12 13 rfl W
      (wsPay_5 m c) (by rw [wrPay_5, h0]) rfl) $$ [Ho2 Hd5 HO Hts5 Htr5]
  · iframe # ∗
  iintro ⟨Ho2K, Hcr5, HO⟩
  iapply (A_ret c)
  iapply Hk
  iframe

theorem phaseA (K : Dev nD × Fin 26 → ℕ) (c : Dev nD) (W : Waits sig Unit) {α : Type}
    (KK' : Dev nD → BitVec 32 → BitVec 32 → BitVec 32 → BitVec 32 → BitVec 32 → BitVec 32 → Prog (TpuEff nD τ sig (Elt F) Λ₀ .tc) α) (Q : α → sProp 𝕄) :
    iprop(records m K ∗ levAts L lv ∗ preA m c W ∗ (∀ v3, ∀ v4, ∀ v6, ∀ v83, ∀ v96, ∀ v167, postA m c -∗ wpX[c] (KK' c v3 v4 v6 v83 v96 v167) Q))
      ⊢ wpX[c] (do
          let ⟨d0, v3, v4, v6, v7, v27⟩ : Σ' (d0 : Dev nD) (v3 : BitVec 32) (v4 : BitVec 32) (v6 : BitVec 32) (v7 : Sems sig S_), FVec F S128x256 .bf16 ← ARGS k0_part1
          (ARGS k0_part2) v27
          let ⟨v70, v83, v84, c0_i32_70⟩ : Σ' (v70 : BitVec 32) (v83 : BitVec 32) (v84 : BitVec 32), BitVec 32 ← (ARGS k0_part3) d0 v3 v4 v7
          let v96 : BitVec 32 ← (ARGS k0_part4) d0 v3 v4 v6 v84 c0_i32_70
          (ARGS k0_part5) d0 v6
          let v167 : BitVec 32 ← (ARGS k0_part6) d0 v6 v70
          KK' d0 v3 v4 v6 v83 v96 v167) Q := by
  unfold preA postA stgIn arTok asTok asCred
  simp only [X_bigSep_fin6]
  iintro ⟨#HR, #Hlev, ⟨HO, Hfr, Hcr, ⟨Htb0, Htb1, Htb2, Htb3⟩, ⟨Htar1, Htar2, Htar3⟩, ⟨Htas1, Htas2, Htas3⟩, ⟨Hts0, Hts1, Hts2, Hts3, Hts4, Hts5⟩,
    ⟨Htr0, Htr1, Htr2, Htr3, Htr4, Htr5⟩, ⟨Hs0, Hs1, Hs2, Hs3, Hs4, Hs5, Hs6⟩, ⟨Hw0, Ho0, Hw1, Ho1, Hw2, Ho2⟩, HW1, Hxg, Hr0, Hx0, Hr1, Hx1, Hr2⟩, Hk⟩
  iapply (A_bind c)
  iapply (part1_spec m K c W)
  iframe # ∗
  iintro %v3 %v4 %v6 ⟨HO, Hs1, Hxg0, Hr00, Hx00, Hr10, Hx10, Hr20⟩
  iapply (A_bind c)
  iapply (part2_spec m c)
  iframe
  iintro ⟨Hs2, Hs3, Hs4, Hs5, Hw0, Ho0, Hw1, Ho1, Hw2⟩
  iapply (A_bind c)
  iapply (part3_spec m K c v3 v4 W)
  iframe # ∗
  iintro %v70 %v83 %v84 %c0 ⟨Hs6, Hs0, Ho2, Hdone, HO, ⟨Hd0, Hd1, Hd2, Hd3, Hd4, Hd5⟩, Hg2, Hg3, Hl1, Hl2, Hl3, Hl4, Hl5, HxK, Hx2, Hx3, Hc1⟩
  iapply (A_bind c)
  iapply (part4_spec m K c v3 v4 v6 v84 c0 (insert (SemLoc.reg barS, ()) W))
  iframe # ∗
  iintro %v96 ⟨HO, Hc2, Hc3⟩
  iapply (A_bind c)
  iapply (part5_spec m K c v6 (insert (SemLoc.reg barS, ()) W))
  iframe # ∗
  iintro ⟨Hw0, Ho0, Hw1, HO, Hcw0, Hcw1, Hcw2⟩
  iapply (A_bind c)
  iapply (part6_spec m K c v6 v70 (insert (SemLoc.reg barS, ()) W))
  iframe # ∗
  iintro %v167 ⟨Ho1, Hw2, Ho2, HO, Hcw3, Hcw4, Hcw5⟩
  iapply Hk
  isplitl [HO]; · iexists (insert (SemLoc.reg barS, ()) W); iexact HO
  iframe

end Cert.Kernel.P

end
-- ==== Proof.Bits.BodyShared.lean ====
import proofs.«900976_g7700000000000977_dist_mlpseq_tp1d_bs_bs_b128_d128_h256_v7x_i8_bf16_1_alg».proof.Proof.Bits.PhaseSpecs
import proofs.«900976_g7700000000000977_dist_mlpseq_tp1d_bs_bs_b128_d128_h256_v7x_i8_bf16_1_alg».proof.Proof.Bits.RoundSteps
import proofs.«900976_g7700000000000977_dist_mlpseq_tp1d_bs_bs_b128_d128_h256_v7x_i8_bf16_1_alg».proof.Proof.Bits.HoldsLemmas
import proofs.«900976_g7700000000000977_dist_mlpseq_tp1d_bs_bs_b128_d128_h256_v7x_i8_bf16_1_alg».proof.Proof.Bits.Levels
import Idealize.ShloMosaic.Lib.Pipeline.Launch
import Idealize.ShloMosaic.Lib.Tactic

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 26 → ℕ)

/-- The records hold the invariant of cell number i of device c and that its round 0 is reached. -/
theorem cell_at (c : Dev nD) (i : Fin 26) {sm : SemLoc sig} (h : cellK i = sm) :
    records m K ⊢ iprop(cellInv ER (Rd m) (K (c, i)) ((c : Thread nD τ), sm) ∗ reached ER ((c : Thread nD τ), sm) 0) := by
  subst h
  exact BIClass.sep_mono (bigSep_elim (Φ := fun ck : Dev nD × Fin 26 => cellInv ER (Rd m) (K ck) (kcell ck)) (Finset.mem_univ (c, i)))
    (bigSep_elim (Φ := fun ck : Dev nD × Fin 26 => (reached (ER (F := F)) (kcell ck) 0 : sProp 𝕄)) (Finset.mem_univ (c, i)))

theorem inv_wr (c' : Dev nD) (j : Fin 6) : records m K ⊢ cellInv ER (Rd m) (K (c', ⟨8 + j.val, by omega⟩)) (wrC c' j) :=
  (cell_at m K c' _ (cellK_wr j)).trans sep_elim_left

/-- The value peer number d expects from direction inv d is the one c sends in direction d. -/
theorem dstVal_peer (c : Dev nD) (j : Fin 6) (d : Fin 4) : dstVal m (pp c d) j (inv d) = srcVal m c j d := by
  unfold dstVal srcVal; rw [pp_pp_inv]

theorem inv_ne_zero (d : Fin 4) (hd : d ≠ 0) : inv d ≠ 0 := by revert d; decide

theorem cA_slot (j : Fin 6) (q : Fin 4) : (slotJ (dstBuf j) q).view.dmaCredit = cA j := by
  first | rfl | (fin_cases j <;> fin_cases q <;> rfl)

theorem wp_copy_act (c n : Dev nD) (j : Fin 6) (d : Fin 4) (hd : d ≠ 0) (hn : n = pp c d)
    {offs offd : Fin 3 → Nat} {inbs : ∀ a, offs a + S1x128x128.size a ≤ S4x128x128.size a}
    {inbd : ∀ a, offd a + S1x128x128.size a ≤ S4x128x128.size a}
    (hoffs : offs = ![(srcSlot c j d).val, 0, 0]) (hoffd : offd = ![(qd c).val, 0, 0])
    {sS rS : DmaSem sig} (hsS : sS = asS j) (hrS : rS = arS j)
    {hsc : ((slot4 (dstBuf j) offd inbd) : Memref sig (Dev.tc n : Thread nD τ).2.kind .vmem S128x128 .bf16).view.ref.isScScratch = false}
    {hsrc : (slot4 (srcBuf j) offs inbs).view.WordExact} {hdst : (slot4 (dstBuf j) offd inbd).view.WordExact}
    {hsem : DmaTarget.Typed .vmem (.dma rS) (.remote (Dev.tc n : Thread nD τ) (slot4 (dstBuf j) offd inbd) (.dma sS) hsc)}
    {α : Type} {Q : α → sProp 𝕄} {k : PUnit → Prog (TpuEff nD τ sig (Elt F) Λ₀ .tc) α}
    (xs : List (GSem nD τ sig × ℕ)) (W : Waits sig Unit) :
    iprop(records m K ∗ holds c (slotJ (srcBuf j) (srcSlot c j d)) (srcShare j d) (srcVal m c j d)
        ∗ holdsAny (pp c d) (slotJ (dstBuf j) (qd c))
        ∗ owes (c : Thread nD τ) (owedL ((arC (pp c d) j, cA j) :: xs)) W
        ∗ dutyTok ER (asC c j) 0 d ∗ dutyTok ER (arC (pp c d) j) 0 (inv d))
      ⊢ iprop(((cred (tallyAt (asC c j) () (cA j)) ∗ owes (c : Thread nD τ) (owedL xs) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot4 (srcBuf j) offs inbs) (.remote (Dev.tc n : Thread nD τ) (slot4 (dstBuf j) offd inbd) (.dma sS) hsc)
                (.dma rS) hsrc hdst hsem) k) Q) := by
  subst hoffs hoffd hsS hrS hn
  iintro ⟨#HR, Hs, Hd, HO, Ht₁, Ht₂⟩
  ihave ⟨#HI₁, #HR₁⟩ := (cell_at m K c _ (cellK_as j)) $$ HR
  ihave ⟨#HI₂, #HR₂⟩ := (cell_at m K (pp c d) _ (cellK_ar j)) $$ HR
  iapply (wp_send_holds m c (pp c d) (src := slotJ (srcBuf j) (srcSlot c j d)) (dst := slotJ (dstBuf j) (qd c))
      (κ₁ := K (c, ⟨14 + j.val, by omega⟩)) (κ₂ := K (pp c d, ⟨20 + j.val, by omega⟩))
      d (inv d) (cA j) (srcVal m c j d) (srcShare j d) xs W
      (mem_as m c j d hd) (mem_ar m (pp c d) j (inv d) (inv_ne_zero d hd)) (cA_slot j (qd c))
      (amount_as m c j d) (amount_ar m (pp c d) j (inv d)) (payload_as m c j d)
      (by rw [payload_ar, arPay, pp_pp_inv, dstVal_peer]) (routes_pp c d))
  iframe # ∗

/-- One of the three waits on phase j's receive cell that stays within the round, whatever else R is carried along. -/
theorem wait_ar (c : Dev nD) (j : Fin 6) (a : ℕ)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) (R : sProp 𝕄) :
    iprop(records m K ∗ levAts L lv ∗ owes (c : Thread nD τ) O W ∗ midWait m (arC c j) a
        ∗ cred (tallyAt (arC c j) () (cA j)) ∗ R)
      ⊢ iprop(((owes (c : Thread nD τ) O (insert (SemLoc.dma (arS j), ()) W) ∗ midWait m (arC c j) (a + cA j) ∗ R)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (arS j) src dst h₁ h₂) k) Q) := by
  iintro ⟨#HR, #HL, HO, Hmid, Hc, HF⟩ Hk
  iapply (wp_wait3_step m c (arS j) (cA j) a (κ := K (c, ⟨20 + j.val, by omega⟩)) O W hamt) $$ [HO Hmid Hc]
  · iframe; isplitr; · iapply ((cell_at m K c _ (cellK_ar j)).trans sep_elim_left); iexact HR
    iapply hmw; iexact HL
  iintro ⟨HO, Hmid⟩
  iapply Hk; iframe

theorem wait_ar_1 (c : Dev nD) (j : Fin 6) (sm : DmaSem sig) (hs : sm = arS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) :
    iprop(records m K ∗ levAts L lv ∗ owes (c : Thread nD τ) O W ∗ fresh (arC c j) ∗ cred (tallyAt (arC c j) () (3 * cA j)))
      ⊢ iprop(((owes (c : Thread nD τ) O (insert (SemLoc.dma (arS j), ()) W) ∗ midWait m (arC c j) (0 + cA j)
              ∗ cred (tallyAt (arC c j) () (cA j)) ∗ cred (tallyAt (arC c j) () (cA j)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  exact (sep_mono_right (sep_mono_right (sep_mono_right (sep_mono (midWait_zero m _) (cred_three _ _).1)))).trans
    (wait_ar m K c j 0 O W hamt hmw _)

theorem wait_ar_2 (c : Dev nD) (j : Fin 6) (sm : DmaSem sig) (hs : sm = arS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) :
    iprop(records m K ∗ levAts L lv ∗ owes (c : Thread nD τ) O W ∗ midWait m (arC c j) (0 + cA j)
        ∗ cred (tallyAt (arC c j) () (cA j)) ∗ cred (tallyAt (arC c j) () (cA j)))
      ⊢ iprop(((owes (c : Thread nD τ) O (insert (SemLoc.dma (arS j), ()) W) ∗ midWait m (arC c j) (0 + cA j + cA j)
              ∗ cred (tallyAt (arC c j) () (cA j)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  exact wait_ar m K c j _ O W hamt hmw _

theorem wait_ar_3 (c : Dev nD) (j : Fin 6) (sm : DmaSem sig) (hs : sm = arS j)
    {sp sp' : Space} {s s' : Shape} {e e' : EltTy}
    {src : Memref sig .tc sp' s' e'} {κ' : Kind} {dst : Memref sig κ' sp s e} {h₁ : src.view.WordExact} {h₂ : dst.view.WordExact}
    {α : Type} {Q : α → sProp 𝕄} {k : PUnit → Prog (TpuEff nD τ sig (Elt F) Λ₀ .tc) α}
    (O : CellTallies nD τ sig Unit) (W : Waits sig Unit) (hamt : dst.view.dmaCredit = cA j)
    (hmw : (levAts L lv : sProp 𝕄) ⊢ MayWait (c : Thread nD τ) (.dma (arS j)) () O) :
    iprop(records m K ∗ levAts L lv ∗ owes (c : Thread nD τ) O W ∗ midWait m (arC c j) (0 + cA j + cA j)
        ∗ cred (tallyAt (arC c j) () (cA j)))
      ⊢ iprop(((owes (c : Thread nD τ) O (insert (SemLoc.dma (arS j), ()) W) ∗ done (arC c j) ∗ got3 m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  subst hs
  unfold done got3
  iintro ⟨#HR, #HL, HO, Hmid, Hc⟩
  iapply (wp_wait_ar_last m c j _ rfl (0 + cA j + cA j) (κ := K (c, ⟨20 + j.val, by omega⟩)) O W hamt (by omega)) $$ [HO Hmid Hc]
  iframe; isplitr; · iapply ((cell_at m K c _ (cellK_ar j)).trans sep_elim_left); iexact HR
  iapply hmw; iexact HL

end Cert.Kernel.P

end
-- ==== Proof.Bits.BodyB.lean ====
import proofs.«900976_g7700000000000977_dist_mlpseq_tp1d_bs_bs_b128_d128_h256_v7x_i8_bf16_1_alg».proof.Proof.Bits.PhaseSpecs
import proofs.«900976_g7700000000000977_dist_mlpseq_tp1d_bs_bs_b128_d128_h256_v7x_i8_bf16_1_alg».proof.Proof.Bits.Levels
import proofs.«900976_g7700000000000977_dist_mlpseq_tp1d_bs_bs_b128_d128_h256_v7x_i8_bf16_1_alg».proof.Proof.Bits.HoldsLemmas
import proofs.«900976_g7700000000000977_dist_mlpseq_tp1d_bs_bs_b128_d128_h256_v7x_i8_bf16_1_alg».proof.Proof.Bits.RoundSteps
import proofs.«900976_g7700000000000977_dist_mlpseq_tp1d_bs_bs_b128_d128_h256_v7x_i8_bf16_1_alg».proof.Proof.Bits.Reindex
import proofs.«900976_g7700000000000977_dist_mlpseq_tp1d_bs_bs_b128_d128_h256_v7x_i8_bf16_1_alg».proof.Proof.Bits.BodyShared

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ ((c : Dev nD) : Thread nD τ) none) Set.univ

theorem B_wr0 : ((cc0_scratch12.slice (Rect.unit (s := S6) ![0] S1.size inb_S6_S1_0)).squeeze S_ squeezes_S1_S_).sem = wrS 0 := by decide
theorem B_wr1 : ((cc0_scratch12.slice (Rect.unit (s := S6) ![1] S1.size inb_S6_S1_1)).squeeze S_ squeezes_S1_S_).sem = wrS 1 := by decide
theorem B_wr2 : ((cc0_scratch12.slice (Rect.unit (s := S6) ![2] S1.size inb_S6_S1_2)).squeeze S_ squeezes_S1_S_).sem = wrS 2 := by decide
theorem B_as1 : ((cc0_scratch13.slice (Rect.unit (s := S6) ![1] S1.size inb_S6_S1_1)).squeeze S_ squeezes_S1_S_).sem = asS 1 := by decide
theorem B_as2 : ((cc0_scratch13.slice (Rect.unit (s := S6) ![2] S1.size inb_S6_S1_2)).squeeze S_ squeezes_S1_S_).sem = asS 2 := by decide
theorem B_ar0 : ((cc0_scratch14.slice (Rect.unit (s := S6) ![0] S1.size inb_S6_S1_0)).squeeze S_ squeezes_S1_S_).sem = arS 0 := by decide
theorem B_ar1 : ((cc0_scratch14.slice (Rect.unit (s := S6) ![1] S1.size inb_S6_S1_1)).squeeze S_ squeezes_S1_S_).sem = arS 1 := by decide
theorem B_ar2 : ((cc0_scratch14.slice (Rect.unit (s := S6) ![2] S1.size inb_S6_S1_2)).squeeze S_ squeezes_S1_S_).sem = arS 2 := by decide

theorem B_wp_ret (c : Dev nD) {α : Type} (a : α) (Q : α → sProp 𝕄) : Q a ⊢ wpX[c] (.ret a) Q := by
  rw [wp_ret]; iintro H; imodintro; iexact H

/-- A proved part followed by the rest: the part's postcondition carries the rest. -/
theorem B_seq (c : Dev nD) {α β : Type} {p : Prog (TpuEff nD τ sig (Elt F) Λ₀ .tc) α} {k : α → Prog (TpuEff nD τ sig (Elt F) Λ₀ .tc) β}
    {P : sProp 𝕄} {Φ : α → sProp 𝕄} {Q : β → sProp 𝕄} (h : P ⊢ wpX[c] p Φ) :
    P ⊢ iprop((∀ a, Φ a -∗ wpX[c] (k a) Q) -∗ wpX[c] (p >>= k) Q) := by
  rw [wp_bind]
  exact h.trans (wp_wand _ _ _)

/-- Any slot of phase j's destination buffer carries the phase's credit. -/
theorem B_cA (j : Fin 6) (off : Fin 3 → Nat) (inb : ∀ a, off a + S1x128x128.size a ≤ S4x128x128.size a) :
    (slot4 (dstBuf j) off inb).view.dmaCredit = cA j := rfl

omit [FloatOps F] in
/-- The own slot and the three peers' slots are the four slots, each holding its plane device's value. -/
theorem B_reindex (c : Dev nD) (b : Memref sig .tc .vmem S4x128x128 .bf16) (q : PosShare TreeShare) (f : Dev nD → S128x128.Idx → Elt F .bf16) :
    iprop(holds c (slotJ b (qd c)) q (f c) ∗ holds c (slotJ b (qd (pp c 1))) q (f (pp c 1))
        ∗ holds c (slotJ b (qd (pp c 2))) q (f (pp c 2)) ∗ holds c (slotJ b (qd (pp c 3))) q (f (pp c 3)))
      ⊣⊢ iprop(holds c (slotJ b 0) q (f (plane c 0)) ∗ holds c (slotJ b 1) q (f (plane c 1))
        ∗ holds c (slotJ b 2) q (f (plane c 2)) ∗ holds c (slotJ b 3) q (f (plane c 3))) := by
  have h := X_reindex4 c fun i => holds c (slotJ b i) q (f (plane c i))
  simp only [plane_qd, plane_pp c 1 (by decide), plane_pp c 2 (by decide), plane_pp c 3 (by decide)] at h
  exact h

section Parts
variable (m : (ℓ : Loc nD τ sig) → Buf (Elt F) ℓ) (K : Dev nD × Fin 26 → ℕ) (c : Dev nD)

/-- The four slots of a gathered buffer read whole, each at the left half of the full share. -/
theorem B_load4 (j : Fin 6) (f : Dev nD → S128x128.Idx → Elt F .bf16)
    (hf : ∀ d, dstVal m c j d = f (pp c d)) {b : Memref sig .tc .vmem S4x128x128 .bf16} (hb : b = dstBuf j)
    {off : Fin 3 → Nat} (hoff : off = ![0, 0, 0]) {inb : ∀ a, off a + S4x128x128.size a ≤ S4x128x128.size a}
    {hl : b.view.LoadsAt (Rect.unit (s := S4x128x128) off S4x128x128.size inb).toLoadRect}
    {α : Type} {Q : α → sProp 𝕄} {k : (S4x128x128.Idx → Elt F .bf16) → Prog (TpuEff nD τ sig (Elt F) Λ₀ .tc) α} :
    iprop(holds c (slotJ (dstBuf j) (qd c)) shK (f c) ∗ got3 m c j)
      ⊢ iprop((iprop(holds c (slotJ (dstBuf j) (qd c)) shK (f c) ∗ got3 m c j) -∗ wpX[c] (k (asm4 fun i => f (plane c i))) Q)
          -∗ wpX[c] (.op (.load b (Rect.unit (s := S4x128x128) off S4x128x128.size inb).toLoadRect hl) k) Q) := by
  subst hb
  unfold got3 arPay
  rw [hf 1, hf 2, hf 3]
  iintro ⟨Hx, Hp1, Hp2, Hp3⟩ Hk
  ihave ⟨Hl1, Hr1⟩ := (holds_split c _ fullShare _) $$ Hp1
  ihave ⟨Hl2, Hr2⟩ := (holds_split c _ fullShare _) $$ Hp2
  ihave ⟨Hl3, Hr3⟩ := (holds_split c _ fullShare _) $$ Hp3
  ihave H4 := (B_reindex c (dstBuf j) shK f).1 $$ [$Hx $Hl1 $Hl2 $Hl3]
  iapply (wp_load_whole4 c (dstBuf j) hoff shK fun i => f (plane c i)) $$ H4
  iintro H4
  ihave ⟨Hx, Hl1, Hl2, Hl3⟩ := (B_reindex c (dstBuf j) shK f).2 $$ H4
  ihave Hp1 := (holds_join c _ fullShare _) $$ [$Hl1 $Hr1]
  ihave Hp2 := (holds_join c _ fullShare _) $$ [$Hl2 $Hr2]
  ihave Hp3 := (holds_join c _ fullShare _) $$ [$Hl3 $Hr3]
  iapply Hk
  iframe

theorem B_preLayer0 (W : Waits sig Unit) : preLayer m 0 c W =
    iprop(owesFrom c 13 W
      ∗ (fresh (wrC c 0) ∗ cred (tallyAt (wrC c 0) () (cW 0))) ∗ (fresh (wrC c 1) ∗ cred (tallyAt (wrC c 1) () (cW 1))) ∗ (fresh (wrC c 2) ∗ cred (tallyAt (wrC c 2) () (cW 2)))
      ∗ (fresh (arC c 1) ∗ cred (tallyAt (arC c 1) () (3 * cA 1))) ∗ (fresh (arC c 2) ∗ cred (tallyAt (arC c 2) () (3 * cA 2)))
      ∗ arTok c 1 ∗ asTok c 1 ∗ lent c 1 ∗ arTok c 2 ∗ asTok c 2 ∗ lent c 2
      ∗ holds c (winsJ 0 0) shK (Wi m c 0) ∗ holds c (woutsJ 0 0) shK (Wo m c 0)
      ∗ any4 c (prtlM 0) ∗ holdsAny c (slotJ (xnM 0) (qd c))) := rfl

theorem B_postLayer0 : postLayer m 0 c =
    iprop((∃ W, owesFrom c 19 W)
      ∗ done (wrC c 0) ∗ done (wrC c 1) ∗ done (wrC c 2) ∗ done (arC c 1) ∗ done (arC c 2)
      ∗ asCred c 1 ∗ asCred c 2
      ∗ holds c (winsJ 0 0) shK (Wi m c 0) ∗ holds c (woutsJ 0 0) shK (Wo m c 0)
      ∗ wrPay m c 0 ∗ wrPay m c 1 ∗ wrPay m c 2
      ∗ holds c (slotJ (prtlM 0) (qd c)) fullShare (sl4 (P0 m c) (qd c))
      ∗ got3 m c 1
      ∗ holds c (slotJ (xnM 0) (qd c)) shK (xn0 m c)
      ∗ got3 m c 2) := rfl

theorem B_part7_spec (v6 v83 v96 v167 : BitVec 32) (W : Waits sig Unit) :
    iprop(records m K ∗ levAts L lv ∗ owesFrom c 13 W ∗ preXg m c)
      ⊢ wpX[c] ((ARGS k0_part7) c v6 v83 v96 v167)
          (fun r => iprop(⌜r.1 = acts0 m c⌝ ∗ (∃ W', owesFrom c 13 W') ∗ postXg m c)) := by
  simp only [k0_part7_eq_skeleton, k0_part7_skel, semSignalWord, semWaitWord, Prog.lift, Prog.bind_op, Prog.bind_ret, Prog.pure_eq_ret]
  unfold preXg postXg owesFrom
  iintro ⟨#HR, #HL, HO, ⟨Hf, Hc⟩, Hx⟩
  iapply (wait_ar_1 m K c 0 _ B_ar0 _ W (B_cA 0 _ _) (mayWait_ar0 c)) $$ [$]
  iintro ⟨HO, Hm, Hc2, Hc3⟩
  iapply (wait_ar_2 m K c 0 _ B_ar0 _ _ (B_cA 0 _ _) (mayWait_ar0 c)) $$ [$]
  iintro ⟨HO, Hm, Hc3⟩
  iapply (wait_ar_3 m K c 0 _ B_ar0 _ _ (B_cA 0 _ _) (mayWait_ar0 c)) $$ [$]
  iintro ⟨HO, Hd, Hg⟩
  iapply (B_load4 m c 0 (X0q m) (fun _ => rfl) rfl rfl) $$ [$]
  iintro ⟨Hx, Hg⟩
  iapply (B_wp_ret c)
  isplitr; · ipureintro; rfl
  isplitl [HO]; · iexists _; iexact HO
  iframe

theorem B_part8_spec (v6 v193 : BitVec 32) (v192 : FVec F S512x128 .bf16) (W : Waits sig Unit) :
    iprop(records m K ∗ levAts L lv ∗ owesFrom c 13 W
        ∗ (fresh (wrC c 0) ∗ cred (tallyAt (wrC c 0) () (cW 0))) ∗ (fresh (wrC c 1) ∗ cred (tallyAt (wrC c 1) () (cW 1)))
        ∗ holds c (winsJ 0 0) shK (Wi m c 0) ∗ holds c (woutsJ 0 0) shK (Wo m c 0))
      ⊢ wpX[c] ((ARGS k0_part8) v6 v192 v193)
          (fun r => iprop(⌜r = k0_pay10 v192 (unsqW (Wi m c 0)) (unsqO (Wo m c 0))⌝ ∗ (∃ W', owesFrom c 13 W')
            ∗ done (wrC c 0) ∗ done (wrC c 1) ∗ wrPay m c 0 ∗ wrPay m c 1
            ∗ holds c (winsJ 0 0) shK (Wi m c 0) ∗ holds c (woutsJ 0 0) shK (Wo m c 0))) := by
  simp only [k0_part8_eq_skeleton, k0_part8_skel, semSignalWord, semWaitWord, Prog.lift, Prog.bind_op, Prog.bind_ret, Prog.pure_eq_ret]
  unfold owesFrom fresh done
  iintro ⟨#HR, #HL, HO, ⟨Hf0, Hc0⟩, ⟨Hf1, Hc1⟩, Hwi, Hwo⟩
  ihave HI := (inv_wr m K c 0) $$ HR
  ihave HM := (mayWait_wr0 c) $$ HL
  iapply (wp_wait_wr m c 0 _ B_wr0 _ W rfl) $$ [$]
  iintro ⟨HO, Hd0, Hp0⟩
  ihave HI := (inv_wr m K c 1) $$ HR
  ihave HM := (mayWait_wr1 c) $$ HL
  iapply (wp_wait_wr m c 1 _ B_wr1 _ _ rfl) $$ [$]
  iintro ⟨HO, Hd1, Hp1⟩
  iapply (wp_load_wslice c 0 0 rfl _ _) $$ Hwi
  iintro Hwi
  iapply (wp_load_oslice c 0 0 rfl _ _) $$ Hwo
  iintro Hwo
  iapply (B_wp_ret c)
  isplitr; · ipureintro; rfl
  isplitl [HO]; · iexists _; iexact HO
  iframe

theorem B_part9_spec (v3 v4 : BitVec 32) (W : Waits sig Unit) :
    iprop(records m K ∗ levAts L lv ∗ owesFrom c 13 W ∗ wrPay m c 0 ∗ wrPay m c 1 ∗ any4 c (prtlM 0)
        ∗ dutyTok ER (arC (pp c 1) 1) 0 (inv 1) ∗ dutyTok ER (asC c 1) 0 1 ∗ holdsAny (pp c 1) (slotJ (dstBuf 1) (qd c)))
      ⊢ wpX[c] ((ARGS k0_part9) c v3 v4 (acts0 m c) (k0_pay10 (acts0 m c) (unsqW (Wi m c 0)) (unsqO (Wo m c 0))))
          (fun r => iprop(owesFrom c 14 W ∗ wrPay m c 0 ∗ wrPay m c 1
            ∗ holds c (slotJ (prtlM 0) (qd c)) fullShare (sl4 (P0 m c) (qd c))
            ∗ asPay m c 1 2 ∗ asPay m c 1 3 ∗ cred (tallyAt (asC c 1) () (cA 1)))) := by
  simp only [k0_part9_eq_skeleton, k0_part9_skel, semSignalWord, semWaitWord, Prog.lift, Prog.bind_op, Prog.bind_ret, Prog.pure_eq_ret]
  unfold owesFrom any4 P0 asPay
  rw [wrPay_0, wrPay_1]
  iintro ⟨#HR, #HL, HO, Hp0, Hp1, H4, Htr1, Hts1, Hd1⟩
  iapply (wp_load_wslice c 1 0 rfl _ _) $$ Hp0
  iintro Hp0
  iapply (wp_load_oslice c 1 0 rfl _ _) $$ Hp1
  iintro Hp1
  iapply (wp_load_whole4_any c (prtlM 0) rfl) $$ H4
  iintro %x H4
  iapply (wp_store_whole4 c (prtlM 0) rfl) $$ H4
  iintro H4
  ihave ⟨Hs0, Hs1, Hs2, Hs3⟩ := (X_reindex4 c (fun j => holds c (slotJ (prtlM 0) j) fullShare (sl4 _ j))).2 $$ H4
  iapply (wp_copy_act m K c _ 1 1 (by decide) (dev_eq14 c) (by rw [off3_eq1, qd_pp_val1] : k0_off3 c 1#32 = ![(qd (pp c 1)).val, 0, 0]) (off2_eq c) B_as1 B_ar1 ((owedItems c).drop 14) W) $$ [$HR $Hd1 $Hts1 $Htr1 Hs1 HO]
  · isplitl [Hs1]; · iexact Hs1
    iexact HO
  iintro ⟨Hcr1, HO⟩
  iapply (B_wp_ret c)
  iframe
  isplitl [Hs2]; · iexact Hs2
  iexact Hs3

theorem B_part10_spec (v3 v4 v237 v252 : BitVec 32) (W : Waits sig Unit) :
    iprop(records m K ∗ levAts L lv ∗ owesFrom c 14 W ∗ asPay m c 1 2 ∗ asPay m c 1 3
        ∗ dutyTok ER (arC (pp c 2) 1) 0 (inv 2) ∗ dutyTok ER (arC (pp c 3) 1) 0 (inv 3)
        ∗ dutyTok ER (asC c 1) 0 2 ∗ dutyTok ER (asC c 1) 0 3
        ∗ holdsAny (pp c 2) (slotJ (dstBuf 1) (qd c)) ∗ holdsAny (pp c 3) (slotJ (dstBuf 1) (qd c)))
      ⊢ wpX[c] ((ARGS k0_part10) c v3 v4 v237 v252)
          (fun r => iprop(owesFrom c 16 W ∗ cred (tallyAt (asC c 1) () (cA 1)) ∗ cred (tallyAt (asC c 1) () (cA 1)))) := by
  simp only [k0_part10_eq_skeleton, k0_part10_skel, semSignalWord, semWaitWord, Prog.lift, Prog.bind_op, Prog.bind_ret, Prog.pure_eq_ret]
  unfold owesFrom asPay
  iintro ⟨#HR, #HL, HO, Hs2, Hs3, Htr2, Htr3, Hts2, Hts3, Hd2, Hd3⟩
  iapply (wp_copy_act m K c _ 1 2 (by decide) (dev_eq15 c) (by rw [off3_eq2, qd_pp_val2] : k0_off3 c 2#32 = ![(qd (pp c 2)).val, 0, 0]) (off2_eq c) B_as1 B_ar1 ((owedItems c).drop 15) W) $$ [$HR $Hs2 $Hd2 $Hts2 $Htr2 HO]
  · iexact HO
  iintro ⟨Hcr2, HO⟩
  iapply (wp_copy_act m K c _ 1 3 (by decide) (dev_eq16 c) (by rw [off3_eq3, qd_pp_val3] : k0_off3 c 3#32 = ![(qd (pp c 3)).val, 0, 0]) (off2_eq c) B_as1 B_ar1 ((owedItems c).drop 16) W) $$ [$HR $Hs3 $Hd3 $Hts3 $Htr3 HO]
  · iexact HO
  iintro ⟨Hcr3, HO⟩
  iapply (B_wp_ret c)
  iframe

theorem B_part11_spec (v3 v252 v267 : BitVec 32) (W : Waits sig Unit) :
    iprop(records m K ∗ levAts L lv ∗ owesFrom c 16 W
        ∗ (fresh (arC c 1) ∗ cred (tallyAt (arC c 1) () (3 * cA 1)))
        ∗ holds c (slotJ (prtlM 0) (qd c)) fullShare (sl4 (P0 m c) (qd c)))
      ⊢ wpX[c] ((ARGS k0_part11) c v3 v252 v267)
          (fun r => iprop(⌜r.1 = k0_pay12 (unsq3 (sl4 (P0 m c) (qd c))) (unsq3 (sl4 (P0 m (pp c 1)) (qd c)))⌝
            ∗ (∃ W', owesFrom c 16 W') ∗ done (arC c 1) ∗ got3 m c 1
            ∗ holds c (slotJ (prtlM 0) (qd c)) fullShare (sl4 (P0 m c) (qd c)))) := by
  simp only [k0_part11_eq_skeleton, k0_part11_skel, semSignalWord, semWaitWord, Prog.lift, Prog.bind_op, Prog.bind_ret, Prog.pure_eq_ret]
  unfold owesFrom
  iintro ⟨#HR, #HL, HO, ⟨Hf, Hc⟩, Hs0⟩
  iapply (wait_ar_1 m K c 1 _ B_ar1 _ W (B_cA 1 _ _) (mayWait_ar1 c)) $$ [$]
  iintro ⟨HO, Hm, Hc2, Hc3⟩
  iapply (wait_ar_2 m K c 1 _ B_ar1 _ _ (B_cA 1 _ _) (mayWait_ar1 c)) $$ [$]
  iintro ⟨HO, Hm, Hc3⟩
  iapply (wait_ar_3 m K c 1 _ B_ar1 _ _ (B_cA 1 _ _) (mayWait_ar1 c)) $$ [$]
  unfold got3
  rw [arPay_1 m c 1]
  iintro ⟨HO, Hd, Hp1, Hp2, Hp3⟩
  iapply (wp_load_slot c (prtlM 0) (qd c) (off1_eq c) _ _) $$ Hs0
  iintro Hs0
  iapply (wp_load_slot c (raccM 0) (qd (pp c 1)) ((off4_eq1 c).trans (by rw [qd_pp_val1])) _ _) $$ Hp1
  iintro Hp1
  iapply (B_wp_ret c)
  isplitr; · ipureintro; rfl
  isplitl [HO]; · iexists _; iexact HO
  iframe

theorem B_part12_spec (v3 v4 cc : BitVec 32) (W : Waits sig Unit) :
    iprop(records m K ∗ levAts L lv ∗ owesFrom c 16 W ∗ got3 m c 1 ∗ holdsAny c (slotJ (xnM 0) (qd c))
        ∗ dutyTok ER (arC (pp c 1) 2) 0 (inv 1) ∗ dutyTok ER (asC c 2) 0 1 ∗ holdsAny (pp c 1) (slotJ (dstBuf 2) (qd c)))
      ⊢ wpX[c] ((ARGS k0_part12) c v3 v4 (k0_pay12 (unsq3 (sl4 (P0 m c) (qd c))) (unsq3 (sl4 (P0 m (pp c 1)) (qd c)))) cc)
          (fun r => iprop(owesFrom c 17 W ∗ got3 m c 1
            ∗ holds c (slotJ (xnM 0) (qd c)) shK (xn0 m c) ∗ asPay m c 2 2 ∗ asPay m c 2 3 ∗ cred (tallyAt (asC c 2) () (cA 2)))) := by
  simp only [k0_part12_eq_skeleton, k0_part12_skel, semSignalWord, semWaitWord, Prog.lift, Prog.bind_op, Prog.bind_ret, Prog.pure_eq_ret]
  have e (d : Fin 4) : arPay m c 1 d = holds c (slotJ (raccM 0) (qd (pp c d))) fullShare (sl4 (P0 m (pp c d)) (qd c)) := rfl
  unfold owesFrom got3 xn0 asPay
  rw [e 2, e 3]
  iintro ⟨#HR, #HL, HO, ⟨Hg1, Hg2, Hg3⟩, Hxn, Htr1, Hts1, Hd1⟩
  iapply (wp_load_slot c (raccM 0) (qd (pp c 2)) ((off4_eq2 c).trans (by rw [qd_pp_val2])) _ _) $$ Hg2
  iintro Hg2
  iapply (wp_load_slot c (raccM 0) (qd (pp c 3)) ((off4_eq3 c).trans (by rw [qd_pp_val3])) _ _) $$ Hg3
  iintro Hg3
  iapply (wp_load_slot_any c (xnM 0) (qd c) (off1_eq c)) $$ Hxn
  iintro %x Hxn
  iapply (wp_store_slot c (xnM 0) (qd c) (off1_eq c)) $$ Hxn
  iintro Hxn
  ihave ⟨HxK, HxR⟩ := (holds_split c _ fullShare _) $$ Hxn
  ihave ⟨Hx1, HxR⟩ := (holds_split c _ fullShare.right _) $$ HxR
  ihave ⟨Hx2, Hx3⟩ := (holds_split c _ fullShare.right.right _) $$ HxR
  iapply (wp_copy_act m K c _ 2 1 (by decide) (dev_eq17 c) (off2_eq c) (off2_eq c) B_as2 B_ar2 ((owedItems c).drop 17) W) $$ [$HR $Hd1 $Hts1 $Htr1 Hx1 HO]
  · isplitl [Hx1]; · iexact Hx1
    iexact HO
  iintro ⟨Hcr1, HO⟩
  iapply (B_wp_ret c)
  iframe
  isplitl [Hx2]; · iexact Hx2
  iexact Hx3

theorem B_part13_spec (v3 v4 v336 v349 : BitVec 32) (W : Waits sig Unit) :
    iprop(records m K ∗ levAts L lv ∗ owesFrom c 17 W ∗ asPay m c 2 2 ∗ asPay m c 2 3
        ∗ dutyTok ER (arC (pp c 2) 2) 0 (inv 2) ∗ dutyTok ER (arC (pp c 3) 2) 0 (inv 3)
        ∗ dutyTok ER (asC c 2) 0 2 ∗ dutyTok ER (asC c 2) 0 3
        ∗ holdsAny (pp c 2) (slotJ (dstBuf 2) (qd c)) ∗ holdsAny (pp c 3) (slotJ (dstBuf 2) (qd c))
        ∗ (fresh (arC c 2) ∗ cred (tallyAt (arC c 2) () (3 * cA 2))))
      ⊢ wpX[c] ((ARGS k0_part13) c v3 v4 v336 v349)
          (fun r => iprop((∃ W', owesFrom c 19 W') ∗ cred (tallyAt (asC c 2) () (cA 2)) ∗ cred (tallyAt (asC c 2) () (cA 2)) ∗ midWait m (arC c 2) (0 + cA 2)
            ∗ cred (tallyAt (arC c 2) () (cA 2)) ∗ cred (tallyAt (arC c 2) () (cA 2)))) := by
  simp only [k0_part13_eq_skeleton, k0_part13_skel, semSignalWord, semWaitWord, Prog.lift, Prog.bind_op, Prog.bind_ret, Prog.pure_eq_ret]
  unfold owesFrom asPay
  iintro ⟨#HR, #HL, HO, Hx2, Hx3, Htr2, Htr3, Hts2, Hts3, Hd2, Hd3, ⟨Hf, Hc⟩⟩
  iapply (wp_copy_act m K c _ 2 2 (by decide) (dev_eq18 c) (off2_eq c) (off2_eq c) B_as2 B_ar2 ((owedItems c).drop 18) W) $$ [$HR $Hx2 $Hd2 $Hts2 $Htr2 HO]
  · iexact HO
  iintro ⟨Hcr2, HO⟩
  iapply (wp_copy_act m K c _ 2 3 (by decide) (dev_eq19 c) (off2_eq c) (off2_eq c) B_as2 B_ar2 ((owedItems c).drop 19) W) $$ [$HR $Hx3 $Hd3 $Hts3 $Htr3 HO]
  · iexact HO
  iintro ⟨Hcr3, HO⟩
  iapply (wait_ar_1 m K c 2 _ B_ar2 _ W (B_cA 2 _ _) (mayWait_ar2 c)) $$ [$]
  iintro ⟨HO, Hm, Hc2, Hc3⟩
  iapply (B_wp_ret c)
  isplitl [HO]; · iexists _; iexact HO
  iframe

theorem B_part14_spec (v6 v349 v362 : BitVec 32) (W : Waits sig Unit) :
    iprop(records m K ∗ levAts L lv ∗ owesFrom c 19 W ∗ midWait m (arC c 2) (0 + cA 2) ∗ cred (tallyAt (arC c 2) () (cA 2)) ∗ cred (tallyAt (arC c 2) () (cA 2))
        ∗ holds c (slotJ (xnM 0) (qd c)) shK (xn0 m c) ∗ (fresh (wrC c 2) ∗ cred (tallyAt (wrC c 2) () (cW 2))))
      ⊢ wpX[c] ((ARGS k0_part14) c v6 v349 v362)
          (fun r => iprop(⌜r = acts1 m c⌝ ∗ (∃ W', owesFrom c 19 W') ∗ done (arC c 2) ∗ got3 m c 2
            ∗ holds c (slotJ (xnM 0) (qd c)) shK (xn0 m c) ∗ done (wrC c 2) ∗ wrPay m c 2)) := by
  simp only [k0_part14_eq_skeleton, k0_part14_skel, semSignalWord, semWaitWord, Prog.lift, Prog.bind_op, Prog.bind_ret, Prog.pure_eq_ret]
  unfold owesFrom fresh
  iintro ⟨#HR, #HL, HO, Hm, Hc2, Hc3, Hx, ⟨Hfw, Hcw⟩⟩
  iapply (wait_ar_2 m K c 2 _ B_ar2 _ W (B_cA 2 _ _) (mayWait_ar2 c)) $$ [$]
  iintro ⟨HO, Hm, Hc3⟩
  iapply (wait_ar_3 m K c 2 _ B_ar2 _ _ (B_cA 2 _ _) (mayWait_ar2 c)) $$ [$]
  iintro ⟨HO, Hd, Hg⟩
  iapply (B_load4 m c 2 (xn0 m) (fun _ => rfl) rfl rfl) $$ [$]
  iintro ⟨Hx, Hg⟩
  ihave HI := (inv_wr m K c 2) $$ HR
  ihave HM := (mayWait_wr2 c) $$ HL
  iapply (wp_wait_wr m c 2 _ B_wr2 _ _ rfl) $$ [$]
  iintro ⟨HO, Hdw, Hpw⟩
  unfold done
  iapply (B_wp_ret c)
  isplitr; · ipureintro; rfl
  isplitl [HO]; · iexists _; iexact HO
  iframe

end Parts

theorem B_stretch (m : (ℓ : Loc nD τ sig) → Buf (Elt F) ℓ) (K : Dev nD × Fin 26 → ℕ) (c : Dev nD) (v3 v4 v6 v83 v96 v167 : BitVec 32) (W : Waits sig Unit)
    {α : Type} (Q : α → sProp 𝕄) (KK : FVec F S512x128 .bf16 → Prog (TpuEff nD τ sig (Elt F) Λ₀ .tc) α) :
    iprop(records m K ∗ levAts L lv ∗ preXg m c ∗ preLayer m 0 c W
        ∗ ((postXg m c ∗ postLayer m 0 c) -∗ wpX[c] (KK (acts1 m c)) Q))
      ⊢ wpX[c] (do
          let ⟨v192, v193⟩ : Σ' (v192 : FVec F S512x128 .bf16), BitVec 32 ← (ARGS k0_part7) c v6 v83 v96 v167
          let v219 : FVec F S512x128 .f32 ← (ARGS k0_part8) v6 v192 v193
          let ⟨v237, v252⟩ : Σ' (v237 : BitVec 32), BitVec 32 ← (ARGS k0_part9) c v3 v4 v192 v219
          let v267 : BitVec 32 ← (ARGS k0_part10) c v3 v4 v237 v252
          let ⟨v314, c2_i32_298⟩ : Σ' (v314 : FVec F S128x128 .f32), BitVec 32 ← (ARGS k0_part11) c v3 v252 v267
          let ⟨v336, v349⟩ : Σ' (v336 : BitVec 32), BitVec 32 ← (ARGS k0_part12) c v3 v4 v314 c2_i32_298
          let v362 : BitVec 32 ← (ARGS k0_part13) c v3 v4 v336 v349
          let v398 : FVec F S512x128 .bf16 ← (ARGS k0_part14) c v6 v349 v362
          KK v398) Q := by
  rw [B_preLayer0, B_postLayer0]
  unfold arTok asTok lent asCred
  iintro ⟨#HR, #HL, HXg, ⟨HO, Hw0, Hw1, Hw2, Ha1, Ha2, ⟨Htr11, Htr12, Htr13⟩, ⟨Hts11, Hts12, Hts13⟩, ⟨Hl11, Hl12, Hl13⟩, ⟨Htr21, Htr22, Htr23⟩, ⟨Hts21, Hts22, Hts23⟩, ⟨Hl21, Hl22, Hl23⟩, Hwi, Hwo, H4, Hxn⟩, HK⟩
  iapply (B_seq c (B_part7_spec m K c v6 v83 v96 v167 W)) $$ [$]
  iintro %r
  obtain ⟨v192, v193⟩ := r
  iintro ⟨%h7, ⟨%W1, HO⟩, HXg⟩
  cases h7
  iapply (B_seq c (B_part8_spec m K c v6 v193 (acts0 m c) W1)) $$ [$]
  iintro %v219 ⟨%h8, ⟨%W2, HO⟩, Hd0, Hd1, Hp0, Hp1, Hwi, Hwo⟩
  subst h8
  iapply (B_seq c (B_part9_spec m K c v3 v4 W2)) $$ [$]
  iintro %r
  obtain ⟨v237, v252⟩ := r
  iintro ⟨HO, Hp0, Hp1, Hs0, Hs2, Hs3, Hcr1⟩
  iapply (B_seq c (B_part10_spec m K c v3 v4 v237 v252 W2)) $$ [$]
  iintro %v267 ⟨HO, Hcr2, Hcr3⟩
  iapply (B_seq c (B_part11_spec m K c v3 v252 v267 W2)) $$ [$]
  iintro %r
  obtain ⟨v314, cc⟩ := r
  iintro ⟨%h11, ⟨%W3, HO⟩, Hda1, Hg1, Hs0⟩
  cases h11
  iapply (B_seq c (B_part12_spec m K c v3 v4 cc W3)) $$ [$]
  iintro %r
  obtain ⟨v336, v349⟩ := r
  iintro ⟨HO, Hg1, HxK, Hx2, Hx3, Hcs1⟩
  iapply (B_seq c (B_part13_spec m K c v3 v4 v336 v349 W3)) $$ [$]
  iintro %v362 ⟨⟨%W4, HO⟩, Hcs2, Hcs3, Hm, Hc2, Hc3⟩
  iapply (B_seq c (B_part14_spec m K c v6 v349 v362 W4)) $$ [$]
  iintro %v398 ⟨%h14, HO, Hda2, Hg2, HxK, Hdw2, Hpw2⟩
  subst h14
  iapply HK
  iframe

end Cert.Kernel.P

#print axioms Cert.Kernel.P.B_stretch

end
-- ==== Proof.Bits.BodyC.lean ====
import proofs.«900976_g7700000000000977_dist_mlpseq_tp1d_bs_bs_b128_d128_h256_v7x_i8_bf16_1_alg».proof.Proof.Bits.BodyShared
import proofs.«900976_g7700000000000977_dist_mlpseq_tp1d_bs_bs_b128_d128_h256_v7x_i8_bf16_1_alg».proof.Proof.Bits.Reindex

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

-- A program under its specification, then the continuation from the postcondition it leaves.
theorem C_seq (c : Dev nD) {α β : Type} {p : Prog (TpuEff nD τ sig (Elt F) Λ₀ .tc) α} {k : α → Prog (TpuEff nD τ sig (Elt F) Λ₀ .tc) β} {P : sProp 𝕄} {Φ : α → sProp 𝕄} {Q : β → sProp 𝕄}
    (h : P ⊢ wp frame (wpE (defs₀ (F := F)) 𝒱₀ (c : Thread nD τ) none) Set.univ p Φ) :
    P ⊢ iprop((∀ a, Φ a -∗ wp frame (wpE (defs₀ (F := F)) 𝒱₀ (c : Thread nD τ) none) Set.univ (k a) Q) -∗ wp frame (wpE (defs₀ (F := F)) 𝒱₀ (c : Thread nD τ) none) Set.univ (p >>= k) Q) := by
  rw [wp_bind]; exact h.trans (wp_wand _ _ _)

theorem C_asS3 : ((cc0_scratch13.slice (Rect.unit (s := S6) ![3] S1.size inb_S6_S1_3)).squeeze S_ squeezes_S1_S_).sem = asS 3 := by decide
theorem C_asS4 : ((cc0_scratch13.slice (Rect.unit (s := S6) ![4] S1.size inb_S6_S1_4)).squeeze S_ squeezes_S1_S_).sem = asS 4 := by decide
theorem C_arS3 : ((cc0_scratch14.slice (Rect.unit (s := S6) ![3] S1.size inb_S6_S1_3)).squeeze S_ squeezes_S1_S_).sem = arS 3 := by decide
theorem C_arS4 : ((cc0_scratch14.slice (Rect.unit (s := S6) ![4] S1.size inb_S6_S1_4)).squeeze S_ squeezes_S1_S_).sem = arS 4 := by decide

-- The credit of a destination slot of phase j is the same at every slot.
theorem C_cA (j : Fin 6) (c : Dev nD) : (slot4 (dstBuf j) (k0_off2 c) (k0_off2_inb c)).view.dmaCredit = cA j := cA_slot j 0

def preC (m : (ℓ : Loc nD τ sig) → Buf (Elt F) ℓ) (c : Dev nD) (W : Waits sig Unit) : sProp 𝕄 :=
  iprop(owesFrom c 19 W
    ∗ wrPay m c 2 ∗ (fresh (wrC c 3) ∗ cred (tallyAt (wrC c 3) () (cW 3))) ∗ (fresh (wrC c 4) ∗ cred (tallyAt (wrC c 4) () (cW 4)))
    ∗ (fresh (arC c 3) ∗ cred (tallyAt (arC c 3) () (3 * cA 3))) ∗ (fresh (arC c 4) ∗ cred (tallyAt (arC c 4) () (3 * cA 4)))
    ∗ arTok c 3 ∗ asTok c 3 ∗ lent c 3 ∗ arTok c 4 ∗ asTok c 4 ∗ lent c 4
    ∗ holds c (winsJ 0 1) shK (Wi m c 1) ∗ holds c (woutsJ 0 1) shK (Wo m c 1)
    ∗ any4 c (prtlM 1) ∗ holdsAny c (slotJ (xnM 1) (qd c)))
def postC (m : (ℓ : Loc nD τ sig) → Buf (Elt F) ℓ) (c : Dev nD) : sProp 𝕄 :=
  iprop((∃ W, owesFrom c 25 W)
    ∗ done (wrC c 3) ∗ done (wrC c 4) ∗ done (arC c 3) ∗ done (arC c 4)
    ∗ asCred c 3 ∗ asCred c 4
    ∗ holds c (winsJ 0 1) shK (Wi m c 1) ∗ holds c (woutsJ 0 1) shK (Wo m c 1)
    ∗ wrPay m c 2 ∗ wrPay m c 3 ∗ wrPay m c 4
    ∗ holds c (slotJ (prtlM 1) (qd c)) fullShare (sl4 (PK m 1 c) (qd c))
    ∗ got3 m c 3
    ∗ holds c (slotJ (xnM 1) (qd c)) shK (XN m 1 c)
    ∗ got3 m c 4)

section
variable (m : (ℓ : Loc nD τ sig) → Buf (Elt F) ℓ) (K : Dev nD × Fin 26 → ℕ) (c : Dev nD)

-- Parts 15 to 21 of the body, each from what it consumes to what it leaves.
theorem part15_spec (v6 : BitVec 32) (W : Waits sig Unit) :
    iprop(records m K ∗ levAts L lv ∗ owesFrom c 19 W ∗ (fresh (wrC c 3) ∗ cred (tallyAt (wrC c 3) () (cW 3)))
        ∗ holds c (winsJ 0 1) shK (Wi m c 1) ∗ holds c (woutsJ 0 1) shK (Wo m c 1) ∗ wrPay m c 2)
      ⊢ wp frame (wpE (defs₀ (F := F)) 𝒱₀ (c : Thread nD τ) none) Set.univ ((ARGS k0_part15) v6 (acts1 m c))
          (fun r => iprop(⌜k0_pay18 r.1 r.2.1 r.2.2 = PK m 1 c⌝
            ∗ (∃ W', owesFrom c 19 W') ∗ done (wrC c 3) ∗ wrPay m c 3
            ∗ holds c (winsJ 0 1) shK (Wi m c 1) ∗ holds c (woutsJ 0 1) shK (Wo m c 1) ∗ wrPay m c 2)) := by
  simp only [k0_part15_eq_skeleton, k0_part15_skel, owesFrom, fresh, done, Prog.lift, Prog.bind_op, Prog.bind_ret, Prog.pure_eq_ret]
  rw [wrPay_2, wrPay_3]
  iintro ⟨#Hrec, #Hlev, HO, ⟨Hf, Hc⟩, Hwi, Hwo, Hp2⟩
  ihave HI := (inv_wr m K c 3) $$ Hrec
  ihave HM := (mayWait_wr3 c) $$ Hlev
  iapply (wp_wait_wr m c 3 _ (by decide) (owedL ((owedItems c).drop 19)) W (rfl : (woutsJ 1 1).view.dmaCredit = cW 3)) $$ [$]
  iintro ⟨HO, Hd, Hp3⟩
  ihave Hp3 := (Entails.of_eq (wrPay_3 m c)) $$ Hp3
  iapply (wp_load_wslice c 0 1 rfl shK (Wi m c 1)) $$ Hwi
  iintro Hwi
  iapply (wp_load_oslice c 0 1 rfl shK (Wo m c 1)) $$ Hwo
  iintro Hwo
  iapply (wp_load_wslice c 1 1 rfl fullShare (Wi m (pp c 0) 1)) $$ Hp2
  iintro Hp2
  iapply (wp_load_oslice c 1 1 rfl fullShare (Wo m (pp c 0) 1)) $$ Hp3
  iintro Hp3
  iapply (le_wp_ret _ _ _ _ _)
  isplitr; · ipureintro; rfl
  isplitl [HO]; · iexists _; iexact HO
  iframe

theorem part16_spec (v3 v4 : BitVec 32) (W : Waits sig Unit)
    (v425 : FVec F S512x128 .f32) (v431 : FVec F S512x256 .bf16) (v433 : FVec F S256x128 .bf16) (hV : k0_pay18 v425 v431 v433 = PK m 1 c) :
    iprop(records m K ∗ levAts L lv ∗ owesFrom c 19 W ∗ any4 c (prtlM 1)
        ∗ dutyTok ER (asC c 3) 0 1 ∗ dutyTok ER (arC (pp c 1) 3) 0 (inv 1) ∗ holdsAny (pp c 1) (slotJ (dstBuf 3) (qd c)))
      ⊢ wp frame (wpE (defs₀ (F := F)) 𝒱₀ (c : Thread nD τ) none) Set.univ ((ARGS k0_part16) c v3 v4 v425 v431 v433)
          (fun _ => iprop(owesFrom c 20 W ∗ cred (tallyAt (asC c 3) () (cA 3))
            ∗ holds c (slotJ (prtlM 1) (qd c)) fullShare (sl4 (PK m 1 c) (qd c)) ∗ asPay m c 3 2 ∗ asPay m c 3 3)) := by
  simp only [k0_part16_eq_skeleton, k0_part16_skel, owesFrom, any4, asPay, Prog.lift, Prog.bind_op, Prog.bind_ret, Prog.pure_eq_ret]
  rw [hV]
  iintro ⟨#Hrec, #Hlev, HO, Hany, Hts, Htr, Hlent⟩
  iapply (wp_load_whole4_any c (prtlM 1) rfl) $$ Hany
  iintro %x Hany
  iapply (wp_store_whole4 c (prtlM 1) rfl) $$ Hany
  iintro H4
  icases (X_reindex4 c (fun j => holds c (slotJ (prtlM 1) j) fullShare (sl4 (PK m 1 c) j))).2 $$ H4 with ⟨H0, H1, H2, H3⟩
  iapply (wp_copy_act m K c _ 3 1 (by decide) (dev_eq20 c) (by rw [off3_eq1, srcSlot_3, qd_pp_val1]) (off2_eq c) C_asS3 C_arS3 ((owedItems c).drop 20) W) $$ [H1 Hlent HO Hts Htr]
  · iframe # ∗
    isplitl [H1]; · iexact H1
    iexact HO
  iintro ⟨Hc, HO⟩
  iapply (le_wp_ret _ _ _ _ _)
  iframe
  isplitl [H2]; · iexact H2
  iexact H3

theorem part17_spec (v3 v4 v443 v458 : BitVec 32) (W : Waits sig Unit) :
    iprop(records m K ∗ levAts L lv ∗ owesFrom c 20 W ∗ asPay m c 3 2 ∗ asPay m c 3 3
        ∗ dutyTok ER (asC c 3) 0 2 ∗ dutyTok ER (asC c 3) 0 3 ∗ dutyTok ER (arC (pp c 2) 3) 0 (inv 2) ∗ dutyTok ER (arC (pp c 3) 3) 0 (inv 3)
        ∗ holdsAny (pp c 2) (slotJ (dstBuf 3) (qd c)) ∗ holdsAny (pp c 3) (slotJ (dstBuf 3) (qd c))
        ∗ (fresh (arC c 3) ∗ cred (tallyAt (arC c 3) () (3 * cA 3))))
      ⊢ wp frame (wpE (defs₀ (F := F)) 𝒱₀ (c : Thread nD τ) none) Set.univ ((ARGS k0_part17) c v3 v4 v443 v458)
          (fun _ => iprop((∃ W', owesFrom c 22 W') ∗ cred (tallyAt (asC c 3) () (cA 3)) ∗ cred (tallyAt (asC c 3) () (cA 3))
            ∗ midWait m (arC c 3) (0 + cA 3) ∗ cred (tallyAt (arC c 3) () (cA 3)) ∗ cred (tallyAt (arC c 3) () (cA 3)))) := by
  simp only [k0_part17_eq_skeleton, k0_part17_skel, owesFrom, asPay, Prog.lift, Prog.bind_op, Prog.bind_ret, Prog.pure_eq_ret]
  iintro ⟨#Hrec, #Hlev, HO, H2, H3, Hts2, Hts3, Htr2, Htr3, Hl2, Hl3, Hf, Hc⟩
  iapply (wp_copy_act m K c _ 3 2 (by decide) (dev_eq21 c) (by rw [off3_eq2, srcSlot_3, qd_pp_val2]) (off2_eq c) C_asS3 C_arS3 ((owedItems c).drop 21) W) $$ [H2 Hl2 HO Hts2 Htr2]
  · iframe # ∗; iexact HO
  iintro ⟨Hc2, HO⟩
  iapply (wp_copy_act m K c _ 3 3 (by decide) (dev_eq22 c) (by rw [off3_eq3, srcSlot_3, qd_pp_val3]) (off2_eq c) C_asS3 C_arS3 ((owedItems c).drop 22) W) $$ [H3 Hl3 HO Hts3 Htr3]
  · iframe # ∗; iexact HO
  iintro ⟨Hc3, HO⟩
  iapply (wait_ar_1 m K c 3 _ C_arS3 _ W (C_cA 3 c) (mayWait_ar3 c)) $$ [$]
  iintro ⟨HO, Hmid, Hcb, Hcc⟩
  iapply (le_wp_ret _ _ _ _ _)
  isplitl [HO]; · iexists _; iexact HO
  iframe

theorem part18_spec (v3 v473 : BitVec 32) (W : Waits sig Unit) :
    iprop(records m K ∗ levAts L lv ∗ owesFrom c 22 W
        ∗ midWait m (arC c 3) (0 + cA 3) ∗ cred (tallyAt (arC c 3) () (cA 3)) ∗ cred (tallyAt (arC c 3) () (cA 3))
        ∗ holds c (slotJ (prtlM 1) (qd c)) fullShare (sl4 (PK m 1 c) (qd c)))
      ⊢ wp frame (wpE (defs₀ (F := F)) 𝒱₀ (c : Thread nD τ) none) Set.univ ((ARGS k0_part18) c v3 v473)
          (fun r => iprop(⌜r = k0_pay19 (unsq3 (sl4 (PK m 1 c) (qd c))) (unsq3 (sl4 (PK m 1 (pp c 1)) (qd c))) (unsq3 (sl4 (PK m 1 (pp c 2)) (qd c)))⌝
            ∗ (∃ W', owesFrom c 22 W') ∗ done (arC c 3)
            ∗ holds c (slotJ (prtlM 1) (qd c)) fullShare (sl4 (PK m 1 c) (qd c)) ∗ got3 m c 3)) := by
  simp only [k0_part18_eq_skeleton, k0_part18_skel, owesFrom, got3, arPay, Prog.lift, Prog.bind_op, Prog.bind_ret, Prog.pure_eq_ret]
  iintro ⟨#Hrec, #Hlev, HO, Hmid, Hca, Hcb, H0⟩
  iapply (wait_ar_2 m K c 3 _ C_arS3 _ W (C_cA 3 c) (mayWait_ar3 c)) $$ [$]
  iintro ⟨HO, Hmid, Hcb⟩
  iapply (wait_ar_3 m K c 3 _ C_arS3 _ _ (C_cA 3 c) (mayWait_ar3 c)) $$ [$]
  iintro ⟨HO, Hd, Hg⟩
  icases (Entails.of_eq (show got3 m c 3 = iprop(holds _ _ _ _ ∗ holds _ _ _ _ ∗ holds _ _ _ _) from rfl)) $$ Hg with ⟨Hg1, Hg2, Hg3⟩
  iapply (wp_load_slot c (prtlM 1) (qd c) (off1_eq c) fullShare (sl4 (PK m 1 c) (qd c))) $$ H0
  iintro H0
  iapply (wp_load_slot c (dstBuf 3) (qd (pp c 1)) (by rw [off4_eq1, qd_pp_val1]) fullShare _) $$ Hg1
  iintro Hg1
  iapply (wp_load_slot c (dstBuf 3) (qd (pp c 2)) (by rw [off4_eq2, qd_pp_val2]) fullShare _) $$ Hg2
  iintro Hg2
  iapply (le_wp_ret _ _ _ _ _)
  isplitr; · ipureintro; rfl
  isplitl [HO]; · iexists _; iexact HO
  iframe

theorem part19_spec (v3 v4 : BitVec 32) (W : Waits sig Unit) (v527 : FVec F S128x128 .f32)
    (h527 : v527 = k0_pay19 (unsq3 (sl4 (PK m 1 c) (qd c))) (unsq3 (sl4 (PK m 1 (pp c 1)) (qd c))) (unsq3 (sl4 (PK m 1 (pp c 2)) (qd c)))) :
    iprop(records m K ∗ levAts L lv ∗ owesFrom c 22 W ∗ got3 m c 3 ∗ holdsAny c (slotJ (xnM 1) (qd c))
        ∗ dutyTok ER (asC c 4) 0 1 ∗ dutyTok ER (arC (pp c 1) 4) 0 (inv 1) ∗ holdsAny (pp c 1) (slotJ (dstBuf 4) (qd c)))
      ⊢ wp frame (wpE (defs₀ (F := F)) 𝒱₀ (c : Thread nD τ) none) Set.univ ((ARGS k0_part19) c v3 v4 v527)
          (fun _ => iprop(owesFrom c 23 W ∗ got3 m c 3 ∗ cred (tallyAt (asC c 4) () (cA 4))
            ∗ holds c (slotJ (xnM 1) (qd c)) shK (XN m 1 c) ∗ asPay m c 4 2 ∗ asPay m c 4 3)) := by
  simp only [k0_part19_eq_skeleton, k0_part19_skel, owesFrom, got3, arPay, asPay, Prog.lift, Prog.bind_op, Prog.bind_ret, Prog.pure_eq_ret]
  subst h527
  iintro ⟨#Hrec, #Hlev, HO, ⟨Hg1, Hg2, Hg3⟩, Hx, Hts, Htr, Hlent⟩
  iapply (wp_load_slot c (dstBuf 3) (qd (pp c 3)) (by rw [off4_eq3, qd_pp_val3]) fullShare _) $$ Hg3
  iintro Hg3
  iapply (wp_load_slot_any c (xnM 1) (qd c) (off1_eq c)) $$ Hx
  iintro %x Hx
  iapply (wp_store_slot c (xnM 1) (qd c) (off1_eq c)) $$ Hx
  iintro Hx
  icases (holds_split c _ fullShare _) $$ Hx with ⟨HxK, HxR⟩
  icases (holds_split c _ fullShare.right _) $$ HxR with ⟨Hx1, HxR⟩
  icases (holds_split c _ fullShare.right.right _) $$ HxR with ⟨Hx2, Hx3⟩
  iapply (wp_copy_act m K c _ 4 1 (by decide) (dev_eq23 c) (by rw [off2_eq, srcSlot_4]) (off2_eq c) C_asS4 C_arS4 ((owedItems c).drop 23) W) $$ [Hx1 Hlent HO Hts Htr]
  · iframe # ∗
    isplitl [Hx1]; · iexact Hx1
    iexact HO
  iintro ⟨Hc, HO⟩
  iapply (le_wp_ret _ _ _ _ _)
  iframe
  isplitl [HxK]; · iexact HxK
  isplitl [Hx2]; · iexact Hx2
  iexact Hx3

theorem part20_spec (v3 v4 v542 v555 : BitVec 32) (W : Waits sig Unit) :
    iprop(records m K ∗ levAts L lv ∗ owesFrom c 23 W ∗ asPay m c 4 2 ∗ asPay m c 4 3
        ∗ dutyTok ER (asC c 4) 0 2 ∗ dutyTok ER (asC c 4) 0 3 ∗ dutyTok ER (arC (pp c 2) 4) 0 (inv 2) ∗ dutyTok ER (arC (pp c 3) 4) 0 (inv 3)
        ∗ holdsAny (pp c 2) (slotJ (dstBuf 4) (qd c)) ∗ holdsAny (pp c 3) (slotJ (dstBuf 4) (qd c))
        ∗ (fresh (arC c 4) ∗ cred (tallyAt (arC c 4) () (3 * cA 4))))
      ⊢ wp frame (wpE (defs₀ (F := F)) 𝒱₀ (c : Thread nD τ) none) Set.univ ((ARGS k0_part20) c v3 v4 v542 v555)
          (fun _ => iprop((∃ W', owesFrom c 25 W') ∗ cred (tallyAt (asC c 4) () (cA 4)) ∗ cred (tallyAt (asC c 4) () (cA 4))
            ∗ midWait m (arC c 4) (0 + cA 4 + cA 4) ∗ cred (tallyAt (arC c 4) () (cA 4)))) := by
  simp only [k0_part20_eq_skeleton, k0_part20_skel, owesFrom, asPay, Prog.lift, Prog.bind_op, Prog.bind_ret, Prog.pure_eq_ret]
  iintro ⟨#Hrec, #Hlev, HO, Hx2, Hx3, Hts2, Hts3, Htr2, Htr3, Hl2, Hl3, Hf, Hc⟩
  iapply (wp_copy_act m K c _ 4 2 (by decide) (dev_eq24 c) (by rw [off2_eq, srcSlot_4]) (off2_eq c) C_asS4 C_arS4 ((owedItems c).drop 24) W) $$ [Hx2 Hl2 HO Hts2 Htr2]
  · iframe # ∗; iexact HO
  iintro ⟨Hc2, HO⟩
  iapply (wp_copy_act m K c _ 4 3 (by decide) (dev_eq25 c) (by rw [off2_eq, srcSlot_4]) (off2_eq c) C_asS4 C_arS4 ((owedItems c).drop 25) W) $$ [Hx3 Hl3 HO Hts3 Htr3]
  · iframe # ∗; iexact HO
  iintro ⟨Hc3, HO⟩
  iapply (wait_ar_1 m K c 4 _ C_arS4 _ W (C_cA 4 c) (mayWait_ar4 c)) $$ [$]
  iintro ⟨HO, Hmid, Hcb, Hcc⟩
  iapply (wait_ar_2 m K c 4 _ C_arS4 _ _ (C_cA 4 c) (mayWait_ar4 c)) $$ [$]
  iintro ⟨HO, Hmid, Hcc⟩
  iapply (le_wp_ret _ _ _ _ _)
  isplitl [HO]; · iexists _; iexact HO
  iframe

theorem part21_spec (v6 v568 : BitVec 32) (W : Waits sig Unit) :
    iprop(records m K ∗ levAts L lv ∗ owesFrom c 25 W
        ∗ midWait m (arC c 4) (0 + cA 4 + cA 4) ∗ cred (tallyAt (arC c 4) () (cA 4))
        ∗ holds c (slotJ (xnM 1) (qd c)) shK (XN m 1 c) ∗ (fresh (wrC c 4) ∗ cred (tallyAt (wrC c 4) () (cW 4))))
      ⊢ wp frame (wpE (defs₀ (F := F)) 𝒱₀ (c : Thread nD τ) none) Set.univ ((ARGS k0_part21) c v6 v568)
          (fun r => iprop(⌜r = acts2 m c⌝ ∗ (∃ W', owesFrom c 25 W') ∗ done (arC c 4) ∗ got3 m c 4
            ∗ holds c (slotJ (xnM 1) (qd c)) shK (XN m 1 c) ∗ done (wrC c 4) ∗ wrPay m c 4)) := by
  simp only [k0_part21_eq_skeleton, k0_part21_skel, owesFrom, fresh, got3, arPay_4, Prog.lift, Prog.bind_op, Prog.bind_ret, Prog.pure_eq_ret]
  have h := X_reindex4 c (fun j => holds c (slotJ (xnM 1) j) shK (XN m 1 (plane c j)))
  simp only [plane_qd, plane_pp c 1 (by decide), plane_pp c 2 (by decide), plane_pp c 3 (by decide)] at h
  iintro ⟨#Hrec, #Hlev, HO, Hmid, Hcc, HxK, Hf, Hc⟩
  iapply (wait_ar_3 m K c 4 _ C_arS4 _ W (C_cA 4 c) (mayWait_ar4 c)) $$ [$]
  iintro ⟨HO, Hd, Hg⟩
  icases (Entails.of_eq (show got3 m c 4 = iprop(holds c (slotJ (xnM 1) _) _ (XN m 1 _) ∗ holds c (slotJ (xnM 1) _) _ (XN m 1 _) ∗ holds c (slotJ (xnM 1) _) _ (XN m 1 _)) from rfl)) $$ Hg with ⟨Hg1, Hg2, Hg3⟩
  icases (holds_split c _ fullShare _) $$ Hg1 with ⟨Hg1l, Hg1r⟩
  icases (holds_split c _ fullShare _) $$ Hg2 with ⟨Hg2l, Hg2r⟩
  icases (holds_split c _ fullShare _) $$ Hg3 with ⟨Hg3l, Hg3r⟩
  ihave H4 := h.1 $$ [HxK Hg1l Hg2l Hg3l]
  · iframe
  iapply (wp_load_whole4 c (xnM 1) rfl shK (fun j => XN m 1 (plane c j))) $$ H4
  iintro H4
  icases h.2 $$ H4 with ⟨HxK, Hg1l, Hg2l, Hg3l⟩
  ihave HI := (inv_wr m K c 4) $$ Hrec
  ihave HM := (mayWait_wr4 c) $$ Hlev
  iapply (wp_wait_wr m c 4 _ (by decide) (owedL ((owedItems c).drop 25)) _ (rfl : (winsJ 1 2).view.dmaCredit = cW 4)) $$ [$]
  iintro ⟨HO, Hdw, Hp4⟩
  ihave Hdw := (Entails.of_eq (show (atPos ER (wrC c 4) 1 ∅ 0 : sProp 𝕄) = done (wrC c 4) from rfl)) $$ Hdw
  iapply (le_wp_ret _ _ _ _ _)
  isplitr; · ipureintro; rfl
  isplitl [HO]; · iexists _; iexact HO
  iframe
  isplitl [Hg1l Hg1r]; · iapply (holds_join c _ fullShare _); iframe
  isplitl [Hg2l Hg2r]; · iapply (holds_join c _ fullShare _); iframe
  iapply (holds_join c _ fullShare _); iframe

end

-- Parts 15 to 21 in sequence.
theorem C_stretch (m : (ℓ : Loc nD τ sig) → Buf (Elt F) ℓ) (K : Dev nD × Fin 26 → ℕ) (c : Dev nD) (v3 v4 v6 : BitVec 32) (W : Waits sig Unit)
    {α : Type} (Q : α → sProp 𝕄) (KK : FVec F S512x128 .bf16 → Prog (TpuEff nD τ sig (Elt F) Λ₀ .tc) α) :
    iprop(records m K ∗ levAts L lv ∗ preC m c W ∗ (postC m c -∗ wp frame (wpE (defs₀ (F := F)) 𝒱₀ (c : Thread nD τ) none) Set.univ (KK (acts2 m c)) Q))
      ⊢ wp frame (wpE (defs₀ (F := F)) 𝒱₀ (c : Thread nD τ) none) Set.univ (do
          let ⟨v425, v431, v433⟩ : Σ' (v425 : FVec F S512x128 .f32) (v431 : FVec F S512x256 .bf16), FVec F S256x128 .bf16 ← (ARGS k0_part15) v6 (acts1 m c)
          let ⟨v443, v458⟩ : Σ' (v443 : BitVec 32), BitVec 32 ← (ARGS k0_part16) c v3 v4 v425 v431 v433
          let v473 : BitVec 32 ← (ARGS k0_part17) c v3 v4 v443 v458
          let v527 : FVec F S128x128 .f32 ← (ARGS k0_part18) c v3 v473
          let ⟨v542, v555⟩ : Σ' (v542 : BitVec 32), BitVec 32 ← (ARGS k0_part19) c v3 v4 v527
          let v568 : BitVec 32 ← (ARGS k0_part20) c v3 v4 v542 v555
          let v604 : FVec F S512x128 .bf16 ← (ARGS k0_part21) c v6 v568
          KK v604) Q := by
  unfold preC postC arTok asTok lent asCred
  iintro ⟨#Hrec, #Hlev, ⟨HO, Hp2, ⟨Hf3, Hc3⟩, ⟨Hf4, Hc4⟩, ⟨Hfa3, Hca3⟩, ⟨Hfa4, Hca4⟩, ⟨Tr31, Tr32, Tr33⟩, ⟨Ts31, Ts32, Ts33⟩, ⟨L31, L32, L33⟩,
    ⟨Tr41, Tr42, Tr43⟩, ⟨Ts41, Ts42, Ts43⟩, ⟨L41, L42, L43⟩, Hwi, Hwo, Hany, Hx⟩, HK⟩
  iapply (C_seq c (part15_spec m K c v6 W)) $$ [$]
  iintro %r
  obtain ⟨v425, v431, v433⟩ := r
  iintro ⟨%hV, ⟨%W1, HO⟩, Hd3, Hp3, Hwi, Hwo, Hp2⟩
  iapply (C_seq c (part16_spec m K c v3 v4 W1 v425 v431 v433 hV)) $$ [$]
  iintro %r
  obtain ⟨v443, v458⟩ := r
  iintro ⟨HO, Hcs1, H0, H2, H3⟩
  iapply (C_seq c (part17_spec m K c v3 v4 v443 v458 W1)) $$ [$]
  iintro %v473 ⟨⟨%W2, HO⟩, Hcs2, Hcs3, Hmid, Hca, Hcb⟩
  iapply (C_seq c (part18_spec m K c v3 v473 W2)) $$ [$]
  iintro %v527 ⟨%h18, ⟨%W3, HO⟩, Hd, H0, Hg⟩
  iapply (C_seq c (part19_spec m K c v3 v4 W3 v527 h18)) $$ [$]
  iintro %r
  obtain ⟨v542, v555⟩ := r
  iintro ⟨HO, Hg, Hcs41, HxK, Hx2, Hx3⟩
  iapply (C_seq c (part20_spec m K c v3 v4 v542 v555 W3)) $$ [$]
  iintro %v568 ⟨⟨%W4, HO⟩, Hcs42, Hcs43, Hmid4, Hc4c⟩
  iapply (C_seq c (part21_spec m K c v6 v568 W4)) $$ [$]
  iintro %v604 ⟨%h21, ⟨%W5, HO⟩, Hd4, Hg4, HxK, Hdw4, Hp4⟩
  subst h21
  iapply HK
  isplitl [HO]; · iexists W5; iexact HO
  iframe

end Cert.Kernel.P

end
-- ==== Proof.Bits.BodyD.lean ====
import proofs.«900976_g7700000000000977_dist_mlpseq_tp1d_bs_bs_b128_d128_h256_v7x_i8_bf16_1_alg».proof.Proof.Bits.PhaseSpecs
import proofs.«900976_g7700000000000977_dist_mlpseq_tp1d_bs_bs_b128_d128_h256_v7x_i8_bf16_1_alg».proof.Proof.Bits.Levels
import proofs.«900976_g7700000000000977_dist_mlpseq_tp1d_bs_bs_b128_d128_h256_v7x_i8_bf16_1_alg».proof.Proof.Bits.HoldsLemmas
import proofs.«900976_g7700000000000977_dist_mlpseq_tp1d_bs_bs_b128_d128_h256_v7x_i8_bf16_1_alg».proof.Proof.Bits.RoundSteps
import proofs.«900976_g7700000000000977_dist_mlpseq_tp1d_bs_bs_b128_d128_h256_v7x_i8_bf16_1_alg».proof.Proof.Bits.Reindex
import proofs.«900976_g7700000000000977_dist_mlpseq_tp1d_bs_bs_b128_d128_h256_v7x_i8_bf16_1_alg».proof.Proof.Bits.BodyShared

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ (c : Thread nD τ) none) Set.univ

variable (m : (ℓ : Loc nD τ sig) → Buf (Elt F) ℓ)

theorem D_wrS5 : ((cc0_scratch12.slice (Rect.unit (s := S6) ![5] S1.size inb_S6_S1_5)).squeeze S_ squeezes_S1_S_).sem = wrS 5 := by decide
theorem D_asS5 : ((cc0_scratch13.slice (Rect.unit (s := S6) ![5] S1.size inb_S6_S1_5)).squeeze S_ squeezes_S1_S_).sem = asS 5 := by decide
theorem D_arS5 : ((cc0_scratch14.slice (Rect.unit (s := S6) ![5] S1.size inb_S6_S1_5)).squeeze S_ squeezes_S1_S_).sem = arS 5 := by decide

/-- An offset at the device's plane index shifted by n is at the plane index of the peer that far round. -/
theorem D_peer (c : Dev nD) (d : Fin 4) {n : ℕ} {off : Fin 3 → ℕ} (h : off = ![((qd c).val + n) % 4, 0, 0])
    (hq : (qd (pp c d)).val = ((qd c).val + n) % 4) : off = ![(qd (pp c d)).val, 0, 0] := by rw [h, hq]

/-- A slot's credit does not depend on which of the four slots it is. -/
theorem D_credit {off : Fin 3 → ℕ} {inb : ∀ a, off a + S1x128x128.size a ≤ S4x128x128.size a} {j : Fin 4} (h : off = ![j.val, 0, 0]) :
    (slot4 (raccM 2) off inb).view.dmaCredit = cA 5 := by subst h; exact cA_slot 5 j

theorem D_ret (c : Dev nD) {α : Type} (a : α) (Q : α → sProp 𝕄) : Q a ⊢ wpX[c] (.ret a) Q := by
  rw [wp_ret]; iintro H; imodintro; iexact H

/-- If R gives p its postcondition P, and every P a gives the rest its own, then R gives p followed by the rest. -/
theorem D_bind (c : Dev nD) {α β : Type} {p : Prog (TpuEff nD τ sig (Elt F) Λ₀ .tc) α} {k : α → Prog (TpuEff nD τ sig (Elt F) Λ₀ .tc) β}
    {R : sProp 𝕄} {P : α → sProp 𝕄} {Q : β → sProp 𝕄} (h : R ⊢ wpX[c] p P) :
    R ⊢ iprop((∀ a, P a -∗ wpX[c] (k a) Q) -∗ wpX[c] (p >>= k) Q) := by
  rw [wp_bind]; exact h.trans (BIClass.wand_intro (wp_wand_r _ _ _))

/-- What is still owed from item n on, with the list from there written out. -/
theorem D_next (c : Dev nD) (n : ℕ) (l : List (GSem nD τ sig × ℕ)) (W : Waits sig Unit) (h : (owedItems c).drop n = l) :
    (owes (c : Thread nD τ) (owedL ((owedItems c).drop n)) W : sProp 𝕄) ⊢ owes (c : Thread nD τ) (owedL l) W := by
  subst h; exact .rfl

def post22 (c : Dev nD) (W : Waits sig Unit) : sProp 𝕄 :=
  iprop(owesFrom c 25 (insert (SemLoc.dma (wrS 5), ()) W) ∗ done (wrC c 5)
    ∗ holds c (winsJ 0 2) shK (Wi m c 2) ∗ holds c (woutsJ 0 2) shK (Wo m c 2) ∗ wrPay m c 4 ∗ wrPay m c 5
    ∗ holds c (slotJ (prtlM 2) (qd c)) fullShare (sl4 (PK m 2 c) (qd c))
    ∗ asPay m c 5 1 ∗ asPay m c 5 2 ∗ asPay m c 5 3)
def post23 (c : Dev nD) (W : Waits sig Unit) : sProp 𝕄 :=
  iprop(owesFrom c 27 W ∗ cred (tallyAt (asC c 5) () (cA 5)) ∗ cred (tallyAt (asC c 5) () (cA 5)))
def post24 (c : Dev nD) : sProp 𝕄 :=
  iprop((∃ W', owesFrom c 28 W') ∗ cred (tallyAt (asC c 5) () (cA 5)) ∗ midWait m (arC c 5) (0 + cA 5 + cA 5) ∗ cred (tallyAt (arC c 5) () (cA 5)))
def post25 (c : Dev nD) : sProp 𝕄 :=
  iprop((∃ W', owesFrom c 28 W') ∗ done (arC c 5)
    ∗ holds c (slotJ (prtlM 2) (qd c)) fullShare (sl4 (PK m 2 c) (qd c)) ∗ got3 m c 5 ∗ stg c cc0_stg7_0 (OUT m c))

theorem part22_spec (K : Dev nD × Fin 26 → ℕ) (c : Dev nD) (v3 : BitVec 32) (W : Waits sig Unit) :
    iprop(records m K ∗ levAts L lv ∗ owesFrom c 25 W ∗ (fresh (wrC c 5) ∗ cred (tallyAt (wrC c 5) () (cW 5)))
        ∗ holds c (winsJ 0 2) shK (Wi m c 2) ∗ holds c (woutsJ 0 2) shK (Wo m c 2) ∗ wrPay m c 4 ∗ any4 c (prtlM 2))
      ⊢ wpX[c] ((ARGS k0_part22) v3 (acts2 m c)) (fun _ => post22 m c W) := by
  simp only [k0_part22_eq_skeleton]; unfold k0_part22_skel
  simp only [semSignalWord, semWaitWord, Prog.lift, Prog.bind_op, Prog.bind_ret, Prog.pure_eq_ret, D_wrS5]
  unfold post22 owesFrom any4 fresh done
  simp only [wrPay_4, wrPay_5, asPay_5]
  iintro ⟨#Hrec, #Hlev, HO, ⟨Hat, Hc⟩, Hwi, Hwo, Hw4, Hp⟩
  ihave Hi := (inv_wr m K c 5) $$ Hrec
  ihave Hm := (mayWait_wr5 c) $$ Hlev
  iapply (wp_wait_wr m c 5 (wrS 5) rfl (dst := woutsJ 1 2) (owedL ((owedItems c).drop 25)) W rfl) $$ [$]
  iintro ⟨HO, Hat, Hw5⟩
  ihave Hw5 := (Entails.of_eq (wrPay_5 m c)) $$ Hw5
  iapply (wp_load_wslice c 0 2 (off := ![0, 2, 0, 0]) rfl shK (Wi m c 2)) $$ Hwi; iintro Hwi
  iapply (wp_load_oslice c 0 2 (off := ![0, 2, 0, 0]) rfl shK (Wo m c 2)) $$ Hwo; iintro Hwo
  iapply (wp_load_wslice c 1 2 (off := ![1, 2, 0, 0]) rfl fullShare (Wi m (pp c 0) 2)) $$ Hw4; iintro Hw4
  iapply (wp_load_oslice c 1 2 (off := ![1, 2, 0, 0]) rfl fullShare (Wo m (pp c 0) 2)) $$ Hw5; iintro Hw5
  iapply (wp_load_whole4_any c (prtlM 2) (off := ![0, 0, 0]) rfl) $$ Hp; iintro %x Hp
  iapply (wp_store_whole4 c (prtlM 2) (off := ![0, 0, 0]) (v := PK m 2 c) rfl) $$ Hp; iintro Hp
  ihave Hq := (X_reindex4 c fun j => holds c (slotJ (prtlM 2) j) fullShare (sl4 (PK m 2 c) j)).2 $$ Hp
  iapply (D_ret c _ _)
  iframe

theorem part23_spec (K : Dev nD × Fin 26 → ℕ) (c : Dev nD) (v3 v4 v647 c4 : BitVec 32) (W : Waits sig Unit) :
    iprop(records m K ∗ owesFrom c 25 W ∗ (asPay m c 5 1 ∗ asPay m c 5 2)
        ∗ (holdsAny (pp c 1) (slotJ (dstBuf 5) (qd c)) ∗ holdsAny (pp c 2) (slotJ (dstBuf 5) (qd c)))
        ∗ (dutyTok ER (asC c 5) 0 1 ∗ dutyTok ER (asC c 5) 0 2)
        ∗ (dutyTok ER (arC (pp c 1) 5) 0 (inv 1) ∗ dutyTok ER (arC (pp c 2) 5) 0 (inv 2)))
      ⊢ wpX[c] ((ARGS k0_part23) c v3 v4 v647 c4) (fun _ => post23 c W) := by
  simp only [k0_part23_eq_skeleton]; unfold k0_part23_skel
  simp only [semSignalWord, semWaitWord, Prog.lift, Prog.bind_op, Prog.bind_ret, Prog.pure_eq_ret]
  unfold post23 asPay owesFrom
  iintro ⟨#Hrec, HO, ⟨Hs1, Hs2⟩, ⟨Hl1, Hl2⟩, ⟨Ht1, Ht2⟩, ⟨Hr1, Hr2⟩⟩
  ihave HO := (D_next c 25 ((arC (pp c 1) 5, cA 5) :: (owedItems c).drop 26) W rfl) $$ HO
  iapply (wp_copy_act m K c _ 5 1 (by decide) (dev_eq26 c) (D_peer c 1 (off3_eq1 c) (qd_pp_val1 c)) (off2_eq c) D_asS5 D_arS5 ((owedItems c).drop 26) W) $$ [$]
  iintro ⟨Hc1, HO⟩
  ihave HO := (D_next c 26 ((arC (pp c 2) 5, cA 5) :: (owedItems c).drop 27) W rfl) $$ HO
  iapply (wp_copy_act m K c _ 5 2 (by decide) (dev_eq27 c) (D_peer c 2 (off3_eq2 c) (qd_pp_val2 c)) (off2_eq c) D_asS5 D_arS5 ((owedItems c).drop 27) W) $$ [$]
  iintro ⟨Hc2, HO⟩
  iapply (D_ret c _ _)
  iframe

theorem part24_spec (K : Dev nD × Fin 26 → ℕ) (c : Dev nD) (v649 v664 v679 v680 : BitVec 32) (W : Waits sig Unit) :
    iprop(records m K ∗ levAts L lv ∗ owesFrom c 27 W ∗ asPay m c 5 3 ∗ holdsAny (pp c 3) (slotJ (dstBuf 5) (qd c))
        ∗ dutyTok ER (asC c 5) 0 3 ∗ dutyTok ER (arC (pp c 3) 5) 0 (inv 3)
        ∗ fresh (arC c 5) ∗ cred (tallyAt (arC c 5) () (3 * cA 5)))
      ⊢ wpX[c] ((ARGS k0_part24) c v649 v664 v679 v680) (fun _ => post24 m c) := by
  simp only [k0_part24_eq_skeleton]; unfold k0_part24_skel
  simp only [semSignalWord, semWaitWord, Prog.lift, Prog.bind_op, Prog.bind_ret, Prog.pure_eq_ret]
  unfold post24 asPay owesFrom
  iintro ⟨#Hrec, #Hlev, HO, Hs3, Hl3, Ht3, Hr3, Hat, Hca⟩
  ihave HO := (D_next c 27 ((arC (pp c 3) 5, cA 5) :: (owedItems c).drop 28) W rfl) $$ HO
  iapply (wp_copy_act m K c _ 5 3 (by decide) (dev_eq28 c) (D_peer c 3 (off3_eq3 c) (qd_pp_val3 c)) (off2_eq c) D_asS5 D_arS5 ((owedItems c).drop 28) W) $$ [$]
  iintro ⟨Hc3, HO⟩
  iapply (wait_ar_1 m K c 5 _ D_arS5 (owedL ((owedItems c).drop 28)) W (D_credit (off2_eq c)) (mayWait_ar5 c)) $$ [$]
  iintro ⟨HO, Hmid, Hca, Hcb⟩
  iapply (wait_ar_2 m K c 5 _ D_arS5 (owedL ((owedItems c).drop 28)) (insert (SemLoc.dma (arS 5), ()) W) (D_credit (off2_eq c)) (mayWait_ar5 c)) $$ [$]
  iintro ⟨HO, Hmid, Hcc⟩
  iapply (D_ret c _ _)
  isplitl [HO]; · iexists _; iexact HO
  iframe

theorem D_write_out (f w : (cc0_stg7_0 : Ref sig .tc).ty.Contents (Elt F)) :
    (((Memref.whole cc0_stg7_0 : Memref sig .tc .vmem S128x128 .f32).access
        (Rect.unit (s := S128x128) ![0, 0] S128x128.size inb_S128x128_S128x128_0_0) : View sig .tc _ _ _).write (Elt F) f w Finset.univ) = w :=
  Memref.write_access_unit_zero_univ (Elt F) cc0_stg7_0 (funext fun a => by fin_cases a <;> rfl) _ f w

theorem part25_spec (K : Dev nD × Fin 26 → ℕ) (c : Dev nD) (v3 v708 c0 : BitVec 32) (W : Waits sig Unit) :
    iprop(records m K ∗ levAts L lv ∗ owesFrom c 28 W ∗ midWait m (arC c 5) (0 + cA 5 + cA 5) ∗ cred (tallyAt (arC c 5) () (cA 5))
        ∗ holds c (slotJ (prtlM 2) (qd c)) fullShare (sl4 (PK m 2 c) (qd c)) ∗ (∃ X, stg c cc0_stg7_0 X))
      ⊢ wpX[c] ((ARGS k0_part25) c v3 v708 c0) (fun _ => post25 m c) := by
  simp only [k0_part25_eq_skeleton]; unfold k0_part25_skel
  simp only [semSignalWord, semWaitWord, Prog.lift, Prog.bind_op, Prog.bind_ret, Prog.pure_eq_ret]
  unfold post25 owesFrom
  iintro ⟨#Hrec, #Hlev, HO, Hmid, Hcc, Hown, ⟨%X, %g, %hg, Hout⟩⟩
  iapply (wait_ar_3 m K c 5 _ D_arS5 (owedL ((owedItems c).drop 28)) W (D_credit (off2_eq c)) (mayWait_ar5 c)) $$ [$]
  iintro ⟨HO, Hat, Hg⟩
  simp only [got3, arPay_5]
  icases Hg with ⟨Hg1, Hg2, Hg3⟩
  iapply (wp_load_slot c (prtlM 2) (qd c) (off1_eq c) fullShare (sl4 (PK m 2 c) (qd c))) $$ Hown; iintro Hown
  iapply (wp_load_slot c (raccM 2) (qd (pp c 1)) (D_peer c 1 (off4_eq1 c) (qd_pp_val1 c)) fullShare (sl4 (PK m 2 (pp c 1)) (qd c))) $$ Hg1; iintro Hg1
  iapply (wp_load_slot c (raccM 2) (qd (pp c 2)) (D_peer c 2 (off4_eq2 c) (qd_pp_val2 c)) fullShare (sl4 (PK m 2 (pp c 2)) (qd c))) $$ Hg2; iintro Hg2
  iapply (wp_load_slot c (raccM 2) (qd (pp c 3)) (D_peer c 3 (off4_eq3 c) (qd_pp_val3 c)) fullShare (sl4 (PK m 2 (pp c 3)) (qd c))) $$ Hg3; iintro Hg3
  iapply (wp_load 𝒱₀ (c : Thread nD τ) none Set.univ (m := (Memref.whole cc0_stg7_0 : Memref sig .tc .vmem S128x128 .f32)) (Finset.subset_univ _)) $$ Hout; iintro Hout
  iapply (wp_store 𝒱₀ (c : Thread nD τ) none Set.univ (m := (Memref.whole cc0_stg7_0 : Memref sig .tc .vmem S128x128 .f32))
      (r := Rect.unit (s := S128x128) ![0, 0] S128x128.size inb_S128x128_S128x128_0_0) (Mk := Finset.univ) (Finset.subset_univ _)) $$ Hout; iintro Hout
  iapply (D_ret c _ _)
  isplitl [HO]; · iexists _; iexact HO
  iframe
  iexists _
  isplitr; swap
  · iexact Hout
  · ipureintro; exact D_write_out _ _

theorem D_stretch (K : Dev nD × Fin 26 → ℕ) (c : Dev nD) (v3 v4 : BitVec 32) (W : Waits sig Unit)
    {α : Type} (Q : α → sProp 𝕄) (KK : Prog (TpuEff nD τ sig (Elt F) Λ₀ .tc) α) :
    iprop(records m K ∗ levAts L lv ∗ preLast m c W ∗ (postLast m c -∗ wpX[c] KK Q))
      ⊢ wpX[c] ((do
          let ⟨v647, c4_i32_599⟩ : Σ' (v647 : BitVec 32), BitVec 32 ← (ARGS k0_part22) v3 (acts2 m c)
          let ⟨v649, v664, v679, v680⟩ : Σ' (v649 : BitVec 32) (v664 : BitVec 32) (v679 : BitVec 32), BitVec 32 ← (ARGS k0_part23) c v3 v4 v647 c4_i32_599
          let ⟨v708, c0_i32_653⟩ : Σ' (v708 : BitVec 32), BitVec 32 ← (ARGS k0_part24) c v649 v664 v679 v680
          (ARGS k0_part25) c v3 v708 c0_i32_653
          KK) : Prog (TpuEff nD τ sig (Elt F) Λ₀ .tc) α) Q := by
  unfold preLast postLast arTok asTok lent asCred
  iintro ⟨#Hrec, #Hlev, ⟨HO, ⟨Hatw, Hcw⟩, ⟨Hata, Hca⟩, ⟨Hr1, Hr2, Hr3⟩, ⟨Ht1, Ht2, Ht3⟩, ⟨Hl1, Hl2, Hl3⟩, Hwi, Hwo, Hw4, Hany, Hstg⟩, Hk⟩
  iapply (D_bind c (part22_spec m K c v3 W)) $$ [$]
  iintro %r H22; obtain ⟨v647, c4⟩ := r; unfold post22
  icases H22 with ⟨HO, Hdw, Hwi, Hwo, Hw4, Hw5, Hown, Hs1, Hs2, Hs3⟩
  iapply (D_bind c (part23_spec m K c v3 v4 v647 c4 (insert (SemLoc.dma (wrS 5), ()) W))) $$ [$]
  iintro %r H23; obtain ⟨v649, v664, v679, v680⟩ := r; unfold post23
  icases H23 with ⟨HO, Hc1, Hc2⟩
  iapply (D_bind c (part24_spec m K c v649 v664 v679 v680 (insert (SemLoc.dma (wrS 5), ()) W))) $$ [$]
  iintro %r H24; obtain ⟨v708, c0⟩ := r; unfold post24
  icases H24 with ⟨⟨%W', HO⟩, Hc3, Hmid, Hcc⟩
  iapply (D_bind c (part25_spec m K c v3 v708 c0 W')) $$ [$]
  iintro %r H25; unfold post25
  icases H25 with ⟨HO, Hda, Hown, Hgot, Hout⟩
  iapply Hk
  iframe

end Cert.Kernel.P

end
-- ==== Proof.Bits.BodyE.lean ====
import proofs.«900976_g7700000000000977_dist_mlpseq_tp1d_bs_bs_b128_d128_h256_v7x_i8_bf16_1_alg».proof.Proof.Bits.PhaseSpecs
import proofs.«900976_g7700000000000977_dist_mlpseq_tp1d_bs_bs_b128_d128_h256_v7x_i8_bf16_1_alg».proof.Proof.Bits.BodyCuts
import proofs.«900976_g7700000000000977_dist_mlpseq_tp1d_bs_bs_b128_d128_h256_v7x_i8_bf16_1_alg».proof.Proof.Bits.Levels
import proofs.«900976_g7700000000000977_dist_mlpseq_tp1d_bs_bs_b128_d128_h256_v7x_i8_bf16_1_alg».proof.Proof.Bits.RoundSteps

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

local notation "wpX[" c "]" => wp frame (wpE (defs₀ (F := F)) 𝒱₀ (c : Thread nD τ) none) Set.univ

variable (m : (ℓ : Loc nD τ sig) → Buf (Elt F) ℓ)

theorem E_inv (K : Dev nD × Fin 26 → ℕ) (c' : Dev nD) (i : Fin 26) {g : SemLoc sig} (h : cellK i = g) :
    records m K ⊢ cellInv ER (Rd m) (K (c', i)) ((c' : Thread nD τ), g) := by
  subst h
  exact sep_elim_left.trans (bigSep_elim (Finset.mem_univ (c', i)) (Φ := fun ck : Dev nD × Fin 26 => cellInv ER (Rd m) (K ck) (kcell ck)))

theorem E_reached (K : Dev nD × Fin 26 → ℕ) (c' : Dev nD) (i : Fin 26) {g : SemLoc sig} (h : cellK i = g) :
    records m K ⊢ reached ER ((c' : Thread nD τ), g) 0 := by
  subst h
  exact sep_elim_right.trans (bigSep_elim (Finset.mem_univ (c', i)) (Φ := fun ck : Dev nD × Fin 26 => reached ER (kcell ck) 0))

variable (K : Dev nD × Fin 26 → ℕ) (c : Dev nD)

abbrev E_wsPre (j : Fin 6) : sProp 𝕄 := iprop(fresh (wsC c j) ∗ cred (tallyAt (wsC c j) () (cW j)))
abbrev E_wsPost (j : Fin 6) : sProp 𝕄 := iprop(done (wsC c j) ∗ wsPay m c j)
abbrev E_asPre (j : Fin 6) : sProp 𝕄 := iprop(fresh (asC c j) ∗ asCred c j)
abbrev E_asMid1 (j : Fin 6) : sProp 𝕄 :=
  iprop(midWait m (asC c j) (0 + cA j) ∗ cred (tallyAt (asC c j) () (cA j)) ∗ cred (tallyAt (asC c j) () (cA j)))
abbrev E_asMid2 (j : Fin 6) : sProp 𝕄 := iprop(midWait m (asC c j) (0 + cA j + cA j) ∗ cred (tallyAt (asC c j) () (cA j)))
abbrev E_asPost (j : Fin 6) : sProp 𝕄 := iprop(done (asC c j) ∗ asPay m c j 1 ∗ asPay m c j 2 ∗ asPay m c j 3)

/-- From A to B by the program p on device c, whatever is still owed from item 28 on and whatever follows. -/
def E_run (A : sProp 𝕄) (p : Prog (TpuEff nD τ sig (Elt F) Λ₀ .tc) PUnit) (B : sProp 𝕄) : Prop :=
  ∀ (W : Waits sig Unit) (Q : PUnit → sProp 𝕄),
    iprop(records m K ∗ levAts L lv ∗ owesFrom c 28 W ∗ A) ⊢ iprop((∀ W', (owesFrom c 28 W' ∗ B) -∗ Q ⟨⟩) -∗ wpX[c] p Q)

section
variable {m K c} {A B C R : sProp (MT nD τ sig Unit (Elt F) ℕ UU ℕ)} {p q : Prog (TpuEff nD τ sig (Elt F) Λ₀ .tc) PUnit}

theorem E_seq (hp : E_run m K c A p B) (hq : E_run m K c B q C) : E_run m K c A (p >>= fun _ => q) C := by
  intro W Q
  rw [wp_bind]
  iintro ⟨#HR, #Hlev, HO, HA⟩ Hk
  iapply (hp W _) $$ [$]
  iintro %W1 ⟨HO, HB⟩
  iapply (hq W1 Q) $$ [$]
  iexact Hk

/-- What the program does not touch may stand to the right of its state, or to the left. -/
theorem E_frame (hp : E_run m K c A p B) : E_run m K c iprop(A ∗ R) p iprop(B ∗ R) := by
  intro W Q
  iintro ⟨#HR, #Hlev, HO, HA, HF⟩ Hk
  iapply (hp W Q) $$ [$]
  iintro %W1 ⟨HO, HB⟩
  iapply Hk $$ %W1 [$]
theorem E_frame' (hp : E_run m K c A p B) : E_run m K c iprop(R ∗ A) p iprop(R ∗ B) := by
  intro W Q
  iintro ⟨#HR, #Hlev, HO, HF, HA⟩ Hk
  iapply (hp W Q) $$ [$]
  iintro %W1 ⟨HO, HB⟩
  iapply Hk $$ %W1 [$]

end

section
variable {m K c} {sp sp' : Space} {s s' : Shape} {e e' : EltTy}
  {src : Memref sig .tc sp' s' e'} {κ' : Kind} {dst : Memref sig κ' sp s e} {h₁ : src.view.WordExact} {h₂ : dst.view.WordExact}

theorem E_wait_ws (j : Fin 6) {sm : DmaSem sig} (hs : sm = wsS j := by decide) (hamt : dst.view.dmaCredit = cW j := by rfl) :
    E_run m K c (E_wsPre c j) (Prog.lift (.waitDma2 sm src dst h₁ h₂)) (E_wsPost m c j) := by
  intro W Q
  unfold owesFrom E_wsPre E_wsPost fresh done Prog.lift
  iintro ⟨#HR, #Hlev, HO, Hat, Hc⟩ Hk
  ihave HI := (E_inv m K c _ (cellK_ws j)) $$ HR
  ihave HM := (mayWait_send c (.dma (wsS j)) (Or.inl ⟨j, rfl⟩)) $$ Hlev
  iapply (wp_wait_ws m c j sm hs (owedL ((owedItems c).drop 28)) W hamt) $$ [$]
  iintro H
  rw [wp_ret]; imodintro
  iapply Hk $$ %(insert (SemLoc.dma (wsS j), ()) W) H

/-- One of the first two waits of a phase: a units consumed become a + cA j; R is whatever else is held. -/
theorem E_wait_as (j : Fin 6) {sm : DmaSem sig} {a : ℕ} {R : sProp 𝕄} (hs : sm = asS j := by decide)
    (hamt : dst.view.dmaCredit = cA j := by rfl) :
    E_run m K c iprop(midWait m (asC c j) a ∗ cred (tallyAt (asC c j) () (cA j)) ∗ R) (Prog.lift (.waitDma2 sm src dst h₁ h₂))
      iprop(midWait m (asC c j) (a + cA j) ∗ R) := by
  intro W Q
  subst hs
  unfold owesFrom Prog.lift
  iintro ⟨#HR, #Hlev, HO, Hmid, Hc, Hrest⟩ Hk
  ihave HI := (E_inv m K c _ (cellK_as j)) $$ HR
  ihave HM := (mayWait_send c (.dma (asS j)) (Or.inr ⟨j, rfl⟩)) $$ Hlev
  iapply (wp_wait3_step m c (asS j) (cA j) a (owedL ((owedItems c).drop 28)) W hamt) $$ [$]
  iintro ⟨HO, Hmid⟩
  rw [wp_ret]; imodintro
  iapply Hk $$ %(insert (SemLoc.dma (asS j), ()) W) [$]

theorem E_wait_as1 (j : Fin 6) {sm : DmaSem sig} (hs : sm = asS j := by decide) (hamt : dst.view.dmaCredit = cA j := by rfl) :
    E_run m K c (E_asPre c j) (Prog.lift (.waitDma2 sm src dst h₁ h₂)) (E_asMid1 m c j) := fun W Q =>
  (sep_mono_right <| sep_mono_right <| sep_mono_right <| sep_mono_left <| midWait_zero m (asC c j)).trans
    (E_wait_as j hs hamt W Q)

theorem E_wait_as3 (j : Fin 6) {sm : DmaSem sig} (hs : sm = asS j := by decide) (hamt : dst.view.dmaCredit = cA j := by rfl) :
    E_run m K c (E_asMid2 m c j) (Prog.lift (.waitDma2 sm src dst h₁ h₂)) (E_asPost m c j) := by
  intro W Q
  unfold owesFrom E_asMid2 E_asPost done Prog.lift
  iintro ⟨#HR, #Hlev, HO, Hmid, Hc⟩ Hk
  ihave HI := (E_inv m K c _ (cellK_as j)) $$ HR
  ihave HM := (mayWait_send c (.dma (asS j)) (Or.inr ⟨j, rfl⟩)) $$ Hlev
  iapply (wp_wait_as_last m c j sm hs (0 + cA j + cA j) (owedL ((owedItems c).drop 28)) W hamt (by omega)) $$ [$]
  iintro H
  rw [wp_ret]; imodintro
  iapply Hk $$ %(insert (SemLoc.dma (asS j), ()) W) H

end

/-- The exit signal to peer number i pays the head of what is still owed. -/
theorem E_sig (n : Dev nD) (i : Fin 4) (hn : n = pp c i) {a : ℕ} (ha : a = 1) (x : ℕ)
    (xs : List (GSem nD τ sig × ℕ)) (h : (owedItems c).drop x = (extC (pp c i), 1) :: xs) (W : Waits sig Unit)
    {α : Type} {Q : α → sProp 𝕄} {k : PUnit → Prog (TpuEff nD τ sig (Elt F) Λ₀ .tc) α} :
    iprop(records m K ∗ owes (c : Thread nD τ) (owedL ((owedItems c).drop x)) W ∗ dutyTok ER (extC (pp c i)) 0 (inv i))
      ⊢ iprop((owes (c : Thread nD τ) (owedL xs) W -∗ wpX[c] (k ⟨⟩) Q)
          -∗ wpX[c] (.op (.semSignal (Dev.tc n : Thread nD τ) extS a) k) Q) := by
  rw [h]
  iintro ⟨#HR, HO, Ht⟩
  ihave HI := (E_inv m K (pp c i) 1 cellK_ext) $$ HR
  ihave Hr := (E_reached m K (pp c i) 1 cellK_ext) $$ HR
  iapply (wp_sig_ext m c n i hn ha xs W) $$ [$]

theorem part26_k : E_run m K c iprop(E_wsPre c 0 ∗ E_wsPre c 1 ∗ E_wsPre c 2) (ARGS k0_part26)
    iprop(E_wsPost m c 0 ∗ E_wsPost m c 1 ∗ E_wsPost m c 2) :=
  E_seq (E_frame (E_wait_ws 0))
    (E_seq (E_frame' (E_frame (E_wait_ws 1)))
      (E_frame' (E_frame' (E_wait_ws 2))))

theorem part27_k : E_run m K c iprop(E_wsPre c 3 ∗ E_wsPre c 4 ∗ E_wsPre c 5 ∗ E_asPre c 0) ((ARGS k0_part27) c)
    iprop(E_wsPost m c 3 ∗ E_wsPost m c 4 ∗ E_wsPost m c 5 ∗ E_asMid1 m c 0) :=
  E_seq (E_frame (E_wait_ws 3))
    (E_seq (E_frame' (E_frame (E_wait_ws 4)))
      (E_seq (E_frame' (E_frame' (E_frame (E_wait_ws 5))))
        (E_frame' (E_frame' (E_frame' (E_wait_as1 0))))))

theorem part28_k : E_run m K c iprop(E_asMid1 m c 0 ∗ E_asPre c 1) ((ARGS k0_part28) c) iprop(E_asPost m c 0 ∗ E_asMid2 m c 1) :=
  E_seq (E_frame (E_wait_as 0))
    (E_seq (E_frame (E_wait_as3 0))
      (E_seq (E_frame' (E_wait_as1 1))
        (E_frame' (E_wait_as 1))))

theorem part29_k : E_run m K c iprop(E_asMid2 m c 1 ∗ E_asPre c 2) ((ARGS k0_part29) c) iprop(E_asPost m c 1 ∗ E_asPost m c 2) :=
  E_seq (E_frame (E_wait_as3 1))
    (E_seq (E_frame' (E_wait_as1 2))
      (E_seq (E_frame' (E_wait_as 2))
        (E_frame' (E_wait_as3 2))))

theorem part30_k : E_run m K c iprop(E_asPre c 3 ∗ E_asPre c 4) ((ARGS k0_part30) c) iprop(E_asPost m c 3 ∗ E_asMid2 m c 4) :=
  E_seq (E_frame (E_wait_as1 3))
    (E_seq (E_frame (E_wait_as 3))
      (E_seq (E_frame (E_wait_as3 3))
        (E_seq (E_frame' (E_wait_as1 4))
          (E_frame' (E_wait_as 4)))))

theorem part31_k (v6 : BitVec 32) : E_run m K c iprop(E_asMid2 m c 4 ∗ E_asPre c 5) ((ARGS k0_part31) c v6)
    iprop(E_asPost m c 4 ∗ E_asPost m c 5) :=
  E_seq (E_frame (E_wait_as3 4))
    (E_seq (E_frame' (E_wait_as1 5))
      (E_seq (E_frame' (E_wait_as 5))
        (E_frame' (E_wait_as3 5))))

theorem E_bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

def E_postE1 (c : Dev nD) : sProp 𝕄 :=
  iprop((∃ W, owesFrom c 31 W)
    ∗ (bigSep Finset.univ fun j : Fin 6 => iprop(done (wsC c j) ∗ wsPay m c j))
    ∗ (bigSep Finset.univ fun j : Fin 6 => iprop(done (asC c j) ∗ asPay m c j 1 ∗ asPay m c j 2 ∗ asPay m c j 3))
    ∗ dutyTok ER (extC (pp c 3)) 0 (inv 3) ∗ fresh (extC c) ∗ cred (tallyAt (extC c) () 4))

theorem E1_k (K : Dev nD × Fin 26 → ℕ) (c : Dev nD) (v3 v4 v6 : BitVec 32) (W : Waits sig Unit)
    (Q : (Σ' (d0 : Dev nD), BitVec 32) → sProp 𝕄) :
    iprop(records m K ∗ levAts L lv ∗ preEnd c W ∗ (∀ r, iprop(⌜r.1 = c⌝ ∗ E_postE1 m c) -∗ Q r))
      ⊢ wpX[c] (E_tail32 c v3 v4 v6) Q := by
  unfold E_tail32 preEnd E_postE1
  simp only [semSignalWord, Prog.bind_op, Prog.bind_ret, Prog.pure_eq_ret, wp_bind, E_bigSep_fin6]
  iintro ⟨#HR, #Hlev, ⟨HO, ⟨S0, S1, S2, S3, S4, S5⟩, ⟨A0, A1, A2, A3, A4, A5⟩, ⟨Ht0, Ht1, Ht2, Ht3⟩, Hfe, Hce⟩, Hk⟩
  iapply (part26_k m K c W _) $$ [$]
  iintro %W1 ⟨HO, S0, S1, S2⟩
  iapply (part27_k m K c W1 _) $$ [$]
  iintro %W2 ⟨HO, S3, S4, S5, A0⟩
  iapply (part28_k m K c W2 _) $$ [$]
  iintro %W3 ⟨HO, A0, A1⟩
  iapply (part29_k m K c W3 _) $$ [$]
  iintro %W4 ⟨HO, A1, A2⟩
  iapply (part30_k m K c W4 _) $$ [$]
  iintro %W5 ⟨HO, A3, A4⟩
  iapply (part31_k m K c v6 W5 _) $$ [$]
  iintro %W6 ⟨HO, A4, A5⟩
  unfold owesFrom
  iapply (E_sig m K c _ 0 (dev_eq29 c) rfl 28 ((owedItems c).drop 29) rfl W6) $$ [$]
  iintro HO
  iapply (E_sig m K c _ 1 (dev_eq30 c) rfl 29 ((owedItems c).drop 30) rfl W6) $$ [$]
  iintro HO
  iapply (E_sig m K c _ 2 (dev_eq31 c) rfl 30 ((owedItems c).drop 31) rfl W6) $$ [$]
  iintro HO
  rw [wp_ret]; imodintro
  iapply Hk
  isplitr; · ipureintro; rfl
  isplitl [HO]; · iexists W6; iexact HO
  iframe

theorem E2_k (K : Dev nD × Fin 26 → ℕ) (c : Dev nD) (Q : PUnit → sProp 𝕄) :
    iprop(records m K ∗ levAts L lv ∗ E_postE1 m c ∗ (∀ r, postEnd m c -∗ Q r)) ⊢ wpX[c] (E_tailBody c) Q := by
  unfold E_tailBody E_postE1 owesFrom
  simp only [semSignalWord, semWaitWord, Prog.bind_op, Prog.bind_ret, Prog.pure_eq_ret]
  iintro ⟨#HR, #Hlev, ⟨⟨%W, HO⟩, Pws, Pas, Ht3, Hfe, Hce⟩, Hk⟩
  iapply (E_sig m K c _ 3 (dev_eq32 c) rfl 31 [] rfl W) $$ [$]
  iintro HO
  unfold fresh
  ihave HI := (E_inv m K c 1 cellK_ext) $$ HR
  ihave HM := (mayWait_ext c) $$ Hlev
  iapply (wp_wait_ext m c _ rfl rfl (owedL []) W) $$ [$]
  iintro ⟨HO, Hat⟩
  rw [wp_ret]; imodintro
  iapply Hk
  unfold postEnd done
  isplitl [HO]; · iexists (insert (SemLoc.reg extS, ()) W); iexact HO
  iframe

/-- P is persistent, so it can be spent once for every i. -/
theorem E_bigSep_pers {I : Type} [DecidableEq I] (s : Finset I) (P : sProp 𝕄) [BI.Persistent P] (Φ Ψ : I → sProp 𝕄)
    (h : ∀ i, iprop(P ∗ Φ i) ⊢ Ψ i) : iprop(P ∗ bigSep s Φ) ⊢ bigSep s Ψ := by
  induction s using Finset.induction_on with
  | empty => rw [bigSep_empty, bigSep_empty]; iintro ⟨-, -⟩; iempintro
  | insert i s hi ih =>
    rw [bigSep_insert hi, bigSep_insert hi]
    show iprop(P ∗ (Φ i ∗ bigSep s Φ)) ⊢ iprop(Ψ i ∗ bigSep s Ψ)
    iintro ⟨#HP, Hi, Hs⟩
    isplitl [Hi]
    · iapply (h i); iframe # ∗
    · iapply ih; iframe # ∗

theorem close_all' :
    iprop(records m K ∗ bigSep Finset.univ fun i : Fin 25 => done (((c : Thread nD τ), osem i) : GSem nD τ sig))
      ⊢ iprop(|={Set.univ}=> bigSep Finset.univ fun i : Fin 25 => semVal ((c : Thread nD τ), osem i) 0) := by
  refine BIBase.Entails.trans ?_ (bigSep_fupd Finset.univ _)
  refine E_bigSep_pers Finset.univ _ _ _ fun i => ?_
  unfold done
  iintro ⟨#HR, Hat⟩
  ihave HI := (E_inv m K c ⟨i.val + 1, by omega⟩ rfl) $$ HR
  iapply (wp_close m c (osem i)) $$ [$]

theorem E_bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [0, 1, 2, 3, 4, 5, 6, 7, 8, 9, 10, 11, 12, 13, 14, 15, 16, 17, 18, 19, 20, 21, 22, 23, 24] (by decide) (by decide) Φ

/-- Twenty-five factors grouped as one, six, six, six and six are the product over their numbers. -/
theorem E_regroup (Φ : Fin 25 → sProp 𝕄) :
    iprop(Φ 0 ∗ (Φ 1 ∗ Φ 2 ∗ Φ 3 ∗ Φ 4 ∗ Φ 5 ∗ Φ 6) ∗ (Φ 7 ∗ Φ 8 ∗ Φ 9 ∗ Φ 10 ∗ Φ 11 ∗ Φ 12) ∗ (Φ 13 ∗ Φ 14 ∗ Φ 15 ∗ Φ 16 ∗ Φ 17 ∗ Φ 18)
      ∗ Φ 19 ∗ Φ 20 ∗ Φ 21 ∗ Φ 22 ∗ Φ 23 ∗ Φ 24) ⊢ bigSep Finset.univ Φ := by
  rw [E_bigSep_fin25]
  iintro ⟨H0, ⟨H1, H2, H3, H4, H5, H6⟩, ⟨H7, H8, H9, H10, H11, H12⟩, ⟨H13, H14, H15, H16, H17, H18⟩, H19, H20, H21, H22, H23, H24⟩
  iframe

def E_allDone (c : Dev nD) : sProp 𝕄 :=
  iprop(done (extC c) ∗ (bigSep Finset.univ fun j : Fin 6 => done (wsC c j)) ∗ (bigSep Finset.univ fun j : Fin 6 => done (wrC c j))
    ∗ (bigSep Finset.univ fun j : Fin 6 => done (asC c j)) ∗ (bigSep Finset.univ fun j : Fin 6 => done (arC c j)))

theorem close_all (K : Dev nD × Fin 26 → ℕ) (c : Dev nD) :
    iprop(records m K ∗ E_allDone c)
      ⊢ iprop(|={Set.univ}=> bigSep Finset.univ fun i : Fin 25 => semVal ((c : Thread nD τ), osem i) 0) := by
  refine BIBase.Entails.trans ?_ (close_all' m K c)
  unfold E_allDone; simp only [E_bigSep_fin6]
  exact sep_mono_right (E_regroup fun i => done (((c : Thread nD τ), osem i) : GSem nD τ sig))

end Cert.Kernel.P

end
-- ==== Proof.Bits.Body.lean ====
import proofs.«900976_g7700000000000977_dist_mlpseq_tp1d_bs_bs_b128_d128_h256_v7x_i8_bf16_1_alg».proof.Proof.Bits.BodyGlue
import proofs.«900976_g7700000000000977_dist_mlpseq_tp1d_bs_bs_b128_d128_h256_v7x_i8_bf16_1_alg».proof.Proof.Bits.BodyCuts
import proofs.«900976_g7700000000000977_dist_mlpseq_tp1d_bs_bs_b128_d128_h256_v7x_i8_bf16_1_alg».proof.Proof.Bits.BodyA
import proofs.«900976_g7700000000000977_dist_mlpseq_tp1d_bs_bs_b128_d128_h256_v7x_i8_bf16_1_alg».proof.Proof.Bits.BodyB
import proofs.«900976_g7700000000000977_dist_mlpseq_tp1d_bs_bs_b128_d128_h256_v7x_i8_bf16_1_alg».proof.Proof.Bits.BodyC
import proofs.«900976_g7700000000000977_dist_mlpseq_tp1d_bs_bs_b128_d128_h256_v7x_i8_bf16_1_alg».proof.Proof.Bits.BodyD
import proofs.«900976_g7700000000000977_dist_mlpseq_tp1d_bs_bs_b128_d128_h256_v7x_i8_bf16_1_alg».proof.Proof.Bits.BodyE
import Idealize.ShloMosaic.Lib.Tactic

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "wpX[" c "]" => wp frame (wpE (defs₀ (F := F)) 𝒱₀ ((c : Dev nD) : Thread nD τ) none) Set.univ

variable (m : (ℓ : Loc nD τ sig) → Buf (Elt F) ℓ)

theorem cuts (c : Dev nD) : Cuts (F := F) c :=
  ⟨cutW c, cutO c, cut4_scratch2 c, cut4_scratch3 c, cut4_scratch4 c, cut4_scratch5 c, cut4_scratch6 c, cut4_scratch7 c, cut4_scratch8 c, cut4_scratch9 c, cut4_scratch10 c⟩

theorem uncuts (c : Dev nD) : Uncuts (F := F) c :=
  ⟨uncutW c, uncutO c, uncut4_scratch2 c, uncut4_scratch3 c, uncut4_scratch4 c, uncut4_scratch5 c, uncut4_scratch6 c, uncut4_scratch7 c, uncut4_scratch8 c, uncut4_scratch9 c, uncut4_scratch10 c⟩

theorem X_preXg (c : Dev nD) : preXg m c = iprop(arCell c 0 ∗ holds c (slotJ xgM (qd c)) shK (X0q m c)) := rfl

theorem X_preLayer0 (c : Dev nD) (W : Waits sig Unit) : preLayer m 0 c W =
    iprop(owesFrom c 13 W ∗ wrCell c 0 ∗ wrCell c 1 ∗ wrCell c 2 ∗ arCell c 1 ∗ arCell c 2
      ∗ arTok c 1 ∗ asTok c 1 ∗ lent c 1 ∗ arTok c 2 ∗ asTok c 2 ∗ lent c 2
      ∗ holds c (winsJ 0 0) shK (Wi m c 0) ∗ holds c (woutsJ 0 0) shK (Wo m c 0)
      ∗ any4 c (prtlM 0) ∗ holdsAny c (slotJ (xnM 0) (qd c))) := rfl

theorem X_postLayer0 (c : Dev nD) : postLayer m 0 c =
    iprop((∃ W, owesFrom c 19 W)
      ∗ done (wrC c 0) ∗ done (wrC c 1) ∗ done (wrC c 2) ∗ done (arC c 1) ∗ done (arC c 2)
      ∗ asCred c 1 ∗ asCred c 2
      ∗ holds c (winsJ 0 0) shK (Wi m c 0) ∗ holds c (woutsJ 0 0) shK (Wo m c 0)
      ∗ wrPay m c 0 ∗ wrPay m c 1 ∗ wrPay m c 2
      ∗ holds c (slotJ (prtlM 0) (qd c)) fullShare (sl4 (PK m 0 c) (qd c))
      ∗ got3 m c 1
      ∗ holds c (slotJ (xnM 0) (qd c)) shK (XN m 0 c)
      ∗ got3 m c 2) := rfl

theorem X_preC (c : Dev nD) (W : Waits sig Unit) : preC m c W =
    iprop(owesFrom c 19 W ∗ wrPay m c 2 ∗ wrCell c 3 ∗ wrCell c 4 ∗ arCell c 3 ∗ arCell c 4
      ∗ arTok c 3 ∗ asTok c 3 ∗ lent c 3 ∗ arTok c 4 ∗ asTok c 4 ∗ lent c 4
      ∗ holds c (winsJ 0 1) shK (Wi m c 1) ∗ holds c (woutsJ 0 1) shK (Wo m c 1)
      ∗ any4 c (prtlM 1) ∗ holdsAny c (slotJ (xnM 1) (qd c))) := rfl

theorem X_preLast (c : Dev nD) (W : Waits sig Unit) : preLast m c W =
    iprop(owesFrom c 25 W ∗ wrCell c 5 ∗ arCell c 5 ∗ arTok c 5 ∗ asTok c 5 ∗ lent c 5
      ∗ holds c (winsJ 0 2) shK (Wi m c 2) ∗ holds c (woutsJ 0 2) shK (Wo m c 2) ∗ wrPay m c 4
      ∗ any4 c (prtlM 2) ∗ (∃ X, stg c cc0_stg7_0 X)) := rfl

set_option maxRecDepth 65536 in
set_option maxHeartbeats 4000000 in
theorem sound_body (K : Dev nD × Fin 26 → ℕ) (c : Dev nD) (W : Waits sig Unit) :
    iprop(records m K ∗ levAts L lv ∗ preA m c W ∗ initRest c) ⊢ wpX[c] (ARGS cc0_body) (fun _ => finalAll m c) := by
  rw [cc0_body_eq_skeleton, E_body_split, wp_bind, k0_part32_eq_skeleton, part32_eq]
  iintro ⟨#HR, #HL, HA, Hrest⟩
  iapply (phaseA m K c W restB _)
  isplitr; · iexact HR
  isplitr; · iexact HL
  isplitl [HA]; · iexact HA
  iintro %v3 %v4 %v6 %v83 %v96 %v167 HpA
  rw [restB]
  unfold postA initRest
  simp only [X_bigSep_fin6]
  icases HpA with ⟨⟨%W1, HO1⟩, Dbar, Cas0, ⟨Cws0, Cws1, Cws2, Cws3, Cws4, Cws5⟩, Hin, ⟨K00i, K00o, K01i, K01o, K02i, K02o⟩, Gx, L1, L2, L3, L4, L5, Q0, Xn0, Q1, Xn1, Q2⟩
  icases Hrest with ⟨Ar0, ⟨Wr0, Wr1, Wr2, Ar1, Ar2, TAr1, TAs1, TAr2, TAs2, P0any⟩, ⟨Wr3, Wr4, Ar3, Ar4, TAr3, TAs3, TAr4, TAs4, P1any⟩, ⟨Wr5, Ar5, TAr5, TAs5, P2any, Iout0⟩, ⟨⟨Fws0, Fws1, Fws2, Fws3, Fws4, Fws5⟩, ⟨Fas0, Fas1, Fas2, Fas3, Fas4, Fas5⟩, ⟨Te0, Te1, Te2, Te3⟩, Fext, Cext⟩⟩
  iapply (B_stretch m K c v3 v4 v6 v83 v96 v167 W1 _ (restC c v3 v4 v6))
  rw [X_preXg, X_preLayer0, X_postLayer0]
  unfold postXg
  isplitr; · iexact HR
  isplitr; · iexact HL
  iframe
  iintro ⟨⟨Dar0, Gx', Got0⟩, ⟨%W2, HO2⟩, Dwr0, Dwr1, Dwr2, Dar1, Dar2, Cas1, Cas2, K00i', K00o', V0, V1, V2, Pr0, Got1, Xn0', Got2⟩
  rw [restC]
  iapply (C_stretch m K c v3 v4 v6 W2 _ (restD c v3 v4 v6))
  rw [X_preC]
  unfold postC
  isplitr; · iexact HR
  isplitr; · iexact HL
  iframe
  iintro ⟨⟨%W3, HO3⟩, Dwr3, Dwr4, Dar3, Dar4, Cas3, Cas4, K01i', K01o', V2', V3, V4, Pr1, Got3, Xn1', Got4⟩
  rw [restD]
  iapply (D_stretch m K c v3 v4 W3 _ (E_tail32 c v3 v4 v6))
  rw [X_preLast]
  unfold postLast
  isplitr; · iexact HR
  isplitr; · iexact HL
  iframe
  iintro ⟨⟨%W4, HO4⟩, Dwr5, Dar5, Cas5, K02i', K02o', V4', V5, Pr2, Got5, Iout⟩
  iapply (E1_k m K c v3 v4 v6 W4 _)
  unfold preEnd
  simp only [X_bigSep_fin6]
  isplitr; · iexact HR
  isplitr; · iexact HL
  iframe
  iintro %r ⟨%hr, HE1⟩
  obtain ⟨d0, v901⟩ := r
  have hr' : c = d0 := hr.symm
  subst hr'
  iapply (E2_k m K c _)
  isplitr; · iexact HR
  isplitr; · iexact HL
  isplitl [HE1]; · iexact HE1
  iintro %u HpE
  unfold postEnd finalAll
  simp only [X_bigSep_fin6, bigSep_fin3]
  icases HpE with ⟨HO5, ⟨⟨Dws0, Rws0⟩, ⟨Dws1, Rws1⟩, ⟨Dws2, Rws2⟩, ⟨Dws3, Rws3⟩, ⟨Dws4, Rws4⟩, ⟨Dws5, Rws5⟩⟩, ⟨⟨Das0, A01, A02, A03⟩, ⟨Das1, A11, A12, A13⟩, ⟨Das2, A21, A22, A23⟩, ⟨Das3, A31, A32, A33⟩, ⟨Das4, A41, A42, A43⟩, ⟨Das5, A51, A52, A53⟩⟩, Dext⟩
  iframe

omit [FloatOps F] in
theorem X_bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
theorem X_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
set_option maxHeartbeats 4000000 in
theorem body_obligation (ρ : Dev nD → PrngReg) (c : Dev nD) :
    BodyObligation (dats (F := F) m ρ 0 c) (defs₀ (F := F)) 𝒱₀ () Set.univ := fun t => by
  rw [fin_N t]
  rw [X_bigSep_W, X_bigSep_W]
  simp only [X_owns_whole_eq]
  show iprop((dats m ρ 0 c).Φ t₀.castSucc ∗ (dats m ρ 0 c).owesAt () t₀.castSucc
      ∗ (∃ d, stg c cc0_stg0_0 ((dats m ρ 0 c).before (0 : Fin 8) t₀ d))
      ∗ (∃ d, stg c cc0_stg1_0 ((dats m ρ 0 c).before (1 : Fin 8) t₀ d))
      ∗ (∃ d, stg c cc0_stg2_0 ((dats m ρ 0 c).before (2 : Fin 8) t₀ d))
      ∗ (∃ d, stg c cc0_stg3_0 ((dats m ρ 0 c).before (3 : Fin 8) t₀ d))
      ∗ (∃ d, stg c cc0_stg4_0 ((dats m ρ 0 c).before (4 : Fin 8) t₀ d))
      ∗ (∃ d, stg c cc0_stg5_0 ((dats m ρ 0 c).before (5 : Fin 8) t₀ d))
      ∗ (∃ d, stg c cc0_stg6_0 ((dats m ρ 0 c).before (6 : Fin 8) t₀ d))
      ∗ (∃ d, stg c cc0_stg7_0 ((dats m ρ 0 c).before (7 : Fin 8) t₀ d)))
    ⊢ wpX[c] (ARGS cc0_body) (fun _ => iprop((dats m ρ 0 c).Φ t₀.succ ∗ (dats m ρ 0 c).owesAt () t₀.succ
        ∗ stg c cc0_stg0_0 ((dats m ρ 0 c).after (0 : Fin 8) t₀)
        ∗ stg c cc0_stg1_0 ((dats m ρ 0 c).after (1 : Fin 8) t₀)
        ∗ stg c cc0_stg2_0 ((dats m ρ 0 c).after (2 : Fin 8) t₀)
        ∗ stg c cc0_stg3_0 ((dats m ρ 0 c).after (3 : Fin 8) t₀)
        ∗ stg c cc0_stg4_0 ((dats m ρ 0 c).after (4 : Fin 8) t₀)
        ∗ stg c cc0_stg5_0 ((dats m ρ 0 c).after (5 : Fin 8) t₀)
        ∗ stg c cc0_stg6_0 ((dats m ρ 0 c).after (6 : Fin 8) t₀)
        ∗ stg c cc0_stg7_0 ((dats m ρ 0 c).after (7 : Fin 8) t₀)))
  iintro H
  ihave H1 := (body_open m ρ c (cuts c)) $$ H
  icases H1 with ⟨%K, %W, #HR, #HL, HA, Hrest⟩
  iapply (wp_fupd _ _ _ _ _)
  iapply (wp_wand_r _ _ _ (Q := fun _ => finalAll m c))
  isplitl [HA Hrest]
  · iapply (sound_body m K c W)
    isplitr; · iexact HR
    isplitr; · iexact HL
    isplitl [HA]; · iexact HA
    iexact Hrest
  · iintro %u Hfin
    iapply (body_close m ρ K c (uncuts c) (close_all m K c))
    isplitr [Hfin]
    · iexact HR
    · iexact Hfin

end Cert.Kernel.P

end
-- ==== Proof.LaunchRun.lean ====
import proofs.«900976_g7700000000000977_dist_mlpseq_tp1d_bs_bs_b128_d128_h256_v7x_i8_bf16_1_alg».proof.Proof.Inv
import proofs.«900976_g7700000000000977_dist_mlpseq_tp1d_bs_bs_b128_d128_h256_v7x_i8_bf16_1_alg».proof.Proof.Levels
import proofs.«900976_g7700000000000977_dist_mlpseq_tp1d_bs_bs_b128_d128_h256_v7x_i8_bf16_1_alg».proof.Proof.LaunchGhost
import Idealize.ShloMosaic.Lib.Pipeline.Launch
import Idealize.ShloMosaic.Lib.Pipeline.Kit
import Idealize.ShloMosaic.Lib.Pipeline.Cells
import Idealize.ShloMosaic.Lib.Tactic
import Mathlib.Tactic.Abel

noncomputable section

namespace Cert.KernelIdeal.P

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def itemAt (d : Dev nD) (x : Fin 4 × SemLoc sig × ℕ) : GSem nD τ sig × ℕ := (((pp d x.1 : Thread nD τ), x.2.1), x.2.2)
def itemOwn (c : Dev nD) (x : Fin 4 × SemLoc sig × ℕ) : GSem nD τ sig × ℕ := (((c : Thread nD τ), x.2.1), x.2.2)

omit [FloatOps F] in
theorem launchCred_items (its : List (Fin 4 × SemLoc sig × ℕ)) (c : Dev nD) :
    (Pipeline.launchCred (fun d => owedL (its.map (itemAt d))) c : sProp 𝕄) ⊢ cred (owedL (its.map (itemOwn c))) := by
  induction its with
  | nil =>
    show (Pipeline.launchCred (fun _ : Dev nD => (0 : CellTallies nD τ sig Unit)) c : sProp 𝕄) ⊢ cred (0 : CellTallies nD τ sig Unit)
    rw [Pipeline.launchCred_zero, cred_zero]
  | cons x xs ih =>
    show (Pipeline.launchCred (fun d => owedL (xs.map (itemAt d)) + tallyAt (((pp d x.1 : Dev nD) : Thread nD τ), x.2.1) () x.2.2) c : sProp 𝕄)
      ⊢ cred (owedL (xs.map (itemOwn c)) + tallyAt ((c : Thread nD τ), x.2.1) () x.2.2)
    rw [Pipeline.launchCred_add]
    exact (BI.sep_mono ih (Pipeline.launchCred_tallyAt x.2.1 (fun d => pp d x.1) (fun d => pp d (inv x.1))
      (fun d => by have h := pp_pp_inv d (inv x.1); rwa [inv_inv] at h) (fun d => pp_pp_inv d x.1) () x.2.2 c)).trans (cred_add _ _).2

def owedPeer : List (Fin 4 × SemLoc sig × ℕ) :=
  [(0, .reg barS, 1), (1, .reg barS, 1), (2, .reg barS, 1), (3, .reg barS, 1),
   (1, .dma (arS 0), cA 0), (2, .dma (arS 0), cA 0), (3, .dma (arS 0), cA 0),
   (0, .dma (wrS 0), cW 0), (0, .dma (wrS 1), cW 1), (0, .dma (wrS 2), cW 2), (0, .dma (wrS 3), cW 3), (0, .dma (wrS 4), cW 4), (0, .dma (wrS 5), cW 5),
   (1, .dma (arS 1), cA 1), (2, .dma (arS 1), cA 1), (3, .dma (arS 1), cA 1),
   (1, .dma (arS 2), cA 2), (2, .dma (arS 2), cA 2), (3, .dma (arS 2), cA 2),
   (1, .dma (arS 3), cA 3), (2, .dma (arS 3), cA 3), (3, .dma (arS 3), cA 3),
   (1, .dma (arS 4), cA 4), (2, .dma (arS 4), cA 4), (3, .dma (arS 4), cA 4),
   (1, .dma (arS 5), cA 5), (2, .dma (arS 5), cA 5), (3, .dma (arS 5), cA 5),
   (0, .reg extS, 1), (1, .reg extS, 1), (2, .reg extS, 1), (3, .reg extS, 1)]

def owedTo (c : Dev nD) : CellTallies nD τ sig Unit :=
  tallyAt (barC c) () 4 + (tallyAt (extC c) () 4
    + ((∑ j : Fin 6, tallyAt (wrC c j) () (cW j)) + ∑ j : Fin 6, tallyAt (arC c j) () (3 * cA j)))

omit [FloatOps F] in
theorem owedTo_eq (c : Dev nD) : owedL (owedPeer.map (itemOwn c)) = owedTo c := by
  have h4 (g : GSem nD τ sig) : (tallyAt g () 4 : CellTallies nD τ sig Unit) = tallyAt g () 1 + tallyAt g () 1 + tallyAt g () 1 + tallyAt g () 1 := by
    rw [tallyAt_add, tallyAt_add, tallyAt_add]
  have h3 (g : GSem nD τ sig) (k : ℕ) : (tallyAt g () (3 * k) : CellTallies nD τ sig Unit) = tallyAt g () k + tallyAt g () k + tallyAt g () k := by
    rw [tallyAt_add, tallyAt_add]; congr 1; omega
  unfold owedTo
  rw [h4, h4, Fin.sum_univ_six, Fin.sum_univ_six, h3, h3, h3, h3, h3, h3]
  simp only [owedPeer, List.map, itemOwn, owedL]
  abel

theorem creds_eq (c : Dev nD) : (creds c : sProp 𝕄) = cred (owedTo c) := by
  have hadd (a b : CellTallies nD τ sig Unit) : (cred (a + b) : sProp 𝕄) = iprop(cred a ∗ cred b) :=
    BI.Entails.antisymm (cred_add _ _).1 (cred_add _ _).2
  unfold creds owedTo
  rw [hadd, hadd, hadd, Pipeline.cred_finsetSum, Pipeline.cred_finsetSum]

theorem creds_of_launch (c : Dev nD) : (Pipeline.launchCred O₀ c : sProp 𝕄) ⊢ creds c := by
  rw [creds_eq, ← owedTo_eq]
  exact launchCred_items owedPeer c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HG⟩
  ihave Hc := (creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ownSems0_eq]
  unfold Φ₁ scratch
  iintro ⟨Hr, Hz⟩
  isplitr; · iempintro
  isplitl [Hz]; · iexact Hz
  iexact Hr

set_option maxRecDepth 8000 in
theorem run_main (hbody : ∀ c, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem final_in (c : Dev nD) (w : Fin cfg0.W) (hw : w.val < 7) :
    (dats m ρ 0 c).arrAt w cfg0.N = m ((cfg0.win w).arr.view.loc (c : Thread nD τ)) :=
  (dats m ρ 0 c).arrAt_in w (by revert w; decide) _

theorem final_out (c : Dev nD) :
    (dats m ρ 0 c).arrAt (7 : Fin 8) cfg0.N = (OUT m c : Buf (Elt F) ((c : Thread nD τ).loc main_v1)) := by
  show (dats m ρ 0 c).arrAt (7 : Fin 8) (t₀.val + 1) = _
  rw [Dat.arrAt_succ, if_pos (by decide)]
  have hr : ∀ f : (main_v1 : Ref sig .tc).ty.Contents (Elt F), (((cfg0.win 7).blk t₀).view).read (Elt F) f = f := fun f =>
    Memref.read_access_unit_zero (Elt F) main_v1 (by funext a; fin_cases a <;> rfl) _ f
  have hw := View.read_write_univ (v := ((cfg0.win 7).blk t₀).view) ((dats m ρ 0 c).arrAt 7 ↑t₀) ((dats m ρ 0 c).flushed 7 t₀)
  rw [hr] at hw
  exact hw

theorem run_value
    (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c 7).trans (final_out m ρ c),
      (h c 0).trans (final_in m ρ c 0 (by decide)), (h c 1).trans (final_in m ρ c 1 (by decide)), (h c 2).trans (final_in m ρ c 2 (by decide)),
      (h c 3).trans (final_in m ρ c 3 (by decide)), (h c 4).trans (final_in m ρ c 4 (by decide)), (h c 5).trans (final_in m ρ c 5 (by decide)),
      (h c 6).trans (final_in m ρ c 6 (by decide))⟩)
    (run_main m ρ hbody)

end Cert.KernelIdeal.P

end
-- ==== Proof.Bits.LaunchRun.lean ====
import proofs.«900976_g7700000000000977_dist_mlpseq_tp1d_bs_bs_b128_d128_h256_v7x_i8_bf16_1_alg».proof.Proof.Bits.Inv
import proofs.«900976_g7700000000000977_dist_mlpseq_tp1d_bs_bs_b128_d128_h256_v7x_i8_bf16_1_alg».proof.Proof.Bits.Levels
import proofs.«900976_g7700000000000977_dist_mlpseq_tp1d_bs_bs_b128_d128_h256_v7x_i8_bf16_1_alg».proof.Proof.Bits.LaunchGhost
import Idealize.ShloMosaic.Lib.Pipeline.Launch
import Idealize.ShloMosaic.Lib.Pipeline.Kit
import Idealize.ShloMosaic.Lib.Pipeline.Cells
import Idealize.ShloMosaic.Lib.Tactic
import Mathlib.Tactic.Abel

noncomputable section

namespace Cert.Kernel.P

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def itemAt (d : Dev nD) (x : Fin 4 × SemLoc sig × ℕ) : GSem nD τ sig × ℕ := (((pp d x.1 : Thread nD τ), x.2.1), x.2.2)
def itemOwn (c : Dev nD) (x : Fin 4 × SemLoc sig × ℕ) : GSem nD τ sig × ℕ := (((c : Thread nD τ), x.2.1), x.2.2)

omit [FloatOps F] in
theorem launchCred_items (its : List (Fin 4 × SemLoc sig × ℕ)) (c : Dev nD) :
    (Pipeline.launchCred (fun d => owedL (its.map (itemAt d))) c : sProp 𝕄) ⊢ cred (owedL (its.map (itemOwn c))) := by
  induction its with
  | nil =>
    show (Pipeline.launchCred (fun _ : Dev nD => (0 : CellTallies nD τ sig Unit)) c : sProp 𝕄) ⊢ cred (0 : CellTallies nD τ sig Unit)
    rw [Pipeline.launchCred_zero, cred_zero]
  | cons x xs ih =>
    show (Pipeline.launchCred (fun d => owedL (xs.map (itemAt d)) + tallyAt (((pp d x.1 : Dev nD) : Thread nD τ), x.2.1) () x.2.2) c : sProp 𝕄)
      ⊢ cred (owedL (xs.map (itemOwn c)) + tallyAt ((c : Thread nD τ), x.2.1) () x.2.2)
    rw [Pipeline.launchCred_add]
    exact (BI.sep_mono ih (Pipeline.launchCred_tallyAt x.2.1 (fun d => pp d x.1) (fun d => pp d (inv x.1))
      (fun d => by have h := pp_pp_inv d (inv x.1); rwa [inv_inv] at h) (fun d => pp_pp_inv d x.1) () x.2.2 c)).trans (cred_add _ _).2

def owedPeer : List (Fin 4 × SemLoc sig × ℕ) :=
  [(0, .reg barS, 1), (1, .reg barS, 1), (2, .reg barS, 1), (3, .reg barS, 1),
   (1, .dma (arS 0), cA 0), (2, .dma (arS 0), cA 0), (3, .dma (arS 0), cA 0),
   (0, .dma (wrS 0), cW 0), (0, .dma (wrS 1), cW 1), (0, .dma (wrS 2), cW 2), (0, .dma (wrS 3), cW 3), (0, .dma (wrS 4), cW 4), (0, .dma (wrS 5), cW 5),
   (1, .dma (arS 1), cA 1), (2, .dma (arS 1), cA 1), (3, .dma (arS 1), cA 1),
   (1, .dma (arS 2), cA 2), (2, .dma (arS 2), cA 2), (3, .dma (arS 2), cA 2),
   (1, .dma (arS 3), cA 3), (2, .dma (arS 3), cA 3), (3, .dma (arS 3), cA 3),
   (1, .dma (arS 4), cA 4), (2, .dma (arS 4), cA 4), (3, .dma (arS 4), cA 4),
   (1, .dma (arS 5), cA 5), (2, .dma (arS 5), cA 5), (3, .dma (arS 5), cA 5),
   (0, .reg extS, 1), (1, .reg extS, 1), (2, .reg extS, 1), (3, .reg extS, 1)]

def owedTo (c : Dev nD) : CellTallies nD τ sig Unit :=
  tallyAt (barC c) () 4 + (tallyAt (extC c) () 4
    + ((∑ j : Fin 6, tallyAt (wrC c j) () (cW j)) + ∑ j : Fin 6, tallyAt (arC c j) () (3 * cA j)))

omit [FloatOps F] in
theorem owedTo_eq (c : Dev nD) : owedL (owedPeer.map (itemOwn c)) = owedTo c := by
  have h4 (g : GSem nD τ sig) : (tallyAt g () 4 : CellTallies nD τ sig Unit) = tallyAt g () 1 + tallyAt g () 1 + tallyAt g () 1 + tallyAt g () 1 := by
    rw [tallyAt_add, tallyAt_add, tallyAt_add]
  have h3 (g : GSem nD τ sig) (k : ℕ) : (tallyAt g () (3 * k) : CellTallies nD τ sig Unit) = tallyAt g () k + tallyAt g () k + tallyAt g () k := by
    rw [tallyAt_add, tallyAt_add]; congr 1; omega
  unfold owedTo
  rw [h4, h4, Fin.sum_univ_six, Fin.sum_univ_six, h3, h3, h3, h3, h3, h3]
  simp only [owedPeer, List.map, itemOwn, owedL]
  abel

theorem creds_eq (c : Dev nD) : (creds c : sProp 𝕄) = cred (owedTo c) := by
  have hadd (a b : CellTallies nD τ sig Unit) : (cred (a + b) : sProp 𝕄) = iprop(cred a ∗ cred b) :=
    BI.Entails.antisymm (cred_add _ _).1 (cred_add _ _).2
  unfold creds owedTo
  rw [hadd, hadd, hadd, Pipeline.cred_finsetSum, Pipeline.cred_finsetSum]

theorem creds_of_launch (c : Dev nD) : (Pipeline.launchCred O₀ c : sProp 𝕄) ⊢ creds c := by
  rw [creds_eq, ← owedTo_eq]
  exact launchCred_items owedPeer c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, HG⟩
  ihave Hc := (creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ownSems0_eq]
  unfold Φ₁ scratch
  iintro ⟨Hr, Hz⟩
  isplitr; · iempintro
  isplitl [Hz]; · iexact Hz
  iexact Hr

set_option maxRecDepth 8000 in
theorem run_main (hbody : ∀ c, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem final_in (c : Dev nD) (w : Fin cfg0.W) (hw : w.val < 7) :
    (dats m ρ 0 c).arrAt w cfg0.N = m ((cfg0.win w).arr.view.loc (c : Thread nD τ)) :=
  (dats m ρ 0 c).arrAt_in w (by revert w; decide) _

theorem final_out (c : Dev nD) :
    (dats m ρ 0 c).arrAt (7 : Fin 8) cfg0.N = (OUT m c : Buf (Elt F) ((c : Thread nD τ).loc main_v1)) := by
  show (dats m ρ 0 c).arrAt (7 : Fin 8) (t₀.val + 1) = _
  rw [Dat.arrAt_succ, if_pos (by decide)]
  have hr : ∀ f : (main_v1 : Ref sig .tc).ty.Contents (Elt F), (((cfg0.win 7).blk t₀).view).read (Elt F) f = f := fun f =>
    Memref.read_access_unit_zero (Elt F) main_v1 (by funext a; fin_cases a <;> rfl) _ f
  have hw := View.read_write_univ (v := ((cfg0.win 7).blk t₀).view) ((dats m ρ 0 c).arrAt 7 ↑t₀) ((dats m ρ 0 c).flushed 7 t₀)
  rw [hr] at hw
  exact hw

theorem run_value
    (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c 7).trans (final_out m ρ c),
      (h c 0).trans (final_in m ρ c 0 (by decide)), (h c 1).trans (final_in m ρ c 1 (by decide)), (h c 2).trans (final_in m ρ c 2 (by decide)),
      (h c 3).trans (final_in m ρ c 3 (by decide)), (h c 4).trans (final_in m ρ c 4 (by decide)), (h c 5).trans (final_in m ρ c 5 (by decide)),
      (h c 6).trans (final_in m ρ c 6 (by decide))⟩)
    (run_main m ρ hbody)

end Cert.Kernel.P

end
-- ==== Proof.Spec.lean ====
import Idealize.ShloMosaic.PureOps.Ideal
import Idealize.ShloMosaic.Lib.ValueIdx

noncomputable section

namespace Cert.Spec

open Idealize.ShloMosaic

abbrev S1024x128 : Shape := ⟨2, ![1024, 128]⟩
abbrev S128x2048 : Shape := ⟨2, ![128, 2048]⟩
abbrev S2048x128 : Shape := ⟨2, ![2048, 128]⟩

def layer (X : S1024x128.Idx → EReal) (Wi : S128x2048.Idx → EReal) (Wo : S2048x128.Idx → EReal) :
    S1024x128.Idx → EReal :=
  fun i => ∑ h : Fin 2048,
    max (∑ d : Fin 128, X (ValueIdx.ix2 (i 0 : Fin 1024) d) * Wi (ValueIdx.ix2 d h)) 0
      * Wo (ValueIdx.ix2 h (i 1 : Fin 128))

theorem layer_apply (X : S1024x128.Idx → EReal) (Wi : S128x2048.Idx → EReal) (Wo : S2048x128.Idx → EReal)
    (r : Fin 1024) (n : Fin 128) :
    layer X Wi Wo (ValueIdx.ix2 r n)
      = ∑ h : Fin 2048, max (∑ d : Fin 128, X (ValueIdx.ix2 r d) * Wi (ValueIdx.ix2 d h)) 0 * Wo (ValueIdx.ix2 h n) :=
  rfl

def mlp3 (X : S1024x128.Idx → EReal)
    (Wi0 : S128x2048.Idx → EReal) (Wo0 : S2048x128.Idx → EReal)
    (Wi1 : S128x2048.Idx → EReal) (Wo1 : S2048x128.Idx → EReal)
    (Wi2 : S128x2048.Idx → EReal) (Wo2 : S2048x128.Idx → EReal) : S1024x128.Idx → EReal :=
  layer (layer (layer X Wi0 Wo0) Wi1 Wo1) Wi2 Wo2

theorem mlp3_eq (X : S1024x128.Idx → EReal)
    (Wi0 : S128x2048.Idx → EReal) (Wo0 : S2048x128.Idx → EReal)
    (Wi1 : S128x2048.Idx → EReal) (Wo1 : S2048x128.Idx → EReal)
    (Wi2 : S128x2048.Idx → EReal) (Wo2 : S2048x128.Idx → EReal) :
    mlp3 X Wi0 Wo0 Wi1 Wo1 Wi2 Wo2 = layer (layer (layer X Wi0 Wo0) Wi1 Wo1) Wi2 Wo2 :=
  rfl

end Cert.Spec

end
-- ==== Proof.RefValue.lean ====
import proofs.«900976_g7700000000000977_dist_mlpseq_tp1d_bs_bs_b128_d128_h256_v7x_i8_bf16_1_alg».proof.Proof.Gen.ReferenceIdeal.Run
import proofs.«900976_g7700000000000977_dist_mlpseq_tp1d_bs_bs_b128_d128_h256_v7x_i8_bf16_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Run
import proofs.«900976_g7700000000000977_dist_mlpseq_tp1d_bs_bs_b128_d128_h256_v7x_i8_bf16_1_alg».proof.Proof.Spec

noncomputable section

namespace Cert.RefValue

open Idealize.ShloMosaic Idealize.SL.Sem
open Cert.ReferenceIdeal Cert.ReferenceIdeal.Gen

theorem lidx_in (r : Fin 1024) (h : Fin 2048) (d : Fin 128) :
    Read.lidx_main_v0 (ValueIdx.ix2 r h) d = ValueIdx.ix2 r d :=
  funext fun a => Fin.ext (by match a with | ⟨0, _⟩ => rfl | ⟨1, _⟩ => rfl)

theorem ridx_in (r : Fin 1024) (h : Fin 2048) (d : Fin 128) :
    Read.ridx_main_v0 (ValueIdx.ix2 r h) d = ValueIdx.ix2 d h :=
  funext fun a => Fin.ext (by match a with | ⟨0, _⟩ => rfl | ⟨1, _⟩ => rfl)

theorem lidx_out (r : Fin 1024) (n : Fin 128) (h : Fin 2048) :
    Read.lidx_main_v3 (ValueIdx.ix2 r n) h = ValueIdx.ix2 r h :=
  funext fun a => Fin.ext (by match a with | ⟨0, _⟩ => rfl | ⟨1, _⟩ => rfl)

theorem ridx_out (r : Fin 1024) (n : Fin 128) (h : Fin 2048) :
    Read.ridx_main_v3 (ValueIdx.ix2 r n) h = ValueIdx.ix2 h n :=
  funext fun a => Fin.ext (by match a with | ⟨0, _⟩ => rfl | ⟨1, _⟩ => rfl)

theorem layer_eq (X : (⟨S1024x128, .f32⟩ : BufTy).Contents (Elt Ideal))
    (Wi : (⟨S128x2048, .f32⟩ : BufTy).Contents (Elt Ideal))
    (Wo : (⟨S2048x128, .f32⟩ : BufTy).Contents (Elt Ideal)) :
    Read.val_main_v3 (F := Ideal) X Wi Wo = Cert.Spec.layer X Wi Wo := by
  funext i
  obtain ⟨r, n, rfl⟩ : ∃ (r : Fin 1024) (n : Fin 128), i = ValueIdx.ix2 r n := ⟨i 0, i 1, ValueIdx.eq_ix2 i⟩
  rw [Cert.Spec.layer_apply, Read.val_main_v3_apply]
  refine Finset.sum_congr rfl fun h _ => ?_
  rw [lidx_out, ridx_out, Read.val_main_v2_apply, Read.val_main_v0_apply, Read.val_main_v1_apply,
    Read.val_main_cst_apply]
  simp only [lidx_in, ridx_in, Ideal.maximumf_def, Ideal.ofBits_def, Ideal.ofBits_zero_f32]

theorem ref_value (x0 : (⟨S1024x128, .f32⟩ : BufTy).Contents (Elt Ideal))
    (x1 : (⟨S128x2048, .f32⟩ : BufTy).Contents (Elt Ideal)) (x2 : (⟨S2048x128, .f32⟩ : BufTy).Contents (Elt Ideal))
    (x3 : (⟨S128x2048, .f32⟩ : BufTy).Contents (Elt Ideal)) (x4 : (⟨S2048x128, .f32⟩ : BufTy).Contents (Elt Ideal))
    (x5 : (⟨S128x2048, .f32⟩ : BufTy).Contents (Elt Ideal)) (x6 : (⟨S2048x128, .f32⟩ : BufTy).Contents (Elt Ideal)) :
    Read.val_main_v11 (F := Ideal) x0 x1 x2 x3 x4 x5 x6 = Cert.Spec.mlp3 x0 x1 x2 x3 x4 x5 x6 := by
  have e : Read.val_main_v11 (F := Ideal) x0 x1 x2 x3 x4 x5 x6
      = Read.val_main_v3 (F := Ideal)
          (Read.val_main_v3 (F := Ideal) (Read.val_main_v3 (F := Ideal) x0 x1 x2) x3 x4) x5 x6 := rfl
  rw [e, layer_eq, layer_eq, layer_eq, Cert.Spec.mlp3_eq]

theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v11) = Cert.Spec.mlp3 (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2))
          (m' (((0 : Dev Cert.ReferenceIdeal.nD).tc : Thread Cert.ReferenceIdeal.nD Cert.ReferenceIdeal.τ).loc Cert.ReferenceIdeal.main_arg3))
          (m' (((0 : Dev Cert.ReferenceIdeal.nD).tc : Thread Cert.ReferenceIdeal.nD Cert.ReferenceIdeal.τ).loc Cert.ReferenceIdeal.main_arg4))
          (m' (((0 : Dev Cert.ReferenceIdeal.nD).tc : Thread Cert.ReferenceIdeal.nD Cert.ReferenceIdeal.τ).loc Cert.ReferenceIdeal.main_arg5))
          (m' (((0 : Dev Cert.ReferenceIdeal.nD).tc : Thread Cert.ReferenceIdeal.nD Cert.ReferenceIdeal.τ).loc Cert.ReferenceIdeal.main_arg6))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
      ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
      ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) :=
  (θ_run Cert.ReferenceIdeal.defs _ _).mono
    (fun _ h => ⟨(h 0).1.trans ((Read.val_main_v11_eq _ _ _ _ _ _ _).trans (ref_value _ _ _ _ _ _ _)), (h 0).2⟩)
    (Cert.ReferenceIdeal.Value.run (F := Ideal) m' ρ')

end Cert.RefValue

end
-- ==== Proof.ValueK1.lean ====
import proofs.«900976_g7700000000000977_dist_mlpseq_tp1d_bs_bs_b128_d128_h256_v7x_i8_bf16_1_alg».proof.Proof.Contents
import proofs.«900976_g7700000000000977_dist_mlpseq_tp1d_bs_bs_b128_d128_h256_v7x_i8_bf16_1_alg».proof.Proof.Spec
import Idealize.ShloMosaic.Lib.Layout
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

namespace Cert.KernelIdeal.Val

open Cert.KernelIdeal Cert.KernelIdeal.Gen Cert.KernelIdeal.Mesh Cert.KernelIdeal.P
open Idealize.ShloMosaic
open Idealize.ShloMosaic.TcCoe
open Idealize.SL.Sem

/-- A product into the zero accumulator with the plain dimension numbers, at an index: the sum over the contracted coordinate. -/
theorem mm_apply {M K N : ℕ} {φ₁ φ₂ : FTy} (D : DotDims ⟨2, ![M, K]⟩ ⟨2, ![K, N]⟩ ⟨2, ![M, N]⟩) (hD : D = DotDims.plain M K N)
    (a : FVec Ideal ⟨2, ![M, K]⟩ φ₁) (w : FVec Ideal ⟨2, ![K, N]⟩ φ₂) (R : Fin M) (h : Fin N) :
    matmul D none a w (constant (F := Ideal) ⟨2, ![M, N]⟩ .f32 0x00000000#32) (ValueIdx.ix2 R h)
      = ∑ k : Fin K, a (ValueIdx.ix2 R k) * w (ValueIdx.ix2 k h) := by
  subst hD
  rw [matmul_zero_eq_dotGeneral]
  exact StackMember.dotGeneral_plain_apply none a w R h

theorem shapeCast_unsq3 {α : Type} (a : S128x128.Idx → α) (h : S1x128x128.ShapeCasts S128x128) :
    shapeCast S128x128 (unsq3 a) h = a := funext fun j => congrArg a (Equiv.symm_apply_apply _ j)
theorem sq3_shapeCast {α : Type} (u : S128x128.Idx → α) (h : S128x128.ShapeCasts S1x128x128) :
    sq3 (shapeCast S1x128x128 u h) = u := shapeCast_shapeCast u h _
theorem shapeCast_unsqW {α : Type} (a : S128x256.Idx → α) (h : S1x1x128x256.ShapeCasts S128x256) :
    shapeCast S128x256 (unsqW a) h = a := funext fun j => congrArg a (Equiv.symm_apply_apply _ j)
theorem sqW_shapeCast {α : Type} (u : S128x256.Idx → α) (h : S128x256.ShapeCasts S1x1x128x256) :
    sqW (shapeCast S1x1x128x256 u h) = u := shapeCast_shapeCast u h _
theorem shapeCast_unsqO {α : Type} (a : S256x128.Idx → α) (h : S1x1x256x128.ShapeCasts S256x128) :
    shapeCast S256x128 (unsqO a) h = a := funext fun j => congrArg a (Equiv.symm_apply_apply _ j)
theorem sqO_shapeCast {α : Type} (u : S256x128.Idx → α) (h : S256x128.ShapeCasts S1x1x256x128) :
    sqO (shapeCast S1x1x256x128 u h) = u := shapeCast_shapeCast u h _

theorem cast512_apply {α : Type} (v : S4x128x128.Idx → α) (h : S4x128x128.ShapeCasts S512x128)
    (j : Fin 4) (r : Fin 128) (d : Fin 128) (hR : j.val * 128 + r.val < 512) :
    shapeCast S512x128 v h (ValueIdx.ix2 (⟨j.val * 128 + r.val, hR⟩ : Fin 512) d) = v (ValueIdx.ix3 j r d) :=
  shapeCast_apply v h _ _ (by
    rw [Shape.rowMajor_val_three, Shape.rowMajor_val_two]; rfl)

theorem cast4_apply {α : Type} (v : S512x128.Idx → α) (h : S512x128.ShapeCasts S4x128x128)
    (j : Fin 4) (r : Fin 128) (n : Fin 128) (hR : j.val * 128 + r.val < 512) :
    shapeCast S4x128x128 v h (ValueIdx.ix3 j r n) = v (ValueIdx.ix2 (⟨j.val * 128 + r.val, hR⟩ : Fin 512) n) :=
  shapeCast_apply v h _ _ (by
    rw [Shape.rowMajor_val_three, Shape.rowMajor_val_two]; rfl)

theorem sl4_apply (v : S4x128x128.Idx → Elt Ideal .bf16) (j : Fin 4) (r n : Fin 128) :
    sl4 (F := Ideal) v j (ValueIdx.ix2 r n) = v (ValueIdx.ix3 j r n) := by
  have e : Shape.reshapeEquiv squeezes_S1x128x128_S128x128.numel_eq (ValueIdx.ix2 r n) = ValueIdx.ix3 (0 : Fin 1) r n :=
    Shape.reshapeEquiv_eq_of_rowMajor _ (by rw [Shape.rowMajor_val_three, Shape.rowMajor_val_two]; simp)
  unfold sl4
  rw [View.read_apply]
  show v _ = _
  refine congrArg v (funext fun a => Fin.ext ?_)
  show (((Rect.unit (s := S4x128x128) ![j.val, 0, 0] S1x128x128.size (inb4 j)).emb
    (Shape.reshapeEquiv squeezes_S1x128x128_S128x128.numel_eq (ValueIdx.ix2 r n)) a : Fin _) : Nat) = _
  rw [e, Rect.emb_apply]
  match a with
  | ⟨0, _⟩ => show j.val + 1 * (0 : Fin 1).val = j.val; simp
  | ⟨1, _⟩ => show 0 + 1 * r.val = r.val; omega
  | ⟨2, _⟩ => show 0 + 1 * n.val = n.val; omega

theorem zero_word : Scalar.ofBits (F := Ideal) .f32 0x00000000#32 = (0 : EReal) := Ideal.ofBits_zero_f32

variable (m : (ℓ : Loc nD τ sig) → Buf (Elt Ideal) ℓ)

theorem xin_eq (c : Dev nD) : xin (F := Ideal) m c = m ((c : Thread nD τ).loc main_arg0) := by
  unfold xin iblk; exact Memref.read_access_unit_zero (Elt Ideal) _ (by funext a; match a with | ⟨0, _⟩ => rfl | ⟨1, _⟩ => rfl) _ _

theorem wiIn_eq (c : Dev nD) :
    wiIn (F := Ideal) m c 0 = m ((c : Thread nD τ).loc main_arg1)
    ∧ wiIn (F := Ideal) m c 1 = m ((c : Thread nD τ).loc main_arg3)
    ∧ wiIn (F := Ideal) m c 2 = m ((c : Thread nD τ).loc main_arg5) := by
  refine ⟨?_, ?_, ?_⟩ <;> (show iblk m c _ t₀ = _; unfold iblk; exact Memref.read_access_unit_zero (Elt Ideal) _ (by funext a; match a with | ⟨0, _⟩ => rfl | ⟨1, _⟩ => rfl) _ _)

theorem woIn_eq (c : Dev nD) :
    woIn (F := Ideal) m c 0 = m ((c : Thread nD τ).loc main_arg2)
    ∧ woIn (F := Ideal) m c 1 = m ((c : Thread nD τ).loc main_arg4)
    ∧ woIn (F := Ideal) m c 2 = m ((c : Thread nD τ).loc main_arg6) := by
  refine ⟨?_, ?_, ?_⟩ <;> (show iblk m c _ t₀ = _; unfold iblk; exact Memref.read_access_unit_zero (Elt Ideal) _ (by funext a; match a with | ⟨0, _⟩ => rfl | ⟨1, _⟩ => rfl) _ _)

theorem X0q_eq (c : Dev nD) : X0q (F := Ideal) m c = xin (F := Ideal) m c := by
  unfold X0q k0_pay8
  simp only [sq3_shapeCast, shapeCast_self]
  rfl

theorem Wi_eq (c : Dev nD) (k : Fin 3) : Wi (F := Ideal) m c k = wiIn (F := Ideal) m c k := by
  match k with
  | 0 => show sqW (k0_pay2 (k0_pay1 (wiIn m c 0))) = _; unfold k0_pay2 k0_pay1; simp only [sqW_shapeCast, shapeCast_self]; rfl
  | 1 => show sqW (k0_pay4 (wiIn m c 1)) = _; unfold k0_pay4; simp only [sqW_shapeCast, shapeCast_self]; rfl
  | 2 => show sqW (k0_pay6 (wiIn m c 2)) = _; unfold k0_pay6; simp only [sqW_shapeCast, shapeCast_self]; rfl

theorem Wo_eq (c : Dev nD) (k : Fin 3) : Wo (F := Ideal) m c k = woIn (F := Ideal) m c k := by
  match k with
  | 0 => show sqO (k0_pay3 (woIn m c 0)) = _; unfold k0_pay3; simp only [sqO_shapeCast, shapeCast_self]; rfl
  | 1 => show sqO (k0_pay5 (woIn m c 1)) = _; unfold k0_pay5; simp only [sqO_shapeCast, shapeCast_self]; rfl
  | 2 => show sqO (k0_pay7 (woIn m c 2)) = _; unfold k0_pay7; simp only [sqO_shapeCast, shapeCast_self]; rfl

def hid (a : S512x128.Idx → EReal) (wi : S128x256.Idx → EReal) (wo : S256x128.Idx → EReal) (R : Fin 512) (n : Fin 128) : EReal :=
  ∑ h : Fin 256, max (∑ d : Fin 128, a (ValueIdx.ix2 R d) * wi (ValueIdx.ix2 d h)) 0 * wo (ValueIdx.ix2 h n)

theorem stage_apply (a : FVec Ideal S512x128 .bf16) (wi : FVec Ideal S128x256 .bf16) (wo : FVec Ideal S256x128 .bf16)
    (R : Fin 512) (n : Fin 128) :
    matmul dot_S512x256_S256x128_S512x128_1_0_0_1_n_n none
        (truncf .bf16 (maximumf (matmul dot_S512x128_S128x256_S512x256_1_0_0_1_n_n none a wi (constant (F := Ideal) S512x256 .f32 0x00000000#32))
          (broadcast S512x256 (Scalar.ofBits (F := Ideal) .f32 0x00000000#32))) bitsLt_bf16_f32)
        wo (constant (F := Ideal) S512x128 .f32 0x00000000#32) (ValueIdx.ix2 R n)
      = hid a wi wo R n := by
  rw [mm_apply dot_S512x256_S256x128_S512x128_1_0_0_1_n_n rfl]
  unfold hid
  refine Finset.sum_congr rfl fun h _ => ?_
  rw [ValueIdx.truncf_apply, ValueIdx.maximumf_apply, mm_apply dot_S512x128_S128x256_S512x256_1_0_0_1_n_n rfl, ValueIdx.broadcast_apply, zero_word]

theorem pay10_apply (a : FVec Ideal S512x128 .bf16) (wi : S128x256.Idx → EReal) (wo : S256x128.Idx → EReal)
    (R : Fin 512) (n : Fin 128) :
    k0_pay10 (F := Ideal) a (unsqW wi) (unsqO wo) (ValueIdx.ix2 R n) = 0 + hid a wi wo R n := by
  unfold k0_pay10
  simp only [shapeCast_unsqW, shapeCast_unsqO]
  rw [ValueIdx.addf_apply, ValueIdx.broadcast_apply, stage_apply, zero_word]

theorem pay15_apply (a : FVec Ideal S512x128 .bf16) (wi : S128x256.Idx → EReal) (wo : S256x128.Idx → EReal)
    (R : Fin 512) (n : Fin 128) :
    k0_pay15 (F := Ideal) a (unsqW wi) (unsqO wo) (ValueIdx.ix2 R n) = 0 + hid a wi wo R n :=
  pay10_apply a wi wo R n

theorem pay11_apply (a : FVec Ideal S512x128 .bf16) (v : FVec Ideal S512x128 .f32) (wi : S128x256.Idx → EReal)
    (wo : S256x128.Idx → EReal) (j : Fin 4) (r n : Fin 128) (hR : j.val * 128 + r.val < 512) :
    k0_pay11 (F := Ideal) a v (unsqW wi) (unsqO wo) (ValueIdx.ix3 j r n)
      = v (ValueIdx.ix2 ⟨j.val * 128 + r.val, hR⟩ n) + hid a wi wo ⟨j.val * 128 + r.val, hR⟩ n := by
  unfold k0_pay11
  simp only [shapeCast_unsqW, shapeCast_unsqO, shapeCast_self]
  rw [cast4_apply _ _ j r n hR, ValueIdx.truncf_apply, ValueIdx.addf_apply, stage_apply]

theorem pay18_apply (a : FVec Ideal S512x128 .bf16) (v : FVec Ideal S512x128 .f32) (wi : S128x256.Idx → EReal)
    (wo : S256x128.Idx → EReal) (j : Fin 4) (r n : Fin 128) (hR : j.val * 128 + r.val < 512) :
    k0_pay18 (F := Ideal) v (k0_pay16 a (unsqW wi)) (k0_pay17 (unsqO wo)) (ValueIdx.ix3 j r n)
      = v (ValueIdx.ix2 ⟨j.val * 128 + r.val, hR⟩ n) + hid a wi wo ⟨j.val * 128 + r.val, hR⟩ n :=
  pay11_apply a v wi wo j r n hR

theorem pay22_apply (a : FVec Ideal S512x128 .bf16) (wi wi' : S128x256.Idx → EReal)
    (wo wo' : S256x128.Idx → EReal) (j : Fin 4) (r n : Fin 128) (hR : j.val * 128 + r.val < 512) :
    k0_pay22 (F := Ideal) a (unsqW wi) (unsqO wo) (unsqW wi') (unsqO wo') (ValueIdx.ix3 j r n)
      = (0 + hid a wi wo ⟨j.val * 128 + r.val, hR⟩ n) + hid a wi' wo' ⟨j.val * 128 + r.val, hR⟩ n := by
  unfold k0_pay22
  simp only [shapeCast_unsqW, shapeCast_unsqO, shapeCast_self]
  rw [cast4_apply _ _ j r n hR, ValueIdx.truncf_apply, ValueIdx.addf_apply, ValueIdx.addf_apply, ValueIdx.broadcast_apply,
    stage_apply, stage_apply, zero_word]

theorem pay9_apply (w : Fin 4 → S128x128.Idx → Elt Ideal .bf16) (j : Fin 4) (r d : Fin 128) (hR : j.val * 128 + r.val < 512) :
    k0_pay9 (F := Ideal) (asm4 w) (ValueIdx.ix2 ⟨j.val * 128 + r.val, hR⟩ d) = w j (ValueIdx.ix2 r d) := by
  unfold k0_pay9; rw [cast512_apply _ _ j r d hR]; rfl
theorem pay14_apply (w : Fin 4 → S128x128.Idx → Elt Ideal .bf16) (j : Fin 4) (r d : Fin 128) (hR : j.val * 128 + r.val < 512) :
    k0_pay14 (F := Ideal) (asm4 w) (ValueIdx.ix2 ⟨j.val * 128 + r.val, hR⟩ d) = w j (ValueIdx.ix2 r d) :=
  pay9_apply w j r d hR
theorem pay21_apply (w : Fin 4 → S128x128.Idx → Elt Ideal .bf16) (j : Fin 4) (r d : Fin 128) (hR : j.val * 128 + r.val < 512) :
    k0_pay21 (F := Ideal) (asm4 w) (ValueIdx.ix2 ⟨j.val * 128 + r.val, hR⟩ d) = w j (ValueIdx.ix2 r d) :=
  pay9_apply w j r d hR

theorem red0_apply (a b c d : S128x128.Idx → EReal) (i : S128x128.Idx) :
    sq3 (k0_pay13 (F := Ideal) (k0_pay12 (unsq3 a) (unsq3 b)) (unsq3 c) (unsq3 d)) i = ((a i + b i) + c i) + d i := by
  unfold k0_pay13 k0_pay12
  simp only [shapeCast_unsq3, sq3_shapeCast]
  rfl
theorem red1_apply (a b c d : S128x128.Idx → EReal) (i : S128x128.Idx) :
    sq3 (k0_pay20 (F := Ideal) (k0_pay19 (unsq3 a) (unsq3 b) (unsq3 c)) (unsq3 d)) i = ((a i + b i) + c i) + d i := by
  unfold k0_pay20 k0_pay19
  simp only [shapeCast_unsq3, sq3_shapeCast]
  rfl
theorem red2_apply (a b c d : S128x128.Idx → EReal) (i : S128x128.Idx) :
    k0_pay23 (F := Ideal) (unsq3 a) (unsq3 b) (unsq3 c) (unsq3 d) i = ((a i + b i) + c i) + d i := by
  unfold k0_pay23
  simp only [shapeCast_unsq3]
  rfl

end Cert.KernelIdeal.Val

end
-- ==== Proof.ValueK.lean ====
import proofs.«900976_g7700000000000977_dist_mlpseq_tp1d_bs_bs_b128_d128_h256_v7x_i8_bf16_1_alg».proof.Proof.Contents
import proofs.«900976_g7700000000000977_dist_mlpseq_tp1d_bs_bs_b128_d128_h256_v7x_i8_bf16_1_alg».proof.Proof.Spec
import Idealize.ShloMosaic.Lib.Layout
import Idealize.ShloMosaic.PureOps.Ideal.Laws
import Idealize.ShloMosaic.Lib.ValueIdx
import Idealize.ShloMosaic.Lib.Pipeline.Value
import Idealize.ShloMosaic.Lib.ValueLayout
import proofs.«900976_g7700000000000977_dist_mlpseq_tp1d_bs_bs_b128_d128_h256_v7x_i8_bf16_1_alg».proof.Proof.ValueK1

noncomputable section

namespace Cert.KernelIdeal.Val

open Cert.KernelIdeal Cert.KernelIdeal.Gen Cert.KernelIdeal.Mesh Cert.KernelIdeal.P
open Idealize.ShloMosaic
open Idealize.ShloMosaic.TcCoe
open Idealize.SL.Sem

theorem blocks_once : ∀ c : Dev nD,
    (↑[c, pp c 0, pp c 1, pp (pp c 1) 0, pp c 2, pp (pp c 2) 0, pp c 3, pp (pp c 3) 0] : Multiset (Dev nD))
      = (Finset.univ : Finset (Dev nD)).val := by decide +kernel

theorem sum8 (c : Dev nD) (g : Dev nD → EReal) :
    ((((0 + g c) + g (pp c 0)) + ((0 + g (pp c 1)) + g (pp (pp c 1) 0))) + ((0 + g (pp c 2)) + g (pp (pp c 2) 0)))
        + ((0 + g (pp c 3)) + g (pp (pp c 3) 0))
      = ∑ s : Dev nD, g s := by
  have e : ∑ s : Dev nD, g s
      = (Multiset.map g (↑[c, pp c 0, pp c 1, pp (pp c 1) 0, pp c 2, pp (pp c 2) 0, pp c 3, pp (pp c 3) 0] : Multiset (Dev nD))).sum := by
    rw [blocks_once c]; rfl
  rw [e]
  simp only [Multiset.map_coe, Multiset.sum_coe, List.map_cons, List.map_nil, List.sum_cons, List.sum_nil, zero_add, add_zero,
    add_assoc]

theorem plane_self : ∀ (c : Dev nD) (d : Fin 4), plane (pp c d) (qd c) = (if d = 0 then plane (pp c 0) (qd c) else c) := by
  decide +kernel
theorem plane_peer (c : Dev nD) (d : Fin 4) (hd : d ≠ 0) : plane (pp c d) (qd c) = c := by
  rw [plane_self, if_neg hd]

def rowOf (c : Fin 8) (r : Fin 128) : Fin 1024 := ⟨c.val * 128 + r.val, by have := c.isLt; have := r.isLt; omega⟩
def hidOf (s : Fin 8) (h : Fin 256) : Fin 2048 := ⟨s.val * 256 + h.val, by have := s.isLt; have := h.isLt; omega⟩
def actRow (j : Fin 4) (r : Fin 128) : Fin 512 := ⟨j.val * 128 + r.val, by have := j.isLt; have := r.isLt; omega⟩

theorem blkX_apply (A : Cert.Spec.S1024x128.Idx → EReal) (c : Fin 8) (r n : Fin 128) :
    (Layout.block ⟨2, ![128, 128]⟩ ⟨2, ![1024, 128]⟩ 0 8 c A) (ValueIdx.ix2 r n) = A (ValueIdx.ix2 (rowOf c r) n) := by
  rw [Layout.block_apply]
  exact congrArg A (funext fun a => Fin.ext (by match a with | ⟨0, _⟩ => rfl | ⟨1, _⟩ => rfl))

theorem blkWi_apply (W : Cert.Spec.S128x2048.Idx → EReal) (c : Fin 8) (d : Fin 128) (h : Fin 256) :
    (Layout.block ⟨2, ![128, 256]⟩ ⟨2, ![128, 2048]⟩ 1 8 c W) (ValueIdx.ix2 d h) = W (ValueIdx.ix2 d (hidOf c h)) := by
  rw [Layout.block_apply]
  exact congrArg W (funext fun a => Fin.ext (by match a with | ⟨0, _⟩ => rfl | ⟨1, _⟩ => rfl))

theorem blkWo_apply (V : Cert.Spec.S2048x128.Idx → EReal) (c : Fin 8) (h : Fin 256) (n : Fin 128) :
    (Layout.block ⟨2, ![256, 128]⟩ ⟨2, ![2048, 128]⟩ 0 8 c V) (ValueIdx.ix2 h n) = V (ValueIdx.ix2 (hidOf c h) n) := by
  rw [Layout.block_apply]
  exact congrArg V (funext fun a => Fin.ext (by match a with | ⟨0, _⟩ => rfl | ⟨1, _⟩ => rfl))

theorem sum_blocks (f : Fin 2048 → EReal) :
    ∑ h : Fin 2048, f h = ∑ s : Fin 8, ∑ h : Fin 256, f (hidOf s h) := by
  rw [← Fintype.sum_prod_type']
  refine (Fintype.sum_equiv (finProdFinEquiv (m := 8) (n := 256)) _ _ fun p => ?_).symm
  exact congrArg f (Fin.ext (by simp [finProdFinEquiv, hidOf]; omega))

theorem layer_step (A : Cert.Spec.S1024x128.Idx → EReal) (W : Cert.Spec.S128x2048.Idx → EReal) (V : Cert.Spec.S2048x128.Idx → EReal)
    (slot : Dev nD → S128x128.Idx → EReal) (wi : Dev nD → S128x256.Idx → EReal) (wo : Dev nD → S256x128.Idx → EReal)
    (acts : Dev nD → S512x128.Idx → EReal) (P : Dev nD → S4x128x128.Idx → EReal) (xn : Dev nD → S128x128.Idx → EReal)
    (hs : ∀ c, slot c = Layout.block ⟨2, ![128, 128]⟩ ⟨2, ![1024, 128]⟩ 0 8 c A)
    (hwi : ∀ c, wi c = Layout.block ⟨2, ![128, 256]⟩ ⟨2, ![128, 2048]⟩ 1 8 c W)
    (hwo : ∀ c, wo c = Layout.block ⟨2, ![256, 128]⟩ ⟨2, ![2048, 128]⟩ 0 8 c V)
    (hacts : ∀ (c : Dev nD) (j : Fin 4) (r d : Fin 128),
      acts c (ValueIdx.ix2 (actRow j r) d) = slot (plane c j) (ValueIdx.ix2 r d))
    (hP : ∀ (c : Dev nD) (j : Fin 4) (r n : Fin 128),
      P c (ValueIdx.ix3 j r n) = (0 + hid (acts c) (wi c) (wo c) (actRow j r) n)
        + hid (acts c) (wi (pp c 0)) (wo (pp c 0)) (actRow j r) n)
    (hxn : ∀ (c : Dev nD) (r n : Fin 128), xn c (ValueIdx.ix2 r n)
      = ((P c (ValueIdx.ix3 (qd c) r n) + P (pp c 1) (ValueIdx.ix3 (qd c) r n)) + P (pp c 2) (ValueIdx.ix3 (qd c) r n))
          + P (pp c 3) (ValueIdx.ix3 (qd c) r n))
    (c : Dev nD) : xn c = Layout.block ⟨2, ![128, 128]⟩ ⟨2, ![1024, 128]⟩ 0 8 c (Cert.Spec.layer A W V) := by
  funext i
  obtain ⟨r, n, rfl⟩ : ∃ (r n : Fin 128), i = ValueIdx.ix2 r n := ⟨i 0, i 1, ValueIdx.eq_ix2 i⟩
  have hrow : ∀ (c' : Dev nD), plane c' (qd c) = c → ∀ d : Fin 128,
      acts c' (ValueIdx.ix2 (actRow (qd c) r) d) = A (ValueIdx.ix2 (rowOf c r) d) := by
    intro c' hc' d
    rw [hacts c' (qd c) r d, hc', hs c, blkX_apply A c r d]
  have hhid : ∀ (c' s : Dev nD), plane c' (qd c) = c →
      hid (acts c') (wi s) (wo s) (actRow (qd c) r) n
        = ∑ h : Fin 256, max (∑ d : Fin 128, A (ValueIdx.ix2 (rowOf c r) d) * W (ValueIdx.ix2 d (hidOf s h))) 0
            * V (ValueIdx.ix2 (hidOf s h) n) := by
    intro c' s hc'
    unfold hid
    simp only [hrow c' hc', hwi s, hwo s, blkWi_apply, blkWo_apply]
  rw [hxn c r n, hP c _ r n, hP (pp c 1) _ r n, hP (pp c 2) _ r n, hP (pp c 3) _ r n,
    hhid c c (plane_qd c), hhid c (pp c 0) (plane_qd c),
    hhid (pp c 1) (pp c 1) (plane_peer c 1 (by decide)), hhid (pp c 1) (pp (pp c 1) 0) (plane_peer c 1 (by decide)),
    hhid (pp c 2) (pp c 2) (plane_peer c 2 (by decide)), hhid (pp c 2) (pp (pp c 2) 0) (plane_peer c 2 (by decide)),
    hhid (pp c 3) (pp c 3) (plane_peer c 3 (by decide)), hhid (pp c 3) (pp (pp c 3) 0) (plane_peer c 3 (by decide)),
    sum8 c (fun s => ∑ h : Fin 256, max (∑ d : Fin 128, A (ValueIdx.ix2 (rowOf c r) d) * W (ValueIdx.ix2 d (hidOf s h))) 0
            * V (ValueIdx.ix2 (hidOf s h) n)),
    blkX_apply _ c r n, Cert.Spec.layer_apply, sum_blocks]

variable (m : (ℓ : Loc nD τ sig) → Buf (Elt Ideal) ℓ)

theorem hacts0 (c : Dev nD) (j : Fin 4) (r d : Fin 128) :
    acts0 (F := Ideal) m c (ValueIdx.ix2 (actRow j r) d) = X0q (F := Ideal) m (plane c j) (ValueIdx.ix2 r d) :=
  pay9_apply _ j r d (actRow j r).isLt
theorem hacts1 (c : Dev nD) (j : Fin 4) (r d : Fin 128) :
    acts1 (F := Ideal) m c (ValueIdx.ix2 (actRow j r) d) = xn0 (F := Ideal) m (plane c j) (ValueIdx.ix2 r d) :=
  pay14_apply _ j r d (actRow j r).isLt
theorem hacts2 (c : Dev nD) (j : Fin 4) (r d : Fin 128) :
    acts2 (F := Ideal) m c (ValueIdx.ix2 (actRow j r) d) = xn1 (F := Ideal) m (plane c j) (ValueIdx.ix2 r d) :=
  pay21_apply _ j r d (actRow j r).isLt

theorem hP0 (c : Dev nD) (j : Fin 4) (r n : Fin 128) :
    P0 (F := Ideal) m c (ValueIdx.ix3 j r n)
      = (0 + hid (acts0 (F := Ideal) m c) (Wi (F := Ideal) m c 0) (Wo (F := Ideal) m c 0) (actRow j r) n)
        + hid (acts0 (F := Ideal) m c) (Wi (F := Ideal) m (pp c 0) 0) (Wo (F := Ideal) m (pp c 0) 0) (actRow j r) n := by
  unfold P0
  rw [pay11_apply _ _ _ _ j r n (actRow j r).isLt, pay10_apply]
  rfl
theorem hP1 (c : Dev nD) (j : Fin 4) (r n : Fin 128) :
    P1 (F := Ideal) m c (ValueIdx.ix3 j r n)
      = (0 + hid (acts1 (F := Ideal) m c) (Wi (F := Ideal) m c 1) (Wo (F := Ideal) m c 1) (actRow j r) n)
        + hid (acts1 (F := Ideal) m c) (Wi (F := Ideal) m (pp c 0) 1) (Wo (F := Ideal) m (pp c 0) 1) (actRow j r) n := by
  unfold P1
  rw [pay18_apply _ _ _ _ j r n (actRow j r).isLt, pay15_apply]
  rfl
theorem hP2 (c : Dev nD) (j : Fin 4) (r n : Fin 128) :
    P2 (F := Ideal) m c (ValueIdx.ix3 j r n)
      = (0 + hid (acts2 (F := Ideal) m c) (Wi (F := Ideal) m c 2) (Wo (F := Ideal) m c 2) (actRow j r) n)
        + hid (acts2 (F := Ideal) m c) (Wi (F := Ideal) m (pp c 0) 2) (Wo (F := Ideal) m (pp c 0) 2) (actRow j r) n := by
  unfold P2
  rw [pay22_apply _ _ _ _ _ j r n (actRow j r).isLt]
  rfl

theorem hxn0 (c : Dev nD) (r n : Fin 128) :
    xn0 (F := Ideal) m c (ValueIdx.ix2 r n)
      = ((P0 (F := Ideal) m c (ValueIdx.ix3 (qd c) r n) + P0 (F := Ideal) m (pp c 1) (ValueIdx.ix3 (qd c) r n))
          + P0 (F := Ideal) m (pp c 2) (ValueIdx.ix3 (qd c) r n)) + P0 (F := Ideal) m (pp c 3) (ValueIdx.ix3 (qd c) r n) := by
  unfold xn0
  rw [red0_apply, sl4_apply, sl4_apply, sl4_apply, sl4_apply]
theorem hxn1 (c : Dev nD) (r n : Fin 128) :
    xn1 (F := Ideal) m c (ValueIdx.ix2 r n)
      = ((P1 (F := Ideal) m c (ValueIdx.ix3 (qd c) r n) + P1 (F := Ideal) m (pp c 1) (ValueIdx.ix3 (qd c) r n))
          + P1 (F := Ideal) m (pp c 2) (ValueIdx.ix3 (qd c) r n)) + P1 (F := Ideal) m (pp c 3) (ValueIdx.ix3 (qd c) r n) := by
  unfold xn1
  rw [red1_apply, sl4_apply, sl4_apply, sl4_apply, sl4_apply]
theorem hOUT (c : Dev nD) (r n : Fin 128) :
    OUT (F := Ideal) m c (ValueIdx.ix2 r n)
      = ((P2 (F := Ideal) m c (ValueIdx.ix3 (qd c) r n) + P2 (F := Ideal) m (pp c 1) (ValueIdx.ix3 (qd c) r n))
          + P2 (F := Ideal) m (pp c 2) (ValueIdx.ix3 (qd c) r n)) + P2 (F := Ideal) m (pp c 3) (ValueIdx.ix3 (qd c) r n) := by
  unfold OUT
  rw [red2_apply, sl4_apply, sl4_apply, sl4_apply, sl4_apply]

theorem out_eq (X : Cert.Spec.S1024x128.Idx → EReal)
    (Wi0 Wi1 Wi2 : Cert.Spec.S128x2048.Idx → EReal) (Wo0 Wo1 Wo2 : Cert.Spec.S2048x128.Idx → EReal)
    (h : ∀ c : Dev Cert.KernelIdeal.nD,
      m ((c.tc : Thread Cert.KernelIdeal.nD Cert.KernelIdeal.τ).loc Cert.KernelIdeal.main_arg0) = Layout.block ⟨2, ![128, 128]⟩ ⟨2, ![1024, 128]⟩ 0 8 c X
      ∧ m ((c.tc : Thread Cert.KernelIdeal.nD Cert.KernelIdeal.τ).loc Cert.KernelIdeal.main_arg1) = Layout.block ⟨2, ![128, 256]⟩ ⟨2, ![128, 2048]⟩ 1 8 c Wi0
      ∧ m ((c.tc : Thread Cert.KernelIdeal.nD Cert.KernelIdeal.τ).loc Cert.KernelIdeal.main_arg2) = Layout.block ⟨2, ![256, 128]⟩ ⟨2, ![2048, 128]⟩ 0 8 c Wo0
      ∧ m ((c.tc : Thread Cert.KernelIdeal.nD Cert.KernelIdeal.τ).loc Cert.KernelIdeal.main_arg3) = Layout.block ⟨2, ![128, 256]⟩ ⟨2, ![128, 2048]⟩ 1 8 c Wi1
      ∧ m ((c.tc : Thread Cert.KernelIdeal.nD Cert.KernelIdeal.τ).loc Cert.KernelIdeal.main_arg4) = Layout.block ⟨2, ![256, 128]⟩ ⟨2, ![2048, 128]⟩ 0 8 c Wo1
      ∧ m ((c.tc : Thread Cert.KernelIdeal.nD Cert.KernelIdeal.τ).loc Cert.KernelIdeal.main_arg5) = Layout.block ⟨2, ![128, 256]⟩ ⟨2, ![128, 2048]⟩ 1 8 c Wi2
      ∧ m ((c.tc : Thread Cert.KernelIdeal.nD Cert.KernelIdeal.τ).loc Cert.KernelIdeal.main_arg6) = Layout.block ⟨2, ![256, 128]⟩ ⟨2, ![2048, 128]⟩ 0 8 c Wo2)
    (c : Dev Cert.KernelIdeal.nD) :
    Cert.KernelIdeal.P.OUT (F := Ideal) m c
      = Layout.block ⟨2, ![128, 128]⟩ ⟨2, ![1024, 128]⟩ 0 8 c (Cert.Spec.mlp3 X Wi0 Wo0 Wi1 Wo1 Wi2 Wo2) := by
  have hwi : ∀ (k : Fin 3) (c : Dev nD), Wi (F := Ideal) m c k
      = Layout.block ⟨2, ![128, 256]⟩ ⟨2, ![128, 2048]⟩ 1 8 c (match k with | 0 => Wi0 | 1 => Wi1 | 2 => Wi2) := by
    intro k c
    rw [Wi_eq]
    match k with
    | 0 => exact ((wiIn_eq m c).1).trans (h c).2.1
    | 1 => exact ((wiIn_eq m c).2.1).trans (h c).2.2.2.1
    | 2 => exact ((wiIn_eq m c).2.2).trans (h c).2.2.2.2.2.1
  have hwo : ∀ (k : Fin 3) (c : Dev nD), Wo (F := Ideal) m c k
      = Layout.block ⟨2, ![256, 128]⟩ ⟨2, ![2048, 128]⟩ 0 8 c (match k with | 0 => Wo0 | 1 => Wo1 | 2 => Wo2) := by
    intro k c
    rw [Wo_eq]
    match k with
    | 0 => exact ((woIn_eq m c).1).trans (h c).2.2.1
    | 1 => exact ((woIn_eq m c).2.1).trans (h c).2.2.2.2.1
    | 2 => exact ((woIn_eq m c).2.2).trans (h c).2.2.2.2.2.2
  have h0 : ∀ c : Dev nD, X0q (F := Ideal) m c = Layout.block ⟨2, ![128, 128]⟩ ⟨2, ![1024, 128]⟩ 0 8 c X := fun c =>
    ((X0q_eq m c).trans (xin_eq m c)).trans (h c).1
  have h1 := layer_step X Wi0 Wo0 (X0q (F := Ideal) m) (fun c => Wi (F := Ideal) m c 0) (fun c => Wo (F := Ideal) m c 0)
    (acts0 (F := Ideal) m) (P0 (F := Ideal) m) (xn0 (F := Ideal) m) h0 (hwi 0) (hwo 0) (hacts0 m) (hP0 m) (hxn0 m)
  have h2 := layer_step _ Wi1 Wo1 (xn0 (F := Ideal) m) (fun c => Wi (F := Ideal) m c 1) (fun c => Wo (F := Ideal) m c 1)
    (acts1 (F := Ideal) m) (P1 (F := Ideal) m) (xn1 (F := Ideal) m) h1 (hwi 1) (hwo 1) (hacts1 m) (hP1 m) (hxn1 m)
  exact layer_step _ Wi2 Wo2 (xn1 (F := Ideal) m) (fun c => Wi (F := Ideal) m c 2) (fun c => Wo (F := Ideal) m c 2)
    (acts2 (F := Ideal) m) (P2 (F := Ideal) m) (OUT (F := Ideal) m) h2 (hwi 2) (hwo 2) (hacts2 m) (hP2 m) (hOUT m) c

end Cert.KernelIdeal.Val

end
-- ==== Proof.lean ====
import proofs.«900976_g7700000000000977_dist_mlpseq_tp1d_bs_bs_b128_d128_h256_v7x_i8_bf16_1_alg».proof.Defs
import proofs.«900976_g7700000000000977_dist_mlpseq_tp1d_bs_bs_b128_d128_h256_v7x_i8_bf16_1_alg».proof.Proof.Gen.Kernel
import proofs.«900976_g7700000000000977_dist_mlpseq_tp1d_bs_bs_b128_d128_h256_v7x_i8_bf16_1_alg».proof.Proof.Gen.KernelIdeal
import proofs.«900976_g7700000000000977_dist_mlpseq_tp1d_bs_bs_b128_d128_h256_v7x_i8_bf16_1_alg».proof.Proof.Gen.ReferenceIdeal
import proofs.«900976_g7700000000000977_dist_mlpseq_tp1d_bs_bs_b128_d128_h256_v7x_i8_bf16_1_alg».proof.Proof.Gen.Pre_finite_inputs_Kernel
import proofs.«900976_g7700000000000977_dist_mlpseq_tp1d_bs_bs_b128_d128_h256_v7x_i8_bf16_1_alg».proof.Proof.Gen.Pre_finite_inputs_ReferenceIdeal
import proofs.«900976_g7700000000000977_dist_mlpseq_tp1d_bs_bs_b128_d128_h256_v7x_i8_bf16_1_alg».proof.Proof.Body
import proofs.«900976_g7700000000000977_dist_mlpseq_tp1d_bs_bs_b128_d128_h256_v7x_i8_bf16_1_alg».proof.Proof.Bits.Body
import proofs.«900976_g7700000000000977_dist_mlpseq_tp1d_bs_bs_b128_d128_h256_v7x_i8_bf16_1_alg».proof.Proof.LaunchRun
import proofs.«900976_g7700000000000977_dist_mlpseq_tp1d_bs_bs_b128_d128_h256_v7x_i8_bf16_1_alg».proof.Proof.Bits.LaunchRun
import proofs.«900976_g7700000000000977_dist_mlpseq_tp1d_bs_bs_b128_d128_h256_v7x_i8_bf16_1_alg».proof.Proof.RefValue
import proofs.«900976_g7700000000000977_dist_mlpseq_tp1d_bs_bs_b128_d128_h256_v7x_i8_bf16_1_alg».proof.Proof.ValueK
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m ρ _ => (θ_run Cert.Kernel.defs _ _).mono (fun _ h c => (h c).2) (Cert.Kernel.P.run_value m ρ (Cert.Kernel.P.body_obligation m ρ)),
    fun m ρ _ => (θ_run Cert.KernelIdeal.defs _ _).mono (fun _ h c => (h c).2) (Cert.KernelIdeal.P.run_value m ρ (Cert.KernelIdeal.P.body_obligation m ρ)),
    fun m ρ _ => (θ_run Cert.ReferenceIdeal.defs _ _).mono (fun _ h c => (h c).2) (Cert.ReferenceIdeal.Value.run (F := Ideal) m ρ),
    trivial,
    fun m ρ m' ρ' _ hagree => by
      refine ⟨_, ?_, Cert.RefValue.ref_run m' ρ'⟩
      exact (θ_run (Cert.KernelIdeal.defs (F := Ideal)) _ _).mono
        (fun r h c => ⟨(h c).1.trans (Cert.KernelIdeal.Val.out_eq m _ _ _ _ _ _ _ hagree c), (h c).2⟩)
        (Cert.KernelIdeal.P.run_value m ρ (Cert.KernelIdeal.P.body_obligation m ρ))⟩

end Cert.Proof

end
